-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x32x32 : Shape := ⟨4, ![128, 64, 32, 32]⟩
abbrev S64 : Shape := ⟨1, ![64]⟩
abbrev S32x64x3x3 : Shape := ⟨4, ![32, 64, 3, 3]⟩
abbrev S96 : Shape := ⟨1, ![96]⟩
abbrev S32x96x3x3 : Shape := ⟨4, ![32, 96, 3, 3]⟩
abbrev S128 : Shape := ⟨1, ![128]⟩
abbrev S32x128x3x3 : Shape := ⟨4, ![32, 128, 3, 3]⟩
abbrev S160 : Shape := ⟨1, ![160]⟩
abbrev S32x160x3x3 : Shape := ⟨4, ![32, 160, 3, 3]⟩
abbrev S192 : Shape := ⟨1, ![192]⟩
abbrev S32x192x3x3 : Shape := ⟨4, ![32, 192, 3, 3]⟩
abbrev S224 : Shape := ⟨1, ![224]⟩
abbrev S32x224x3x3 : Shape := ⟨4, ![32, 224, 3, 3]⟩
abbrev S_ : Shape := ⟨0, ![]⟩

class Facts : Prop where
  bcast_S_S128x64x32x32 : S_.BroadcastsInDim S128x64x32x32 (![] : Fin 0 → Fin S128x64x32x32.rank)
  reducesTo_S128x64x32x32_S_d0_1_2_3 : S128x64x32x32.ReducesTo [0, 1, 2, 3] S_
  h_S_ : 0 < S_.numel
  bcast_S_S64 : S_.BroadcastsInDim S64 (![] : Fin 0 → Fin S64.rank)
  reducesTo_S64_S_d0 : S64.ReducesTo [0] S_
  bcast_S_S32x64x3x3 : S_.BroadcastsInDim S32x64x3x3 (![] : Fin 0 → Fin S32x64x3x3.rank)
  reducesTo_S32x64x3x3_S_d0_1_2_3 : S32x64x3x3.ReducesTo [0, 1, 2, 3] S_
  bcast_S_S96 : S_.BroadcastsInDim S96 (![] : Fin 0 → Fin S96.rank)
  reducesTo_S96_S_d0 : S96.ReducesTo [0] S_
  bcast_S_S32x96x3x3 : S_.BroadcastsInDim S32x96x3x3 (![] : Fin 0 → Fin S32x96x3x3.rank)
  reducesTo_S32x96x3x3_S_d0_1_2_3 : S32x96x3x3.ReducesTo [0, 1, 2, 3] S_
  bcast_S_S128 : S_.BroadcastsInDim S128 (![] : Fin 0 → Fin S128.rank)
  reducesTo_S128_S_d0 : S128.ReducesTo [0] S_
  bcast_S_S32x128x3x3 : S_.BroadcastsInDim S32x128x3x3 (![] : Fin 0 → Fin S32x128x3x3.rank)
  reducesTo_S32x128x3x3_S_d0_1_2_3 : S32x128x3x3.ReducesTo [0, 1, 2, 3] S_
  bcast_S_S160 : S_.BroadcastsInDim S160 (![] : Fin 0 → Fin S160.rank)
  reducesTo_S160_S_d0 : S160.ReducesTo [0] S_
  bcast_S_S32x160x3x3 : S_.BroadcastsInDim S32x160x3x3 (![] : Fin 0 → Fin S32x160x3x3.rank)
  reducesTo_S32x160x3x3_S_d0_1_2_3 : S32x160x3x3.ReducesTo [0, 1, 2, 3] S_
  bcast_S_S192 : S_.BroadcastsInDim S192 (![] : Fin 0 → Fin S192.rank)
  reducesTo_S192_S_d0 : S192.ReducesTo [0] S_
  bcast_S_S32x192x3x3 : S_.BroadcastsInDim S32x192x3x3 (![] : Fin 0 → Fin S32x192x3x3.rank)
  reducesTo_S32x192x3x3_S_d0_1_2_3 : S32x192x3x3.ReducesTo [0, 1, 2, 3] S_
  bcast_S_S224 : S_.BroadcastsInDim S224 (![] : Fin 0 → Fin S224.rank)
  reducesTo_S224_S_d0 : S224.ReducesTo [0] S_
  bcast_S_S32x224x3x3 : S_.BroadcastsInDim S32x224x3x3 (![] : Fin 0 → Fin S32x224x3x3.rank)
  reducesTo_S32x224x3x3_S_d0_1_2_3 : S32x224x3x3.ReducesTo [0, 1, 2, 3] S_

variable [Facts]

def fn_part5 {F : FTy → Type} [FloatOps F] (main_arg18 : FVec F S32x224x3x3 .f32) (main_v83 : IVec S_ 1) (main_v84 : FVec F S224 .f32) (main_cst_32 : FVec F S_ .f32) : IVec S_ 1 :=
  let main_v85 : FVec F S224 .f32 := broadcastInDim S224 ![] bcast_S_S224 main_cst_32
  let main_v86 : IVec S224 1 := cmpf .olt main_v84 main_v85
  let main_c_33 : IVec S_ 1 := constantI S_ 1 1#1
  let main_v87 : IVec S_ 1 := (fun x v => Host.reduce IntOp.andi x v reducesTo_S224_S_d0 h_S_) main_v86 main_c_33
  let main_v88 : IVec S_ 1 := andi main_v83 main_v87
  let main_v89 : FVec F S32x224x3x3 .f32 := Host.absf main_arg18
  let main_cst_34 : FVec F S_ .f32 := constant S_ .f32 0x7F800000#32
  let main_v90 : FVec F S32x224x3x3 .f32 := broadcastInDim S32x224x3x3 ![] bcast_S_S32x224x3x3 main_cst_34
  let main_v91 : IVec S32x224x3x3 1 := cmpf .olt main_v89 main_v90
  let main_c_35 : IVec S_ 1 := constantI S_ 1 1#1
  let main_v92 : IVec S_ 1 := (fun x v => Host.reduce IntOp.andi x v reducesTo_S32x224x3x3_S_d0_1_2_3 h_S_) main_v91 main_c_35
  let main_v93 : IVec S_ 1 := andi main_v88 main_v92
  main_v93

def fn_part4 {F : FTy → Type} [FloatOps F] (main_arg14 : FVec F S192 .f32) (main_arg15 : FVec F S32x192x3x3 .f32) (main_arg16 : FVec F S224 .f32) (main_arg17 : FVec F S224 .f32) (main_arg18 : FVec F S32x224x3x3 .f32) (main_v63 : IVec S_ 1) (main_v67 : IVec S_ 1) : IVec S_ 1 :=
  let main_v68 : IVec S_ 1 := andi main_v63 main_v67
  let main_v69 : FVec F S192 .f32 := Host.absf main_arg14
  let main_cst_26 : FVec F S_ .f32 := constant S_ .f32 0x7F800000#32
  let main_v70 : FVec F S192 .f32 := broadcastInDim S192 ![] bcast_S_S192 main_cst_26
  let main_v71 : IVec S192 1 := cmpf .olt main_v69 main_v70
  let main_c_27 : IVec S_ 1 := constantI S_ 1 1#1
  let main_v72 : IVec S_ 1 := (fun x v => Host.reduce IntOp.andi x v reducesTo_S192_S_d0 h_S_) main_v71 main_c_27
  let main_v73 : IVec S_ 1 := andi main_v68 main_v72
  let main_v74 : FVec F S32x192x3x3 .f32 := Host.absf main_arg15
  let main_cst_28 : FVec F S_ .f32 := constant S_ .f32 0x7F800000#32
  let main_v75 : FVec F S32x192x3x3 .f32 := broadcastInDim S32x192x3x3 ![] bcast_S_S32x192x3x3 main_cst_28
  let main_v76 : IVec S32x192x3x3 1 := cmpf .olt main_v74 main_v75
  let main_c_29 : IVec S_ 1 := constantI S_ 1 1#1
  let main_v77 : IVec S_ 1 := (fun x v => Host.reduce IntOp.andi x v reducesTo_S32x192x3x3_S_d0_1_2_3 h_S_) main_v76 main_c_29
  let main_v78 : IVec S_ 1 := andi main_v73 main_v77
  let main_v79 : FVec F S224 .f32 := Host.absf main_arg16
  let main_cst_30 : FVec F S_ .f32 := constant S_ .f32 0x7F800000#32
  let main_v80 : FVec F S224 .f32 := broadcastInDim S224 ![] bcast_S_S224 main_cst_30
  let main_v81 : IVec S224 1 := cmpf .olt main_v79 main_v80
  let main_c_31 : IVec S_ 1 := constantI S_ 1 1#1
  let main_v82 : IVec S_ 1 := (fun x v => Host.reduce IntOp.andi x v reducesTo_S224_S_d0 h_S_) main_v81 main_c_31
  let main_v83 : IVec S_ 1 := andi main_v78 main_v82
  let main_v84 : FVec F S224 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S160 .f32) (main_arg12 : FVec F S32x160x3x3 .f32) (main_arg13 : FVec F S192 .f32) (main_arg14 : FVec F S192 .f32) (main_arg15 : FVec F S32x192x3x3 .f32) (main_arg16 : FVec F S224 .f32) (main_arg17 : FVec F S224 .f32) (main_arg18 : FVec F S32x224x3x3 .f32) (main_v48 : IVec S_ 1) (main_v49 : FVec F S160 .f32) (main_v50 : FVec F S160 .f32) : IVec S_ 1 :=
  let main_v51 : IVec S160 1 := cmpf .olt main_v49 main_v50
  let main_c_19 : IVec S_ 1 := constantI S_ 1 1#1
  let main_v52 : IVec S_ 1 := (fun x v => Host.reduce IntOp.andi x v reducesTo_S160_S_d0 h_S_) main_v51 main_c_19
  let main_v53 : IVec S_ 1 := andi main_v48 main_v52
  let main_v54 : FVec F S160 .f32 := Host.absf main_arg11
  let main_cst_20 : FVec F S_ .f32 := constant S_ .f32 0x7F800000#32
  let main_v55 : FVec F S160 .f32 := broadcastInDim S160 ![] bcast_S_S160 main_cst_20
  let main_v56 : IVec S160 1 := cmpf .olt main_v54 main_v55
  let main_c_21 : IVec S_ 1 := constantI S_ 1 1#1
  let main_v57 : IVec S_ 1 := (fun x v => Host.reduce IntOp.andi x v reducesTo_S160_S_d0 h_S_) main_v56 main_c_21
  let main_v58 : IVec S_ 1 := andi main_v53 main_v57
  let main_v59 : FVec F S32x160x3x3 .f32 := Host.absf main_arg12
  let main_cst_22 : FVec F S_ .f32 := constant S_ .f32 0x7F800000#32
  let main_v60 : FVec F S32x160x3x3 .f32 := broadcastInDim S32x160x3x3 ![] bcast_S_S32x160x3x3 main_cst_22
  let main_v61 : IVec S32x160x3x3 1 := cmpf .olt main_v59 main_v60
  let main_c_23 : IVec S_ 1 := constantI S_ 1 1#1
  let main_v62 : IVec S_ 1 := (fun x v => Host.reduce IntOp.andi x v reducesTo_S32x160x3x3_S_d0_1_2_3 h_S_) main_v61 main_c_23
  let main_v63 : IVec S_ 1 := andi main_v58 main_v62
  let main_v64 : FVec F S192 .f32 := Host.absf main_arg13
  let main_cst_24 : FVec F S_ .f32 := constant S_ .f32 0x7F800000#32
  let main_v65 : FVec F S192 .f32 := broadcastInDim S192 ![] bcast_S_S192 main_cst_24
  let main_v66 : IVec S192 1 := cmpf .olt main_v64 main_v65
  let main_c_25 : IVec S_ 1 := constantI S_ 1 1#1
  let main_v67 : IVec S_ 1 := (fun x v => Host.reduce IntOp.andi x v reducesTo_S192_S_d0 h_S_) main_v66 main_c_25
  fn_part4 (F := F) main_arg14 main_arg15 main_arg16 main_arg17 main_arg18 main_v63 main_v67

def fn_part2 {F : FTy → Type} [FloatOps F] (main_arg7 : FVec F S128 .f32) (main_arg8 : FVec F S128 .f32) (main_arg9 : FVec F S32x128x3x3 .f32) (main_arg10 : FVec F S160 .f32) (main_arg11 : FVec F S160 .f32) (main_arg12 : FVec F S32x160x3x3 .f32) (main_arg13 : FVec F S192 .f32) (main_arg14 : FVec F S192 .f32) (main_arg15 : FVec F S32x192x3x3 .f32) (main_arg16 : FVec F S224 .f32) (main_arg17 : FVec F S224 .f32) (main_arg18 : FVec F S32x224x3x3 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S32x128x3x3 .f32 := Host.absf main_arg9
  let main_cst_16 : FVec F S_ .f32 := constant S_ .f32 0x7F800000#32
  let main_v45 : FVec F S32x128x3x3 .f32 := broadcastInDim S32x128x3x3 ![] bcast_S_S32x128x3x3 main_cst_16
  let main_v46 : IVec S32x128x3x3 1 := cmpf .olt main_v44 main_v45
  let main_c_17 : IVec S_ 1 := constantI S_ 1 1#1
  let main_v47 : IVec S_ 1 := (fun x v => Host.reduce IntOp.andi x v reducesTo_S32x128x3x3_S_d0_1_2_3 h_S_) main_v46 main_c_17
  let main_v48 : IVec S_ 1 := andi main_v43 main_v47
  let main_v49 : FVec F S160 .f32 := Host.absf main_arg10
  let main_cst_18 : FVec F S_ .f32 := constant S_ .f32 0x7F800000#32
  let main_v50 : FVec F S160 .f32 := broadcastInDim S160 ![] bcast_S_S160 main_cst_18
  fn_part3 (F := F) main_arg11 main_arg12 main_arg13 main_arg14 main_arg15 main_arg16 main_arg17 main_arg18 main_v48 main_v49 main_v50

def fn_part1 {F : FTy → Type} [FloatOps F] (main_arg4 : FVec F S96 .f32) (main_arg5 : FVec F S96 .f32) (main_arg6 : FVec F S32x96x3x3 .f32) (main_arg7 : FVec F S128 .f32) (main_arg8 : FVec F S128 .f32) (main_arg9 : FVec F S32x128x3x3 .f32) (main_arg10 : FVec F S160 .f32) (main_arg11 : FVec F S160 .f32) (main_arg12 : FVec F S32x160x3x3 .f32) (main_arg13 : FVec F S192 .f32) (main_arg14 : FVec F S192 .f32) (main_arg15 : FVec F S32x192x3x3 .f32) (main_arg16 : FVec F S224 .f32) (main_arg17 : FVec F S224 .f32) (main_arg18 : FVec F S32x224x3x3 .f32) (main_v13 : IVec S_ 1) (main_v16 : IVec S32x64x3x3 1) : IVec S_ 1 :=
  let main_c_5 : IVec S_ 1 := constantI S_ 1 1#1
  let main_v17 : IVec S_ 1 := (fun x v => Host.reduce IntOp.andi x v reducesTo_S32x64x3x3_S_d0_1_2_3 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S32x96x3x3 .f32 := Host.absf main_arg6
  let main_cst_10 : FVec F S_ .f32 := constant S_ .f32 0x7F800000#32
  let main_v30 : FVec F S32x96x3x3 .f32 := broadcastInDim S32x96x3x3 ![] bcast_S_S32x96x3x3 main_cst_10
  let main_v31 : IVec S32x96x3x3 1 := cmpf .olt main_v29 main_v30
  let main_c_11 : IVec S_ 1 := constantI S_ 1 1#1
  let main_v32 : IVec S_ 1 := (fun x v => Host.reduce IntOp.andi x v reducesTo_S32x96x3x3_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S128x64x32x32 .f32) (main_arg1 : FVec F S64 .f32) (main_arg2 : FVec F S64 .f32) (main_arg3 : FVec F S32x64x3x3 .f32) (main_arg4 : FVec F S96 .f32) (main_arg5 : FVec F S96 .f32) (main_arg6 : FVec F S32x96x3x3 .f32) (main_arg7 : FVec F S128 .f32) (main_arg8 : FVec F S128 .f32) (main_arg9 : FVec F S32x128x3x3 .f32) (main_arg10 : FVec F S160 .f32) (main_arg11 : FVec F S160 .f32) (main_arg12 : FVec F S32x160x3x3 .f32) (main_arg13 : FVec F S192 .f32) (main_arg14 : FVec F S192 .f32) (main_arg15 : FVec F S32x192x3x3 .f32) (main_arg16 : FVec F S224 .f32) (main_arg17 : FVec F S224 .f32) (main_arg18 : FVec F S32x224x3x3 .f32) : IVec S_ 1 :=
  let main_v0 : FVec F S128x64x32x32 .f32 := Host.absf main_arg0
  let main_cst : FVec F S_ .f32 := constant S_ .f32 0x7F800000#32
  let main_v1 : FVec F S128x64x32x32 .f32 := broadcastInDim S128x64x32x32 ![] bcast_S_S128x64x32x32 main_cst
  let main_v2 : IVec S128x64x32x32 1 := cmpf .olt main_v0 main_v1
  let main_c : IVec S_ 1 := constantI S_ 1 1#1
  let main_v3 : IVec S_ 1 := (fun x v => Host.reduce IntOp.andi x v reducesTo_S128x64x32x32_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64x3x3 .f32 := Host.absf main_arg3
  let main_cst_4 : FVec F S_ .f32 := constant S_ .f32 0x7F800000#32
  let main_v15 : FVec F S32x64x3x3 .f32 := broadcastInDim S32x64x3x3 ![] bcast_S_S32x64x3x3 main_cst_4
  let main_v16 : IVec S32x64x3x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S128x64x32x32 : Shape := ⟨4, ![128, 64, 32, 32]⟩
abbrev S64 : Shape := ⟨1, ![64]⟩
abbrev S32x64x3x3 : Shape := ⟨4, ![32, 64, 3, 3]⟩
abbrev S96 : Shape := ⟨1, ![96]⟩
abbrev S32x96x3x3 : Shape := ⟨4, ![32, 96, 3, 3]⟩
abbrev S128 : Shape := ⟨1, ![128]⟩
abbrev S32x128x3x3 : Shape := ⟨4, ![32, 128, 3, 3]⟩
abbrev S160 : Shape := ⟨1, ![160]⟩
abbrev S32x160x3x3 : Shape := ⟨4, ![32, 160, 3, 3]⟩
abbrev S192 : Shape := ⟨1, ![192]⟩
abbrev S32x192x3x3 : Shape := ⟨4, ![32, 192, 3, 3]⟩
abbrev S224 : Shape := ⟨1, ![224]⟩
abbrev S32x224x3x3 : Shape := ⟨4, ![32, 224, 3, 3]⟩
abbrev S128x64x1024 : Shape := ⟨3, ![128, 64, 1024]⟩
abbrev S1024 : Shape := ⟨1, ![1024]⟩
abbrev S_ : Shape := ⟨0, ![]⟩
abbrev S1x1024 : Shape := ⟨2, ![1, 1024]⟩
abbrev S2x1024 : Shape := ⟨2, ![2, 1024]⟩
abbrev S64x128x1024 : Shape := ⟨3, ![64, 128, 1024]⟩
abbrev S1x64x2 : Shape := ⟨3, ![1, 64, 2]⟩
abbrev S8x64x1024 : Shape := ⟨3, ![8, 64, 1024]⟩
abbrev S64x8x1024 : Shape := ⟨3, ![64, 8, 1024]⟩
abbrev S8x64 : Shape := ⟨2, ![8, 64]⟩
abbrev S8x64x1 : Shape := ⟨3, ![8, 64, 1]⟩
abbrev S64x1 : Shape := ⟨2, ![64, 1]⟩
abbrev S64x2 : Shape := ⟨2, ![64, 2]⟩
abbrev S3x3x32x64 : Shape := ⟨4, ![3, 3, 32, 64]⟩
abbrev S288x64 : Shape := ⟨2, ![288, 64]⟩
abbrev S32x128x1024 : Shape := ⟨3, ![32, 128, 1024]⟩
abbrev S1x32x2 : Shape := ⟨3, ![1, 32, 2]⟩
abbrev S32x8x1024 : Shape := ⟨3, ![32, 8, 1024]⟩
abbrev S64x1x1 : Shape := ⟨3, ![64, 1, 1]⟩
abbrev S64x8192 : Shape := ⟨2, ![64, 8192]⟩
abbrev S288x8192 : Shape := ⟨2, ![288, 8192]⟩
abbrev S288x8x1024 : Shape := ⟨3, ![288, 8, 1024]⟩
abbrev S32x8x33 : Shape := ⟨3, ![32, 8, 33]⟩
abbrev S32x8x991 : Shape := ⟨3, ![32, 8, 991]⟩
abbrev S1x1x1024 : Shape := ⟨3, ![1, 1, 1024]⟩
abbrev S32x8x32 : Shape := ⟨3, ![32, 8, 32]⟩
abbrev S32x8x992 : Shape := ⟨3, ![32, 8, 992]⟩
abbrev S32x8x31 : Shape := ⟨3, ![32, 8, 31]⟩
abbrev S32x8x993 : Shape := ⟨3, ![32, 8, 993]⟩
abbrev S32x8x1 : Shape := ⟨3, ![32, 8, 1]⟩
abbrev S32x8x1023 : Shape := ⟨3, ![32, 8, 1023]⟩
abbrev S32x8 : Shape := ⟨2, ![32, 8]⟩
abbrev S32x1 : Shape := ⟨2, ![32, 1]⟩
abbrev S32x2 : Shape := ⟨2, ![32, 2]⟩
abbrev S3x3x32x96 : Shape := ⟨4, ![3, 3, 32, 96]⟩
abbrev S288x96 : Shape := ⟨2, ![288, 96]⟩
abbrev S96x1 : Shape := ⟨2, ![96, 1]⟩
abbrev S32x1x1 : Shape := ⟨3, ![32, 1, 1]⟩
abbrev S96x8x1024 : Shape := ⟨3, ![96, 8, 1024]⟩
abbrev S96x8192 : Shape := ⟨2, ![96, 8192]⟩
abbrev S3x3x32x128 : Shape := ⟨4, ![3, 3, 32, 128]⟩
abbrev S288x128 : Shape := ⟨2, ![288, 128]⟩
abbrev S128x1 : Shape := ⟨2, ![128, 1]⟩
abbrev S128x8x1024 : Shape := ⟨3, ![128, 8, 1024]⟩
abbrev S128x8192 : Shape := ⟨2, ![128, 8192]⟩
abbrev S3x3x32x160 : Shape := ⟨4, ![3, 3, 32, 160]⟩
abbrev S288x160 : Shape := ⟨2, ![288, 160]⟩
abbrev S160x1 : Shape := ⟨2, ![160, 1]⟩
abbrev S160x8x1024 : Shape := ⟨3, ![160, 8, 1024]⟩
abbrev S160x8192 : Shape := ⟨2, ![160, 8192]⟩
abbrev S3x3x32x192 : Shape := ⟨4, ![3, 3, 32, 192]⟩
abbrev S288x192 : Shape := ⟨2, ![288, 192]⟩
abbrev S192x1 : Shape := ⟨2, ![192, 1]⟩
abbrev S192x8x1024 : Shape := ⟨3, ![192, 8, 1024]⟩
abbrev S192x8192 : Shape := ⟨2, ![192, 8192]⟩
abbrev S3x3x32x224 : Shape := ⟨4, ![3, 3, 32, 224]⟩
abbrev S288x224 : Shape := ⟨2, ![288, 224]⟩
abbrev S224x1 : Shape := ⟨2, ![224, 1]⟩
abbrev S128x256x1024 : Shape := ⟨3, ![128, 256, 1024]⟩
abbrev S8x256x1024 : Shape := ⟨3, ![8, 256, 1024]⟩
abbrev S224x8x1024 : Shape := ⟨3, ![224, 8, 1024]⟩
abbrev S224x8192 : Shape := ⟨2, ![224, 8192]⟩
abbrev S8x32x1024 : Shape := ⟨3, ![8, 32, 1024]⟩
abbrev S128x256x32x32 : Shape := ⟨4, ![128, 256, 32, 32]⟩

abbrev nBuf : Space → Nat
  | .hbm => 91
  | .vmem => 109
  | .smem => 0
  | _ => 0

abbrev bufTy : (tb : Table) → Fin (tcTables nBuf tb) → BufTy
  | .hbm, ⟨0, _⟩ => ⟨S128x64x32x32, .f32⟩
  | .hbm, ⟨1, _⟩ => ⟨S64, .f32⟩
  | .hbm, ⟨2, _⟩ => ⟨S64, .f32⟩
  | .hbm, ⟨3, _⟩ => ⟨S32x64x3x3, .f32⟩
  | .hbm, ⟨4, _⟩ => ⟨S96, .f32⟩
  | .hbm, ⟨5, _⟩ => ⟨S96, .f32⟩
  | .hbm, ⟨6, _⟩ => ⟨S32x96x3x3, .f32⟩
  | .hbm, ⟨7, _⟩ => ⟨S128, .f32⟩
  | .hbm, ⟨8, _⟩ => ⟨S128, .f32⟩
  | .hbm, ⟨9, _⟩ => ⟨S32x128x3x3, .f32⟩
  | .hbm, ⟨10, _⟩ => ⟨S160, .f32⟩
  | .hbm, ⟨11, _⟩ => ⟨S160, .f32⟩
  | .hbm, ⟨12, _⟩ => ⟨S32x160x3x3, .f32⟩
  | .hbm, ⟨13, _⟩ => ⟨S192, .f32⟩
  | .hbm, ⟨14, _⟩ => ⟨S192, .f32⟩
  | .hbm, ⟨15, _⟩ => ⟨S32x192x3x3, .f32⟩
  | .hbm, ⟨16, _⟩ => ⟨S224, .f32⟩
  | .hbm, ⟨17, _⟩ => ⟨S224, .f32⟩
  | .hbm, ⟨18, _⟩ => ⟨S32x224x3x3, .f32⟩
  | .hbm, ⟨19, _⟩ => ⟨S128x64x1024, .f32⟩
  | .hbm, ⟨20, _⟩ => ⟨S1024, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S_, .i1⟩
  | .hbm, ⟨37, _⟩ => ⟨S1024, .i1⟩
  | .hbm, ⟨38, _⟩ => ⟨S1024, .i1⟩
  | .hbm, ⟨39, _⟩ => ⟨S1024, .i1⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S1x1024, .i1⟩
  | .hbm, ⟨50, _⟩ => ⟨S1x1024, .i1⟩
  | .hbm, ⟨51, _⟩ => ⟨S2x1024, .i1⟩
  | .hbm, ⟨52, _⟩ => ⟨S2x1024, .f32⟩
  | .hbm, ⟨53, _⟩ => ⟨S64x128x1024, .bf16⟩
  | .hbm, ⟨54, _⟩ => ⟨S1x64x2, .f32⟩
  | .hbm, ⟨55, _⟩ => ⟨S3x3x32x64, .f32⟩
  | .hbm, ⟨56, _⟩ => ⟨S288x64, .f32⟩
  | .hbm, ⟨57, _⟩ => ⟨S64x1, .f32⟩
  | .hbm, ⟨58, _⟩ => ⟨S64x1, .f32⟩
  | .hbm, ⟨59, _⟩ => ⟨S32x128x1024, .bf16⟩
  | .hbm, ⟨60, _⟩ => ⟨S1x32x2, .f32⟩
  | .hbm, ⟨61, _⟩ => ⟨S3x3x32x96, .f32⟩
  | .hbm, ⟨62, _⟩ => ⟨S288x96, .f32⟩
  | .hbm, ⟨63, _⟩ => ⟨S96x1, .f32⟩
  | .hbm, ⟨64, _⟩ => ⟨S96x1, .f32⟩
  | .hbm, ⟨65, _⟩ => ⟨S32x128x1024, .bf16⟩
  | .hbm, ⟨66, _⟩ => ⟨S1x32x2, .f32⟩
  | .hbm, ⟨67, _⟩ => ⟨S3x3x32x128, .f32⟩
  | .hbm, ⟨68, _⟩ => ⟨S288x128, .f32⟩
  | .hbm, ⟨69, _⟩ => ⟨S128x1, .f32⟩
  | .hbm, ⟨70, _⟩ => ⟨S128x1, .f32⟩
  | .hbm, ⟨71, _⟩ => ⟨S32x128x1024, .bf16⟩
  | .hbm, ⟨72, _⟩ => ⟨S1x32x2, .f32⟩
  | .hbm, ⟨73, _⟩ => ⟨S3x3x32x160, .f32⟩
  | .hbm, ⟨74, _⟩ => ⟨S288x160, .f32⟩
  | .hbm, ⟨75, _⟩ => ⟨S160x1, .f32⟩
  | .hbm, ⟨76, _⟩ => ⟨S160x1, .f32⟩
  | .hbm, ⟨77, _⟩ => ⟨S32x128x1024, .bf16⟩
  | .hbm, ⟨78, _⟩ => ⟨S1x32x2, .f32⟩
  | .hbm, ⟨79, _⟩ => ⟨S3x3x32x192, .f32⟩
  | .hbm, ⟨80, _⟩ => ⟨S288x192, .f32⟩
  | .hbm, ⟨81, _⟩ => ⟨S192x1, .f32⟩
  | .hbm, ⟨82, _⟩ => ⟨S192x1, .f32⟩
  | .hbm, ⟨83, _⟩ => ⟨S32x128x1024, .bf16⟩
  | .hbm, ⟨84, _⟩ => ⟨S1x32x2, .f32⟩
  | .hbm, ⟨85, _⟩ => ⟨S3x3x32x224, .f32⟩
  | .hbm, ⟨86, _⟩ => ⟨S288x224, .f32⟩
  | .hbm, ⟨87, _⟩ => ⟨S224x1, .f32⟩
  | .hbm, ⟨88, _⟩ => ⟨S224x1, .f32⟩
  | .hbm, ⟨89, _⟩ => ⟨S128x256x1024, .f32⟩
  | .hbm, ⟨90, _⟩ => ⟨S128x256x32x32, .f32⟩
  | .local _ .vmem, ⟨0, _⟩ => ⟨S8x64x1024, .f32⟩
  | .local _ .vmem, ⟨1, _⟩ => ⟨S8x64x1024, .f32⟩
  | .local _ .vmem, ⟨2, _⟩ => ⟨S64x8x1024, .bf16⟩
  | .local _ .vmem, ⟨3, _⟩ => ⟨S64x8x1024, .bf16⟩
  | .local _ .vmem, ⟨4, _⟩ => ⟨S1x64x2, .f32⟩
  | .local _ .vmem, ⟨5, _⟩ => ⟨S64x8x1024, .bf16⟩
  | .local _ .vmem, ⟨6, _⟩ => ⟨S64x8x1024, .bf16⟩
  | .local _ .vmem, ⟨7, _⟩ => ⟨S1x64x2, .f32⟩
  | .local _ .vmem, ⟨8, _⟩ => ⟨S64x1, .f32⟩
  | .local _ .vmem, ⟨9, _⟩ => ⟨S64x1, .f32⟩
  | .local _ .vmem, ⟨10, _⟩ => ⟨S2x1024, .f32⟩
  | .local _ .vmem, ⟨11, _⟩ => ⟨S288x64, .f32⟩
  | .local _ .vmem, ⟨12, _⟩ => ⟨S32x8x1024, .bf16⟩
  | .local _ .vmem, ⟨13, _⟩ => ⟨S32x8x1024, .bf16⟩
  | .local _ .vmem, ⟨14, _⟩ => ⟨S1x32x2, .f32⟩
  | .local _ .vmem, ⟨15, _⟩ => ⟨S64x8x1024, .bf16⟩
  | .local _ .vmem, ⟨16, _⟩ => ⟨S64x8x1024, .bf16⟩
  | .local _ .vmem, ⟨17, _⟩ => ⟨S32x8x1024, .bf16⟩
  | .local _ .vmem, ⟨18, _⟩ => ⟨S32x8x1024, .bf16⟩
  | .local _ .vmem, ⟨19, _⟩ => ⟨S1x64x2, .f32⟩
  | .local _ .vmem, ⟨20, _⟩ => ⟨S1x32x2, .f32⟩
  | .local _ .vmem, ⟨21, _⟩ => ⟨S96x1, .f32⟩
  | .local _ .vmem, ⟨22, _⟩ => ⟨S96x1, .f32⟩
  | .local _ .vmem, ⟨23, _⟩ => ⟨S2x1024, .f32⟩
  | .local _ .vmem, ⟨24, _⟩ => ⟨S288x96, .f32⟩
  | .local _ .vmem, ⟨25, _⟩ => ⟨S32x8x1024, .bf16⟩
  | .local _ .vmem, ⟨26, _⟩ => ⟨S32x8x1024, .bf16⟩
  | .local _ .vmem, ⟨27, _⟩ => ⟨S1x32x2, .f32⟩
  | .local _ .vmem, ⟨28, _⟩ => ⟨S64x8x1024, .bf16⟩
  | .local _ .vmem, ⟨29, _⟩ => ⟨S64x8x1024, .bf16⟩
  | .local _ .vmem, ⟨30, _⟩ => ⟨S32x8x1024, .bf16⟩
  | .local _ .vmem, ⟨31, _⟩ => ⟨S32x8x1024, .bf16⟩
  | .local _ .vmem, ⟨32, _⟩ => ⟨S32x8x1024, .bf16⟩
  | .local _ .vmem, ⟨33, _⟩ => ⟨S32x8x1024, .bf16⟩
  | .local _ .vmem, ⟨34, _⟩ => ⟨S1x64x2, .f32⟩
  | .local _ .vmem, ⟨35, _⟩ => ⟨S1x32x2, .f32⟩
  | .local _ .vmem, ⟨36, _⟩ => ⟨S1x32x2, .f32⟩
  | .local _ .vmem, ⟨37, _⟩ => ⟨S128x1, .f32⟩
  | .local _ .vmem, ⟨38, _⟩ => ⟨S128x1, .f32⟩
  | .local _ .vmem, ⟨39, _⟩ => ⟨S2x1024, .f32⟩
  | .local _ .vmem, ⟨40, _⟩ => ⟨S288x128, .f32⟩
  | .local _ .vmem, ⟨41, _⟩ => ⟨S32x8x1024, .bf16⟩
  | .local _ .vmem, ⟨42, _⟩ => ⟨S32x8x1024, .bf16⟩
  | .local _ .vmem, ⟨43, _⟩ => ⟨S1x32x2, .f32⟩
  | .local _ .vmem, ⟨44, _⟩ => ⟨S64x8x1024, .bf16⟩
  | .local _ .vmem, ⟨45, _⟩ => ⟨S64x8x1024, .bf16⟩
  | .local _ .vmem, ⟨46, _⟩ => ⟨S32x8x1024, .bf16⟩
  | .local _ .vmem, ⟨47, _⟩ => ⟨S32x8x1024, .bf16⟩
  | .local _ .vmem, ⟨48, _⟩ => ⟨S32x8x1024, .bf16⟩
  | .local _ .vmem, ⟨49, _⟩ => ⟨S32x8x1024, .bf16⟩
  | .local _ .vmem, ⟨50, _⟩ => ⟨S32x8x1024, .bf16⟩
  | .local _ .vmem, ⟨51, _⟩ => ⟨S32x8x1024, .bf16⟩
  | .local _ .vmem, ⟨52, _⟩ => ⟨S1x64x2, .f32⟩
  | .local _ .vmem, ⟨53, _⟩ => ⟨S1x32x2, .f32⟩
  | .local _ .vmem, ⟨54, _⟩ => ⟨S1x32x2, .f32⟩
  | .local _ .vmem, ⟨55, _⟩ => ⟨S1x32x2, .f32⟩
  | .local _ .vmem, ⟨56, _⟩ => ⟨S160x1, .f32⟩
  | .local _ .vmem, ⟨57, _⟩ => ⟨S160x1, .f32⟩
  | .local _ .vmem, ⟨58, _⟩ => ⟨S2x1024, .f32⟩
  | .local _ .vmem, ⟨59, _⟩ => ⟨S288x160, .f32⟩
  | .local _ .vmem, ⟨60, _⟩ => ⟨S32x8x1024, .bf16⟩
  | .local _ .vmem, ⟨61, _⟩ => ⟨S32x8x1024, .bf16⟩
  | .local _ .vmem, ⟨62, _⟩ => ⟨S1x32x2, .f32⟩
  | .local _ .vmem, ⟨63, _⟩ => ⟨S64x8x1024, .bf16⟩
  | .local _ .vmem, ⟨64, _⟩ => ⟨S64x8x1024, .bf16⟩
  | .local _ .vmem, ⟨65, _⟩ => ⟨S32x8x1024, .bf16⟩
  | .local _ .vmem, ⟨66, _⟩ => ⟨S32x8x1024, .bf16⟩
  | .local _ .vmem, ⟨67, _⟩ => ⟨S32x8x1024, .bf16⟩
  | .local _ .vmem, ⟨68, _⟩ => ⟨S32x8x1024, .bf16⟩
  | .local _ .vmem, ⟨69, _⟩ => ⟨S32x8x1024, .bf16⟩
  | .local _ .vmem, ⟨70, _⟩ => ⟨S32x8x1024, .bf16⟩
  | .local _ .vmem, ⟨71, _⟩ => ⟨S32x8x1024, .bf16⟩
  | .local _ .vmem, ⟨72, _⟩ => ⟨S32x8x1024, .bf16⟩
  | .local _ .vmem, ⟨73, _⟩ => ⟨S1x64x2, .f32⟩
  | .local _ .vmem, ⟨74, _⟩ => ⟨S1x32x2, .f32⟩
  | .local _ .vmem, ⟨75, _⟩ => ⟨S1x32x2, .f32⟩
  | .local _ .vmem, ⟨76, _⟩ => ⟨S1x32x2, .f32⟩
  | .local _ .vmem, ⟨77, _⟩ => ⟨S1x32x2, .f32⟩
  | .local _ .vmem, ⟨78, _⟩ => ⟨S192x1, .f32⟩
  | .local _ .vmem, ⟨79, _⟩ => ⟨S192x1, .f32⟩
  | .local _ .vmem, ⟨80, _⟩ => ⟨S2x1024, .f32⟩
  | .local _ .vmem, ⟨81, _⟩ => ⟨S288x192, .f32⟩
  | .local _ .vmem, ⟨82, _⟩ => ⟨S32x8x1024, .bf16⟩
  | .local _ .vmem, ⟨83, _⟩ => ⟨S32x8x1024, .bf16⟩
  | .local _ .vmem, ⟨84, _⟩ => ⟨S1x32x2, .f32⟩
  | .local _ .vmem, ⟨85, _⟩ => ⟨S64x8x1024, .bf16⟩
  | .local _ .vmem, ⟨86, _⟩ => ⟨S64x8x1024, .bf16⟩
  | .local _ .vmem, ⟨87, _⟩ => ⟨S32x8x1024, .bf16⟩
  | .local _ .vmem, ⟨88, _⟩ => ⟨S32x8x1024, .bf16⟩
  | .local _ .vmem, ⟨89, _⟩ => ⟨S32x8x1024, .bf16⟩
  | .local _ .vmem, ⟨90, _⟩ => ⟨S32x8x1024, .bf16⟩
  | .local _ .vmem, ⟨91, _⟩ => ⟨S32x8x1024, .bf16⟩
  | .local _ .vmem, ⟨92, _⟩ => ⟨S32x8x1024, .bf16⟩
  | .local _ .vmem, ⟨93, _⟩ => ⟨S32x8x1024, .bf16⟩
  | .local _ .vmem, ⟨94, _⟩ => ⟨S32x8x1024, .bf16⟩
  | .local _ .vmem, ⟨95, _⟩ => ⟨S32x8x1024, .bf16⟩
  | .local _ .vmem, ⟨96, _⟩ => ⟨S32x8x1024, .bf16⟩
  | .local _ .vmem, ⟨97, _⟩ => ⟨S1x64x2, .f32⟩
  | .local _ .vmem, ⟨98, _⟩ => ⟨S1x32x2, .f32⟩
  | .local _ .vmem, ⟨99, _⟩ => ⟨S1x32x2, .f32⟩
  | .local _ .vmem, ⟨100, _⟩ => ⟨S1x32x2, .f32⟩
  | .local _ .vmem, ⟨101, _⟩ => ⟨S1x32x2, .f32⟩
  | .local _ .vmem, ⟨102, _⟩ => ⟨S1x32x2, .f32⟩
  | .local _ .vmem, ⟨103, _⟩ => ⟨S224x1, .f32⟩
  | .local _ .vmem, ⟨104, _⟩ => ⟨S224x1, .f32⟩
  | .local _ .vmem, ⟨105, _⟩ => ⟨S2x1024, .f32⟩
  | .local _ .vmem, ⟨106, _⟩ => ⟨S288x224, .f32⟩
  | .local _ .vmem, ⟨107, _⟩ => ⟨S8x256x1024, .f32⟩
  | .local _ .vmem, ⟨108, _⟩ => ⟨S8x256x1024, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  ofTc nBuf bufTy 0 109 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v2 : Ref sig .tc := ⟨.hbm, 42, rfl⟩
abbrev main_c_0 : Ref sig .tc := ⟨.hbm, 43, rfl⟩
abbrev main_v3 : Ref sig .tc := ⟨.hbm, 44, rfl⟩
abbrev main_v4 : Ref sig .tc := ⟨.hbm, 45, rfl⟩
abbrev main_c_1 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11_0 : Ref sig .tc := ⟨.hbm, 53, rfl⟩
abbrev main_v11_1 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16_0 : Ref sig .tc := ⟨.hbm, 59, rfl⟩
abbrev main_v16_1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21_0 : Ref sig .tc := ⟨.hbm, 65, rfl⟩
abbrev main_v21_1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26_0 : Ref sig .tc := ⟨.hbm, 71, rfl⟩
abbrev main_v26_1 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31_0 : Ref sig .tc := ⟨.hbm, 77, rfl⟩
abbrev main_v31_1 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36_0 : Ref sig .tc := ⟨.hbm, 83, rfl⟩
abbrev main_v36_1 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg10_1 : Ref sig .tc := ⟨.vmem, 42, rfl⟩
abbrev cc3_stg11_0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg10_0 : Ref sig .tc := ⟨.vmem, 58, rfl⟩
abbrev cc4_stg11_0 : Ref sig .tc := ⟨.vmem, 59, rfl⟩
abbrev cc4_stg12_0 : Ref sig .tc := ⟨.vmem, 60, rfl⟩
abbrev cc4_stg12_1 : Ref sig .tc := ⟨.vmem, 61, rfl⟩
abbrev cc4_stg13_0 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc5_stg3_0 : Ref sig .tc := ⟨.vmem, 69, rfl⟩
abbrev cc5_stg3_1 : Ref sig .tc := ⟨.vmem, 70, rfl⟩
abbrev cc5_stg4_0 : Ref sig .tc := ⟨.vmem, 71, rfl⟩
abbrev cc5_stg4_1 : Ref sig .tc := ⟨.vmem, 72, rfl⟩
abbrev cc5_stg5_0 : Ref sig .tc := ⟨.vmem, 73, rfl⟩
abbrev cc5_stg6_0 : Ref sig .tc := ⟨.vmem, 74, rfl⟩
abbrev cc5_stg7_0 : Ref sig .tc := ⟨.vmem, 75, rfl⟩
abbrev cc5_stg8_0 : Ref sig .tc := ⟨.vmem, 76, rfl⟩
abbrev cc5_stg9_0 : Ref sig .tc := ⟨.vmem, 77, rfl⟩
abbrev cc5_stg10_0 : Ref sig .tc := ⟨.vmem, 78, rfl⟩
abbrev cc5_stg11_0 : Ref sig .tc := ⟨.vmem, 79, rfl⟩
abbrev cc5_stg12_0 : Ref sig .tc := ⟨.vmem, 80, rfl⟩
abbrev cc5_stg13_0 : Ref sig .tc := ⟨.vmem, 81, rfl⟩
abbrev cc5_stg14_0 : Ref sig .tc := ⟨.vmem, 82, rfl⟩
abbrev cc5_stg14_1 : Ref sig .tc := ⟨.vmem, 83, rfl⟩
abbrev cc5_stg15_0 : Ref sig .tc := ⟨.vmem, 84, rfl⟩
abbrev cc6_stg0_0 : Ref sig .tc := ⟨.vmem, 85, rfl⟩
abbrev cc6_stg0_1 : Ref sig .tc := ⟨.vmem, 86, rfl⟩
abbrev cc6_stg1_0 : Ref sig .tc := ⟨.vmem, 87, rfl⟩
abbrev cc6_stg1_1 : Ref sig .tc := ⟨.vmem, 88, rfl⟩
abbrev cc6_stg2_0 : Ref sig .tc := ⟨.vmem, 89, rfl⟩
abbrev cc6_stg2_1 : Ref sig .tc := ⟨.vmem, 90, rfl⟩
abbrev cc6_stg3_0 : Ref sig .tc := ⟨.vmem, 91, rfl⟩
abbrev cc6_stg3_1 : Ref sig .tc := ⟨.vmem, 92, rfl⟩
abbrev cc6_stg4_0 : Ref sig .tc := ⟨.vmem, 93, rfl⟩
abbrev cc6_stg4_1 : Ref sig .tc := ⟨.vmem, 94, rfl⟩
abbrev cc6_stg5_0 : Ref sig .tc := ⟨.vmem, 95, rfl⟩
abbrev cc6_stg5_1 : Ref sig .tc := ⟨.vmem, 96, rfl⟩
abbrev cc6_stg6_0 : Ref sig .tc := ⟨.vmem, 97, rfl⟩
abbrev cc6_stg7_0 : Ref sig .tc := ⟨.vmem, 98, rfl⟩
abbrev cc6_stg8_0 : Ref sig .tc := ⟨.vmem, 99, rfl⟩
abbrev cc6_stg9_0 : Ref sig .tc := ⟨.vmem, 100, rfl⟩
abbrev cc6_stg10_0 : Ref sig .tc := ⟨.vmem, 101, rfl⟩
abbrev cc6_stg11_0 : Ref sig .tc := ⟨.vmem, 102, rfl⟩
abbrev cc6_stg12_0 : Ref sig .tc := ⟨.vmem, 103, rfl⟩
abbrev cc6_stg13_0 : Ref sig .tc := ⟨.vmem, 104, rfl⟩
abbrev cc6_stg14_0 : Ref sig .tc := ⟨.vmem, 105, rfl⟩
abbrev cc6_stg15_0 : Ref sig .tc := ⟨.vmem, 106, rfl⟩
abbrev cc6_stg16_0 : Ref sig .tc := ⟨.vmem, 107, rfl⟩
abbrev cc6_stg16_1 : Ref sig .tc := ⟨.vmem, 108, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem8_1 : DmaSem sig := 26
abbrev cc2_sem9_0 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem10_1 : DmaSem sig := 42
abbrev cc3_sem11_0 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem10_0 : DmaSem sig := 58
abbrev cc4_sem11_0 : DmaSem sig := 59
abbrev cc4_sem12_0 : DmaSem sig := 60
abbrev cc4_sem12_1 : DmaSem sig := 61
abbrev cc4_sem13_0 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem2_1 : DmaSem sig := 68
abbrev cc5_sem3_0 : DmaSem sig := 69
abbrev cc5_sem3_1 : DmaSem sig := 70
abbrev cc5_sem4_0 : DmaSem sig := 71
abbrev cc5_sem4_1 : DmaSem sig := 72
abbrev cc5_sem5_0 : DmaSem sig := 73
abbrev cc5_sem6_0 : DmaSem sig := 74
abbrev cc5_sem7_0 : DmaSem sig := 75
abbrev cc5_sem8_0 : DmaSem sig := 76
abbrev cc5_sem9_0 : DmaSem sig := 77
abbrev cc5_sem10_0 : DmaSem sig := 78
abbrev cc5_sem11_0 : DmaSem sig := 79
abbrev cc5_sem12_0 : DmaSem sig := 80
abbrev cc5_sem13_0 : DmaSem sig := 81
abbrev cc5_sem14_0 : DmaSem sig := 82
abbrev cc5_sem14_1 : DmaSem sig := 83
abbrev cc5_sem15_0 : DmaSem sig := 84
abbrev cc6_sem0_0 : DmaSem sig := 85
abbrev cc6_sem0_1 : DmaSem sig := 86
abbrev cc6_sem1_0 : DmaSem sig := 87
abbrev cc6_sem1_1 : DmaSem sig := 88
abbrev cc6_sem2_0 : DmaSem sig := 89
abbrev cc6_sem2_1 : DmaSem sig := 90
abbrev cc6_sem3_0 : DmaSem sig := 91
abbrev cc6_sem3_1 : DmaSem sig := 92
abbrev cc6_sem4_0 : DmaSem sig := 93
abbrev cc6_sem4_1 : DmaSem sig := 94
abbrev cc6_sem5_0 : DmaSem sig := 95
abbrev cc6_sem5_1 : DmaSem sig := 96
abbrev cc6_sem6_0 : DmaSem sig := 97
abbrev cc6_sem7_0 : DmaSem sig := 98
abbrev cc6_sem8_0 : DmaSem sig := 99
abbrev cc6_sem9_0 : DmaSem sig := 100
abbrev cc6_sem10_0 : DmaSem sig := 101
abbrev cc6_sem11_0 : DmaSem sig := 102
abbrev cc6_sem12_0 : DmaSem sig := 103
abbrev cc6_sem13_0 : DmaSem sig := 104
abbrev cc6_sem14_0 : DmaSem sig := 105
abbrev cc6_sem15_0 : DmaSem sig := 106
abbrev cc6_sem16_0 : DmaSem sig := 107
abbrev cc6_sem16_1 : DmaSem sig := 108

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S64x8x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S288x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x8x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x32x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S64x8x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x8x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S288x96 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S32x8x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x32x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .vmem S64x8x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x8x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S32x8x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S2x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S288x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S32x8x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S1x32x2 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_13 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage4_0 : Fin 2 → Memref sig .tc .vmem S64x8x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S32x8x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S32x8x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S32x8x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S160x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S160x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S2x1024 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S288x160 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S32x8x1024 .bf16 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 1 → Memref sig .tc .vmem S1x32x2 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_15 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage5_0 : Fin 2 → Memref sig .tc .vmem S64x8x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S32x8x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S32x8x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S32x8x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S32x8x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x64x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x32x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x32x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x32x2 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x32x2 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S192x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S192x1 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S2x1024 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S288x192 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S32x8x1024 .bf16 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev stage5_15 : Fin 1 → Memref sig .tc .vmem S1x32x2 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev grid6 : Pipeline.Grid := ⟨1, ![16], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_9 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_10 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_11 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_15 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_16 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S64x8x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S32x8x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S32x8x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S32x8x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S32x8x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S32x8x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64x2 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x32x2 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x32x2 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x32x2 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x32x2 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x32x2 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S224x1 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S224x1 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S2x1024 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

abbrev stage6_15 : Fin 1 → Memref sig .tc .vmem S288x224 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))
abbrev reads6_15 : Fin grid6.rank → Bool := ![false]

abbrev stage6_16 : Fin 2 → Memref sig .tc .vmem S8x256x1024 .f32 := fun | 0 => Memref.whole cc6_stg16_0 | 1 => Memref.whole cc6_stg16_1 | ⟨_ + 2, h⟩ => absurd h (Nat.not_lt.2 (Nat.le_add_left _ _))
abbrev sem6_16 : Fin 2 → DmaSem sig := fun | 0 => cc6_sem16_0 | 1 => cc6_sem16_1 | ⟨_ + 2, h⟩ => absurd h (Nat.not_lt.2 (Nat.le_add_left _ _))
abbrev reads6_16 : Fin grid6.rank → Bool := ![true]

class Facts₀ : Prop where
  shapeCasts_S128x64x32x32_S128x64x1024 : S128x64x32x32.ShapeCasts S128x64x1024
  bcast_S_S1024 : S_.BroadcastsInDim S1024 (![] : Fin 0 → Fin S1024.rank)
  bcast_S1024_S1x1024_1 : S1024.BroadcastsInDim S1x1024 (![1] : Fin 1 → Fin S1x1024.rank)
  concatenates_S1x1024_S1x1024_S2x1024_d0 : Shape.Concatenates [S1x1024, S1x1024] S2x1024 0
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  bitsLt_bf16_f32 : FTy.bits .bf16 < FTy.bits .f32
  transposes_S8x64x1024_p1_0_2_S64x8x1024 : S8x64x1024.Transposes [1, 0, 2] S64x8x1024
  inb_S64x8x1024_S64x8x1024_0_0_0 : ∀ a, (![0, 0, 0] : Fin 3 → Nat) a + S64x8x1024.size a ≤ S64x8x1024.size a
  h_S64x8x1024 : 0 < S64x8x1024.numel
  packedbf16_S64x8x1024_S64x8x1024_0_0_0 : (Rect.unit (s := S64x8x1024) ![0, 0, 0] S64x8x1024.size inb_S64x8x1024_S64x8x1024_0_0_0).PackedRows (EltTy.packing .bf16)
  reduces_S8x64x1024_S8x64 : S8x64x1024.Reduces [2] S8x64
  shapeCasts_S8x64_S8x64x1 : S8x64.ShapeCasts S8x64x1
  reduces_S8x64x1_S64x1 : S8x64x1.Reduces [0] S64x1
  concatenates_S64x1_S64x1_S64x2_d1 : Shape.Concatenates [S64x1, S64x1] S64x2 1
  inb_S1x64x2_S1x64x2_0_0_0 : ∀ a, (![0, 0, 0] : Fin 3 → Nat) a + S1x64x2.size a ≤ S1x64x2.size a
  h_S1x64x2 : 0 < S1x64x2.numel
  shapeCasts_S1x64x2_S64x2 : S1x64x2.ShapeCasts S64x2
  shapeCasts_S64x2_S1x64x2 : S64x2.ShapeCasts S1x64x2
  transposes_S32x64x3x3_S3x3x32x64_2_3_0_1 : S32x64x3x3.Transposes [2, 3, 0, 1] S3x3x32x64
  shapeCasts_S3x3x32x64_S288x64 : S3x3x32x64.ShapeCasts S288x64
  shapeCasts_S64_S64x1 : S64.ShapeCasts S64x1
  slices_S64x2_o0_0_S64x1 : S64x2.Slices ![0, 0] S64x1
  slices_S64x2_o0_1_S64x1 : S64x2.Slices ![0, 1] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x8x1024_S64x8x1024 : S64x8x1024.ShapeCasts S64x8x1024
  shapeCasts_S64x1_S64x1x1 : S64x1.ShapeCasts S64x1x1
  broadcasts_S64x1x1_S64x8x1024 : S64x1x1.Broadcasts S64x8x1024
  inb_S288x64_S288x64_0_0 : ∀ a, (![0, 0] : Fin 2 → Nat) a + S288x64.size a ≤ S288x64.size a
  h_S288x64 : 0 < S288x64.numel
  shapeCasts_S288x64_S288x64 : S288x64.ShapeCasts S288x64
  shapeCasts_S64x8x1024_S64x8192 : S64x8x1024.ShapeCasts S64x8192
  shapeCasts_S288x8192_S288x8x1024 : S288x8192.ShapeCasts S288x8x1024
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  inb_S2x1024_S1x1024_1_0 : ∀ a, (![1, 0] : Fin 2 → Nat) a + S1x1024.size a ≤ S2x1024.size a
  slices_S288x8x1024_o0_0_0_S32x8x1024 : S288x8x1024.Slices ![0, 0, 0] S32x8x1024
  slices_S32x8x1024_o0_0_0_S32x8x991 : S32x8x1024.Slices ![0, 0, 0] S32x8x991
  concatenates_S32x8x33_S32x8x991_S32x8x1024_d2 : Shape.Concatenates [S32x8x33, S32x8x991] S32x8x1024 2
  shapeCasts_S1x1024_S1x1x1024 : S1x1024.ShapeCasts S1x1x1024
  broadcasts_S1x1x1024_S32x8x1024 : S1x1x1024.Broadcasts S32x8x1024
  slices_S288x8x1024_o32_0_0_S32x8x1024 : S288x8x1024.Slices ![32, 0, 0] S32x8x1024
  slices_S32x8x1024_o0_0_0_S32x8x992 : S32x8x1024.Slices ![0, 0, 0] S32x8x992
  concatenates_S32x8x32_S32x8x992_S32x8x1024_d2 : Shape.Concatenates [S32x8x32, S32x8x992] S32x8x1024 2
  slices_S288x8x1024_o64_0_0_S32x8x1024 : S288x8x1024.Slices ![64, 0, 0] S32x8x1024
  slices_S32x8x1024_o0_0_0_S32x8x993 : S32x8x1024.Slices ![0, 0, 0] S32x8x993
  concatenates_S32x8x31_S32x8x993_S32x8x1024_d2 : Shape.Concatenates [S32x8x31, S32x8x993] S32x8x1024 2
  slices_S288x8x1024_o96_0_0_S32x8x1024 : S288x8x1024.Slices ![96, 0, 0] S32x8x1024
  slices_S32x8x1024_o0_0_0_S32x8x1023 : S32x8x1024.Slices ![0, 0, 0] S32x8x1023
  concatenates_S32x8x1_S32x8x1023_S32x8x1024_d2 : Shape.Concatenates [S32x8x1, S32x8x1023] S32x8x1024 2
  slices_S288x8x1024_o128_0_0_S32x8x1024 : S288x8x1024.Slices ![128, 0, 0] S32x8x1024
  slices_S288x8x1024_o160_0_0_S32x8x1024 : S288x8x1024.Slices ![160, 0, 0] S32x8x1024
  slices_S32x8x1024_o0_0_1_S32x8x1023 : S32x8x1024.Slices ![0, 0, 1] S32x8x1023
  concatenates_S32x8x1023_S32x8x1_S32x8x1024_d2 : Shape.Concatenates [S32x8x1023, S32x8x1] S32x8x1024 2
  slices_S288x8x1024_o192_0_0_S32x8x1024 : S288x8x1024.Slices ![192, 0, 0] S32x8x1024
  slices_S32x8x1024_o0_0_31_S32x8x993 : S32x8x1024.Slices ![0, 0, 31] S32x8x993
  concatenates_S32x8x993_S32x8x31_S32x8x1024_d2 : Shape.Concatenates [S32x8x993, S32x8x31] S32x8x1024 2
  slices_S288x8x1024_o224_0_0_S32x8x1024 : S288x8x1024.Slices ![224, 0, 0] S32x8x1024
  slices_S32x8x1024_o0_0_32_S32x8x992 : S32x8x1024.Slices ![0, 0, 32] S32x8x992
  concatenates_S32x8x992_S32x8x32_S32x8x1024_d2 : Shape.Concatenates [S32x8x992, S32x8x32] S32x8x1024 2
  slices_S288x8x1024_o256_0_0_S32x8x1024 : S288x8x1024.Slices ![256, 0, 0] S32x8x1024
  slices_S32x8x1024_o0_0_33_S32x8x991 : S32x8x1024.Slices ![0, 0, 33] S32x8x991
  concatenates_S32x8x991_S32x8x33_S32x8x1024_d2 : Shape.Concatenates [S32x8x991, S32x8x33] S32x8x1024 2
  inb_S32x8x1024_S32x8x1024_0_0_0 : ∀ a, (![0, 0, 0] : Fin 3 → Nat) a + S32x8x1024.size a ≤ S32x8x1024.size a
  h_S32x8x1024 : 0 < S32x8x1024.numel
  packedbf16_S32x8x1024_S32x8x1024_0_0_0 : (Rect.unit (s := S32x8x1024) ![0, 0, 0] S32x8x1024.size inb_S32x8x1024_S32x8x1024_0_0_0).PackedRows (EltTy.packing .bf16)
  reduces_S32x8x1024_S32x8 : S32x8x1024.Reduces [2] S32x8
  shapeCasts_S32x8_S32x8x1 : S32x8.ShapeCasts S32x8x1
  reduces_S32x8x1_S32x1 : S32x8x1.Reduces [1] S32x1
  concatenates_S32x1_S32x1_S32x2_d1 : Shape.Concatenates [S32x1, S32x1] S32x2 1
  inb_S1x32x2_S1x32x2_0_0_0 : ∀ a, (![0, 0, 0] : Fin 3 → Nat) a + S1x32x2.size a ≤ S1x32x2.size a
  h_S1x32x2 : 0 < S1x32x2.numel
  shapeCasts_S1x32x2_S32x2 : S1x32x2.ShapeCasts S32x2
  shapeCasts_S32x2_S1x32x2 : S32x2.ShapeCasts S1x32x2
  transposes_S32x96x3x3_S3x3x32x96_2_3_0_1 : S32x96x3x3.Transposes [2, 3, 0, 1] S3x3x32x96
  shapeCasts_S3x3x32x96_S288x96 : S3x3x32x96.ShapeCasts S288x96
  shapeCasts_S96_S96x1 : S96.ShapeCasts S96x1
  inb_S96x1_S64x1_0_0 : ∀ a, (![0, 0] : Fin 2 → Nat) a + S64x1.size a ≤ S96x1.size a
  slices_S32x2_o0_0_S32x1 : S32x2.Slices ![0, 0] S32x1
  slices_S32x2_o0_1_S32x1 : S32x2.Slices ![0, 1] S32x1
  inb_S96x1_S32x1_64_0 : ∀ a, (![64, 0] : Fin 2 → Nat) a + S32x1.size a ≤ S96x1.size a
  h_S32x1 : 0 < S32x1.numel
  shapeCasts_S32x1_S32x1 : S32x1.ShapeCasts S32x1
  shapeCasts_S32x8x1024_S32x8x1024 : S32x8x1024.ShapeCasts S32x8x1024
  shapeCasts_S32x1_S32x1x1 : S32x1.ShapeCasts S32x1x1
  broadcasts_S32x1x1_S32x8x1024 : S32x1x1.Broadcasts S32x8x1024
  concatenates_S64x8x1024_S32x8x1024_S96x8x1024_d0 : Shape.Concatenates [S64x8x1024, S32x8x1024] S96x8x1024 0
  inb_S288x96_S288x96_0_0 : ∀ a, (![0, 0] : Fin 2 → Nat) a + S288x96.size a ≤ S288x96.size a
  h_S288x96 : 0 < S288x96.numel
  shapeCasts_S288x96_S288x96 : S288x96.ShapeCasts S288x96
  shapeCasts_S96x8x1024_S96x8192 : S96x8x1024.ShapeCasts S96x8192
  transposes_S32x128x3x3_S3x3x32x128_2_3_0_1 : S32x128x3x3.Transposes [2, 3, 0, 1] S3x3x32x128
  shapeCasts_S3x3x32x128_S288x128 : S3x3x32x128.ShapeCasts S288x128
  shapeCasts_S128_S128x1 : S128.ShapeCasts S128x1
  inb_S128x1_S64x1_0_0 : ∀ a, (![0, 0] : Fin 2 → Nat) a + S64x1.size a ≤ S128x1.size a
  inb_S128x1_S32x1_64_0 : ∀ a, (![64, 0] : Fin 2 → Nat) a + S32x1.size a ≤ S128x1.size a
  inb_S128x1_S32x1_96_0 : ∀ a, (![96, 0] : Fin 2 → Nat) a + S32x1.size a ≤ S128x1.size a
  concatenates_S64x8x1024_S32x8x1024_S32x8x1024_S128x8x1024_d0 : Shape.Concatenates [S64x8x1024, S32x8x1024, S32x8x1024] S128x8x1024 0
  inb_S288x128_S288x128_0_0 : ∀ a, (![0, 0] : Fin 2 → Nat) a + S288x128.size a ≤ S288x128.size a
  h_S288x128 : 0 < S288x128.numel
  shapeCasts_S288x128_S288x128 : S288x128.ShapeCasts S288x128
  shapeCasts_S128x8x1024_S128x8192 : S128x8x1024.ShapeCasts S128x8192
  transposes_S32x160x3x3_S3x3x32x160_2_3_0_1 : S32x160x3x3.Transposes [2, 3, 0, 1] S3x3x32x160
  shapeCasts_S3x3x32x160_S288x160 : S3x3x32x160.ShapeCasts S288x160
  shapeCasts_S160_S160x1 : S160.ShapeCasts S160x1
  inb_S160x1_S64x1_0_0 : ∀ a, (![0, 0] : Fin 2 → Nat) a + S64x1.size a ≤ S160x1.size a
  inb_S160x1_S32x1_64_0 : ∀ a, (![64, 0] : Fin 2 → Nat) a + S32x1.size a ≤ S160x1.size a
  inb_S160x1_S32x1_96_0 : ∀ a, (![96, 0] : Fin 2 → Nat) a + S32x1.size a ≤ S160x1.size a
  inb_S160x1_S32x1_128_0 : ∀ a, (![128, 0] : Fin 2 → Nat) a + S32x1.size a ≤ S160x1.size a
  concatenates_S64x8x1024_S32x8x1024_S32x8x1024_S32x8x1024_S160x8x1024_d0 : Shape.Concatenates [S64x8x1024, S32x8x1024, S32x8x1024, S32x8x1024] S160x8x1024 0
  inb_S288x160_S288x160_0_0 : ∀ a, (![0, 0] : Fin 2 → Nat) a + S288x160.size a ≤ S288x160.size a
  h_S288x160 : 0 < S288x160.numel
  shapeCasts_S288x160_S288x160 : S288x160.ShapeCasts S288x160
  shapeCasts_S160x8x1024_S160x8192 : S160x8x1024.ShapeCasts S160x8192
  transposes_S32x192x3x3_S3x3x32x192_2_3_0_1 : S32x192x3x3.Transposes [2, 3, 0, 1] S3x3x32x192
  shapeCasts_S3x3x32x192_S288x192 : S3x3x32x192.ShapeCasts S288x192
  shapeCasts_S192_S192x1 : S192.ShapeCasts S192x1
  inb_S192x1_S64x1_0_0 : ∀ a, (![0, 0] : Fin 2 → Nat) a + S64x1.size a ≤ S192x1.size a
  inb_S192x1_S32x1_64_0 : ∀ a, (![64, 0] : Fin 2 → Nat) a + S32x1.size a ≤ S192x1.size a
  inb_S192x1_S32x1_96_0 : ∀ a, (![96, 0] : Fin 2 → Nat) a + S32x1.size a ≤ S192x1.size a
  inb_S192x1_S32x1_128_0 : ∀ a, (![128, 0] : Fin 2 → Nat) a + S32x1.size a ≤ S192x1.size a
  inb_S192x1_S32x1_160_0 : ∀ a, (![160, 0] : Fin 2 → Nat) a + S32x1.size a ≤ S192x1.size a
  concatenates_S64x8x1024_S32x8x1024_S32x8x1024_S32x8x1024_S32x8x1024_S192x8x1024_d0 : Shape.Concatenates [S64x8x1024, S32x8x1024, S32x8x1024, S32x8x1024, S32x8x1024] S192x8x1024 0
  inb_S288x192_S288x192_0_0 : ∀ a, (![0, 0] : Fin 2 → Nat) a + S288x192.size a ≤ S288x192.size a
  h_S288x192 : 0 < S288x192.numel
  shapeCasts_S288x192_S288x192 : S288x192.ShapeCasts S288x192
  shapeCasts_S192x8x1024_S192x8192 : S192x8x1024.ShapeCasts S192x8192
  transposes_S32x224x3x3_S3x3x32x224_2_3_0_1 : S32x224x3x3.Transposes [2, 3, 0, 1] S3x3x32x224
  shapeCasts_S3x3x32x224_S288x224 : S3x3x32x224.ShapeCasts S288x224
  shapeCasts_S224_S224x1 : S224.ShapeCasts S224x1
  inb_S224x1_S64x1_0_0 : ∀ a, (![0, 0] : Fin 2 → Nat) a + S64x1.size a ≤ S224x1.size a
  inb_S224x1_S32x1_64_0 : ∀ a, (![64, 0] : Fin 2 → Nat) a + S32x1.size a ≤ S224x1.size a
  inb_S224x1_S32x1_96_0 : ∀ a, (![96, 0] : Fin 2 → Nat) a + S32x1.size a ≤ S224x1.size a
  inb_S224x1_S32x1_128_0 : ∀ a, (![128, 0] : Fin 2 → Nat) a + S32x1.size a ≤ S224x1.size a
  inb_S224x1_S32x1_160_0 : ∀ a, (![160, 0] : Fin 2 → Nat) a + S32x1.size a ≤ S224x1.size a
  inb_S224x1_S32x1_192_0 : ∀ a, (![192, 0] : Fin 2 → Nat) a + S32x1.size a ≤ S224x1.size a
  concatenates_S64x8x1024_S32x8x1024_S32x8x1024_S32x8x1024_S32x8x1024_S32x8x1024_S224x8x1024_d0 : Shape.Concatenates [S64x8x1024, S32x8x1024, S32x8x1024, S32x8x1024, S32x8x1024, S32x8x1024] S224x8x1024 0
  inb_S288x224_S288x224_0_0 : ∀ a, (![0, 0] : Fin 2 → Nat) a + S288x224.size a ≤ S288x224.size a
  h_S288x224 : 0 < S288x224.numel
  shapeCasts_S288x224_S288x224 : S288x224.ShapeCasts S288x224
  shapeCasts_S224x8x1024_S224x8192 : S224x8x1024.ShapeCasts S224x8192
  transposes_S64x8x1024_p1_0_2_S8x64x1024 : S64x8x1024.Transposes [1, 0, 2] S8x64x1024
  inb_S8x256x1024_S8x64x1024_0_0_0 : ∀ a, (![0, 0, 0] : Fin 3 → Nat) a + S8x64x1024.size a ≤ S8x256x1024.size a
  transposes_S32x8x1024_p1_0_2_S8x32x1024 : S32x8x1024.Transposes [1, 0, 2] S8x32x1024
  inb_S8x256x1024_S8x32x1024_0_64_0 : ∀ a, (![0, 64, 0] : Fin 3 → Nat) a + S8x32x1024.size a ≤ S8x256x1024.size a
  h_S8x32x1024 : 0 < S8x32x1024.numel
  inb_S8x256x1024_S8x32x1024_0_96_0 : ∀ a, (![0, 96, 0] : Fin 3 → Nat) a + S8x32x1024.size a ≤ S8x256x1024.size a
  inb_S8x256x1024_S8x32x1024_0_128_0 : ∀ a, (![0, 128, 0] : Fin 3 → Nat) a + S8x32x1024.size a ≤ S8x256x1024.size a
  inb_S8x256x1024_S8x32x1024_0_160_0 : ∀ a, (![0, 160, 0] : Fin 3 → Nat) a + S8x32x1024.size a ≤ S8x256x1024.size a
  inb_S8x256x1024_S8x32x1024_0_192_0 : ∀ a, (![0, 192, 0] : Fin 3 → Nat) a + S8x32x1024.size a ≤ S8x256x1024.size a
  inb_S8x256x1024_S8x32x1024_0_224_0 : ∀ a, (![0, 224, 0] : Fin 3 → Nat) a + S8x32x1024.size a ≤ S8x256x1024.size a
  shapeCasts_S128x256x1024_S128x256x32x32 : S128x256x1024.ShapeCasts S128x256x32x32
  dot_S288x64_S64x8192_S288x8192_1_0_0_1_n_n_wf : DotDims.WF S288x64 S64x8192 S288x8192 [1] [0] [0] [1] [] []
  dot_S288x96_S96x8192_S288x8192_1_0_0_1_n_n_wf : DotDims.WF S288x96 S96x8192 S288x8192 [1] [0] [0] [1] [] []
  dot_S288x128_S128x8192_S288x8192_1_0_0_1_n_n_wf : DotDims.WF S288x128 S128x8192 S288x8192 [1] [0] [0] [1] [] []
  dot_S288x160_S160x8192_S288x8192_1_0_0_1_n_n_wf : DotDims.WF S288x160 S160x8192 S288x8192 [1] [0] [0] [1] [] []
  dot_S288x192_S192x8192_S288x8192_1_0_0_1_n_n_wf : DotDims.WF S288x192 S192x8192 S288x8192 [1] [0] [0] [1] [] []
  dot_S288x224_S224x8192_S288x8192_1_0_0_1_n_n_wf : DotDims.WF S288x224 S224x8192 S288x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1024.size a ≤ S128x64x1024.size a
  hwx0_0 : ∀ i : grid0.Coords, EltTy.bits .f32 = 32 ∨ (Rect.block (s := S128x64x1024) S8x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x1024.size a ≤ S64x128x1024.size a
  hwx0_1 : ∀ i : grid0.Coords, EltTy.bits .bf16 = 32 ∨ (Rect.block (s := S64x128x1024) S64x8x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x2.size a ≤ S1x64x2.size a
  hwx0_2 : ∀ i : grid0.Coords, EltTy.bits .f32 = 32 ∨ (Rect.block (s := S1x64x2) S1x64x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8x1024.size a ≤ S64x128x1024.size a
  hwx1_0 : ∀ i : grid1.Coords, EltTy.bits .bf16 = 32 ∨ (Rect.block (s := S64x128x1024) S64x8x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64x2.size a ≤ S1x64x2.size a
  hwx1_1 : ∀ i : grid1.Coords, EltTy.bits .f32 = 32 ∨ (Rect.block (s := S1x64x2) S1x64x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x1024.size a ≤ S2x1024.size a
  hwx1_4 : ∀ i : grid1.Coords, EltTy.bits .f32 = 32 ∨ (Rect.block (s := S2x1024) S2x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S288x64.size a ≤ S288x64.size a
  hwx1_5 : ∀ i : grid1.Coords, EltTy.bits .f32 = 32 ∨ (Rect.block (s := S288x64) S288x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x8x1024.size a ≤ S32x128x1024.size a
  hwx1_6 : ∀ i : grid1.Coords, EltTy.bits .bf16 = 32 ∨ (Rect.block (s := S32x128x1024) S32x8x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32x2.size a ≤ S1x32x2.size a
  hwx1_7 : ∀ i : grid1.Coords, EltTy.bits .f32 = 32 ∨ (Rect.block (s := S1x32x2) S1x32x2.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x8x1024.size a ≤ S64x128x1024.size a
  hwx2_0 : ∀ i : grid2.Coords, EltTy.bits .bf16 = 32 ∨ (Rect.block (s := S64x128x1024) S64x8x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x8x1024.size a ≤ S32x128x1024.size a
  hwx2_1 : ∀ i : grid2.Coords, EltTy.bits .bf16 = 32 ∨ (Rect.block (s := S32x128x1024) S32x8x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64x2.size a ≤ S1x64x2.size a
  hwx2_2 : ∀ i : grid2.Coords, EltTy.bits .f32 = 32 ∨ (Rect.block (s := S1x64x2) S1x64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32x2.size a ≤ S1x32x2.size a
  hwx2_3 : ∀ i : grid2.Coords, EltTy.bits .f32 = 32 ∨ (Rect.block (s := S1x32x2) S1x32x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x1.size a ≤ S96x1.size a
  hwx2_4 : ∀ i : grid2.Coords, EltTy.bits .f32 = 32 ∨ (Rect.block (s := S96x1) S96x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x1.size a ≤ S96x1.size a
  hwx2_5 : ∀ i : grid2.Coords, EltTy.bits .f32 = 32 ∨ (Rect.block (s := S96x1) S96x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x1024.size a ≤ S2x1024.size a
  hwx2_6 : ∀ i : grid2.Coords, EltTy.bits .f32 = 32 ∨ (Rect.block (s := S2x1024) S2x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S288x96.size a ≤ S288x96.size a
  hwx2_7 : ∀ i : grid2.Coords, EltTy.bits .f32 = 32 ∨ (Rect.block (s := S288x96) S288x96.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S32x8x1024.size a ≤ S32x128x1024.size a
  hwx2_8 : ∀ i : grid2.Coords, EltTy.bits .bf16 = 32 ∨ (Rect.block (s := S32x128x1024) S32x8x1024.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32x2.size a ≤ S1x32x2.size a
  hwx2_9 : ∀ i : grid2.Coords, EltTy.bits .f32 = 32 ∨ (Rect.block (s := S1x32x2) S1x32x2.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x8x1024.size a ≤ S64x128x1024.size a
  hwx3_0 : ∀ i : grid3.Coords, EltTy.bits .bf16 = 32 ∨ (Rect.block (s := S64x128x1024) S64x8x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S32x8x1024.size a ≤ S32x128x1024.size a
  hwx3_1 : ∀ i : grid3.Coords, EltTy.bits .bf16 = 32 ∨ (Rect.block (s := S32x128x1024) S32x8x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S32x8x1024.size a ≤ S32x128x1024.size a
  hwx3_2 : ∀ i : grid3.Coords, EltTy.bits .bf16 = 32 ∨ (Rect.block (s := S32x128x1024) S32x8x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64x2.size a ≤ S1x64x2.size a
  hwx3_3 : ∀ i : grid3.Coords, EltTy.bits .f32 = 32 ∨ (Rect.block (s := S1x64x2) S1x64x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32x2.size a ≤ S1x32x2.size a
  hwx3_4 : ∀ i : grid3.Coords, EltTy.bits .f32 = 32 ∨ (Rect.block (s := S1x32x2) S1x32x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32x2.size a ≤ S1x32x2.size a
  hwx3_5 : ∀ i : grid3.Coords, EltTy.bits .f32 = 32 ∨ (Rect.block (s := S1x32x2) S1x32x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x1.size a ≤ S128x1.size a
  hwx3_6 : ∀ i : grid3.Coords, EltTy.bits .f32 = 32 ∨ (Rect.block (s := S128x1) S128x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x1.size a ≤ S128x1.size a
  hwx3_7 : ∀ i : grid3.Coords, EltTy.bits .f32 = 32 ∨ (Rect.block (s := S128x1) S128x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S2x1024.size a ≤ S2x1024.size a
  hwx3_8 : ∀ i : grid3.Coords, EltTy.bits .f32 = 32 ∨ (Rect.block (s := S2x1024) S2x1024.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S288x128.size a ≤ S288x128.size a
  hwx3_9 : ∀ i : grid3.Coords, EltTy.bits .f32 = 32 ∨ (Rect.block (s := S288x128) S288x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S32x8x1024.size a ≤ S32x128x1024.size a
  hwx3_10 : ∀ i : grid3.Coords, EltTy.bits .bf16 = 32 ∨ (Rect.block (s := S32x128x1024) S32x8x1024.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x32x2.size a ≤ S1x32x2.size a
  hwx3_11 : ∀ i : grid3.Coords, EltTy.bits .f32 = 32 ∨ (Rect.block (s := S1x32x2) S1x32x2.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x8x1024.size a ≤ S64x128x1024.size a
  hwx4_0 : ∀ i : grid4.Coords, EltTy.bits .bf16 = 32 ∨ (Rect.block (s := S64x128x1024) S64x8x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S32x8x1024.size a ≤ S32x128x1024.size a
  hwx4_1 : ∀ i : grid4.Coords, EltTy.bits .bf16 = 32 ∨ (Rect.block (s := S32x128x1024) S32x8x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S32x8x1024.size a ≤ S32x128x1024.size a
  hwx4_2 : ∀ i : grid4.Coords, EltTy.bits .bf16 = 32 ∨ (Rect.block (s := S32x128x1024) S32x8x1024.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S32x8x1024.size a ≤ S32x128x1024.size a
  hwx4_3 : ∀ i : grid4.Coords, EltTy.bits .bf16 = 32 ∨ (Rect.block (s := S32x128x1024) S32x8x1024.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64x2.size a ≤ S1x64x2.size a
  hwx4_4 : ∀ i : grid4.Coords, EltTy.bits .f32 = 32 ∨ (Rect.block (s := S1x64x2) S1x64x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32x2.size a ≤ S1x32x2.size a
  hwx4_5 : ∀ i : grid4.Coords, EltTy.bits .f32 = 32 ∨ (Rect.block (s := S1x32x2) S1x32x2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32x2.size a ≤ S1x32x2.size a
  hwx4_6 : ∀ i : grid4.Coords, EltTy.bits .f32 = 32 ∨ (Rect.block (s := S1x32x2) S1x32x2.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32x2.size a ≤ S1x32x2.size a
  hwx4_7 : ∀ i : grid4.Coords, EltTy.bits .f32 = 32 ∨ (Rect.block (s := S1x32x2) S1x32x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S160x1.size a ≤ S160x1.size a
  hwx4_8 : ∀ i : grid4.Coords, EltTy.bits .f32 = 32 ∨ (Rect.block (s := S160x1) S160x1.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S160x1.size a ≤ S160x1.size a
  hwx4_9 : ∀ i : grid4.Coords, EltTy.bits .f32 = 32 ∨ (Rect.block (s := S160x1) S160x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S2x1024.size a ≤ S2x1024.size a
  hwx4_10 : ∀ i : grid4.Coords, EltTy.bits .f32 = 32 ∨ (Rect.block (s := S2x1024) S2x1024.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S288x160.size a ≤ S288x160.size a
  hwx4_11 : ∀ i : grid4.Coords, EltTy.bits .f32 = 32 ∨ (Rect.block (s := S288x160) S288x160.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S32x8x1024.size a ≤ S32x128x1024.size a
  hwx4_12 : ∀ i : grid4.Coords, EltTy.bits .bf16 = 32 ∨ (Rect.block (s := S32x128x1024) S32x8x1024.size (cc4_transform_12 i) (hinb4_12 i)).WholeWords (EltTy.packing .bf16)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x32x2.size a ≤ S1x32x2.size a
  hwx4_13 : ∀ i : grid4.Coords, EltTy.bits .f32 = 32 ∨ (Rect.block (s := S1x32x2) S1x32x2.size (cc4_transform_13 i) (hinb4_13 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S64x8x1024.size a ≤ S64x128x1024.size a
  hwx5_0 : ∀ i : grid5.Coords, EltTy.bits .bf16 = 32 ∨ (Rect.block (s := S64x128x1024) S64x8x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S32x8x1024.size a ≤ S32x128x1024.size a
  hwx5_1 : ∀ i : grid5.Coords, EltTy.bits .bf16 = 32 ∨ (Rect.block (s := S32x128x1024) S32x8x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S32x8x1024.size a ≤ S32x128x1024.size a
  hwx5_2 : ∀ i : grid5.Coords, EltTy.bits .bf16 = 32 ∨ (Rect.block (s := S32x128x1024) S32x8x1024.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S32x8x1024.size a ≤ S32x128x1024.size a
  hwx5_3 : ∀ i : grid5.Coords, EltTy.bits .bf16 = 32 ∨ (Rect.block (s := S32x128x1024) S32x8x1024.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S32x8x1024.size a ≤ S32x128x1024.size a
  hwx5_4 : ∀ i : grid5.Coords, EltTy.bits .bf16 = 32 ∨ (Rect.block (s := S32x128x1024) S32x8x1024.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64x2.size a ≤ S1x64x2.size a
  hwx5_5 : ∀ i : grid5.Coords, EltTy.bits .f32 = 32 ∨ (Rect.block (s := S1x64x2) S1x64x2.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32x2.size a ≤ S1x32x2.size a
  hwx5_6 : ∀ i : grid5.Coords, EltTy.bits .f32 = 32 ∨ (Rect.block (s := S1x32x2) S1x32x2.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x32x2.size a ≤ S1x32x2.size a
  hwx5_7 : ∀ i : grid5.Coords, EltTy.bits .f32 = 32 ∨ (Rect.block (s := S1x32x2) S1x32x2.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x32x2.size a ≤ S1x32x2.size a
  hwx5_8 : ∀ i : grid5.Coords, EltTy.bits .f32 = 32 ∨ (Rect.block (s := S1x32x2) S1x32x2.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x32x2.size a ≤ S1x32x2.size a
  hwx5_9 : ∀ i : grid5.Coords, EltTy.bits .f32 = 32 ∨ (Rect.block (s := S1x32x2) S1x32x2.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S192x1.size a ≤ S192x1.size a
  hwx5_10 : ∀ i : grid5.Coords, EltTy.bits .f32 = 32 ∨ (Rect.block (s := S192x1) S192x1.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S192x1.size a ≤ S192x1.size a
  hwx5_11 : ∀ i : grid5.Coords, EltTy.bits .f32 = 32 ∨ (Rect.block (s := S192x1) S192x1.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S2x1024.size a ≤ S2x1024.size a
  hwx5_12 : ∀ i : grid5.Coords, EltTy.bits .f32 = 32 ∨ (Rect.block (s := S2x1024) S2x1024.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S288x192.size a ≤ S288x192.size a
  hwx5_13 : ∀ i : grid5.Coords, EltTy.bits .f32 = 32 ∨ (Rect.block (s := S288x192) S288x192.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S32x8x1024.size a ≤ S32x128x1024.size a
  hwx5_14 : ∀ i : grid5.Coords, EltTy.bits .bf16 = 32 ∨ (Rect.block (s := S32x128x1024) S32x8x1024.size (cc5_transform_14 i) (hinb5_14 i)).WholeWords (EltTy.packing .bf16)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S1x32x2.size a ≤ S1x32x2.size a
  hwx5_15 : ∀ i : grid5.Coords, EltTy.bits .f32 = 32 ∨ (Rect.block (s := S1x32x2) S1x32x2.size (cc5_transform_15 i) (hinb5_15 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S64x8x1024.size a ≤ S64x128x1024.size a
  hwx6_0 : ∀ i : grid6.Coords, EltTy.bits .bf16 = 32 ∨ (Rect.block (s := S64x128x1024) S64x8x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S32x8x1024.size a ≤ S32x128x1024.size a
  hwx6_1 : ∀ i : grid6.Coords, EltTy.bits .bf16 = 32 ∨ (Rect.block (s := S32x128x1024) S32x8x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S32x8x1024.size a ≤ S32x128x1024.size a
  hwx6_2 : ∀ i : grid6.Coords, EltTy.bits .bf16 = 32 ∨ (Rect.block (s := S32x128x1024) S32x8x1024.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S32x8x1024.size a ≤ S32x128x1024.size a
  hwx6_3 : ∀ i : grid6.Coords, EltTy.bits .bf16 = 32 ∨ (Rect.block (s := S32x128x1024) S32x8x1024.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S32x8x1024.size a ≤ S32x128x1024.size a
  hwx6_4 : ∀ i : grid6.Coords, EltTy.bits .bf16 = 32 ∨ (Rect.block (s := S32x128x1024) S32x8x1024.size (cc6_transform_4 i) (hinb6_4 i)).WholeWords (EltTy.packing .bf16)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S32x8x1024.size a ≤ S32x128x1024.size a
  hwx6_5 : ∀ i : grid6.Coords, EltTy.bits .bf16 = 32 ∨ (Rect.block (s := S32x128x1024) S32x8x1024.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64x2.size a ≤ S1x64x2.size a
  hwx6_6 : ∀ i : grid6.Coords, EltTy.bits .f32 = 32 ∨ (Rect.block (s := S1x64x2) S1x64x2.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x32x2.size a ≤ S1x32x2.size a
  hwx6_7 : ∀ i : grid6.Coords, EltTy.bits .f32 = 32 ∨ (Rect.block (s := S1x32x2) S1x32x2.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x32x2.size a ≤ S1x32x2.size a
  hwx6_8 : ∀ i : grid6.Coords, EltTy.bits .f32 = 32 ∨ (Rect.block (s := S1x32x2) S1x32x2.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x32x2.size a ≤ S1x32x2.size a
  hwx6_9 : ∀ i : grid6.Coords, EltTy.bits .f32 = 32 ∨ (Rect.block (s := S1x32x2) S1x32x2.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x32x2.size a ≤ S1x32x2.size a
  hwx6_10 : ∀ i : grid6.Coords, EltTy.bits .f32 = 32 ∨ (Rect.block (s := S1x32x2) S1x32x2.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x32x2.size a ≤ S1x32x2.size a
  hwx6_11 : ∀ i : grid6.Coords, EltTy.bits .f32 = 32 ∨ (Rect.block (s := S1x32x2) S1x32x2.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S224x1.size a ≤ S224x1.size a
  hwx6_12 : ∀ i : grid6.Coords, EltTy.bits .f32 = 32 ∨ (Rect.block (s := S224x1) S224x1.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S224x1.size a ≤ S224x1.size a
  hwx6_13 : ∀ i : grid6.Coords, EltTy.bits .f32 = 32 ∨ (Rect.block (s := S224x1) S224x1.size (cc6_transform_13 i) (hinb6_13 i)).WholeWords (EltTy.packing .f32)
  hstage6_14 : ∀ j, (stage6_14 j).IsWhole
  nbuf6_14 : grid6.bufCount reads6_14 true = 1
  hreads6_14 : ∀ i i' : grid6.Coords, (∀ a, reads6_14 a = true → i a = i' a) → cc6_transform_14 i = cc6_transform_14 i'
  hinb6_14 : ∀ (i : grid6.Coords) a, (cc6_transform_14 i a + 1) * S2x1024.size a ≤ S2x1024.size a
  hwx6_14 : ∀ i : grid6.Coords, EltTy.bits .f32 = 32 ∨ (Rect.block (s := S2x1024) S2x1024.size (cc6_transform_14 i) (hinb6_14 i)).WholeWords (EltTy.packing .f32)
  hstage6_15 : ∀ j, (stage6_15 j).IsWhole
  nbuf6_15 : grid6.bufCount reads6_15 true = 1
  hreads6_15 : ∀ i i' : grid6.Coords, (∀ a, reads6_15 a = true → i a = i' a) → cc6_transform_15 i = cc6_transform_15 i'
  hinb6_15 : ∀ (i : grid6.Coords) a, (cc6_transform_15 i a + 1) * S288x224.size a ≤ S288x224.size a
  hwx6_15 : ∀ i : grid6.Coords, EltTy.bits .f32 = 32 ∨ (Rect.block (s := S288x224) S288x224.size (cc6_transform_15 i) (hinb6_15 i)).WholeWords (EltTy.packing .f32)
  hstage6_16 : ∀ j, (stage6_16 j).IsWhole
  nbuf6_16 : grid6.bufCount reads6_16 false = 2
  hreads6_16 : ∀ i i' : grid6.Coords, (∀ a, reads6_16 a = true → i a = i' a) → cc6_transform_16 i = cc6_transform_16 i'
  hinb6_16 : ∀ (i : grid6.Coords) a, (cc6_transform_16 i a + 1) * S8x256x1024.size a ≤ S128x256x1024.size a
  hwx6_16 : ∀ i : grid6.Coords, EltTy.bits .f32 = 32 ∨ (Rect.block (s := S128x256x1024) S8x256x1024.size (cc6_transform_16 i) (hinb6_16 i)).WholeWords (EltTy.packing .f32)

variable [Facts₀]

def dot_S288x64_S64x8192_S288x8192_1_0_0_1_n_n : DotDims S288x64 S64x8192 S288x8192 where
  lhsContracting := [1]
  rhsContracting := [0]
  lhsNonContracting := [0]
  rhsNonContracting := [1]
  lhsBatch := []
  rhsBatch := []
  wf := dot_S288x64_S64x8192_S288x8192_1_0_0_1_n_n_wf
def dot_S288x96_S96x8192_S288x8192_1_0_0_1_n_n : DotDims S288x96 S96x8192 S288x8192 where
  lhsContracting := [1]
  rhsContracting := [0]
  lhsNonContracting := [0]
  rhsNonContracting := [1]
  lhsBatch := []
  rhsBatch := []
  wf := dot_S288x96_S96x8192_S288x8192_1_0_0_1_n_n_wf
def dot_S288x128_S128x8192_S288x8192_1_0_0_1_n_n : DotDims S288x128 S128x8192 S288x8192 where
  lhsContracting := [1]
  rhsContracting := [0]
  lhsNonContracting := [0]
  rhsNonContracting := [1]
  lhsBatch := []
  rhsBatch := []
  wf := dot_S288x128_S128x8192_S288x8192_1_0_0_1_n_n_wf
def dot_S288x160_S160x8192_S288x8192_1_0_0_1_n_n : DotDims S288x160 S160x8192 S288x8192 where
  lhsContracting := [1]
  rhsContracting := [0]
  lhsNonContracting := [0]
  rhsNonContracting := [1]
  lhsBatch := []
  rhsBatch := []
  wf := dot_S288x160_S160x8192_S288x8192_1_0_0_1_n_n_wf
def dot_S288x192_S192x8192_S288x8192_1_0_0_1_n_n : DotDims S288x192 S192x8192 S288x8192 where
  lhsContracting := [1]
  rhsContracting := [0]
  lhsNonContracting := [0]
  rhsNonContracting := [1]
  lhsBatch := []
  rhsBatch := []
  wf := dot_S288x192_S192x8192_S288x8192_1_0_0_1_n_n_wf
def dot_S288x224_S224x8192_S288x8192_1_0_0_1_n_n : DotDims S288x224 S224x8192 S288x8192 where
  lhsContracting := [1]
  rhsContracting := [0]
  lhsNonContracting := [0]
  rhsNonContracting := [1]
  lhsBatch := []
  rhsBatch := []
  wf := dot_S288x224_S224x8192_S288x8192_1_0_0_1_n_n_wf

abbrev win0_0 : Pipeline.Window sig grid0 :=
  Pipeline.Window.ofSpec (Memref.whole main_v0) S8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11_0) S64x8x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11_1) S1x64x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11_0) S64x8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S1x64x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S2x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S288x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16_0) S32x8x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v16_1) S1x32x2.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v11_0) S64x8x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S32x8x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11_1) S1x64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16_1) S1x32x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S96x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S96x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S2x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S288x96.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v21_0) S32x8x1024.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v21_1) S1x32x2.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v11_0) S64x8x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16_0) S32x8x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21_0) S32x8x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11_1) S1x64x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16_1) S1x32x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v21_1) S1x32x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v24) S128x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v25) S128x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v10) S2x1024.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v23) S288x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v26_0) S32x8x1024.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v26_1) S1x32x2.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v11_0) S64x8x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16_0) S32x8x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21_0) S32x8x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v26_0) S32x8x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v11_1) S1x64x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v16_1) S1x32x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v21_1) S1x32x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v26_1) S1x32x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v29) S160x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v30) S160x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v10) S2x1024.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v28) S288x160.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v31_0) S32x8x1024.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v31_1) S1x32x2.size cc4_transform_13 reads4_13 true true 1 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev win5_0 : Pipeline.Window sig grid5 :=
  Pipeline.Window.ofSpec (Memref.whole main_v11_0) S64x8x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16_0) S32x8x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v21_0) S32x8x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v26_0) S32x8x1024.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v31_0) S32x8x1024.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v11_1) S1x64x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v16_1) S1x32x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v21_1) S1x32x2.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v26_1) S1x32x2.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v31_1) S1x32x2.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v34) S192x1.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v35) S192x1.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v10) S2x1024.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v33) S288x192.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v36_0) S32x8x1024.size cc5_transform_14 reads5_14 true false 2 stage5_14 sem5_14
    hrank5 hreads5_14 hinb5_14 nbuf5_14 (Memref.isWhole_whole _) hwx5_14 hstage5_14

abbrev win5_15 : Pipeline.Window sig grid5 :=
  Pipeline.Window.ofSpec (Memref.whole main_v36_1) S1x32x2.size cc5_transform_15 reads5_15 true true 1 stage5_15 sem5_15
    hrank5 hreads5_15 hinb5_15 nbuf5_15 (Memref.isWhole_whole _) hwx5_15 hstage5_15

abbrev win5 : Fin 16 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | ⟨_ + 16, h⟩ => absurd h (Nat.not_lt.2 (Nat.le_add_left _ _))
abbrev spec5 : Fin 16 → Pipeline.WinSpec sig grid5.rank := fun w => (win5 w).toWinSpec

abbrev win6_0 : Pipeline.Window sig grid6 :=
  Pipeline.Window.ofSpec (Memref.whole main_v11_0) S64x8x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16_0) S32x8x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v21_0) S32x8x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v26_0) S32x8x1024.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v31_0) S32x8x1024.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v36_0) S32x8x1024.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v11_1) S1x64x2.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v16_1) S1x32x2.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v21_1) S1x32x2.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v26_1) S1x32x2.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v31_1) S1x32x2.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v36_1) S1x32x2.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v39) S224x1.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v40) S224x1.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v10) S2x1024.size cc6_transform_14 reads6_14 false true 1 stage6_14 sem6_14
    hrank6 hreads6_14 hinb6_14 nbuf6_14 (Memref.isWhole_whole _) hwx6_14 hstage6_14

abbrev win6_15 : Pipeline.Window sig grid6 :=
  Pipeline.Window.ofSpec (Memref.whole main_v38) S288x224.size cc6_transform_15 reads6_15 false true 1 stage6_15 sem6_15
    hrank6 hreads6_15 hinb6_15 nbuf6_15 (Memref.isWhole_whole _) hwx6_15 hstage6_15

abbrev win6_16 : Pipeline.Window sig grid6 :=
  Pipeline.Window.ofSpec (Memref.whole main_v41) S8x256x1024.size cc6_transform_16 reads6_16 true false 2 stage6_16 sem6_16
    hrank6 hreads6_16 hinb6_16 nbuf6_16 (Memref.isWhole_whole _) hwx6_16 hstage6_16

abbrev win6 : Fin 17 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | 15 => win6_15 | 16 => win6_16 | ⟨_ + 17, h⟩ => absurd h (Nat.not_lt.2 (Nat.le_add_left _ _))
abbrev spec6 : Fin 17 → Pipeline.WinSpec sig grid6.rank := fun w => (win6 w).toWinSpec

class Facts : Prop extends Facts₀ where

variable [Facts]
-- ==== ReferenceIdeal.lean ====
abbrev S128x64x32x32 : Shape := ⟨4, ![128, 64, 32, 32]⟩
abbrev S64 : Shape := ⟨1, ![64]⟩
abbrev S32x64x3x3 : Shape := ⟨4, ![32, 64, 3, 3]⟩
abbrev S96 : Shape := ⟨1, ![96]⟩
abbrev S32x96x3x3 : Shape := ⟨4, ![32, 96, 3, 3]⟩
abbrev S128 : Shape := ⟨1, ![128]⟩
abbrev S32x128x3x3 : Shape := ⟨4, ![32, 128, 3, 3]⟩
abbrev S160 : Shape := ⟨1, ![160]⟩
abbrev S32x160x3x3 : Shape := ⟨4, ![32, 160, 3, 3]⟩
abbrev S192 : Shape := ⟨1, ![192]⟩
abbrev S32x192x3x3 : Shape := ⟨4, ![32, 192, 3, 3]⟩
abbrev S224 : Shape := ⟨1, ![224]⟩
abbrev S32x224x3x3 : Shape := ⟨4, ![32, 224, 3, 3]⟩
abbrev S128x64x1024 : Shape := ⟨3, ![128, 64, 1024]⟩
abbrev S_ : Shape := ⟨0, ![]⟩
abbrev S128x192x1024 : Shape := ⟨3, ![128, 192, 1024]⟩
abbrev S128x256x1024 : Shape := ⟨3, ![128, 256, 1024]⟩
abbrev S1024 : Shape := ⟨1, ![1024]⟩
abbrev S1x1024 : Shape := ⟨2, ![1, 1024]⟩
abbrev S2x1024 : Shape := ⟨2, ![2, 1024]⟩
abbrev S64x2 : Shape := ⟨2, ![64, 2]⟩
abbrev S64x1 : Shape := ⟨2, ![64, 1]⟩
abbrev S32x3x3x64 : Shape := ⟨4, ![32, 3, 3, 64]⟩
abbrev S32x576 : Shape := ⟨2, ![32, 576]⟩
abbrev S128x32x1024 : Shape := ⟨3, ![128, 32, 1024]⟩
abbrev S1 : Shape := ⟨1, ![1]⟩
abbrev S96x2 : Shape := ⟨2, ![96, 2]⟩
abbrev S96x1 : Shape := ⟨2, ![96, 1]⟩
abbrev S32x3x3x96 : Shape := ⟨4, ![32, 3, 3, 96]⟩
abbrev S32x864 : Shape := ⟨2, ![32, 864]⟩
abbrev S128x2 : Shape := ⟨2, ![128, 2]⟩
abbrev S128x1 : Shape := ⟨2, ![128, 1]⟩
abbrev S32x3x3x128 : Shape := ⟨4, ![32, 3, 3, 128]⟩
abbrev S32x1152 : Shape := ⟨2, ![32, 1152]⟩
abbrev S160x2 : Shape := ⟨2, ![160, 2]⟩
abbrev S160x1 : Shape := ⟨2, ![160, 1]⟩
abbrev S32x3x3x160 : Shape := ⟨4, ![32, 3, 3, 160]⟩
abbrev S32x1440 : Shape := ⟨2, ![32, 1440]⟩
abbrev S192x2 : Shape := ⟨2, ![192, 2]⟩
abbrev S192x1 : Shape := ⟨2, ![192, 1]⟩
abbrev S32x3x3x192 : Shape := ⟨4, ![32, 3, 3, 192]⟩
abbrev S32x1728 : Shape := ⟨2, ![32, 1728]⟩
abbrev S224x2 : Shape := ⟨2, ![224, 2]⟩
abbrev S224x1 : Shape := ⟨2, ![224, 1]⟩
abbrev S32x3x3x224 : Shape := ⟨4, ![32, 3, 3, 224]⟩
abbrev S32x2016 : Shape := ⟨2, ![32, 2016]⟩
abbrev S128x256x32x32 : Shape := ⟨4, ![128, 256, 32, 32]⟩
abbrev S1x256x1024 : Shape := ⟨3, ![1, 256, 1024]⟩
abbrev S1x64x1024 : Shape := ⟨3, ![1, 64, 1024]⟩
abbrev S64x1024 : Shape := ⟨2, ![64, 1024]⟩
abbrev S1x32x1024 : Shape := ⟨3, ![1, 32, 1024]⟩
abbrev S64x33 : Shape := ⟨2, ![64, 33]⟩
abbrev S64x1090 : Shape := ⟨2, ![64, 1090]⟩
abbrev S576x1024 : Shape := ⟨2, ![576, 1024]⟩
abbrev S32x1024 : Shape := ⟨2, ![32, 1024]⟩
abbrev S1x96x1024 : Shape := ⟨3, ![1, 96, 1024]⟩
abbrev S96x1024 : Shape := ⟨2, ![96, 1024]⟩
abbrev S96x33 : Shape := ⟨2, ![96, 33]⟩
abbrev S96x1090 : Shape := ⟨2, ![96, 1090]⟩
abbrev S864x1024 : Shape := ⟨2, ![864, 1024]⟩
abbrev S1x128x1024 : Shape := ⟨3, ![1, 128, 1024]⟩
abbrev S128x1024 : Shape := ⟨2, ![128, 1024]⟩
abbrev S128x33 : Shape := ⟨2, ![128, 33]⟩
abbrev S128x1090 : Shape := ⟨2, ![128, 1090]⟩
abbrev S1152x1024 : Shape := ⟨2, ![1152, 1024]⟩
abbrev S1x160x1024 : Shape := ⟨3, ![1, 160, 1024]⟩
abbrev S160x1024 : Shape := ⟨2, ![160, 1024]⟩
abbrev S160x33 : Shape := ⟨2, ![160, 33]⟩
abbrev S160x1090 : Shape := ⟨2, ![160, 1090]⟩
abbrev S1440x1024 : Shape := ⟨2, ![1440, 1024]⟩
abbrev S1x192x1024 : Shape := ⟨3, ![1, 192, 1024]⟩
abbrev S192x1024 : Shape := ⟨2, ![192, 1024]⟩
abbrev S192x33 : Shape := ⟨2, ![192, 33]⟩
abbrev S192x1090 : Shape := ⟨2, ![192, 1090]⟩
abbrev S1728x1024 : Shape := ⟨2, ![1728, 1024]⟩
abbrev S1x224x1024 : Shape := ⟨3, ![1, 224, 1024]⟩
abbrev S224x1024 : Shape := ⟨2, ![224, 1024]⟩
abbrev S224x33 : Shape := ⟨2, ![224, 33]⟩
abbrev S224x1090 : Shape := ⟨2, ![224, 1090]⟩
abbrev S2016x1024 : Shape := ⟨2, ![2016, 1024]⟩

abbrev nBuf : Space → Nat
  | .hbm => 225
  | .vmem => 66
  | .smem => 0
  | _ => 0

abbrev hbmTy0_0 (i : Nat) : BufTy := match i % 128 with
  | 0 => ⟨S128x64x32x32, .f32⟩
  | 1 => ⟨S64, .f32⟩
  | 2 => ⟨S64, .f32⟩
  | 3 => ⟨S32x64x3x3, .f32⟩
  | 4 => ⟨S96, .f32⟩
  | 5 => ⟨S96, .f32⟩
  | 6 => ⟨S32x96x3x3, .f32⟩
  | 7 => ⟨S128, .f32⟩
  | 8 => ⟨S128, .f32⟩
  | 9 => ⟨S32x128x3x3, .f32⟩
  | 10 => ⟨S160, .f32⟩
  | 11 => ⟨S160, .f32⟩
  | 12 => ⟨S32x160x3x3, .f32⟩
  | 13 => ⟨S192, .f32⟩
  | 14 => ⟨S192, .f32⟩
  | 15 => ⟨S32x192x3x3, .f32⟩
  | 16 => ⟨S224, .f32⟩
  | 17 => ⟨S224, .f32⟩
  | 18 => ⟨S32x224x3x3, .f32⟩
  | 19 => ⟨S128x64x1024, .f32⟩
  | 20 => ⟨S_, .f32⟩
  | 21 => ⟨S128x192x1024, .f32⟩
  | 22 => ⟨S128x256x1024, .f32⟩
  | 23 => ⟨S1024, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S1024, .i32⟩
  | 31 => ⟨S1024, .i32⟩
  | 32 => ⟨S_, .i32⟩
  | 33 => ⟨S1024, .i32⟩
  | 34 => ⟨S1024, .i1⟩
  | 35 => ⟨S_, .i32⟩
  | 36 => ⟨S1024, .i32⟩
  | 37 => ⟨S1024, .i1⟩
  | 38 => ⟨S_, .i32⟩
  | 39 => ⟨S_, .i1⟩
  | 40 => ⟨S1024, .i1⟩
  | 41 => ⟨S1024, .i1⟩
  | 42 => ⟨S1024, .i1⟩
  | 43 => ⟨S1024, .i32⟩
  | 44 => ⟨S1024, .i32⟩
  | 45 => ⟨S1024, .i32⟩
  | 46 => ⟨S_, .i32⟩
  | 47 => ⟨S1024, .i32⟩
  | 48 => ⟨S1024, .i1⟩
  | 49 => ⟨S_, .i32⟩
  | 50 => ⟨S1024, .i32⟩
  | 51 => ⟨S1024, .i1⟩
  | 52 => ⟨S1x1024, .i1⟩
  | 53 => ⟨S1x1024, .i1⟩
  | 54 => ⟨S2x1024, .i1⟩
  | 55 => ⟨S2x1024, .f32⟩
  | 56 => ⟨S64x2, .f32⟩
  | 57 => ⟨S64x1, .f32⟩
  | 58 => ⟨S64, .f32⟩
  | 59 => ⟨S_, .f32⟩
  | 60 => ⟨S64, .f32⟩
  | 61 => ⟨S64, .f32⟩
  | 62 => ⟨S64x1, .f32⟩
  | 63 => ⟨S64, .f32⟩
  | 64 => ⟨S_, .f32⟩
  | 65 => ⟨S64, .f32⟩
  | 66 => ⟨S64, .f32⟩
  | 67 => ⟨S64, .f32⟩
  | 68 => ⟨S64, .f32⟩
  | 69 => ⟨S_, .f32⟩
  | 70 => ⟨S64, .f32⟩
  | 71 => ⟨S64, .f32⟩
  | 72 => ⟨S64, .f32⟩
  | 73 => ⟨S64, .f32⟩
  | 74 => ⟨S64, .f32⟩
  | 75 => ⟨S64, .f32⟩
  | 76 => ⟨S32x3x3x64, .f32⟩
  | 77 => ⟨S32x576, .f32⟩
  | 78 => ⟨S64x1, .f32⟩
  | 79 => ⟨S64x1, .f32⟩
  | 80 => ⟨S128x32x1024, .f32⟩
  | 81 => ⟨S_, .i32⟩
  | 82 => ⟨S1, .i32⟩
  | 83 => ⟨S128x256x1024, .f32⟩
  | 84 => ⟨S96x2, .f32⟩
  | 85 => ⟨S96x1, .f32⟩
  | 86 => ⟨S96, .f32⟩
  | 87 => ⟨S_, .f32⟩
  | 88 => ⟨S96, .f32⟩
  | 89 => ⟨S96, .f32⟩
  | 90 => ⟨S96x1, .f32⟩
  | 91 => ⟨S96, .f32⟩
  | 92 => ⟨S_, .f32⟩
  | 93 => ⟨S96, .f32⟩
  | 94 => ⟨S96, .f32⟩
  | 95 => ⟨S96, .f32⟩
  | 96 => ⟨S96, .f32⟩
  | 97 => ⟨S_, .f32⟩
  | 98 => ⟨S96, .f32⟩
  | 99 => ⟨S96, .f32⟩
  | 100 => ⟨S96, .f32⟩
  | 101 => ⟨S96, .f32⟩
  | 102 => ⟨S96, .f32⟩
  | 103 => ⟨S96, .f32⟩
  | 104 => ⟨S32x3x3x96, .f32⟩
  | 105 => ⟨S32x864, .f32⟩
  | 106 => ⟨S96x1, .f32⟩
  | 107 => ⟨S96x1, .f32⟩
  | 108 => ⟨S128x32x1024, .f32⟩
  | 109 => ⟨S_, .i32⟩
  | 110 => ⟨S1, .i32⟩
  | 111 => ⟨S128x256x1024, .f32⟩
  | 112 => ⟨S128x2, .f32⟩
  | 113 => ⟨S128x1, .f32⟩
  | 114 => ⟨S128, .f32⟩
  | 115 => ⟨S_, .f32⟩
  | 116 => ⟨S128, .f32⟩
  | 117 => ⟨S128, .f32⟩
  | 118 => ⟨S128x1, .f32⟩
  | 119 => ⟨S128, .f32⟩
  | 120 => ⟨S_, .f32⟩
  | 121 => ⟨S128, .f32⟩
  | 122 => ⟨S128, .f32⟩
  | 123 => ⟨S128, .f32⟩
  | 124 => ⟨S128, .f32⟩
  | 125 => ⟨S_, .f32⟩
  | 126 => ⟨S128, .f32⟩
  | 127 => ⟨S128, .f32⟩
  | _ => ⟨S128x64x32x32, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S32x3x3x128, .f32⟩
  | 5 => ⟨S32x1152, .f32⟩
  | 6 => ⟨S128x1, .f32⟩
  | 7 => ⟨S128x1, .f32⟩
  | 8 => ⟨S128x32x1024, .f32⟩
  | 9 => ⟨S_, .i32⟩
  | 10 => ⟨S1, .i32⟩
  | 11 => ⟨S128x256x1024, .f32⟩
  | 12 => ⟨S160x2, .f32⟩
  | 13 => ⟨S160x1, .f32⟩
  | 14 => ⟨S160, .f32⟩
  | 15 => ⟨S_, .f32⟩
  | 16 => ⟨S160, .f32⟩
  | 17 => ⟨S160, .f32⟩
  | 18 => ⟨S160x1, .f32⟩
  | 19 => ⟨S160, .f32⟩
  | 20 => ⟨S_, .f32⟩
  | 21 => ⟨S160, .f32⟩
  | 22 => ⟨S160, .f32⟩
  | 23 => ⟨S160, .f32⟩
  | 24 => ⟨S160, .f32⟩
  | 25 => ⟨S_, .f32⟩
  | 26 => ⟨S160, .f32⟩
  | 27 => ⟨S160, .f32⟩
  | 28 => ⟨S160, .f32⟩
  | 29 => ⟨S160, .f32⟩
  | 30 => ⟨S160, .f32⟩
  | 31 => ⟨S160, .f32⟩
  | 32 => ⟨S32x3x3x160, .f32⟩
  | 33 => ⟨S32x1440, .f32⟩
  | 34 => ⟨S160x1, .f32⟩
  | 35 => ⟨S160x1, .f32⟩
  | 36 => ⟨S128x32x1024, .f32⟩
  | 37 => ⟨S_, .i32⟩
  | 38 => ⟨S1, .i32⟩
  | 39 => ⟨S128x256x1024, .f32⟩
  | 40 => ⟨S192x2, .f32⟩
  | 41 => ⟨S192x1, .f32⟩
  | 42 => ⟨S192, .f32⟩
  | 43 => ⟨S_, .f32⟩
  | 44 => ⟨S192, .f32⟩
  | 45 => ⟨S192, .f32⟩
  | 46 => ⟨S192x1, .f32⟩
  | 47 => ⟨S192, .f32⟩
  | 48 => ⟨S_, .f32⟩
  | 49 => ⟨S192, .f32⟩
  | 50 => ⟨S192, .f32⟩
  | 51 => ⟨S192, .f32⟩
  | 52 => ⟨S192, .f32⟩
  | 53 => ⟨S_, .f32⟩
  | 54 => ⟨S192, .f32⟩
  | 55 => ⟨S192, .f32⟩
  | 56 => ⟨S192, .f32⟩
  | 57 => ⟨S192, .f32⟩
  | 58 => ⟨S192, .f32⟩
  | 59 => ⟨S192, .f32⟩
  | 60 => ⟨S32x3x3x192, .f32⟩
  | 61 => ⟨S32x1728, .f32⟩
  | 62 => ⟨S192x1, .f32⟩
  | 63 => ⟨S192x1, .f32⟩
  | 64 => ⟨S128x32x1024, .f32⟩
  | 65 => ⟨S_, .i32⟩
  | 66 => ⟨S1, .i32⟩
  | 67 => ⟨S128x256x1024, .f32⟩
  | 68 => ⟨S224x2, .f32⟩
  | 69 => ⟨S224x1, .f32⟩
  | 70 => ⟨S224, .f32⟩
  | 71 => ⟨S_, .f32⟩
  | 72 => ⟨S224, .f32⟩
  | 73 => ⟨S224, .f32⟩
  | 74 => ⟨S224x1, .f32⟩
  | 75 => ⟨S224, .f32⟩
  | 76 => ⟨S_, .f32⟩
  | 77 => ⟨S224, .f32⟩
  | 78 => ⟨S224, .f32⟩
  | 79 => ⟨S224, .f32⟩
  | 80 => ⟨S224, .f32⟩
  | 81 => ⟨S_, .f32⟩
  | 82 => ⟨S224, .f32⟩
  | 83 => ⟨S224, .f32⟩
  | 84 => ⟨S224, .f32⟩
  | 85 => ⟨S224, .f32⟩
  | 86 => ⟨S224, .f32⟩
  | 87 => ⟨S224, .f32⟩
  | 88 => ⟨S32x3x3x224, .f32⟩
  | 89 => ⟨S32x2016, .f32⟩
  | 90 => ⟨S224x1, .f32⟩
  | 91 => ⟨S224x1, .f32⟩
  | 92 => ⟨S128x32x1024, .f32⟩
  | 93 => ⟨S_, .i32⟩
  | 94 => ⟨S1, .i32⟩
  | 95 => ⟨S128x256x1024, .f32⟩
  | 96 => ⟨S128x256x32x32, .f32⟩
  | _ => ⟨S128x64x32x32, .f32⟩

abbrev hbmTy (i : Nat) : BufTy := match i / 128 with
  | 0 => hbmTy0_0 i
  | 1 => hbmTy0_1 i
  | _ => ⟨S128x64x32x32, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S64x2, .f32⟩
  | .local _ .vmem, ⟨3, _⟩ => ⟨S1x256x1024, .f32⟩
  | .local _ .vmem, ⟨4, _⟩ => ⟨S1x256x1024, .f32⟩
  | .local _ .vmem, ⟨5, _⟩ => ⟨S64x1, .f32⟩
  | .local _ .vmem, ⟨6, _⟩ => ⟨S64x1, .f32⟩
  | .local _ .vmem, ⟨7, _⟩ => ⟨S2x1024, .f32⟩
  | .local _ .vmem, ⟨8, _⟩ => ⟨S32x576, .f32⟩
  | .local _ .vmem, ⟨9, _⟩ => ⟨S1x32x1024, .f32⟩
  | .local _ .vmem, ⟨10, _⟩ => ⟨S1x32x1024, .f32⟩
  | .local _ .vmem, ⟨11, _⟩ => ⟨S1x256x1024, .f32⟩
  | .local _ .vmem, ⟨12, _⟩ => ⟨S1x256x1024, .f32⟩
  | .local _ .vmem, ⟨13, _⟩ => ⟨S96x2, .f32⟩
  | .local _ .vmem, ⟨14, _⟩ => ⟨S1x256x1024, .f32⟩
  | .local _ .vmem, ⟨15, _⟩ => ⟨S1x256x1024, .f32⟩
  | .local _ .vmem, ⟨16, _⟩ => ⟨S96x1, .f32⟩
  | .local _ .vmem, ⟨17, _⟩ => ⟨S96x1, .f32⟩
  | .local _ .vmem, ⟨18, _⟩ => ⟨S2x1024, .f32⟩
  | .local _ .vmem, ⟨19, _⟩ => ⟨S32x864, .f32⟩
  | .local _ .vmem, ⟨20, _⟩ => ⟨S1x32x1024, .f32⟩
  | .local _ .vmem, ⟨21, _⟩ => ⟨S1x32x1024, .f32⟩
  | .local _ .vmem, ⟨22, _⟩ => ⟨S1x256x1024, .f32⟩
  | .local _ .vmem, ⟨23, _⟩ => ⟨S1x256x1024, .f32⟩
  | .local _ .vmem, ⟨24, _⟩ => ⟨S128x2, .f32⟩
  | .local _ .vmem, ⟨25, _⟩ => ⟨S1x256x1024, .f32⟩
  | .local _ .vmem, ⟨26, _⟩ => ⟨S1x256x1024, .f32⟩
  | .local _ .vmem, ⟨27, _⟩ => ⟨S128x1, .f32⟩
  | .local _ .vmem, ⟨28, _⟩ => ⟨S128x1, .f32⟩
  | .local _ .vmem, ⟨29, _⟩ => ⟨S2x1024, .f32⟩
  | .local _ .vmem, ⟨30, _⟩ => ⟨S32x1152, .f32⟩
  | .local _ .vmem, ⟨31, _⟩ => ⟨S1x32x1024, .f32⟩
  | .local _ .vmem, ⟨32, _⟩ => ⟨S1x32x1024, .f32⟩
  | .local _ .vmem, ⟨33, _⟩ => ⟨S1x256x1024, .f32⟩
  | .local _ .vmem, ⟨34, _⟩ => ⟨S1x256x1024, .f32⟩
  | .local _ .vmem, ⟨35, _⟩ => ⟨S160x2, .f32⟩
  | .local _ .vmem, ⟨36, _⟩ => ⟨S1x256x1024, .f32⟩
  | .local _ .vmem, ⟨37, _⟩ => ⟨S1x256x1024, .f32⟩
  | .local _ .vmem, ⟨38, _⟩ => ⟨S160x1, .f32⟩
  | .local _ .vmem, ⟨39, _⟩ => ⟨S160x1, .f32⟩
  | .local _ .vmem, ⟨40, _⟩ => ⟨S2x1024, .f32⟩
  | .local _ .vmem, ⟨41, _⟩ => ⟨S32x1440, .f32⟩
  | .local _ .vmem, ⟨42, _⟩ => ⟨S1x32x1024, .f32⟩
  | .local _ .vmem, ⟨43, _⟩ => ⟨S1x32x1024, .f32⟩
  | .local _ .vmem, ⟨44, _⟩ => ⟨S1x256x1024, .f32⟩
  | .local _ .vmem, ⟨45, _⟩ => ⟨S1x256x1024, .f32⟩
  | .local _ .vmem, ⟨46, _⟩ => ⟨S192x2, .f32⟩
  | .local _ .vmem, ⟨47, _⟩ => ⟨S1x256x1024, .f32⟩
  | .local _ .vmem, ⟨48, _⟩ => ⟨S1x256x1024, .f32⟩
  | .local _ .vmem, ⟨49, _⟩ => ⟨S192x1, .f32⟩
  | .local _ .vmem, ⟨50, _⟩ => ⟨S192x1, .f32⟩
  | .local _ .vmem, ⟨51, _⟩ => ⟨S2x1024, .f32⟩
  | .local _ .vmem, ⟨52, _⟩ => ⟨S32x1728, .f32⟩
  | .local _ .vmem, ⟨53, _⟩ => ⟨S1x32x1024, .f32⟩
  | .local _ .vmem, ⟨54, _⟩ => ⟨S1x32x1024, .f32⟩
  | .local _ .vmem, ⟨55, _⟩ => ⟨S1x256x1024, .f32⟩
  | .local _ .vmem, ⟨56, _⟩ => ⟨S1x256x1024, .f32⟩
  | .local _ .vmem, ⟨57, _⟩ => ⟨S224x2, .f32⟩
  | .local _ .vmem, ⟨58, _⟩ => ⟨S1x256x1024, .f32⟩
  | .local _ .vmem, ⟨59, _⟩ => ⟨S1x256x1024, .f32⟩
  | .local _ .vmem, ⟨60, _⟩ => ⟨S224x1, .f32⟩
  | .local _ .vmem, ⟨61, _⟩ => ⟨S224x1, .f32⟩
  | .local _ .vmem, ⟨62, _⟩ => ⟨S2x1024, .f32⟩
  | .local _ .vmem, ⟨63, _⟩ => ⟨S32x2016, .f32⟩
  | .local _ .vmem, ⟨64, _⟩ => ⟨S1x32x1024, .f32⟩
  | .local _ .vmem, ⟨65, _⟩ => ⟨S1x32x1024, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_c : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_c_0 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_c_1 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_2 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_3 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_v4 : Ref sig .tc := ⟨.hbm, 45, rfl⟩
abbrev main_call0_c_0 : Ref sig .tc := ⟨.hbm, 46, rfl⟩
abbrev main_call0_v5 : Ref sig .tc := ⟨.hbm, 47, rfl⟩
abbrev main_call0_v6 : Ref sig .tc := ⟨.hbm, 48, rfl⟩
abbrev main_call0_c_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_v15 : Ref sig .tc := ⟨.hbm, 58, rfl⟩
abbrev main_call0_cst_2 : Ref sig .tc := ⟨.hbm, 59, rfl⟩
abbrev main_call0_v16 : Ref sig .tc := ⟨.hbm, 60, rfl⟩
abbrev main_call0_v17 : Ref sig .tc := ⟨.hbm, 61, rfl⟩
abbrev main_call0_v18 : Ref sig .tc := ⟨.hbm, 62, rfl⟩
abbrev main_call0_v19 : Ref sig .tc := ⟨.hbm, 63, rfl⟩
abbrev main_call0_cst_3 : Ref sig .tc := ⟨.hbm, 64, rfl⟩
abbrev main_call0_v20 : Ref sig .tc := ⟨.hbm, 65, rfl⟩
abbrev main_call0_v21 : Ref sig .tc := ⟨.hbm, 66, rfl⟩
abbrev main_call0_v22 : Ref sig .tc := ⟨.hbm, 67, rfl⟩
abbrev main_call0_v23 : Ref sig .tc := ⟨.hbm, 68, rfl⟩
abbrev main_call0_cst_4 : Ref sig .tc := ⟨.hbm, 69, rfl⟩
abbrev main_call0_v24 : Ref sig .tc := ⟨.hbm, 70, rfl⟩
abbrev main_call0_v25 : Ref sig .tc := ⟨.hbm, 71, rfl⟩
abbrev main_call0_v26 : Ref sig .tc := ⟨.hbm, 72, rfl⟩
abbrev main_call0_v27 : Ref sig .tc := ⟨.hbm, 73, rfl⟩
abbrev main_call0_v28 : Ref sig .tc := ⟨.hbm, 74, rfl⟩
abbrev main_call0_v29 : Ref sig .tc := ⟨.hbm, 75, rfl⟩
abbrev main_call0_v30 : Ref sig .tc := ⟨.hbm, 76, rfl⟩
abbrev main_call0_v31 : Ref sig .tc := ⟨.hbm, 77, rfl⟩
abbrev main_call0_v32 : Ref sig .tc := ⟨.hbm, 78, rfl⟩
abbrev main_call0_v33 : Ref sig .tc := ⟨.hbm, 79, rfl⟩
abbrev main_call0_v34 : Ref sig .tc := ⟨.hbm, 80, rfl⟩
abbrev main_call0_c_5 : Ref sig .tc := ⟨.hbm, 81, rfl⟩
abbrev main_call0_v35 : Ref sig .tc := ⟨.hbm, 82, rfl⟩
abbrev main_call0_v36 : Ref sig .tc := ⟨.hbm, 83, rfl⟩
abbrev main_call0_v37 : Ref sig .tc := ⟨.hbm, 84, rfl⟩
abbrev main_call0_v38 : Ref sig .tc := ⟨.hbm, 85, rfl⟩
abbrev main_call0_v39 : Ref sig .tc := ⟨.hbm, 86, rfl⟩
abbrev main_call0_cst_6 : Ref sig .tc := ⟨.hbm, 87, rfl⟩
abbrev main_call0_v40 : Ref sig .tc := ⟨.hbm, 88, rfl⟩
abbrev main_call0_v41 : Ref sig .tc := ⟨.hbm, 89, rfl⟩
abbrev main_call0_v42 : Ref sig .tc := ⟨.hbm, 90, rfl⟩
abbrev main_call0_v43 : Ref sig .tc := ⟨.hbm, 91, rfl⟩
abbrev main_call0_cst_7 : Ref sig .tc := ⟨.hbm, 92, rfl⟩
abbrev main_call0_v44 : Ref sig .tc := ⟨.hbm, 93, rfl⟩
abbrev main_call0_v45 : Ref sig .tc := ⟨.hbm, 94, rfl⟩
abbrev main_call0_v46 : Ref sig .tc := ⟨.hbm, 95, rfl⟩
abbrev main_call0_v47 : Ref sig .tc := ⟨.hbm, 96, rfl⟩
abbrev main_call0_cst_8 : Ref sig .tc := ⟨.hbm, 97, rfl⟩
abbrev main_call0_v48 : Ref sig .tc := ⟨.hbm, 98, rfl⟩
abbrev main_call0_v49 : Ref sig .tc := ⟨.hbm, 99, rfl⟩
abbrev main_call0_v50 : Ref sig .tc := ⟨.hbm, 100, rfl⟩
abbrev main_call0_v51 : Ref sig .tc := ⟨.hbm, 101, rfl⟩
abbrev main_call0_v52 : Ref sig .tc := ⟨.hbm, 102, rfl⟩
abbrev main_call0_v53 : Ref sig .tc := ⟨.hbm, 103, rfl⟩
abbrev main_call0_v54 : Ref sig .tc := ⟨.hbm, 104, rfl⟩
abbrev main_call0_v55 : Ref sig .tc := ⟨.hbm, 105, rfl⟩
abbrev main_call0_v56 : Ref sig .tc := ⟨.hbm, 106, rfl⟩
abbrev main_call0_v57 : Ref sig .tc := ⟨.hbm, 107, rfl⟩
abbrev main_call0_v58 : Ref sig .tc := ⟨.hbm, 108, rfl⟩
abbrev main_call0_c_9 : Ref sig .tc := ⟨.hbm, 109, rfl⟩
abbrev main_call0_v59 : Ref sig .tc := ⟨.hbm, 110, rfl⟩
abbrev main_call0_v60 : Ref sig .tc := ⟨.hbm, 111, rfl⟩
abbrev main_call0_v61 : Ref sig .tc := ⟨.hbm, 112, rfl⟩
abbrev main_call0_v62 : Ref sig .tc := ⟨.hbm, 113, rfl⟩
abbrev main_call0_v63 : Ref sig .tc := ⟨.hbm, 114, rfl⟩
abbrev main_call0_cst_10 : Ref sig .tc := ⟨.hbm, 115, rfl⟩
abbrev main_call0_v64 : Ref sig .tc := ⟨.hbm, 116, rfl⟩
abbrev main_call0_v65 : Ref sig .tc := ⟨.hbm, 117, rfl⟩
abbrev main_call0_v66 : Ref sig .tc := ⟨.hbm, 118, rfl⟩
abbrev main_call0_v67 : Ref sig .tc := ⟨.hbm, 119, rfl⟩
abbrev main_call0_cst_11 : Ref sig .tc := ⟨.hbm, 120, rfl⟩
abbrev main_call0_v68 : Ref sig .tc := ⟨.hbm, 121, rfl⟩
abbrev main_call0_v69 : Ref sig .tc := ⟨.hbm, 122, rfl⟩
abbrev main_call0_v70 : Ref sig .tc := ⟨.hbm, 123, rfl⟩
abbrev main_call0_v71 : Ref sig .tc := ⟨.hbm, 124, rfl⟩
abbrev main_call0_cst_12 : Ref sig .tc := ⟨.hbm, 125, rfl⟩
abbrev main_call0_v72 : Ref sig .tc := ⟨.hbm, 126, rfl⟩
abbrev main_call0_v73 : Ref sig .tc := ⟨.hbm, 127, rfl⟩
abbrev main_call0_v74 : Ref sig .tc := ⟨.hbm, 128, rfl⟩
abbrev main_call0_v75 : Ref sig .tc := ⟨.hbm, 129, rfl⟩
abbrev main_call0_v76 : Ref sig .tc := ⟨.hbm, 130, rfl⟩
abbrev main_call0_v77 : Ref sig .tc := ⟨.hbm, 131, rfl⟩
abbrev main_call0_v78 : Ref sig .tc := ⟨.hbm, 132, rfl⟩
abbrev main_call0_v79 : Ref sig .tc := ⟨.hbm, 133, rfl⟩
abbrev main_call0_v80 : Ref sig .tc := ⟨.hbm, 134, rfl⟩
abbrev main_call0_v81 : Ref sig .tc := ⟨.hbm, 135, rfl⟩
abbrev main_call0_v82 : Ref sig .tc := ⟨.hbm, 136, rfl⟩
abbrev main_call0_c_13 : Ref sig .tc := ⟨.hbm, 137, rfl⟩
abbrev main_call0_v83 : Ref sig .tc := ⟨.hbm, 138, rfl⟩
abbrev main_call0_v84 : Ref sig .tc := ⟨.hbm, 139, rfl⟩
abbrev main_call0_v85 : Ref sig .tc := ⟨.hbm, 140, rfl⟩
abbrev main_call0_v86 : Ref sig .tc := ⟨.hbm, 141, rfl⟩
abbrev main_call0_v87 : Ref sig .tc := ⟨.hbm, 142, rfl⟩
abbrev main_call0_cst_14 : Ref sig .tc := ⟨.hbm, 143, rfl⟩
abbrev main_call0_v88 : Ref sig .tc := ⟨.hbm, 144, rfl⟩
abbrev main_call0_v89 : Ref sig .tc := ⟨.hbm, 145, rfl⟩
abbrev main_call0_v90 : Ref sig .tc := ⟨.hbm, 146, rfl⟩
abbrev main_call0_v91 : Ref sig .tc := ⟨.hbm, 147, rfl⟩
abbrev main_call0_cst_15 : Ref sig .tc := ⟨.hbm, 148, rfl⟩
abbrev main_call0_v92 : Ref sig .tc := ⟨.hbm, 149, rfl⟩
abbrev main_call0_v93 : Ref sig .tc := ⟨.hbm, 150, rfl⟩
abbrev main_call0_v94 : Ref sig .tc := ⟨.hbm, 151, rfl⟩
abbrev main_call0_v95 : Ref sig .tc := ⟨.hbm, 152, rfl⟩
abbrev main_call0_cst_16 : Ref sig .tc := ⟨.hbm, 153, rfl⟩
abbrev main_call0_v96 : Ref sig .tc := ⟨.hbm, 154, rfl⟩
abbrev main_call0_v97 : Ref sig .tc := ⟨.hbm, 155, rfl⟩
abbrev main_call0_v98 : Ref sig .tc := ⟨.hbm, 156, rfl⟩
abbrev main_call0_v99 : Ref sig .tc := ⟨.hbm, 157, rfl⟩
abbrev main_call0_v100 : Ref sig .tc := ⟨.hbm, 158, rfl⟩
abbrev main_call0_v101 : Ref sig .tc := ⟨.hbm, 159, rfl⟩
abbrev main_call0_v102 : Ref sig .tc := ⟨.hbm, 160, rfl⟩
abbrev main_call0_v103 : Ref sig .tc := ⟨.hbm, 161, rfl⟩
abbrev main_call0_v104 : Ref sig .tc := ⟨.hbm, 162, rfl⟩
abbrev main_call0_v105 : Ref sig .tc := ⟨.hbm, 163, rfl⟩
abbrev main_call0_v106 : Ref sig .tc := ⟨.hbm, 164, rfl⟩
abbrev main_call0_c_17 : Ref sig .tc := ⟨.hbm, 165, rfl⟩
abbrev main_call0_v107 : Ref sig .tc := ⟨.hbm, 166, rfl⟩
abbrev main_call0_v108 : Ref sig .tc := ⟨.hbm, 167, rfl⟩
abbrev main_call0_v109 : Ref sig .tc := ⟨.hbm, 168, rfl⟩
abbrev main_call0_v110 : Ref sig .tc := ⟨.hbm, 169, rfl⟩
abbrev main_call0_v111 : Ref sig .tc := ⟨.hbm, 170, rfl⟩
abbrev main_call0_cst_18 : Ref sig .tc := ⟨.hbm, 171, rfl⟩
abbrev main_call0_v112 : Ref sig .tc := ⟨.hbm, 172, rfl⟩
abbrev main_call0_v113 : Ref sig .tc := ⟨.hbm, 173, rfl⟩
abbrev main_call0_v114 : Ref sig .tc := ⟨.hbm, 174, rfl⟩
abbrev main_call0_v115 : Ref sig .tc := ⟨.hbm, 175, rfl⟩
abbrev main_call0_cst_19 : Ref sig .tc := ⟨.hbm, 176, rfl⟩
abbrev main_call0_v116 : Ref sig .tc := ⟨.hbm, 177, rfl⟩
abbrev main_call0_v117 : Ref sig .tc := ⟨.hbm, 178, rfl⟩
abbrev main_call0_v118 : Ref sig .tc := ⟨.hbm, 179, rfl⟩
abbrev main_call0_v119 : Ref sig .tc := ⟨.hbm, 180, rfl⟩
abbrev main_call0_cst_20 : Ref sig .tc := ⟨.hbm, 181, rfl⟩
abbrev main_call0_v120 : Ref sig .tc := ⟨.hbm, 182, rfl⟩
abbrev main_call0_v121 : Ref sig .tc := ⟨.hbm, 183, rfl⟩
abbrev main_call0_v122 : Ref sig .tc := ⟨.hbm, 184, rfl⟩
abbrev main_call0_v123 : Ref sig .tc := ⟨.hbm, 185, rfl⟩
abbrev main_call0_v124 : Ref sig .tc := ⟨.hbm, 186, rfl⟩
abbrev main_call0_v125 : Ref sig .tc := ⟨.hbm, 187, rfl⟩
abbrev main_call0_v126 : Ref sig .tc := ⟨.hbm, 188, rfl⟩
abbrev main_call0_v127 : Ref sig .tc := ⟨.hbm, 189, rfl⟩
abbrev main_call0_v128 : Ref sig .tc := ⟨.hbm, 190, rfl⟩
abbrev main_call0_v129 : Ref sig .tc := ⟨.hbm, 191, rfl⟩
abbrev main_call0_v130 : Ref sig .tc := ⟨.hbm, 192, rfl⟩
abbrev main_call0_c_21 : Ref sig .tc := ⟨.hbm, 193, rfl⟩
abbrev main_call0_v131 : Ref sig .tc := ⟨.hbm, 194, rfl⟩
abbrev main_call0_v132 : Ref sig .tc := ⟨.hbm, 195, rfl⟩
abbrev main_call0_v133 : Ref sig .tc := ⟨.hbm, 196, rfl⟩
abbrev main_call0_v134 : Ref sig .tc := ⟨.hbm, 197, rfl⟩
abbrev main_call0_v135 : Ref sig .tc := ⟨.hbm, 198, rfl⟩
abbrev main_call0_cst_22 : Ref sig .tc := ⟨.hbm, 199, rfl⟩
abbrev main_call0_v136 : Ref sig .tc := ⟨.hbm, 200, rfl⟩
abbrev main_call0_v137 : Ref sig .tc := ⟨.hbm, 201, rfl⟩
abbrev main_call0_v138 : Ref sig .tc := ⟨.hbm, 202, rfl⟩
abbrev main_call0_v139 : Ref sig .tc := ⟨.hbm, 203, rfl⟩
abbrev main_call0_cst_23 : Ref sig .tc := ⟨.hbm, 204, rfl⟩
abbrev main_call0_v140 : Ref sig .tc := ⟨.hbm, 205, rfl⟩
abbrev main_call0_v141 : Ref sig .tc := ⟨.hbm, 206, rfl⟩
abbrev main_call0_v142 : Ref sig .tc := ⟨.hbm, 207, rfl⟩
abbrev main_call0_v143 : Ref sig .tc := ⟨.hbm, 208, rfl⟩
abbrev main_call0_cst_24 : Ref sig .tc := ⟨.hbm, 209, rfl⟩
abbrev main_call0_v144 : Ref sig .tc := ⟨.hbm, 210, rfl⟩
abbrev main_call0_v145 : Ref sig .tc := ⟨.hbm, 211, rfl⟩
abbrev main_call0_v146 : Ref sig .tc := ⟨.hbm, 212, rfl⟩
abbrev main_call0_v147 : Ref sig .tc := ⟨.hbm, 213, rfl⟩
abbrev main_call0_v148 : Ref sig .tc := ⟨.hbm, 214, rfl⟩
abbrev main_call0_v149 : Ref sig .tc := ⟨.hbm, 215, rfl⟩
abbrev main_call0_v150 : Ref sig .tc := ⟨.hbm, 216, rfl⟩
abbrev main_call0_v151 : Ref sig .tc := ⟨.hbm, 217, rfl⟩
abbrev main_call0_v152 : Ref sig .tc := ⟨.hbm, 218, rfl⟩
abbrev main_call0_v153 : Ref sig .tc := ⟨.hbm, 219, rfl⟩
abbrev main_call0_v154 : Ref sig .tc := ⟨.hbm, 220, rfl⟩
abbrev main_call0_c_25 : Ref sig .tc := ⟨.hbm, 221, rfl⟩
abbrev main_call0_v155 : Ref sig .tc := ⟨.hbm, 222, rfl⟩
abbrev main_call0_v156 : Ref sig .tc := ⟨.hbm, 223, rfl⟩
abbrev main_v0 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg5_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg5_0 : Ref sig .tc := ⟨.vmem, 31, rfl⟩
abbrev cc5_stg5_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg4_0 : Ref sig .tc := ⟨.vmem, 41, rfl⟩
abbrev cc7_stg5_0 : Ref sig .tc := ⟨.vmem, 42, rfl⟩
abbrev cc7_stg5_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg3_0 : Ref sig .tc := ⟨.vmem, 51, rfl⟩
abbrev cc9_stg4_0 : Ref sig .tc := ⟨.vmem, 52, rfl⟩
abbrev cc9_stg5_0 : Ref sig .tc := ⟨.vmem, 53, rfl⟩
abbrev cc9_stg5_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc11_stg0_0 : Ref sig .tc := ⟨.vmem, 58, rfl⟩
abbrev cc11_stg0_1 : Ref sig .tc := ⟨.vmem, 59, rfl⟩
abbrev cc11_stg1_0 : Ref sig .tc := ⟨.vmem, 60, rfl⟩
abbrev cc11_stg2_0 : Ref sig .tc := ⟨.vmem, 61, rfl⟩
abbrev cc11_stg3_0 : Ref sig .tc := ⟨.vmem, 62, rfl⟩
abbrev cc11_stg4_0 : Ref sig .tc := ⟨.vmem, 63, rfl⟩
abbrev cc11_stg5_0 : Ref sig .tc := ⟨.vmem, 64, rfl⟩
abbrev cc11_stg5_1 : Ref sig .tc := ⟨.vmem, 65, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc2_sem0_0 : DmaSem sig := 11
abbrev cc2_sem0_1 : DmaSem sig := 12
abbrev cc2_sem1_0 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem5_1 : DmaSem sig := 21
abbrev cc4_sem0_0 : DmaSem sig := 22
abbrev cc4_sem0_1 : DmaSem sig := 23
abbrev cc4_sem1_0 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem3_0 : DmaSem sig := 29
abbrev cc5_sem4_0 : DmaSem sig := 30
abbrev cc5_sem5_0 : DmaSem sig := 31
abbrev cc5_sem5_1 : DmaSem sig := 32
abbrev cc6_sem0_0 : DmaSem sig := 33
abbrev cc6_sem0_1 : DmaSem sig := 34
abbrev cc6_sem1_0 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem4_0 : DmaSem sig := 41
abbrev cc7_sem5_0 : DmaSem sig := 42
abbrev cc7_sem5_1 : DmaSem sig := 43
abbrev cc8_sem0_0 : DmaSem sig := 44
abbrev cc8_sem0_1 : DmaSem sig := 45
abbrev cc8_sem1_0 : DmaSem sig := 46
abbrev cc9_sem0_0 : DmaSem sig := 47
abbrev cc9_sem0_1 : DmaSem sig := 48
abbrev cc9_sem1_0 : DmaSem sig := 49
abbrev cc9_sem2_0 : DmaSem sig := 50
abbrev cc9_sem3_0 : DmaSem sig := 51
abbrev cc9_sem4_0 : DmaSem sig := 52
abbrev cc9_sem5_0 : DmaSem sig := 53
abbrev cc9_sem5_1 : DmaSem sig := 54
abbrev cc10_sem0_0 : DmaSem sig := 55
abbrev cc10_sem0_1 : DmaSem sig := 56
abbrev cc10_sem1_0 : DmaSem sig := 57
abbrev cc11_sem0_0 : DmaSem sig := 58
abbrev cc11_sem0_1 : DmaSem sig := 59
abbrev cc11_sem1_0 : DmaSem sig := 60
abbrev cc11_sem2_0 : DmaSem sig := 61
abbrev cc11_sem3_0 : DmaSem sig := 62
abbrev cc11_sem4_0 : DmaSem sig := 63
abbrev cc11_sem5_0 : DmaSem sig := 64
abbrev cc11_sem5_1 : DmaSem sig := 65

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x576 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![128], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S96x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x864 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x32x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![128], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨1, ![128], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x1152 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1x32x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![128], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S160x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev grid7 : Pipeline.Grid := ⟨1, ![128], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S160x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S160x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32x1440 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x32x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![128], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1x256x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S192x2 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev grid9 : Pipeline.Grid := ⟨1, ![128], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x256x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S192x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S192x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2x1024 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S32x1728 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1x32x1024 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![128], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1x256x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S224x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev grid11 : Pipeline.Grid := ⟨1, ![128], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x256x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S224x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S224x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S2x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S32x2016 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S1x32x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  shapeCasts_S128x64x32x32_S128x64x1024 : S128x64x32x32.ShapeCasts S128x64x1024
  bcast_S_S128x192x1024 : S_.BroadcastsInDim S128x192x1024 (![] : Fin 0 → Fin S128x192x1024.rank)
  concatenates_S128x64x1024_S128x192x1024_S128x256x1024_d1 : Shape.Concatenates [S128x64x1024, S128x192x1024] S128x256x1024 1
  bcast_S_S1024 : S_.BroadcastsInDim S1024 (![] : Fin 0 → Fin S1024.rank)
  bcast_S1024_S1x1024_1 : S1024.BroadcastsInDim S1x1024 (![1] : Fin 1 → Fin S1x1024.rank)
  concatenates_S1x1024_S1x1024_S2x1024_d0 : Shape.Concatenates [S1x1024, S1x1024] S2x1024 0
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  transposes_S32x64x3x3_S32x3x3x64_0_2_3_1 : S32x64x3x3.Transposes [0, 2, 3, 1] S32x3x3x64
  shapeCasts_S32x3x3x64_S32x576 : S32x3x3x64.ShapeCasts S32x576
  shapeCasts_S64_S64x1 : S64.ShapeCasts S64x1
  bcast_S_S1 : S_.BroadcastsInDim S1 (![] : Fin 0 → Fin S1.rank)
  slices_S96x2_S96x1_0_0 : S96x2.Slices ![0, 0] S96x1
  shapeCasts_S96x1_S96 : S96x1.ShapeCasts S96
  bcast_S_S96 : S_.BroadcastsInDim S96 (![] : Fin 0 → Fin S96.rank)
  slices_S96x2_S96x1_0_1 : S96x2.Slices ![0, 1] S96x1
  transposes_S32x96x3x3_S32x3x3x96_0_2_3_1 : S32x96x3x3.Transposes [0, 2, 3, 1] S32x3x3x96
  shapeCasts_S32x3x3x96_S32x864 : S32x3x3x96.ShapeCasts S32x864
  shapeCasts_S96_S96x1 : S96.ShapeCasts S96x1
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  transposes_S32x128x3x3_S32x3x3x128_0_2_3_1 : S32x128x3x3.Transposes [0, 2, 3, 1] S32x3x3x128
  shapeCasts_S32x3x3x128_S32x1152 : S32x3x3x128.ShapeCasts S32x1152
  shapeCasts_S128_S128x1 : S128.ShapeCasts S128x1
  slices_S160x2_S160x1_0_0 : S160x2.Slices ![0, 0] S160x1
  shapeCasts_S160x1_S160 : S160x1.ShapeCasts S160
  bcast_S_S160 : S_.BroadcastsInDim S160 (![] : Fin 0 → Fin S160.rank)
  slices_S160x2_S160x1_0_1 : S160x2.Slices ![0, 1] S160x1
  transposes_S32x160x3x3_S32x3x3x160_0_2_3_1 : S32x160x3x3.Transposes [0, 2, 3, 1] S32x3x3x160
  shapeCasts_S32x3x3x160_S32x1440 : S32x3x3x160.ShapeCasts S32x1440
  shapeCasts_S160_S160x1 : S160.ShapeCasts S160x1
  slices_S192x2_S192x1_0_0 : S192x2.Slices ![0, 0] S192x1
  shapeCasts_S192x1_S192 : S192x1.ShapeCasts S192
  bcast_S_S192 : S_.BroadcastsInDim S192 (![] : Fin 0 → Fin S192.rank)
  slices_S192x2_S192x1_0_1 : S192x2.Slices ![0, 1] S192x1
  transposes_S32x192x3x3_S32x3x3x192_0_2_3_1 : S32x192x3x3.Transposes [0, 2, 3, 1] S32x3x3x192
  shapeCasts_S32x3x3x192_S32x1728 : S32x3x3x192.ShapeCasts S32x1728
  shapeCasts_S192_S192x1 : S192.ShapeCasts S192x1
  slices_S224x2_S224x1_0_0 : S224x2.Slices ![0, 0] S224x1
  shapeCasts_S224x1_S224 : S224x1.ShapeCasts S224
  bcast_S_S224 : S_.BroadcastsInDim S224 (![] : Fin 0 → Fin S224.rank)
  slices_S224x2_S224x1_0_1 : S224x2.Slices ![0, 1] S224x1
  transposes_S32x224x3x3_S32x3x3x224_0_2_3_1 : S32x224x3x3.Transposes [0, 2, 3, 1] S32x3x3x224
  shapeCasts_S32x3x3x224_S32x2016 : S32x3x3x224.ShapeCasts S32x2016
  shapeCasts_S224_S224x1 : S224.ShapeCasts S224x1
  shapeCasts_S128x256x1024_S128x256x32x32 : S128x256x1024.ShapeCasts S128x256x32x32
  inb_S1x256x1024_S1x64x1024_0_0_0 : ∀ a, (![0, 0, 0] : Fin 3 → Nat) a + S1x64x1024.size a ≤ S1x256x1024.size a
  h_S1x64x1024 : 0 < S1x64x1024.numel
  shapeCasts_S1x64x1024_S64x1024 : S1x64x1024.ShapeCasts S64x1024
  reduces_S64x1024_S64 : S64x1024.Reduces [1] S64
  concatenates_S64x1_S64x1_S64x2_d1 : Shape.Concatenates [S64x1, S64x1] S64x2 1
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  concatenates_S64x33_S64x1024_S64x33_S64x1090_d1 : Shape.Concatenates [S64x33, S64x1024, S64x33] S64x1090 1
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  inb_S2x1024_S1x1024_1_0 : ∀ a, (![1, 0] : Fin 2 → Nat) a + S1x1024.size a ≤ S2x1024.size a
  slices_S64x1090_o0_0_S64x1024 : S64x1090.Slices ![0, 0] S64x1024
  broadcasts_S1x1024_S64x1024 : S1x1024.Broadcasts S64x1024
  slices_S64x1090_o0_1_S64x1024 : S64x1090.Slices ![0, 1] S64x1024
  slices_S64x1090_o0_2_S64x1024 : S64x1090.Slices ![0, 2] S64x1024
  slices_S64x1090_o0_32_S64x1024 : S64x1090.Slices ![0, 32] S64x1024
  slices_S64x1090_o0_33_S64x1024 : S64x1090.Slices ![0, 33] S64x1024
  slices_S64x1090_o0_34_S64x1024 : S64x1090.Slices ![0, 34] S64x1024
  slices_S64x1090_o0_64_S64x1024 : S64x1090.Slices ![0, 64] S64x1024
  slices_S64x1090_o0_65_S64x1024 : S64x1090.Slices ![0, 65] S64x1024
  slices_S64x1090_o0_66_S64x1024 : S64x1090.Slices ![0, 66] S64x1024
  concatenates_S64x1024_S64x1024_S64x1024_S64x1024_S64x1024_S64x1024_S64x1024_S64x1024_S64x1024_S576x1024_d0 : Shape.Concatenates [S64x1024, S64x1024, S64x1024, S64x1024, S64x1024, S64x1024, S64x1024, S64x1024, S64x1024] S576x1024 0
  inb_S32x576_S32x576_0_0 : ∀ a, (![0, 0] : Fin 2 → Nat) a + S32x576.size a ≤ S32x576.size a
  h_S32x576 : 0 < S32x576.numel
  shapeCasts_S32x576_S32x576 : S32x576.ShapeCasts S32x576
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  inb_S1x256x1024_S1x96x1024_0_0_0 : ∀ a, (![0, 0, 0] : Fin 3 → Nat) a + S1x96x1024.size a ≤ S1x256x1024.size a
  h_S1x96x1024 : 0 < S1x96x1024.numel
  shapeCasts_S1x96x1024_S96x1024 : S1x96x1024.ShapeCasts S96x1024
  reduces_S96x1024_S96 : S96x1024.Reduces [1] S96
  concatenates_S96x1_S96x1_S96x2_d1 : Shape.Concatenates [S96x1, S96x1] S96x2 1
  inb_S96x2_S96x2_0_0 : ∀ a, (![0, 0] : Fin 2 → Nat) a + S96x2.size a ≤ S96x2.size a
  h_S96x2 : 0 < S96x2.numel
  shapeCasts_S96x2_S96x2 : S96x2.ShapeCasts S96x2
  inb_S96x1_S96x1_0_0 : ∀ a, (![0, 0] : Fin 2 → Nat) a + S96x1.size a ≤ S96x1.size a
  h_S96x1 : 0 < S96x1.numel
  shapeCasts_S96x1_S96x1 : S96x1.ShapeCasts S96x1
  broadcasts_S96x1_S96x1024 : S96x1.Broadcasts S96x1024
  concatenates_S96x33_S96x1024_S96x33_S96x1090_d1 : Shape.Concatenates [S96x33, S96x1024, S96x33] S96x1090 1
  slices_S96x1090_o0_0_S96x1024 : S96x1090.Slices ![0, 0] S96x1024
  broadcasts_S1x1024_S96x1024 : S1x1024.Broadcasts S96x1024
  slices_S96x1090_o0_1_S96x1024 : S96x1090.Slices ![0, 1] S96x1024
  slices_S96x1090_o0_2_S96x1024 : S96x1090.Slices ![0, 2] S96x1024
  slices_S96x1090_o0_32_S96x1024 : S96x1090.Slices ![0, 32] S96x1024
  slices_S96x1090_o0_33_S96x1024 : S96x1090.Slices ![0, 33] S96x1024
  slices_S96x1090_o0_34_S96x1024 : S96x1090.Slices ![0, 34] S96x1024
  slices_S96x1090_o0_64_S96x1024 : S96x1090.Slices ![0, 64] S96x1024
  slices_S96x1090_o0_65_S96x1024 : S96x1090.Slices ![0, 65] S96x1024
  slices_S96x1090_o0_66_S96x1024 : S96x1090.Slices ![0, 66] S96x1024
  concatenates_S96x1024_S96x1024_S96x1024_S96x1024_S96x1024_S96x1024_S96x1024_S96x1024_S96x1024_S864x1024_d0 : Shape.Concatenates [S96x1024, S96x1024, S96x1024, S96x1024, S96x1024, S96x1024, S96x1024, S96x1024, S96x1024] S864x1024 0
  inb_S32x864_S32x864_0_0 : ∀ a, (![0, 0] : Fin 2 → Nat) a + S32x864.size a ≤ S32x864.size a
  h_S32x864 : 0 < S32x864.numel
  shapeCasts_S32x864_S32x864 : S32x864.ShapeCasts S32x864
  inb_S1x256x1024_S1x128x1024_0_0_0 : ∀ a, (![0, 0, 0] : Fin 3 → Nat) a + S1x128x1024.size a ≤ S1x256x1024.size a
  h_S1x128x1024 : 0 < S1x128x1024.numel
  shapeCasts_S1x128x1024_S128x1024 : S1x128x1024.ShapeCasts S128x1024
  reduces_S128x1024_S128 : S128x1024.Reduces [1] S128
  concatenates_S128x1_S128x1_S128x2_d1 : Shape.Concatenates [S128x1, S128x1] S128x2 1
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  concatenates_S128x33_S128x1024_S128x33_S128x1090_d1 : Shape.Concatenates [S128x33, S128x1024, S128x33] S128x1090 1
  slices_S128x1090_o0_0_S128x1024 : S128x1090.Slices ![0, 0] S128x1024
  broadcasts_S1x1024_S128x1024 : S1x1024.Broadcasts S128x1024
  slices_S128x1090_o0_1_S128x1024 : S128x1090.Slices ![0, 1] S128x1024
  slices_S128x1090_o0_2_S128x1024 : S128x1090.Slices ![0, 2] S128x1024
  slices_S128x1090_o0_32_S128x1024 : S128x1090.Slices ![0, 32] S128x1024
  slices_S128x1090_o0_33_S128x1024 : S128x1090.Slices ![0, 33] S128x1024
  slices_S128x1090_o0_34_S128x1024 : S128x1090.Slices ![0, 34] S128x1024
  slices_S128x1090_o0_64_S128x1024 : S128x1090.Slices ![0, 64] S128x1024
  slices_S128x1090_o0_65_S128x1024 : S128x1090.Slices ![0, 65] S128x1024
  slices_S128x1090_o0_66_S128x1024 : S128x1090.Slices ![0, 66] S128x1024
  concatenates_S128x1024_S128x1024_S128x1024_S128x1024_S128x1024_S128x1024_S128x1024_S128x1024_S128x1024_S1152x1024_d0 : Shape.Concatenates [S128x1024, S128x1024, S128x1024, S128x1024, S128x1024, S128x1024, S128x1024, S128x1024, S128x1024] S1152x1024 0
  inb_S32x1152_S32x1152_0_0 : ∀ a, (![0, 0] : Fin 2 → Nat) a + S32x1152.size a ≤ S32x1152.size a
  h_S32x1152 : 0 < S32x1152.numel
  shapeCasts_S32x1152_S32x1152 : S32x1152.ShapeCasts S32x1152
  inb_S1x256x1024_S1x160x1024_0_0_0 : ∀ a, (![0, 0, 0] : Fin 3 → Nat) a + S1x160x1024.size a ≤ S1x256x1024.size a
  h_S1x160x1024 : 0 < S1x160x1024.numel
  shapeCasts_S1x160x1024_S160x1024 : S1x160x1024.ShapeCasts S160x1024
  reduces_S160x1024_S160 : S160x1024.Reduces [1] S160
  concatenates_S160x1_S160x1_S160x2_d1 : Shape.Concatenates [S160x1, S160x1] S160x2 1
  inb_S160x2_S160x2_0_0 : ∀ a, (![0, 0] : Fin 2 → Nat) a + S160x2.size a ≤ S160x2.size a
  h_S160x2 : 0 < S160x2.numel
  shapeCasts_S160x2_S160x2 : S160x2.ShapeCasts S160x2
  inb_S160x1_S160x1_0_0 : ∀ a, (![0, 0] : Fin 2 → Nat) a + S160x1.size a ≤ S160x1.size a
  h_S160x1 : 0 < S160x1.numel
  shapeCasts_S160x1_S160x1 : S160x1.ShapeCasts S160x1
  broadcasts_S160x1_S160x1024 : S160x1.Broadcasts S160x1024
  concatenates_S160x33_S160x1024_S160x33_S160x1090_d1 : Shape.Concatenates [S160x33, S160x1024, S160x33] S160x1090 1
  slices_S160x1090_o0_0_S160x1024 : S160x1090.Slices ![0, 0] S160x1024
  broadcasts_S1x1024_S160x1024 : S1x1024.Broadcasts S160x1024
  slices_S160x1090_o0_1_S160x1024 : S160x1090.Slices ![0, 1] S160x1024
  slices_S160x1090_o0_2_S160x1024 : S160x1090.Slices ![0, 2] S160x1024
  slices_S160x1090_o0_32_S160x1024 : S160x1090.Slices ![0, 32] S160x1024
  slices_S160x1090_o0_33_S160x1024 : S160x1090.Slices ![0, 33] S160x1024
  slices_S160x1090_o0_34_S160x1024 : S160x1090.Slices ![0, 34] S160x1024
  slices_S160x1090_o0_64_S160x1024 : S160x1090.Slices ![0, 64] S160x1024
  slices_S160x1090_o0_65_S160x1024 : S160x1090.Slices ![0, 65] S160x1024
  slices_S160x1090_o0_66_S160x1024 : S160x1090.Slices ![0, 66] S160x1024
  concatenates_S160x1024_S160x1024_S160x1024_S160x1024_S160x1024_S160x1024_S160x1024_S160x1024_S160x1024_S1440x1024_d0 : Shape.Concatenates [S160x1024, S160x1024, S160x1024, S160x1024, S160x1024, S160x1024, S160x1024, S160x1024, S160x1024] S1440x1024 0
  inb_S32x1440_S32x1440_0_0 : ∀ a, (![0, 0] : Fin 2 → Nat) a + S32x1440.size a ≤ S32x1440.size a
  h_S32x1440 : 0 < S32x1440.numel
  shapeCasts_S32x1440_S32x1440 : S32x1440.ShapeCasts S32x1440
  inb_S1x256x1024_S1x192x1024_0_0_0 : ∀ a, (![0, 0, 0] : Fin 3 → Nat) a + S1x192x1024.size a ≤ S1x256x1024.size a
  h_S1x192x1024 : 0 < S1x192x1024.numel
  shapeCasts_S1x192x1024_S192x1024 : S1x192x1024.ShapeCasts S192x1024
  reduces_S192x1024_S192 : S192x1024.Reduces [1] S192
  concatenates_S192x1_S192x1_S192x2_d1 : Shape.Concatenates [S192x1, S192x1] S192x2 1
  inb_S192x2_S192x2_0_0 : ∀ a, (![0, 0] : Fin 2 → Nat) a + S192x2.size a ≤ S192x2.size a
  h_S192x2 : 0 < S192x2.numel
  shapeCasts_S192x2_S192x2 : S192x2.ShapeCasts S192x2
  inb_S192x1_S192x1_0_0 : ∀ a, (![0, 0] : Fin 2 → Nat) a + S192x1.size a ≤ S192x1.size a
  h_S192x1 : 0 < S192x1.numel
  shapeCasts_S192x1_S192x1 : S192x1.ShapeCasts S192x1
  broadcasts_S192x1_S192x1024 : S192x1.Broadcasts S192x1024
  concatenates_S192x33_S192x1024_S192x33_S192x1090_d1 : Shape.Concatenates [S192x33, S192x1024, S192x33] S192x1090 1
  slices_S192x1090_o0_0_S192x1024 : S192x1090.Slices ![0, 0] S192x1024
  broadcasts_S1x1024_S192x1024 : S1x1024.Broadcasts S192x1024
  slices_S192x1090_o0_1_S192x1024 : S192x1090.Slices ![0, 1] S192x1024
  slices_S192x1090_o0_2_S192x1024 : S192x1090.Slices ![0, 2] S192x1024
  slices_S192x1090_o0_32_S192x1024 : S192x1090.Slices ![0, 32] S192x1024
  slices_S192x1090_o0_33_S192x1024 : S192x1090.Slices ![0, 33] S192x1024
  slices_S192x1090_o0_34_S192x1024 : S192x1090.Slices ![0, 34] S192x1024
  slices_S192x1090_o0_64_S192x1024 : S192x1090.Slices ![0, 64] S192x1024
  slices_S192x1090_o0_65_S192x1024 : S192x1090.Slices ![0, 65] S192x1024
  slices_S192x1090_o0_66_S192x1024 : S192x1090.Slices ![0, 66] S192x1024
  concatenates_S192x1024_S192x1024_S192x1024_S192x1024_S192x1024_S192x1024_S192x1024_S192x1024_S192x1024_S1728x1024_d0 : Shape.Concatenates [S192x1024, S192x1024, S192x1024, S192x1024, S192x1024, S192x1024, S192x1024, S192x1024, S192x1024] S1728x1024 0
  inb_S32x1728_S32x1728_0_0 : ∀ a, (![0, 0] : Fin 2 → Nat) a + S32x1728.size a ≤ S32x1728.size a
  h_S32x1728 : 0 < S32x1728.numel
  shapeCasts_S32x1728_S32x1728 : S32x1728.ShapeCasts S32x1728
  inb_S1x256x1024_S1x224x1024_0_0_0 : ∀ a, (![0, 0, 0] : Fin 3 → Nat) a + S1x224x1024.size a ≤ S1x256x1024.size a
  h_S1x224x1024 : 0 < S1x224x1024.numel
  shapeCasts_S1x224x1024_S224x1024 : S1x224x1024.ShapeCasts S224x1024
  reduces_S224x1024_S224 : S224x1024.Reduces [1] S224
  concatenates_S224x1_S224x1_S224x2_d1 : Shape.Concatenates [S224x1, S224x1] S224x2 1
  inb_S224x2_S224x2_0_0 : ∀ a, (![0, 0] : Fin 2 → Nat) a + S224x2.size a ≤ S224x2.size a
  h_S224x2 : 0 < S224x2.numel
  shapeCasts_S224x2_S224x2 : S224x2.ShapeCasts S224x2
  inb_S224x1_S224x1_0_0 : ∀ a, (![0, 0] : Fin 2 → Nat) a + S224x1.size a ≤ S224x1.size a
  h_S224x1 : 0 < S224x1.numel
  shapeCasts_S224x1_S224x1 : S224x1.ShapeCasts S224x1
  broadcasts_S224x1_S224x1024 : S224x1.Broadcasts S224x1024
  concatenates_S224x33_S224x1024_S224x33_S224x1090_d1 : Shape.Concatenates [S224x33, S224x1024, S224x33] S224x1090 1
  slices_S224x1090_o0_0_S224x1024 : S224x1090.Slices ![0, 0] S224x1024
  broadcasts_S1x1024_S224x1024 : S1x1024.Broadcasts S224x1024
  slices_S224x1090_o0_1_S224x1024 : S224x1090.Slices ![0, 1] S224x1024
  slices_S224x1090_o0_2_S224x1024 : S224x1090.Slices ![0, 2] S224x1024
  slices_S224x1090_o0_32_S224x1024 : S224x1090.Slices ![0, 32] S224x1024
  slices_S224x1090_o0_33_S224x1024 : S224x1090.Slices ![0, 33] S224x1024
  slices_S224x1090_o0_34_S224x1024 : S224x1090.Slices ![0, 34] S224x1024
  slices_S224x1090_o0_64_S224x1024 : S224x1090.Slices ![0, 64] S224x1024
  slices_S224x1090_o0_65_S224x1024 : S224x1090.Slices ![0, 65] S224x1024
  slices_S224x1090_o0_66_S224x1024 : S224x1090.Slices ![0, 66] S224x1024
  concatenates_S224x1024_S224x1024_S224x1024_S224x1024_S224x1024_S224x1024_S224x1024_S224x1024_S224x1024_S2016x1024_d0 : Shape.Concatenates [S224x1024, S224x1024, S224x1024, S224x1024, S224x1024, S224x1024, S224x1024, S224x1024, S224x1024] S2016x1024 0
  inb_S32x2016_S32x2016_0_0 : ∀ a, (![0, 0] : Fin 2 → Nat) a + S32x2016.size a ≤ S32x2016.size a
  h_S32x2016 : 0 < S32x2016.numel
  shapeCasts_S32x2016_S32x2016 : S32x2016.ShapeCasts S32x2016
  scatter_S128x256x1024_S1_S128x32x1024_012_n_1_0_wf : ScatterDims.WF S128x256x1024 S1 S128x32x1024 [0, 1, 2] [] [1] 0
  dot_S32x576_S576x1024_S32x1024_1_0_0_1_n_n_wf : DotDims.WF S32x576 S576x1024 S32x1024 [1] [0] [0] [1] [] []
  dot_S32x864_S864x1024_S32x1024_1_0_0_1_n_n_wf : DotDims.WF S32x864 S864x1024 S32x1024 [1] [0] [0] [1] [] []
  dot_S32x1152_S1152x1024_S32x1024_1_0_0_1_n_n_wf : DotDims.WF S32x1152 S1152x1024 S32x1024 [1] [0] [0] [1] [] []
  dot_S32x1440_S1440x1024_S32x1024_1_0_0_1_n_n_wf : DotDims.WF S32x1440 S1440x1024 S32x1024 [1] [0] [0] [1] [] []
  dot_S32x1728_S1728x1024_S32x1024_1_0_0_1_n_n_wf : DotDims.WF S32x1728 S1728x1024 S32x1024 [1] [0] [0] [1] [] []
  dot_S32x2016_S2016x1024_S32x1024_1_0_0_1_n_n_wf : DotDims.WF S32x2016 S2016x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S128x256x1024.size a
  hwx0_0 : ∀ i : grid0.Coords, EltTy.bits .f32 = 32 ∨ (Rect.block (s := S128x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S64x2.size a
  hwx0_1 : ∀ i : grid0.Coords, EltTy.bits .f32 = 32 ∨ (Rect.block (s := S64x2) S64x2.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S128x256x1024.size a
  hwx1_0 : ∀ i : grid1.Coords, EltTy.bits .f32 = 32 ∨ (Rect.block (s := S128x256x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x1024.size a ≤ S2x1024.size a
  hwx1_3 : ∀ i : grid1.Coords, EltTy.bits .f32 = 32 ∨ (Rect.block (s := S2x1024) S2x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x576.size a ≤ S32x576.size a
  hwx1_4 : ∀ i : grid1.Coords, EltTy.bits .f32 = 32 ∨ (Rect.block (s := S32x576) S32x576.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32x1024.size a ≤ S128x32x1024.size a
  hwx1_5 : ∀ i : grid1.Coords, EltTy.bits .f32 = 32 ∨ (Rect.block (s := S128x32x1024) S1x32x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S128x256x1024.size a
  hwx2_0 : ∀ i : grid2.Coords, EltTy.bits .f32 = 32 ∨ (Rect.block (s := S128x256x1024) S1x256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x2.size a ≤ S96x2.size a
  hwx2_1 : ∀ i : grid2.Coords, EltTy.bits .f32 = 32 ∨ (Rect.block (s := S96x2) S96x2.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S128x256x1024.size a
  hwx3_0 : ∀ i : grid3.Coords, EltTy.bits .f32 = 32 ∨ (Rect.block (s := S128x256x1024) S1x256x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x1.size a ≤ S96x1.size a
  hwx3_1 : ∀ i : grid3.Coords, EltTy.bits .f32 = 32 ∨ (Rect.block (s := S96x1) S96x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x1.size a ≤ S96x1.size a
  hwx3_2 : ∀ i : grid3.Coords, EltTy.bits .f32 = 32 ∨ (Rect.block (s := S96x1) S96x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x1024.size a ≤ S2x1024.size a
  hwx3_3 : ∀ i : grid3.Coords, EltTy.bits .f32 = 32 ∨ (Rect.block (s := S2x1024) S2x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x864.size a ≤ S32x864.size a
  hwx3_4 : ∀ i : grid3.Coords, EltTy.bits .f32 = 32 ∨ (Rect.block (s := S32x864) S32x864.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x32x1024.size a ≤ S128x32x1024.size a
  hwx3_5 : ∀ i : grid3.Coords, EltTy.bits .f32 = 32 ∨ (Rect.block (s := S128x32x1024) S1x32x1024.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x1024.size a ≤ S128x256x1024.size a
  hwx4_0 : ∀ i : grid4.Coords, EltTy.bits .f32 = 32 ∨ (Rect.block (s := S128x256x1024) S1x256x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x256x1024.size a ≤ S128x256x1024.size a
  hwx5_0 : ∀ i : grid5.Coords, EltTy.bits .f32 = 32 ∨ (Rect.block (s := S128x256x1024) S1x256x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x1.size a ≤ S128x1.size a
  hwx5_2 : ∀ i : grid5.Coords, EltTy.bits .f32 = 32 ∨ (Rect.block (s := S128x1) S128x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2x1024.size a ≤ S2x1024.size a
  hwx5_3 : ∀ i : grid5.Coords, EltTy.bits .f32 = 32 ∨ (Rect.block (s := S2x1024) S2x1024.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32x1152.size a ≤ S32x1152.size a
  hwx5_4 : ∀ i : grid5.Coords, EltTy.bits .f32 = 32 ∨ (Rect.block (s := S32x1152) S32x1152.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x32x1024.size a ≤ S128x32x1024.size a
  hwx5_5 : ∀ i : grid5.Coords, EltTy.bits .f32 = 32 ∨ (Rect.block (s := S128x32x1024) S1x32x1024.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x256x1024.size a ≤ S128x256x1024.size a
  hwx6_0 : ∀ i : grid6.Coords, EltTy.bits .f32 = 32 ∨ (Rect.block (s := S128x256x1024) S1x256x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S160x2.size a ≤ S160x2.size a
  hwx6_1 : ∀ i : grid6.Coords, EltTy.bits .f32 = 32 ∨ (Rect.block (s := S160x2) S160x2.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x256x1024.size a ≤ S128x256x1024.size a
  hwx7_0 : ∀ i : grid7.Coords, EltTy.bits .f32 = 32 ∨ (Rect.block (s := S128x256x1024) S1x256x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S160x1.size a ≤ S160x1.size a
  hwx7_1 : ∀ i : grid7.Coords, EltTy.bits .f32 = 32 ∨ (Rect.block (s := S160x1) S160x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S160x1.size a ≤ S160x1.size a
  hwx7_2 : ∀ i : grid7.Coords, EltTy.bits .f32 = 32 ∨ (Rect.block (s := S160x1) S160x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2x1024.size a ≤ S2x1024.size a
  hwx7_3 : ∀ i : grid7.Coords, EltTy.bits .f32 = 32 ∨ (Rect.block (s := S2x1024) S2x1024.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32x1440.size a ≤ S32x1440.size a
  hwx7_4 : ∀ i : grid7.Coords, EltTy.bits .f32 = 32 ∨ (Rect.block (s := S32x1440) S32x1440.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x32x1024.size a ≤ S128x32x1024.size a
  hwx7_5 : ∀ i : grid7.Coords, EltTy.bits .f32 = 32 ∨ (Rect.block (s := S128x32x1024) S1x32x1024.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x256x1024.size a ≤ S128x256x1024.size a
  hwx8_0 : ∀ i : grid8.Coords, EltTy.bits .f32 = 32 ∨ (Rect.block (s := S128x256x1024) S1x256x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S192x2.size a ≤ S192x2.size a
  hwx8_1 : ∀ i : grid8.Coords, EltTy.bits .f32 = 32 ∨ (Rect.block (s := S192x2) S192x2.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x256x1024.size a ≤ S128x256x1024.size a
  hwx9_0 : ∀ i : grid9.Coords, EltTy.bits .f32 = 32 ∨ (Rect.block (s := S128x256x1024) S1x256x1024.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S192x1.size a ≤ S192x1.size a
  hwx9_1 : ∀ i : grid9.Coords, EltTy.bits .f32 = 32 ∨ (Rect.block (s := S192x1) S192x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S192x1.size a ≤ S192x1.size a
  hwx9_2 : ∀ i : grid9.Coords, EltTy.bits .f32 = 32 ∨ (Rect.block (s := S192x1) S192x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2x1024.size a ≤ S2x1024.size a
  hwx9_3 : ∀ i : grid9.Coords, EltTy.bits .f32 = 32 ∨ (Rect.block (s := S2x1024) S2x1024.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S32x1728.size a ≤ S32x1728.size a
  hwx9_4 : ∀ i : grid9.Coords, EltTy.bits .f32 = 32 ∨ (Rect.block (s := S32x1728) S32x1728.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1x32x1024.size a ≤ S128x32x1024.size a
  hwx9_5 : ∀ i : grid9.Coords, EltTy.bits .f32 = 32 ∨ (Rect.block (s := S128x32x1024) S1x32x1024.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x256x1024.size a ≤ S128x256x1024.size a
  hwx10_0 : ∀ i : grid10.Coords, EltTy.bits .f32 = 32 ∨ (Rect.block (s := S128x256x1024) S1x256x1024.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S224x2.size a ≤ S224x2.size a
  hwx10_1 : ∀ i : grid10.Coords, EltTy.bits .f32 = 32 ∨ (Rect.block (s := S224x2) S224x2.size (cc10_transform_1 i) (hinb10_1 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x256x1024.size a ≤ S128x256x1024.size a
  hwx11_0 : ∀ i : grid11.Coords, EltTy.bits .f32 = 32 ∨ (Rect.block (s := S128x256x1024) S1x256x1024.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S224x1.size a ≤ S224x1.size a
  hwx11_1 : ∀ i : grid11.Coords, EltTy.bits .f32 = 32 ∨ (Rect.block (s := S224x1) S224x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S224x1.size a ≤ S224x1.size a
  hwx11_2 : ∀ i : grid11.Coords, EltTy.bits .f32 = 32 ∨ (Rect.block (s := S224x1) S224x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S2x1024.size a ≤ S2x1024.size a
  hwx11_3 : ∀ i : grid11.Coords, EltTy.bits .f32 = 32 ∨ (Rect.block (s := S2x1024) S2x1024.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S32x2016.size a ≤ S32x2016.size a
  hwx11_4 : ∀ i : grid11.Coords, EltTy.bits .f32 = 32 ∨ (Rect.block (s := S32x2016) S32x2016.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1x32x1024.size a ≤ S128x32x1024.size a
  hwx11_5 : ∀ i : grid11.Coords, EltTy.bits .f32 = 32 ∨ (Rect.block (s := S128x32x1024) S1x32x1024.size (cc11_transform_5 i) (hinb11_5 i)).WholeWords (EltTy.packing .f32)

variable [Facts₀]

def scatter_S128x256x1024_S1_S128x32x1024_012_n_1_0 : ScatterDims S128x256x1024 S1 S128x32x1024 where
  updateWindowDims := [0, 1, 2]
  insertedWindowDims := []
  scatterDimsToOperandDims := [1]
  indexVectorDim := 0
  wf := scatter_S128x256x1024_S1_S128x32x1024_012_n_1_0_wf
def dot_S32x576_S576x1024_S32x1024_1_0_0_1_n_n : DotDims S32x576 S576x1024 S32x1024 where
  lhsContracting := [1]
  rhsContracting := [0]
  lhsNonContracting := [0]
  rhsNonContracting := [1]
  lhsBatch := []
  rhsBatch := []
  wf := dot_S32x576_S576x1024_S32x1024_1_0_0_1_n_n_wf
def dot_S32x864_S864x1024_S32x1024_1_0_0_1_n_n : DotDims S32x864 S864x1024 S32x1024 where
  lhsContracting := [1]
  rhsContracting := [0]
  lhsNonContracting := [0]
  rhsNonContracting := [1]
  lhsBatch := []
  rhsBatch := []
  wf := dot_S32x864_S864x1024_S32x1024_1_0_0_1_n_n_wf
def dot_S32x1152_S1152x1024_S32x1024_1_0_0_1_n_n : DotDims S32x1152 S1152x1024 S32x1024 where
  lhsContracting := [1]
  rhsContracting := [0]
  lhsNonContracting := [0]
  rhsNonContracting := [1]
  lhsBatch := []
  rhsBatch := []
  wf := dot_S32x1152_S1152x1024_S32x1024_1_0_0_1_n_n_wf
def dot_S32x1440_S1440x1024_S32x1024_1_0_0_1_n_n : DotDims S32x1440 S1440x1024 S32x1024 where
  lhsContracting := [1]
  rhsContracting := [0]
  lhsNonContracting := [0]
  rhsNonContracting := [1]
  lhsBatch := []
  rhsBatch := []
  wf := dot_S32x1440_S1440x1024_S32x1024_1_0_0_1_n_n_wf
def dot_S32x1728_S1728x1024_S32x1024_1_0_0_1_n_n : DotDims S32x1728 S1728x1024 S32x1024 where
  lhsContracting := [1]
  rhsContracting := [0]
  lhsNonContracting := [0]
  rhsNonContracting := [1]
  lhsBatch := []
  rhsBatch := []
  wf := dot_S32x1728_S1728x1024_S32x1024_1_0_0_1_n_n_wf
def dot_S32x2016_S2016x1024_S32x1024_1_0_0_1_n_n : DotDims S32x2016 S2016x1024 S32x1024 where
  lhsContracting := [1]
  rhsContracting := [0]
  lhsNonContracting := [0]
  rhsNonContracting := [1]
  lhsBatch := []
  rhsBatch := []
  wf := dot_S32x2016_S2016x1024_S32x1024_1_0_0_1_n_n_wf

abbrev win0_0 : Pipeline.Window sig grid0 :=
  Pipeline.Window.ofSpec (Memref.whole main_call0_v2) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S64x2.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_call0_v2) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v32) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v33) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v12) S2x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v31) S32x576.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v34) S1x32x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v36) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v37) S96x2.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_call0_v36) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v56) S96x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v57) S96x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v12) S2x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v55) S32x864.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v58) S1x32x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v60) S1x256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v61) S128x2.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_call0_v60) S1x256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v80) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v81) S128x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v12) S2x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v79) S32x1152.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_call0_v82) S1x32x1024.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_call0_v84) S1x256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v85) S160x2.size cc6_transform_1 reads6_1 true true 1 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_call0_v84) S1x256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v104) S160x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_call0_v105) S160x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v12) S2x1024.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v103) S32x1440.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call0_v106) S1x32x1024.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_call0_v108) S1x256x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v109) S192x2.size cc8_transform_1 reads8_1 true true 1 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_call0_v108) S1x256x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_call0_v128) S192x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_call0_v129) S192x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_call0_v12) S2x1024.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_call0_v127) S32x1728.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_call0_v130) S1x32x1024.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_call0_v132) S1x256x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_call0_v133) S224x2.size cc10_transform_1 reads10_1 true true 1 stage10_1 sem10_1
    hrank10 hreads10_1 hinb10_1 nbuf10_1 (Memref.isWhole_whole _) hwx10_1 hstage10_1

abbrev win10 : Fin 2 → Pipeline.Window sig grid10 := fun | 0 => win10_0 | 1 => win10_1 | ⟨_ + 2, h⟩ => absurd h (Nat.not_lt.2 (Nat.le_add_left _ _))
abbrev spec10 : Fin 2 → Pipeline.WinSpec sig grid10.rank := fun w => (win10 w).toWinSpec

abbrev win11_0 : Pipeline.Window sig grid11 :=
  Pipeline.Window.ofSpec (Memref.whole main_call0_v132) S1x256x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_call0_v152) S224x1.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_call0_v153) S224x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_call0_v12) S2x1024.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_call0_v151) S32x2016.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_call0_v154) S1x32x1024.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== Proof.LibRealVariance.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

def IsReal (x : EReal) : Prop := ∃ r : ℝ, x = (r : EReal)

namespace IsReal

theorem coe (r : ℝ) : IsReal (r : EReal) := ⟨r, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem neg {x : EReal} (hx : IsReal x) : IsReal (-x) := by
  obtain ⟨a, rfl⟩ := hx
  exact ⟨-a, (EReal.coe_neg a).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem max {x y : EReal} (hx : IsReal x) (hy : IsReal y) : IsReal (max x y) := by
  rcases max_choice x y with h | h <;> rw [h] <;> assumption

theorem min {x y : EReal} (hx : IsReal x) (hy : IsReal y) : IsReal (min x y) := by
  rcases min_choice x y with h | h <;> rw [h] <;> assumption

theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

theorem sum {ι : Type*} [Fintype ι] (a : ι → EReal) (h : ∀ i, IsReal (a i)) : IsReal (∑ i, a i) :=
  finset_sum Finset.univ a fun i _ => h i

theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem isReal_of_abs_lt_top {x : EReal} (h : max x (-x) < ⊤) : IsReal x := by
  rw [isReal_iff]
  constructor
  · rintro rfl
    exact absurd h (by simp)
  · rintro rfl
    exact absurd h (by simp)

theorem ofBits_N : Ideal.ofBits .f32 0x48435000#32 = ((200000 : ℝ) : EReal) := by
  simp [Ideal.ofBits, Ideal.ieee, -EReal.coe_mul]; norm_num

theorem ofBits_zero : Ideal.ofBits .f32 0x00000000#32 = 0 := Ideal.ofBits_zero_f32

theorem ofBits_one : Ideal.ofBits .f32 0x3F800000#32 = ((1 : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.PreReal.lean ====
import proofs.«136216_g2000306190186476_pallasbulk_240_40_alg».proof.Pre_finite_inputs
import proofs.«136216_g2000306190186476_pallasbulk_240_40_alg».proof.Proof.Gen.Pre_finite_inputs
import proofs.«136216_g2000306190186476_pallasbulk_240_40_alg».proof.Proof.LibRealVariance
import Idealize.ShloMosaic.Lib.ReduceAll
import Idealize.ShloMosaic.PureOps.Ideal

namespace Cert.PreReal

open Idealize.ShloMosaic Cert.Pre_finite_inputs

instance : Subsingleton S_.Idx := ⟨fun a b => funext fun d => d.elim0⟩

theorem lt_of_cmp_olt {u v : EReal} (h : Ideal.cmp .olt u v = 1#1) : u < v := by
  by_contra hn
  simp [Ideal.cmp, hn] at h

theorem ofBits_inf : Ideal.ofBits .f32 0x7F800000#32 = (⊤ : EReal) := by
  simp [Ideal.ofBits, Ideal.ieee]

theorem isReal_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant S_ .f32 0x7F800000#32)))
          (constantI S_ 1 1#1) hr hu j = 1#1) :
    ∀ i, Cert.Alg.IsReal (a i) := by
  intro i
  have h1 : Ideal.cmp .olt (max (a i) (-(a i))) (Ideal.ofBits .f32 0x7F800000#32) = 1#1 :=
    Host.reduce_andi_all _ _ hr hu j e i
  have h2 := lt_of_cmp_olt h1
  rw [ofBits_inf] at h2
  exact Cert.Alg.isReal_of_abs_lt_top h2

theorem isReal_of_pre [Cert.Pre_finite_inputs.Facts] (a0 : FVec Ideal S128x64x32x32 .f32) (a1 a2 : FVec Ideal S64 .f32)
    (a3 : FVec Ideal S32x64x3x3 .f32) (a4 a5 : FVec Ideal S96 .f32) (a6 : FVec Ideal S32x96x3x3 .f32)
    (a7 a8 : FVec Ideal S128 .f32) (a9 : FVec Ideal S32x128x3x3 .f32) (a10 a11 : FVec Ideal S160 .f32)
    (a12 : FVec Ideal S32x160x3x3 .f32) (a13 a14 : FVec Ideal S192 .f32) (a15 : FVec Ideal S32x192x3x3 .f32)
    (a16 a17 : FVec Ideal S224 .f32) (a18 : FVec Ideal S32x224x3x3 .f32)
    (h : Cert.Pre_finite_inputs.fn (F := Ideal) a0 a1 a2 a3 a4 a5 a6 a7 a8 a9 a10 a11 a12 a13 a14 a15 a16 a17 a18
          = (fun _ => 1#1)) :
    (∀ i, Cert.Alg.IsReal (a0 i)) ∧ (∀ i, Cert.Alg.IsReal (a1 i)) ∧ (∀ i, Cert.Alg.IsReal (a2 i)) ∧
    (∀ i, Cert.Alg.IsReal (a3 i)) ∧ (∀ i, Cert.Alg.IsReal (a4 i)) ∧ (∀ i, Cert.Alg.IsReal (a5 i)) ∧
    (∀ i, Cert.Alg.IsReal (a6 i)) ∧ (∀ i, Cert.Alg.IsReal (a7 i)) ∧ (∀ i, Cert.Alg.IsReal (a8 i)) ∧
    (∀ i, Cert.Alg.IsReal (a9 i)) ∧ (∀ i, Cert.Alg.IsReal (a10 i)) ∧ (∀ i, Cert.Alg.IsReal (a11 i)) ∧
    (∀ i, Cert.Alg.IsReal (a12 i)) ∧ (∀ i, Cert.Alg.IsReal (a13 i)) ∧ (∀ i, Cert.Alg.IsReal (a14 i)) ∧
    (∀ i, Cert.Alg.IsReal (a15 i)) ∧ (∀ i, Cert.Alg.IsReal (a16 i)) ∧ (∀ i, Cert.Alg.IsReal (a17 i)) ∧
    (∀ i, Cert.Alg.IsReal (a18 i)) := by
  have h0 := congrFun h (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Idealize.ShloMosaic.andi] at h0
  simp only [IntOp.andi_eq_one, and_assoc] at h0
  obtain ⟨e0, e1, e2, e3, e4, e5, e6, e7, e8, e9, e10, e11, e12, e13, e14, e15, e16, e17, e18⟩ := h0
  exact ⟨isReal_of_all a0 _ _ _ _ e0, isReal_of_all a1 _ _ _ _ e1, isReal_of_all a2 _ _ _ _ e2,
    isReal_of_all a3 _ _ _ _ e3, isReal_of_all a4 _ _ _ _ e4, isReal_of_all a5 _ _ _ _ e5,
    isReal_of_all a6 _ _ _ _ e6, isReal_of_all a7 _ _ _ _ e7, isReal_of_all a8 _ _ _ _ e8,
    isReal_of_all a9 _ _ _ _ e9, isReal_of_all a10 _ _ _ _ e10, isReal_of_all a11 _ _ _ _ e11,
    isReal_of_all a12 _ _ _ _ e12, isReal_of_all a13 _ _ _ _ e13, isReal_of_all a14 _ _ _ _ e14,
    isReal_of_all a15 _ _ _ _ e15, isReal_of_all a16 _ _ _ _ e16, isReal_of_all a17 _ _ _ _ e17,
    isReal_of_all a18 _ _ _ _ e18⟩

end Cert.PreReal
-- ==== Proof.Spec.lean ====
import Idealize.ShloMosaic.PureOps.Ideal
import Mathlib.Data.EReal.Basic
import Mathlib.Data.EReal.Operations
import Mathlib.Algebra.BigOperators.Group.Finset.Basic

noncomputable section

namespace Cert.Spec

open Idealize.ShloMosaic

abbrev Act (C : ℕ) := Fin 128 → Fin C → Fin 1024 → EReal

def invCount : EReal := Ideal.ofBits .f32 0x37000000#32

def count : EReal := Ideal.ofBits .f32 0x48000000#32

def eps : EReal := Ideal.ofBits .f32 0x3727C5AC#32

def sum1 {C : ℕ} (X : Act C) (c : Fin C) : EReal := ∑ n : Fin 128, ∑ p : Fin 1024, X n c p

def sum2 {C : ℕ} (X : Act C) (c : Fin C) : EReal := ∑ n : Fin 128, ∑ p : Fin 1024, X n c p * X n c p

def meanOf (s1 : EReal) : EReal := s1 * invCount

def varOf (s1 s2 : EReal) : EReal := s2 * invCount - meanOf s1 * meanOf s1

def scaleOf (g s1 s2 : EReal) : EReal := g * Ideal.rsqrt (varOf s1 s2 + eps)

def shiftOf (g b s1 s2 : EReal) : EReal := b - meanOf s1 * scaleOf g s1 s2

def bnrelu {C : ℕ} (g b : Fin C → EReal) (X : Act C) : Act C := fun n c p =>
  max (X n c p * scaleOf (g c) (sum1 X c) (sum2 X c) + shiftOf (g c) (b c) (sum1 X c) (sum2 X c)) 0

def bnreluM {C : ℕ} (g b s1 s2 : Fin C → EReal) (X : Act C) : Act C := fun n c p =>
  max (X n c p * scaleOf (g c) (s1 c) (s2 c) + shiftOf (g c) (b c) (s1 c) (s2 c)) 0

theorem bnrelu_eq {C : ℕ} (g b : Fin C → EReal) (X : Act C) :
    bnrelu g b X = bnreluM g b (sum1 X) (sum2 X) X := rfl

def tapOff (kh kw : Fin 3) : ℤ := ((kh.val : ℤ) - 1) * 32 + ((kw.val : ℤ) - 1)

def shiftRead (f : Fin 1024 → EReal) (d : ℤ) (p : Fin 1024) : EReal :=
  if h : 0 ≤ (p.val : ℤ) + d ∧ (p.val : ℤ) + d < 1024 then f ⟨((p.val : ℤ) + d).toNat, by omega⟩ else 0

def tapMask (wm : Fin 2 → Fin 1024 → EReal) (kw : Fin 3) (p : Fin 1024) : EReal :=
  if kw.val = 0 then wm 0 p else if kw.val = 2 then wm 1 p else 1

def convTaps {C : ℕ} (w : Fin 32 → Fin C → Fin 3 → Fin 3 → EReal) (wm : Fin 2 → Fin 1024 → EReal) (A : Act C) :
    Act 32 := fun n o p =>
  ∑ kh : Fin 3, ∑ kw : Fin 3,
    shiftRead (fun q => ∑ ci : Fin C, w o ci kh kw * A n ci q) (tapOff kh kw) p * tapMask wm kw p

def convCols {C : ℕ} (w : Fin 32 → Fin C → Fin 3 → Fin 3 → EReal) (wm : Fin 2 → Fin 1024 → EReal) (A : Act C) :
    Act 32 := fun n o p =>
  ∑ kh : Fin 3, ∑ kw : Fin 3, ∑ ci : Fin C,
    w o ci kh kw * (shiftRead (A n ci) (tapOff kh kw) p * tapMask wm kw p)

def appendCh {C : ℕ} (X : Act C) (Y : Act 32) : Act (C + 32) := fun n c p =>
  if h : c.val < C then X n ⟨c.val, h⟩ p else Y n ⟨c.val - C, by omega⟩ p

def appendV {C : ℕ} (u : Fin C → EReal) (v : Fin 32 → EReal) : Fin (C + 32) → EReal := fun c =>
  if h : c.val < C then u ⟨c.val, h⟩ else v ⟨c.val - C, by omega⟩

def takeCh (C : ℕ) (hC : C ≤ 256) (B : Act 256) : Act C := fun n c p => B n ⟨c.val, by omega⟩ p

def padCh {C : ℕ} (X : Act C) : Act 256 := fun n c p => if h : c.val < C then X n ⟨c.val, h⟩ p else 0

def setCh32 (B : Act 256) (off : ℕ) (Y : Act 32) : Act 256 := fun n c p =>
  if h : off ≤ c.val ∧ c.val < off + 32 then Y n ⟨c.val - off, by omega⟩ p else B n c p

def affineRelu {C : ℕ} (sc sh : Fin C → EReal) (X : Act C) : Act C := fun n c p => max (X n c p * sc c + sh c) 0

theorem bnreluM_eq_affineRelu {C : ℕ} (g b s1 s2 : Fin C → EReal) (X : Act C) :
    bnreluM g b s1 s2 X = affineRelu (fun c => scaleOf (g c) (s1 c) (s2 c)) (fun c => shiftOf (g c) (b c) (s1 c) (s2 c)) X := rfl

def layerOut {C : ℕ} (g b : Fin C → EReal) (w : Fin 32 → Fin C → Fin 3 → Fin 3 → EReal)
    (wm : Fin 2 → Fin 1024 → EReal) (X : Act C) : Act 32 :=
  convCols w wm (bnrelu g b X)

end Cert.Spec

end
-- ==== Proof.Views.lean ====
import proofs.«136216_g2000306190186476_pallasbulk_240_40_alg».proof.Proof.Spec
import Idealize.ShloMosaic.Lib.ValueIdx

noncomputable section

namespace Cert.Views

open Idealize.ShloMosaic Idealize.ShloMosaic.ValueIdx Cert.Spec

def actCM {C : ℕ} (v : (⟨3, ![C, 128, 1024]⟩ : Shape).Idx → EReal) : Act C := fun n c p => v (ix3 c n p)

def actNM {C : ℕ} (v : (⟨3, ![128, C, 1024]⟩ : Shape).Idx → EReal) : Act C := fun n c p => v (ix3 n c p)

def mom3 {C : ℕ} (v : (⟨3, ![1, C, 2]⟩ : Shape).Idx → EReal) (k : Fin 2) : Fin C → EReal := fun c => v (ix3 0 c k)

def mom2 {C : ℕ} (v : (⟨2, ![C, 2]⟩ : Shape).Idx → EReal) (k : Fin 2) : Fin C → EReal := fun c => v (ix2 c k)

def col {C : ℕ} (v : (⟨2, ![C, 1]⟩ : Shape).Idx → EReal) : Fin C → EReal := fun c => v (ix2 c 0)

def vec {C : ℕ} (v : (⟨1, ![C]⟩ : Shape).Idx → EReal) : Fin C → EReal := fun c => v (ix1 c)

def maskRows (v : (⟨2, ![2, 1024]⟩ : Shape).Idx → EReal) : Fin 2 → Fin 1024 → EReal := fun r p => v (ix2 r p)

def wOIHW {C : ℕ} (v : (⟨4, ![32, C, 3, 3]⟩ : Shape).Idx → EReal) : Fin 32 → Fin C → Fin 3 → Fin 3 → EReal :=
  fun o ci kh kw => v (ix4 o ci kh kw)

def wTapMajor {C : ℕ} (v : (⟨2, ![288, C]⟩ : Shape).Idx → EReal) : Fin 32 → Fin C → Fin 3 → Fin 3 → EReal :=
  fun o ci kh kw => v (ix2 ⟨(kh.val * 3 + kw.val) * 32 + o.val, by omega⟩ ci)

def wChanMinor {C : ℕ} (v : (⟨2, ![32, 9 * C]⟩ : Shape).Idx → EReal) : Fin 32 → Fin C → Fin 3 → Fin 3 → EReal :=
  fun o ci kh kw => v (ix2 o ⟨(kh.val * 3 + kw.val) * C + ci.val, by
    have h1 := kh.isLt; have h2 := kw.isLt; have h3 := ci.isLt; nlinarith⟩)

end Cert.Views

end
-- ==== Proof.Block.lean ====
import proofs.«136216_g2000306190186476_pallasbulk_240_40_alg».proof.Proof.Views

noncomputable section

namespace Cert.Block

open Idealize.ShloMosaic Idealize.ShloMosaic.ValueIdx Cert.Spec Cert.Views

structure Args where
  x  : (⟨4, ![128, 64, 32, 32]⟩ : Shape).Idx → EReal
  g0 : (⟨1, ![64]⟩ : Shape).Idx → EReal
  b0 : (⟨1, ![64]⟩ : Shape).Idx → EReal
  w0 : (⟨4, ![32, 64, 3, 3]⟩ : Shape).Idx → EReal
  g1 : (⟨1, ![96]⟩ : Shape).Idx → EReal
  b1 : (⟨1, ![96]⟩ : Shape).Idx → EReal
  w1 : (⟨4, ![32, 96, 3, 3]⟩ : Shape).Idx → EReal
  g2 : (⟨1, ![128]⟩ : Shape).Idx → EReal
  b2 : (⟨1, ![128]⟩ : Shape).Idx → EReal
  w2 : (⟨4, ![32, 128, 3, 3]⟩ : Shape).Idx → EReal
  g3 : (⟨1, ![160]⟩ : Shape).Idx → EReal
  b3 : (⟨1, ![160]⟩ : Shape).Idx → EReal
  w3 : (⟨4, ![32, 160, 3, 3]⟩ : Shape).Idx → EReal
  g4 : (⟨1, ![192]⟩ : Shape).Idx → EReal
  b4 : (⟨1, ![192]⟩ : Shape).Idx → EReal
  w4 : (⟨4, ![32, 192, 3, 3]⟩ : Shape).Idx → EReal
  g5 : (⟨1, ![224]⟩ : Shape).Idx → EReal
  b5 : (⟨1, ![224]⟩ : Shape).Idx → EReal
  w5 : (⟨4, ![32, 224, 3, 3]⟩ : Shape).Idx → EReal

def mask : Fin 2 → Fin 1024 → EReal := fun r p =>
  if r.val = 0 then (if 1 ≤ p.val % 32 then (1 : EReal) else 0) else (if p.val % 32 ≤ 30 then (1 : EReal) else 0)

def X0 (a : Args) : Act 64 := fun n ch p => a.x (ix4 n ch ⟨p.val / 32, by omega⟩ ⟨p.val % 32, by omega⟩)

def Y0 (a : Args) : Act 32 := layerOut (vec a.g0) (vec a.b0) (wOIHW a.w0) mask (X0 a)
def X1 (a : Args) : Act 96 := appendCh (X0 a) (Y0 a)
def Y1 (a : Args) : Act 32 := layerOut (vec a.g1) (vec a.b1) (wOIHW a.w1) mask (X1 a)
def X2 (a : Args) : Act 128 := appendCh (X1 a) (Y1 a)
def Y2 (a : Args) : Act 32 := layerOut (vec a.g2) (vec a.b2) (wOIHW a.w2) mask (X2 a)
def X3 (a : Args) : Act 160 := appendCh (X2 a) (Y2 a)
def Y3 (a : Args) : Act 32 := layerOut (vec a.g3) (vec a.b3) (wOIHW a.w3) mask (X3 a)
def X4 (a : Args) : Act 192 := appendCh (X3 a) (Y3 a)
def Y4 (a : Args) : Act 32 := layerOut (vec a.g4) (vec a.b4) (wOIHW a.w4) mask (X4 a)
def X5 (a : Args) : Act 224 := appendCh (X4 a) (Y4 a)
def Y5 (a : Args) : Act 32 := layerOut (vec a.g5) (vec a.b5) (wOIHW a.w5) mask (X5 a)
def X6 (a : Args) : Act 256 := appendCh (X5 a) (Y5 a)

def result (a : Args) : (⟨4, ![128, 256, 32, 32]⟩ : Shape).Idx → EReal := fun i =>
  X6 a (i 0) (i 1) ⟨(i 2).val * 32 + (i 3).val, by
    have h2 : (i 2).val < 32 := (i 2).isLt
    have h3 : (i 3).val < 32 := (i 3).isLt
    omega⟩

end Cert.Block

end
-- ==== Proof.SpecAlg.lean ====
import proofs.«136216_g2000306190186476_pallasbulk_240_40_alg».proof.Proof.Spec
import proofs.«136216_g2000306190186476_pallasbulk_240_40_alg».proof.Proof.LibRealVariance
import Idealize.ShloMosaic.PureOps.Ideal
import Idealize.ShloMosaic.PureOps.Ideal.Laws
import Mathlib.Data.EReal.Basic
import Mathlib.Data.EReal.Operations
import Mathlib.Algebra.BigOperators.Group.Finset.Basic
import Mathlib.Algebra.BigOperators.Fin
import Mathlib.Logic.Equiv.Fin.Basic
import Mathlib.Tactic.NormNum
import Mathlib.Tactic.Ring

noncomputable section

namespace Cert.SpecAlg

open Idealize.ShloMosaic
open Cert.Spec Cert.Alg
open scoped BigOperators

theorem invCount_eq : invCount = (((1 : ℝ) / 131072 : ℝ) : EReal) := by
  unfold invCount
  simp [Ideal.ofBits, Ideal.ieee, -EReal.coe_mul]; norm_num

theorem count_eq : count = ((131072 : ℝ) : EReal) := by
  unfold count
  simp [Ideal.ofBits, Ideal.ieee, -EReal.coe_mul]; norm_num

theorem eps_pos : ∃ e : ℝ, 0 < e ∧ eps = (e : EReal) := ofBits_eps_pos

theorem div_count (x : EReal) : Ideal.div x count = x * invCount := by
  rw [count_eq, Ideal.div_coe (by norm_num), invCount_eq]

theorem isReal_invCount : IsReal invCount := by rw [invCount_eq]; exact IsReal.coe _

theorem isReal_count : IsReal count := by rw [count_eq]; exact IsReal.coe _

theorem isReal_eps : IsReal eps := by
  obtain ⟨e, _, he⟩ := eps_pos
  exact ⟨e, he⟩

theorem isReal_shiftRead (f : Fin 1024 → EReal) (hf : ∀ q, IsReal (f q)) (d : ℤ) (p : Fin 1024) :
    IsReal (shiftRead f d p) := by
  by_cases h : 0 ≤ (p.val : ℤ) + d ∧ (p.val : ℤ) + d < 1024
  · simp only [shiftRead, dif_pos h]
    exact hf _
  · simp only [shiftRead, dif_neg h]
    exact IsReal.zero

theorem isReal_tapMask (wm : Fin 2 → Fin 1024 → EReal) (hm : ∀ r p, IsReal (wm r p)) (kw : Fin 3)
    (p : Fin 1024) : IsReal (tapMask wm kw p) := by
  unfold tapMask
  split
  · exact hm _ _
  · split
    · exact hm _ _
    · exact IsReal.one

theorem shiftRead_sum {C : ℕ} (c : Fin C → EReal) (f : Fin C → Fin 1024 → EReal) (d : ℤ) (p : Fin 1024) :
    shiftRead (fun q => ∑ ci : Fin C, c ci * f ci q) d p = ∑ ci : Fin C, c ci * shiftRead (f ci) d p := by
  by_cases h : 0 ≤ (p.val : ℤ) + d ∧ (p.val : ℤ) + d < 1024
  · simp only [shiftRead, dif_pos h]
  · simp only [shiftRead, dif_neg h, mul_zero, Finset.sum_const_zero]

theorem sum_mul_of_isReal {ι : Type*} (s : Finset ι) (x : ι → EReal) (hx : ∀ i, IsReal (x i)) {m : EReal}
    (hm : IsReal m) : (∑ i ∈ s, x i) * m = ∑ i ∈ s, x i * m := by
  choose r hr using hx
  obtain rfl : x = fun i => (r i : EReal) := funext hr
  obtain ⟨t, rfl⟩ := hm
  simp only [← EReal.coe_mul, ← coe_finset_sum, Finset.sum_mul]

theorem mul_sum_of_isReal {ι : Type*} (s : Finset ι) (x : ι → EReal) (hx : ∀ i, IsReal (x i)) {m : EReal}
    (hm : IsReal m) : m * (∑ i ∈ s, x i) = ∑ i ∈ s, m * x i := by
  rw [mul_comm, sum_mul_of_isReal s x hx hm]
  exact Finset.sum_congr rfl fun i _ => mul_comm _ _

theorem convTaps_eq_convCols {C : ℕ} (w : Fin 32 → Fin C → Fin 3 → Fin 3 → EReal)
    (wm : Fin 2 → Fin 1024 → EReal) (A : Act C)
    (hw : ∀ o ci kh kw, IsReal (w o ci kh kw)) (hm : ∀ r p, IsReal (wm r p))
    (hA : ∀ n c p, IsReal (A n c p)) :
    convTaps w wm A = convCols w wm A := by
  funext n o p
  unfold convTaps convCols
  refine Finset.sum_congr rfl fun kh _ => Finset.sum_congr rfl fun kw _ => ?_
  rw [shiftRead_sum (fun ci => w o ci kh kw) (A n) (tapOff kh kw) p,
    sum_mul_of_isReal Finset.univ _
      (fun ci => IsReal.mul (hw o ci kh kw) (isReal_shiftRead _ (hA n ci) _ _)) (isReal_tapMask wm hm kw p)]
  exact Finset.sum_congr rfl fun ci _ => mul_assoc _ _ _

theorem sum_images_blocks (f : Fin 128 → EReal) :
    ∑ n : Fin 128, f n = ∑ j : Fin 16, ∑ b : Fin 8, f ⟨j.val * 8 + b.val, by omega⟩ := by
  rw [← sum_regroup (finProdFinEquiv : Fin 16 × Fin 8 ≃ Fin 128) f]
  refine Finset.sum_congr rfl fun j _ => Finset.sum_congr rfl fun b _ => ?_
  congr 1
  apply Fin.ext
  show b.val + 8 * j.val = j.val * 8 + b.val
  omega

theorem partial_succ (f : ℕ → EReal) (k : ℕ) :
    (∑ j ∈ Finset.range (k + 1), f j) = (∑ j ∈ Finset.range k, f j) + f k :=
  Finset.sum_range_succ f k

theorem sum_fin_eq_range (N : ℕ) (f : ℕ → EReal) : ∑ j : Fin N, f j.val = ∑ j ∈ Finset.range N, f j :=
  Fin.sum_univ_eq_sum_range f N

theorem isReal_sum1 {C : ℕ} (X : Act C) (hX : ∀ n c p, IsReal (X n c p)) (c : Fin C) : IsReal (sum1 X c) :=
  IsReal.sum _ fun n => IsReal.sum _ fun p => hX n c p

theorem isReal_sum2 {C : ℕ} (X : Act C) (hX : ∀ n c p, IsReal (X n c p)) (c : Fin C) : IsReal (sum2 X c) :=
  IsReal.sum _ fun n => IsReal.sum _ fun p => IsReal.mul (hX n c p) (hX n c p)

theorem isReal_meanOf {C : ℕ} (X : Act C) (hX : ∀ n c p, IsReal (X n c p)) (c : Fin C) :
    IsReal (meanOf (sum1 X c)) :=
  IsReal.mul (isReal_sum1 X hX c) isReal_invCount

theorem varOf_nonneg {C : ℕ} (X : Act C) (hX : ∀ n c p, IsReal (X n c p)) (c : Fin C) :
    ∃ v : ℝ, 0 ≤ v ∧ varOf (sum1 X c) (sum2 X c) = (v : EReal) := by
  have hN : (Fintype.card (Fin 128 × Fin 1024) : ℝ) = 131072 := by
    simp [Fintype.card_prod]
  have hN0 : (131072 : ℝ) ≠ 0 := by norm_num
  have ha : ∀ i : Fin 128 × Fin 1024, IsReal (X i.1 c i.2) := fun i => hX i.1 c i.2
  have h1 : sum1 X c = ∑ i : Fin 128 × Fin 1024, X i.1 c i.2 :=
    (Fintype.sum_prod_type' (fun n p => X n c p)).symm
  have h2 : sum2 X c = ∑ i : Fin 128 × Fin 1024, X i.1 c i.2 * X i.1 c i.2 :=
    (Fintype.sum_prod_type' (fun n p => X n c p * X n c p)).symm
  obtain ⟨v, hv, hve⟩ := variance_nonneg (fun i : Fin 128 × Fin 1024 => X i.1 c i.2) ha 131072 hN hN0
  refine ⟨v, hv, ?_⟩
  rw [← hve, ← variance_eq (fun i : Fin 128 × Fin 1024 => X i.1 c i.2) ha 131072 hN hN0]
  unfold varOf meanOf
  rw [← div_count, ← div_count, count_eq, h1, h2]

theorem isReal_scaleOf_shiftOf_of {g b s1 s2 : EReal} (hg : IsReal g) (hb : IsReal b) (hs1 : IsReal s1)
    (hv : ∃ v : ℝ, 0 ≤ v ∧ varOf s1 s2 = (v : EReal)) :
    IsReal (scaleOf g s1 s2) ∧ IsReal (shiftOf g b s1 s2) := by
  obtain ⟨v, hv, hve⟩ := hv
  obtain ⟨e, he, hee⟩ := eps_pos
  have hr : IsReal (Ideal.rsqrt (varOf s1 s2 + eps)) := by
    rw [hve, hee, ← EReal.coe_add]
    exact IsReal.rsqrt_of_pos (IsReal.coe _) (EReal.coe_pos.mpr (add_pos_of_nonneg_of_pos hv he))
  have hs : IsReal (scaleOf g s1 s2) := IsReal.mul hg hr
  exact ⟨hs, IsReal.sub hb (IsReal.mul (IsReal.mul hs1 isReal_invCount) hs)⟩

theorem isReal_scaleOf_shiftOf {C : ℕ} (g b : Fin C → EReal) (X : Act C) (hg : ∀ c, IsReal (g c))
    (hb : ∀ c, IsReal (b c)) (hX : ∀ n c p, IsReal (X n c p)) (c : Fin C) :
    IsReal (scaleOf (g c) (sum1 X c) (sum2 X c)) ∧ IsReal (shiftOf (g c) (b c) (sum1 X c) (sum2 X c)) :=
  isReal_scaleOf_shiftOf_of (hg c) (hb c) (isReal_sum1 X hX c) (varOf_nonneg X hX c)

theorem isReal_affineRelu {C : ℕ} (sc sh : Fin C → EReal) (X : Act C) (hsc : ∀ c, IsReal (sc c))
    (hsh : ∀ c, IsReal (sh c)) (hX : ∀ n c p, IsReal (X n c p)) : ∀ n c p, IsReal (affineRelu sc sh X n c p) :=
  fun n c p => IsReal.max (IsReal.add (IsReal.mul (hX n c p) (hsc c)) (hsh c)) IsReal.zero

theorem isReal_bnreluM {C : ℕ} (g b s1 s2 : Fin C → EReal) (X : Act C) (hg : ∀ c, IsReal (g c))
    (hb : ∀ c, IsReal (b c)) (hs1 : ∀ c, IsReal (s1 c)) (_hs2 : ∀ c, IsReal (s2 c))
    (hX : ∀ n c p, IsReal (X n c p)) (hv : ∀ c, ∃ v : ℝ, 0 ≤ v ∧ varOf (s1 c) (s2 c) = (v : EReal)) :
    ∀ n c p, IsReal (bnreluM g b s1 s2 X n c p) := by
  intro n c p
  obtain ⟨hs, ht⟩ := isReal_scaleOf_shiftOf_of (hg c) (hb c) (hs1 c) (hv c)
  exact IsReal.max (IsReal.add (IsReal.mul (hX n c p) hs) ht) IsReal.zero

theorem isReal_bnrelu {C : ℕ} (g b : Fin C → EReal) (X : Act C) (hg : ∀ c, IsReal (g c))
    (hb : ∀ c, IsReal (b c)) (hX : ∀ n c p, IsReal (X n c p)) :
    ∀ n c p, IsReal (bnrelu g b X n c p) := by
  intro n c p
  obtain ⟨hs, ht⟩ := isReal_scaleOf_shiftOf g b X hg hb hX c
  exact IsReal.max (IsReal.add (IsReal.mul (hX n c p) hs) ht) IsReal.zero

theorem isReal_convCols {C : ℕ} (w : Fin 32 → Fin C → Fin 3 → Fin 3 → EReal) (wm : Fin 2 → Fin 1024 → EReal)
    (A : Act C) (hw : ∀ o ci kh kw, IsReal (w o ci kh kw)) (hm : ∀ r p, IsReal (wm r p))
    (hA : ∀ n c p, IsReal (A n c p)) : ∀ n o p, IsReal (convCols w wm A n o p) := by
  intro n o p
  exact IsReal.sum _ fun kh => IsReal.sum _ fun kw => IsReal.sum _ fun ci =>
    IsReal.mul (hw o ci kh kw) (IsReal.mul (isReal_shiftRead _ (hA n ci) _ _) (isReal_tapMask wm hm kw p))

theorem isReal_convTaps {C : ℕ} (w : Fin 32 → Fin C → Fin 3 → Fin 3 → EReal) (wm : Fin 2 → Fin 1024 → EReal)
    (A : Act C) (hw : ∀ o ci kh kw, IsReal (w o ci kh kw)) (hm : ∀ r p, IsReal (wm r p))
    (hA : ∀ n c p, IsReal (A n c p)) : ∀ n o p, IsReal (convTaps w wm A n o p) := by
  rw [convTaps_eq_convCols w wm A hw hm hA]
  exact isReal_convCols w wm A hw hm hA

theorem isReal_appendCh {C : ℕ} (X : Act C) (Y : Act 32) (hX : ∀ n c p, IsReal (X n c p))
    (hY : ∀ n c p, IsReal (Y n c p)) : ∀ n c p, IsReal (appendCh X Y n c p) := by
  intro n c p
  unfold appendCh
  split
  · exact hX _ _ _
  · exact hY _ _ _

theorem isReal_layerOut {C : ℕ} (g b : Fin C → EReal) (w : Fin 32 → Fin C → Fin 3 → Fin 3 → EReal)
    (wm : Fin 2 → Fin 1024 → EReal) (X : Act C) (hg : ∀ c, IsReal (g c)) (hb : ∀ c, IsReal (b c))
    (hw : ∀ o ci kh kw, IsReal (w o ci kh kw)) (hm : ∀ r p, IsReal (wm r p))
    (hX : ∀ n c p, IsReal (X n c p)) : ∀ n o p, IsReal (layerOut g b w wm X n o p) :=
  isReal_convCols w wm (bnrelu g b X) hw hm (isReal_bnrelu g b X hg hb hX)

theorem isReal_appendV {C : ℕ} (u : Fin C → EReal) (v : Fin 32 → EReal) (hu : ∀ c, IsReal (u c))
    (hv : ∀ c, IsReal (v c)) : ∀ c, IsReal (appendV u v c) := by
  intro c
  unfold appendV
  split
  · exact hu _
  · exact hv _

theorem isReal_padCh {C : ℕ} (X : Act C) (hX : ∀ n c p, IsReal (X n c p)) : ∀ n c p, IsReal (padCh X n c p) := by
  intro n c p
  unfold padCh
  split
  · exact hX _ _ _
  · exact IsReal.zero

theorem isReal_setCh32 (B : Act 256) (off : ℕ) (Y : Act 32) (hB : ∀ n c p, IsReal (B n c p))
    (hY : ∀ n c p, IsReal (Y n c p)) : ∀ n c p, IsReal (setCh32 B off Y n c p) := by
  intro n c p
  unfold setCh32
  split
  · exact hY _ _ _
  · exact hB _ _ _

theorem isReal_takeCh (C : ℕ) (hC : C ≤ 256) (B : Act 256) (hB : ∀ n c p, IsReal (B n c p)) :
    ∀ n c p, IsReal (takeCh C hC B n c p) :=
  fun n _ p => hB n _ p

theorem sum1_appendCh {C : ℕ} (X : Act C) (Y : Act 32) :
    sum1 (appendCh X Y) = appendV (sum1 X) (sum1 Y) := by
  funext c
  by_cases h : c.val < C
  · simp only [sum1, appendCh, appendV, dif_pos h]
  · simp only [sum1, appendCh, appendV, dif_neg h]

theorem sum2_appendCh {C : ℕ} (X : Act C) (Y : Act 32) :
    sum2 (appendCh X Y) = appendV (sum2 X) (sum2 Y) := by
  funext c
  by_cases h : c.val < C
  · simp only [sum2, appendCh, appendV, dif_pos h]
  · simp only [sum2, appendCh, appendV, dif_neg h]

theorem takeCh_padCh {C : ℕ} (hC : C ≤ 256) (X : Act C) : takeCh C hC (padCh X) = X := by
  funext n c p
  show (if h : c.val < C then X n ⟨c.val, h⟩ p else 0) = X n c p
  rw [dif_pos c.isLt]

theorem takeCh_setCh32_padCh {C : ℕ} (hC : C + 32 ≤ 256) (X : Act C) (Y : Act 32) :
    takeCh (C + 32) hC (setCh32 (padCh X) C Y) = appendCh X Y := by
  funext n c p
  by_cases h : c.val < C
  · have h' : ¬ (C ≤ c.val ∧ c.val < C + 32) := by omega
    simp only [takeCh, setCh32, padCh, appendCh, dif_pos h, dif_neg h']
  · have h' : C ≤ c.val ∧ c.val < C + 32 := ⟨by omega, c.isLt⟩
    simp only [takeCh, setCh32, appendCh, dif_pos h', dif_neg h]

end Cert.SpecAlg

end
-- ==== Proof.BlockReal.lean ====
import proofs.«136216_g2000306190186476_pallasbulk_240_40_alg».proof.Proof.Block
import proofs.«136216_g2000306190186476_pallasbulk_240_40_alg».proof.Proof.SpecAlg

noncomputable section

namespace Cert.Block

open Idealize.ShloMosaic Idealize.ShloMosaic.ValueIdx Cert.Spec Cert.Views Cert.Alg Cert.SpecAlg

structure Args.Real (a : Args) : Prop where
  x  : ∀ i, IsReal (a.x i)
  g0 : ∀ i, IsReal (a.g0 i)
  b0 : ∀ i, IsReal (a.b0 i)
  w0 : ∀ i, IsReal (a.w0 i)
  g1 : ∀ i, IsReal (a.g1 i)
  b1 : ∀ i, IsReal (a.b1 i)
  w1 : ∀ i, IsReal (a.w1 i)
  g2 : ∀ i, IsReal (a.g2 i)
  b2 : ∀ i, IsReal (a.b2 i)
  w2 : ∀ i, IsReal (a.w2 i)
  g3 : ∀ i, IsReal (a.g3 i)
  b3 : ∀ i, IsReal (a.b3 i)
  w3 : ∀ i, IsReal (a.w3 i)
  g4 : ∀ i, IsReal (a.g4 i)
  b4 : ∀ i, IsReal (a.b4 i)
  w4 : ∀ i, IsReal (a.w4 i)
  g5 : ∀ i, IsReal (a.g5 i)
  b5 : ∀ i, IsReal (a.b5 i)
  w5 : ∀ i, IsReal (a.w5 i)

theorem isReal_mask (r : Fin 2) (p : Fin 1024) : IsReal (mask r p) := by
  unfold mask
  split_ifs <;> first | exact IsReal.one | exact IsReal.zero

variable {a : Args} (h : a.Real)
include h

theorem isReal_X0 : ∀ n c p, IsReal (X0 a n c p) := fun _ _ _ => h.x _

theorem isReal_Y0 : ∀ n o p, IsReal (Y0 a n o p) :=
  isReal_layerOut _ _ _ _ _ (fun _ => h.g0 _) (fun _ => h.b0 _) (fun _ _ _ _ => h.w0 _) isReal_mask (isReal_X0 h)
theorem isReal_X1 : ∀ n c p, IsReal (X1 a n c p) := isReal_appendCh _ _ (isReal_X0 h) (isReal_Y0 h)
theorem isReal_Y1 : ∀ n o p, IsReal (Y1 a n o p) :=
  isReal_layerOut _ _ _ _ _ (fun _ => h.g1 _) (fun _ => h.b1 _) (fun _ _ _ _ => h.w1 _) isReal_mask (isReal_X1 h)
theorem isReal_X2 : ∀ n c p, IsReal (X2 a n c p) := isReal_appendCh _ _ (isReal_X1 h) (isReal_Y1 h)
theorem isReal_Y2 : ∀ n o p, IsReal (Y2 a n o p) :=
  isReal_layerOut _ _ _ _ _ (fun _ => h.g2 _) (fun _ => h.b2 _) (fun _ _ _ _ => h.w2 _) isReal_mask (isReal_X2 h)
theorem isReal_X3 : ∀ n c p, IsReal (X3 a n c p) := isReal_appendCh _ _ (isReal_X2 h) (isReal_Y2 h)
theorem isReal_Y3 : ∀ n o p, IsReal (Y3 a n o p) :=
  isReal_layerOut _ _ _ _ _ (fun _ => h.g3 _) (fun _ => h.b3 _) (fun _ _ _ _ => h.w3 _) isReal_mask (isReal_X3 h)
theorem isReal_X4 : ∀ n c p, IsReal (X4 a n c p) := isReal_appendCh _ _ (isReal_X3 h) (isReal_Y3 h)
theorem isReal_Y4 : ∀ n o p, IsReal (Y4 a n o p) :=
  isReal_layerOut _ _ _ _ _ (fun _ => h.g4 _) (fun _ => h.b4 _) (fun _ _ _ _ => h.w4 _) isReal_mask (isReal_X4 h)
theorem isReal_X5 : ∀ n c p, IsReal (X5 a n c p) := isReal_appendCh _ _ (isReal_X4 h) (isReal_Y4 h)

end Cert.Block

end
-- ==== Proof.KThreadSteps.lean ====
import proofs.«136216_g2000306190186476_pallasbulk_240_40_alg».proof.Proof.FrameK
import Idealize.ShloMosaic.PureOps.Ideal
import Idealize.ShloMosaic.Lib.Pipeline.Cells
import Idealize.ShloMosaic.Lib.StableHlo.Run

set_option maxRecDepth 16384

noncomputable section

namespace Cert.KThread

open Cert.KernelIdeal Cert.KernelIdeal.Gen Cert.KernelIdeal.GenP
open Idealize.ShloMosaic Idealize.ShloMosaic.TcCoe Idealize.SL.Sem

/-- Every operation of a host stretch writes one listed buffer. -/
macro "host_writes" : tactic => `(tactic|
  (simp only [List.Forall, StableHlo.nullary_writes, StableHlo.unary_writes, StableHlo.binary_writes, StableHlo.ternary_writes,
     StableHlo.reshape_writes, Finset.singleton_subset_iff, List.mem_toFinset]
   repeat' apply And.intro
   all_goals exact List.mem_map_of_mem (by decide)))

abbrev hostW0 : List (Ref sig .tc) := [main_v0, main_v1, main_c]
theorem host0_keeps (W : Valuation τ sig (Elt Ideal)) (r : Ref sig .tc) (h : r ∉ hostW0) :
    StableHlo.after hostOps0 W (Proc.devRef .tc r) = W (Proc.devRef .tc r) :=
  StableHlo.after_of_writes_sub hostOps0 W (by host_writes) h

abbrev hostW0_1 : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v2]
theorem host0_1_keeps (W : Valuation τ sig (Elt Ideal)) (r : Ref sig .tc) (h : r ∉ hostW0_1) :
    StableHlo.after hostOps0_1 W (Proc.devRef .tc r) = W (Proc.devRef .tc r) :=
  StableHlo.after_of_writes_sub hostOps0_1 W (by host_writes) h

abbrev hostW0_2 : List (Ref sig .tc) := [main_c_0, main_v3, main_v4, main_c_1, main_v5, main_v6, main_v7, main_v8, main_v9, main_v10]
theorem host0_2_keeps (W : Valuation τ sig (Elt Ideal)) (r : Ref sig .tc) (h : r ∉ hostW0_2) :
    StableHlo.after hostOps0_2 W (Proc.devRef .tc r) = W (Proc.devRef .tc r) :=
  StableHlo.after_of_writes_sub hostOps0_2 W (by host_writes) h

abbrev hostW1 : List (Ref sig .tc) := [main_v12, main_v13, main_v14, main_v15]
theorem host1_keeps (W : Valuation τ sig (Elt Ideal)) (r : Ref sig .tc) (h : r ∉ hostW1) :
    StableHlo.after hostOps1 W (Proc.devRef .tc r) = W (Proc.devRef .tc r) :=
  StableHlo.after_of_writes_sub hostOps1 W (by host_writes) h

abbrev hostW2 : List (Ref sig .tc) := [main_v17, main_v18, main_v19, main_v20]
theorem host2_keeps (W : Valuation τ sig (Elt Ideal)) (r : Ref sig .tc) (h : r ∉ hostW2) :
    StableHlo.after hostOps2 W (Proc.devRef .tc r) = W (Proc.devRef .tc r) :=
  StableHlo.after_of_writes_sub hostOps2 W (by host_writes) h

abbrev hostW3 : List (Ref sig .tc) := [main_v22, main_v23, main_v24, main_v25]
theorem host3_keeps (W : Valuation τ sig (Elt Ideal)) (r : Ref sig .tc) (h : r ∉ hostW3) :
    StableHlo.after hostOps3 W (Proc.devRef .tc r) = W (Proc.devRef .tc r) :=
  StableHlo.after_of_writes_sub hostOps3 W (by host_writes) h

abbrev hostW4 : List (Ref sig .tc) := [main_v27, main_v28, main_v29, main_v30]
theorem host4_keeps (W : Valuation τ sig (Elt Ideal)) (r : Ref sig .tc) (h : r ∉ hostW4) :
    StableHlo.after hostOps4 W (Proc.devRef .tc r) = W (Proc.devRef .tc r) :=
  StableHlo.after_of_writes_sub hostOps4 W (by host_writes) h

abbrev hostW5 : List (Ref sig .tc) := [main_v32, main_v33, main_v34, main_v35]
theorem host5_keeps (W : Valuation τ sig (Elt Ideal)) (r : Ref sig .tc) (h : r ∉ hostW5) :
    StableHlo.after hostOps5 W (Proc.devRef .tc r) = W (Proc.devRef .tc r) :=
  StableHlo.after_of_writes_sub hostOps5 W (by host_writes) h

abbrev hostW6 : List (Ref sig .tc) := [main_v37, main_v38, main_v39, main_v40]
theorem host6_keeps (W : Valuation τ sig (Elt Ideal)) (r : Ref sig .tc) (h : r ∉ hostW6) :
    StableHlo.after hostOps6 W (Proc.devRef .tc r) = W (Proc.devRef .tc r) :=
  StableHlo.after_of_writes_sub hostOps6 W (by host_writes) h

abbrev hostW7 : List (Ref sig .tc) := [main_v42]
theorem host7_keeps (W : Valuation τ sig (Elt Ideal)) (r : Ref sig .tc) (h : r ∉ hostW7) :
    StableHlo.after hostOps7 W (Proc.devRef .tc r) = W (Proc.devRef .tc r) :=
  StableHlo.after_of_writes_sub hostOps7 W (by host_writes) h

/-- A step that leaves its input arrays and every buffer that is not one of its arrays as it found them keeps all but its outputs. -/
theorem region_keeps {N : ℕ} (ar : Fin N → Ref sig .tc) (isOut : Fin N → Bool) (outs : List (Ref sig .tc))
    (hd : ∀ w, ar w ∉ outs → isOut w = false) {Wout Win : Valuation τ sig (Elt Ideal)}
    (hin : ∀ w, isOut w = false → Wout (Proc.devRef .tc (ar w)) = Win (Proc.devRef .tc (ar w)))
    (hne : ∀ b, (∀ w, ar w ≠ b) → Wout (Proc.devRef .tc b) = Win (Proc.devRef .tc b))
    (r : Ref sig .tc) (h : r ∉ outs) : Wout (Proc.devRef .tc r) = Win (Proc.devRef .tc r) := by
  by_cases hr : ∃ w, ar w = r
  · obtain ⟨w, rfl⟩ := hr
    exact hin w (hd w h)
  · exact hne r fun w e => hr ⟨w, e⟩

variable (m : (ℓ : Loc nD τ sig) → Buf (Elt Ideal) ℓ) (ρ : Dev nD → PrngReg)

theorem W4_step (c : Dev nD) (r : Ref sig .tc) (h : r ∉ ([main_v11_0, main_v11_1] : List (Ref sig .tc))) :
    W4 m ρ c (Proc.devRef .tc r) = W3 m ρ c (Proc.devRef .tc r) :=
  region_keeps (Pipeline.arrRef spec0) (fun w => (cfg0.win w).isOut) _ (by decide)
    (fun w hw => (W4_arr m ρ c w).trans (((dat0 (V3 m ρ) c).arrAt_in w hw cfg0.N).trans (A_eq0 (V3 m ρ) c w)))
    (W4_of_ne m ρ c) r h

theorem W6_step (c : Dev nD) (r : Ref sig .tc) (h : r ∉ ([main_v16_0, main_v16_1] : List (Ref sig .tc))) :
    W6 m ρ c (Proc.devRef .tc r) = W5 m ρ c (Proc.devRef .tc r) :=
  region_keeps (Pipeline.arrRef spec1) (fun w => (cfg1.win w).isOut) _ (by decide)
    (fun w hw => (W6_arr m ρ c w).trans (((dat1 (V5 m ρ) c).arrAt_in w hw cfg1.N).trans (A_eq1 (V5 m ρ) c w)))
    (W6_of_ne m ρ c) r h

theorem W8_step (c : Dev nD) (r : Ref sig .tc) (h : r ∉ ([main_v21_0, main_v21_1] : List (Ref sig .tc))) :
    W8 m ρ c (Proc.devRef .tc r) = W7 m ρ c (Proc.devRef .tc r) :=
  region_keeps (Pipeline.arrRef spec2) (fun w => (cfg2.win w).isOut) _ (by decide)
    (fun w hw => (W8_arr m ρ c w).trans (((dat2 (V7 m ρ) c).arrAt_in w hw cfg2.N).trans (A_eq2 (V7 m ρ) c w)))
    (W8_of_ne m ρ c) r h

theorem W10_step (c : Dev nD) (r : Ref sig .tc) (h : r ∉ ([main_v26_0, main_v26_1] : List (Ref sig .tc))) :
    W10 m ρ c (Proc.devRef .tc r) = W9 m ρ c (Proc.devRef .tc r) :=
  region_keeps (Pipeline.arrRef spec3) (fun w => (cfg3.win w).isOut) _ (by decide)
    (fun w hw => (W10_arr m ρ c w).trans (((dat3 (V9 m ρ) c).arrAt_in w hw cfg3.N).trans (A_eq3 (V9 m ρ) c w)))
    (W10_of_ne m ρ c) r h

theorem W12_step (c : Dev nD) (r : Ref sig .tc) (h : r ∉ ([main_v31_0, main_v31_1] : List (Ref sig .tc))) :
    W12 m ρ c (Proc.devRef .tc r) = W11 m ρ c (Proc.devRef .tc r) :=
  region_keeps (Pipeline.arrRef spec4) (fun w => (cfg4.win w).isOut) _ (by decide)
    (fun w hw => (W12_arr m ρ c w).trans (((dat4 (V11 m ρ) c).arrAt_in w hw cfg4.N).trans (A_eq4 (V11 m ρ) c w)))
    (W12_of_ne m ρ c) r h

theorem W14_step (c : Dev nD) (r : Ref sig .tc) (h : r ∉ ([main_v36_0, main_v36_1] : List (Ref sig .tc))) :
    W14 m ρ c (Proc.devRef .tc r) = W13 m ρ c (Proc.devRef .tc r) :=
  region_keeps (Pipeline.arrRef spec5) (fun w => (cfg5.win w).isOut) _ (by decide)
    (fun w hw => (W14_arr m ρ c w).trans (((dat5 (V13 m ρ) c).arrAt_in w hw cfg5.N).trans (A_eq5 (V13 m ρ) c w)))
    (W14_of_ne m ρ c) r h

theorem W16_step (c : Dev nD) (r : Ref sig .tc) (h : r ∉ ([main_v41] : List (Ref sig .tc))) :
    W16 m ρ c (Proc.devRef .tc r) = W15 m ρ c (Proc.devRef .tc r) :=
  region_keeps (Pipeline.arrRef spec6) (fun w => (cfg6.win w).isOut) _ (by decide)
    (fun w hw => (W16_arr m ρ c w).trans (((dat6 (V15 m ρ) c).arrAt_in w hw cfg6.N).trans (A_eq6 (V15 m ρ) c w)))
    (W16_of_ne m ρ c) r h

end Cert.KThread

end
-- ==== Proof.K0.lean ====
import proofs.«136216_g2000306190186476_pallasbulk_240_40_alg».proof.Proof.FrameK
import proofs.«136216_g2000306190186476_pallasbulk_240_40_alg».proof.Proof.Views
import proofs.«136216_g2000306190186476_pallasbulk_240_40_alg».proof.Proof.SpecAlg
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.K0

open Cert.KernelIdeal Cert.KernelIdeal.Gen Cert.KernelIdeal.GenP Cert.Spec Cert.Views Idealize.ShloMosaic Idealize.ShloMosaic.TcCoe
  Idealize.ShloMosaic.ValueIdx Idealize.SL.Sem
open Idealize.ShloMosaic.Pipeline (Dat Cfg Window)

theorem hz3 : (![0, 0, 0] : Fin 3 → Nat) = fun _ => 0 := funext fun a => by fin_cases a <;> rfl

section Pieces
variable {F : FTy → Type} [FloatOps F]

variable (c : Dev nD) (i : grid0.Coords) (a1 : Memref sig .tc .vmem S8x64x1024 .f32) (h1 : a1.IsWhole) (a2 : Memref sig .tc .vmem S64x8x1024 .bf16) (h2 : a2.IsWhole) (a3 : Memref sig .tc .vmem S1x64x2 .f32) (h3 : a3.IsWhole)

theorem copy_A (hc : cond0_0 i) (x0 : Vec F S8x64x1024 .f32) :
    out0_A_1 c i a1 h1 a2 h2 a3 h3 hc x0 = k0_pay2 x0 := by
  unfold out0_A_1
  rw [View.read_writes_eq_canon _ _ _ fun _ => cover0_A_1 ..]
  unfold kernelRun0_A
  dsimp only
  sl_unfold_words
  rw [View.canon_unit_zero hz3]
  simp only [View.readAt_eq_ld, h1.read_unread, View.ld_unit_zero (S := S8x64x1024) hz3]

theorem copy_B (hc : ¬cond0_0 i) (x0 : Vec F S8x64x1024 .f32) (xo2 : Vec F S1x64x2 .f32) :
    out0_B_1 c i a1 h1 a2 h2 a3 h3 hc x0 xo2 = k0_pay2 x0 := by
  unfold out0_B_1
  rw [View.read_writes_eq_canon _ _ _ fun _ => cover0_B_1 ..]
  unfold kernelRun0_B
  dsimp only
  sl_unfold_words
  rw [View.canon_unit_zero hz3]
  simp only [View.readAt_eq_ld, h1.read_unread, View.ld_unit_zero (S := S8x64x1024) hz3]

theorem acc_A (hc : cond0_0 i) (x0 : Vec F S8x64x1024 .f32) :
    out0_A_2 c i a1 h1 a2 h2 a3 h3 hc x0 = k0_pay4 x0 (k0_pay3 (F := F)) := by
  unfold out0_A_2
  rw [View.read_writes_eq_canon _ _ _ fun _ => cover0_A_2 ..]
  unfold kernelRun0_A
  dsimp only
  sl_unfold_words
  rw [View.canon_cons_unit_zero (S := S1x64x2) hz3, View.readCov_unit_zero (S := S1x64x2) _ hz3]
  simp only [View.readAt_eq_ld, h1.read_unread, View.ld_unit_zero (S := S8x64x1024) hz3]

theorem acc_B (hc : ¬cond0_0 i) (x0 : Vec F S8x64x1024 .f32) (xo2 : Vec F S1x64x2 .f32) :
    out0_B_2 c i a1 h1 a2 h2 a3 h3 hc x0 xo2 = k0_pay4 x0 xo2 := by
  unfold out0_B_2
  rw [View.read_writes_eq_canon _ _ _ fun _ => cover0_B_2 ..]
  unfold kernelRun0_B
  dsimp only
  sl_unfold_words
  rw [View.canon_unit_zero hz3]
  simp only [View.readAt_eq_ld, h1.read_unread, h3.read_unread, View.ld_unit_zero (S := S8x64x1024) hz3,
    View.ld_unit_zero (S := S1x64x2) hz3]

end Pieces

theorem red_pix (src : FVec Ideal S8x64x1024 .f32) (h : S8x64x1024.Reduces [2] S8x64) (hφ : FKind.Formats .f32)
    (hacc : (0x00000000#32 : BitVec 32) = FKind.add.neutral .f32 hφ) (b : Fin 8) (ch : Fin 64) :
    multiReduction .add [2] S8x64 src 0x00000000#32 h hφ hacc (ix2 b ch) = ∑ p : Fin 1024, src (ix3 b ch p) := by
  refine (Ideal.multiReduction_add_single src 0x00000000#32 h hφ hacc (ix2 b ch)).trans ?_
  refine Finset.sum_congr rfl fun p _ => congrArg src (funext fun a => ?_)
  match a with
  | ⟨0, _⟩ => rfl
  | ⟨1, _⟩ => rfl
  | ⟨2, _⟩ => rfl

theorem red_img (src : FVec Ideal S8x64x1 .f32) (h : S8x64x1.Reduces [0] S64x1) (hφ : FKind.Formats .f32)
    (hacc : (0x00000000#32 : BitVec 32) = FKind.add.neutral .f32 hφ) (ch : Fin 64) (z : Fin 1) :
    multiReduction .add [0] S64x1 src 0x00000000#32 h hφ hacc (ix2 ch z) = ∑ b : Fin 8, src (ix3 b ch z) := by
  refine (Ideal.multiReduction_add_single src 0x00000000#32 h hφ hacc (ix2 ch z)).trans ?_
  refine Finset.sum_congr rfl fun b _ => congrArg src (funext fun a => ?_)
  match a with
  | ⟨0, _⟩ => rfl
  | ⟨1, _⟩ => rfl
  | ⟨2, _⟩ => rfl

theorem cast_keep (v : FVec Ideal S8x64 .f32) (h : S8x64.ShapeCasts S8x64x1) (b : Fin 8) (ch : Fin 64) (z : Fin 1) :
    shapeCast S8x64x1 v h (ix3 b ch z) = v (ix2 b ch) :=
  shapeCast_apply v h _ _ (by
    have hz : z.val = 0 := by omega
    rw [Shape.rowMajor_val_two, Shape.rowMajor_val_three]
    show b.val * 64 + ch.val = (b.val * 64 + ch.val) * 1 + z.val
    omega)

theorem cat_left (x₁ x₂ : FVec Ideal S64x1 .f32) (h : Shape.Concatenates [S64x1, S64x1] S64x2 1) (ch : Fin 64) :
    concatenate S64x2 1 [⟨S64x1, x₁⟩, ⟨S64x1, x₂⟩] h (ix2 ch 0) = x₁ (ix2 ch 0) :=
  concatenate_pair_apply_left 1 x₁ x₂ h (ix2 ch 0) rfl (ix2 ch 0) (fun b => match b with
    | ⟨0, _⟩ => rfl
    | ⟨1, _⟩ => rfl)

theorem cat_right (x₁ x₂ : FVec Ideal S64x1 .f32) (h : Shape.Concatenates [S64x1, S64x1] S64x2 1) (ch : Fin 64) :
    concatenate S64x2 1 [⟨S64x1, x₁⟩, ⟨S64x1, x₂⟩] h (ix2 ch 1) = x₂ (ix2 ch 0) :=
  concatenate_pair_apply_right 1 x₁ x₂ h (ix2 ch 1) rfl rfl (ix2 ch 0) (fun b hb => match b, hb with
    | ⟨0, _⟩, _ => rfl
    | ⟨1, _⟩, hb => absurd rfl hb) rfl

theorem pay2_apply (x0 : Vec Ideal S8x64x1024 .f32) (ch : Fin 64) (b : Fin 8) (p : Fin 1024) :
    (k0_pay2 x0 : FVec Ideal S64x8x1024 .bf16) (ix3 ch b p) = x0 (ix3 b ch p) := by
  unfold k0_pay2 k0_pay1
  refine (transpose_apply _ _ _ (ix3 ch b p) (ix3 b ch p) (fun a => ?_)).trans ?_
  · match a with
    | ⟨0, _⟩ => rfl
    | ⟨1, _⟩ => rfl
    | ⟨2, _⟩ => rfl
  · exact congrFun (shapeCast_self x0 _) (ix3 b ch p)

theorem pay3_apply (j : S1x64x2.Idx) : (k0_pay3 (F := Ideal)) j = 0 := by
  unfold k0_pay3
  exact Ideal.ofBits_zero_f32

theorem pay4_col0 (x0 : Vec Ideal S8x64x1024 .f32) (acc : Vec Ideal S1x64x2 .f32) (u : Fin 1) (ch : Fin 64) :
    (k0_pay4 x0 acc : FVec Ideal S1x64x2 .f32) (ix3 u ch 0)
      = acc (ix3 0 ch 0) + ∑ b : Fin 8, ∑ p : Fin 1024, x0 (ix3 b ch p) := by
  unfold k0_pay4 k0_pay1
  refine (shapeCast_ab_1ab_apply _ _ u ch 0).trans ?_
  refine (addf_apply _ _ _).trans ?_
  refine congrArg₂ (· + ·) (shapeCast_1ab_ab_apply acc _ ch 0) ?_
  refine (cat_left _ _ _ ch).trans ?_
  refine (red_img _ _ _ _ ch 0).trans ?_
  refine Finset.sum_congr rfl fun b _ => ?_
  refine (cast_keep _ _ b ch 0).trans ?_
  refine (red_pix _ _ _ _ b ch).trans ?_
  exact Finset.sum_congr rfl fun p _ => congrFun (shapeCast_self x0 _) (ix3 b ch p)

theorem pay4_col1 (x0 : Vec Ideal S8x64x1024 .f32) (acc : Vec Ideal S1x64x2 .f32) (u : Fin 1) (ch : Fin 64) :
    (k0_pay4 x0 acc : FVec Ideal S1x64x2 .f32) (ix3 u ch 1)
      = acc (ix3 0 ch 1) + ∑ b : Fin 8, ∑ p : Fin 1024, x0 (ix3 b ch p) * x0 (ix3 b ch p) := by
  unfold k0_pay4 k0_pay1
  refine (shapeCast_ab_1ab_apply _ _ u ch 1).trans ?_
  refine (addf_apply _ _ _).trans ?_
  refine congrArg₂ (· + ·) (shapeCast_1ab_ab_apply acc _ ch 1) ?_
  refine (cat_right _ _ _ ch).trans ?_
  refine (red_img _ _ _ _ ch 0).trans ?_
  refine Finset.sum_congr rfl fun b _ => ?_
  refine (cast_keep _ _ b ch 0).trans ?_
  refine (red_pix _ _ _ _ b ch).trans ?_
  refine Finset.sum_congr rfl fun p _ => ?_
  refine (mulf_apply _ _ _).trans ?_
  rw [shapeCast_self]

variable (V : (c : Dev nD) → (b : Ref sig .tc) → Buf (Elt Ideal) ((c : Thread nD τ).loc b))

abbrev x3 (c : Dev nD) : Vec Ideal S128x64x1024 .f32 := V c main_v0

abbrev xbOut (c : Dev nD) : Vec Ideal S64x128x1024 .bf16 := (dat0 V c).arrAt 1 cfg0.N

abbrev mOut (c : Dev nD) : Vec Ideal S1x64x2 .f32 := (dat0 V c).arrAt 2 cfg0.N

abbrev xblk (c : Dev nD) (t : Fin cfg0.N) : Vec Ideal S8x64x1024 .f32 := iblk0 V c 0 t

theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

theorem xblk_apply (c : Dev nD) (t : Fin cfg0.N) (b : Fin 8) (ch : Fin 64) (p : Fin 1024) (k : S128x64x1024.Idx)
    (hk0 : (k 0).val = 8 * t.val + b.val) (hk1 : (k 1).val = ch.val) (hk2 : (k 2).val = p.val) :
    xblk V c t (ix3 b ch p) = x3 V c k := by
  obtain ⟨e0, e1, e2, -⟩ := idx_facts t
  unfold xblk iblk0
  rw [View.read_apply]
  show V c main_v0 _ = V c main_v0 _
  congr 1
  funext a
  apply Fin.ext
  match a with
  | ⟨0, _⟩ => show win0_0.index t (0 : Fin 3) * 8 + 1 * b.val = (k 0).val; omega
  | ⟨1, _⟩ => show win0_0.index t (1 : Fin 3) * 64 + 1 * ch.val = (k 1).val; omega
  | ⟨2, _⟩ => show win0_0.index t (2 : Fin 3) * 1024 + 1 * p.val = (k 2).val; omega

theorem copy_at (c : Dev nD) (t : Fin cfg0.N) : (outsAt0 V c t.val t.isLt).1 = k0_pay2 (xblk V c t) := by
  by_cases h0 : t.val % 16 = 0
  · rw [outsAt0_A V c t h0]
    dsimp only
    exact copy_A ..
  · rw [outsAt0_B V c t h0]
    dsimp only
    exact copy_B ..

theorem acc_first (c : Dev nD) (t : Fin cfg0.N) (h0 : t.val % 16 = 0) :
    (outsAt0 V c t.val t.isLt).2 = k0_pay4 (xblk V c t) (k0_pay3 (F := Ideal)) := by
  rw [outsAt0_A V c t h0]
  dsimp only
  exact acc_A ..

theorem acc_next (c : Dev nD) (t : Fin cfg0.N) (h0 : ¬t.val % 16 = 0) :
    (outsAt0 V c t.val t.isLt).2
      = k0_pay4 (xblk V c t) (outsAt0 V c (t.val - 1) (Nat.lt_of_le_of_lt (Nat.sub_le _ _) t.isLt)).2 := by
  rw [outsAt0_B V c t h0]
  dsimp only
  exact acc_B ..

def blockSum (c : Dev nD) (ch : Fin 64) (j : ℕ) : EReal :=
  if h : j < 16 then ∑ b : Fin 8, ∑ p : Fin 1024, x3 V c (ix3 (⟨j * 8 + b.val, by omega⟩ : Fin 128) ch p) else 0

def blockSq (c : Dev nD) (ch : Fin 64) (j : ℕ) : EReal :=
  if h : j < 16 then ∑ b : Fin 8, ∑ p : Fin 1024,
    x3 V c (ix3 (⟨j * 8 + b.val, by omega⟩ : Fin 128) ch p) * x3 V c (ix3 (⟨j * 8 + b.val, by omega⟩ : Fin 128) ch p)
  else 0

theorem blk_sum (c : Dev nD) (t : Fin cfg0.N) (ch : Fin 64) :
    ∑ b : Fin 8, ∑ p : Fin 1024, xblk V c t (ix3 b ch p) = blockSum V c ch t.val := by
  have hN : t.val < 16 := lt_of_lt_of_eq t.isLt (show cfg0.N = 16 from N_0)
  unfold blockSum
  rw [dif_pos hN]
  refine Finset.sum_congr rfl fun b _ => Finset.sum_congr rfl fun p _ => ?_
  exact xblk_apply V c t b ch p _ (by show t.val * 8 + b.val = 8 * t.val + b.val; omega) rfl rfl

theorem blk_sq (c : Dev nD) (t : Fin cfg0.N) (ch : Fin 64) :
    ∑ b : Fin 8, ∑ p : Fin 1024, xblk V c t (ix3 b ch p) * xblk V c t (ix3 b ch p) = blockSq V c ch t.val := by
  have hN : t.val < 16 := lt_of_lt_of_eq t.isLt (show cfg0.N = 16 from N_0)
  unfold blockSq
  rw [dif_pos hN]
  refine Finset.sum_congr rfl fun b _ => Finset.sum_congr rfl fun p _ => ?_
  rw [xblk_apply V c t b ch p (ix3 (⟨t.val * 8 + b.val, by omega⟩ : Fin 128) ch p)
    (by show t.val * 8 + b.val = 8 * t.val + b.val; omega) rfl rfl]

theorem acc_eq (c : Dev nD) (ch : Fin 64) : ∀ (n : ℕ) (h : n < cfg0.N) (u : Fin 1),
    ((outsAt0 V c n h).2 : Vec Ideal S1x64x2 .f32) (ix3 u ch 0) = ∑ j ∈ Finset.range (n + 1), blockSum V c ch j
    ∧ ((outsAt0 V c n h).2 : Vec Ideal S1x64x2 .f32) (ix3 u ch 1) = ∑ j ∈ Finset.range (n + 1), blockSq V c ch j
  | 0, h, u => by
    have e := acc_first V c ⟨0, h⟩ rfl
    constructor
    · rw [e, pay4_col0, pay3_apply, blk_sum V c ⟨0, h⟩ ch, Finset.sum_range_succ, Finset.sum_range_zero]
    · rw [e, pay4_col1, pay3_apply, blk_sq V c ⟨0, h⟩ ch, Finset.sum_range_succ, Finset.sum_range_zero]
  | n + 1, h, u => by
    have hN : cfg0.N = 16 := N_0
    have hB : ¬(⟨n + 1, h⟩ : Fin cfg0.N).val % 16 = 0 := by dsimp only; omega
    obtain ⟨i0, i1⟩ := acc_eq c ch n (Nat.lt_of_succ_lt h) 0
    rw [acc_next V c ⟨n + 1, h⟩ hB, pay4_col0, pay4_col1, blk_sum V c ⟨n + 1, h⟩ ch, blk_sq V c ⟨n + 1, h⟩ ch,
      Finset.sum_range_succ _ (n + 1), Finset.sum_range_succ _ (n + 1)]
    exact ⟨congrArg (· + blockSum V c ch (n + 1)) i0, congrArg (· + blockSq V c ch (n + 1)) i1⟩

def xT (c : Dev nD) : Vec Ideal S64x128x1024 .bf16 :=
  fun i => x3 V c (ix3 (i 1 : Fin 128) (i 0 : Fin 64) (i 2 : Fin 1024))

theorem copy_flushed (c : Dev nD) (t : Fin cfg0.N) :
    (dat0 V c).flushed 1 t = ((cfg0.win 1).blk t).view.read (Elt Ideal) (xT V c) := by
  show (cfg0.win 1).cut (grid0.coords t) ((dat0 V c).after 1 t) = _
  rw [after0_1, copy_at]
  obtain ⟨-, -, -, e0, e1, e2, -⟩ := idx_facts t
  funext y
  obtain ⟨ch, b, p, rfl⟩ : ∃ (ch : Fin 64) (b : Fin 8) (p : Fin 1024), y = ix3 ch b p := ⟨y 0, y 1, y 2, eq_ix3 y⟩
  rw [View.read_apply]
  have key : ∀ e : S64x128x1024.Idx, (e 0).val = ch.val → (e 1).val = 8 * t.val + b.val → (e 2).val = p.val →
      (k0_pay2 (xblk V c t) : FVec Ideal S64x8x1024 .bf16) (ix3 ch b p) = xT V c e := fun e h0 h1 h2 =>
    (pay2_apply (xblk V c t) ch b p).trans (xblk_apply V c t b ch p (ix3 (e 1 : Fin 128) (e 0 : Fin 64) (e 2 : Fin 1024)) h1 h0 h2)
  show (k0_pay2 (xblk V c t) : FVec Ideal S64x8x1024 .bf16) (ix3 ch b p)
    = xT V c (((cfg0.win 1).blk t).view.emb (ix3 ch b p))
  refine key _ ?_ ?_ ?_
  · show win0_1.index t (0 : Fin 3) * 64 + 1 * ch.val = ch.val; omega
  · show win0_1.index t (1 : Fin 3) * 8 + 1 * b.val = 8 * t.val + b.val; omega
  · show win0_1.index t (2 : Fin 3) * 1024 + 1 * p.val = p.val; omega

theorem copy_mem_blk (t : Fin cfg0.N) (i : S64x128x1024.Idx) :
    i ∈ ((cfg0.win 1).blk t).view.set ↔ ∀ a : Fin 3, win0_1.index t a * S64x8x1024.size a ≤ (i a).val
      ∧ (i a).val < win0_1.index t a * S64x8x1024.size a + S64x8x1024.size a := by
  show i ∈ ((View.whole main_v11_0).slice (win0_1.rect t)).set ↔ _
  rw [View.set_slice_whole, Rect.mem_set_unit]
  exact Iff.rfl

theorem copy_cover (i : S64x128x1024.Idx) :
    ∃ t : Fin cfg0.N, (cfg0.win 1).flush t = true ∧ i ∈ ((cfg0.win 1).blk t).view.set := by
  have h0 : (i 0).val < 64 := (i 0).isLt
  have h1 : (i 1).val < 128 := (i 1).isLt
  have h2 : (i 2).val < 1024 := (i 2).isLt
  have hN : cfg0.N = 16 := N_0
  obtain ⟨t, ht⟩ : ∃ t : Fin cfg0.N, t.val = (i 1).val / 8 := ⟨⟨(i 1).val / 8, by omega⟩, rfl⟩
  refine ⟨t, flush0_1 t, ?_⟩
  obtain ⟨-, -, -, e0, e1, e2, -⟩ := idx_facts t
  rw [copy_mem_blk]
  intro a
  match a with
  | ⟨0, _⟩ =>
    show win0_1.index t (0 : Fin 3) * 64 ≤ (i 0).val ∧ (i 0).val < win0_1.index t (0 : Fin 3) * 64 + 64
    omega
  | ⟨1, _⟩ =>
    show win0_1.index t (1 : Fin 3) * 8 ≤ (i 1).val ∧ (i 1).val < win0_1.index t (1 : Fin 3) * 8 + 8
    omega
  | ⟨2, _⟩ =>
    show win0_1.index t (2 : Fin 3) * 1024 ≤ (i 2).val ∧ (i 2).val < win0_1.index t (2 : Fin 3) * 1024 + 1024
    omega

theorem copy_final (c : Dev nD) : xbOut V c = xT V c :=
  (dat0 V c).arrAt_eq_of_cover 1 (xT V c) (fun t _ => copy_flushed V c t) copy_cover

theorem arr_xb (c : Dev nD) : actCM (xbOut V c) = actNM (x3 V c) := by
  rw [copy_final]
  rfl

abbrev accLast (c : Dev nD) : Vec Ideal S1x64x2 .f32 := (outsAt0 V c t0_15.val t0_15.isLt).2

theorem mom_flushed (c : Dev nD) (t : Fin cfg0.N) (hf : (cfg0.win 2).flush t = true) :
    (dat0 V c).flushed 2 t = ((cfg0.win 2).blk t).view.read (Elt Ideal) (accLast V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2]
  have hz' : (fun a => win0_2.index t0_15 a * main_v11_1.ty.shape.size a) = fun _ => 0 :=
    funext fun a => by fin_cases a <;> decide
  exact (Memref.read_access_unit_zero (Elt Ideal) main_v11_1 hz' (fun a => by rw [congrFun hz' a]; simp) (accLast V c)).symm

theorem mom_cover (i : S1x64x2.Idx) :
    ∃ t : Fin cfg0.N, (cfg0.win 2).flush t = true ∧ i ∈ ((cfg0.win 2).blk t).view.set := by
  refine ⟨t0_15, (flush0_2 t0_15).mpr rfl, ?_⟩
  show i ∈ ((View.whole main_v11_1).slice (win0_2.rect t0_15)).set
  rw [View.set_slice_whole, Rect.mem_set_unit]
  have h0 : (i 0).val < 1 := (i 0).isLt
  have h1 : (i 1).val < 64 := (i 1).isLt
  have h2 : (i 2).val < 2 := (i 2).isLt
  obtain ⟨-, -, -, -, -, -, e0, e1, e2⟩ := idx_facts t0_15
  intro a
  match a with
  | ⟨0, _⟩ =>
    show win0_2.index t0_15 (0 : Fin 3) * 1 ≤ (i 0).val ∧ (i 0).val < win0_2.index t0_15 (0 : Fin 3) * 1 + 1
    omega
  | ⟨1, _⟩ =>
    show win0_2.index t0_15 (1 : Fin 3) * 64 ≤ (i 1).val ∧ (i 1).val < win0_2.index t0_15 (1 : Fin 3) * 64 + 64
    omega
  | ⟨2, _⟩ =>
    show win0_2.index t0_15 (2 : Fin 3) * 2 ≤ (i 2).val ∧ (i 2).val < win0_2.index t0_15 (2 : Fin 3) * 2 + 2
    omega

theorem mom_final (c : Dev nD) : mOut V c = accLast V c :=
  (dat0 V c).arrAt_eq_of_cover 2 (accLast V c) (mom_flushed V c) mom_cover

theorem blocks_sum (c : Dev nD) (ch : Fin 64) :
    ∑ j ∈ Finset.range 16, blockSum V c ch j = sum1 (actNM (x3 V c)) ch := by
  unfold sum1
  rw [Cert.SpecAlg.sum_images_blocks, ← Cert.SpecAlg.sum_fin_eq_range 16 (blockSum V c ch)]
  refine Finset.sum_congr rfl fun j _ => ?_
  unfold blockSum
  rw [dif_pos j.isLt]
  rfl

theorem blocks_sq (c : Dev nD) (ch : Fin 64) :
    ∑ j ∈ Finset.range 16, blockSq V c ch j = sum2 (actNM (x3 V c)) ch := by
  unfold sum2
  rw [Cert.SpecAlg.sum_images_blocks, ← Cert.SpecAlg.sum_fin_eq_range 16 (blockSq V c ch)]
  refine Finset.sum_congr rfl fun j _ => ?_
  unfold blockSq
  rw [dif_pos j.isLt]
  rfl

theorem arr_m (c : Dev nD) (ch : Fin 64) :
    mom3 (mOut V c) 0 ch = sum1 (actNM (x3 V c)) ch ∧ mom3 (mOut V c) 1 ch = sum2 (actNM (x3 V c)) ch := by
  obtain ⟨s1, s2⟩ := acc_eq V c ch t0_15.val t0_15.isLt 0
  rw [mom_final]
  unfold mom3
  exact ⟨s1.trans (blocks_sum V c ch), s2.trans (blocks_sq V c ch)⟩

end Cert.K0

end
-- ==== Proof.KHost.lean ====
import proofs.«136216_g2000306190186476_pallasbulk_240_40_alg».proof.Proof.Gen.KernelIdeal.Launch
import proofs.«136216_g2000306190186476_pallasbulk_240_40_alg».proof.Proof.Views
import proofs.«136216_g2000306190186476_pallasbulk_240_40_alg».proof.Proof.Block
import Idealize.ShloMosaic.Lib.StableHlo.Predicate
import Idealize.ShloMosaic.Lib.Affine
import Mathlib.Data.EReal.Operations
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KHost

open Cert.KernelIdeal Cert.KernelIdeal.Gen Cert.Spec Cert.Views
open Idealize.ShloMosaic Idealize.ShloMosaic.TcCoe Idealize.ShloMosaic.ValueIdx Idealize.SL.Sem

variable (W : Valuation τ sig (Elt Ideal))

theorem h0_v0 :
    (StableHlo.after hostOps0 W (Proc.devRef .tc main_v0) : Vec Ideal S128x64x1024 .f32)
      = shapeCast (s := S128x64x32x32) S128x64x1024 (W (Proc.devRef .tc main_arg0) : Vec Ideal S128x64x32x32 .f32)
          shapeCasts_S128x64x32x32_S128x64x1024 := by
  show StableHlo.after hostOps0 W (Proc.devRef .tc main_v0) = _
  after_results
  all_goals rfl

theorem h_x3 :
    actNM (StableHlo.after hostOps0 W (Proc.devRef .tc main_v0) : Vec Ideal S128x64x1024 .f32)
      = fun n ch p => (W (Proc.devRef .tc main_arg0) : Vec Ideal S128x64x32x32 .f32)
          (ix4 n ch ⟨p.val / 32, by have := p.isLt; omega⟩ ⟨p.val % 32, by omega⟩) := by
  funext n ch p
  rw [h0_v0]
  unfold actNM
  refine shapeCast_apply (s := S128x64x32x32) _ _ _ _ ?_
  rw [Shape.rowMajor_val_four, Shape.rowMajor_val_three]
  show ((n.val * 64 + ch.val) * 32 + p.val / 32) * 32 + p.val % 32 = (n.val * 64 + ch.val) * 1024 + p.val
  omega

def remFix (io : IVec S1024 32) (c : IVec S_ 32) : IVec S1024 32 :=
  let d := select (cmpi .eq c (constantI S_ 32 0#32)) (constantI S_ 32 1#32) c
  let r := Host.remsi io (broadcastInDim S1024 ![] bcast_S_S1024 d)
  let z := broadcastInDim S1024 ![] bcast_S_S1024 (constantI S_ 32 0#32)
  select
    (andi (cmpi .ne (cmpi .slt r z) (broadcastInDim S1024 ![] bcast_S_S1024 (cmpi .slt d (constantI S_ 32 0#32))))
      (cmpi .ne r z))
    (addi r (broadcastInDim S1024 ![] bcast_S_S1024 d)) r

def geOne (cw : IVec S1024 32) : IVec S1024 1 :=
  cmpi .sge cw (broadcastInDim S1024 ![] bcast_S_S1024 (constantI S_ 32 1#32))
def leThirty (cw : IVec S1024 32) : IVec S1024 1 :=
  cmpi .sle cw (broadcastInDim S1024 ![] bcast_S_S1024 (constantI S_ 32 30#32))
def maskBits (cw : IVec S1024 32) : IVec S2x1024 1 :=
  concatenate S2x1024 0
    [⟨S1x1024, broadcastInDim S1x1024 ![1] bcast_S1024_S1x1024_1 (geOne cw)⟩,
     ⟨S1x1024, broadcastInDim S1x1024 ![1] bcast_S1024_S1x1024_1 (leThirty cw)⟩]
    concatenates_S1x1024_S1x1024_S2x1024_d0
def maskOf (cw : IVec S1024 32) : Vec Ideal S2x1024 .f32 := uitofp (F := Ideal) .f32 (maskBits cw)

theorem ofBuf_toBuf {Val : EltTy → Type} {T : BufTy} (x : StableHlo.TRef sig T) (v : T.Contents Val) :
    x.ofBuf (x.toBuf v) = v := by
  simp [StableHlo.TRef.ofBuf, StableHlo.TRef.toBuf]

theorem h0_v1 :
    (StableHlo.after hostOps0 W (Proc.devRef .tc main_v1) : IVec S1024 32) = iotaInDim S1024 32 0 := by
  show StableHlo.after hostOps0 W (Proc.devRef .tc main_v1) = _
  after_results
  all_goals rfl

theorem h0_c :
    (StableHlo.after hostOps0 W (Proc.devRef .tc main_c) : IVec S_ 32) = constantI S_ 32 32#32 := by
  show StableHlo.after hostOps0 W (Proc.devRef .tc main_c) = _
  after_results
  all_goals rfl

theorem h0_1_v2 :
    (StableHlo.after hostOps0_1 W (Proc.devRef .tc main_v2) : IVec S1024 32)
      = remFix (W (Proc.devRef .tc main_v1)) (W (Proc.devRef .tc main_c)) := by
  show StableHlo.after hostOps0_1 W (Proc.devRef .tc main_v2) = _
  after_results_simp
  simp only [ofBuf_toBuf]
  rfl

theorem h0_2_v10 :
    (StableHlo.after hostOps0_2 W (Proc.devRef .tc main_v10) : Vec Ideal S2x1024 .f32)
      = maskOf (W (Proc.devRef .tc main_v2)) := by
  show StableHlo.after hostOps0_2 W (Proc.devRef .tc main_v10) = _
  after_results
  all_goals rfl

def remFixW (x : BitVec 32) : BitVec 32 :=
  let d := Scalar.select (IntOp.cmpi .eq 32#32 0#32) 1#32 32#32
  let r := IntOp.remsi .host x d
  Scalar.select (IntOp.andi (IntOp.cmpi .ne (IntOp.cmpi .slt r 0#32) (IntOp.cmpi .slt d 0#32)) (IntOp.cmpi .ne r 0#32))
    (IntOp.addi r d) r

theorem remFix_iota_apply (p : Fin 1024) :
    remFix (iotaInDim S1024 32 0) (constantI S_ 32 32#32) (ix1 p) = remFixW (BitVec.ofNat 32 p.val) := rfl

theorem remFixW_small (n : ℕ) (hn : n < 2 ^ 31) : remFixW (BitVec.ofNat 32 n) = BitVec.ofNat 32 (n % 32) := by
  have hD : Scalar.select (IntOp.cmpi .eq 32#32 0#32) 1#32 32#32 = 32#32 := by decide
  have hx : (BitVec.ofNat 32 n).toNat = n := by rw [BitVec.toNat_ofNat]; omega
  have hR : IntOp.remsi .host (BitVec.ofNat 32 n) 32#32 = BitVec.ofNat 32 (n % 32) := by
    apply BitVec.eq_of_toNat_eq
    rw [IntOp.toNat_remsi .host (by rw [hx]; omega) 32 (by omega) (by omega), hx, BitVec.toNat_ofNat]
    omega
  have hm : (BitVec.ofNat 32 (n % 32)).toNat = n % 32 := by rw [BitVec.toNat_ofNat]; omega
  have h8 : IntOp.cmpi .slt (BitVec.ofNat 32 (n % 32)) 0#32 = 0#1 :=
    eq_zero_of_ne_one fun h => by
      have := (StableHlo.Predicate.slt_iff_toNat (a := BitVec.ofNat 32 (n % 32)) (b := 0#32) (by rw [hm]; omega) (by decide)).mp h
      simp at this
  have h9 : IntOp.cmpi .slt 32#32 0#32 = 0#1 := by decide
  have h11 : IntOp.cmpi .ne 0#1 0#1 = 0#1 := by decide
  have h12 : ∀ b : BitVec 1, IntOp.andi 0#1 b = 0#1 := by decide
  unfold remFixW
  dsimp only
  rw [hD, hR, h8, h9, h11, h12, select_zero]

theorem bit_toEReal (b : BitVec 1) (P : Prop) [Decidable P] (h : b = 1#1 ↔ P) :
    (((b.toNat : ℕ) : ℝ) : EReal) = if P then 1 else 0 := by
  by_cases hp : P
  · rw [if_pos hp, h.mpr hp]
    simp
  · rw [if_neg hp, eq_zero_of_ne_one fun hb => hp (h.mp hb)]
    simp

theorem maskBits_row0 (cw : IVec S1024 32) (p : Fin 1024) :
    maskBits cw (ix2 (0 : Fin 2) p) = IntOp.cmpi .sge (cw (ix1 p)) 1#32 := by
  unfold maskBits
  refine (concatenate_pair_apply_left (t := S2x1024) (s₁ := S1x1024) (s₂ := S1x1024) _ _ _ _ (ix2 (0 : Fin 2) p) rfl (ix2 (0 : Fin 1) p)
    (fun b => match b with | ⟨0, _⟩ => rfl | ⟨1, _⟩ => rfl)).trans ?_
  refine (broadcastInDim_apply _ _ _ _ (ix1 p) (fun a => match a with | ⟨0, _⟩ => rfl)).trans ?_
  rfl

theorem maskBits_row1 (cw : IVec S1024 32) (p : Fin 1024) :
    maskBits cw (ix2 (1 : Fin 2) p) = IntOp.cmpi .sle (cw (ix1 p)) 30#32 := by
  unfold maskBits
  refine (concatenate_pair_apply_right (t := S2x1024) (s₁ := S1x1024) (s₂ := S1x1024) _ _ _ _ (ix2 (1 : Fin 2) p) rfl rfl (ix2 (0 : Fin 1) p)
    (fun b => match b with | ⟨0, _⟩ => fun h => absurd rfl h | ⟨1, _⟩ => fun _ => rfl) rfl).trans ?_
  refine (broadcastInDim_apply _ _ _ _ (ix1 p) (fun a => match a with | ⟨0, _⟩ => rfl)).trans ?_
  rfl

theorem maskOf_apply (cw : IVec S1024 32) (m : ℕ) (hm : m < 2 ^ 31) (r : Fin 2) (p : Fin 1024)
    (hcw : cw (ix1 p) = BitVec.ofNat 32 m) :
    maskOf cw (ix2 r p) = if r.val = 0 then (if 1 ≤ m then (1 : EReal) else 0) else (if m ≤ 30 then (1 : EReal) else 0) := by
  have hmN : (BitVec.ofNat 32 m).toNat = m := by rw [BitVec.toNat_ofNat]; omega
  have h1 : (1#32 : BitVec 32).toNat = 1 := by decide
  have h30 : (30#32 : BitVec 32).toNat = 30 := by decide
  match r with
  | ⟨0, _⟩ =>
    show (((maskBits cw (ix2 (0 : Fin 2) p)).toNat : ℝ) : EReal) = if 1 ≤ m then (1 : EReal) else 0
    rw [maskBits_row0, hcw]
    exact bit_toEReal _ _ (by
      rw [StableHlo.Predicate.sge_iff_toNat (by rw [hmN]; omega) (by decide), hmN, h1])
  | ⟨1, _⟩ =>
    show (((maskBits cw (ix2 (1 : Fin 2) p)).toNat : ℝ) : EReal) = if m ≤ 30 then (1 : EReal) else 0
    rw [maskBits_row1, hcw]
    exact bit_toEReal _ _ (by
      rw [StableHlo.Predicate.sle_iff_toNat (by rw [hmN]; omega) (by decide), hmN, h30])

theorem h_mask :
    maskRows (StableHlo.after hostOps0_2 (StableHlo.after hostOps0_1 (StableHlo.after hostOps0 W))
        (Proc.devRef .tc main_v10) : Vec Ideal S2x1024 .f32) = Cert.Block.mask := by
  funext r p
  rw [h0_2_v10, h0_1_v2, h0_v1, h0_c]
  unfold maskRows
  exact maskOf_apply _ (p.val % 32) (by omega) r p
    (by rw [remFix_iota_apply, remFixW_small p.val (by have := p.isLt; omega)])

theorem h7_v42 :
    (StableHlo.after hostOps7 W (Proc.devRef .tc main_v42) : Vec Ideal S128x256x32x32 .f32)
      = shapeCast (s := S128x256x1024) S128x256x32x32 (W (Proc.devRef .tc main_v41) : Vec Ideal S128x256x1024 .f32)
          shapeCasts_S128x256x1024_S128x256x32x32 := by
  show StableHlo.after hostOps7 W (Proc.devRef .tc main_v42) = _
  after_results
  all_goals rfl

theorem h7_out (n : Fin 128) (ch : Fin 256) (y x : Fin 32) :
    (StableHlo.after hostOps7 W (Proc.devRef .tc main_v42) : Vec Ideal S128x256x32x32 .f32) (ix4 n ch y x)
      = (W (Proc.devRef .tc main_v41) : Vec Ideal S128x256x1024 .f32)
          (ix3 n ch ⟨y.val * 32 + x.val, by have := y.isLt; have := x.isLt; omega⟩) := by
  rw [h7_v42]
  refine shapeCast_apply (s := S128x256x1024) _ _ _ _ ?_
  rw [Shape.rowMajor_val_three, Shape.rowMajor_val_four]
  show (n.val * 256 + ch.val) * 1024 + (y.val * 32 + x.val) = ((n.val * 256 + ch.val) * 32 + y.val) * 32 + x.val
  omega

/-- Flattening the first three axes of (tap row, tap column, output, input) keeps row-major order, and the transposition only renames the axes. -/
theorem wTapMajor_pack {C : ℕ} (v : (⟨4, ![32, C, 3, 3]⟩ : Shape).Idx → EReal)
    (ht : (⟨4, ![32, C, 3, 3]⟩ : Shape).Transposes [2, 3, 0, 1] ⟨4, ![3, 3, 32, C]⟩)
    (hs : (⟨4, ![3, 3, 32, C]⟩ : Shape).ShapeCasts ⟨2, ![288, C]⟩) :
    wTapMajor (shapeCast ⟨2, ![288, C]⟩ (transpose ⟨4, ![3, 3, 32, C]⟩ [2, 3, 0, 1] v ht) hs) = wOIHW v := by
  funext o ci kh kw
  unfold wTapMajor wOIHW
  refine (shapeCast_apply (s := ⟨4, ![3, 3, 32, C]⟩) _ _ _ (ix4 kh kw o ci) ?_).trans ?_
  · rw [Shape.rowMajor_val_four, Shape.rowMajor_val_two]
    rfl
  · exact transpose_apply (s := ⟨4, ![32, C, 3, 3]⟩) _ _ _ _ (ix4 o ci kh kw) fun b =>
      match b with | ⟨0, _⟩ => rfl | ⟨1, _⟩ => rfl | ⟨2, _⟩ => rfl | ⟨3, _⟩ => rfl

/-- Adding a unit axis to a vector keeps every entry's position. -/
theorem col_cast {C : ℕ} (v : (⟨1, ![C]⟩ : Shape).Idx → EReal) (h : (⟨1, ![C]⟩ : Shape).ShapeCasts ⟨2, ![C, 1]⟩) :
    col (shapeCast ⟨2, ![C, 1]⟩ v h) = vec v := by
  funext c
  unfold col vec
  refine shapeCast_apply (s := ⟨1, ![C]⟩) _ _ _ (ix1 c) ?_
  rw [Shape.rowMajor_val_two, Shape.rowMajor_val_one]
  show c.val = c.val * 1 + 0
  omega

theorem h1_w : wTapMajor (StableHlo.after hostOps1 W (Proc.devRef .tc main_v13) : Vec Ideal S288x64 .f32)
    = wOIHW (W (Proc.devRef .tc main_arg3) : Vec Ideal S32x64x3x3 .f32) := by
  refine Eq.trans (congrArg wTapMajor ?_)
    (wTapMajor_pack _ transposes_S32x64x3x3_S3x3x32x64_2_3_0_1 shapeCasts_S3x3x32x64_S288x64)
  show StableHlo.after hostOps1 W (Proc.devRef .tc main_v13) = _
  after_results
  all_goals rfl

theorem h1_gam : col (StableHlo.after hostOps1 W (Proc.devRef .tc main_v14) : Vec Ideal S64x1 .f32)
    = vec (W (Proc.devRef .tc main_arg1) : Vec Ideal S64 .f32) := by
  refine Eq.trans (congrArg col ?_) (col_cast _ shapeCasts_S64_S64x1)
  show StableHlo.after hostOps1 W (Proc.devRef .tc main_v14) = _
  after_results
  all_goals rfl

theorem h1_bet : col (StableHlo.after hostOps1 W (Proc.devRef .tc main_v15) : Vec Ideal S64x1 .f32)
    = vec (W (Proc.devRef .tc main_arg2) : Vec Ideal S64 .f32) := by
  refine Eq.trans (congrArg col ?_) (col_cast _ shapeCasts_S64_S64x1)
  show StableHlo.after hostOps1 W (Proc.devRef .tc main_v15) = _
  after_results
  all_goals rfl

theorem h2_w : wTapMajor (StableHlo.after hostOps2 W (Proc.devRef .tc main_v18) : Vec Ideal S288x96 .f32)
    = wOIHW (W (Proc.devRef .tc main_arg6) : Vec Ideal S32x96x3x3 .f32) := by
  refine Eq.trans (congrArg wTapMajor ?_)
    (wTapMajor_pack _ transposes_S32x96x3x3_S3x3x32x96_2_3_0_1 shapeCasts_S3x3x32x96_S288x96)
  show StableHlo.after hostOps2 W (Proc.devRef .tc main_v18) = _
  after_results
  all_goals rfl

theorem h2_gam : col (StableHlo.after hostOps2 W (Proc.devRef .tc main_v19) : Vec Ideal S96x1 .f32)
    = vec (W (Proc.devRef .tc main_arg4) : Vec Ideal S96 .f32) := by
  refine Eq.trans (congrArg col ?_) (col_cast _ shapeCasts_S96_S96x1)
  show StableHlo.after hostOps2 W (Proc.devRef .tc main_v19) = _
  after_results
  all_goals rfl

theorem h2_bet : col (StableHlo.after hostOps2 W (Proc.devRef .tc main_v20) : Vec Ideal S96x1 .f32)
    = vec (W (Proc.devRef .tc main_arg5) : Vec Ideal S96 .f32) := by
  refine Eq.trans (congrArg col ?_) (col_cast _ shapeCasts_S96_S96x1)
  show StableHlo.after hostOps2 W (Proc.devRef .tc main_v20) = _
  after_results
  all_goals rfl

theorem h3_w : wTapMajor (StableHlo.after hostOps3 W (Proc.devRef .tc main_v23) : Vec Ideal S288x128 .f32)
    = wOIHW (W (Proc.devRef .tc main_arg9) : Vec Ideal S32x128x3x3 .f32) := by
  refine Eq.trans (congrArg wTapMajor ?_)
    (wTapMajor_pack _ transposes_S32x128x3x3_S3x3x32x128_2_3_0_1 shapeCasts_S3x3x32x128_S288x128)
  show StableHlo.after hostOps3 W (Proc.devRef .tc main_v23) = _
  after_results
  all_goals rfl

theorem h3_gam : col (StableHlo.after hostOps3 W (Proc.devRef .tc main_v24) : Vec Ideal S128x1 .f32)
    = vec (W (Proc.devRef .tc main_arg7) : Vec Ideal S128 .f32) := by
  refine Eq.trans (congrArg col ?_) (col_cast _ shapeCasts_S128_S128x1)
  show StableHlo.after hostOps3 W (Proc.devRef .tc main_v24) = _
  after_results
  all_goals rfl

theorem h3_bet : col (StableHlo.after hostOps3 W (Proc.devRef .tc main_v25) : Vec Ideal S128x1 .f32)
    = vec (W (Proc.devRef .tc main_arg8) : Vec Ideal S128 .f32) := by
  refine Eq.trans (congrArg col ?_) (col_cast _ shapeCasts_S128_S128x1)
  show StableHlo.after hostOps3 W (Proc.devRef .tc main_v25) = _
  after_results
  all_goals rfl

theorem h4_w : wTapMajor (StableHlo.after hostOps4 W (Proc.devRef .tc main_v28) : Vec Ideal S288x160 .f32)
    = wOIHW (W (Proc.devRef .tc main_arg12) : Vec Ideal S32x160x3x3 .f32) := by
  refine Eq.trans (congrArg wTapMajor ?_)
    (wTapMajor_pack _ transposes_S32x160x3x3_S3x3x32x160_2_3_0_1 shapeCasts_S3x3x32x160_S288x160)
  show StableHlo.after hostOps4 W (Proc.devRef .tc main_v28) = _
  after_results
  all_goals rfl

theorem h4_gam : col (StableHlo.after hostOps4 W (Proc.devRef .tc main_v29) : Vec Ideal S160x1 .f32)
    = vec (W (Proc.devRef .tc main_arg10) : Vec Ideal S160 .f32) := by
  refine Eq.trans (congrArg col ?_) (col_cast _ shapeCasts_S160_S160x1)
  show StableHlo.after hostOps4 W (Proc.devRef .tc main_v29) = _
  after_results
  all_goals rfl

theorem h4_bet : col (StableHlo.after hostOps4 W (Proc.devRef .tc main_v30) : Vec Ideal S160x1 .f32)
    = vec (W (Proc.devRef .tc main_arg11) : Vec Ideal S160 .f32) := by
  refine Eq.trans (congrArg col ?_) (col_cast _ shapeCasts_S160_S160x1)
  show StableHlo.after hostOps4 W (Proc.devRef .tc main_v30) = _
  after_results
  all_goals rfl

theorem h5_w : wTapMajor (StableHlo.after hostOps5 W (Proc.devRef .tc main_v33) : Vec Ideal S288x192 .f32)
    = wOIHW (W (Proc.devRef .tc main_arg15) : Vec Ideal S32x192x3x3 .f32) := by
  refine Eq.trans (congrArg wTapMajor ?_)
    (wTapMajor_pack _ transposes_S32x192x3x3_S3x3x32x192_2_3_0_1 shapeCasts_S3x3x32x192_S288x192)
  show StableHlo.after hostOps5 W (Proc.devRef .tc main_v33) = _
  after_results
  all_goals rfl

theorem h5_gam : col (StableHlo.after hostOps5 W (Proc.devRef .tc main_v34) : Vec Ideal S192x1 .f32)
    = vec (W (Proc.devRef .tc main_arg13) : Vec Ideal S192 .f32) := by
  refine Eq.trans (congrArg col ?_) (col_cast _ shapeCasts_S192_S192x1)
  show StableHlo.after hostOps5 W (Proc.devRef .tc main_v34) = _
  after_results
  all_goals rfl

theorem h5_bet : col (StableHlo.after hostOps5 W (Proc.devRef .tc main_v35) : Vec Ideal S192x1 .f32)
    = vec (W (Proc.devRef .tc main_arg14) : Vec Ideal S192 .f32) := by
  refine Eq.trans (congrArg col ?_) (col_cast _ shapeCasts_S192_S192x1)
  show StableHlo.after hostOps5 W (Proc.devRef .tc main_v35) = _
  after_results
  all_goals rfl

theorem h6_w : wTapMajor (StableHlo.after hostOps6 W (Proc.devRef .tc main_v38) : Vec Ideal S288x224 .f32)
    = wOIHW (W (Proc.devRef .tc main_arg18) : Vec Ideal S32x224x3x3 .f32) := by
  refine Eq.trans (congrArg wTapMajor ?_)
    (wTapMajor_pack _ transposes_S32x224x3x3_S3x3x32x224_2_3_0_1 shapeCasts_S3x3x32x224_S288x224)
  show StableHlo.after hostOps6 W (Proc.devRef .tc main_v38) = _
  after_results
  all_goals rfl

theorem h6_gam : col (StableHlo.after hostOps6 W (Proc.devRef .tc main_v39) : Vec Ideal S224x1 .f32)
    = vec (W (Proc.devRef .tc main_arg16) : Vec Ideal S224 .f32) := by
  refine Eq.trans (congrArg col ?_) (col_cast _ shapeCasts_S224_S224x1)
  show StableHlo.after hostOps6 W (Proc.devRef .tc main_v39) = _
  after_results
  all_goals rfl

theorem h6_bet : col (StableHlo.after hostOps6 W (Proc.devRef .tc main_v40) : Vec Ideal S224x1 .f32)
    = vec (W (Proc.devRef .tc main_arg17) : Vec Ideal S224 .f32) := by
  refine Eq.trans (congrArg col ?_) (col_cast _ shapeCasts_S224_S224x1)
  show StableHlo.after hostOps6 W (Proc.devRef .tc main_v40) = _
  after_results
  all_goals rfl

end Cert.KHost

end
-- ==== Proof.KThreadBase.lean ====
import proofs.«136216_g2000306190186476_pallasbulk_240_40_alg».proof.Proof.KThreadSteps
import proofs.«136216_g2000306190186476_pallasbulk_240_40_alg».proof.Proof.Block
import proofs.«136216_g2000306190186476_pallasbulk_240_40_alg».proof.Proof.BlockReal
import proofs.«136216_g2000306190186476_pallasbulk_240_40_alg».proof.Proof.SpecAlg
import proofs.«136216_g2000306190186476_pallasbulk_240_40_alg».proof.Proof.K0
import proofs.«136216_g2000306190186476_pallasbulk_240_40_alg».proof.Proof.KHost

set_option maxRecDepth 16384

noncomputable section

namespace Cert.KThread

open Cert.KernelIdeal Cert.KernelIdeal.Gen Cert.KernelIdeal.GenP Cert.Spec Cert.Views Cert.Block Cert.Alg Cert.SpecAlg
open Idealize.ShloMosaic Idealize.ShloMosaic.TcCoe Idealize.ShloMosaic.ValueIdx Idealize.SL.Sem

/-- A tensor with its two moment vectors. -/
abbrev Tri (C : ℕ) := Act C × (Fin C → EReal) × (Fin C → EReal)
abbrev tri {C : ℕ} (y : (⟨3, ![C, 128, 1024]⟩ : Shape).Idx → EReal) (q : (⟨3, ![1, C, 2]⟩ : Shape).Idx → EReal) : Tri C :=
  (actCM y, mom3 q 0, mom3 q 1)
abbrev triApp {C : ℕ} (s : Tri C) (t : Tri 32) : Tri (C + 32) := (appendCh s.1 t.1, appendV s.2.1 t.2.1, appendV s.2.2 t.2.2)
/-- The triple is `X` with the moments of `X` itself. -/
abbrev IsTri {C : ℕ} (t : Tri C) (X : Act C) : Prop := t.1 = X ∧ t.2.1 = sum1 X ∧ t.2.2 = sum2 X

/-- The moments of channels appended are the moments appended. -/
theorem isTri_app {C : ℕ} {s : Tri C} {t : Tri 32} {X : Act C} {Y : Act 32} (hs : IsTri s X) (ht : IsTri t Y) :
    IsTri (triApp s t) (appendCh X Y) :=
  ⟨congrArg₂ appendCh hs.1 ht.1, (congrArg₂ appendV hs.2.1 ht.2.1).trans (sum1_appendCh X Y).symm,
    (congrArg₂ appendV hs.2.2 ht.2.2).trans (sum2_appendCh X Y).symm⟩

/-- What a region says of its two output arrays, read as a triple. -/
theorem tri_of_out {C : ℕ} {y y' : (⟨3, ![C, 128, 1024]⟩ : Shape).Idx → EReal} {q q' : (⟨3, ![1, C, 2]⟩ : Shape).Idx → EReal}
    {Ys Y : Act C} (ey : y = y') (eq : q = q') (hy : actCM y' = Ys)
    (hq : ∀ o, mom3 q' 0 o = sum1 Ys o ∧ mom3 q' 1 o = sum2 Ys o) (hY : Ys = Y) : IsTri (tri y q) Y := by
  subst ey eq hY
  exact ⟨hy, funext fun o => (hq o).1, funext fun o => (hq o).2⟩

/-- With the moments those of the input itself the normalisation is the batch normalisation, and on real data the two arrangements of the convolution agree. -/
theorem layer_of_specs {C : ℕ} {wv : Fin 32 → Fin C → Fin 3 → Fin 3 → EReal} {mv : Fin 2 → Fin 1024 → EReal}
    {gv bv s1 s2 : Fin C → EReal} {Xv X : Act C} {Aw aw : (⟨4, ![32, C, 3, 3]⟩ : Shape).Idx → EReal}
    {Ag ag Ab ab : (⟨1, ![C]⟩ : Shape).Idx → EReal}
    (hw : wv = wOIHW Aw) (ew : Aw = aw) (hg : gv = vec Ag) (eg : Ag = ag) (hb : bv = vec Ab) (eb : Ab = ab)
    (hm : mv = mask) (hX : Xv = X ∧ s1 = sum1 X ∧ s2 = sum2 X)
    (rw_ : ∀ i, IsReal (aw i)) (rg : ∀ i, IsReal (ag i)) (rb : ∀ i, IsReal (ab i)) (rX : ∀ n c p, IsReal (X n c p)) :
    convTaps wv mv (bnreluM gv bv s1 s2 Xv) = layerOut (vec ag) (vec ab) (wOIHW aw) mask X := by
  obtain ⟨hX, h1, h2⟩ := hX
  subst hw ew hg eg hb eb hm hX h1 h2
  show convTaps _ mask (bnrelu _ _ Xv) = convCols _ mask (bnrelu _ _ Xv)
  exact convTaps_eq_convCols _ _ _ (fun _ _ _ _ => rw_ _) isReal_mask
    (isReal_bnrelu _ _ _ (fun _ => rg _) (fun _ => rb _) rX)

variable (m : (ℓ : Loc nD τ sig) → Buf (Elt Ideal) ℓ) (ρ : Dev nD → PrngReg)

/-- The buffers of core `c` at boundary `n` of the run. -/
def Wn (c : Dev nD) : ℕ → Valuation τ sig (Elt Ideal)
  | 0 => W0 m ρ c | 1 => W1 m ρ c | 2 => W2 m ρ c | 3 => W3 m ρ c | 4 => W4 m ρ c | 5 => W5 m ρ c
  | 6 => W6 m ρ c | 7 => W7 m ρ c | 8 => W8 m ρ c | 9 => W9 m ρ c | 10 => W10 m ρ c | 11 => W11 m ρ c
  | 12 => W12 m ρ c | 13 => W13 m ρ c | 14 => W14 m ρ c | 15 => W15 m ρ c | 16 => W16 m ρ c | _ => W17 m ρ c

/-- What the step into boundary `n` writes. -/
def wr : ℕ → List (Ref sig .tc)
  | 1 => hostW0 | 2 => hostW0_1 | 3 => hostW0_2 | 4 => [main_v11_0, main_v11_1] | 5 => hostW1
  | 6 => [main_v16_0, main_v16_1] | 7 => hostW2 | 8 => [main_v21_0, main_v21_1] | 9 => hostW3
  | 10 => [main_v26_0, main_v26_1] | 11 => hostW4 | 12 => [main_v31_0, main_v31_1] | 13 => hostW5
  | 14 => [main_v36_0, main_v36_1] | 15 => hostW6 | 16 => [main_v41] | 17 => hostW7 | _ => []

set_option maxHeartbeats 1000000 in
theorem Wn_step (c : Dev nD) (r : Ref sig .tc) (n : ℕ) (hn : n < 17) (h : r ∉ wr (n + 1)) :
    Wn m ρ c (n + 1) (Proc.devRef .tc r) = Wn m ρ c n (Proc.devRef .tc r) := by
  have hc : n = 0 ∨ n = 1 ∨ n = 2 ∨ n = 3 ∨ n = 4 ∨ n = 5 ∨ n = 6 ∨ n = 7 ∨ n = 8 ∨ n = 9 ∨ n = 10 ∨ n = 11 ∨
      n = 12 ∨ n = 13 ∨ n = 14 ∨ n = 15 ∨ n = 16 := by omega
  rcases hc with rfl | rfl | rfl | rfl | rfl | rfl | rfl | rfl | rfl | rfl | rfl | rfl | rfl | rfl | rfl | rfl | rfl
  · exact host0_keeps _ r h
  · exact host0_1_keeps _ r h
  · exact host0_2_keeps _ r h
  · exact W4_step m ρ c r h
  · exact host1_keeps _ r h
  · exact W6_step m ρ c r h
  · exact host2_keeps _ r h
  · exact W8_step m ρ c r h
  · exact host3_keeps _ r h
  · exact W10_step m ρ c r h
  · exact host4_keeps _ r h
  · exact W12_step m ρ c r h
  · exact host5_keeps _ r h
  · exact W14_step m ρ c r h
  · exact host6_keeps _ r h
  · exact W16_step m ρ c r h
  · exact host7_keeps _ r h

/-- A buffer no step after boundary `a` writes holds at every later boundary what it held at `a`. -/
theorem kept (c : Dev nD) (r : Ref sig .tc) (a : ℕ) (h : ∀ i, i < 17 → a ≤ i → r ∉ wr (i + 1)) (n : ℕ) (han : a ≤ n)
    (hn : n ≤ 17) : Wn m ρ c n (Proc.devRef .tc r) = Wn m ρ c a (Proc.devRef .tc r) := by
  obtain ⟨d, rfl⟩ := Nat.exists_eq_add_of_le han
  induction d with
  | zero => rfl
  | succ d ih =>
    exact (Wn_step m ρ c r (a + d) (by omega) (h (a + d) (by omega) (by omega))).trans (ih (by omega) (by omega))

/-- An argument array, which no step writes, holds the launch memory throughout. -/
theorem arg_at (c : Dev nD) (r : Ref sig .tc) (h : ∀ i, i < 17 → r ∉ wr (i + 1)) (n : ℕ) (hn : n ≤ 17) :
    Wn m ρ c n (Proc.devRef .tc r) = m ((c : Thread nD τ).loc r) :=
  kept m ρ c r 0 (fun i hi _ => h i hi) n n.zero_le hn

def args (c : Dev nD) : Args where
  x  := (m ((c : Thread nD τ).loc main_arg0) : Vec Ideal S128x64x32x32 .f32)
  g0 := (m ((c : Thread nD τ).loc main_arg1) : Vec Ideal S64 .f32)
  b0 := (m ((c : Thread nD τ).loc main_arg2) : Vec Ideal S64 .f32)
  w0 := (m ((c : Thread nD τ).loc main_arg3) : Vec Ideal S32x64x3x3 .f32)
  g1 := (m ((c : Thread nD τ).loc main_arg4) : Vec Ideal S96 .f32)
  b1 := (m ((c : Thread nD τ).loc main_arg5) : Vec Ideal S96 .f32)
  w1 := (m ((c : Thread nD τ).loc main_arg6) : Vec Ideal S32x96x3x3 .f32)
  g2 := (m ((c : Thread nD τ).loc main_arg7) : Vec Ideal S128 .f32)
  b2 := (m ((c : Thread nD τ).loc main_arg8) : Vec Ideal S128 .f32)
  w2 := (m ((c : Thread nD τ).loc main_arg9) : Vec Ideal S32x128x3x3 .f32)
  g3 := (m ((c : Thread nD τ).loc main_arg10) : Vec Ideal S160 .f32)
  b3 := (m ((c : Thread nD τ).loc main_arg11) : Vec Ideal S160 .f32)
  w3 := (m ((c : Thread nD τ).loc main_arg12) : Vec Ideal S32x160x3x3 .f32)
  g4 := (m ((c : Thread nD τ).loc main_arg13) : Vec Ideal S192 .f32)
  b4 := (m ((c : Thread nD τ).loc main_arg14) : Vec Ideal S192 .f32)
  w4 := (m ((c : Thread nD τ).loc main_arg15) : Vec Ideal S32x192x3x3 .f32)
  g5 := (m ((c : Thread nD τ).loc main_arg16) : Vec Ideal S224 .f32)
  b5 := (m ((c : Thread nD τ).loc main_arg17) : Vec Ideal S224 .f32)
  w5 := (m ((c : Thread nD τ).loc main_arg18) : Vec Ideal S32x224x3x3 .f32)

/-- The mask table, built before the first region and never written again. -/
theorem mask_at (c : Dev nD) (n : ℕ) (h : 3 ≤ n) (hn : n ≤ 17) :
    maskRows (Wn m ρ c n (Proc.devRef .tc main_v10) : Vec Ideal S2x1024 .f32) = mask := by
  rw [kept m ρ c main_v10 3 (by decide) n h hn]
  exact Cert.KHost.h_mask (W0 m ρ c)

theorem W3_x (c : Dev nD) :
    actNM (W3 m ρ c (Proc.devRef .tc main_v0) : Vec Ideal S128x64x1024 .f32) = X0 (args m c) := by
  have e : W3 m ρ c (Proc.devRef .tc main_v0) = W1 m ρ c (Proc.devRef .tc main_v0) :=
    kept m ρ c main_v0 1 (by decide) 3 (by decide) (by decide)
  rw [e]
  exact Cert.KHost.h_x3 (W0 m ρ c)

/-- Part `j` (a region's two output arrays) as the buffers hold it at boundary `n`, and the parts up to `k` appended. -/
abbrev prt0 (c : Dev nD) (n : ℕ) : Tri 64 :=
  tri (Wn m ρ c n (Proc.devRef .tc main_v11_0)) (Wn m ρ c n (Proc.devRef .tc main_v11_1))
abbrev prt1 (c : Dev nD) (n : ℕ) : Tri 32 :=
  tri (Wn m ρ c n (Proc.devRef .tc main_v16_0)) (Wn m ρ c n (Proc.devRef .tc main_v16_1))
abbrev prt2 (c : Dev nD) (n : ℕ) : Tri 32 :=
  tri (Wn m ρ c n (Proc.devRef .tc main_v21_0)) (Wn m ρ c n (Proc.devRef .tc main_v21_1))
abbrev prt3 (c : Dev nD) (n : ℕ) : Tri 32 :=
  tri (Wn m ρ c n (Proc.devRef .tc main_v26_0)) (Wn m ρ c n (Proc.devRef .tc main_v26_1))
abbrev prt4 (c : Dev nD) (n : ℕ) : Tri 32 :=
  tri (Wn m ρ c n (Proc.devRef .tc main_v31_0)) (Wn m ρ c n (Proc.devRef .tc main_v31_1))
abbrev prt5 (c : Dev nD) (n : ℕ) : Tri 32 :=
  tri (Wn m ρ c n (Proc.devRef .tc main_v36_0)) (Wn m ρ c n (Proc.devRef .tc main_v36_1))
abbrev acc1 (c : Dev nD) (n : ℕ) := triApp (prt0 m ρ c n) (prt1 m ρ c n)
abbrev acc2 (c : Dev nD) (n : ℕ) := triApp (acc1 m ρ c n) (prt2 m ρ c n)
abbrev acc3 (c : Dev nD) (n : ℕ) := triApp (acc2 m ρ c n) (prt3 m ρ c n)
abbrev acc4 (c : Dev nD) (n : ℕ) := triApp (acc3 m ρ c n) (prt4 m ρ c n)
abbrev acc5 (c : Dev nD) (n : ℕ) := triApp (acc4 m ρ c n) (prt5 m ρ c n)

/-- The prologue region leaves the input channel-major with its moments, and no later step writes them. -/
theorem in0 (c : Dev nD) (n : ℕ) (h : 4 ≤ n) (hn : n ≤ 17) : IsTri (prt0 m ρ c n) (X0 (args m c)) :=
  tri_of_out ((kept m ρ c main_v11_0 4 (by decide) n h hn).trans (W4_arr m ρ c 1))
    ((kept m ρ c main_v11_1 4 (by decide) n h hn).trans (W4_arr m ρ c 2)) (Cert.K0.arr_xb (V3 m ρ) c)
    (Cert.K0.arr_m (V3 m ρ) c) (W3_x m ρ c)

end Cert.KThread

end
-- ==== Proof.ConvRows.lean ====
import proofs.«136216_g2000306190186476_pallasbulk_240_40_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic
import Mathlib.Tactic.Ring
import Mathlib.Tactic.Linarith

noncomputable section

namespace Cert.ConvRows

open Cert.Spec Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- Indices with equal coordinates read the same entry. -/
theorem at_congr {s : Shape} {α : Type} (f : s.Idx → α) {i j : s.Idx} (h : ∀ a, (i a).val = (j a).val) : f i = f j :=
  congrArg f (funext fun a => Fin.ext (h a))

/-- The body loads the first C of a slab's 256 channels, -/
theorem ld_chan {C : ℕ} (X : Vec Ideal ⟨3, ![1, 256, 1024]⟩ .f32) (inb) (ci : Fin C) (q : Fin 1024) (ch : Fin 256)
    (hch : ch.val = ci.val) :
    View.ld X (Rect.unit (s := ⟨3, ![1, 256, 1024]⟩) ![0, 0, 0] (⟨3, ![1, C, 1024]⟩ : Shape).size inb) (ix3 (0 : Fin 1) ci q)
      = X (ix3 (0 : Fin 1) ch q) :=
  at_congr X fun a => by
    match a with
    | ⟨0, _⟩ => rfl
    | ⟨1, _⟩ => show 0 + 1 * ci.val = ch.val; omega
    | ⟨2, _⟩ => show 0 + 1 * q.val = q.val; omega

/-- and a row of the two-row mask table by itself. -/
theorem ld_row (M : Vec Ideal ⟨2, ![2, 1024]⟩ .f32) (o : ℕ) (inb) (p : Fin 1024) (r : Fin 2) (hr : r.val = o) :
    View.ld M (Rect.unit (s := ⟨2, ![2, 1024]⟩) ![o, 0] (⟨2, ![1, 1024]⟩ : Shape).size inb) (ix2 (0 : Fin 1) p) = M (ix2 r p) :=
  at_congr M fun a => by
    match a with
    | ⟨0, _⟩ => show o + 1 * 0 = r.val; omega
    | ⟨1, _⟩ => show 0 + 1 * p.val = p.val; omega

/-- A row of 1024 pixels between two runs of 33 zeros, read at a position of the 1090. -/
def padRow (f : Fin 1024 → EReal) (q : Fin 1090) : EReal :=
  if h : 33 ≤ q.val ∧ q.val < 1057 then f ⟨q.val - 33, by omega⟩ else 0

/-- Position o + p of the padded row is pixel p + (o − 33) of the row, or zero off the row. -/
theorem padRow_eq_shiftRead (f : Fin 1024 → EReal) (o : ℕ) (p : Fin 1024) (q : Fin 1090) (hq : q.val = o + p.val) :
    padRow f q = shiftRead f ((o : ℤ) - 33) p := by
  unfold padRow shiftRead
  by_cases h : 33 ≤ q.val ∧ q.val < 1057
  · have h' : 0 ≤ (p.val : ℤ) + ((o : ℤ) - 33) ∧ (p.val : ℤ) + ((o : ℤ) - 33) < 1024 := by omega
    rw [dif_pos h, dif_pos h']
    exact congrArg f (Fin.ext (by show q.val - 33 = ((p.val : ℤ) + ((o : ℤ) - 33)).toNat; omega))
  · have h' : ¬(0 ≤ (p.val : ℤ) + ((o : ℤ) - 33) ∧ (p.val : ℤ) + ((o : ℤ) - 33) < 1024) := by omega
    rw [dif_neg h, dif_neg h']

theorem padRow_tap (f : Fin 1024 → EReal) (kh kw : Fin 3) (p : Fin 1024) (q : Fin 1090)
    (hq : q.val = kh.val * 32 + kw.val + p.val) : padRow f q = shiftRead f (tapOff kh kw) p := by
  rw [show tapOff kh kw = ((kh.val * 32 + kw.val : ℕ) : ℤ) - 33 by unfold tapOff; push_cast; ring]
  exact padRow_eq_shiftRead f _ p q hq

theorem tapchan_lt {C : ℕ} (kh kw : Fin 3) (ci : Fin C) : (kh.val * 3 + kw.val) * C + ci.val < 9 * C := by
  have h1 := kh.isLt; have h2 := kw.isLt; have h3 := ci.isLt
  have : kh.val * 3 + kw.val ≤ 8 := by omega
  nlinarith

/-- The 9 · C rows of the stack are indexed by tap and, within a tap, by channel. -/
theorem sum_tap_chan {C : ℕ} (F : Fin (9 * C) → EReal) :
    ∑ k : Fin (9 * C), F k
      = ∑ kh : Fin 3, ∑ kw : Fin 3, ∑ ci : Fin C, F ⟨(kh.val * 3 + kw.val) * C + ci.val, tapchan_lt kh kw ci⟩ := by
  rw [← (finProdFinEquiv (m := 9) (n := C)).sum_comp, Fintype.sum_prod_type]
  rw [← (finProdFinEquiv (m := 3) (n := 3)).sum_comp (fun t : Fin 9 => ∑ ci : Fin C, F (finProdFinEquiv (t, ci))),
    Fintype.sum_prod_type]
  refine Finset.sum_congr rfl fun kh _ => Finset.sum_congr rfl fun kw _ => Finset.sum_congr rfl fun ci _ => ?_
  refine congrArg F (Fin.ext ?_)
  simp only [finProdFinEquiv_apply_val]
  ring

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product of an M × K by a K × N matrix into zeros, at (o, p): row o against column p. -/
theorem mm_apply {M K N : ℕ} (L : FVec Ideal ⟨2, ![M, K]⟩ .f32) (R : FVec Ideal ⟨2, ![K, N]⟩ .f32) (o : Fin M) (p : Fin N) :
    matmul (DotDims.plain M K N) none L R (constant (F := Ideal) ⟨2, ![M, N]⟩ .f32 0x00000000#32) (ix2 o p)
      = ∑ k : Fin K, L (ix2 o k) * R (ix2 k p) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 o p) ((contrEquiv1 (DotDims.plain M K N) K rfl rfl).symm k) = ix2 o k :=
    funext fun a => Fin.ext (by
      match a with
      | ⟨0, _⟩ => rfl
      | ⟨1, _⟩ => exact ((DotDims.plain M K N).lhsIdx_val_of_single rfl _ _).trans hk)
  have er : (DotDims.plain M K N).rhsIdx (ix2 o p) ((contrEquiv1 (DotDims.plain M K N) K rfl rfl).symm k) = ix2 k p :=
    funext fun a => Fin.ext (by
      match a with
      | ⟨0, _⟩ => exact ((DotDims.plain M K N).rhsIdx_val_of_single rfl _ _).trans hk
      | ⟨1, _⟩ => rfl)
  rw [el, er]

/-- The shape facts of a convolution body of C input channels that depend on C. -/
structure Ev (C : ℕ) : Prop where
  x : (⟨3, ![1, C, 1024]⟩ : Shape).ShapeCasts ⟨2, ![C, 1024]⟩
  col : (⟨2, ![C, 1]⟩ : Shape).Broadcasts ⟨2, ![C, 1024]⟩
  row : (⟨2, ![1, 1024]⟩ : Shape).Broadcasts ⟨2, ![C, 1024]⟩
  pad : Shape.Concatenates [⟨2, ![C, 33]⟩, ⟨2, ![C, 1024]⟩, ⟨2, ![C, 33]⟩] ⟨2, ![C, 1090]⟩ 1
  stack : Shape.Concatenates (List.replicate 9 ⟨2, ![C, 1024]⟩) ⟨2, ![9 * C, 1024]⟩ 0

theorem slices (C o : ℕ) (ho : o ≤ 66) : (⟨2, ![C, 1090]⟩ : Shape).Slices ![0, o] ⟨2, ![C, 1024]⟩ :=
  ⟨rfl, fun a => by
    match a with
    | ⟨0, _⟩ => exact Nat.le_of_eq (Nat.zero_add C)
    | ⟨1, _⟩ => show o + 1024 ≤ 1090; omega⟩

section Body

variable {C : ℕ} (e : Ev C) (x0 : FVec Ideal ⟨3, ![1, C, 1024]⟩ .f32) (sc sh : FVec Ideal ⟨2, ![C, 1]⟩ .f32)
  (m0 m1 : FVec Ideal ⟨2, ![1, 1024]⟩ .f32) (w : FVec Ideal ⟨2, ![32, 9 * C]⟩ .f32) (a : FVec Ideal ⟨2, ![C, 1024]⟩ .f32)
  (P : FVec Ideal ⟨2, ![C, 1090]⟩ .f32)

/-- The image's input, scaled, shifted and rectified, channel by pixel. -/
def act : FVec Ideal ⟨2, ![C, 1024]⟩ .f32 :=
  maximumf
    (addf (mulf (shapeCast ⟨2, ![C, 1024]⟩ x0 e.x) (broadcastTo ⟨2, ![C, 1024]⟩ (shapeCast ⟨2, ![C, 1]⟩ sc rfl) e.col))
      (broadcastTo ⟨2, ![C, 1024]⟩ (shapeCast ⟨2, ![C, 1]⟩ sh rfl) e.col))
    (broadcast ⟨2, ![C, 1024]⟩ (Scalar.ofBits (F := Ideal) .f32 0x00000000#32))

/-- Each channel's row between two runs of 33 zero columns. -/
def padded : FVec Ideal ⟨2, ![C, 1090]⟩ .f32 :=
  concatenate ⟨2, ![C, 1090]⟩ 1
    [⟨⟨2, ![C, 33]⟩, broadcast ⟨2, ![C, 33]⟩ (Scalar.ofBits (F := Ideal) .f32 0x00000000#32)⟩, ⟨⟨2, ![C, 1024]⟩, a⟩,
      ⟨⟨2, ![C, 33]⟩, broadcast ⟨2, ![C, 33]⟩ (Scalar.ofBits (F := Ideal) .f32 0x00000000#32)⟩] e.pad

/-- Tap (kh, kw)'s window of the padded rows: the 1024 columns from kh · 32 + kw. -/
def cut (kh kw : Fin 3) : FVec Ideal ⟨2, ![C, 1024]⟩ .f32 :=
  extractStridedSlice ⟨2, ![C, 1024]⟩ ![0, kh.val * 32 + kw.val] P (slices C _ (by have := kh.isLt; have := kw.isLt; omega))

/-- A mask row laid over every channel. -/
def over (m : FVec Ideal ⟨2, ![1, 1024]⟩ .f32) : FVec Ideal ⟨2, ![C, 1024]⟩ .f32 :=
  broadcastTo ⟨2, ![C, 1024]⟩ (shapeCast ⟨2, ![1, 1024]⟩ m rfl) e.row

/-- The window with the mask of its stencil column: row 0 on the left, row 1 on the right, none in the middle. -/
def win (kh kw : Fin 3) : FVec Ideal ⟨2, ![C, 1024]⟩ .f32 :=
  if kw.val = 0 then mulf (cut P kh kw) (over e m0) else if kw.val = 2 then mulf (cut P kh kw) (over e m1) else cut P kh kw

/-- The nine windows stacked on the row axis, tap kh · 3 + kw at rows (kh · 3 + kw) · C on. -/
def cols : FVec Ideal ⟨2, ![9 * C, 1024]⟩ .f32 :=
  concatenate ⟨2, ![9 * C, 1024]⟩ 0
    (List.ofFn fun k : Fin 9 => ⟨⟨2, ![C, 1024]⟩, win e m0 m1 P ⟨k.val / 3, by omega⟩ ⟨k.val % 3, by omega⟩⟩) e.stack

/-- What the body stores: the packed weights times the stack. -/
def pay : FVec Ideal ⟨3, ![1, 32, 1024]⟩ .f32 :=
  shapeCast ⟨3, ![1, 32, 1024]⟩
    (matmul (DotDims.plain 32 (9 * C) 1024) none (shapeCast ⟨2, ![32, 9 * C]⟩ w rfl) (cols e m0 m1 (padded e (act e x0 sc sh)))
      (constant (F := Ideal) ⟨2, ![32, 1024]⟩ .f32 0x00000000#32)) (by decide)

theorem act_apply (ci : Fin C) (q : Fin 1024) :
    act e x0 sc sh (ix2 ci q)
      = max (x0 (ix3 (0 : Fin 1) ci q) * sc (ix2 ci (0 : Fin 1)) + sh (ix2 ci (0 : Fin 1))) 0 := by
  unfold act
  rw [maximumf_apply, addf_apply, mulf_apply, shapeCast_1ab_ab_apply, broadcastTo_a1_ab_apply, broadcastTo_a1_ab_apply,
    shapeCast_self, shapeCast_self, broadcast_apply]
  show max _ (Ideal.ofBits .f32 0x00000000#32) = _
  rw [Ideal.ofBits_zero_f32]

theorem padded_apply (ci : Fin C) (q : Fin 1090) : padded e a (ix2 ci q) = padRow (fun p => a (ix2 ci p)) q := by
  unfold padded padRow
  have hz : (Scalar.ofBits (F := Ideal) .f32 0x00000000#32 : EReal) = 0 := Ideal.ofBits_zero_f32
  by_cases h1 : q.val < 33
  · rw [dif_neg (by omega)]
    refine Eq.trans (concatenate_apply_piece (1 : Fin 2) _ _ (ix2 ci q) 0 (by show (0 : ℕ) < 3; omega) ⟨2, ![C, 33]⟩ _ rfl rfl 0 rfl
      (ix2 ci ⟨q.val, h1⟩) (fun b hb => by match b with | ⟨0, _⟩ => rfl | ⟨1, _⟩ => exact absurd rfl hb)
      (by show 0 + q.val = q.val; omega)) ?_
    exact hz
  · by_cases h2 : q.val < 1057
    · rw [dif_pos ⟨by omega, h2⟩]
      exact concatenate_apply_piece (1 : Fin 2) _ _ (ix2 ci q) 1 (by show (1 : ℕ) < 3; omega) ⟨2, ![C, 1024]⟩ _ rfl rfl 33 rfl
        (ix2 ci ⟨q.val - 33, by omega⟩) (fun b hb => by match b with | ⟨0, _⟩ => rfl | ⟨1, _⟩ => exact absurd rfl hb)
        (by show 33 + (q.val - 33) = q.val; omega)
    · rw [dif_neg (by omega)]
      refine Eq.trans (concatenate_apply_piece (1 : Fin 2) _ _ (ix2 ci q) 2 (by show (2 : ℕ) < 3; omega) ⟨2, ![C, 33]⟩ _ rfl rfl 1057 rfl
        (ix2 ci ⟨q.val - 1057, by have := q.isLt; omega⟩)
        (fun b hb => by match b with | ⟨0, _⟩ => rfl | ⟨1, _⟩ => exact absurd rfl hb)
        (by show 1057 + (q.val - 1057) = q.val; omega)) ?_
      exact hz

/-- Rows k · C on of the stack are tap k's masked window. -/
theorem cols_apply (k : Fin 9) (ci : Fin C) (p : Fin 1024) (r : Fin (9 * C)) (hr : r.val = k.val * C + ci.val) :
    cols e m0 m1 P (ix2 r p) = win e m0 m1 P ⟨k.val / 3, by omega⟩ ⟨k.val % 3, by omega⟩ (ix2 ci p) :=
  concatenate_ofFn_apply (t := ⟨2, ![9 * C, 1024]⟩) (s₁ := ⟨2, ![C, 1024]⟩) (0 : Fin 2)
    (fun k : Fin 9 => win e m0 m1 P ⟨k.val / 3, by omega⟩ ⟨k.val % 3, by omega⟩) e.stack rfl C rfl (ix2 r p) k
    (by show r.val / C = k.val
        rw [hr, Nat.add_comm, Nat.add_mul_div_right _ _ ci.pos, Nat.div_eq_of_lt ci.isLt, Nat.zero_add])
    (ix2 ci p)
    (by show ci.val = r.val % C
        rw [hr, Nat.add_comm, Nat.add_mul_mod_self_right, Nat.mod_eq_of_lt ci.isLt])
    (fun b hb => by
      match b with
      | ⟨0, _⟩ => exact absurd rfl hb
      | ⟨1, _⟩ => rfl)

variable (A : Fin C → Fin 1024 → EReal) (wm : Fin 2 → Fin 1024 → EReal) (W : Fin 32 → Fin C → Fin 3 → Fin 3 → EReal)
  (hA : ∀ (ci : Fin C) (q : Fin 1024),
    max (x0 (ix3 (0 : Fin 1) ci q) * sc (ix2 ci (0 : Fin 1)) + sh (ix2 ci (0 : Fin 1))) 0 = A ci q)
  (h0 : ∀ p : Fin 1024, m0 (ix2 (0 : Fin 1) p) = wm 0 p) (h1 : ∀ p : Fin 1024, m1 (ix2 (0 : Fin 1) p) = wm 1 p)
include hA h0 h1

/-- A tap's masked window of the rectified rows is the specification's shifted read times the tap's mask. -/
theorem win_apply (kh kw : Fin 3) (ci : Fin C) (p : Fin 1024) :
    win e m0 m1 (padded e (act e x0 sc sh)) kh kw (ix2 ci p) = shiftRead (A ci) (tapOff kh kw) p * tapMask wm kw p := by
  have hs : cut (padded e (act e x0 sc sh)) kh kw (ix2 ci p) = shiftRead (A ci) (tapOff kh kw) p := by
    unfold cut
    rw [slice2_axis1_apply _ _ _ ci p ⟨kh.val * 32 + kw.val + p.val, by have := kh.isLt; have := kw.isLt; omega⟩ rfl,
      padded_apply, padRow_tap _ kh kw p _ rfl]
    exact congrArg (fun f => shiftRead f (tapOff kh kw) p) (funext fun q => (act_apply e x0 sc sh ci q).trans (hA ci q))
  unfold win tapMask over
  by_cases hl : kw.val = 0
  · rw [if_pos hl, if_pos hl, mulf_apply, hs, broadcastTo_1b_ab_apply, shapeCast_self, h0]
  · rw [if_neg hl, if_neg hl]
    by_cases hr : kw.val = 2
    · rw [if_pos hr, if_pos hr, mulf_apply, hs, broadcastTo_1b_ab_apply, shapeCast_self, h1]
    · rw [if_neg hr, if_neg hr, hs, mul_one]

/-- The stored value at output channel o and pixel p is the convolution's sum over taps and channels. -/
theorem pay_apply
    (hW : ∀ (o : Fin 32) (ci : Fin C) (kh kw : Fin 3), w (ix2 o ⟨(kh.val * 3 + kw.val) * C + ci.val, tapchan_lt kh kw ci⟩) = W o ci kh kw)
    (u : Fin 1) (o : Fin 32) (p : Fin 1024) :
    pay e x0 sc sh m0 m1 w (ix3 u o p)
      = ∑ kh : Fin 3, ∑ kw : Fin 3, ∑ ci : Fin C, W o ci kh kw * (shiftRead (A ci) (tapOff kh kw) p * tapMask wm kw p) := by
  unfold pay
  rw [shapeCast_ab_1ab_apply, mm_apply, sum_tap_chan]
  refine Finset.sum_congr rfl fun kh _ => Finset.sum_congr rfl fun kw _ => Finset.sum_congr rfl fun ci _ => ?_
  have hh := kh.isLt; have hw := kw.isLt
  rw [shapeCast_self, hW, cols_apply e m0 m1 _ ⟨kh.val * 3 + kw.val, by omega⟩ ci p _ rfl,
    show (⟨(kh.val * 3 + kw.val) / 3, by omega⟩ : Fin 3) = kh from Fin.ext (by show (kh.val * 3 + kw.val) / 3 = kh.val; omega),
    show (⟨(kh.val * 3 + kw.val) % 3, by omega⟩ : Fin 3) = kw from Fin.ext (by show (kh.val * 3 + kw.val) % 3 = kw.val; omega),
    win_apply e x0 sc sh m0 m1 A wm hA h0 h1]

end Body

end Cert.ConvRows

end
-- ==== Proof.K2Layout.lean ====
import proofs.«136216_g2000306190186476_pallasbulk_240_40_alg».proof.Proof.Gen.KernelIdeal.Skeleton
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

set_option maxRecDepth 16384

noncomputable section

namespace Cert.K2

open Cert.KernelIdeal Cert.KernelIdeal.Gen Idealize.ShloMosaic Idealize.ShloMosaic.ValueIdx Idealize.SL.Sem

theorem rsqrt_apply {s : Shape} {φ : FTy} (a : FVec Ideal s φ) (i : s.Idx) : rsqrt a i = Ideal.rsqrt (a i) := rfl

theorem slab_apply (r0 : ℕ) (hr : r0 + 32 ≤ 288) (Z : FVec Ideal S288x8x1024 .f32)
    (hs : S288x8x1024.Slices ![r0, 0, 0] S32x8x1024) (o : Fin 32) (b : Fin 8) (q : Fin 1024) :
    extractStridedSlice S32x8x1024 ![r0, 0, 0] Z hs (ix3 o b q) = Z (ix3 ⟨r0 + o.val, by omega⟩ b q) :=
  extractStridedSlice_apply _ _ _ _ _ (fun ax => by
    match ax with
    | ⟨0, _⟩ => rfl
    | ⟨1, _⟩ => exact (Nat.zero_add _).symm
    | ⟨2, _⟩ => exact (Nat.zero_add _).symm)

theorem padL_apply {n m : ℕ} (hnm : n + m = 1024) (X : FVec Ideal S32x8x1024 .f32)
    (hs : S32x8x1024.Slices ![0, 0, 0] ⟨3, ![32, 8, m]⟩)
    (hc : Shape.Concatenates [⟨3, ![32, 8, n]⟩, ⟨3, ![32, 8, m]⟩] S32x8x1024 2)
    (z : Ideal .f32) (o : Fin 32) (b : Fin 8) (p : Fin 1024) :
    concatenate S32x8x1024 2 [⟨⟨3, ![32, 8, n]⟩, broadcast ⟨3, ![32, 8, n]⟩ z⟩,
        ⟨⟨3, ![32, 8, m]⟩, extractStridedSlice ⟨3, ![32, 8, m]⟩ ![0, 0, 0] X hs⟩] hc (ix3 o b p)
      = if h : n ≤ p.val then X (ix3 o b ⟨p.val - n, by omega⟩) else z := by
  by_cases h : n ≤ p.val
  · rw [dif_pos h]
    refine (concatenate_pair_apply_right (t := S32x8x1024) (s₁ := ⟨3, ![32, 8, n]⟩) (s₂ := ⟨3, ![32, 8, m]⟩) (2 : Fin 3) _ _ hc (ix3 o b p) rfl rfl
      (ix3 o b (⟨p.val - n, by have := p.isLt; omega⟩ : Fin m)) (fun b' hb => ?_) ?_).trans ?_
    · match b' with
      | ⟨0, _⟩ => rfl
      | ⟨1, _⟩ => rfl
      | ⟨2, _⟩ => exact absurd rfl hb
    · show p.val - n + n = p.val
      omega
    · exact extractStridedSlice_apply _ _ _ _ _ (fun ax => by
        match ax with
        | ⟨0, _⟩ => exact (Nat.zero_add _).symm
        | ⟨1, _⟩ => exact (Nat.zero_add _).symm
        | ⟨2, _⟩ => exact (Nat.zero_add _).symm)
  · rw [dif_neg h]
    exact concatenate_pair_apply_left (t := S32x8x1024) (s₁ := ⟨3, ![32, 8, n]⟩) (s₂ := ⟨3, ![32, 8, m]⟩) (2 : Fin 3) _ _ hc (ix3 o b p) rfl
      (ix3 o b (⟨p.val, by omega⟩ : Fin n)) (fun b' => by
        match b' with
        | ⟨0, _⟩ => rfl
        | ⟨1, _⟩ => rfl
        | ⟨2, _⟩ => rfl)

theorem padR_apply {n m : ℕ} (hnm : n + m = 1024) (X : FVec Ideal S32x8x1024 .f32)
    (hs : S32x8x1024.Slices ![0, 0, n] ⟨3, ![32, 8, m]⟩)
    (hc : Shape.Concatenates [⟨3, ![32, 8, m]⟩, ⟨3, ![32, 8, n]⟩] S32x8x1024 2)
    (z : Ideal .f32) (o : Fin 32) (b : Fin 8) (p : Fin 1024) :
    concatenate S32x8x1024 2 [⟨⟨3, ![32, 8, m]⟩, extractStridedSlice ⟨3, ![32, 8, m]⟩ ![0, 0, n] X hs⟩,
        ⟨⟨3, ![32, 8, n]⟩, broadcast ⟨3, ![32, 8, n]⟩ z⟩] hc (ix3 o b p)
      = if h : p.val + n < 1024 then X (ix3 o b ⟨p.val + n, h⟩) else z := by
  by_cases h : p.val + n < 1024
  · rw [dif_pos h]
    refine (concatenate_pair_apply_left (t := S32x8x1024) (s₁ := ⟨3, ![32, 8, m]⟩) (s₂ := ⟨3, ![32, 8, n]⟩) (2 : Fin 3) _ _ hc (ix3 o b p) rfl
      (ix3 o b (⟨p.val, by omega⟩ : Fin m)) (fun b' => by
        match b' with
        | ⟨0, _⟩ => rfl
        | ⟨1, _⟩ => rfl
        | ⟨2, _⟩ => rfl)).trans ?_
    exact extractStridedSlice_apply _ _ _ _ _ (fun ax => by
      match ax with
      | ⟨0, _⟩ => exact (Nat.zero_add _).symm
      | ⟨1, _⟩ => exact (Nat.zero_add _).symm
      | ⟨2, _⟩ => exact Nat.add_comm _ _)
  · rw [dif_neg h]
    exact concatenate_pair_apply_right (t := S32x8x1024) (s₁ := ⟨3, ![32, 8, m]⟩) (s₂ := ⟨3, ![32, 8, n]⟩) (2 : Fin 3) _ _ hc (ix3 o b p) rfl rfl
      (ix3 o b (⟨p.val - m, by have := p.isLt; omega⟩ : Fin n)) (fun b' hb => by
        match b' with
        | ⟨0, _⟩ => rfl
        | ⟨1, _⟩ => rfl
        | ⟨2, _⟩ => exact absurd rfl hb) (by
        show p.val - m + m = p.val
        omega)

theorem maskRow_apply (v : FVec Ideal S1x1024 .f32) (h1 : S1x1024.ShapeCasts S1x1x1024)
    (h2 : S1x1x1024.Broadcasts S32x8x1024) (o : Fin 32) (b : Fin 8) (p : Fin 1024) :
    broadcastTo S32x8x1024 (shapeCast S1x1x1024 v h1) h2 (ix3 o b p) = v (ix2 (0 : Fin 1) p) := by
  refine (broadcastTo_apply _ h2 (ix3 o b p) (ix3 (0 : Fin 1) (0 : Fin 1) p) (fun ax => ?_)).trans ?_
  · match ax with
    | ⟨0, _⟩ => rfl
    | ⟨1, _⟩ => rfl
    | ⟨2, _⟩ => rfl
  · exact shapeCast_ab_1ab_apply v h1 (0 : Fin 1) (0 : Fin 1) p

theorem chanCol_apply {C : ℕ} (v : FVec Ideal ⟨2, ![C, 1]⟩ .f32) (h1 : (⟨2, ![C, 1]⟩ : Shape).ShapeCasts ⟨3, ![C, 1, 1]⟩)
    (h2 : (⟨3, ![C, 1, 1]⟩ : Shape).Broadcasts ⟨3, ![C, 8, 1024]⟩) (c : Fin C) (b : Fin 8) (q : Fin 1024) :
    broadcastTo ⟨3, ![C, 8, 1024]⟩ (shapeCast ⟨3, ![C, 1, 1]⟩ v h1) h2 (ix3 c b q) = v (ix2 c (0 : Fin 1)) := by
  refine (broadcastTo_apply _ h2 (ix3 c b q) (ix3 c (0 : Fin 1) (0 : Fin 1)) (fun ax => ?_)).trans ?_
  · match ax with
    | ⟨0, _⟩ =>
      show c.val = if C = 1 then 0 else c.val
      split
      · have := c.isLt; omega
      · rfl
    | ⟨1, _⟩ => rfl
    | ⟨2, _⟩ => rfl
  · refine shapeCast_apply v h1 _ _ ?_
    rw [Shape.rowMajor_val_two, Shape.rowMajor_val_three]
    show c.val * 1 + 0 = (c.val * 1 + 0) * 1 + 0
    omega

theorem momCol_apply {C : ℕ} (k : ℕ) (hk : k < 2) (v : Vec Ideal ⟨3, ![1, C, 2]⟩ .f32)
    (h1 : (⟨3, ![1, C, 2]⟩ : Shape).ShapeCasts ⟨2, ![C, 2]⟩) (h2 : (⟨2, ![C, 2]⟩ : Shape).Slices ![0, k] ⟨2, ![C, 1]⟩)
    (c : Fin C) :
    extractStridedSlice ⟨2, ![C, 1]⟩ ![0, k] (shapeCast ⟨2, ![C, 2]⟩ v h1) h2 (ix2 c (0 : Fin 1))
      = v (ix3 (0 : Fin 1) c (⟨k, hk⟩ : Fin 2)) :=
  (slice2_axis1_apply k _ h2 c (0 : Fin 1) (⟨k, hk⟩ : Fin 2) rfl).trans (shapeCast_1ab_ab_apply v h1 c ⟨k, hk⟩)

theorem ldCol_apply {R : ℕ} (r0 : ℕ) (hr : r0 + R ≤ 96) (X : Vec Ideal S96x1 .f32)
    (inb : ∀ a, (![r0, 0] : Fin 2 → Nat) a + (⟨2, ![R, 1]⟩ : Shape).size a ≤ S96x1.size a) (c : Fin R) :
    View.ld X (Rect.unit (s := S96x1) ![r0, 0] (⟨2, ![R, 1]⟩ : Shape).size inb) (ix2 c (0 : Fin 1))
      = X (ix2 (⟨r0 + c.val, by have := c.isLt; omega⟩ : Fin 96) (0 : Fin 1)) := by
  show X _ = X _
  refine congrArg X (funext fun a => Fin.ext ?_)
  match a with
  | ⟨0, _⟩ => show r0 + 1 * c.val = r0 + c.val; omega
  | ⟨1, _⟩ => rfl

theorem ldRow_apply (r : ℕ) (hr : r < 2) (X : Vec Ideal S2x1024 .f32)
    (inb : ∀ a, (![r, 0] : Fin 2 → Nat) a + S1x1024.size a ≤ S2x1024.size a) (p : Fin 1024) :
    View.ld X (Rect.unit (s := S2x1024) ![r, 0] S1x1024.size inb) (ix2 (0 : Fin 1) p)
      = X (ix2 (⟨r, hr⟩ : Fin 2) p) := by
  show X _ = X _
  refine congrArg X (funext fun a => Fin.ext ?_)
  match a with
  | ⟨0, _⟩ => show r + 1 * 0 = r; omega
  | ⟨1, _⟩ => show 0 + 1 * p.val = p.val; omega

theorem joinCh_apply (A0 : FVec Ideal S64x8x1024 .f32) (A1 : FVec Ideal S32x8x1024 .f32)
    (hc : Shape.Concatenates [S64x8x1024, S32x8x1024] S96x8x1024 0) (k : Fin 96) (b : Fin 8) (q : Fin 1024) :
    concatenate S96x8x1024 0 [⟨S64x8x1024, A0⟩, ⟨S32x8x1024, A1⟩] hc (ix3 k b q)
      = if h : k.val < 64 then A0 (ix3 ⟨k.val, h⟩ b q) else A1 (ix3 ⟨k.val - 64, by have := k.isLt; omega⟩ b q) := by
  by_cases h : k.val < 64
  · rw [dif_pos h]
    exact concatenate_pair_apply_left (t := S96x8x1024) (s₁ := S64x8x1024) (s₂ := S32x8x1024) (0 : Fin 3) _ _ hc (ix3 k b q) rfl (ix3 (⟨k.val, h⟩ : Fin 64) b q) (fun b' => by
      match b' with
      | ⟨0, _⟩ => rfl
      | ⟨1, _⟩ => rfl
      | ⟨2, _⟩ => rfl)
  · rw [dif_neg h]
    exact concatenate_pair_apply_right (t := S96x8x1024) (s₁ := S64x8x1024) (s₂ := S32x8x1024) (0 : Fin 3) _ _ hc (ix3 k b q) rfl rfl
      (ix3 (⟨k.val - 64, by have := k.isLt; omega⟩ : Fin 32) b q) (fun b' hb => by
        match b' with
        | ⟨0, _⟩ => exact absurd rfl hb
        | ⟨1, _⟩ => rfl
        | ⟨2, _⟩ => rfl) (by
        show k.val - 64 + 64 = k.val
        omega)

theorem flat_apply (A : FVec Ideal S96x8x1024 .f32) (h : S96x8x1024.ShapeCasts S96x8192) (k : Fin 96) (b : Fin 8)
    (q : Fin 1024) :
    shapeCast S96x8192 A h (ix2 k (⟨b.val * 1024 + q.val, by have := b.isLt; have := q.isLt; omega⟩ : Fin 8192))
      = A (ix3 k b q) := by
  refine shapeCast_apply A h _ _ ?_
  rw [Shape.rowMajor_val_two, Shape.rowMajor_val_three]
  show (k.val * 8 + b.val) * 1024 + q.val = k.val * 8192 + (b.val * 1024 + q.val)
  omega

theorem unflat_apply (Z : FVec Ideal S288x8192 .f32) (h : S288x8192.ShapeCasts S288x8x1024) (r : Fin 288) (b : Fin 8)
    (q : Fin 1024) :
    shapeCast S288x8x1024 Z h (ix3 r b q)
      = Z (ix2 r (⟨b.val * 1024 + q.val, by have := b.isLt; have := q.isLt; omega⟩ : Fin 8192)) := by
  refine shapeCast_apply Z h _ _ ?_
  rw [Shape.rowMajor_val_two, Shape.rowMajor_val_three]
  show r.val * 8192 + (b.val * 1024 + q.val) = (r.val * 8 + b.val) * 1024 + q.val
  omega

theorem sumPix_apply (v : FVec Ideal S32x8x1024 .f32) (h : S32x8x1024.Reduces [2] S32x8) (hφ : FKind.Formats .f32)
    (hacc : (0x00000000#32 : BitVec 32) = FKind.add.neutral .f32 hφ) (o : Fin 32) (b : Fin 8) :
    multiReduction .add [2] S32x8 v 0x00000000#32 h hφ hacc (ix2 o b) = ∑ q : Fin 1024, v (ix3 o b q) := by
  refine (Ideal.multiReduction_add_single v _ h hφ hacc (ix2 o b)).trans ?_
  refine Finset.sum_congr rfl fun q _ => congrArg v (funext fun ax => Fin.ext ?_)
  match ax with
  | ⟨0, _⟩ => rfl
  | ⟨1, _⟩ => rfl
  | ⟨2, _⟩ => rfl

theorem sumImg_apply (v : FVec Ideal S32x8x1 .f32) (h : S32x8x1.Reduces [1] S32x1) (hφ : FKind.Formats .f32)
    (hacc : (0x00000000#32 : BitVec 32) = FKind.add.neutral .f32 hφ) (o : Fin 32) :
    multiReduction .add [1] S32x1 v 0x00000000#32 h hφ hacc (ix2 o (0 : Fin 1)) = ∑ b : Fin 8, v (ix3 o b (0 : Fin 1)) := by
  refine (Ideal.multiReduction_add_single v _ h hφ hacc (ix2 o (0 : Fin 1))).trans ?_
  refine Finset.sum_congr rfl fun b _ => congrArg v (funext fun ax => Fin.ext ?_)
  match ax with
  | ⟨0, _⟩ => rfl
  | ⟨1, _⟩ => rfl
  | ⟨2, _⟩ => rfl

theorem sumAll_apply (v : FVec Ideal S32x8x1024 .f32) (h2 : S32x8x1024.Reduces [2] S32x8) (hc : S32x8.ShapeCasts S32x8x1)
    (h1 : S32x8x1.Reduces [1] S32x1) (hφ : FKind.Formats .f32)
    (hacc : (0x00000000#32 : BitVec 32) = FKind.add.neutral .f32 hφ) (o : Fin 32) :
    multiReduction .add [1] S32x1 (shapeCast S32x8x1 (multiReduction .add [2] S32x8 v 0x00000000#32 h2 hφ hacc) hc)
        0x00000000#32 h1 hφ hacc (ix2 o (0 : Fin 1))
      = ∑ b : Fin 8, ∑ q : Fin 1024, v (ix3 o b q) := by
  refine (sumImg_apply _ h1 hφ hacc o).trans (Finset.sum_congr rfl fun b _ => ?_)
  refine (shapeCast_apply _ hc (ix3 o b (0 : Fin 1)) (ix2 o b) ?_).trans (sumPix_apply v h2 hφ hacc o b)
  rw [Shape.rowMajor_val_two, Shape.rowMajor_val_three]
  show o.val * 8 + b.val = (o.val * 8 + b.val) * 1 + 0
  omega

theorem momPair_apply (u w : FVec Ideal S32x1 .f32) (hc : Shape.Concatenates [S32x1, S32x1] S32x2 1) (o : Fin 32) :
    concatenate S32x2 1 [⟨S32x1, u⟩, ⟨S32x1, w⟩] hc (ix2 o (0 : Fin 2)) = u (ix2 o (0 : Fin 1))
    ∧ concatenate S32x2 1 [⟨S32x1, u⟩, ⟨S32x1, w⟩] hc (ix2 o (1 : Fin 2)) = w (ix2 o (0 : Fin 1)) := by
  constructor
  · exact concatenate_pair_apply_left (t := S32x2) (s₁ := S32x1) (s₂ := S32x1) (1 : Fin 2) _ _ hc (ix2 o (0 : Fin 2)) rfl (ix2 o (0 : Fin 1)) (fun b' => by
      match b' with
      | ⟨0, _⟩ => rfl
      | ⟨1, _⟩ => rfl)
  · exact concatenate_pair_apply_right (t := S32x2) (s₁ := S32x1) (s₂ := S32x1) (1 : Fin 2) _ _ hc (ix2 o (1 : Fin 2)) rfl rfl (ix2 o (0 : Fin 1)) (fun b' hb => by
      match b' with
      | ⟨0, _⟩ => rfl
      | ⟨1, _⟩ => exact absurd rfl hb) rfl

end Cert.K2

end
-- ==== Proof.K2Body.lean ====
import proofs.«136216_g2000306190186476_pallasbulk_240_40_alg».proof.Proof.K2Layout
import proofs.«136216_g2000306190186476_pallasbulk_240_40_alg».proof.Proof.Views
import proofs.«136216_g2000306190186476_pallasbulk_240_40_alg».proof.Proof.ConvRows

set_option maxRecDepth 16384

noncomputable section

namespace Cert.K2

open Cert.KernelIdeal Cert.KernelIdeal.Gen Cert.Spec Cert.Views Idealize.ShloMosaic Idealize.ShloMosaic.ValueIdx Idealize.SL.Sem

def bnRow {C : ℕ} (g b s1 s2 : Fin C → EReal) (x : Fin C → Fin 1024 → EReal) : Fin C → Fin 1024 → EReal := fun c q =>
  max (x c q * scaleOf (g c) (s1 c) (s2 c) + shiftOf (g c) (b c) (s1 c) (s2 c)) 0

def convRow {C : ℕ} (w : Fin 32 → Fin C → Fin 3 → Fin 3 → EReal) (wm : Fin 2 → Fin 1024 → EReal)
    (a : Fin C → Fin 1024 → EReal) (o : Fin 32) (p : Fin 1024) : EReal :=
  ∑ kh : Fin 3, ∑ kw : Fin 3, shiftRead (fun q => ∑ ci : Fin C, w o ci kh kw * a ci q) (tapOff kh kw) p * tapMask wm kw p

theorem convTaps_bnreluM_row {C : ℕ} (w : Fin 32 → Fin C → Fin 3 → Fin 3 → EReal) (wm : Fin 2 → Fin 1024 → EReal)
    (g b s1 s2 : Fin C → EReal) (X : Act C) (n : Fin 128) (o : Fin 32) (p : Fin 1024) :
    convTaps w wm (bnreluM g b s1 s2 X) n o p = convRow w wm (bnRow g b s1 s2 (X n)) o p := rfl

section Rows
variable (x0 : Vec Ideal S64x8x1024 .bf16) (x1 : Vec Ideal S32x8x1024 .bf16) (x2 : Vec Ideal S1x64x2 .f32)
  (x3 : Vec Ideal S1x32x2 .f32) (x4 x5 : Vec Ideal S96x1 .f32) (x6 : Vec Ideal S2x1024 .f32) (x7 : Vec Ideal S288x96 .f32)

def xrow (b : Fin 8) : Fin 96 → Fin 1024 → EReal :=
  fun k q => if h : k.val < 64 then x0 (ix3 (⟨k.val, h⟩ : Fin 64) b q)
    else x1 (ix3 (⟨k.val - 64, by have := k.isLt; omega⟩ : Fin 32) b q)

def arow
    (b : Fin 8) : Fin 96 → Fin 1024 → EReal :=
  bnRow (col x4) (col x5) (appendV (mom3 x2 0) (mom3 x3 0)) (appendV (mom3 x2 1) (mom3 x3 1)) (xrow x0 x1 b)

theorem arow_lo
    (b : Fin 8) (k : Fin 96) (h : k.val < 64) (q : Fin 1024) :
    arow x0 x1 x2 x3 x4 x5 b k q
      = max (x0 (ix3 (⟨k.val, h⟩ : Fin 64) b q)
            * scaleOf (x4 (ix2 k (0 : Fin 1))) (x2 (ix3 (0 : Fin 1) (⟨k.val, h⟩ : Fin 64) (0 : Fin 2)))
                (x2 (ix3 (0 : Fin 1) (⟨k.val, h⟩ : Fin 64) (1 : Fin 2)))
          + shiftOf (x4 (ix2 k (0 : Fin 1))) (x5 (ix2 k (0 : Fin 1))) (x2 (ix3 (0 : Fin 1) (⟨k.val, h⟩ : Fin 64) (0 : Fin 2)))
                (x2 (ix3 (0 : Fin 1) (⟨k.val, h⟩ : Fin 64) (1 : Fin 2)))) 0 := by
  unfold arow bnRow xrow appendV
  rw [dif_pos h, dif_pos h, dif_pos h]
  rfl

theorem arow_hi
    (b : Fin 8) (k : Fin 96) (h : ¬k.val < 64) (q : Fin 1024) :
    arow x0 x1 x2 x3 x4 x5 b k q
      = max (x1 (ix3 (⟨k.val - 64, by have := k.isLt; omega⟩ : Fin 32) b q)
            * scaleOf (x4 (ix2 k (0 : Fin 1)))
                (x3 (ix3 (0 : Fin 1) (⟨k.val - 64, by have := k.isLt; omega⟩ : Fin 32) (0 : Fin 2)))
                (x3 (ix3 (0 : Fin 1) (⟨k.val - 64, by have := k.isLt; omega⟩ : Fin 32) (1 : Fin 2)))
          + shiftOf (x4 (ix2 k (0 : Fin 1))) (x5 (ix2 k (0 : Fin 1)))
                (x3 (ix3 (0 : Fin 1) (⟨k.val - 64, by have := k.isLt; omega⟩ : Fin 32) (0 : Fin 2)))
                (x3 (ix3 (0 : Fin 1) (⟨k.val - 64, by have := k.isLt; omega⟩ : Fin 32) (1 : Fin 2)))) 0 := by
  unfold arow bnRow xrow appendV
  rw [dif_neg h, dif_neg h, dif_neg h]
  rfl

theorem act0_apply
    (b : Fin 8) (k : Fin 96) (h : k.val < 64) (q : Fin 1024) :
    k2_pay3 (F := Ideal) x2 (View.ld x4 (Rect.unit (s := S96x1) ![0, 0] S64x1.size inb_S96x1_S64x1_0_0))
        (View.ld x5 (Rect.unit (s := S96x1) ![0, 0] S64x1.size inb_S96x1_S64x1_0_0)) x0 (ix3 (⟨k.val, h⟩ : Fin 64) b q)
      = arow x0 x1 x2 x3 x4 x5 b k q := by
  have e : ∀ X : Vec Ideal S96x1 .f32,
      View.ld X (Rect.unit (s := S96x1) ![0, 0] S64x1.size inb_S96x1_S64x1_0_0) (ix2 (⟨k.val, h⟩ : Fin 64) (0 : Fin 1))
        = X (ix2 k (0 : Fin 1)) := fun X =>
    (ldCol_apply 0 (by omega) X inb_S96x1_S64x1_0_0 (⟨k.val, h⟩ : Fin 64)).trans (congrArg X (funext fun a => Fin.ext (by
      match a with
      | ⟨0, _⟩ => exact Nat.zero_add _
      | ⟨1, _⟩ => rfl)))
  rw [arow_lo x0 x1 x2 x3 x4 x5 b k h q]
  unfold k2_pay3
  simp only [maximumf_apply, addf_apply, mulf_apply, subf_apply, broadcast_apply, extf_apply, rsqrt_apply, shapeCast_self,
    chanCol_apply, momCol_apply 0 (by decide), momCol_apply 1 (by decide), Ideal.ofBits_def, Ideal.ofBits_zero_f32]
  rw [e x4, e x5]
  rfl

theorem zrow_apply
    (r : Fin 288) (b : Fin 8) (q : Fin 1024) :
    k2_pay8 (F := Ideal)
        (k2_pay3 x2 (View.ld x4 (Rect.unit (s := S96x1) ![0, 0] S64x1.size inb_S96x1_S64x1_0_0))
          (View.ld x5 (Rect.unit (s := S96x1) ![0, 0] S64x1.size inb_S96x1_S64x1_0_0)) x0)
        (k2_pay5 x3) (k2_pay6 x3) (k2_pay7 x3)
        (View.ld x4 (Rect.unit (s := S96x1) ![64, 0] S32x1.size inb_S96x1_S32x1_64_0))
        (View.ld x5 (Rect.unit (s := S96x1) ![64, 0] S32x1.size inb_S96x1_S32x1_64_0)) x1 x7 (ix3 r b q)
      = ∑ k : Fin 96, x7 (ix2 r k) * arow x0 x1 x2 x3 x4 x5 b k q := by
  unfold k2_pay8
  refine (unflat_apply _ _ r b q).trans ?_
  refine (Cert.ConvRows.mm_apply _ _ r _).trans ?_
  refine Finset.sum_congr rfl fun k _ => ?_
  refine congrArg₂ (· * ·) (congrFun (shapeCast_self x7 _) (ix2 r k)) ?_
  refine (flat_apply _ _ k b q).trans ?_
  refine (joinCh_apply _ _ _ k b q).trans ?_
  by_cases h : k.val < 64
  · rw [dif_pos h]
    exact act0_apply x0 x1 x2 x3 x4 x5 b k h q
  · rw [dif_neg h, arow_hi x0 x1 x2 x3 x4 x5 b k h q]
    have e : ∀ X : Vec Ideal S96x1 .f32,
        View.ld X (Rect.unit (s := S96x1) ![64, 0] S32x1.size inb_S96x1_S32x1_64_0)
            (ix2 (⟨k.val - 64, by have := k.isLt; omega⟩ : Fin 32) (0 : Fin 1))
          = X (ix2 k (0 : Fin 1)) := fun X =>
      (ldCol_apply 64 (by omega) X inb_S96x1_S32x1_64_0 (⟨k.val - 64, by have := k.isLt; omega⟩ : Fin 32)).trans
        (congrArg X (funext fun a => Fin.ext (by
          match a with
          | ⟨0, _⟩ => show 64 + (k.val - 64) = k.val; omega
          | ⟨1, _⟩ => rfl)))
    unfold k2_pay5 k2_pay6 k2_pay7 k2_pay5 k2_pay4
    simp only [maximumf_apply, addf_apply, mulf_apply, subf_apply, broadcast_apply, extf_apply, rsqrt_apply, shapeCast_self,
      chanCol_apply, momCol_apply 0 (by decide), momCol_apply 1 (by decide), Ideal.ofBits_def, Ideal.ofBits_zero_f32]
    rw [e x4, e x5]
    rfl

theorem shiftRead_neg (f : Fin 1024 → EReal) (n : ℕ) (p : Fin 1024) :
    shiftRead f (-(n : ℤ)) p = if h : n ≤ p.val then f ⟨p.val - n, by have := p.isLt; omega⟩ else 0 := by
  unfold shiftRead
  by_cases h : n ≤ p.val
  · rw [dif_pos h, dif_pos (show 0 ≤ (p.val : ℤ) + -(n : ℤ) ∧ (p.val : ℤ) + -(n : ℤ) < 1024 by have := p.isLt; omega)]
    refine congrArg f (Fin.ext ?_)
    show ((p.val : ℤ) + -(n : ℤ)).toNat = p.val - n
    omega
  · rw [dif_neg h, dif_neg (show ¬(0 ≤ (p.val : ℤ) + -(n : ℤ) ∧ (p.val : ℤ) + -(n : ℤ) < 1024) by omega)]

theorem shiftRead_pos (f : Fin 1024 → EReal) (n : ℕ) (p : Fin 1024) :
    shiftRead f (n : ℤ) p = if h : p.val + n < 1024 then f ⟨p.val + n, h⟩ else 0 := by
  unfold shiftRead
  by_cases h : p.val + n < 1024
  · rw [dif_pos h, dif_pos (show 0 ≤ (p.val : ℤ) + (n : ℤ) ∧ (p.val : ℤ) + (n : ℤ) < 1024 by omega)]
    refine congrArg f (Fin.ext ?_)
    show ((p.val : ℤ) + (n : ℤ)).toNat = p.val + n
    omega
  · rw [dif_neg h, dif_neg (show ¬(0 ≤ (p.val : ℤ) + (n : ℤ) ∧ (p.val : ℤ) + (n : ℤ) < 1024) by omega)]

theorem shiftRead_zero (f : Fin 1024 → EReal) (p : Fin 1024) : shiftRead f 0 p = f p := by
  unfold shiftRead
  rw [dif_pos (show 0 ≤ (p.val : ℤ) + 0 ∧ (p.val : ℤ) + 0 < 1024 by have := p.isLt; omega)]
  refine congrArg f (Fin.ext ?_)
  show ((p.val : ℤ) + 0).toNat = p.val
  omega

theorem tapOff_00 : tapOff 0 0 = -((33 : ℕ) : ℤ) := by decide
theorem tapOff_01 : tapOff 0 1 = -((32 : ℕ) : ℤ) := by decide
theorem tapOff_02 : tapOff 0 2 = -((31 : ℕ) : ℤ) := by decide
theorem tapOff_10 : tapOff 1 0 = -((1 : ℕ) : ℤ) := by decide
theorem tapOff_11 : tapOff 1 1 = 0 := by decide
theorem tapOff_12 : tapOff 1 2 = ((1 : ℕ) : ℤ) := by decide
theorem tapOff_20 : tapOff 2 0 = ((31 : ℕ) : ℤ) := by decide
theorem tapOff_21 : tapOff 2 1 = ((32 : ℕ) : ℤ) := by decide
theorem tapOff_22 : tapOff 2 2 = ((33 : ℕ) : ℤ) := by decide

theorem tapMask_0 (wm : Fin 2 → Fin 1024 → EReal) (p : Fin 1024) : tapMask wm 0 p = wm 0 p := rfl
theorem tapMask_1 (wm : Fin 2 → Fin 1024 → EReal) (p : Fin 1024) : tapMask wm 1 p = 1 := rfl
theorem tapMask_2 (wm : Fin 2 → Fin 1024 → EReal) (p : Fin 1024) : tapMask wm 2 p = wm 1 p := rfl

def yblock
    : FVec Ideal S32x8x1024 .f32 :=
  k2_pay14 (F := Ideal)
    (k2_pay8 (F := Ideal)
        (k2_pay3 x2 (View.ld x4 (Rect.unit (s := S96x1) ![0, 0] S64x1.size inb_S96x1_S64x1_0_0))
          (View.ld x5 (Rect.unit (s := S96x1) ![0, 0] S64x1.size inb_S96x1_S64x1_0_0)) x0)
        (k2_pay5 x3) (k2_pay6 x3) (k2_pay7 x3)
        (View.ld x4 (Rect.unit (s := S96x1) ![64, 0] S32x1.size inb_S96x1_S32x1_64_0))
        (View.ld x5 (Rect.unit (s := S96x1) ![64, 0] S32x1.size inb_S96x1_S32x1_64_0)) x1 x7)
    (k2_pay9 (View.ld x6 (Rect.unit (s := S2x1024) ![0, 0] S1x1024.size inb_S2x1024_S1x1024_0_0)))
    (k2_pay10 (View.ld x6 (Rect.unit (s := S2x1024) ![1, 0] S1x1024.size inb_S2x1024_S1x1024_1_0)))
    (k2_pay11 (F := Ideal)
        (k2_pay3 x2 (View.ld x4 (Rect.unit (s := S96x1) ![0, 0] S64x1.size inb_S96x1_S64x1_0_0))
          (View.ld x5 (Rect.unit (s := S96x1) ![0, 0] S64x1.size inb_S96x1_S64x1_0_0)) x0)
        (k2_pay5 x3) (k2_pay6 x3) (k2_pay7 x3)
        (View.ld x4 (Rect.unit (s := S96x1) ![64, 0] S32x1.size inb_S96x1_S32x1_64_0))
        (View.ld x5 (Rect.unit (s := S96x1) ![64, 0] S32x1.size inb_S96x1_S32x1_64_0)) x1 x7
        (View.ld x6 (Rect.unit (s := S2x1024) ![0, 0] S1x1024.size inb_S2x1024_S1x1024_0_0)))
    (k2_pay12 (F := Ideal))
    (k2_pay13 (F := Ideal)
        (k2_pay3 x2 (View.ld x4 (Rect.unit (s := S96x1) ![0, 0] S64x1.size inb_S96x1_S64x1_0_0))
          (View.ld x5 (Rect.unit (s := S96x1) ![0, 0] S64x1.size inb_S96x1_S64x1_0_0)) x0)
        (k2_pay5 x3) (k2_pay6 x3) (k2_pay7 x3)
        (View.ld x4 (Rect.unit (s := S96x1) ![64, 0] S32x1.size inb_S96x1_S32x1_64_0))
        (View.ld x5 (Rect.unit (s := S96x1) ![64, 0] S32x1.size inb_S96x1_S32x1_64_0)) x1 x7)

theorem yblock_apply
    (o : Fin 32) (b : Fin 8) (p : Fin 1024) :
    yblock x0 x1 x2 x3 x4 x5 x6 x7 (ix3 o b p)
      = convRow (wTapMajor x7) (maskRows x6) (arow x0 x1 x2 x3 x4 x5 b) o p := by
  have hm0 : (View.ld x6 (Rect.unit (s := S2x1024) ![0, 0] S1x1024.size inb_S2x1024_S1x1024_0_0) : Vec Ideal S1x1024 .f32)
      (ix2 (0 : Fin 1) p) = x6 (ix2 (0 : Fin 2) p) := ldRow_apply 0 (by decide) x6 _ p
  have hm1 : (View.ld x6 (Rect.unit (s := S2x1024) ![1, 0] S1x1024.size inb_S2x1024_S1x1024_1_0) : Vec Ideal S1x1024 .f32)
      (ix2 (0 : Fin 1) p) = x6 (ix2 (1 : Fin 2) p) := ldRow_apply 1 (by decide) x6 _ p
  unfold yblock k2_pay14 k2_pay11 k2_pay13 k2_pay12 k2_pay9 k2_pay10
  generalize hZ : (k2_pay8 (F := Ideal)
        (k2_pay3 x2 (View.ld x4 (Rect.unit (s := S96x1) ![0, 0] S64x1.size inb_S96x1_S64x1_0_0))
          (View.ld x5 (Rect.unit (s := S96x1) ![0, 0] S64x1.size inb_S96x1_S64x1_0_0)) x0)
        (k2_pay5 x3) (k2_pay6 x3) (k2_pay7 x3)
        (View.ld x4 (Rect.unit (s := S96x1) ![64, 0] S32x1.size inb_S96x1_S32x1_64_0))
        (View.ld x5 (Rect.unit (s := S96x1) ![64, 0] S32x1.size inb_S96x1_S32x1_64_0)) x1 x7) = Z
  have hZ' : ∀ (r : Fin 288) (q : Fin 1024), Z (ix3 r b q) = ∑ k : Fin 96, x7 (ix2 r k) * arow x0 x1 x2 x3 x4 x5 b k q :=
    fun r q => by rw [← hZ]; exact zrow_apply x0 x1 x2 x3 x4 x5 x7 r b q
  generalize (View.ld x6 (Rect.unit (s := S2x1024) ![0, 0] S1x1024.size inb_S2x1024_S1x1024_0_0) : Vec Ideal S1x1024 .f32) = m0 at hm0 ⊢
  generalize (View.ld x6 (Rect.unit (s := S2x1024) ![1, 0] S1x1024.size inb_S2x1024_S1x1024_1_0) : Vec Ideal S1x1024 .f32) = m1 at hm1 ⊢
  unfold convRow
  simp only [addf_apply, mulf_apply, shapeCast_self, maskRow_apply, broadcast_apply,
    padL_apply (n := 33) (m := 991) rfl, padL_apply (n := 32) (m := 992) rfl, padL_apply (n := 31) (m := 993) rfl,
    padL_apply (n := 1) (m := 1023) rfl, padR_apply (n := 1) (m := 1023) rfl, padR_apply (n := 31) (m := 993) rfl,
    padR_apply (n := 32) (m := 992) rfl, padR_apply (n := 33) (m := 991) rfl,
    slab_apply 0 (by decide), slab_apply 32 (by decide), slab_apply 64 (by decide), slab_apply 96 (by decide),
    slab_apply 128 (by decide), slab_apply 160 (by decide), slab_apply 192 (by decide), slab_apply 224 (by decide),
    slab_apply 256 (by decide), hZ', hm0, hm1, Ideal.ofBits_def, Ideal.ofBits_zero_f32,
    Fin.sum_univ_three, tapOff_00, tapOff_01, tapOff_02, tapOff_10, tapOff_11, tapOff_12, tapOff_20, tapOff_21, tapOff_22,
    shiftRead_neg, shiftRead_pos, shiftRead_zero, tapMask_0, tapMask_1, tapMask_2, mul_one, add_assoc]
  unfold wTapMajor maskRows
  rfl

theorem zeroTable_apply (i : S1x32x2.Idx) : k2_pay1 (F := Ideal) i = 0 := by
  unfold k2_pay1
  exact Ideal.ofBits_zero_f32

theorem mom_apply (y : FVec Ideal S32x8x1024 .f32) (acc : Vec Ideal S1x32x2 .f32) (o : Fin 32) :
    k2_pay2 (F := Ideal) y acc (ix3 (0 : Fin 1) o (0 : Fin 2))
        = acc (ix3 (0 : Fin 1) o (0 : Fin 2)) + ∑ b : Fin 8, ∑ q : Fin 1024, y (ix3 o b q)
    ∧ k2_pay2 (F := Ideal) y acc (ix3 (0 : Fin 1) o (1 : Fin 2))
        = acc (ix3 (0 : Fin 1) o (1 : Fin 2)) + ∑ b : Fin 8, ∑ q : Fin 1024, y (ix3 o b q) * y (ix3 o b q) := by
  unfold k2_pay2
  constructor
  · refine (shapeCast_ab_1ab_apply _ _ (0 : Fin 1) o (0 : Fin 2)).trans ?_
    refine (addf_apply _ _ (ix2 o (0 : Fin 2))).trans ?_
    refine congrArg₂ (· + ·) (shapeCast_1ab_ab_apply acc _ o (0 : Fin 2)) ?_
    refine ((momPair_apply _ _ _ o).1).trans ?_
    exact sumAll_apply y _ _ _ _ _ o
  · refine (shapeCast_ab_1ab_apply _ _ (0 : Fin 1) o (1 : Fin 2)).trans ?_
    refine (addf_apply _ _ (ix2 o (1 : Fin 2))).trans ?_
    refine congrArg₂ (· + ·) (shapeCast_1ab_ab_apply acc _ o (1 : Fin 2)) ?_
    refine ((momPair_apply _ _ _ o).2).trans ?_
    exact sumAll_apply (mulf y y) _ _ _ _ _ o

end Rows

end Cert.K2

end
-- ==== Proof.K1Body.lean ====
import proofs.«136216_g2000306190186476_pallasbulk_240_40_alg».proof.Proof.Gen.KernelIdeal.Skeleton
import proofs.«136216_g2000306190186476_pallasbulk_240_40_alg».proof.Proof.Views
import proofs.«136216_g2000306190186476_pallasbulk_240_40_alg».proof.Proof.ConvRows
import proofs.«136216_g2000306190186476_pallasbulk_240_40_alg».proof.Proof.K2Body

set_option maxRecDepth 16384

noncomputable section

namespace Cert.K1

open Cert.KernelIdeal Cert.KernelIdeal.Gen Cert.Spec Cert.Views Idealize.ShloMosaic Idealize.ShloMosaic.ValueIdx Idealize.SL.Sem
open scoped BigOperators

section Layout
variable {α : Type}

theorem flatPix_apply (x : S64x8x1024.Idx → α) (h : S64x8x1024.ShapeCasts S64x8192) (k : Fin 64) (b : Fin 8) (p : Fin 1024) :
    shapeCast S64x8192 x h (ix2 k ⟨b.val * 1024 + p.val, by omega⟩) = x (ix3 k b p) := by
  refine shapeCast_apply x h _ (ix3 k b p) ?_
  rw [Shape.rowMajor_val_two, Shape.rowMajor_val_three]
  show (k.val * 8 + b.val) * 1024 + p.val = k.val * 8192 + (b.val * 1024 + p.val)
  omega

end Layout

section Point
variable (v0 : FVec Ideal S1x64x2 .f32) (v10 v16 : FVec Ideal S64x1 .f32) (v20 : FVec Ideal S64x8x1024 .bf16)
  (v31 : FVec Ideal S288x64 .f32)

def act (k : Fin 64) (b : Fin 8) (p : Fin 1024) : EReal :=
  max (v20 (ix3 k b p) * scaleOf (v10 (ix2 k 0)) (v0 (ix3 0 k 0)) (v0 (ix3 0 k 1))
      + shiftOf (v10 (ix2 k 0)) (v16 (ix2 k 0)) (v0 (ix3 0 k 0)) (v0 (ix3 0 k 1))) 0

theorem pay5_apply (r : Fin 288) (b : Fin 8) (p : Fin 1024) :
    k1_pay5 (F := Ideal) v0 v10 v16 v20 v31 (ix3 r b p) = ∑ k : Fin 64, v31 (ix2 r k) * act v0 v10 v16 v20 k b p := by
  unfold k1_pay5
  refine (K2.unflat_apply _ _ r b p).trans ?_
  refine (Cert.ConvRows.mm_apply _ _ r _).trans ?_
  refine Finset.sum_congr rfl fun k _ => ?_
  refine congrArg₂ (· * ·) (congrFun (shapeCast_self v31 _) _) ?_
  refine (flatPix_apply _ _ k b p).trans ?_
  simp only [maximumf_apply, addf_apply, mulf_apply, subf_apply, extf_apply, broadcast_apply, K2.rsqrt_apply,
    shapeCast_self, K2.chanCol_apply, Ideal.ofBits_def, Ideal.ofBits_zero_f32]
  rw [K2.momCol_apply 0 (by decide) v0, K2.momCol_apply 1 (by decide) v0]
  rfl

end Point

section Taps
variable (z : FVec Ideal S288x8x1024 .f32)

def tapRow (kh kw : Fin 3) (o : Fin 32) (b : Fin 8) : Fin 1024 → EReal :=
  fun q => z (ix3 ⟨(kh.val * 3 + kw.val) * 32 + o.val, by omega⟩ b q)

theorem tapCut_apply (kh kw : Fin 3) (n : Nat) (hn : n = (kh.val * 3 + kw.val) * 32)
    (h : S288x8x1024.Slices ![n, 0, 0] S32x8x1024) (o : Fin 32) (b : Fin 8) (p : Fin 1024) :
    extractStridedSlice S32x8x1024 ![n, 0, 0] z h (ix3 o b p) = tapRow z kh kw o b p := by
  subst hn
  exact K2.slab_apply _ (by omega) z h o b p

theorem pay8_apply (v37 v38 : FVec Ideal S1x1024 .f32) (o : Fin 32) (b : Fin 8) (p : Fin 1024) :
    k1_pay8 (F := Ideal) z v37 v38 (ix3 o b p)
      = shiftRead (tapRow z 0 0 o b) (tapOff 0 0) p * v37 (ix2 0 p)
        + shiftRead (tapRow z 0 1 o b) (tapOff 0 1) p
        + shiftRead (tapRow z 0 2 o b) (tapOff 0 2) p * v38 (ix2 0 p)
        + shiftRead (tapRow z 1 0 o b) (tapOff 1 0) p * v37 (ix2 0 p)
        + shiftRead (tapRow z 1 1 o b) (tapOff 1 1) p
        + shiftRead (tapRow z 1 2 o b) (tapOff 1 2) p * v38 (ix2 0 p)
        + shiftRead (tapRow z 2 0 o b) (tapOff 2 0) p * v37 (ix2 0 p)
        + shiftRead (tapRow z 2 1 o b) (tapOff 2 1) p := by
  simp only [K2.tapOff_00, K2.tapOff_01, K2.tapOff_02, K2.tapOff_10, K2.tapOff_11, K2.tapOff_12, K2.tapOff_20, K2.tapOff_21,
    K2.shiftRead_neg, K2.shiftRead_pos, K2.shiftRead_zero]
  unfold k1_pay8 k1_pay7
  simp only [addf_apply, mulf_apply, K2.maskRow_apply, shapeCast_self,
    K2.padL_apply (n := 33) (m := 991) rfl, K2.padL_apply (n := 32) (m := 992) rfl, K2.padL_apply (n := 31) (m := 993) rfl, K2.padL_apply (n := 1) (m := 1023) rfl,
    K2.padR_apply (n := 1) (m := 1023) rfl, K2.padR_apply (n := 31) (m := 993) rfl, K2.padR_apply (n := 32) (m := 992) rfl,
    tapCut_apply z 0 0 0 rfl, tapCut_apply z 0 1 32 rfl, tapCut_apply z 0 2 64 rfl, tapCut_apply z 1 0 96 rfl,
    tapCut_apply z 1 1 128 rfl, tapCut_apply z 1 2 160 rfl, tapCut_apply z 2 0 192 rfl, tapCut_apply z 2 1 224 rfl,
    Ideal.ofBits_def, Ideal.ofBits_zero_f32]

theorem pay1_apply (v39 : FVec Ideal S1x1024 .f32) (v90 : FVec Ideal S32x8x1024 .f32) (o : Fin 32) (b : Fin 8)
    (p : Fin 1024) :
    k1_pay1 (F := Ideal) z v39 v90 (ix3 o b p)
      = v90 (ix3 o b p) + shiftRead (tapRow z 2 2 o b) (tapOff 2 2) p * v39 (ix2 0 p) := by
  rw [K2.tapOff_22, K2.shiftRead_pos]
  unfold k1_pay1
  simp only [addf_apply, mulf_apply, K2.maskRow_apply, K2.padR_apply (n := 33) (m := 991) rfl, tapCut_apply z 2 2 256 rfl,
    Ideal.ofBits_def, Ideal.ofBits_zero_f32]

theorem taps_apply (v36 v38 : FVec Ideal S1x1024 .f32) (wm : Fin 2 → Fin 1024 → EReal)
    (h0 : ∀ q, v36 (ix2 0 q) = wm 0 q) (h1 : ∀ q, v38 (ix2 0 q) = wm 1 q) (o : Fin 32) (b : Fin 8) (p : Fin 1024) :
    k1_pay1 (F := Ideal) z (k1_pay7 v38) (k1_pay8 z (k1_pay6 v36) v38) (ix3 o b p)
      = ∑ kh : Fin 3, ∑ kw : Fin 3, shiftRead (tapRow z kh kw o b) (tapOff kh kw) p * tapMask wm kw p := by
  have e6 : k1_pay6 (F := Ideal) v36 = v36 := by unfold k1_pay6; exact shapeCast_self _ _
  have e7 : k1_pay7 (F := Ideal) v38 = v38 := by unfold k1_pay7; exact shapeCast_self _ _
  have m0 : tapMask wm 0 p = wm 0 p := rfl
  have m1 : tapMask wm 1 p = 1 := rfl
  have m2 : tapMask wm 2 p = wm 1 p := rfl
  rw [pay1_apply, pay8_apply, e6, e7, h0, h1]
  simp only [Fin.sum_univ_three, m0, m1, m2, mul_one, add_assoc]

end Taps

section Acc
variable (z : FVec Ideal S288x8x1024 .f32) (v39 : FVec Ideal S1x1024 .f32) (v90 : FVec Ideal S32x8x1024 .f32)
  (v112 : FVec Ideal S1x32x2 .f32)

theorem pay4_apply0 (o : Fin 32) :
    k1_pay4 (F := Ideal) z v39 v90 v112 (ix3 0 o 0)
      = v112 (ix3 0 o 0) + ∑ b : Fin 8, ∑ p : Fin 1024, k1_pay1 (F := Ideal) z v39 v90 (ix3 o b p) := by
  unfold k1_pay4
  generalize k1_pay1 (F := Ideal) z v39 v90 = y
  dsimp only
  refine (shapeCast_ab_1ab_apply _ _ 0 o 0).trans ?_
  refine congrArg₂ (· + ·) (shapeCast_1ab_ab_apply v112 _ o 0) ?_
  refine (K2.momPair_apply _ _ _ o).1.trans ?_
  exact K2.sumAll_apply y _ _ _ _ _ o

theorem pay4_apply1 (o : Fin 32) :
    k1_pay4 (F := Ideal) z v39 v90 v112 (ix3 0 o 1)
      = v112 (ix3 0 o 1) + ∑ b : Fin 8, ∑ p : Fin 1024,
          k1_pay1 (F := Ideal) z v39 v90 (ix3 o b p) * k1_pay1 (F := Ideal) z v39 v90 (ix3 o b p) := by
  unfold k1_pay4
  generalize k1_pay1 (F := Ideal) z v39 v90 = y
  dsimp only
  refine (shapeCast_ab_1ab_apply _ _ 0 o 1).trans ?_
  refine congrArg₂ (· + ·) (shapeCast_1ab_ab_apply v112 _ o 1) ?_
  refine (K2.momPair_apply _ _ _ o).2.trans ?_
  exact K2.sumAll_apply (mulf y y) _ _ _ _ _ o

end Acc

section PointSpec
variable (x0 : FVec Ideal S64x8x1024 .bf16) (x1 : FVec Ideal S1x64x2 .f32) (x2 x3 : FVec Ideal S64x1 .f32)
  (x5 : FVec Ideal S288x64 .f32) (v36 v38 : FVec Ideal S1x1024 .f32)

def ptY : FVec Ideal S32x8x1024 .f32 :=
  k1_pay1 (F := Ideal) (k1_pay5 x1 x2 x3 x0 x5) (k1_pay7 v38) (k1_pay8 (k1_pay5 x1 x2 x3 x0 x5) (k1_pay6 v36) v38)

theorem ptY_apply (X : Act 64) (wm : Fin 2 → Fin 1024 → EReal) (n : Fin 128) (b : Fin 8)
    (hx : ∀ k q, x0 (ix3 k b q) = X n k q) (h0 : ∀ q, v36 (ix2 0 q) = wm 0 q) (h1 : ∀ q, v38 (ix2 0 q) = wm 1 q)
    (o : Fin 32) (p : Fin 1024) :
    ptY x0 x1 x2 x3 x5 v36 v38 (ix3 o b p)
      = convTaps (wTapMajor x5) wm (bnreluM (col x2) (col x3) (mom3 x1 0) (mom3 x1 1) X) n o p := by
  unfold ptY
  rw [taps_apply _ v36 v38 wm h0 h1]
  unfold convTaps
  refine Finset.sum_congr rfl fun kh _ => Finset.sum_congr rfl fun kw _ => ?_
  refine congrArg (· * tapMask wm kw p) ?_
  refine congrArg (fun f => shiftRead f (tapOff kh kw) p) (funext fun q => ?_)
  simp only [tapRow]
  rw [pay5_apply]
  refine Finset.sum_congr rfl fun ci _ => ?_
  unfold act bnreluM wTapMajor col mom3
  rw [hx]

end PointSpec

end Cert.K1

end
-- ==== Proof.K1.lean ====
import proofs.«136216_g2000306190186476_pallasbulk_240_40_alg».proof.Proof.FrameK
import proofs.«136216_g2000306190186476_pallasbulk_240_40_alg».proof.Proof.SpecAlg
import proofs.«136216_g2000306190186476_pallasbulk_240_40_alg».proof.Proof.K1Body
import Idealize.ShloMosaic.Lib.Tactic

set_option maxRecDepth 16384

noncomputable section

namespace Cert.K1

open Cert.KernelIdeal Cert.KernelIdeal.Gen Cert.KernelIdeal.GenP Cert.Spec Cert.Views Idealize.ShloMosaic Idealize.ShloMosaic.TcCoe Idealize.ShloMosaic.Tactic Idealize.ShloMosaic.ValueIdx Idealize.SL.Sem
open scoped BigOperators
open Cert.ConvRows (hz2 hz3 at_congr)

variable (V : (c : Dev nD) → (b : Ref sig .tc) → Buf (Elt Ideal) ((c : Thread nD τ).loc b))

abbrev p0 (c : Dev nD) : Vec Ideal S64x128x1024 .bf16 := V c main_v11_0

abbrev q0 (c : Dev nD) : Vec Ideal S1x64x2 .f32 := V c main_v11_1

abbrev gam (c : Dev nD) : Vec Ideal S64x1 .f32 := V c main_v14

abbrev bet (c : Dev nD) : Vec Ideal S64x1 .f32 := V c main_v15

abbrev wmk (c : Dev nD) : Vec Ideal S2x1024 .f32 := V c main_v10

abbrev wts (c : Dev nD) : Vec Ideal S288x64 .f32 := V c main_v13

theorem idx_facts : ∀ t : Fin cfg1.N,
    (win1_0.index t (0 : Fin 3) = 0 ∧ win1_0.index t (1 : Fin 3) = t.val ∧ win1_0.index t (2 : Fin 3) = 0)
    ∧ (∀ a, win1_1.index t a = 0) ∧ (∀ a, win1_2.index t a = 0) ∧ (∀ a, win1_3.index t a = 0) ∧ (∀ a, win1_4.index t a = 0)
    ∧ (∀ a, win1_5.index t a = 0)
    ∧ (win1_6.index t (0 : Fin 3) = 0 ∧ win1_6.index t (1 : Fin 3) = t.val ∧ win1_6.index t (2 : Fin 3) = 0)
    ∧ (∀ a, win1_7.index t a = 0) :=
  (by decide +kernel : ∀ t : Fin grid1.N, _)

theorem lt16 (t : Fin cfg1.N) : t.val < 16 := lt_of_lt_of_eq t.isLt (show cfg1.N = 16 from N_1)

theorem blk0_apply (c : Dev nD) (t : Fin cfg1.N) (k : Fin 64) (b : Fin 8) (p : Fin 1024) :
    (iblk1 V c 0 t : Vec Ideal S64x8x1024 .bf16) (ix3 k b p)
      = p0 V c (ix3 k ⟨t.val * 8 + b.val, by have := lt16 t; omega⟩ p) := by
  obtain ⟨⟨e0, e1, e2⟩, -⟩ := idx_facts t
  unfold iblk1
  rw [View.read_apply]
  show V c main_v11_0 _ = V c main_v11_0 _
  refine congrArg (V c main_v11_0) (funext fun a => Fin.ext ?_)
  match a with
  | ⟨0, _⟩ => show win1_0.index t (0 : Fin 3) * 64 + 1 * k.val = k.val; omega
  | ⟨1, _⟩ => show win1_0.index t (1 : Fin 3) * 8 + 1 * b.val = t.val * 8 + b.val; omega
  | ⟨2, _⟩ => show win1_0.index t (2 : Fin 3) * 1024 + 1 * p.val = p.val; omega

theorem blk1_eq (c : Dev nD) (t : Fin cfg1.N) : (iblk1 V c 1 t : Vec Ideal S1x64x2 .f32) = q0 V c :=
  funext fun j => at_congr (V c main_v11_1) fun a => win1_1.rect_emb_val_of_index_zero t a ((idx_facts t).2.1 a) j

theorem blk2_eq (c : Dev nD) (t : Fin cfg1.N) : (iblk1 V c 2 t : Vec Ideal S64x1 .f32) = gam V c :=
  funext fun j => at_congr (V c main_v14) fun a => win1_2.rect_emb_val_of_index_zero t a ((idx_facts t).2.2.1 a) j

theorem blk3_eq (c : Dev nD) (t : Fin cfg1.N) : (iblk1 V c 3 t : Vec Ideal S64x1 .f32) = bet V c :=
  funext fun j => at_congr (V c main_v15) fun a => win1_3.rect_emb_val_of_index_zero t a ((idx_facts t).2.2.2.1 a) j

theorem blk4_eq (c : Dev nD) (t : Fin cfg1.N) : (iblk1 V c 4 t : Vec Ideal S2x1024 .f32) = wmk V c :=
  funext fun j => at_congr (V c main_v10) fun a => win1_4.rect_emb_val_of_index_zero t a ((idx_facts t).2.2.2.2.1 a) j

theorem blk5_eq (c : Dev nD) (t : Fin cfg1.N) : (iblk1 V c 5 t : Vec Ideal S288x64 .f32) = wts V c :=
  funext fun j => at_congr (V c main_v13) fun a => win1_5.rect_emb_val_of_index_zero t a ((idx_facts t).2.2.2.2.2.1 a) j

theorem emb6 (t : Fin cfg1.N) (o : Fin 32) (b : Fin 8) (p : Fin 1024) :
    (((cfg1.win 6).blk t).view.emb (ix3 o b p) : S32x128x1024.Idx)
      = ix3 o ⟨t.val * 8 + b.val, by have := lt16 t; omega⟩ p := by
  obtain ⟨-, -, -, -, -, -, ⟨e0, e1, e2⟩, -⟩ := idx_facts t
  funext a
  apply Fin.ext
  match a with
  | ⟨0, _⟩ => show win1_6.index t (0 : Fin 3) * 32 + 1 * o.val = o.val; omega
  | ⟨1, _⟩ => show win1_6.index t (1 : Fin 3) * 8 + 1 * b.val = t.val * 8 + b.val; omega
  | ⟨2, _⟩ => show win1_6.index t (2 : Fin 3) * 1024 + 1 * p.val = p.val; omega

theorem cover6 (i : S32x128x1024.Idx) : ∃ t : Fin cfg1.N, (cfg1.win 6).flush t = true ∧ i ∈ ((cfg1.win 6).blk t).view.set := by
  have h1 : (i 1).val < 128 := (i 1).isLt
  have hN : cfg1.N = 16 := N_1
  let t : Fin cfg1.N := ⟨(i 1).val / 8, by omega⟩
  have e : (((cfg1.win 6).blk t).view.emb (ix3 (i 0) ⟨(i 1).val % 8, by omega⟩ (i 2)) : S32x128x1024.Idx) = i :=
    (emb6 t _ _ _).trans (funext fun a => Fin.ext (by
      match a with
      | ⟨0, _⟩ => rfl
      | ⟨1, _⟩ => show (i 1).val / 8 * 8 + (i 1).val % 8 = (i 1).val; omega
      | ⟨2, _⟩ => rfl))
  have h := ((cfg1.win 6).blk t).view.emb_mem_set (ix3 (i 0) ⟨(i 1).val % 8, by omega⟩ (i 2))
  rw [e] at h
  exact ⟨t, flush1_6 _, h⟩

theorem emb7 (t : Fin cfg1.N) (j : S1x32x2.Idx) : (((cfg1.win 7).blk t).view.emb j : S1x32x2.Idx) = j :=
  funext fun a => Fin.ext (win1_7.rect_emb_val_of_index_zero t a ((idx_facts t).2.2.2.2.2.2.2 a) j)

theorem mem_blk7 (t : Fin cfg1.N) (i : S1x32x2.Idx) : i ∈ ((cfg1.win 7).blk t).view.set := by
  have h := ((cfg1.win 7).blk t).view.emb_mem_set i
  rwa [emb7] at h

section MaskRows
variable {F : FTy → Type} [FloatOps F]

abbrev mrow0 (x4 : Vec F S2x1024 .f32) : Vec F S1x1024 .f32 :=
  View.ld (Val := Elt F) x4 (Rect.unit (s := S2x1024) ![0, 0] S1x1024.size inb_S2x1024_S1x1024_0_0)

abbrev mrow1 (x4 : Vec F S2x1024 .f32) : Vec F S1x1024 .f32 :=
  View.ld (Val := Elt F) x4 (Rect.unit (s := S2x1024) ![1, 0] S1x1024.size inb_S2x1024_S1x1024_1_0)

end MaskRows

theorem mrow0_apply (x4 : Vec Ideal S2x1024 .f32) (q : Fin 1024) : (mrow0 x4 : FVec Ideal S1x1024 .f32) (ix2 0 q) = x4 (ix2 0 q) := by
  show x4 _ = x4 _
  refine congrArg x4 (funext fun a => Fin.ext ?_)
  match a with
  | ⟨0, _⟩ => rfl
  | ⟨1, _⟩ => show 0 + 1 * q.val = q.val; omega

theorem mrow1_apply (x4 : Vec Ideal S2x1024 .f32) (q : Fin 1024) : (mrow1 x4 : FVec Ideal S1x1024 .f32) (ix2 0 q) = x4 (ix2 1 q) := by
  show x4 _ = x4 _
  refine congrArg x4 (funext fun a => Fin.ext ?_)
  match a with
  | ⟨0, _⟩ => rfl
  | ⟨1, _⟩ => show 0 + 1 * q.val = q.val; omega

section Pieces
variable {F : FTy → Type} [FloatOps F]

abbrev zOf (x0 : Vec F S64x8x1024 .bf16) (x1 : Vec F S1x64x2 .f32) (x2 x3 : Vec F S64x1 .f32) (x4 : Vec F S2x1024 .f32)
    (x5 : Vec F S288x64 .f32) : FVec F S288x8x1024 .f32 := k1_pay5 x1 x2 x3 x0 x5

variable (c : Dev nD) (i : grid1.Coords) (a1 : Memref sig .tc .vmem S64x8x1024 .bf16) (h1 : a1.IsWhole)
  (a2 : Memref sig .tc .vmem S1x64x2 .f32) (h2 : a2.IsWhole) (a3 : Memref sig .tc .vmem S64x1 .f32) (h3 : a3.IsWhole)
  (a4 : Memref sig .tc .vmem S64x1 .f32) (h4 : a4.IsWhole) (a5 : Memref sig .tc .vmem S2x1024 .f32) (h5 : a5.IsWhole)
  (a6 : Memref sig .tc .vmem S288x64 .f32) (h6 : a6.IsWhole) (a7 : Memref sig .tc .vmem S32x8x1024 .bf16) (h7 : a7.IsWhole)
  (a8 : Memref sig .tc .vmem S1x32x2 .f32) (h8 : a8.IsWhole)

section First
variable (hc : cond1_0 i) (x0 : Vec F S64x8x1024 .bf16) (x1 : Vec F S1x64x2 .f32) (x2 x3 : Vec F S64x1 .f32)
  (x4 : Vec F S2x1024 .f32) (x5 : Vec F S288x64 .f32)

theorem outA6_eq :
    out1_A_6 c i a1 h1 a2 h2 a3 h3 a4 h4 a5 h5 a6 h6 a7 h7 a8 h8 hc x0 x1 x2 x3 x4 x5
      = k1_pay2 (zOf x0 x1 x2 x3 x4 x5) (k1_pay7 (mrow1 x4)) (k1_pay8 (zOf x0 x1 x2 x3 x4 x5) (k1_pay6 (mrow0 x4)) (mrow1 x4)) := by
  unfold out1_A_6
  rw [View.read_writes_eq_canon _ _ _ (cover1_A_6 c i a1 h1 a2 h2 a3 h3 a4 h4 a5 h5 a6 h6 a7 h7 a8 h8 hc x0 x1 x2 x3 x4 x5)]
  unfold kernelRun1_A
  dsimp only
  try sl_unfold_words
  rw [View.canon_unit_zero hz3]
  simp only [View.readAt_eq_ld, h1.read_unread, h2.read_unread, h3.read_unread, h4.read_unread, h5.read_unread,
    h6.read_unread, h8.read_unread, View.ld_unit_zero (S := S64x8x1024) hz3, View.ld_unit_zero (S := S1x64x2) hz3,
    View.ld_unit_zero (S := S64x1) hz2, View.ld_unit_zero (S := S288x64) hz2, View.ld_unit_zero (S := S1x32x2) hz3]
  all_goals rfl

theorem outA7_eq :
    out1_A_7 c i a1 h1 a2 h2 a3 h3 a4 h4 a5 h5 a6 h6 a7 h7 a8 h8 hc x0 x1 x2 x3 x4 x5
      = k1_pay4 (zOf x0 x1 x2 x3 x4 x5) (k1_pay7 (mrow1 x4)) (k1_pay8 (zOf x0 x1 x2 x3 x4 x5) (k1_pay6 (mrow0 x4)) (mrow1 x4))
          (k1_pay3 (F := F)) := by
  unfold out1_A_7
  rw [View.read_writes_eq_canon _ _ _ (cover1_A_7 c i a1 h1 a2 h2 a3 h3 a4 h4 a5 h5 a6 h6 a7 h7 a8 h8 hc x0 x1 x2 x3 x4 x5)]
  unfold kernelRun1_A
  dsimp only
  try sl_unfold_words
  rw [View.canon_cons_unit_zero (S := S1x32x2) hz3, View.readCov_unit_zero (S := S1x32x2) _ hz3]
  simp only [View.readAt_eq_ld, h1.read_unread, h2.read_unread, h3.read_unread, h4.read_unread, h5.read_unread,
    h6.read_unread, h8.read_unread, View.ld_unit_zero (S := S64x8x1024) hz3, View.ld_unit_zero (S := S1x64x2) hz3,
    View.ld_unit_zero (S := S64x1) hz2, View.ld_unit_zero (S := S288x64) hz2, View.ld_unit_zero (S := S1x32x2) hz3]
  all_goals rfl

end First

section Later
variable (hc : ¬cond1_0 i) (x0 : Vec F S64x8x1024 .bf16) (x1 : Vec F S1x64x2 .f32) (x2 x3 : Vec F S64x1 .f32)
  (x4 : Vec F S2x1024 .f32) (x5 : Vec F S288x64 .f32) (xo7 : Vec F S1x32x2 .f32)

theorem outB6_eq :
    out1_B_6 c i a1 h1 a2 h2 a3 h3 a4 h4 a5 h5 a6 h6 a7 h7 a8 h8 hc x0 x1 x2 x3 x4 x5 xo7
      = k1_pay2 (zOf x0 x1 x2 x3 x4 x5) (k1_pay7 (mrow1 x4)) (k1_pay8 (zOf x0 x1 x2 x3 x4 x5) (k1_pay6 (mrow0 x4)) (mrow1 x4)) := by
  unfold out1_B_6
  rw [View.read_writes_eq_canon _ _ _ (cover1_B_6 c i a1 h1 a2 h2 a3 h3 a4 h4 a5 h5 a6 h6 a7 h7 a8 h8 hc x0 x1 x2 x3 x4 x5 xo7)]
  unfold kernelRun1_B
  dsimp only
  try sl_unfold_words
  rw [View.canon_unit_zero hz3]
  simp only [View.readAt_eq_ld, h1.read_unread, h2.read_unread, h3.read_unread, h4.read_unread, h5.read_unread,
    h6.read_unread, h8.read_unread, View.ld_unit_zero (S := S64x8x1024) hz3, View.ld_unit_zero (S := S1x64x2) hz3,
    View.ld_unit_zero (S := S64x1) hz2, View.ld_unit_zero (S := S288x64) hz2, View.ld_unit_zero (S := S1x32x2) hz3]
  all_goals rfl

theorem outB7_eq :
    out1_B_7 c i a1 h1 a2 h2 a3 h3 a4 h4 a5 h5 a6 h6 a7 h7 a8 h8 hc x0 x1 x2 x3 x4 x5 xo7
      = k1_pay4 (zOf x0 x1 x2 x3 x4 x5) (k1_pay7 (mrow1 x4)) (k1_pay8 (zOf x0 x1 x2 x3 x4 x5) (k1_pay6 (mrow0 x4)) (mrow1 x4))
          xo7 := by
  unfold out1_B_7
  rw [View.read_writes_eq_canon _ _ _ (cover1_B_7 c i a1 h1 a2 h2 a3 h3 a4 h4 a5 h5 a6 h6 a7 h7 a8 h8 hc x0 x1 x2 x3 x4 x5 xo7)]
  unfold kernelRun1_B
  dsimp only
  try sl_unfold_words
  rw [View.canon_unit_zero hz3]
  simp only [View.readAt_eq_ld, h1.read_unread, h2.read_unread, h3.read_unread, h4.read_unread, h5.read_unread,
    h6.read_unread, h8.read_unread, View.ld_unit_zero (S := S64x8x1024) hz3, View.ld_unit_zero (S := S1x64x2) hz3,
    View.ld_unit_zero (S := S64x1) hz2, View.ld_unit_zero (S := S288x64) hz2, View.ld_unit_zero (S := S1x32x2) hz3]
  all_goals rfl

end Later

end Pieces

def Xin (c : Dev nD) : Act 64 := actCM (p0 V c)

def S1in (c : Dev nD) : Fin 64 → EReal := mom3 (q0 V c) 0

def S2in (c : Dev nD) : Fin 64 → EReal := mom3 (q0 V c) 1

def Yspec (c : Dev nD) : Act 32 :=
  convTaps (wTapMajor (wts V c)) (maskRows (wmk V c))
    (bnreluM (col (gam V c)) (col (bet V c)) (S1in V c) (S2in V c) (Xin V c))

abbrev yOut (c : Dev nD) : Vec Ideal S32x128x1024 .bf16 := (dat1 V c).arrAt 6 cfg1.N

abbrev mOut (c : Dev nD) : Vec Ideal S1x32x2 .f32 := (dat1 V c).arrAt 7 cfg1.N

def ptYat (c : Dev nD) (t : Fin cfg1.N) : FVec Ideal S32x8x1024 .f32 :=
  ptY (iblk1 V c 0 t) (iblk1 V c 1 t) (iblk1 V c 2 t) (iblk1 V c 3 t) (iblk1 V c 5 t) (mrow0 (iblk1 V c 4 t))
    (mrow1 (iblk1 V c 4 t))

theorem ptYat_apply (c : Dev nD) (t : Fin cfg1.N) (o : Fin 32) (b : Fin 8) (p : Fin 1024) :
    ptYat V c t (ix3 o b p) = Yspec V c ⟨t.val * 8 + b.val, by have := lt16 t; omega⟩ o p := by
  unfold ptYat Yspec S1in S2in
  rw [blk1_eq, blk2_eq, blk3_eq, blk4_eq, blk5_eq]
  exact ptY_apply (iblk1 V c 0 t) (q0 V c) (gam V c) (bet V c) (wts V c) (mrow0 (wmk V c)) (mrow1 (wmk V c))
    (Xin V c) (maskRows (wmk V c)) ⟨t.val * 8 + b.val, by have := lt16 t; omega⟩ b
    (fun k q => blk0_apply V c t k b q) (fun q => mrow0_apply (wmk V c) q) (fun q => mrow1_apply (wmk V c) q) o p

theorem outsAt_fst (c : Dev nD) (t : Fin cfg1.N) :
    (outsAt1 V c t.val t.isLt).1 = truncf .bf16 (ptYat V c t) bitsLt_bf16_f32 := by
  by_cases h0 : t.val % 16 = 0
  · rw [outsAt1_A V c t h0]
    dsimp only
    apply outA6_eq
  · rw [outsAt1_B V c t h0]
    dsimp only
    apply outB6_eq

def blockSum1 (c : Dev nD) (o : Fin 32) (j : ℕ) : EReal :=
  if h : j < 16 then ∑ b : Fin 8, ∑ p : Fin 1024, Yspec V c ⟨j * 8 + b.val, by omega⟩ o p else 0

def blockSum2 (c : Dev nD) (o : Fin 32) (j : ℕ) : EReal :=
  if h : j < 16 then ∑ b : Fin 8, ∑ p : Fin 1024, Yspec V c ⟨j * 8 + b.val, by omega⟩ o p * Yspec V c ⟨j * 8 + b.val, by omega⟩ o p
  else 0

theorem blockSum1_eq (c : Dev nD) (o : Fin 32) (t : Fin cfg1.N) :
    ∑ b : Fin 8, ∑ p : Fin 1024, ptYat V c t (ix3 o b p) = blockSum1 V c o t.val := by
  unfold blockSum1
  rw [dif_pos (lt16 t)]
  exact Finset.sum_congr rfl fun b _ => Finset.sum_congr rfl fun p _ => ptYat_apply V c t o b p

theorem blockSum2_eq (c : Dev nD) (o : Fin 32) (t : Fin cfg1.N) :
    ∑ b : Fin 8, ∑ p : Fin 1024, ptYat V c t (ix3 o b p) * ptYat V c t (ix3 o b p) = blockSum2 V c o t.val := by
  unfold blockSum2
  rw [dif_pos (lt16 t)]
  exact Finset.sum_congr rfl fun b _ => Finset.sum_congr rfl fun p _ => by rw [ptYat_apply V c t o b p]

theorem outsAt_snd (c : Dev nD) : ∀ (n : ℕ) (h : n < cfg1.N) (o : Fin 32),
    ((outsAt1 V c n h).2 : FVec Ideal S1x32x2 .f32) (ix3 0 o 0) = ∑ j ∈ Finset.range (n + 1), blockSum1 V c o j
    ∧ ((outsAt1 V c n h).2 : FVec Ideal S1x32x2 .f32) (ix3 0 o 1) = ∑ j ∈ Finset.range (n + 1), blockSum2 V c o j
  | 0, h, o => by
    rw [outsAt1_A V c ⟨0, h⟩ rfl]
    dsimp only
    rw [outA7_eq]
    have hz : ∀ k : Fin 2, (k1_pay3 (F := Ideal)) (ix3 0 o k) = 0 := fun k => Ideal.ofBits_zero_f32
    constructor
    · rw [pay4_apply0, hz 0, zero_add, Finset.sum_range_one]
      exact blockSum1_eq V c o ⟨0, h⟩
    · rw [pay4_apply1, hz 1, zero_add, Finset.sum_range_one]
      exact blockSum2_eq V c o ⟨0, h⟩
  | n + 1, h, o => by
    have hB : ¬(⟨n + 1, h⟩ : Fin cfg1.N).val % 16 = 0 := by
      have := lt16 ⟨n + 1, h⟩
      dsimp only at this ⊢
      omega
    obtain ⟨ih0, ih1⟩ := outsAt_snd c n (Nat.lt_of_succ_lt h) o
    rw [outsAt1_B V c ⟨n + 1, h⟩ hB]
    dsimp only
    rw [outB7_eq]
    constructor
    · refine (pay4_apply0 _ _ _ _ o).trans ?_
      rw [Finset.sum_range_succ]
      exact congrArg₂ (· + ·) ih0 (blockSum1_eq V c o ⟨n + 1, h⟩)
    · refine (pay4_apply1 _ _ _ _ o).trans ?_
      rw [Finset.sum_range_succ]
      exact congrArg₂ (· + ·) ih1 (blockSum2_eq V c o ⟨n + 1, h⟩)

theorem total1 (c : Dev nD) (o : Fin 32) : ∑ j ∈ Finset.range 16, blockSum1 V c o j = sum1 (Yspec V c) o := by
  rw [← Cert.SpecAlg.sum_fin_eq_range 16 (blockSum1 V c o)]
  unfold sum1
  rw [Cert.SpecAlg.sum_images_blocks (fun n => ∑ p : Fin 1024, Yspec V c n o p)]
  refine Finset.sum_congr rfl fun j _ => ?_
  unfold blockSum1
  rw [dif_pos j.isLt]

theorem total2 (c : Dev nD) (o : Fin 32) : ∑ j ∈ Finset.range 16, blockSum2 V c o j = sum2 (Yspec V c) o := by
  rw [← Cert.SpecAlg.sum_fin_eq_range 16 (blockSum2 V c o)]
  unfold sum2
  rw [Cert.SpecAlg.sum_images_blocks (fun n => ∑ p : Fin 1024, Yspec V c n o p * Yspec V c n o p)]
  refine Finset.sum_congr rfl fun j _ => ?_
  unfold blockSum2
  rw [dif_pos j.isLt]

def G6 (c : Dev nD) : Vec Ideal S32x128x1024 .bf16 := fun i => Yspec V c (i 1) (i 0) (i 2)

def G7 (c : Dev nD) : Vec Ideal S1x32x2 .f32 := fun i =>
  if (i 2).val = 0 then sum1 (Yspec V c) (i 1) else sum2 (Yspec V c) (i 1)

theorem flushed6_eq (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6, outsAt_fst]
  funext j
  obtain ⟨o, b, p, rfl⟩ : ∃ (o : Fin 32) (b : Fin 8) (p : Fin 1024), j = ix3 o b p := ⟨j 0, j 1, j 2, eq_ix3 j⟩
  rw [View.read_apply, emb6]
  exact ptYat_apply V c t o b p

theorem acc_last (c : Dev nD) (t : Fin cfg1.N) (h15 : t.val = 15) (j : S1x32x2.Idx) :
    ((outsAt1 V c t.val t.isLt).2 : FVec Ideal S1x32x2 .f32) j = G7 V c j := by
  obtain ⟨n, hn⟩ := t
  obtain rfl : n = 15 := h15
  obtain ⟨u, o, k, rfl⟩ : ∃ (u : Fin 1) (o : Fin 32) (k : Fin 2), j = ix3 u o k := ⟨j 0, j 1, j 2, eq_ix3 j⟩
  obtain rfl : u = 0 := Subsingleton.elim _ _
  obtain ⟨i0, i1⟩ := outsAt_snd V c 15 hn o
  unfold G7
  match k with
  | ⟨0, _⟩ => exact i0.trans ((total1 V c o).trans (if_pos rfl).symm)
  | ⟨1, _⟩ => exact i1.trans ((total2 V c o).trans (if_neg Nat.one_ne_zero).symm)

theorem flushed7_eq (c : Dev nD) (t : Fin cfg1.N) (hf : (cfg1.win 7).flush t = true) :
    (dat1 V c).flushed 7 t = ((cfg1.win 7).blk t).view.read (Elt Ideal) (G7 V c) := by
  have h15 : t.val = 15 := by have := (flush1_7 t).mp hf; have := lt16 t; omega
  show (cfg1.win 7).cut (grid1.coords t) ((dat1 V c).after 7 t) = _
  rw [after1_7]
  funext j
  rw [View.read_apply]
  exact (acc_last V c t h15 j).trans (congrArg (G7 V c) (emb7 t j).symm)

theorem arr_y (c : Dev nD) : actCM (yOut V c) = Yspec V c := by
  have h : (dat1 V c).arrAt 6 cfg1.N = G6 V c :=
    (dat1 V c).arrAt_eq_of_cover 6 (G6 V c) (fun t _ => flushed6_eq V c t) (fun i => cover6 i)
  funext n o p
  show (dat1 V c).arrAt 6 cfg1.N (ix3 o n p) = _
  rw [h]
  rfl

theorem arr_m (c : Dev nD) (o : Fin 32) :
    mom3 (mOut V c) 0 o = sum1 (Yspec V c) o ∧ mom3 (mOut V c) 1 o = sum2 (Yspec V c) o := by
  have hN : cfg1.N = 16 := N_1
  have h : (dat1 V c).arrAt 7 cfg1.N = G7 V c :=
    (dat1 V c).arrAt_eq_of_cover 7 (G7 V c) (fun t hf => flushed7_eq V c t hf)
      (fun i => ⟨⟨15, by rw [hN]; decide⟩, (flush1_7 _).mpr rfl, mem_blk7 _ i⟩)
  constructor
  · show (dat1 V c).arrAt 7 cfg1.N (ix3 0 o 0) = _
    rw [h]
    exact if_pos rfl
  · show (dat1 V c).arrAt 7 cfg1.N (ix3 0 o 1) = _
    rw [h]
    exact if_neg Nat.one_ne_zero

end Cert.K1

end
-- ==== Proof.KThreadL0.lean ====
import proofs.«136216_g2000306190186476_pallasbulk_240_40_alg».proof.Proof.KThreadBase
import proofs.«136216_g2000306190186476_pallasbulk_240_40_alg».proof.Proof.K1

set_option maxRecDepth 16384

noncomputable section

namespace Cert.KThread

open Cert.KernelIdeal Cert.KernelIdeal.Gen Cert.KernelIdeal.GenP Cert.Spec Cert.Views Cert.Block Cert.Alg Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer `k`: its region's output specification is `Y k`, so from the region's exit on the parts up to `k + 1` are `X (k + 1)` with its moments. -/
theorem Yspec_L0 (c : Dev nD) (hR : (args m c).Real) : Cert.K1.Yspec (V5 m ρ) c = Y0 (args m c) :=
  layer_of_specs (Cert.KHost.h1_w (W4 m ρ c)) (arg_at m ρ c main_arg3 (by decide) 4 (by decide))
    (Cert.KHost.h1_gam (W4 m ρ c)) (arg_at m ρ c main_arg1 (by decide) 4 (by decide))
    (Cert.KHost.h1_bet (W4 m ρ c)) (arg_at m ρ c main_arg2 (by decide) 4 (by decide))
    (mask_at m ρ c 5 (by decide) (by decide)) (in0 m ρ c 5 (by decide) (by decide)) hR.w0 hR.g0 hR.b0 (isReal_X0 hR)

theorem in1 (c : Dev nD) (hR : (args m c).Real) (n : ℕ) (h : 6 ≤ n) (hn : n ≤ 17) : IsTri (acc1 m ρ c n) (X1 (args m c)) :=
  isTri_app (in0 m ρ c n (by omega) hn)
    (tri_of_out ((kept m ρ c main_v16_0 6 (by decide) n h hn).trans (W6_arr m ρ c 6))
      ((kept m ρ c main_v16_1 6 (by decide) n h hn).trans (W6_arr m ρ c 7)) (Cert.K1.arr_y (V5 m ρ) c)
      (Cert.K1.arr_m (V5 m ρ) c) (Yspec_L0 m ρ c hR))

end Cert.KThread

end
-- ==== Proof.K2.lean ====
import proofs.«136216_g2000306190186476_pallasbulk_240_40_alg».proof.Proof.FrameK
import proofs.«136216_g2000306190186476_pallasbulk_240_40_alg».proof.Proof.K2Body
import proofs.«136216_g2000306190186476_pallasbulk_240_40_alg».proof.Proof.SpecAlg
import Idealize.ShloMosaic.Lib.Tactic

set_option maxRecDepth 16384

noncomputable section

namespace Cert.K2

open Cert.KernelIdeal Cert.KernelIdeal.Gen Cert.KernelIdeal.GenP Cert.Spec Cert.Views Idealize.ShloMosaic Idealize.ShloMosaic.TcCoe
  Idealize.ShloMosaic.ValueIdx Idealize.SL.Sem
open Cert.ConvRows (hz2 hz3 at_congr)

variable (V : (c : Dev nD) → (b : Ref sig .tc) → Buf (Elt Ideal) ((c : Thread nD τ).loc b))

abbrev p0 (c : Dev nD) : Vec Ideal S64x128x1024 .bf16 := V c main_v11_0

abbrev p1 (c : Dev nD) : Vec Ideal S32x128x1024 .bf16 := V c main_v16_0

abbrev q0 (c : Dev nD) : Vec Ideal S1x64x2 .f32 := V c main_v11_1

abbrev q1 (c : Dev nD) : Vec Ideal S1x32x2 .f32 := V c main_v16_1

abbrev gam (c : Dev nD) : Vec Ideal S96x1 .f32 := V c main_v19

abbrev bet (c : Dev nD) : Vec Ideal S96x1 .f32 := V c main_v20

abbrev wmk (c : Dev nD) : Vec Ideal S2x1024 .f32 := V c main_v10

abbrev wts (c : Dev nD) : Vec Ideal S288x96 .f32 := V c main_v18

def Xin (c : Dev nD) : Act 96 := appendCh (actCM (p0 V c)) (actCM (p1 V c))

def S1in (c : Dev nD) : Fin 96 → EReal := appendV (mom3 (q0 V c) 0) (mom3 (q1 V c) 0)

def S2in (c : Dev nD) : Fin 96 → EReal := appendV (mom3 (q0 V c) 1) (mom3 (q1 V c) 1)

def Yspec (c : Dev nD) : Act 32 :=
  convTaps (wTapMajor (wts V c)) (maskRows (wmk V c))
    (bnreluM (col (gam V c)) (col (bet V c)) (S1in V c) (S2in V c) (Xin V c))

abbrev yOut (c : Dev nD) : Vec Ideal S32x128x1024 .bf16 := (dat2 V c).arrAt 8 cfg2.N

abbrev mOut (c : Dev nD) : Vec Ideal S1x32x2 .f32 := (dat2 V c).arrAt 9 cfg2.N

section Pieces
variable (c : Dev nD) (i : grid2.Coords) (a1 : Memref sig .tc .vmem S64x8x1024 .bf16) (h1 : a1.IsWhole)
  (a2 : Memref sig .tc .vmem S32x8x1024 .bf16) (h2 : a2.IsWhole) (a3 : Memref sig .tc .vmem S1x64x2 .f32) (h3 : a3.IsWhole)
  (a4 : Memref sig .tc .vmem S1x32x2 .f32) (h4 : a4.IsWhole) (a5 : Memref sig .tc .vmem S96x1 .f32) (h5 : a5.IsWhole)
  (a6 : Memref sig .tc .vmem S96x1 .f32) (h6 : a6.IsWhole) (a7 : Memref sig .tc .vmem S2x1024 .f32) (h7 : a7.IsWhole)
  (a8 : Memref sig .tc .vmem S288x96 .f32) (h8 : a8.IsWhole) (a9 : Memref sig .tc .vmem S32x8x1024 .bf16) (h9 : a9.IsWhole)
  (a10 : Memref sig .tc .vmem S1x32x2 .f32) (h10 : a10.IsWhole)

section First
variable (hc : cond2_0 i) (x0 : Vec Ideal S64x8x1024 .bf16) (x1 : Vec Ideal S32x8x1024 .bf16) (x2 : Vec Ideal S1x64x2 .f32)
  (x3 : Vec Ideal S1x32x2 .f32) (x4 x5 : Vec Ideal S96x1 .f32) (x6 : Vec Ideal S2x1024 .f32) (x7 : Vec Ideal S288x96 .f32)

theorem out8_A :
    out2_A_8 (F := Ideal) c i a1 h1 a2 h2 a3 h3 a4 h4 a5 h5 a6 h6 a7 h7 a8 h8 a9 h9 a10 h10 hc x0 x1 x2 x3 x4 x5 x6 x7
      = truncf .bf16 (yblock x0 x1 x2 x3 x4 x5 x6 x7) bitsLt_bf16_f32 := by
  unfold out2_A_8
  rw [View.read_writes_eq_canon _ _ _ (cover2_A_8 c i a1 h1 a2 h2 a3 h3 a4 h4 a5 h5 a6 h6 a7 h7 a8 h8 a9 h9 a10 h10 hc x0 x1 x2 x3 x4 x5 x6 x7)]
  unfold kernelRun2_A
  dsimp only
  sl_unfold_words
  rw [View.canon_unit_zero hz3]
  simp only [View.readAt_eq_ld, h1.read_unread, h2.read_unread, h3.read_unread, h4.read_unread, h5.read_unread, h6.read_unread, h7.read_unread, h8.read_unread, View.ld_unit_zero (S := S64x8x1024) hz3, View.ld_unit_zero (S := S32x8x1024) hz3, View.ld_unit_zero (S := S1x64x2) hz3, View.ld_unit_zero (S := S1x32x2) hz3, View.ld_unit_zero (S := S288x96) hz2]
  rfl

theorem out9_A :
    out2_A_9 (F := Ideal) c i a1 h1 a2 h2 a3 h3 a4 h4 a5 h5 a6 h6 a7 h7 a8 h8 a9 h9 a10 h10 hc x0 x1 x2 x3 x4 x5 x6 x7
      = k2_pay2 (F := Ideal) (yblock x0 x1 x2 x3 x4 x5 x6 x7) (k2_pay1 (F := Ideal)) := by
  unfold out2_A_9
  rw [View.read_writes_eq_canon _ _ _ (cover2_A_9 c i a1 h1 a2 h2 a3 h3 a4 h4 a5 h5 a6 h6 a7 h7 a8 h8 a9 h9 a10 h10 hc x0 x1 x2 x3 x4 x5 x6 x7)]
  unfold kernelRun2_A
  dsimp only
  sl_unfold_words
  rw [View.canon_cons_unit_zero (S := S1x32x2) hz3, View.readCov_unit_zero (S := S1x32x2) _ hz3]
  simp only [View.readAt_eq_ld, h1.read_unread, h2.read_unread, h3.read_unread, h4.read_unread, h5.read_unread, h6.read_unread, h7.read_unread, h8.read_unread, View.ld_unit_zero (S := S64x8x1024) hz3, View.ld_unit_zero (S := S32x8x1024) hz3, View.ld_unit_zero (S := S1x64x2) hz3, View.ld_unit_zero (S := S1x32x2) hz3, View.ld_unit_zero (S := S288x96) hz2]
  rfl

end First

section Later
variable (hc : ¬cond2_0 i) (x0 : Vec Ideal S64x8x1024 .bf16) (x1 : Vec Ideal S32x8x1024 .bf16) (x2 : Vec Ideal S1x64x2 .f32)
  (x3 : Vec Ideal S1x32x2 .f32) (x4 x5 : Vec Ideal S96x1 .f32) (x6 : Vec Ideal S2x1024 .f32) (x7 : Vec Ideal S288x96 .f32) (xo9 : Vec Ideal S1x32x2 .f32)

theorem out8_B :
    out2_B_8 (F := Ideal) c i a1 h1 a2 h2 a3 h3 a4 h4 a5 h5 a6 h6 a7 h7 a8 h8 a9 h9 a10 h10 hc x0 x1 x2 x3 x4 x5 x6 x7 xo9
      = truncf .bf16 (yblock x0 x1 x2 x3 x4 x5 x6 x7) bitsLt_bf16_f32 := by
  unfold out2_B_8
  rw [View.read_writes_eq_canon _ _ _ (cover2_B_8 c i a1 h1 a2 h2 a3 h3 a4 h4 a5 h5 a6 h6 a7 h7 a8 h8 a9 h9 a10 h10 hc x0 x1 x2 x3 x4 x5 x6 x7 xo9)]
  unfold kernelRun2_B
  dsimp only
  sl_unfold_words
  rw [View.canon_unit_zero hz3]
  simp only [View.readAt_eq_ld, h1.read_unread, h2.read_unread, h3.read_unread, h4.read_unread, h5.read_unread, h6.read_unread, h7.read_unread, h8.read_unread, h10.read_unread, View.ld_unit_zero (S := S64x8x1024) hz3, View.ld_unit_zero (S := S32x8x1024) hz3, View.ld_unit_zero (S := S1x64x2) hz3, View.ld_unit_zero (S := S1x32x2) hz3, View.ld_unit_zero (S := S288x96) hz2]
  rfl

theorem out9_B :
    out2_B_9 (F := Ideal) c i a1 h1 a2 h2 a3 h3 a4 h4 a5 h5 a6 h6 a7 h7 a8 h8 a9 h9 a10 h10 hc x0 x1 x2 x3 x4 x5 x6 x7 xo9
      = k2_pay2 (F := Ideal) (yblock x0 x1 x2 x3 x4 x5 x6 x7) xo9 := by
  unfold out2_B_9
  rw [View.read_writes_eq_canon _ _ _ (cover2_B_9 c i a1 h1 a2 h2 a3 h3 a4 h4 a5 h5 a6 h6 a7 h7 a8 h8 a9 h9 a10 h10 hc x0 x1 x2 x3 x4 x5 x6 x7 xo9)]
  unfold kernelRun2_B
  dsimp only
  sl_unfold_words
  rw [View.canon_unit_zero hz3]
  simp only [View.readAt_eq_ld, h1.read_unread, h2.read_unread, h3.read_unread, h4.read_unread, h5.read_unread, h6.read_unread, h7.read_unread, h8.read_unread, h10.read_unread, View.ld_unit_zero (S := S64x8x1024) hz3, View.ld_unit_zero (S := S32x8x1024) hz3, View.ld_unit_zero (S := S1x64x2) hz3, View.ld_unit_zero (S := S1x32x2) hz3, View.ld_unit_zero (S := S288x96) hz2]
  rfl

end Later

end Pieces

abbrev blk0 (c : Dev nD) (t : Fin cfg2.N) : Vec Ideal S64x8x1024 .bf16 := iblk2 V c 0 t
abbrev blk1 (c : Dev nD) (t : Fin cfg2.N) : Vec Ideal S32x8x1024 .bf16 := iblk2 V c 1 t
abbrev blk2 (c : Dev nD) (t : Fin cfg2.N) : Vec Ideal S1x64x2 .f32 := iblk2 V c 2 t
abbrev blk3 (c : Dev nD) (t : Fin cfg2.N) : Vec Ideal S1x32x2 .f32 := iblk2 V c 3 t
abbrev blk4 (c : Dev nD) (t : Fin cfg2.N) : Vec Ideal S96x1 .f32 := iblk2 V c 4 t
abbrev blk5 (c : Dev nD) (t : Fin cfg2.N) : Vec Ideal S96x1 .f32 := iblk2 V c 5 t
abbrev blk6 (c : Dev nD) (t : Fin cfg2.N) : Vec Ideal S2x1024 .f32 := iblk2 V c 6 t
abbrev blk7 (c : Dev nD) (t : Fin cfg2.N) : Vec Ideal S288x96 .f32 := iblk2 V c 7 t

theorem idx2_0 : ∀ t : Fin cfg2.N, win2_0.index t (0 : Fin 3) = 0 ∧ win2_0.index t (1 : Fin 3) = t.val ∧ win2_0.index t (2 : Fin 3) = 0 :=
  (by decide +kernel : ∀ t : Fin grid2.N, _)
theorem idx2_1 : ∀ t : Fin cfg2.N, win2_1.index t (0 : Fin 3) = 0 ∧ win2_1.index t (1 : Fin 3) = t.val ∧ win2_1.index t (2 : Fin 3) = 0 :=
  (by decide +kernel : ∀ t : Fin grid2.N, _)
theorem idx2_8 : ∀ t : Fin cfg2.N, win2_8.index t (0 : Fin 3) = 0 ∧ win2_8.index t (1 : Fin 3) = t.val ∧ win2_8.index t (2 : Fin 3) = 0 :=
  (by decide +kernel : ∀ t : Fin grid2.N, _)
theorem idx2_9 : ∀ t : Fin cfg2.N, ∀ a, win2_9.index t a = 0 :=
  (by decide +kernel : ∀ t : Fin grid2.N, _)

abbrev img (t : Fin cfg2.N) (b : Fin 8) : Fin 128 :=
  ⟨t.val * 8 + b.val, by have := t.isLt; have hN : cfg2.N = 16 := N_2; have := b.isLt; omega⟩

theorem blk0_apply (c : Dev nD) (t : Fin cfg2.N) (ch : Fin 64) (b : Fin 8) (q : Fin 1024) :
    blk0 V c t (ix3 ch b q) = p0 V c (ix3 ch (img t b) q) := by
  have hi := idx2_0 t
  show iblk2 V c 0 t (ix3 ch b q) = V c main_v11_0 (ix3 ch (img t b) q)
  unfold iblk2
  rw [View.read_apply]
  show V c main_v11_0 _ = V c main_v11_0 _
  refine congrArg (V c main_v11_0) (funext fun a => Fin.ext ?_)
  match a with
  | ⟨0, _⟩ => show win2_0.index t (0 : Fin 3) * 64 + 1 * ch.val = ch.val; rw [hi.1]; omega
  | ⟨1, _⟩ => show win2_0.index t (1 : Fin 3) * 8 + 1 * b.val = t.val * 8 + b.val; rw [hi.2.1]; omega
  | ⟨2, _⟩ => show win2_0.index t (2 : Fin 3) * 1024 + 1 * q.val = q.val; rw [hi.2.2]; omega

theorem blk1_apply (c : Dev nD) (t : Fin cfg2.N) (ch : Fin 32) (b : Fin 8) (q : Fin 1024) :
    blk1 V c t (ix3 ch b q) = p1 V c (ix3 ch (img t b) q) := by
  have hi := idx2_1 t
  show iblk2 V c 1 t (ix3 ch b q) = V c main_v16_0 (ix3 ch (img t b) q)
  unfold iblk2
  rw [View.read_apply]
  show V c main_v16_0 _ = V c main_v16_0 _
  refine congrArg (V c main_v16_0) (funext fun a => Fin.ext ?_)
  match a with
  | ⟨0, _⟩ => show win2_1.index t (0 : Fin 3) * 32 + 1 * ch.val = ch.val; rw [hi.1]; omega
  | ⟨1, _⟩ => show win2_1.index t (1 : Fin 3) * 8 + 1 * b.val = t.val * 8 + b.val; rw [hi.2.1]; omega
  | ⟨2, _⟩ => show win2_1.index t (2 : Fin 3) * 1024 + 1 * q.val = q.val; rw [hi.2.2]; omega

theorem idx2_whole : ∀ t : Fin cfg2.N,
    (∀ a, win2_2.index t a = 0) ∧ (∀ a, win2_3.index t a = 0) ∧ (∀ a, win2_4.index t a = 0) ∧ (∀ a, win2_5.index t a = 0)
    ∧ (∀ a, win2_6.index t a = 0) ∧ (∀ a, win2_7.index t a = 0) :=
  (by decide +kernel : ∀ t : Fin grid2.N, _)

theorem blk2_eq (c : Dev nD) (t : Fin cfg2.N) : blk2 V c t = q0 V c :=
  funext fun j => at_congr (V c main_v11_1) fun a => win2_2.rect_emb_val_of_index_zero t a ((idx2_whole t).1 a) j

theorem blk3_eq (c : Dev nD) (t : Fin cfg2.N) : blk3 V c t = q1 V c :=
  funext fun j => at_congr (V c main_v16_1) fun a => win2_3.rect_emb_val_of_index_zero t a ((idx2_whole t).2.1 a) j

theorem blk4_eq (c : Dev nD) (t : Fin cfg2.N) : blk4 V c t = gam V c :=
  funext fun j => at_congr (V c main_v19) fun a => win2_4.rect_emb_val_of_index_zero t a ((idx2_whole t).2.2.1 a) j

theorem blk5_eq (c : Dev nD) (t : Fin cfg2.N) : blk5 V c t = bet V c :=
  funext fun j => at_congr (V c main_v20) fun a => win2_5.rect_emb_val_of_index_zero t a ((idx2_whole t).2.2.2.1 a) j

theorem blk6_eq (c : Dev nD) (t : Fin cfg2.N) : blk6 V c t = wmk V c :=
  funext fun j => at_congr (V c main_v10) fun a => win2_6.rect_emb_val_of_index_zero t a ((idx2_whole t).2.2.2.2.1 a) j

theorem blk7_eq (c : Dev nD) (t : Fin cfg2.N) : blk7 V c t = wts V c :=
  funext fun j => at_congr (V c main_v18) fun a => win2_7.rect_emb_val_of_index_zero t a ((idx2_whole t).2.2.2.2.2 a) j

theorem xrow_eq (c : Dev nD) (t : Fin cfg2.N) (b : Fin 8) : xrow (blk0 V c t) (blk1 V c t) b = Xin V c (img t b) := by
  funext k q
  unfold xrow Xin appendCh actCM
  by_cases h : k.val < 64
  · rw [dif_pos h, dif_pos h]
    exact blk0_apply V c t ⟨k.val, h⟩ b q
  · rw [dif_neg h, dif_neg h]
    exact blk1_apply V c t ⟨k.val - 64, by have := k.isLt; omega⟩ b q

def ypt (c : Dev nD) (t : Fin cfg2.N) : FVec Ideal S32x8x1024 .f32 :=
  yblock (blk0 V c t) (blk1 V c t) (blk2 V c t) (blk3 V c t) (blk4 V c t) (blk5 V c t) (blk6 V c t) (blk7 V c t)

theorem ypt_apply (c : Dev nD) (t : Fin cfg2.N) (o : Fin 32) (b : Fin 8) (q : Fin 1024) :
    ypt V c t (ix3 o b q) = Yspec V c (img t b) o q := by
  unfold ypt
  rw [yblock_apply]
  unfold Yspec
  rw [convTaps_bnreluM_row]
  unfold arow S1in S2in
  rw [blk2_eq, blk3_eq, blk4_eq, blk5_eq, blk6_eq, blk7_eq, xrow_eq]

theorem out8_at (c : Dev nD) (t : Fin cfg2.N) :
    (outsAt2 V c t.val t.isLt).1 = truncf .bf16 (ypt V c t) bitsLt_bf16_f32 := by
  by_cases h0 : t.val % 16 = 0
  · rw [outsAt2_A V c t h0]
    dsimp only
    apply out8_A
  · rw [outsAt2_B V c t h0]
    dsimp only
    apply out8_B

def part1 (c : Dev nD) (o : Fin 32) (j : ℕ) : EReal :=
  if hj : j < 16 then ∑ b : Fin 8, ∑ q : Fin 1024, Yspec V c ⟨j * 8 + b.val, by have := b.isLt; omega⟩ o q else 0

def part2 (c : Dev nD) (o : Fin 32) (j : ℕ) : EReal :=
  if hj : j < 16 then ∑ b : Fin 8, ∑ q : Fin 1024,
    Yspec V c ⟨j * 8 + b.val, by have := b.isLt; omega⟩ o q * Yspec V c ⟨j * 8 + b.val, by have := b.isLt; omega⟩ o q else 0

theorem blocksum1 (c : Dev nD) (t : Fin cfg2.N) (o : Fin 32) :
    ∑ b : Fin 8, ∑ q : Fin 1024, ypt V c t (ix3 o b q) = part1 V c o t.val := by
  have hN : cfg2.N = 16 := N_2
  have ht : t.val < 16 := by have := t.isLt; omega
  unfold part1
  rw [dif_pos ht]
  exact Finset.sum_congr rfl fun b _ => Finset.sum_congr rfl fun q _ => ypt_apply V c t o b q

theorem blocksum2 (c : Dev nD) (t : Fin cfg2.N) (o : Fin 32) :
    ∑ b : Fin 8, ∑ q : Fin 1024, ypt V c t (ix3 o b q) * ypt V c t (ix3 o b q) = part2 V c o t.val := by
  have hN : cfg2.N = 16 := N_2
  have ht : t.val < 16 := by have := t.isLt; omega
  unfold part2
  rw [dif_pos ht]
  exact Finset.sum_congr rfl fun b _ => Finset.sum_congr rfl fun q _ => by rw [ypt_apply V c t o b q]

theorem out9_at (c : Dev nD) : ∀ (n : ℕ) (h : n < cfg2.N) (o : Fin 32),
    (outsAt2 V c n h).2 (ix3 (0 : Fin 1) o (0 : Fin 2)) = ∑ j ∈ Finset.range (n + 1), part1 V c o j
    ∧ (outsAt2 V c n h).2 (ix3 (0 : Fin 1) o (1 : Fin 2)) = ∑ j ∈ Finset.range (n + 1), part2 V c o j
  | 0, h, o => by
    have e : (outsAt2 V c 0 h).2 = k2_pay2 (F := Ideal) (ypt V c ⟨0, h⟩) (k2_pay1 (F := Ideal)) := by
      rw [outsAt2_A V c ⟨0, h⟩ rfl]
      dsimp only
      apply out9_A
    obtain ⟨m1, m2⟩ := mom_apply (ypt V c ⟨0, h⟩) (k2_pay1 (F := Ideal)) o
    rw [e, m1, m2, zeroTable_apply, zeroTable_apply]
    simp only [zero_add, Finset.sum_range_one]
    exact ⟨blocksum1 V c ⟨0, h⟩ o, blocksum2 V c ⟨0, h⟩ o⟩
  | n + 1, h, o => by
    have hN : cfg2.N = 16 := N_2
    have hB : ¬(⟨n + 1, h⟩ : Fin cfg2.N).val % 16 = 0 := by dsimp only; omega
    have e : (outsAt2 V c (n + 1) h).2
        = k2_pay2 (F := Ideal) (ypt V c ⟨n + 1, h⟩) (outsAt2 V c n (Nat.lt_of_succ_lt h)).2 := by
      rw [outsAt2_B V c ⟨n + 1, h⟩ hB]
      dsimp only
      apply out9_B
    obtain ⟨m1, m2⟩ := mom_apply (ypt V c ⟨n + 1, h⟩) (outsAt2 V c n (Nat.lt_of_succ_lt h)).2 o
    obtain ⟨i1, i2⟩ := out9_at c n (Nat.lt_of_succ_lt h) o
    rw [e, m1, m2, i1, i2, Finset.sum_range_succ _ (n + 1), Finset.sum_range_succ _ (n + 1)]
    exact ⟨congrArg _ (blocksum1 V c ⟨n + 1, h⟩ o), congrArg _ (blocksum2 V c ⟨n + 1, h⟩ o)⟩

theorem emb8 (t : Fin cfg2.N) (o : Fin 32) (b : Fin 8) (q : Fin 1024) :
    (((cfg2.win 8).blk t).view.emb (ix3 o b q) : S32x128x1024.Idx) = ix3 o (img t b) q := by
  have hi := idx2_8 t
  funext a
  apply Fin.ext
  match a with
  | ⟨0, _⟩ => show win2_8.index t (0 : Fin 3) * 32 + 1 * o.val = o.val; rw [hi.1]; omega
  | ⟨1, _⟩ => show win2_8.index t (1 : Fin 3) * 8 + 1 * b.val = t.val * 8 + b.val; rw [hi.2.1]; omega
  | ⟨2, _⟩ => show win2_8.index t (2 : Fin 3) * 1024 + 1 * q.val = q.val; rw [hi.2.2]; omega

def Gy (c : Dev nD) : S32x128x1024.Idx → EReal := fun i => Yspec V c (i 1) (i 0) (i 2)

theorem flushed8 (c : Dev nD) (t : Fin cfg2.N) :
    (dat2 V c).flushed 8 t = ((cfg2.win 8).blk t).view.read (Elt Ideal) (Gy V c) := by
  show (cfg2.win 8).cut (grid2.coords t) ((dat2 V c).after 8 t) = _
  rw [after2_8, out8_at]
  refine funext fun (j : S32x8x1024.Idx) => ?_
  obtain ⟨o, b, q, rfl⟩ : ∃ (o : Fin 32) (b : Fin 8) (q : Fin 1024), j = ix3 o b q := ⟨j 0, j 1, j 2, eq_ix3 j⟩
  show ypt V c t (ix3 o b q) = Gy V c (((cfg2.win 8).blk t).view.emb (ix3 o b q))
  rw [ypt_apply]
  exact (congrArg (Gy V c) (emb8 t o b q)).symm

theorem yOut_eq (c : Dev nD) : yOut V c = Gy V c :=
  (dat2 V c).arrAt_eq_of_cover 8 (Gy V c) (fun t _ => flushed8 V c t) fun (i : S32x128x1024.Idx) => by
    have hN : cfg2.N = 16 := N_2
    have h1 : (i 1).val < 128 := (i 1).isLt
    let t : Fin cfg2.N := ⟨(i 1).val / 8, by omega⟩
    have e : (((cfg2.win 8).blk t).view.emb (ix3 (i 0) ⟨(i 1).val % 8, by omega⟩ (i 2)) : S32x128x1024.Idx) = i :=
      (emb8 t _ _ _).trans (funext fun a => Fin.ext (by
        match a with
        | ⟨0, _⟩ => rfl
        | ⟨1, _⟩ => show (i 1).val / 8 * 8 + (i 1).val % 8 = (i 1).val; omega
        | ⟨2, _⟩ => rfl))
    have h := ((cfg2.win 8).blk t).view.emb_mem_set (ix3 (i 0) ⟨(i 1).val % 8, by omega⟩ (i 2))
    rw [e] at h
    exact ⟨t, flush2_8 _, h⟩

theorem arr_y (c : Dev nD) : actCM (yOut V c) = Yspec V c := by
  rw [yOut_eq]
  rfl

theorem emb9 (t : Fin cfg2.N) (j : S1x32x2.Idx) : (((cfg2.win 9).blk t).view.emb j : S1x32x2.Idx) = j :=
  funext fun a => Fin.ext (win2_9.rect_emb_val_of_index_zero t a (idx2_9 t a) j)

def Gm (c : Dev nD) : S1x32x2.Idx → EReal := fun i =>
  if (i 2).val = 0 then ∑ j ∈ Finset.range 16, part1 V c (i 1) j else ∑ j ∈ Finset.range 16, part2 V c (i 1) j

theorem flushed9 (c : Dev nD) (t : Fin cfg2.N) (hf : (cfg2.win 9).flush t = true) :
    (dat2 V c).flushed 9 t = ((cfg2.win 9).blk t).view.read (Elt Ideal) (Gm V c) := by
  have hN : cfg2.N = 16 := N_2
  have h15 : t.val = 15 := by have := (flush2_9 t).mp hf; have := t.isLt; omega
  show (cfg2.win 9).cut (grid2.coords t) ((dat2 V c).after 9 t) = _
  rw [after2_9]
  refine funext fun (j : S1x32x2.Idx) => ?_
  obtain ⟨u, o, k, rfl⟩ : ∃ (u : Fin 1) (o : Fin 32) (k : Fin 2), j = ix3 u o k := ⟨j 0, j 1, j 2, eq_ix3 j⟩
  show (outsAt2 V c t.val t.isLt).2 (ix3 u o k) = Gm V c (((cfg2.win 9).blk t).view.emb (ix3 u o k))
  rw [emb9]
  obtain rfl : u = 0 := Subsingleton.elim _ _
  obtain ⟨i1, i2⟩ := out9_at V c t.val t.isLt o
  unfold Gm
  have hk : k.val = 0 ∨ k.val = 1 := by have := k.isLt; omega
  rcases hk with hk | hk
  · obtain rfl : k = 0 := Fin.ext hk
    rw [i1, h15]
    exact (if_pos rfl).symm
  · obtain rfl : k = 1 := Fin.ext hk
    rw [i2, h15]
    exact (if_neg Nat.one_ne_zero).symm

theorem mOut_eq (c : Dev nD) : mOut V c = Gm V c :=
  (dat2 V c).arrAt_eq_of_cover 9 (Gm V c) (flushed9 V c) fun i => by
    have hN : cfg2.N = 16 := N_2
    have h := ((cfg2.win 9).blk (⟨15, by omega⟩ : Fin cfg2.N)).view.emb_mem_set i
    rw [emb9] at h
    exact ⟨_, (flush2_9 _).mpr rfl, h⟩

theorem parts_sum1 (c : Dev nD) (o : Fin 32) : ∑ j ∈ Finset.range 16, part1 V c o j = sum1 (Yspec V c) o := by
  unfold sum1
  rw [Cert.SpecAlg.sum_images_blocks (fun n => ∑ p : Fin 1024, Yspec V c n o p), ← Cert.SpecAlg.sum_fin_eq_range 16 (part1 V c o)]
  refine Finset.sum_congr rfl fun j _ => ?_
  unfold part1
  rw [dif_pos j.isLt]

theorem parts_sum2 (c : Dev nD) (o : Fin 32) : ∑ j ∈ Finset.range 16, part2 V c o j = sum2 (Yspec V c) o := by
  unfold sum2
  rw [Cert.SpecAlg.sum_images_blocks (fun n => ∑ p : Fin 1024, Yspec V c n o p * Yspec V c n o p),
    ← Cert.SpecAlg.sum_fin_eq_range 16 (part2 V c o)]
  refine Finset.sum_congr rfl fun j _ => ?_
  unfold part2
  rw [dif_pos j.isLt]

theorem arr_m (c : Dev nD) (o : Fin 32) :
    mom3 (mOut V c) 0 o = sum1 (Yspec V c) o ∧ mom3 (mOut V c) 1 o = sum2 (Yspec V c) o := by
  rw [mOut_eq]
  unfold mom3 Gm
  constructor
  · rw [if_pos (show ((ix3 (0 : Fin 1) o (0 : Fin 2) : S1x32x2.Idx) 2).val = 0 from rfl)]
    exact parts_sum1 V c o
  · rw [if_neg (show ¬((ix3 (0 : Fin 1) o (1 : Fin 2) : S1x32x2.Idx) 2).val = 0 from Nat.one_ne_zero)]
    exact parts_sum2 V c o

end Cert.K2

end
-- ==== Proof.KThreadL1.lean ====
import proofs.«136216_g2000306190186476_pallasbulk_240_40_alg».proof.Proof.KThreadL0
import proofs.«136216_g2000306190186476_pallasbulk_240_40_alg».proof.Proof.K2

set_option maxRecDepth 16384

noncomputable section

namespace Cert.KThread

open Cert.KernelIdeal Cert.KernelIdeal.Gen Cert.KernelIdeal.GenP Cert.Spec Cert.Views Cert.Block Cert.Alg Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

theorem Yspec_L1 (c : Dev nD) (hR : (args m c).Real) : Cert.K2.Yspec (V7 m ρ) c = Y1 (args m c) :=
  layer_of_specs (Cert.KHost.h2_w (W6 m ρ c)) (arg_at m ρ c main_arg6 (by decide) 6 (by decide))
    (Cert.KHost.h2_gam (W6 m ρ c)) (arg_at m ρ c main_arg4 (by decide) 6 (by decide))
    (Cert.KHost.h2_bet (W6 m ρ c)) (arg_at m ρ c main_arg5 (by decide) 6 (by decide))
    (mask_at m ρ c 7 (by decide) (by decide)) (in1 m ρ c hR 7 (by decide) (by decide)) hR.w1 hR.g1 hR.b1 (isReal_X1 hR)

theorem in2 (c : Dev nD) (hR : (args m c).Real) (n : ℕ) (h : 8 ≤ n) (hn : n ≤ 17) : IsTri (acc2 m ρ c n) (X2 (args m c)) :=
  isTri_app (in1 m ρ c hR n (by omega) hn)
    (tri_of_out ((kept m ρ c main_v21_0 8 (by decide) n h hn).trans (W8_arr m ρ c 8))
      ((kept m ρ c main_v21_1 8 (by decide) n h hn).trans (W8_arr m ρ c 9)) (Cert.K2.arr_y (V7 m ρ) c)
      (Cert.K2.arr_m (V7 m ρ) c) (Yspec_L1 m ρ c hR))

end Cert.KThread

end
-- ==== Proof.K3Body.lean ====
import proofs.«136216_g2000306190186476_pallasbulk_240_40_alg».proof.Proof.Gen.KernelIdeal.Skeleton
import proofs.«136216_g2000306190186476_pallasbulk_240_40_alg».proof.Proof.ConvRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.K3Body

open scoped BigOperators

open Cert.KernelIdeal Cert.KernelIdeal.Gen Idealize.ShloMosaic Idealize.ShloMosaic.ValueIdx

def kInv : EReal := Ideal.ofBits .f32 0x37000000#32

def kEps : EReal := Ideal.ofBits .f32 0x3727C5AC#32

def kScale (g s1 s2 : EReal) : EReal := g * Ideal.rsqrt (s2 * kInv - s1 * kInv * (s1 * kInv) + kEps)

def kShift (g b s1 s2 : EReal) : EReal := b - s1 * kInv * kScale g s1 s2

def kAct (x g b s1 s2 : EReal) : EReal := max (x * kScale g s1 s2 + kShift g b s1 s2) 0

theorem rsqrt_apply {s : Shape} {φ : FTy} (x : FVec Ideal s φ) (i : s.Idx) : rsqrt x i = Ideal.rsqrt (x i) := rfl

theorem momcol_apply {C : ℕ} (k : ℕ) (hk : k < 2) (v : (⟨3, ![1, C, 2]⟩ : Shape).Idx → EReal)
    (h1 : (⟨3, ![1, C, 2]⟩ : Shape).ShapeCasts ⟨2, ![C, 2]⟩)
    (h2 : (⟨2, ![C, 2]⟩ : Shape).Slices ![0, k] ⟨2, ![C, 1]⟩) (ch : Fin C) (u : Fin 1) :
    extractStridedSlice ⟨2, ![C, 1]⟩ ![0, k] (shapeCast ⟨2, ![C, 2]⟩ v h1) h2 (ix2 ch u)
      = v (ix3 (0 : Fin 1) ch ⟨k, hk⟩) :=
  (slice2_axis1_apply k _ h2 ch u ⟨k, hk⟩ (by have := u.isLt; show k = k + u.val; omega)).trans
    (shapeCast_1ab_ab_apply v h1 ch ⟨k, hk⟩)

theorem bcol_apply {C : ℕ} (u : (⟨2, ![C, 1]⟩ : Shape).Idx → EReal)
    (hc : (⟨2, ![C, 1]⟩ : Shape).ShapeCasts ⟨3, ![C, 1, 1]⟩)
    (hb : (⟨3, ![C, 1, 1]⟩ : Shape).Broadcasts ⟨3, ![C, 8, 1024]⟩) (ch : Fin C) (b : Fin 8) (q : Fin 1024) :
    broadcastTo ⟨3, ![C, 8, 1024]⟩ (shapeCast ⟨3, ![C, 1, 1]⟩ u hc) hb (ix3 ch b q) = u (ix2 ch (0 : Fin 1)) := by
  refine (broadcastTo_apply _ hb (ix3 ch b q) (ix3 ch (0 : Fin 1) (0 : Fin 1)) fun a => ?_).trans ?_
  · match a with
    | ⟨0, _⟩ =>
      show ch.val = if C = 1 then 0 else ch.val
      split
      · have := ch.isLt; omega
      · rfl
    | ⟨1, _⟩ => rfl
    | ⟨2, _⟩ => rfl
  · exact shapeCast_apply u hc _ (ix2 ch (0 : Fin 1)) (by
      rw [Shape.rowMajor_val_three, Shape.rowMajor_val_two]
      show ch.val * 1 + 0 = (ch.val * 1 + 0) * 1 + 0
      omega)

theorem ofBits_zero : (FloatOps.ofBits FTy.f32 0x00000000#32 : Ideal .f32) = (0 : EReal) := Ideal.ofBits_zero_f32

theorem pay3_apply (v0 : Vec Ideal S1x64x2 .f32) (v10 v16 : Vec Ideal S64x1 .f32) (v20 : Vec Ideal S64x8x1024 .bf16)
    (ch : Fin 64) (b : Fin 8) (q : Fin 1024) :
    k3_pay3 (F := Ideal) v0 v10 v16 v20 (ix3 ch b q)
      = kAct (v20 (ix3 ch b q)) (v10 (ix2 ch 0)) (v16 (ix2 ch 0)) (v0 (ix3 0 ch 0)) (v0 (ix3 0 ch 1)) := by
  unfold k3_pay3
  simp only [maximumf_apply, addf_apply, subf_apply, mulf_apply, broadcast_apply, extf_apply, rsqrt_apply, bcol_apply,
    momcol_apply 0 (by decide), momcol_apply 1 (by decide), shapeCast_self, ofBits_zero]
  rfl

theorem pay8_apply (v31 : Vec Ideal S1x32x2 .f32) (v41 v47 : Vec Ideal S32x1 .f32) (v51 : Vec Ideal S32x8x1024 .bf16)
    (ch : Fin 32) (b : Fin 8) (q : Fin 1024) :
    k3_pay8 (F := Ideal) (k3_pay5 v31) (k3_pay6 v31) (k3_pay7 v31) v41 v47 v51 (ix3 ch b q)
      = kAct (v51 (ix3 ch b q)) (v41 (ix2 ch 0)) (v47 (ix2 ch 0)) (v31 (ix3 0 ch 0)) (v31 (ix3 0 ch 1)) := by
  unfold k3_pay8 k3_pay7 k3_pay6 k3_pay5 k3_pay4
  simp only [maximumf_apply, addf_apply, subf_apply, mulf_apply, broadcast_apply, extf_apply, rsqrt_apply, bcol_apply,
    momcol_apply 0 (by decide), momcol_apply 1 (by decide), shapeCast_self, ofBits_zero]
  rfl

theorem mm_apply (L : FVec Ideal S288x128 .f32) (R : FVec Ideal S128x8192 .f32) (r : Fin 288) (c : Fin 8192) :
    matmul dot_S288x128_S128x8192_S288x8192_1_0_0_1_n_n none L R (constant S288x8192 .f32 0x00000000#32) (ix2 r c)
      = ∑ k : Fin 128, L (ix2 r k) * R (ix2 k c) :=
  Cert.ConvRows.mm_apply L R r c

theorem unflat_apply {α : Type} {A : ℕ} (x : (⟨2, ![A, 8192]⟩ : Shape).Idx → α)
    (h : (⟨2, ![A, 8192]⟩ : Shape).ShapeCasts ⟨3, ![A, 8, 1024]⟩) (r : Fin A) (b : Fin 8) (q : Fin 1024) :
    shapeCast ⟨3, ![A, 8, 1024]⟩ x h (ix3 r b q)
      = x (ix2 r ⟨b.val * 1024 + q.val, by have := b.isLt; have := q.isLt; omega⟩) :=
  shapeCast_apply x h _ _ (by
    rw [Shape.rowMajor_val_three, Shape.rowMajor_val_two]
    show r.val * 8192 + (b.val * 1024 + q.val) = (r.val * 8 + b.val) * 1024 + q.val
    omega)

theorem flat_apply {α : Type} {A : ℕ} (x : (⟨3, ![A, 8, 1024]⟩ : Shape).Idx → α)
    (h : (⟨3, ![A, 8, 1024]⟩ : Shape).ShapeCasts ⟨2, ![A, 8192]⟩) (r : Fin A) (b : Fin 8) (q : Fin 1024)
    (hlt : b.val * 1024 + q.val < 8192) :
    shapeCast ⟨2, ![A, 8192]⟩ x h (ix2 r ⟨b.val * 1024 + q.val, hlt⟩) = x (ix3 r b q) :=
  shapeCast_apply x h _ _ (by
    rw [Shape.rowMajor_val_three, Shape.rowMajor_val_two]
    show (r.val * 8 + b.val) * 1024 + q.val = r.val * 8192 + (b.val * 1024 + q.val)
    omega)

def cat3 {α : Type} (a0 : Fin 64 → α) (a1 a2 : Fin 32 → α) : Fin 128 → α := fun c =>
  if h : c.val < 96 then (if h' : c.val < 64 then a0 ⟨c.val, h'⟩ else a1 ⟨c.val - 64, by omega⟩)
  else a2 ⟨c.val - 96, by have := c.isLt; omega⟩

theorem cat3_apply (a0 : FVec Ideal S64x8x1024 .f32) (a1 a2 : FVec Ideal S32x8x1024 .f32)
    (h : Shape.Concatenates [S64x8x1024, S32x8x1024, S32x8x1024] S128x8x1024 0) (k : Fin 128) (b : Fin 8) (q : Fin 1024) :
    concatenate S128x8x1024 0 [⟨S64x8x1024, a0⟩, ⟨S32x8x1024, a1⟩, ⟨S32x8x1024, a2⟩] h (ix3 k b q)
      = cat3 (fun c => a0 (ix3 c b q)) (fun c => a1 (ix3 c b q)) (fun c => a2 (ix3 c b q)) k := by
  unfold cat3
  by_cases h1 : k.val < 96
  · rw [dif_pos h1]
    by_cases h0 : k.val < 64
    · rw [dif_pos h0]
      refine concatenate_apply_piece (t := S128x8x1024) 0 [⟨S64x8x1024, a0⟩, ⟨S32x8x1024, a1⟩, ⟨S32x8x1024, a2⟩] h (ix3 k b q) 0 (show 0 < 3 by omega) S64x8x1024 a0 rfl rfl 0 rfl
        (ix3 ⟨k.val, h0⟩ b q) (fun bb hbb => ?_) ?_
      · match bb with
        | ⟨0, _⟩ => exact absurd rfl hbb
        | ⟨1, _⟩ => rfl
        | ⟨2, _⟩ => rfl
      · show 0 + k.val = k.val
        omega
    · rw [dif_neg h0]
      refine concatenate_apply_piece (t := S128x8x1024) 0 [⟨S64x8x1024, a0⟩, ⟨S32x8x1024, a1⟩, ⟨S32x8x1024, a2⟩] h (ix3 k b q) 1 (show 1 < 3 by omega) S32x8x1024 a1 rfl rfl 64 rfl
        (ix3 ⟨k.val - 64, by omega⟩ b q) (fun bb hbb => ?_) ?_
      · match bb with
        | ⟨0, _⟩ => exact absurd rfl hbb
        | ⟨1, _⟩ => rfl
        | ⟨2, _⟩ => rfl
      · show 64 + (k.val - 64) = k.val
        omega
  · rw [dif_neg h1]
    refine concatenate_apply_piece (t := S128x8x1024) 0 [⟨S64x8x1024, a0⟩, ⟨S32x8x1024, a1⟩, ⟨S32x8x1024, a2⟩] h (ix3 k b q) 2 (show 2 < 3 by omega) S32x8x1024 a2 rfl rfl 96 rfl
      (ix3 ⟨k.val - 96, by have := k.isLt; omega⟩ b q) (fun bb hbb => ?_) ?_
    · match bb with
      | ⟨0, _⟩ => exact absurd rfl hbb
      | ⟨1, _⟩ => rfl
      | ⟨2, _⟩ => rfl
    · show 96 + (k.val - 96) = k.val
      omega

theorem pay14_apply (v30 : FVec Ideal S64x8x1024 .f32) (v61 : FVec Ideal S32x8x1024 .f32) (v77 v79 v80 : FVec Ideal S32x1 .f32)
    (v82 : Vec Ideal S32x8x1024 .bf16) (v94 : Vec Ideal S288x128 .f32) (r : Fin 288) (b : Fin 8) (q : Fin 1024) :
    k3_pay14 v30 v61 v77 v79 v80 v82 v94 (ix3 r b q)
      = ∑ k : Fin 128, v94 (ix2 r k) * cat3 (fun c => v30 (ix3 c b q)) (fun c => v61 (ix3 c b q))
          (fun c => max (v82 (ix3 c b q) * v77 (ix2 c 0) + (v79 (ix2 c 0) - v80 (ix2 c 0))) 0) k := by
  unfold k3_pay14
  simp only [unflat_apply, mm_apply, flat_apply, cat3_apply, maximumf_apply, addf_apply, subf_apply, mulf_apply,
    broadcast_apply, extf_apply, bcol_apply, shapeCast_self, ofBits_zero]

def shl (f : Fin 1024 → EReal) (s : ℕ) (p : Fin 1024) : EReal :=
  if h : s ≤ p.val then f ⟨p.val - s, by have := p.isLt; omega⟩ else 0

def shr (f : Fin 1024 → EReal) (s : ℕ) (p : Fin 1024) : EReal :=
  if h : p.val + s < 1024 then f ⟨p.val + s, h⟩ else 0

theorem rows_apply (off : ℕ) (Z : (⟨3, ![288, 8, 1024]⟩ : Shape).Idx → EReal)
    (h : (⟨3, ![288, 8, 1024]⟩ : Shape).Slices ![off, 0, 0] ⟨3, ![32, 8, 1024]⟩) (o : Fin 32) (b : Fin 8) (q : Fin 1024) :
    extractStridedSlice ⟨3, ![32, 8, 1024]⟩ ![off, 0, 0] Z h (ix3 o b q)
      = Z (ix3 ⟨off + o.val, Nat.lt_of_lt_of_le (Nat.add_lt_add_left o.isLt off) (h.2 0)⟩ b q) :=
  extractStridedSlice_apply _ _ h _ _ (fun ax => by
    match ax with
    | ⟨0, _⟩ => rfl
    | ⟨1, _⟩ => exact (Nat.zero_add _).symm
    | ⟨2, _⟩ => exact (Nat.zero_add _).symm)

theorem padL_apply (s m : ℕ) (hsm : s + m = 1024) (z : (⟨3, ![32, 8, 1024]⟩ : Shape).Idx → EReal) (c0 : EReal)
    (hsl : (⟨3, ![32, 8, 1024]⟩ : Shape).Slices ![0, 0, 0] ⟨3, ![32, 8, m]⟩)
    (hc : Shape.Concatenates [⟨3, ![32, 8, s]⟩, ⟨3, ![32, 8, m]⟩] ⟨3, ![32, 8, 1024]⟩ 2)
    (o : Fin 32) (b : Fin 8) (p : Fin 1024) :
    concatenate ⟨3, ![32, 8, 1024]⟩ 2 [⟨⟨3, ![32, 8, s]⟩, broadcast ⟨3, ![32, 8, s]⟩ c0⟩,
        ⟨⟨3, ![32, 8, m]⟩, extractStridedSlice ⟨3, ![32, 8, m]⟩ ![0, 0, 0] z hsl⟩] hc (ix3 o b p)
      = if h : s ≤ p.val then z (ix3 o b ⟨p.val - s, by have := p.isLt; omega⟩) else c0 := by
  by_cases h : s ≤ p.val
  · rw [dif_pos h]
    have hp := p.isLt
    refine (concatenate_pair_apply_right (t := ⟨3, ![32, 8, 1024]⟩) (s₁ := ⟨3, ![32, 8, s]⟩) (s₂ := ⟨3, ![32, 8, m]⟩) (2 : Fin 3) _ _ hc (ix3 o b p) rfl rfl (ix3 o b ⟨p.val - s, by omega⟩)
      (fun bb hbb => ?_) ?_).trans ?_
    · match bb with
      | ⟨0, _⟩ => rfl
      | ⟨1, _⟩ => rfl
      | ⟨2, _⟩ => exact absurd rfl hbb
    · show (p.val - s) + s = p.val
      omega
    · exact extractStridedSlice_apply _ z hsl _ (ix3 o b ⟨p.val - s, by omega⟩) (fun ax => by
        match ax with
        | ⟨0, _⟩ => exact (Nat.zero_add _).symm
        | ⟨1, _⟩ => exact (Nat.zero_add _).symm
        | ⟨2, _⟩ => exact (Nat.zero_add _).symm)
  · rw [dif_neg h]
    exact concatenate_pair_apply_left (t := ⟨3, ![32, 8, 1024]⟩) (s₁ := ⟨3, ![32, 8, s]⟩) (s₂ := ⟨3, ![32, 8, m]⟩) (2 : Fin 3) _ _ hc (ix3 o b p) rfl (ix3 o b ⟨p.val, by omega⟩)
      (fun bb => by
        match bb with
        | ⟨0, _⟩ => rfl
        | ⟨1, _⟩ => rfl
        | ⟨2, _⟩ => rfl)

theorem padR_apply (s m : ℕ) (hsm : m + s = 1024) (z : (⟨3, ![32, 8, 1024]⟩ : Shape).Idx → EReal) (c0 : EReal)
    (hsl : (⟨3, ![32, 8, 1024]⟩ : Shape).Slices ![0, 0, s] ⟨3, ![32, 8, m]⟩)
    (hc : Shape.Concatenates [⟨3, ![32, 8, m]⟩, ⟨3, ![32, 8, s]⟩] ⟨3, ![32, 8, 1024]⟩ 2)
    (o : Fin 32) (b : Fin 8) (p : Fin 1024) :
    concatenate ⟨3, ![32, 8, 1024]⟩ 2 [⟨⟨3, ![32, 8, m]⟩, extractStridedSlice ⟨3, ![32, 8, m]⟩ ![0, 0, s] z hsl⟩,
        ⟨⟨3, ![32, 8, s]⟩, broadcast ⟨3, ![32, 8, s]⟩ c0⟩] hc (ix3 o b p)
      = if h : p.val + s < 1024 then z (ix3 o b ⟨p.val + s, h⟩) else c0 := by
  by_cases h : p.val + s < 1024
  · rw [dif_pos h]
    refine (concatenate_pair_apply_left (t := ⟨3, ![32, 8, 1024]⟩) (s₁ := ⟨3, ![32, 8, m]⟩) (s₂ := ⟨3, ![32, 8, s]⟩) (2 : Fin 3) _ _ hc (ix3 o b p) rfl (ix3 o b ⟨p.val, by omega⟩)
      (fun bb => by
        match bb with
        | ⟨0, _⟩ => rfl
        | ⟨1, _⟩ => rfl
        | ⟨2, _⟩ => rfl)).trans ?_
    exact extractStridedSlice_apply _ z hsl _ (ix3 o b ⟨p.val + s, h⟩) (fun ax => by
      match ax with
      | ⟨0, _⟩ => exact (Nat.zero_add _).symm
      | ⟨1, _⟩ => exact (Nat.zero_add _).symm
      | ⟨2, _⟩ => exact Nat.add_comm _ _)
  · rw [dif_neg h]
    have hp := p.isLt
    exact concatenate_pair_apply_right (t := ⟨3, ![32, 8, 1024]⟩) (s₁ := ⟨3, ![32, 8, m]⟩) (s₂ := ⟨3, ![32, 8, s]⟩) (2 : Fin 3) _ _ hc (ix3 o b p) rfl rfl (ix3 o b ⟨p.val - m, by omega⟩)
      (fun bb hbb => by
        match bb with
        | ⟨0, _⟩ => rfl
        | ⟨1, _⟩ => rfl
        | ⟨2, _⟩ => exact absurd rfl hbb)
      (by show (p.val - m) + m = p.val; omega)

theorem brow_apply (w : (⟨2, ![1, 1024]⟩ : Shape).Idx → EReal)
    (hc : (⟨2, ![1, 1024]⟩ : Shape).ShapeCasts ⟨3, ![1, 1, 1024]⟩)
    (hb : (⟨3, ![1, 1, 1024]⟩ : Shape).Broadcasts ⟨3, ![32, 8, 1024]⟩) (o : Fin 32) (b : Fin 8) (p : Fin 1024) :
    broadcastTo ⟨3, ![32, 8, 1024]⟩ (shapeCast ⟨3, ![1, 1, 1024]⟩ w hc) hb (ix3 o b p) = w (ix2 (0 : Fin 1) p) := by
  refine (broadcastTo_apply _ hb (ix3 o b p) (ix3 (0 : Fin 1) (0 : Fin 1) p) fun a => ?_).trans ?_
  · match a with
    | ⟨0, _⟩ => rfl
    | ⟨1, _⟩ => rfl
    | ⟨2, _⟩ => rfl
  · exact shapeCast_apply w hc _ (ix2 (0 : Fin 1) p) (by
      rw [Shape.rowMajor_val_three, Shape.rowMajor_val_two]
      show 0 * 1024 + p.val = (0 * 1 + 0) * 1024 + p.val
      omega)

def taps (Z : Fin 288 → Fin 1024 → EReal) (m0 m1 : Fin 1024 → EReal) (o : Fin 32) (p : Fin 1024) : EReal :=
  shl (Z ⟨0 + o.val, by omega⟩) 33 p * m0 p + shl (Z ⟨32 + o.val, by omega⟩) 32 p + shl (Z ⟨64 + o.val, by omega⟩) 31 p * m1 p
    + shl (Z ⟨96 + o.val, by omega⟩) 1 p * m0 p + Z ⟨128 + o.val, by omega⟩ p + shr (Z ⟨160 + o.val, by omega⟩) 1 p * m1 p
    + shr (Z ⟨192 + o.val, by omega⟩) 31 p * m0 p + shr (Z ⟨224 + o.val, by omega⟩) 32 p + shr (Z ⟨256 + o.val, by omega⟩) 33 p * m1 p

theorem pay17_apply (v30 : FVec Ideal S64x8x1024 .f32) (v61 : FVec Ideal S32x8x1024 .f32) (v77 v79 v80 : FVec Ideal S32x1 .f32)
    (v82 : Vec Ideal S32x8x1024 .bf16) (v94 : Vec Ideal S288x128 .f32) (v99 v101 : Vec Ideal S1x1024 .f32)
    (o : Fin 32) (b : Fin 8) (p : Fin 1024) :
    k3_pay17 v30 v61 v77 v79 v80 v82 v94 v99 v101 (ix3 o b p)
      = shl (fun q => k3_pay14 v30 v61 v77 v79 v80 v82 v94 (ix3 ⟨0 + o.val, by omega⟩ b q)) 33 p * v99 (ix2 0 p)
        + shl (fun q => k3_pay14 v30 v61 v77 v79 v80 v82 v94 (ix3 ⟨32 + o.val, by omega⟩ b q)) 32 p
        + shl (fun q => k3_pay14 v30 v61 v77 v79 v80 v82 v94 (ix3 ⟨64 + o.val, by omega⟩ b q)) 31 p * v101 (ix2 0 p) := by
  unfold k3_pay17 k3_pay15 k3_pay16
  simp only [addf_apply, mulf_apply, padL_apply 33 991 rfl, padL_apply 32 992 rfl, padL_apply 31 993 rfl, rows_apply,
    brow_apply, shapeCast_self, ofBits_zero]
  rfl

theorem pay20_apply (v30 : FVec Ideal S64x8x1024 .f32) (v61 : FVec Ideal S32x8x1024 .f32) (v77 v79 v80 : FVec Ideal S32x1 .f32)
    (v82 : Vec Ideal S32x8x1024 .bf16) (v94 : Vec Ideal S288x128 .f32) (v99 v101 : Vec Ideal S1x1024 .f32)
    (o : Fin 32) (b : Fin 8) (p : Fin 1024) :
    k3_pay20 (k3_pay14 v30 v61 v77 v79 v80 v82 v94) (k3_pay15 v99) (k3_pay16 v101)
        (k3_pay17 v30 v61 v77 v79 v80 v82 v94 v99 v101) (k3_pay18 (F := Ideal)) (k3_pay19 v30 v61 v77 v79 v80 v82 v94) (ix3 o b p)
      = taps (fun r q => k3_pay14 v30 v61 v77 v79 v80 v82 v94 (ix3 r b q)) (fun q => v99 (ix2 0 q)) (fun q => v101 (ix2 0 q)) o p := by
  unfold k3_pay20 k3_pay19 k3_pay18 k3_pay15 k3_pay16
  simp only [addf_apply, mulf_apply, pay17_apply, padL_apply 1 1023 rfl, padR_apply 1 1023 rfl, padR_apply 31 993 rfl,
    padR_apply 32 992 rfl, padR_apply 33 991 rfl, rows_apply, brow_apply, shapeCast_self, ofBits_zero]
  rfl

theorem sumPix_apply (Y : FVec Ideal S32x8x1024 .f32) (h : S32x8x1024.Reduces [2] S32x8) (hφ : FKind.Formats .f32)
    (hacc : (0x00000000#32 : BitVec 32) = FKind.add.neutral .f32 hφ) (o : Fin 32) (b : Fin 8) :
    multiReduction .add [2] S32x8 Y 0x00000000#32 h hφ hacc (ix2 o b) = ∑ p : Fin 1024, Y (ix3 o b p) := by
  refine (Ideal.multiReduction_add_single Y _ h hφ hacc (ix2 o b)).trans ?_
  refine Finset.sum_congr rfl fun p _ => congrArg Y ?_
  funext a
  apply Fin.ext
  match a with
  | ⟨0, _⟩ => rfl
  | ⟨1, _⟩ => rfl
  | ⟨2, _⟩ => rfl

theorem sumImg_apply (Y : FVec Ideal S32x8x1 .f32) (h : S32x8x1.Reduces [1] S32x1) (hφ : FKind.Formats .f32)
    (hacc : (0x00000000#32 : BitVec 32) = FKind.add.neutral .f32 hφ) (o : Fin 32) (u : Fin 1) :
    multiReduction .add [1] S32x1 Y 0x00000000#32 h hφ hacc (ix2 o u) = ∑ b : Fin 8, Y (ix3 o b u) := by
  refine (Ideal.multiReduction_add_single Y _ h hφ hacc (ix2 o u)).trans ?_
  refine Finset.sum_congr rfl fun b _ => congrArg Y ?_
  funext a
  apply Fin.ext
  match a with
  | ⟨0, _⟩ => rfl
  | ⟨1, _⟩ => rfl
  | ⟨2, _⟩ => rfl

theorem col1_apply {α : Type} (x : (⟨2, ![32, 8]⟩ : Shape).Idx → α) (h : (⟨2, ![32, 8]⟩ : Shape).ShapeCasts ⟨3, ![32, 8, 1]⟩)
    (o : Fin 32) (b : Fin 8) (u : Fin 1) : shapeCast ⟨3, ![32, 8, 1]⟩ x h (ix3 o b u) = x (ix2 o b) :=
  shapeCast_apply x h _ _ (by
    have hu : u.val = 0 := by omega
    rw [Shape.rowMajor_val_three, Shape.rowMajor_val_two]
    show o.val * 8 + b.val = (o.val * 8 + b.val) * 1 + u.val
    omega)

theorem cols2_apply (x y : FVec Ideal S32x1 .f32) (h : Shape.Concatenates [S32x1, S32x1] S32x2 1) (o : Fin 32) :
    concatenate S32x2 1 [⟨S32x1, x⟩, ⟨S32x1, y⟩] h (ix2 o (0 : Fin 2)) = x (ix2 o (0 : Fin 1))
    ∧ concatenate S32x2 1 [⟨S32x1, x⟩, ⟨S32x1, y⟩] h (ix2 o (1 : Fin 2)) = y (ix2 o (0 : Fin 1)) := by
  constructor
  · exact concatenate_pair_apply_left (1 : Fin 2) x y h (ix2 o (0 : Fin 2)) rfl (ix2 o (0 : Fin 1)) (fun bb => by
      match bb with
      | ⟨0, _⟩ => rfl
      | ⟨1, _⟩ => rfl)
  · exact concatenate_pair_apply_right (1 : Fin 2) x y h (ix2 o (1 : Fin 2)) rfl rfl (ix2 o (0 : Fin 1))
      (fun bb hbb => by
        match bb with
        | ⟨0, _⟩ => rfl
        | ⟨1, _⟩ => exact absurd rfl hbb)
      rfl

theorem pay22_apply (v98 : FVec Ideal S288x8x1024 .f32) (v100 v102 : FVec Ideal S1x1024 .f32) (v122 : FVec Ideal S32x8x1024 .f32)
    (v124 : FVec Ideal S32x8x1 .f32) (v125 : FVec Ideal S32x8x1023 .f32) (o : Fin 32) :
    k3_pay22 v98 v100 v102 v122 v124 v125 (ix2 o (0 : Fin 2))
        = ∑ b : Fin 8, ∑ p : Fin 1024, k3_pay20 v98 v100 v102 v122 v124 v125 (ix3 o b p)
    ∧ k3_pay22 v98 v100 v102 v122 v124 v125 (ix2 o (1 : Fin 2))
        = ∑ b : Fin 8, ∑ p : Fin 1024,
            k3_pay20 v98 v100 v102 v122 v124 v125 (ix3 o b p) * k3_pay20 v98 v100 v102 v122 v124 v125 (ix3 o b p) := by
  unfold k3_pay22
  constructor
  · rw [(cols2_apply _ _ _ o).1]
    refine (sumImg_apply _ _ _ _ o 0).trans ?_
    refine Finset.sum_congr rfl fun b _ => ?_
    refine (col1_apply _ _ o b 0).trans ?_
    exact sumPix_apply _ _ _ _ o b
  · rw [(cols2_apply _ _ _ o).2]
    refine (sumImg_apply _ _ _ _ o 0).trans ?_
    refine Finset.sum_congr rfl fun b _ => ?_
    refine (col1_apply _ _ o b 0).trans ?_
    exact (sumPix_apply _ _ _ _ o b).trans (Finset.sum_congr rfl fun p _ => rfl)

theorem pay2_apply (v171 : FVec Ideal S32x2 .f32) (v175 : Vec Ideal S1x32x2 .f32) (u : Fin 1) (o : Fin 32) (k : Fin 2) :
    k3_pay2 v171 v175 (ix3 u o k) = v175 (ix3 (0 : Fin 1) o k) + v171 (ix2 o k) := by
  unfold k3_pay2
  simp only [shapeCast_ab_1ab_apply, addf_apply, shapeCast_1ab_ab_apply]

theorem pay1_apply (i : S1x32x2.Idx) : k3_pay1 (F := Ideal) i = 0 := by
  unfold k3_pay1
  simp only [broadcast_apply, ofBits_zero]

theorem pay11_apply (v62 : Vec Ideal S1x32x2 .f32) (v72 : Vec Ideal S32x1 .f32) (ch : Fin 32) (u : Fin 1) :
    k3_pay11 (F := Ideal) v62 v72 (ix2 ch u) = kScale (v72 (ix2 ch u)) (v62 (ix3 0 ch 0)) (v62 (ix3 0 ch 1)) := by
  unfold k3_pay11 k3_pay10 k3_pay9
  simp only [addf_apply, subf_apply, mulf_apply, broadcast_apply, rsqrt_apply, momcol_apply 0 (by decide),
    momcol_apply 1 (by decide), shapeCast_self]
  rfl

theorem pay12_apply (v78 : Vec Ideal S32x1 .f32) (i : S32x1.Idx) : k3_pay12 (F := Ideal) v78 i = v78 i := by
  unfold k3_pay12
  rw [shapeCast_self]

theorem pay13_apply (v62 : Vec Ideal S1x32x2 .f32) (v72 : Vec Ideal S32x1 .f32) (ch : Fin 32) (u : Fin 1) :
    k3_pay13 (F := Ideal) v62 v72 (ix2 ch u)
      = v62 (ix3 0 ch 0) * kInv * kScale (v72 (ix2 ch u)) (v62 (ix3 0 ch 0)) (v62 (ix3 0 ch 1)) := by
  unfold k3_pay13
  rw [mulf_apply, pay11_apply]
  unfold k3_pay10 k3_pay9
  simp only [mulf_apply, broadcast_apply, momcol_apply 0 (by decide), shapeCast_self]
  rfl

section Generic
variable {F : FTy → Type} [FloatOps F]

def coreY (x0 : Vec F S64x8x1024 .bf16) (x1 x2 : Vec F S32x8x1024 .bf16) (m0 : Vec F S1x64x2 .f32) (m1 m2 : Vec F S1x32x2 .f32)
    (g0 b0 : Vec F S64x1 .f32) (g1 b1 g2 b2 : Vec F S32x1 .f32) (w0 w1 : Vec F S1x1024 .f32) (W : Vec F S288x128 .f32) :
    FVec F S32x8x1024 .f32 :=
  k3_pay20
    (k3_pay14 (k3_pay3 m0 g0 b0 x0) (k3_pay8 (k3_pay5 m1) (k3_pay6 m1) (k3_pay7 m1) g1 b1 x1) (k3_pay11 m2 g2) (k3_pay12 b2)
      (k3_pay13 m2 g2) x2 W)
    (k3_pay15 w0) (k3_pay16 w1)
    (k3_pay17 (k3_pay3 m0 g0 b0 x0) (k3_pay8 (k3_pay5 m1) (k3_pay6 m1) (k3_pay7 m1) g1 b1 x1) (k3_pay11 m2 g2) (k3_pay12 b2)
      (k3_pay13 m2 g2) x2 W w0 w1)
    (k3_pay18 (F := F))
    (k3_pay19 (k3_pay3 m0 g0 b0 x0) (k3_pay8 (k3_pay5 m1) (k3_pay6 m1) (k3_pay7 m1) g1 b1 x1) (k3_pay11 m2 g2) (k3_pay12 b2)
      (k3_pay13 m2 g2) x2 W)

end Generic

def actBlk (x0 : Vec Ideal S64x8x1024 .bf16) (x1 x2 : Vec Ideal S32x8x1024 .bf16) (m0 : Vec Ideal S1x64x2 .f32)
    (m1 m2 : Vec Ideal S1x32x2 .f32) (g0 b0 : Vec Ideal S64x1 .f32) (g1 b1 g2 b2 : Vec Ideal S32x1 .f32)
    (b : Fin 8) (q : Fin 1024) : Fin 128 → EReal :=
  cat3 (fun c => kAct (x0 (ix3 c b q)) (g0 (ix2 c 0)) (b0 (ix2 c 0)) (m0 (ix3 0 c 0)) (m0 (ix3 0 c 1)))
    (fun c => kAct (x1 (ix3 c b q)) (g1 (ix2 c 0)) (b1 (ix2 c 0)) (m1 (ix3 0 c 0)) (m1 (ix3 0 c 1)))
    (fun c => kAct (x2 (ix3 c b q)) (g2 (ix2 c 0)) (b2 (ix2 c 0)) (m2 (ix3 0 c 0)) (m2 (ix3 0 c 1)))

theorem coreY_apply (x0 : Vec Ideal S64x8x1024 .bf16) (x1 x2 : Vec Ideal S32x8x1024 .bf16) (m0 : Vec Ideal S1x64x2 .f32)
    (m1 m2 : Vec Ideal S1x32x2 .f32) (g0 b0 : Vec Ideal S64x1 .f32) (g1 b1 g2 b2 : Vec Ideal S32x1 .f32)
    (w0 w1 : Vec Ideal S1x1024 .f32) (W : Vec Ideal S288x128 .f32) (o : Fin 32) (b : Fin 8) (p : Fin 1024) :
    coreY x0 x1 x2 m0 m1 m2 g0 b0 g1 b1 g2 b2 w0 w1 W (ix3 o b p)
      = taps (fun r q => ∑ k : Fin 128, W (ix2 r k) * actBlk x0 x1 x2 m0 m1 m2 g0 b0 g1 b1 g2 b2 b q k)
          (fun q => w0 (ix2 0 q)) (fun q => w1 (ix2 0 q)) o p := by
  unfold coreY
  rw [pay20_apply]
  simp only [pay14_apply, pay3_apply, pay8_apply, pay11_apply, pay12_apply, pay13_apply]
  rfl

end Cert.K3Body

end
-- ==== Proof.K3Spec.lean ====
import proofs.«136216_g2000306190186476_pallasbulk_240_40_alg».proof.Proof.K3Body
import proofs.«136216_g2000306190186476_pallasbulk_240_40_alg».proof.Proof.Views
import Mathlib.Algebra.BigOperators.Fin

set_option maxRecDepth 16384

noncomputable section

namespace Cert.K3Body

open scoped BigOperators

open Cert.KernelIdeal Cert.KernelIdeal.Gen Idealize.ShloMosaic Idealize.ShloMosaic.ValueIdx

open Cert.Spec Cert.Views

theorem shiftRead_neg (f : Fin 1024 → EReal) (s : ℕ) (p : Fin 1024) : shiftRead f (-(s : ℤ)) p = shl f s p := by
  unfold shiftRead shl
  have hp := p.isLt
  by_cases h : s ≤ p.val
  · rw [dif_pos h, dif_pos (by omega)]
    exact congrArg f (Fin.ext (by show ((p.val : ℤ) + -(s : ℤ)).toNat = p.val - s; omega))
  · rw [dif_neg h, dif_neg (by omega)]

theorem shiftRead_pos (f : Fin 1024 → EReal) (s : ℕ) (p : Fin 1024) : shiftRead f (s : ℤ) p = shr f s p := by
  unfold shiftRead shr
  have hp := p.isLt
  by_cases h : p.val + s < 1024
  · rw [dif_pos h, dif_pos (by omega)]
    exact congrArg f (Fin.ext (by show ((p.val : ℤ) + (s : ℤ)).toNat = p.val + s; omega))
  · rw [dif_neg h, dif_neg (by omega)]

theorem shiftRead_zero (f : Fin 1024 → EReal) (p : Fin 1024) : shiftRead f 0 p = f p := by
  unfold shiftRead
  have hp := p.isLt
  rw [dif_pos (by omega)]
  exact congrArg f (Fin.ext (by show ((p.val : ℤ) + 0).toNat = p.val; omega))

theorem taps_eq_sum (Z : Fin 288 → Fin 1024 → EReal) (wm : Fin 2 → Fin 1024 → EReal) (o : Fin 32) (p : Fin 1024) :
    taps Z (wm 0) (wm 1) o p
      = ∑ kh : Fin 3, ∑ kw : Fin 3,
          shiftRead (Z ⟨(kh.val * 3 + kw.val) * 32 + o.val, by have := kh.isLt; have := kw.isLt; omega⟩) (tapOff kh kw) p
            * tapMask wm kw p := by
  have t00 : tapOff 0 0 = -((33 : ℕ) : ℤ) := by decide
  have t01 : tapOff 0 1 = -((32 : ℕ) : ℤ) := by decide
  have t02 : tapOff 0 2 = -((31 : ℕ) : ℤ) := by decide
  have t10 : tapOff 1 0 = -((1 : ℕ) : ℤ) := by decide
  have t11 : tapOff 1 1 = 0 := by decide
  have t12 : tapOff 1 2 = ((1 : ℕ) : ℤ) := by decide
  have t20 : tapOff 2 0 = ((31 : ℕ) : ℤ) := by decide
  have t21 : tapOff 2 1 = ((32 : ℕ) : ℤ) := by decide
  have t22 : tapOff 2 2 = ((33 : ℕ) : ℤ) := by decide
  have m0 : tapMask wm 0 p = wm 0 p := rfl
  have m1 : tapMask wm 1 p = 1 := rfl
  have m2 : tapMask wm 2 p = wm 1 p := rfl
  rw [Fin.sum_univ_three, Fin.sum_univ_three, Fin.sum_univ_three, Fin.sum_univ_three]
  rw [t00, t01, t02, t10, t11, t12, t20, t21, t22, m0, m1, m2]
  simp only [shiftRead_neg, shiftRead_pos, shiftRead_zero, mul_one]
  unfold taps
  simp only [add_assoc]
  rfl

section Spec
variable (P0 : (⟨3, ![64, 128, 1024]⟩ : Shape).Idx → EReal) (P1 P2 : (⟨3, ![32, 128, 1024]⟩ : Shape).Idx → EReal)
  (Q0 : (⟨3, ![1, 64, 2]⟩ : Shape).Idx → EReal) (Q1 Q2 : (⟨3, ![1, 32, 2]⟩ : Shape).Idx → EReal)
  (G B : (⟨2, ![128, 1]⟩ : Shape).Idx → EReal) (WM : (⟨2, ![2, 1024]⟩ : Shape).Idx → EReal)
  (WT : (⟨2, ![288, 128]⟩ : Shape).Idx → EReal)

def specX : Act 128 := appendCh (appendCh (actCM P0) (actCM P1)) (actCM P2)

def specS (k : Fin 2) : Fin 128 → EReal := appendV (appendV (mom3 Q0 k) (mom3 Q1 k)) (mom3 Q2 k)

def specA : Act 128 := bnreluM (col G) (col B) (specS Q0 Q1 Q2 0) (specS Q0 Q1 Q2 1) (specX P0 P1 P2)

def specY : Act 32 := convTaps (wTapMajor WT) (maskRows WM) (specA P0 P1 P2 Q0 Q1 Q2 G B)

theorem act_eq (n : Fin 128) (b : Fin 8) (x0 : Vec Ideal S64x8x1024 .bf16) (x1 x2 : Vec Ideal S32x8x1024 .bf16)
    (g0 b0 : Vec Ideal S64x1 .f32) (g1 b1 g2 b2 : Vec Ideal S32x1 .f32)
    (hx0 : ∀ c q, x0 (ix3 c b q) = P0 (ix3 c n q)) (hx1 : ∀ c q, x1 (ix3 c b q) = P1 (ix3 c n q))
    (hx2 : ∀ c q, x2 (ix3 c b q) = P2 (ix3 c n q))
    (hg0 : ∀ (c : Fin 64) (k : Fin 128), k.val = c.val → g0 (ix2 c 0) = G (ix2 k 0))
    (hb0 : ∀ (c : Fin 64) (k : Fin 128), k.val = c.val → b0 (ix2 c 0) = B (ix2 k 0))
    (hg1 : ∀ (c : Fin 32) (k : Fin 128), k.val = 64 + c.val → g1 (ix2 c 0) = G (ix2 k 0))
    (hb1 : ∀ (c : Fin 32) (k : Fin 128), k.val = 64 + c.val → b1 (ix2 c 0) = B (ix2 k 0))
    (hg2 : ∀ (c : Fin 32) (k : Fin 128), k.val = 96 + c.val → g2 (ix2 c 0) = G (ix2 k 0))
    (hb2 : ∀ (c : Fin 32) (k : Fin 128), k.val = 96 + c.val → b2 (ix2 c 0) = B (ix2 k 0))
    (q : Fin 1024) (k : Fin 128) :
    actBlk x0 x1 x2 Q0 Q1 Q2 g0 b0 g1 b1 g2 b2 b q k = specA P0 P1 P2 Q0 Q1 Q2 G B n k q := by
  unfold actBlk cat3
  have hk := k.isLt
  by_cases h1 : k.val < 96
  · by_cases h0 : k.val < 64
    · rw [dif_pos h1, dif_pos h0]
      beta_reduce
      rw [hx0, hg0 _ k rfl, hb0 _ k rfl]
      unfold specA bnreluM specX specS appendCh appendV
      simp only [dif_pos (show k.val < 64 + 32 from h1), dif_pos (show ((⟨k.val, h1⟩ : Fin (64 + 32)) : ℕ) < 64 from h0)] <;> rfl
    · rw [dif_pos h1, dif_neg h0]
      beta_reduce
      rw [hx1, hg1 _ k (by show k.val = 64 + (k.val - 64); omega), hb1 _ k (by show k.val = 64 + (k.val - 64); omega)]
      unfold specA bnreluM specX specS appendCh appendV
      simp only [dif_pos (show k.val < 64 + 32 from h1), dif_neg (show ¬((⟨k.val, h1⟩ : Fin (64 + 32)) : ℕ) < 64 from h0)] <;> rfl
  · rw [dif_neg h1]
    beta_reduce
    rw [hx2, hg2 _ k (by show k.val = 96 + (k.val - 96); omega), hb2 _ k (by show k.val = 96 + (k.val - 96); omega)]
    unfold specA bnreluM specX specS appendCh appendV
    simp only [dif_neg (show ¬k.val < 64 + 32 from h1)] <;> rfl

end Spec

section Spec2
variable (P0 : (⟨3, ![64, 128, 1024]⟩ : Shape).Idx → EReal) (P1 P2 : (⟨3, ![32, 128, 1024]⟩ : Shape).Idx → EReal)
  (Q0 : (⟨3, ![1, 64, 2]⟩ : Shape).Idx → EReal) (Q1 Q2 : (⟨3, ![1, 32, 2]⟩ : Shape).Idx → EReal)
  (G B : (⟨2, ![128, 1]⟩ : Shape).Idx → EReal) (WM : (⟨2, ![2, 1024]⟩ : Shape).Idx → EReal)
  (WT : (⟨2, ![288, 128]⟩ : Shape).Idx → EReal)

theorem coreY_eq_spec (n : Fin 128) (b : Fin 8) (x0 : Vec Ideal S64x8x1024 .bf16) (x1 x2 : Vec Ideal S32x8x1024 .bf16)
    (g0 b0 : Vec Ideal S64x1 .f32) (g1 b1 g2 b2 : Vec Ideal S32x1 .f32) (w0 w1 : Vec Ideal S1x1024 .f32)
    (hx0 : ∀ c q, x0 (ix3 c b q) = P0 (ix3 c n q)) (hx1 : ∀ c q, x1 (ix3 c b q) = P1 (ix3 c n q))
    (hx2 : ∀ c q, x2 (ix3 c b q) = P2 (ix3 c n q))
    (hg0 : ∀ (c : Fin 64) (k : Fin 128), k.val = c.val → g0 (ix2 c 0) = G (ix2 k 0))
    (hb0 : ∀ (c : Fin 64) (k : Fin 128), k.val = c.val → b0 (ix2 c 0) = B (ix2 k 0))
    (hg1 : ∀ (c : Fin 32) (k : Fin 128), k.val = 64 + c.val → g1 (ix2 c 0) = G (ix2 k 0))
    (hb1 : ∀ (c : Fin 32) (k : Fin 128), k.val = 64 + c.val → b1 (ix2 c 0) = B (ix2 k 0))
    (hg2 : ∀ (c : Fin 32) (k : Fin 128), k.val = 96 + c.val → g2 (ix2 c 0) = G (ix2 k 0))
    (hb2 : ∀ (c : Fin 32) (k : Fin 128), k.val = 96 + c.val → b2 (ix2 c 0) = B (ix2 k 0))
    (hw0 : ∀ q, w0 (ix2 0 q) = WM (ix2 0 q)) (hw1 : ∀ q, w1 (ix2 0 q) = WM (ix2 1 q))
    (o : Fin 32) (p : Fin 1024) :
    coreY x0 x1 x2 Q0 Q1 Q2 g0 b0 g1 b1 g2 b2 w0 w1 WT (ix3 o b p) = specY P0 P1 P2 Q0 Q1 Q2 G B WM WT n o p := by
  rw [coreY_apply]
  have hA : ∀ q k, actBlk x0 x1 x2 Q0 Q1 Q2 g0 b0 g1 b1 g2 b2 b q k = specA P0 P1 P2 Q0 Q1 Q2 G B n k q :=
    act_eq P0 P1 P2 Q0 Q1 Q2 G B n b x0 x1 x2 g0 b0 g1 b1 g2 b2 hx0 hx1 hx2 hg0 hb0 hg1 hb1 hg2 hb2
  simp only [hA, hw0, hw1]
  exact taps_eq_sum (fun r q => ∑ k : Fin 128, WT (ix2 r k) * specA P0 P1 P2 Q0 Q1 Q2 G B n k q) (maskRows WM) o p

end Spec2

section GenericM
variable {F : FTy → Type} [FloatOps F]

def coreOut (x0 : Vec F S64x8x1024 .bf16) (x1 x2 : Vec F S32x8x1024 .bf16) (m0 : Vec F S1x64x2 .f32) (m1 m2 : Vec F S1x32x2 .f32)
    (g0 b0 : Vec F S64x1 .f32) (g1 b1 g2 b2 : Vec F S32x1 .f32) (w0 w1 : Vec F S1x1024 .f32) (W : Vec F S288x128 .f32) :
    FVec F S32x8x1024 .bf16 :=
  k3_pay21
    (k3_pay14 (k3_pay3 m0 g0 b0 x0) (k3_pay8 (k3_pay5 m1) (k3_pay6 m1) (k3_pay7 m1) g1 b1 x1) (k3_pay11 m2 g2) (k3_pay12 b2)
      (k3_pay13 m2 g2) x2 W)
    (k3_pay15 w0) (k3_pay16 w1)
    (k3_pay17 (k3_pay3 m0 g0 b0 x0) (k3_pay8 (k3_pay5 m1) (k3_pay6 m1) (k3_pay7 m1) g1 b1 x1) (k3_pay11 m2 g2) (k3_pay12 b2)
      (k3_pay13 m2 g2) x2 W w0 w1)
    (k3_pay18 (F := F))
    (k3_pay19 (k3_pay3 m0 g0 b0 x0) (k3_pay8 (k3_pay5 m1) (k3_pay6 m1) (k3_pay7 m1) g1 b1 x1) (k3_pay11 m2 g2) (k3_pay12 b2)
      (k3_pay13 m2 g2) x2 W)

def coreM (x0 : Vec F S64x8x1024 .bf16) (x1 x2 : Vec F S32x8x1024 .bf16) (m0 : Vec F S1x64x2 .f32) (m1 m2 : Vec F S1x32x2 .f32)
    (g0 b0 : Vec F S64x1 .f32) (g1 b1 g2 b2 : Vec F S32x1 .f32) (w0 w1 : Vec F S1x1024 .f32) (W : Vec F S288x128 .f32) :
    FVec F S32x2 .f32 :=
  k3_pay22
    (k3_pay14 (k3_pay3 m0 g0 b0 x0) (k3_pay8 (k3_pay5 m1) (k3_pay6 m1) (k3_pay7 m1) g1 b1 x1) (k3_pay11 m2 g2) (k3_pay12 b2)
      (k3_pay13 m2 g2) x2 W)
    (k3_pay15 w0) (k3_pay16 w1)
    (k3_pay17 (k3_pay3 m0 g0 b0 x0) (k3_pay8 (k3_pay5 m1) (k3_pay6 m1) (k3_pay7 m1) g1 b1 x1) (k3_pay11 m2 g2) (k3_pay12 b2)
      (k3_pay13 m2 g2) x2 W w0 w1)
    (k3_pay18 (F := F))
    (k3_pay19 (k3_pay3 m0 g0 b0 x0) (k3_pay8 (k3_pay5 m1) (k3_pay6 m1) (k3_pay7 m1) g1 b1 x1) (k3_pay11 m2 g2) (k3_pay12 b2)
      (k3_pay13 m2 g2) x2 W)

end GenericM

theorem coreOut_apply (x0 : Vec Ideal S64x8x1024 .bf16) (x1 x2 : Vec Ideal S32x8x1024 .bf16) (m0 : Vec Ideal S1x64x2 .f32)
    (m1 m2 : Vec Ideal S1x32x2 .f32) (g0 b0 : Vec Ideal S64x1 .f32) (g1 b1 g2 b2 : Vec Ideal S32x1 .f32)
    (w0 w1 : Vec Ideal S1x1024 .f32) (W : Vec Ideal S288x128 .f32) (i : S32x8x1024.Idx) :
    coreOut x0 x1 x2 m0 m1 m2 g0 b0 g1 b1 g2 b2 w0 w1 W i = coreY x0 x1 x2 m0 m1 m2 g0 b0 g1 b1 g2 b2 w0 w1 W i := rfl

section Spec3
variable (P0 : (⟨3, ![64, 128, 1024]⟩ : Shape).Idx → EReal) (P1 P2 : (⟨3, ![32, 128, 1024]⟩ : Shape).Idx → EReal)
  (Q0 : (⟨3, ![1, 64, 2]⟩ : Shape).Idx → EReal) (Q1 Q2 : (⟨3, ![1, 32, 2]⟩ : Shape).Idx → EReal)
  (G B : (⟨2, ![128, 1]⟩ : Shape).Idx → EReal) (WM : (⟨2, ![2, 1024]⟩ : Shape).Idx → EReal)
  (WT : (⟨2, ![288, 128]⟩ : Shape).Idx → EReal)

theorem coreM_eq_spec (t : Fin 16) (x0 : Vec Ideal S64x8x1024 .bf16) (x1 x2 : Vec Ideal S32x8x1024 .bf16)
    (g0 b0 : Vec Ideal S64x1 .f32) (g1 b1 g2 b2 : Vec Ideal S32x1 .f32) (w0 w1 : Vec Ideal S1x1024 .f32)
    (hx0 : ∀ c (b : Fin 8) q, x0 (ix3 c b q) = P0 (ix3 c ⟨t.val * 8 + b.val, by omega⟩ q))
    (hx1 : ∀ c (b : Fin 8) q, x1 (ix3 c b q) = P1 (ix3 c ⟨t.val * 8 + b.val, by omega⟩ q))
    (hx2 : ∀ c (b : Fin 8) q, x2 (ix3 c b q) = P2 (ix3 c ⟨t.val * 8 + b.val, by omega⟩ q))
    (hg0 : ∀ (c : Fin 64) (k : Fin 128), k.val = c.val → g0 (ix2 c 0) = G (ix2 k 0))
    (hb0 : ∀ (c : Fin 64) (k : Fin 128), k.val = c.val → b0 (ix2 c 0) = B (ix2 k 0))
    (hg1 : ∀ (c : Fin 32) (k : Fin 128), k.val = 64 + c.val → g1 (ix2 c 0) = G (ix2 k 0))
    (hb1 : ∀ (c : Fin 32) (k : Fin 128), k.val = 64 + c.val → b1 (ix2 c 0) = B (ix2 k 0))
    (hg2 : ∀ (c : Fin 32) (k : Fin 128), k.val = 96 + c.val → g2 (ix2 c 0) = G (ix2 k 0))
    (hb2 : ∀ (c : Fin 32) (k : Fin 128), k.val = 96 + c.val → b2 (ix2 c 0) = B (ix2 k 0))
    (hw0 : ∀ q, w0 (ix2 0 q) = WM (ix2 0 q)) (hw1 : ∀ q, w1 (ix2 0 q) = WM (ix2 1 q)) (o : Fin 32) :
    coreM x0 x1 x2 Q0 Q1 Q2 g0 b0 g1 b1 g2 b2 w0 w1 WT (ix2 o (0 : Fin 2))
        = ∑ b : Fin 8, ∑ p : Fin 1024, specY P0 P1 P2 Q0 Q1 Q2 G B WM WT ⟨t.val * 8 + b.val, by omega⟩ o p
    ∧ coreM x0 x1 x2 Q0 Q1 Q2 g0 b0 g1 b1 g2 b2 w0 w1 WT (ix2 o (1 : Fin 2))
        = ∑ b : Fin 8, ∑ p : Fin 1024, specY P0 P1 P2 Q0 Q1 Q2 G B WM WT ⟨t.val * 8 + b.val, by omega⟩ o p
            * specY P0 P1 P2 Q0 Q1 Q2 G B WM WT ⟨t.val * 8 + b.val, by omega⟩ o p := by
  have hY : ∀ (b : Fin 8) (p : Fin 1024), coreY x0 x1 x2 Q0 Q1 Q2 g0 b0 g1 b1 g2 b2 w0 w1 WT (ix3 o b p)
      = specY P0 P1 P2 Q0 Q1 Q2 G B WM WT ⟨t.val * 8 + b.val, by omega⟩ o p := fun b p =>
    coreY_eq_spec P0 P1 P2 Q0 Q1 Q2 G B WM WT ⟨t.val * 8 + b.val, by omega⟩ b x0 x1 x2 g0 b0 g1 b1 g2 b2 w0 w1
      (fun c q => hx0 c b q) (fun c q => hx1 c b q) (fun c q => hx2 c b q) hg0 hb0 hg1 hb1 hg2 hb2 hw0 hw1 o p
  unfold coreM
  constructor
  · refine (pay22_apply _ _ _ _ _ _ o).1.trans (Finset.sum_congr rfl fun b _ => Finset.sum_congr rfl fun p _ => ?_)
    exact hY b p
  · refine (pay22_apply _ _ _ _ _ _ o).2.trans (Finset.sum_congr rfl fun b _ => Finset.sum_congr rfl fun p _ => ?_)
    exact congrArg₂ (· * ·) (hY b p) (hY b p)

end Spec3

end Cert.K3Body

end
-- ==== Proof.K3.lean ====
import proofs.«136216_g2000306190186476_pallasbulk_240_40_alg».proof.Proof.FrameK
import proofs.«136216_g2000306190186476_pallasbulk_240_40_alg».proof.Proof.K3Spec
import proofs.«136216_g2000306190186476_pallasbulk_240_40_alg».proof.Proof.SpecAlg
import Idealize.ShloMosaic.Lib.ValueIdx
import Idealize.ShloMosaic.Lib.Pipeline.Value
import Idealize.ShloMosaic.PureOps.Ideal.Laws
import Idealize.ShloMosaic.Lib.Tactic
import Mathlib.Algebra.BigOperators.Fin

set_option maxRecDepth 16384

noncomputable section

namespace Cert.K3

open scoped BigOperators
open Cert.KernelIdeal Cert.KernelIdeal.Gen Cert.KernelIdeal.GenP Cert.Spec Cert.Views Idealize.ShloMosaic Idealize.ShloMosaic.TcCoe
  Idealize.ShloMosaic.Tactic Idealize.ShloMosaic.ValueIdx Idealize.SL.Sem Cert.K3Body
open Idealize.ShloMosaic.Pipeline (Dat Cfg Window)

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

abbrev ldG0 (x : Vec F S128x1 .f32) : Vec F S64x1 .f32 :=
  View.ld x (Rect.unit (s := S128x1) ![0, 0] S64x1.size inb_S128x1_S64x1_0_0)

abbrev ldG64 (x : Vec F S128x1 .f32) : Vec F S32x1 .f32 :=
  View.ld x (Rect.unit (s := S128x1) ![64, 0] S32x1.size inb_S128x1_S32x1_64_0)

abbrev ldG96 (x : Vec F S128x1 .f32) : Vec F S32x1 .f32 :=
  View.ld x (Rect.unit (s := S128x1) ![96, 0] S32x1.size inb_S128x1_S32x1_96_0)

abbrev ldW0 (x : Vec F S2x1024 .f32) : Vec F S1x1024 .f32 :=
  View.ld x (Rect.unit (s := S2x1024) ![0, 0] S1x1024.size inb_S2x1024_S1x1024_0_0)

abbrev ldW1 (x : Vec F S2x1024 .f32) : Vec F S1x1024 .f32 :=
  View.ld x (Rect.unit (s := S2x1024) ![1, 0] S1x1024.size inb_S2x1024_S1x1024_1_0)

variable (c : Dev nD) (i : grid3.Coords) (arg1 : Memref sig .tc .vmem S64x8x1024 .bf16) (harg1 : arg1.IsWhole) (arg2 : Memref sig .tc .vmem S32x8x1024 .bf16) (harg2 : arg2.IsWhole) (arg3 : Memref sig .tc .vmem S32x8x1024 .bf16) (harg3 : arg3.IsWhole) (arg4 : Memref sig .tc .vmem S1x64x2 .f32) (harg4 : arg4.IsWhole) (arg5 : Memref sig .tc .vmem S1x32x2 .f32) (harg5 : arg5.IsWhole) (arg6 : Memref sig .tc .vmem S1x32x2 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S2x1024 .f32) (harg9 : arg9.IsWhole) (arg10 : Memref sig .tc .vmem S288x128 .f32) (harg10 : arg10.IsWhole) (arg11 : Memref sig .tc .vmem S32x8x1024 .bf16) (harg11 : arg11.IsWhole) (arg12 : Memref sig .tc .vmem S1x32x2 .f32) (harg12 : arg12.IsWhole) (x0 : Vec F S64x8x1024 .bf16) (x1 : Vec F S32x8x1024 .bf16) (x2 : Vec F S32x8x1024 .bf16) (x3 : Vec F S1x64x2 .f32) (x4 : Vec F S1x32x2 .f32) (x5 : Vec F S1x32x2 .f32) (x6 : Vec F S128x1 .f32) (x7 : Vec F S128x1 .f32) (x8 : Vec F S2x1024 .f32) (x9 : Vec F S288x128 .f32)

theorem outA10 (hc0 : cond3_0 i) :
    out3_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = coreOut x0 x1 x2 x3 x4 x5 (ldG0 x6) (ldG0 x7) (ldG64 x6) (ldG64 x7) (ldG96 x6) (ldG96 x7) (ldW0 x8) (ldW1 x8) x9 := by
  unfold out3_A_10
  rw [View.read_writes_eq_canon _ _ _ fun _ => cover3_A_10 ..]
  unfold kernelRun3_A
  dsimp only
  sl_unfold_words
  rw [View.canon_unit_zero hz3]
  simp only [View.readAt_eq_ld, harg1.read_unread, harg2.read_unread, harg3.read_unread, harg4.read_unread, harg5.read_unread,
    harg6.read_unread, harg7.read_unread, harg8.read_unread, harg9.read_unread, harg10.read_unread, harg12.read_unread,
    View.readCov_unit_zero (S := S1x32x2) _ hz3,
    View.ld_unit_zero (S := S64x8x1024) hz3, View.ld_unit_zero (S := S32x8x1024) hz3, View.ld_unit_zero (S := S1x64x2) hz3,
    View.ld_unit_zero (S := S1x32x2) hz3, View.ld_unit_zero (S := S288x128) hz2]
  rfl

theorem outA11 (hc0 : cond3_0 i) :
    out3_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = k3_pay2 (coreM x0 x1 x2 x3 x4 x5 (ldG0 x6) (ldG0 x7) (ldG64 x6) (ldG64 x7) (ldG96 x6) (ldG96 x7) (ldW0 x8) (ldW1 x8) x9) (k3_pay1 (F := F)) := by
  unfold out3_A_11
  rw [View.read_writes_eq_canon _ _ _ fun _ => cover3_A_11 ..]
  unfold kernelRun3_A
  dsimp only
  sl_unfold_words
  rw [View.canon_cons_unit_zero (S := S1x32x2) hz3]
  simp only [View.readAt_eq_ld, harg1.read_unread, harg2.read_unread, harg3.read_unread, harg4.read_unread, harg5.read_unread,
    harg6.read_unread, harg7.read_unread, harg8.read_unread, harg9.read_unread, harg10.read_unread, harg12.read_unread,
    View.readCov_unit_zero (S := S1x32x2) _ hz3,
    View.ld_unit_zero (S := S64x8x1024) hz3, View.ld_unit_zero (S := S32x8x1024) hz3, View.ld_unit_zero (S := S1x64x2) hz3,
    View.ld_unit_zero (S := S1x32x2) hz3, View.ld_unit_zero (S := S288x128) hz2]
  rfl

theorem outB10 (hc0 : ¬cond3_0 i) (xo11 : Vec F S1x32x2 .f32) :
    out3_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo11 = coreOut x0 x1 x2 x3 x4 x5 (ldG0 x6) (ldG0 x7) (ldG64 x6) (ldG64 x7) (ldG96 x6) (ldG96 x7) (ldW0 x8) (ldW1 x8) x9 := by
  unfold out3_B_10
  rw [View.read_writes_eq_canon _ _ _ fun _ => cover3_B_10 ..]
  unfold kernelRun3_B
  dsimp only
  sl_unfold_words
  rw [View.canon_unit_zero hz3]
  simp only [View.readAt_eq_ld, harg1.read_unread, harg2.read_unread, harg3.read_unread, harg4.read_unread, harg5.read_unread,
    harg6.read_unread, harg7.read_unread, harg8.read_unread, harg9.read_unread, harg10.read_unread, harg12.read_unread,
    View.readCov_unit_zero (S := S1x32x2) _ hz3,
    View.ld_unit_zero (S := S64x8x1024) hz3, View.ld_unit_zero (S := S32x8x1024) hz3, View.ld_unit_zero (S := S1x64x2) hz3,
    View.ld_unit_zero (S := S1x32x2) hz3, View.ld_unit_zero (S := S288x128) hz2]
  rfl

theorem outB11 (hc0 : ¬cond3_0 i) (xo11 : Vec F S1x32x2 .f32) :
    out3_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo11 = k3_pay2 (coreM x0 x1 x2 x3 x4 x5 (ldG0 x6) (ldG0 x7) (ldG64 x6) (ldG64 x7) (ldG96 x6) (ldG96 x7) (ldW0 x8) (ldW1 x8) x9) xo11 := by
  unfold out3_B_11
  rw [View.read_writes_eq_canon _ _ _ fun _ => cover3_B_11 ..]
  unfold kernelRun3_B
  dsimp only
  sl_unfold_words
  rw [View.canon_unit_zero hz3]
  simp only [View.readAt_eq_ld, harg1.read_unread, harg2.read_unread, harg3.read_unread, harg4.read_unread, harg5.read_unread,
    harg6.read_unread, harg7.read_unread, harg8.read_unread, harg9.read_unread, harg10.read_unread, harg12.read_unread,
    View.readCov_unit_zero (S := S1x32x2) _ hz3,
    View.ld_unit_zero (S := S64x8x1024) hz3, View.ld_unit_zero (S := S32x8x1024) hz3, View.ld_unit_zero (S := S1x64x2) hz3,
    View.ld_unit_zero (S := S1x32x2) hz3, View.ld_unit_zero (S := S288x128) hz2]
  rfl

end Pieces

variable (V : (c : Dev nD) → (b : Ref sig .tc) → Buf (Elt Ideal) ((c : Thread nD τ).loc b))

abbrev p0 (c : Dev nD) : Vec Ideal S64x128x1024 .bf16 := V c main_v11_0
abbrev p1 (c : Dev nD) : Vec Ideal S32x128x1024 .bf16 := V c main_v16_0
abbrev p2 (c : Dev nD) : Vec Ideal S32x128x1024 .bf16 := V c main_v21_0
abbrev q0 (c : Dev nD) : Vec Ideal S1x64x2 .f32 := V c main_v11_1
abbrev q1 (c : Dev nD) : Vec Ideal S1x32x2 .f32 := V c main_v16_1
abbrev q2 (c : Dev nD) : Vec Ideal S1x32x2 .f32 := V c main_v21_1
abbrev gam (c : Dev nD) : Vec Ideal S128x1 .f32 := V c main_v24
abbrev bet (c : Dev nD) : Vec Ideal S128x1 .f32 := V c main_v25
abbrev wmk (c : Dev nD) : Vec Ideal S2x1024 .f32 := V c main_v10
abbrev wts (c : Dev nD) : Vec Ideal S288x128 .f32 := V c main_v23

def Xin (c : Dev nD) : Act 128 := appendCh (appendCh (actCM (p0 V c)) (actCM (p1 V c))) (actCM (p2 V c))

def S1in (c : Dev nD) : Fin 128 → EReal := appendV (appendV (mom3 (q0 V c) 0) (mom3 (q1 V c) 0)) (mom3 (q2 V c) 0)

def S2in (c : Dev nD) : Fin 128 → EReal := appendV (appendV (mom3 (q0 V c) 1) (mom3 (q1 V c) 1)) (mom3 (q2 V c) 1)

def Yspec (c : Dev nD) : Act 32 :=
  convTaps (wTapMajor (wts V c)) (maskRows (wmk V c))
    (bnreluM (col (gam V c)) (col (bet V c)) (S1in V c) (S2in V c) (Xin V c))

abbrev yOut (c : Dev nD) : Vec Ideal S32x128x1024 .bf16 := (dat3 V c).arrAt 10 cfg3.N

abbrev mOut (c : Dev nD) : Vec Ideal S1x32x2 .f32 := (dat3 V c).arrAt 11 cfg3.N

theorem Yspec_eq (c : Dev nD) :
    Yspec V c = specY (p0 V c) (p1 V c) (p2 V c) (q0 V c) (q1 V c) (q2 V c) (gam V c) (bet V c) (wmk V c) (wts V c) := rfl

theorem hN16 : cfg3.N = 16 := N_3

abbrev xb0 (c : Dev nD) (t : Fin cfg3.N) : Vec Ideal S64x8x1024 .bf16 := iblk3 V c 0 t
abbrev xb1 (c : Dev nD) (t : Fin cfg3.N) : Vec Ideal S32x8x1024 .bf16 := iblk3 V c 1 t
abbrev xb2 (c : Dev nD) (t : Fin cfg3.N) : Vec Ideal S32x8x1024 .bf16 := iblk3 V c 2 t
abbrev mb0 (c : Dev nD) (t : Fin cfg3.N) : Vec Ideal S1x64x2 .f32 := iblk3 V c 3 t
abbrev mb1 (c : Dev nD) (t : Fin cfg3.N) : Vec Ideal S1x32x2 .f32 := iblk3 V c 4 t
abbrev mb2 (c : Dev nD) (t : Fin cfg3.N) : Vec Ideal S1x32x2 .f32 := iblk3 V c 5 t
abbrev gb (c : Dev nD) (t : Fin cfg3.N) : Vec Ideal S128x1 .f32 := iblk3 V c 6 t
abbrev bb (c : Dev nD) (t : Fin cfg3.N) : Vec Ideal S128x1 .f32 := iblk3 V c 7 t
abbrev wmb (c : Dev nD) (t : Fin cfg3.N) : Vec Ideal S2x1024 .f32 := iblk3 V c 8 t
abbrev wb (c : Dev nD) (t : Fin cfg3.N) : Vec Ideal S288x128 .f32 := iblk3 V c 9 t

theorem idx_parts : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = t.val ∧ win3_1.index t (2 : Fin 3) = 0
    ∧ win3_2.index t (0 : Fin 3) = 0 ∧ win3_2.index t (1 : Fin 3) = t.val ∧ win3_2.index t (2 : Fin 3) = 0
    ∧ win3_10.index t (0 : Fin 3) = 0 ∧ win3_10.index t (1 : Fin 3) = t.val ∧ win3_10.index t (2 : Fin 3) = 0 :=
  (by decide +kernel : ∀ t : Fin grid3.N, _)

theorem idx_3 : ∀ (t : Fin cfg3.N) a, win3_3.index t a = 0 :=
  (by decide +kernel : ∀ (t : Fin grid3.N) a, _)

theorem idx_4 : ∀ (t : Fin cfg3.N) a, win3_4.index t a = 0 :=
  (by decide +kernel : ∀ (t : Fin grid3.N) a, _)

theorem idx_5 : ∀ (t : Fin cfg3.N) a, win3_5.index t a = 0 :=
  (by decide +kernel : ∀ (t : Fin grid3.N) a, _)

theorem idx_6 : ∀ (t : Fin cfg3.N) a, win3_6.index t a = 0 :=
  (by decide +kernel : ∀ (t : Fin grid3.N) a, _)

theorem idx_7 : ∀ (t : Fin cfg3.N) a, win3_7.index t a = 0 :=
  (by decide +kernel : ∀ (t : Fin grid3.N) a, _)

theorem idx_8 : ∀ (t : Fin cfg3.N) a, win3_8.index t a = 0 :=
  (by decide +kernel : ∀ (t : Fin grid3.N) a, _)

theorem idx_9 : ∀ (t : Fin cfg3.N) a, win3_9.index t a = 0 :=
  (by decide +kernel : ∀ (t : Fin grid3.N) a, _)

theorem xb0_apply (c : Dev nD) (t : Fin cfg3.N) (ch : Fin 64) (b : Fin 8) (q : Fin 1024) :
    xb0 V c t (ix3 ch b q)
      = p0 V c (ix3 ch ⟨t.val * 8 + b.val, by have := t.isLt; have := hN16; omega⟩ q) := by
  obtain ⟨e0, e1, e2, -⟩ := idx_parts t
  unfold xb0 iblk3
  rw [View.read_apply]
  show V c main_v11_0 _ = V c main_v11_0 _
  congr 1
  funext a
  apply Fin.ext
  match a with
  | ⟨0, _⟩ => show win3_0.index t (0 : Fin 3) * 64 + 1 * ch.val = ch.val; rw [e0]; omega
  | ⟨1, _⟩ => show win3_0.index t (1 : Fin 3) * 8 + 1 * b.val = t.val * 8 + b.val; rw [e1]; omega
  | ⟨2, _⟩ => show win3_0.index t (2 : Fin 3) * 1024 + 1 * q.val = q.val; rw [e2]; omega

theorem xb1_apply (c : Dev nD) (t : Fin cfg3.N) (ch : Fin 32) (b : Fin 8) (q : Fin 1024) :
    xb1 V c t (ix3 ch b q)
      = p1 V c (ix3 ch ⟨t.val * 8 + b.val, by have := t.isLt; have := hN16; omega⟩ q) := by
  obtain ⟨-, -, -, e0, e1, e2, -⟩ := idx_parts t
  unfold xb1 iblk3
  rw [View.read_apply]
  show V c main_v16_0 _ = V c main_v16_0 _
  congr 1
  funext a
  apply Fin.ext
  match a with
  | ⟨0, _⟩ => show win3_1.index t (0 : Fin 3) * 32 + 1 * ch.val = ch.val; rw [e0]; omega
  | ⟨1, _⟩ => show win3_1.index t (1 : Fin 3) * 8 + 1 * b.val = t.val * 8 + b.val; rw [e1]; omega
  | ⟨2, _⟩ => show win3_1.index t (2 : Fin 3) * 1024 + 1 * q.val = q.val; rw [e2]; omega

theorem xb2_apply (c : Dev nD) (t : Fin cfg3.N) (ch : Fin 32) (b : Fin 8) (q : Fin 1024) :
    xb2 V c t (ix3 ch b q)
      = p2 V c (ix3 ch ⟨t.val * 8 + b.val, by have := t.isLt; have := hN16; omega⟩ q) := by
  obtain ⟨-, -, -, -, -, -, e0, e1, e2, -⟩ := idx_parts t
  unfold xb2 iblk3
  rw [View.read_apply]
  show V c main_v21_0 _ = V c main_v21_0 _
  congr 1
  funext a
  apply Fin.ext
  match a with
  | ⟨0, _⟩ => show win3_2.index t (0 : Fin 3) * 32 + 1 * ch.val = ch.val; rw [e0]; omega
  | ⟨1, _⟩ => show win3_2.index t (1 : Fin 3) * 8 + 1 * b.val = t.val * 8 + b.val; rw [e1]; omega
  | ⟨2, _⟩ => show win3_2.index t (2 : Fin 3) * 1024 + 1 * q.val = q.val; rw [e2]; omega

theorem mb0_eq (c : Dev nD) (t : Fin cfg3.N) : mb0 V c t = q0 V c := by
  funext y
  show V c main_v11_1 (((cfg3.win 3).blk t).view.emb y) = V c main_v11_1 y
  exact congrArg (V c main_v11_1) (funext fun a => Fin.ext (Window.rect_emb_val_of_index_zero win3_3 t a (idx_3 t a) y))

theorem mb1_eq (c : Dev nD) (t : Fin cfg3.N) : mb1 V c t = q1 V c := by
  funext y
  show V c main_v16_1 (((cfg3.win 4).blk t).view.emb y) = V c main_v16_1 y
  exact congrArg (V c main_v16_1) (funext fun a => Fin.ext (Window.rect_emb_val_of_index_zero win3_4 t a (idx_4 t a) y))

theorem mb2_eq (c : Dev nD) (t : Fin cfg3.N) : mb2 V c t = q2 V c := by
  funext y
  show V c main_v21_1 (((cfg3.win 5).blk t).view.emb y) = V c main_v21_1 y
  exact congrArg (V c main_v21_1) (funext fun a => Fin.ext (Window.rect_emb_val_of_index_zero win3_5 t a (idx_5 t a) y))

theorem gb_eq (c : Dev nD) (t : Fin cfg3.N) : gb V c t = gam V c := by
  funext y
  show V c main_v24 (((cfg3.win 6).blk t).view.emb y) = V c main_v24 y
  exact congrArg (V c main_v24) (funext fun a => Fin.ext (Window.rect_emb_val_of_index_zero win3_6 t a (idx_6 t a) y))

theorem bb_eq (c : Dev nD) (t : Fin cfg3.N) : bb V c t = bet V c := by
  funext y
  show V c main_v25 (((cfg3.win 7).blk t).view.emb y) = V c main_v25 y
  exact congrArg (V c main_v25) (funext fun a => Fin.ext (Window.rect_emb_val_of_index_zero win3_7 t a (idx_7 t a) y))

theorem wmb_eq (c : Dev nD) (t : Fin cfg3.N) : wmb V c t = wmk V c := by
  funext y
  show V c main_v10 (((cfg3.win 8).blk t).view.emb y) = V c main_v10 y
  exact congrArg (V c main_v10) (funext fun a => Fin.ext (Window.rect_emb_val_of_index_zero win3_8 t a (idx_8 t a) y))

theorem wb_eq (c : Dev nD) (t : Fin cfg3.N) : wb V c t = wts V c := by
  funext y
  show V c main_v23 (((cfg3.win 9).blk t).view.emb y) = V c main_v23 y
  exact congrArg (V c main_v23) (funext fun a => Fin.ext (Window.rect_emb_val_of_index_zero win3_9 t a (idx_9 t a) y))

theorem ldG0_apply (x : Vec Ideal S128x1 .f32) (ch : Fin 64) (k : Fin 128) (hk : k.val = ch.val) :
    ldG0 x (ix2 ch 0) = x (ix2 k 0) :=
  congrArg x (funext fun a => Fin.ext (by
    match a with
    | ⟨0, _⟩ => show 0 + 1 * ch.val = k.val; omega
    | ⟨1, _⟩ => rfl))
theorem ldG64_apply (x : Vec Ideal S128x1 .f32) (ch : Fin 32) (k : Fin 128) (hk : k.val = 64 + ch.val) :
    ldG64 x (ix2 ch 0) = x (ix2 k 0) :=
  congrArg x (funext fun a => Fin.ext (by
    match a with
    | ⟨0, _⟩ => show 64 + 1 * ch.val = k.val; omega
    | ⟨1, _⟩ => rfl))
theorem ldG96_apply (x : Vec Ideal S128x1 .f32) (ch : Fin 32) (k : Fin 128) (hk : k.val = 96 + ch.val) :
    ldG96 x (ix2 ch 0) = x (ix2 k 0) :=
  congrArg x (funext fun a => Fin.ext (by
    match a with
    | ⟨0, _⟩ => show 96 + 1 * ch.val = k.val; omega
    | ⟨1, _⟩ => rfl))
theorem ldW0_apply (x : Vec Ideal S2x1024 .f32) (q : Fin 1024) : ldW0 x (ix2 0 q) = x (ix2 0 q) :=
  congrArg x (funext fun a => Fin.ext (by
    match a with
    | ⟨0, _⟩ => rfl
    | ⟨1, _⟩ => show 0 + 1 * q.val = q.val; omega))
theorem ldW1_apply (x : Vec Ideal S2x1024 .f32) (q : Fin 1024) : ldW1 x (ix2 0 q) = x (ix2 1 q) :=
  congrArg x (funext fun a => Fin.ext (by
    match a with
    | ⟨0, _⟩ => rfl
    | ⟨1, _⟩ => show 0 + 1 * q.val = q.val; omega))

def blkOut (c : Dev nD) (t : Fin cfg3.N) : Vec Ideal S32x8x1024 .bf16 := coreOut (xb0 V c t) (xb1 V c t) (xb2 V c t) (mb0 V c t) (mb1 V c t) (mb2 V c t) (ldG0 (gb V c t)) (ldG0 (bb V c t)) (ldG64 (gb V c t)) (ldG64 (bb V c t)) (ldG96 (gb V c t)) (ldG96 (bb V c t)) (ldW0 (wmb V c t)) (ldW1 (wmb V c t)) (wb V c t)

def blkM (c : Dev nD) (t : Fin cfg3.N) : FVec Ideal S32x2 .f32 := coreM (xb0 V c t) (xb1 V c t) (xb2 V c t) (mb0 V c t) (mb1 V c t) (mb2 V c t) (ldG0 (gb V c t)) (ldG0 (bb V c t)) (ldG64 (gb V c t)) (ldG64 (bb V c t)) (ldG96 (gb V c t)) (ldG96 (bb V c t)) (ldW0 (wmb V c t)) (ldW1 (wmb V c t)) (wb V c t)

def accM (c : Dev nD) : (n : ℕ) → n < cfg3.N → Vec Ideal S1x32x2 .f32
  | 0, h => k3_pay2 (blkM V c ⟨0, h⟩) (k3_pay1 (F := Ideal))
  | n + 1, h => k3_pay2 (blkM V c ⟨n + 1, h⟩) (accM c n (Nat.lt_of_succ_lt h))

theorem outs_eq (c : Dev nD) : ∀ (n : ℕ) (h : n < cfg3.N), outsAt3 V c n h = (blkOut V c ⟨n, h⟩, accM V c n h)
  | 0, h => by
    rw [outsAt3_A V c ⟨0, h⟩ (Nat.zero_mod _), outA10, outA11]
    rfl
  | n + 1, h => by
    have hN : cfg3.N = 16 := N_3
    have hB : ¬(⟨n + 1, h⟩ : Fin cfg3.N).val % 16 = 0 := by dsimp only; omega
    rw [outsAt3_B V c ⟨n + 1, h⟩ hB]
    dsimp only
    rw [outB10, outB11]
    show (_, k3_pay2 _ (outsAt3 V c n _).2) = _
    rw [outs_eq c n]
    rfl

theorem blkOut_apply (c : Dev nD) (t : Fin cfg3.N) (o : Fin 32) (b : Fin 8) (p : Fin 1024) :
    blkOut V c t (ix3 o b p) = Yspec V c ⟨t.val * 8 + b.val, by have := t.isLt; have := hN16; omega⟩ o p := by
  unfold blkOut
  rw [coreOut_apply, mb0_eq, mb1_eq, mb2_eq, gb_eq, bb_eq, wmb_eq, wb_eq, Yspec_eq]
  exact coreY_eq_spec (hx0 := fun ch q => xb0_apply V c t ch b q) (hx1 := fun ch q => xb1_apply V c t ch b q)
    (hx2 := fun ch q => xb2_apply V c t ch b q) (hg0 := ldG0_apply _) (hb0 := ldG0_apply _) (hg1 := ldG64_apply _)
    (hb1 := ldG64_apply _) (hg2 := ldG96_apply _) (hb2 := ldG96_apply _) (hw0 := ldW0_apply _) (hw1 := ldW1_apply _) ..

def bs1 (c : Dev nD) (o : Fin 32) (j : ℕ) : EReal :=
  if h : j < 16 then ∑ b : Fin 8, ∑ p : Fin 1024, Yspec V c ⟨j * 8 + b.val, by omega⟩ o p else 0
def bs2 (c : Dev nD) (o : Fin 32) (j : ℕ) : EReal :=
  if h : j < 16 then ∑ b : Fin 8, ∑ p : Fin 1024,
    Yspec V c ⟨j * 8 + b.val, by omega⟩ o p * Yspec V c ⟨j * 8 + b.val, by omega⟩ o p else 0

theorem blkM_apply (c : Dev nD) (t : Fin cfg3.N) (o : Fin 32) :
    blkM V c t (ix2 o (0 : Fin 2)) = bs1 V c o t.val ∧ blkM V c t (ix2 o (1 : Fin 2)) = bs2 V c o t.val := by
  have ht : t.val < 16 := by have := t.isLt; have := hN16; omega
  unfold bs1 bs2 blkM
  rw [dif_pos ht, dif_pos ht, mb0_eq, mb1_eq, mb2_eq, gb_eq, bb_eq, wmb_eq, wb_eq, Yspec_eq]
  exact coreM_eq_spec (t := ⟨t.val, ht⟩) (hx0 := fun ch b q => xb0_apply V c t ch b q)
    (hx1 := fun ch b q => xb1_apply V c t ch b q) (hx2 := fun ch b q => xb2_apply V c t ch b q) (hg0 := ldG0_apply _)
    (hb0 := ldG0_apply _) (hg1 := ldG64_apply _) (hb1 := ldG64_apply _) (hg2 := ldG96_apply _) (hb2 := ldG96_apply _)
    (hw0 := ldW0_apply _) (hw1 := ldW1_apply _) ..

theorem accM_apply (c : Dev nD) (o : Fin 32) : ∀ (n : ℕ) (h : n < cfg3.N),
    accM V c n h (ix3 (0 : Fin 1) o (0 : Fin 2)) = ∑ j ∈ Finset.range (n + 1), bs1 V c o j
    ∧ accM V c n h (ix3 (0 : Fin 1) o (1 : Fin 2)) = ∑ j ∈ Finset.range (n + 1), bs2 V c o j
  | 0, h => by
    obtain ⟨e1, e2⟩ := blkM_apply V c ⟨0, h⟩ o
    show k3_pay2 (blkM V c ⟨0, h⟩) (k3_pay1 (F := Ideal)) (ix3 (0 : Fin 1) o (0 : Fin 2)) = _
      ∧ k3_pay2 (blkM V c ⟨0, h⟩) (k3_pay1 (F := Ideal)) (ix3 (0 : Fin 1) o (1 : Fin 2)) = _
    simp only [pay2_apply, pay1_apply, zero_add, Finset.sum_range_one]
    exact ⟨e1, e2⟩
  | n + 1, h => by
    obtain ⟨ih1, ih2⟩ := accM_apply c o n (Nat.lt_of_succ_lt h)
    obtain ⟨e1, e2⟩ := blkM_apply V c ⟨n + 1, h⟩ o
    show k3_pay2 (blkM V c ⟨n + 1, h⟩) (accM V c n (Nat.lt_of_succ_lt h)) (ix3 (0 : Fin 1) o (0 : Fin 2)) = _
      ∧ k3_pay2 (blkM V c ⟨n + 1, h⟩) (accM V c n (Nat.lt_of_succ_lt h)) (ix3 (0 : Fin 1) o (1 : Fin 2)) = _
    rw [pay2_apply, pay2_apply, ih1, ih2, e1, e2, Finset.sum_range_succ _ (n + 1), Finset.sum_range_succ _ (n + 1)]
    exact ⟨rfl, rfl⟩

theorem total1 (c : Dev nD) (o : Fin 32) : ∑ j ∈ Finset.range 16, bs1 V c o j = sum1 (Yspec V c) o := by
  unfold sum1
  rw [Cert.SpecAlg.sum_images_blocks, ← Fin.sum_univ_eq_sum_range (fun j => bs1 V c o j) 16]
  refine Finset.sum_congr rfl fun j _ => ?_
  unfold bs1
  rw [dif_pos j.isLt]
theorem total2 (c : Dev nD) (o : Fin 32) : ∑ j ∈ Finset.range 16, bs2 V c o j = sum2 (Yspec V c) o := by
  unfold sum2
  rw [Cert.SpecAlg.sum_images_blocks, ← Fin.sum_univ_eq_sum_range (fun j => bs2 V c o j) 16]
  refine Finset.sum_congr rfl fun j _ => ?_
  unfold bs2
  rw [dif_pos j.isLt]

def G10 (c : Dev nD) : Vec Ideal S32x128x1024 .bf16 := fun i =>
  Yspec V c ⟨(i 1).val, (i 1).isLt⟩ ⟨(i 0).val, (i 0).isLt⟩ ⟨(i 2).val, (i 2).isLt⟩

theorem flushed10 (c : Dev nD) (t : Fin cfg3.N) :
    (dat3 V c).flushed 10 t = ((cfg3.win 10).blk t).view.read (Elt Ideal) (G10 V c) := by
  obtain ⟨-, -, -, -, -, -, -, -, -, e0, e1, e2⟩ := idx_parts t
  show (cfg3.win 10).cut (grid3.coords t) ((dat3 V c).after 10 t) = _
  rw [after3_10, outs_eq]
  funext j
  obtain ⟨o, b, p, rfl⟩ : ∃ (o : Fin 32) (b : Fin 8) (p : Fin 1024), j = ix3 o b p := ⟨j 0, j 1, j 2, eq_ix3 j⟩
  rw [View.read_apply]
  show blkOut V c t (ix3 o b p) = G10 V c (((cfg3.win 10).blk t).view.emb (ix3 o b p))
  rw [blkOut_apply]
  unfold G10
  have h0 : ((((cfg3.win 10).blk t).view.emb (ix3 o b p)) (0 : Fin 3)).val = o.val := by
    show win3_10.index t (0 : Fin 3) * 32 + 1 * o.val = o.val; rw [e0]; omega
  have h1 : ((((cfg3.win 10).blk t).view.emb (ix3 o b p)) (1 : Fin 3)).val = t.val * 8 + b.val := by
    show win3_10.index t (1 : Fin 3) * 8 + 1 * b.val = t.val * 8 + b.val; rw [e1]; omega
  have h2 : ((((cfg3.win 10).blk t).view.emb (ix3 o b p)) (2 : Fin 3)).val = p.val := by
    show win3_10.index t (2 : Fin 3) * 1024 + 1 * p.val = p.val; rw [e2]; omega
  exact congr (congr (congrArg (Yspec V c) (Fin.ext h1.symm)) (Fin.ext h0.symm)) (Fin.ext h2.symm)

theorem mem_blk10 (t : Fin cfg3.N) (i : S32x128x1024.Idx) :
    i ∈ ((cfg3.win 10).blk t).view.set ↔ ∀ a : Fin 3, win3_10.index t a * S32x8x1024.size a ≤ (i a).val
      ∧ (i a).val < win3_10.index t a * S32x8x1024.size a + S32x8x1024.size a := by
  show i ∈ ((View.whole main_v26_0).slice (win3_10.rect t)).set ↔ _
  rw [View.set_slice_whole, Rect.mem_set_unit]
  exact Iff.rfl

theorem cover10 (i : S32x128x1024.Idx) :
    ∃ t : Fin cfg3.N, (cfg3.win 10).flush t = true ∧ i ∈ ((cfg3.win 10).blk t).view.set := by
  have hN : cfg3.N = 16 := N_3
  have hi0 : (i 0).val < 32 := (i 0).isLt
  have hi1 : (i 1).val < 128 := (i 1).isLt
  have hi2 : (i 2).val < 1024 := (i 2).isLt
  let t : Fin cfg3.N := ⟨(i 1).val / 8, by omega⟩
  have htv : t.val = (i 1).val / 8 := rfl
  obtain ⟨-, -, -, -, -, -, -, -, -, e0, e1, e2⟩ := idx_parts t
  refine ⟨t, flush3_10 t, ?_⟩
  rw [mem_blk10]
  intro a
  match a with
  | ⟨0, _⟩ => show win3_10.index t (0 : Fin 3) * 32 ≤ (i 0).val ∧ (i 0).val < win3_10.index t (0 : Fin 3) * 32 + 32; rw [e0]; omega
  | ⟨1, _⟩ => show win3_10.index t (1 : Fin 3) * 8 ≤ (i 1).val ∧ (i 1).val < win3_10.index t (1 : Fin 3) * 8 + 8; rw [e1, htv]; omega
  | ⟨2, _⟩ => show win3_10.index t (2 : Fin 3) * 1024 ≤ (i 2).val ∧ (i 2).val < win3_10.index t (2 : Fin 3) * 1024 + 1024; rw [e2]; omega

theorem arr_y (c : Dev nD) : actCM (yOut V c) = Yspec V c := by
  have hG : yOut V c = G10 V c :=
    (dat3 V c).arrAt_eq_of_cover 10 (G10 V c) (fun t _ => flushed10 V c t) (cover10)
  rw [hG]
  rfl

def G11 (c : Dev nD) : Vec Ideal S1x32x2 .f32 := accM V c 15 (by rw [show cfg3.N = 16 from N_3]; decide)

theorem flushed11 (c : Dev nD) (t : Fin cfg3.N) (hf : (cfg3.win 11).flush t = true) :
    (dat3 V c).flushed 11 t = ((cfg3.win 11).blk t).view.read (Elt Ideal) (G11 V c) := by
  have hN : cfg3.N = 16 := N_3
  have h15 : t.val = 15 := by have := (flush3_11 t).mp hf; have := t.isLt; omega
  obtain rfl : t = t3_15 := Fin.ext h15
  show (cfg3.win 11).cut (grid3.coords t3_15) ((dat3 V c).after 11 t3_15) = _
  rw [after3_11, outs_eq]
  have hz' : (fun a => win3_11.index t3_15 a * main_v26_1.ty.shape.size a) = fun _ => 0 :=
    funext fun a => by fin_cases a <;> decide
  exact (Memref.read_access_unit_zero (Elt Ideal) main_v26_1 hz' (fun a => by rw [congrFun hz' a]; simp) (G11 V c)).symm

theorem cover11 (i : S1x32x2.Idx) :
    ∃ t : Fin cfg3.N, (cfg3.win 11).flush t = true ∧ i ∈ ((cfg3.win 11).blk t).view.set :=
  ⟨t3_15, (flush3_11 t3_15).mpr rfl, by
    show i ∈ ((View.whole main_v26_1).slice (win3_11.rect t3_15)).set
    rw [View.set_slice_whole, Rect.mem_set_unit]
    intro a
    have h0 : (i 0 : Nat) < 1 := (i 0).isLt
    have h1 : (i 1 : Nat) < 32 := (i 1).isLt
    have h2 : (i 2 : Nat) < 2 := (i 2).isLt
    match a with
    | ⟨0, _⟩ =>
      show win3_11.index t3_15 0 * win3_11.size 0 ≤ (i 0 : Nat)
        ∧ (i 0 : Nat) < win3_11.index t3_15 0 * win3_11.size 0 + win3_11.xsize (grid3.coords t3_15) 0
      rw [show win3_11.index t3_15 0 * win3_11.size 0 = 0 from by decide +kernel,
        show win3_11.xsize (grid3.coords t3_15) 0 = 1 from by decide +kernel]
      omega
    | ⟨1, _⟩ =>
      show win3_11.index t3_15 1 * win3_11.size 1 ≤ (i 1 : Nat)
        ∧ (i 1 : Nat) < win3_11.index t3_15 1 * win3_11.size 1 + win3_11.xsize (grid3.coords t3_15) 1
      rw [show win3_11.index t3_15 1 * win3_11.size 1 = 0 from by decide +kernel,
        show win3_11.xsize (grid3.coords t3_15) 1 = 32 from by decide +kernel]
      omega
    | ⟨2, _⟩ =>
      show win3_11.index t3_15 2 * win3_11.size 2 ≤ (i 2 : Nat)
        ∧ (i 2 : Nat) < win3_11.index t3_15 2 * win3_11.size 2 + win3_11.xsize (grid3.coords t3_15) 2
      rw [show win3_11.index t3_15 2 * win3_11.size 2 = 0 from by decide +kernel,
        show win3_11.xsize (grid3.coords t3_15) 2 = 2 from by decide +kernel]
      omega⟩

theorem arr_m (c : Dev nD) (o : Fin 32) :
    mom3 (mOut V c) 0 o = sum1 (Yspec V c) o ∧ mom3 (mOut V c) 1 o = sum2 (Yspec V c) o := by
  have hG : mOut V c = G11 V c :=
    (dat3 V c).arrAt_eq_of_cover 11 (G11 V c) (flushed11 V c) (cover11)
  obtain ⟨a1, a2⟩ := accM_apply V c o 15 (by rw [show cfg3.N = 16 from N_3]; decide)
  rw [hG]
  constructor
  · show G11 V c (ix3 (0 : Fin 1) o (0 : Fin 2)) = _
    unfold G11
    rw [a1, total1]
  · show G11 V c (ix3 (0 : Fin 1) o (1 : Fin 2)) = _
    unfold G11
    rw [a2, total2]

end Cert.K3

end
-- ==== Proof.KThreadL2.lean ====
import proofs.«136216_g2000306190186476_pallasbulk_240_40_alg».proof.Proof.KThreadL1
import proofs.«136216_g2000306190186476_pallasbulk_240_40_alg».proof.Proof.K3

set_option maxRecDepth 16384

noncomputable section

namespace Cert.KThread

open Cert.KernelIdeal Cert.KernelIdeal.Gen Cert.KernelIdeal.GenP Cert.Spec Cert.Views Cert.Block Cert.Alg Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

theorem Yspec_L2 (c : Dev nD) (hR : (args m c).Real) : Cert.K3.Yspec (V9 m ρ) c = Y2 (args m c) :=
  layer_of_specs (Cert.KHost.h3_w (W8 m ρ c)) (arg_at m ρ c main_arg9 (by decide) 8 (by decide))
    (Cert.KHost.h3_gam (W8 m ρ c)) (arg_at m ρ c main_arg7 (by decide) 8 (by decide))
    (Cert.KHost.h3_bet (W8 m ρ c)) (arg_at m ρ c main_arg8 (by decide) 8 (by decide))
    (mask_at m ρ c 9 (by decide) (by decide)) (in2 m ρ c hR 9 (by decide) (by decide)) hR.w2 hR.g2 hR.b2 (isReal_X2 hR)

theorem in3 (c : Dev nD) (hR : (args m c).Real) (n : ℕ) (h : 10 ≤ n) (hn : n ≤ 17) : IsTri (acc3 m ρ c n) (X3 (args m c)) :=
  isTri_app (in2 m ρ c hR n (by omega) hn)
    (tri_of_out ((kept m ρ c main_v26_0 10 (by decide) n h hn).trans (W10_arr m ρ c 10))
      ((kept m ρ c main_v26_1 10 (by decide) n h hn).trans (W10_arr m ρ c 11)) (Cert.K3.arr_y (V9 m ρ) c)
      (Cert.K3.arr_m (V9 m ρ) c) (Yspec_L2 m ρ c hR))

end Cert.KThread

end
-- ==== Proof.K4Body.lean ====
import proofs.«136216_g2000306190186476_pallasbulk_240_40_alg».proof.Proof.Gen.KernelIdeal.Skeleton
import proofs.«136216_g2000306190186476_pallasbulk_240_40_alg».proof.Proof.K3Body
import proofs.«136216_g2000306190186476_pallasbulk_240_40_alg».proof.Proof.ConvRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.K4

open Cert.KernelIdeal Cert.KernelIdeal.Gen Idealize.ShloMosaic Idealize.ShloMosaic.ValueIdx Idealize.SL.Sem

section Layout
variable {α : Type}

theorem tapRows_apply (o0 : ℕ) (Z : (⟨3, ![288, 8, 1024]⟩ : Shape).Idx → α)
    (h : (⟨3, ![288, 8, 1024]⟩ : Shape).Slices ![o0, 0, 0] ⟨3, ![32, 8, 1024]⟩) (o : Fin 32) (b : Fin 8) (p : Fin 1024)
    (r : Fin 288) (hr : r.val = o0 + o.val) :
    extractStridedSlice ⟨3, ![32, 8, 1024]⟩ ![o0, 0, 0] Z h (ix3 o b p) = Z (ix3 r b p) :=
  extractStridedSlice_apply _ _ _ _ _ (fun ax => by
    match ax with
    | ⟨0, _⟩ => exact hr
    | ⟨1, _⟩ => exact (Nat.zero_add _).symm
    | ⟨2, _⟩ => exact (Nat.zero_add _).symm)

end Layout

def ic : EReal := Ideal.ofBits .f32 0x37000000#32
def ep : EReal := Ideal.ofBits .f32 0x3727C5AC#32

def act (x g b m1 m2 : EReal) : EReal :=
  max (x * (g * Ideal.rsqrt (m2 * ic - m1 * ic * (m1 * ic) + ep))
        + (b - m1 * ic * (g * Ideal.rsqrt (m2 * ic - m1 * ic * (m1 * ic) + ep)))) 0

theorem zero_word : (Scalar.ofBits .f32 0x00000000#32 : Ideal .f32) = 0 := Ideal.ofBits_zero_f32

theorem ic_word : (Scalar.ofBits .f32 0x37000000#32 : Ideal .f32) = ic := rfl
theorem ep_word : (Scalar.ofBits .f32 0x3727C5AC#32 : Ideal .f32) = ep := rfl

theorem pay2_apply (v0 : Vec Ideal S1x64x2 .f32) (v10 v16 : Vec Ideal S64x1 .f32) (v20 : Vec Ideal S64x8x1024 .bf16)
    (ci : Fin 64) (b : Fin 8) (p : Fin 1024) :
    k4_pay2 (F := Ideal) v0 v10 v16 v20 (ix3 ci b p)
      = act (v20 (ix3 ci b p)) (v10 (ix2 ci (0 : Fin 1))) (v16 (ix2 ci (0 : Fin 1)))
          (v0 (ix3 (0 : Fin 1) ci (0 : Fin 2))) (v0 (ix3 (0 : Fin 1) ci (1 : Fin 2))) := by
  unfold k4_pay2 act
  simp only [maximumf_apply, addf_apply, mulf_apply, subf_apply, extf_apply, Cert.K3Body.rsqrt_apply, broadcast_apply, shapeCast_self,
    Cert.K3Body.bcol_apply, Cert.K3Body.momcol_apply 0 (by decide), Cert.K3Body.momcol_apply 1 (by decide), zero_word, ic_word, ep_word]
  rfl

theorem pay7_apply (v31 : Vec Ideal S1x32x2 .f32) (v41 v47 : Vec Ideal S32x1 .f32) (v51 : Vec Ideal S32x8x1024 .bf16)
    (ci : Fin 32) (b : Fin 8) (p : Fin 1024) :
    k4_pay7 (F := Ideal) (k4_pay4 v31) (k4_pay5 v31) (k4_pay6 v31) v41 v47 v51 (ix3 ci b p)
      = act (v51 (ix3 ci b p)) (v41 (ix2 ci (0 : Fin 1))) (v47 (ix2 ci (0 : Fin 1)))
          (v31 (ix3 (0 : Fin 1) ci (0 : Fin 2))) (v31 (ix3 (0 : Fin 1) ci (1 : Fin 2))) := by
  unfold k4_pay7 k4_pay6 k4_pay5 k4_pay4 k4_pay3 act
  simp only [maximumf_apply, addf_apply, mulf_apply, subf_apply, extf_apply, Cert.K3Body.rsqrt_apply, broadcast_apply, shapeCast_self,
    Cert.K3Body.bcol_apply, Cert.K3Body.momcol_apply 0 (by decide), Cert.K3Body.momcol_apply 1 (by decide), zero_word, ic_word, ep_word]
  rfl

theorem pay13_apply (v62 : Vec Ideal S1x32x2 .f32) (v72 v78 : Vec Ideal S32x1 .f32) (v82 : Vec Ideal S32x8x1024 .bf16)
    (ci : Fin 32) (b : Fin 8) (p : Fin 1024) :
    k4_pay13 (F := Ideal) (k4_pay10 v62 v72) (k4_pay11 v78) (k4_pay12 v62 v72) v82 (ix3 ci b p)
      = act (v82 (ix3 ci b p)) (v72 (ix2 ci (0 : Fin 1))) (v78 (ix2 ci (0 : Fin 1)))
          (v62 (ix3 (0 : Fin 1) ci (0 : Fin 2))) (v62 (ix3 (0 : Fin 1) ci (1 : Fin 2))) := by
  unfold k4_pay13 k4_pay12 k4_pay11 k4_pay10 k4_pay9 k4_pay8 act
  simp only [maximumf_apply, addf_apply, mulf_apply, subf_apply, extf_apply, Cert.K3Body.rsqrt_apply, broadcast_apply, shapeCast_self,
    Cert.K3Body.bcol_apply, Cert.K3Body.momcol_apply 0 (by decide), Cert.K3Body.momcol_apply 1 (by decide), zero_word, ic_word, ep_word]
  rfl

theorem pay14_apply (v93 : Vec Ideal S1x32x2 .f32) (v103 v109 : Vec Ideal S32x1 .f32) (v113 : Vec Ideal S32x8x1024 .bf16)
    (ci : Fin 32) (b : Fin 8) (p : Fin 1024) :
    max (k4_pay14 (F := Ideal) v93 v103 v109 v113 (ix3 ci b p)) (k4_pay15 (F := Ideal) (ix3 ci b p))
      = act (v113 (ix3 ci b p)) (v103 (ix2 ci (0 : Fin 1))) (v109 (ix2 ci (0 : Fin 1)))
          (v93 (ix3 (0 : Fin 1) ci (0 : Fin 2))) (v93 (ix3 (0 : Fin 1) ci (1 : Fin 2))) := by
  unfold k4_pay14 k4_pay15 act
  simp only [maximumf_apply, addf_apply, mulf_apply, subf_apply, extf_apply, Cert.K3Body.rsqrt_apply, broadcast_apply, shapeCast_self,
    Cert.K3Body.bcol_apply, Cert.K3Body.momcol_apply 0 (by decide), Cert.K3Body.momcol_apply 1 (by decide), zero_word, ic_word, ep_word]
  rfl

def cat4 {β : Type} (a0 : Fin 64 → β) (a1 a2 a3 : Fin 32 → β) (ci : Fin 160) : β :=
  if h0 : ci.val < 64 then a0 ⟨ci.val, h0⟩
  else if h1 : ci.val < 96 then a1 ⟨ci.val - 64, by omega⟩
  else if h2 : ci.val < 128 then a2 ⟨ci.val - 96, by omega⟩
  else a3 ⟨ci.val - 128, by have := ci.isLt; omega⟩

theorem stack_apply {α : Type} (x0 : S64x8x1024.Idx → α) (x1 x2 x3 : S32x8x1024.Idx → α)
    (h : Shape.Concatenates [S64x8x1024, S32x8x1024, S32x8x1024, S32x8x1024] S160x8x1024 0)
    (ci : Fin 160) (b : Fin 8) (p : Fin 1024) :
    concatenate S160x8x1024 0 [⟨S64x8x1024, x0⟩, ⟨S32x8x1024, x1⟩, ⟨S32x8x1024, x2⟩, ⟨S32x8x1024, x3⟩] h (ix3 ci b p)
      = cat4 (fun c => x0 (ix3 c b p)) (fun c => x1 (ix3 c b p)) (fun c => x2 (ix3 c b p)) (fun c => x3 (ix3 c b p)) ci := by
  have hlt := ci.isLt
  unfold cat4
  split
  · next h0 =>
    exact concatenate_apply_piece (t := S160x8x1024) (0 : Fin 3) [⟨S64x8x1024, x0⟩, ⟨S32x8x1024, x1⟩, ⟨S32x8x1024, x2⟩, ⟨S32x8x1024, x3⟩] h (ix3 ci b p) 0 (by simp) S64x8x1024 x0 rfl rfl 0 rfl
      (ix3 (⟨ci.val, h0⟩ : Fin 64) b p)
      (fun ax hax => by
        match ax with
        | ⟨0, _⟩ => exact absurd rfl hax
        | ⟨1, _⟩ => rfl
        | ⟨2, _⟩ => rfl)
      (by show 0 + ci.val = ci.val; omega)
  · next h0 =>
    split
    · next h1 =>
      exact concatenate_apply_piece (t := S160x8x1024) (0 : Fin 3) [⟨S64x8x1024, x0⟩, ⟨S32x8x1024, x1⟩, ⟨S32x8x1024, x2⟩, ⟨S32x8x1024, x3⟩] h (ix3 ci b p) 1 (by simp) S32x8x1024 x1 rfl rfl 64 rfl
        (ix3 (⟨ci.val - 64, by omega⟩ : Fin 32) b p)
        (fun ax hax => by
          match ax with
          | ⟨0, _⟩ => exact absurd rfl hax
          | ⟨1, _⟩ => rfl
          | ⟨2, _⟩ => rfl)
        (by show 64 + (ci.val - 64) = ci.val; omega)
    · next h1 =>
      split
      · next h2 =>
        exact concatenate_apply_piece (t := S160x8x1024) (0 : Fin 3) [⟨S64x8x1024, x0⟩, ⟨S32x8x1024, x1⟩, ⟨S32x8x1024, x2⟩, ⟨S32x8x1024, x3⟩] h (ix3 ci b p) 2 (by simp) S32x8x1024 x2 rfl rfl 96 rfl
          (ix3 (⟨ci.val - 96, by omega⟩ : Fin 32) b p)
          (fun ax hax => by
            match ax with
            | ⟨0, _⟩ => exact absurd rfl hax
            | ⟨1, _⟩ => rfl
            | ⟨2, _⟩ => rfl)
          (by show 96 + (ci.val - 96) = ci.val; omega)
      · next h2 =>
        exact concatenate_apply_piece (t := S160x8x1024) (0 : Fin 3) [⟨S64x8x1024, x0⟩, ⟨S32x8x1024, x1⟩, ⟨S32x8x1024, x2⟩, ⟨S32x8x1024, x3⟩] h (ix3 ci b p) 3 (by simp) S32x8x1024 x3 rfl rfl 128 rfl
          (ix3 (⟨ci.val - 128, by omega⟩ : Fin 32) b p)
          (fun ax hax => by
            match ax with
            | ⟨0, _⟩ => exact absurd rfl hax
            | ⟨1, _⟩ => rfl
            | ⟨2, _⟩ => rfl)
          (by show 128 + (ci.val - 128) = ci.val; omega)

theorem product_apply (W : FVec Ideal S288x160 .f32) (A : FVec Ideal S160x8192 .f32) (r : Fin 288) (q : Fin 8192) :
    matmul dot_S288x160_S160x8192_S288x8192_1_0_0_1_n_n none W A (constant S288x8192 .f32 0x00000000#32) (ix2 r q)
      = ∑ k : Fin 160, W (ix2 r k) * A (ix2 k q) :=
  Cert.ConvRows.mm_apply W A r q

theorem pay16_apply (v30 : FVec Ideal S64x8x1024 .f32) (v61 v92 v121 v122 : FVec Ideal S32x8x1024 .f32)
    (v125 : Vec Ideal S288x160 .f32) (r : Fin 288) (b : Fin 8) (p : Fin 1024) :
    k4_pay16 (F := Ideal) v30 v61 v92 v121 v122 v125 (ix3 r b p)
      = ∑ ci : Fin 160, v125 (ix2 r ci) * cat4 (fun c => v30 (ix3 c b p)) (fun c => v61 (ix3 c b p))
          (fun c => v92 (ix3 c b p)) (fun c => max (v121 (ix3 c b p)) (v122 (ix3 c b p))) ci := by
  have hq : b.val * 1024 + p.val < 8192 := by have := b.isLt; have := p.isLt; omega
  unfold k4_pay16
  refine (shapeCast_apply _ _ (ix3 r b p) (ix2 r (⟨b.val * 1024 + p.val, hq⟩ : Fin 8192)) (by
    rw [Shape.rowMajor_val_two, Shape.rowMajor_val_three]
    show r.val * 8192 + (b.val * 1024 + p.val) = (r.val * 8 + b.val) * 1024 + p.val
    omega)).trans ?_
  refine (product_apply _ _ r _).trans ?_
  refine Finset.sum_congr rfl fun k _ => ?_
  rw [shapeCast_self]
  refine congrArg (v125 (ix2 r k) * ·) ?_
  refine (shapeCast_apply _ _ (ix2 k (⟨b.val * 1024 + p.val, hq⟩ : Fin 8192)) (ix3 k b p) (by
    rw [Shape.rowMajor_val_two, Shape.rowMajor_val_three]
    show (k.val * 8 + b.val) * 1024 + p.val = k.val * 8192 + (b.val * 1024 + p.val)
    omega)).trans ?_
  exact stack_apply _ _ _ _ _ k b p

def up (f : Fin 1024 → EReal) (k : ℕ) (p : Fin 1024) : EReal :=
  if h : k ≤ p.val then f ⟨p.val - k, by omega⟩ else 0

def down (f : Fin 1024 → EReal) (k : ℕ) (p : Fin 1024) : EReal :=
  if h : p.val + k < 1024 then f ⟨p.val + k, h⟩ else 0

def tapRow (Z : S288x8x1024.Idx → EReal) (t : ℕ) (ht : t < 9) (o : Fin 32) (b : Fin 8) : Fin 1024 → EReal :=
  fun q => Z (ix3 (⟨t * 32 + o.val, by have := o.isLt; omega⟩ : Fin 288) b q)

def nine (Z : S288x8x1024.Idx → EReal) (ml mr : Fin 1024 → EReal) (o : Fin 32) (b : Fin 8) (p : Fin 1024) : EReal :=
  up (tapRow Z 0 (by decide) o b) 33 p * ml p + up (tapRow Z 1 (by decide) o b) 32 p
    + up (tapRow Z 2 (by decide) o b) 31 p * mr p + up (tapRow Z 3 (by decide) o b) 1 p * ml p
    + tapRow Z 4 (by decide) o b p + down (tapRow Z 5 (by decide) o b) 1 p * mr p
    + down (tapRow Z 6 (by decide) o b) 31 p * ml p + down (tapRow Z 7 (by decide) o b) 32 p
    + down (tapRow Z 8 (by decide) o b) 33 p * mr p

theorem up_eq (Z : S32x8x1024.Idx → EReal) {k m : ℕ}
    (hs : S32x8x1024.Slices ![0, 0, 0] ⟨3, ![32, 8, m]⟩)
    (hc : Shape.Concatenates [(⟨3, ![32, 8, k]⟩ : Shape), ⟨3, ![32, 8, m]⟩] S32x8x1024 2)
    (o : Fin 32) (b : Fin 8) (p : Fin 1024) :
    concatenate S32x8x1024 2 [⟨⟨3, ![32, 8, k]⟩, broadcast ⟨3, ![32, 8, k]⟩ (Scalar.ofBits .f32 0x00000000#32 : Ideal .f32)⟩,
        ⟨⟨3, ![32, 8, m]⟩, extractStridedSlice ⟨3, ![32, 8, m]⟩ ![0, 0, 0] Z hs⟩] hc (ix3 o b p)
      = up (fun q => Z (ix3 o b q)) k p := by
  rw [Cert.K3Body.padL_apply k m (by have e := hc.2.2; simpa using e)]; unfold up; rw [zero_word]

theorem down_eq (Z : S32x8x1024.Idx → EReal) {k m : ℕ}
    (hs : S32x8x1024.Slices ![0, 0, k] ⟨3, ![32, 8, m]⟩)
    (hc : Shape.Concatenates [(⟨3, ![32, 8, m]⟩ : Shape), ⟨3, ![32, 8, k]⟩] S32x8x1024 2)
    (o : Fin 32) (b : Fin 8) (p : Fin 1024) :
    concatenate S32x8x1024 2 [⟨⟨3, ![32, 8, m]⟩, extractStridedSlice ⟨3, ![32, 8, m]⟩ ![0, 0, k] Z hs⟩,
        ⟨⟨3, ![32, 8, k]⟩, broadcast ⟨3, ![32, 8, k]⟩ (Scalar.ofBits .f32 0x00000000#32 : Ideal .f32)⟩] hc (ix3 o b p)
      = down (fun q => Z (ix3 o b q)) k p := by
  rw [Cert.K3Body.padR_apply k m (by have e := hc.2.2; simpa using e)]; unfold down; rw [zero_word]

theorem tap_eq (t : ℕ) (ht : t < 9) (Z : S288x8x1024.Idx → EReal) (h : S288x8x1024.Slices ![t * 32, 0, 0] S32x8x1024)
    (o : Fin 32) (b : Fin 8) :
    (fun q => extractStridedSlice S32x8x1024 ![t * 32, 0, 0] Z h (ix3 o b q)) = tapRow Z t ht o b :=
  funext fun q => tapRows_apply (t * 32) Z h o b q _ rfl

theorem pay19_apply (v30 : FVec Ideal S64x8x1024 .f32) (v61 v92 v121 v122 : FVec Ideal S32x8x1024 .f32)
    (v125 : Vec Ideal S288x160 .f32) (v130 v132 : Vec Ideal S1x1024 .f32) (o : Fin 32) (b : Fin 8) (p : Fin 1024) :
    k4_pay19 (F := Ideal) v30 v61 v92 v121 v122 v125 v130 v132 (ix3 o b p)
      = up (tapRow (k4_pay16 v30 v61 v92 v121 v122 v125) 0 (by decide) o b) 33 p * v130 (ix2 (0 : Fin 1) p)
        + up (tapRow (k4_pay16 v30 v61 v92 v121 v122 v125) 1 (by decide) o b) 32 p
        + up (tapRow (k4_pay16 v30 v61 v92 v121 v122 v125) 2 (by decide) o b) 31 p * v132 (ix2 (0 : Fin 1) p)
        + up (tapRow (k4_pay16 v30 v61 v92 v121 v122 v125) 3 (by decide) o b) 1 p * v130 (ix2 (0 : Fin 1) p)
        + tapRow (k4_pay16 v30 v61 v92 v121 v122 v125) 4 (by decide) o b p := by
  unfold k4_pay19 k4_pay17 k4_pay18
  simp only [addf_apply, mulf_apply, shapeCast_self, Cert.K3Body.brow_apply, up_eq]
  rw [tap_eq 0 (by decide), tap_eq 1 (by decide), tap_eq 2 (by decide), tap_eq 3 (by decide)]
  refine congrArg₂ (· + ·) rfl ?_
  exact tapRows_apply 128 _ _ o b p _ rfl

theorem pay20_apply (v30 : FVec Ideal S64x8x1024 .f32) (v61 v92 v121 v122 : FVec Ideal S32x8x1024 .f32)
    (v125 : Vec Ideal S288x160 .f32) (v132 : Vec Ideal S1x1024 .f32) (o : Fin 32) (b : Fin 8) (p : Fin 1024) :
    k4_pay20 (F := Ideal) v30 v61 v92 v121 v122 v125 v132 (ix3 o b p)
      = down (tapRow (k4_pay16 v30 v61 v92 v121 v122 v125) 5 (by decide) o b) 1 p * v132 (ix2 (0 : Fin 1) p) := by
  unfold k4_pay20 k4_pay18
  simp only [addf_apply, mulf_apply, shapeCast_self, Cert.K3Body.brow_apply, down_eq]
  rw [tap_eq 5 (by decide)]

theorem pay21_apply (v129 : FVec Ideal S288x8x1024 .f32) (v131 v133 : FVec Ideal S1x1024 .f32)
    (v163 v170 : FVec Ideal S32x8x1024 .f32) (o : Fin 32) (b : Fin 8) (p : Fin 1024) :
    k4_pay21 (F := Ideal) v129 v131 v133 v163 v170 (ix3 o b p)
      = v163 (ix3 o b p) + v170 (ix3 o b p)
        + down (tapRow v129 6 (by decide) o b) 31 p * v131 (ix2 (0 : Fin 1) p)
        + down (tapRow v129 7 (by decide) o b) 32 p
        + down (tapRow v129 8 (by decide) o b) 33 p * v133 (ix2 (0 : Fin 1) p) := by
  unfold k4_pay21
  simp only [addf_apply, mulf_apply, Cert.K3Body.brow_apply, down_eq]
  rw [tap_eq 6 (by decide), tap_eq 7 (by decide), tap_eq 8 (by decide)]

theorem y_apply (v30 : FVec Ideal S64x8x1024 .f32) (v61 v92 v121 v122 : FVec Ideal S32x8x1024 .f32)
    (v125 : Vec Ideal S288x160 .f32) (v130 v132 : Vec Ideal S1x1024 .f32) (o : Fin 32) (b : Fin 8) (p : Fin 1024) :
    k4_pay21 (F := Ideal) (k4_pay16 v30 v61 v92 v121 v122 v125) (k4_pay17 v130) (k4_pay18 v132)
        (k4_pay19 v30 v61 v92 v121 v122 v125 v130 v132) (k4_pay20 v30 v61 v92 v121 v122 v125 v132) (ix3 o b p)
      = nine (k4_pay16 v30 v61 v92 v121 v122 v125) (fun q => v130 (ix2 (0 : Fin 1) q)) (fun q => v132 (ix2 (0 : Fin 1) q)) o b p := by
  rw [pay21_apply, pay19_apply, pay20_apply]
  unfold k4_pay17 k4_pay18 nine
  simp only [shapeCast_self]

theorem sumBlock_apply (Y : FVec Ideal S32x8x1024 .f32) (h2 : S32x8x1024.Reduces [2] S32x8) (h1 : S32x8x1.Reduces [1] S32x1)
    (hc : S32x8.ShapeCasts S32x8x1) (hφ : FKind.Formats .f32)
    (hacc : (0x00000000#32 : BitVec 32) = FKind.add.neutral .f32 hφ) (o : Fin 32) :
    multiReduction .add [1] S32x1 (shapeCast S32x8x1 (multiReduction .add [2] S32x8 Y 0x00000000#32 h2 hφ hacc) hc)
        0x00000000#32 h1 hφ hacc (ix2 o (0 : Fin 1))
      = ∑ b : Fin 8, ∑ p : Fin 1024, Y (ix3 o b p) := by
  refine (Cert.K3Body.sumImg_apply _ h1 hφ hacc o 0).trans ?_
  refine Finset.sum_congr rfl fun b _ => ?_
  refine (shapeCast_apply _ hc (ix3 o b (0 : Fin 1)) (ix2 o b) (by
    rw [Shape.rowMajor_val_two, Shape.rowMajor_val_three]
    show o.val * 8 + b.val = (o.val * 8 + b.val) * 1 + 0
    omega)).trans ?_
  exact Cert.K3Body.sumPix_apply Y h2 hφ hacc o b

theorem pay24_apply0 (v129 : FVec Ideal S288x8x1024 .f32) (v131 v133 : FVec Ideal S1x1024 .f32)
    (v163 v170 : FVec Ideal S32x8x1024 .f32) (v206 : Vec Ideal S1x32x2 .f32) (o : Fin 32) :
    k4_pay1 (F := Ideal) (k4_pay24 v129 v131 v133 v163 v170 v206) (ix3 (0 : Fin 1) o (0 : Fin 2))
      = v206 (ix3 (0 : Fin 1) o (0 : Fin 2))
        + ∑ b : Fin 8, ∑ p : Fin 1024, k4_pay21 (F := Ideal) v129 v131 v133 v163 v170 (ix3 o b p) := by
  unfold k4_pay1
  refine (shapeCast_ab_1ab_apply _ _ (0 : Fin 1) o (0 : Fin 2)).trans ?_
  unfold k4_pay24
  dsimp only
  refine congrArg₂ (· + ·) (shapeCast_1ab_ab_apply v206 _ o (0 : Fin 2)) ?_
  refine (concatenate_pair_apply_left (t := S32x2) (s₁ := S32x1) (s₂ := S32x1) (1 : Fin 2) _ _ _ (ix2 o (0 : Fin 2)) rfl (ix2 o (0 : Fin 1)) (fun ax => by
    match ax with
    | ⟨0, _⟩ => rfl
    | ⟨1, _⟩ => rfl)).trans ?_
  exact sumBlock_apply _ _ _ _ _ _ o

theorem pay24_apply1 (v129 : FVec Ideal S288x8x1024 .f32) (v131 v133 : FVec Ideal S1x1024 .f32)
    (v163 v170 : FVec Ideal S32x8x1024 .f32) (v206 : Vec Ideal S1x32x2 .f32) (o : Fin 32) :
    k4_pay1 (F := Ideal) (k4_pay24 v129 v131 v133 v163 v170 v206) (ix3 (0 : Fin 1) o (1 : Fin 2))
      = v206 (ix3 (0 : Fin 1) o (1 : Fin 2))
        + ∑ b : Fin 8, ∑ p : Fin 1024, k4_pay21 (F := Ideal) v129 v131 v133 v163 v170 (ix3 o b p)
            * k4_pay21 (F := Ideal) v129 v131 v133 v163 v170 (ix3 o b p) := by
  unfold k4_pay1
  refine (shapeCast_ab_1ab_apply _ _ (0 : Fin 1) o (1 : Fin 2)).trans ?_
  unfold k4_pay24
  dsimp only
  refine congrArg₂ (· + ·) (shapeCast_1ab_ab_apply v206 _ o (1 : Fin 2)) ?_
  refine (concatenate_pair_apply_right (t := S32x2) (s₁ := S32x1) (s₂ := S32x1) (1 : Fin 2) _ _ _ (ix2 o (1 : Fin 2)) rfl rfl (ix2 o (0 : Fin 1)) (fun ax hax => by
    match ax with
    | ⟨0, _⟩ => rfl
    | ⟨1, _⟩ => exact absurd rfl hax) (by show 0 + 1 = 1; rfl)).trans ?_
  exact sumBlock_apply _ _ _ _ _ _ o

end Cert.K4

end
-- ==== Proof.K4Alg.lean ====
import proofs.«136216_g2000306190186476_pallasbulk_240_40_alg».proof.Proof.K4Body
import proofs.«136216_g2000306190186476_pallasbulk_240_40_alg».proof.Proof.Views
import proofs.«136216_g2000306190186476_pallasbulk_240_40_alg».proof.Proof.SpecAlg
import Mathlib.Algebra.BigOperators.Fin

set_option maxRecDepth 16384

noncomputable section

namespace Cert.K4

open Cert.KernelIdeal Cert.KernelIdeal.Gen Cert.Spec Cert.Views Idealize.ShloMosaic Idealize.ShloMosaic.ValueIdx Idealize.SL.Sem

theorem shiftRead_neg (f : Fin 1024 → EReal) (k : ℕ) (p : Fin 1024) : shiftRead f (-(k : ℤ)) p = up f k p := by
  unfold shiftRead up
  have hp := p.isLt
  by_cases h : k ≤ p.val
  · rw [dif_pos h, dif_pos (by omega)]
    exact congrArg f (Fin.ext (by show ((p.val : ℤ) + -(k : ℤ)).toNat = p.val - k; omega))
  · rw [dif_neg h, dif_neg (by omega)]

theorem shiftRead_pos (f : Fin 1024 → EReal) (k : ℕ) (p : Fin 1024) : shiftRead f (k : ℤ) p = down f k p := by
  unfold shiftRead down
  have hp := p.isLt
  by_cases h : p.val + k < 1024
  · rw [dif_pos h, dif_pos (by omega)]
    exact congrArg f (Fin.ext (by show ((p.val : ℤ) + (k : ℤ)).toNat = p.val + k; omega))
  · rw [dif_neg h, dif_neg (by omega)]

theorem shiftRead_zero (f : Fin 1024 → EReal) (p : Fin 1024) : shiftRead f 0 p = f p := by
  unfold shiftRead
  have hp := p.isLt
  rw [dif_pos (by omega)]
  exact congrArg f (Fin.ext (by show ((p.val : ℤ) + 0).toNat = p.val; omega))

theorem tapRow_eq (wts : S288x160.Idx → EReal) (A : Act 160) (n : Fin 128) (b : Fin 8) (Z : S288x8x1024.Idx → EReal)
    (hZ : ∀ (r : Fin 288) (q : Fin 1024), Z (ix3 r b q) = ∑ ci : Fin 160, wts (ix2 r ci) * A n ci q)
    (kh kw : Fin 3) (t : ℕ) (ht : t < 9) (htk : t = kh.val * 3 + kw.val) (o : Fin 32) :
    tapRow Z t ht o b = fun q => ∑ ci : Fin 160, wTapMajor wts o ci kh kw * A n ci q := by
  subst htk
  funext q
  unfold tapRow
  rw [hZ]
  rfl

theorem nine_eq_convTaps (wts : S288x160.Idx → EReal) (wm : S2x1024.Idx → EReal) (A : Act 160) (n : Fin 128) (b : Fin 8)
    (Z : S288x8x1024.Idx → EReal)
    (hZ : ∀ (r : Fin 288) (q : Fin 1024), Z (ix3 r b q) = ∑ ci : Fin 160, wts (ix2 r ci) * A n ci q)
    (o : Fin 32) (p : Fin 1024) :
    nine Z (fun q => wm (ix2 (0 : Fin 2) q)) (fun q => wm (ix2 (1 : Fin 2) q)) o b p
      = convTaps (wTapMajor wts) (maskRows wm) A n o p := by
  unfold nine convTaps
  rw [tapRow_eq wts A n b Z hZ 0 0 0 (by decide) rfl o, tapRow_eq wts A n b Z hZ 0 1 1 (by decide) rfl o,
    tapRow_eq wts A n b Z hZ 0 2 2 (by decide) rfl o, tapRow_eq wts A n b Z hZ 1 0 3 (by decide) rfl o,
    tapRow_eq wts A n b Z hZ 1 1 4 (by decide) rfl o, tapRow_eq wts A n b Z hZ 1 2 5 (by decide) rfl o,
    tapRow_eq wts A n b Z hZ 2 0 6 (by decide) rfl o, tapRow_eq wts A n b Z hZ 2 1 7 (by decide) rfl o,
    tapRow_eq wts A n b Z hZ 2 2 8 (by decide) rfl o]
  simp only [Fin.sum_univ_three]
  rw [show tapOff 0 0 = -((33 : ℕ) : ℤ) from rfl, show tapOff 0 1 = -((32 : ℕ) : ℤ) from rfl,
    show tapOff 0 2 = -((31 : ℕ) : ℤ) from rfl, show tapOff 1 0 = -((1 : ℕ) : ℤ) from rfl,
    show tapOff 1 1 = 0 from rfl, show tapOff 1 2 = ((1 : ℕ) : ℤ) from rfl,
    show tapOff 2 0 = ((31 : ℕ) : ℤ) from rfl, show tapOff 2 1 = ((32 : ℕ) : ℤ) from rfl,
    show tapOff 2 2 = ((33 : ℕ) : ℤ) from rfl]
  simp only [shiftRead_neg, shiftRead_pos, shiftRead_zero]
  rw [show tapMask (maskRows wm) 0 p = wm (ix2 (0 : Fin 2) p) from rfl,
    show tapMask (maskRows wm) 1 p = 1 from rfl,
    show tapMask (maskRows wm) 2 p = wm (ix2 (1 : Fin 2) p) from rfl]
  simp only [mul_one, add_assoc]

theorem cat4_eq_appendV (a0 : Fin 64 → EReal) (a1 a2 a3 : Fin 32 → EReal) (ci : Fin 160) :
    cat4 a0 a1 a2 a3 ci = appendV (appendV (appendV a0 a1) a2) a3 ci := by
  have hlt := ci.isLt
  unfold cat4 appendV
  dsimp only
  split_ifs <;> first | rfl | (exfalso; omega)

theorem cat4_act (x0 g0 b0 m0 n0 : Fin 64 → EReal) (x1 g1 b1 m1 n1 x2 g2 b2 m2 n2 x3 g3 b3 m3 n3 : Fin 32 → EReal)
    (ci : Fin 160) :
    cat4 (fun c => act (x0 c) (g0 c) (b0 c) (m0 c) (n0 c)) (fun c => act (x1 c) (g1 c) (b1 c) (m1 c) (n1 c))
        (fun c => act (x2 c) (g2 c) (b2 c) (m2 c) (n2 c)) (fun c => act (x3 c) (g3 c) (b3 c) (m3 c) (n3 c)) ci
      = act (cat4 x0 x1 x2 x3 ci) (cat4 g0 g1 g2 g3 ci) (cat4 b0 b1 b2 b3 ci) (cat4 m0 m1 m2 m3 ci) (cat4 n0 n1 n2 n3 ci) := by
  unfold cat4
  split_ifs <;> rfl

theorem cat4_rows (g : Fin 160 → EReal) (ci : Fin 160) :
    cat4 (fun c => g ⟨c.val, by omega⟩) (fun c => g ⟨64 + c.val, by omega⟩) (fun c => g ⟨96 + c.val, by omega⟩)
      (fun c => g ⟨128 + c.val, by omega⟩) ci = g ci := by
  have hlt := ci.isLt
  unfold cat4
  split_ifs <;> (try dsimp only) <;> refine congrArg g (Fin.ext ?_) <;> (try dsimp only) <;> omega

theorem act_eq (x g b m1 m2 : EReal) : act x g b m1 m2 = max (x * scaleOf g m1 m2 + shiftOf g b m1 m2) 0 := rfl

theorem blocks_total (f : Fin 128 → EReal) (acc : ℕ → EReal)
    (S : ℕ → EReal) (hS : ∀ j : Fin 16, S j.val = ∑ b : Fin 8, f ⟨j.val * 8 + b.val, by omega⟩)
    (h0 : acc 0 = 0 + S 0) (hs : ∀ n, n + 1 < 16 → acc (n + 1) = acc n + S (n + 1)) :
    acc 15 = ∑ n : Fin 128, f n := by
  have key : ∀ n, n < 16 → acc n = ∑ j ∈ Finset.range (n + 1), S j := by
    intro n
    induction n with
    | zero => intro _; rw [h0, zero_add, Finset.sum_range_one]
    | succ n ih => intro hn; rw [hs n hn, ih (by omega), ← Finset.sum_range_succ]
  rw [key 15 (by omega), Cert.SpecAlg.sum_images_blocks, ← Cert.SpecAlg.sum_fin_eq_range 16 S]
  exact Finset.sum_congr rfl fun j _ => hS j

section Pieces
variable {F : FTy → Type} [FloatOps F]

def rows0 (x : Vec F S160x1 .f32) : Vec F S64x1 .f32 :=
  View.ld (Val := Elt F) x (Rect.unit (s := S160x1) ![0, 0] S64x1.size inb_S160x1_S64x1_0_0)
def rows1 (x : Vec F S160x1 .f32) : Vec F S32x1 .f32 :=
  View.ld (Val := Elt F) x (Rect.unit (s := S160x1) ![64, 0] S32x1.size inb_S160x1_S32x1_64_0)
def rows2 (x : Vec F S160x1 .f32) : Vec F S32x1 .f32 :=
  View.ld (Val := Elt F) x (Rect.unit (s := S160x1) ![96, 0] S32x1.size inb_S160x1_S32x1_96_0)
def rows3 (x : Vec F S160x1 .f32) : Vec F S32x1 .f32 :=
  View.ld (Val := Elt F) x (Rect.unit (s := S160x1) ![128, 0] S32x1.size inb_S160x1_S32x1_128_0)
def mrow0 (x : Vec F S2x1024 .f32) : Vec F S1x1024 .f32 :=
  View.ld (Val := Elt F) x (Rect.unit (s := S2x1024) ![0, 0] S1x1024.size inb_S2x1024_S1x1024_0_0)
def mrow1 (x : Vec F S2x1024 .f32) : Vec F S1x1024 .f32 :=
  View.ld (Val := Elt F) x (Rect.unit (s := S2x1024) ![1, 0] S1x1024.size inb_S2x1024_S1x1024_1_0)

def part0 (x0 : Vec F S64x8x1024 .bf16) (x4 : Vec F S1x64x2 .f32) (x8 x9 : Vec F S160x1 .f32) : FVec F S64x8x1024 .f32 :=
  k4_pay2 x4 (rows0 x8) (rows0 x9) x0
def part1 (x1 : Vec F S32x8x1024 .bf16) (x5 : Vec F S1x32x2 .f32) (x8 x9 : Vec F S160x1 .f32) : FVec F S32x8x1024 .f32 :=
  k4_pay7 (k4_pay4 x5) (k4_pay5 x5) (k4_pay6 x5) (rows1 x8) (rows1 x9) x1
def part2 (x2 : Vec F S32x8x1024 .bf16) (x6 : Vec F S1x32x2 .f32) (x8 x9 : Vec F S160x1 .f32) : FVec F S32x8x1024 .f32 :=
  k4_pay13 (k4_pay10 x6 (rows2 x8)) (k4_pay11 (rows2 x9)) (k4_pay12 x6 (rows2 x8)) x2
def part3 (x3 : Vec F S32x8x1024 .bf16) (x7 : Vec F S1x32x2 .f32) (x8 x9 : Vec F S160x1 .f32) : FVec F S32x8x1024 .f32 :=
  k4_pay14 x7 (rows3 x8) (rows3 x9) x3
def prod (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) : FVec F S288x8x1024 .f32 :=
  k4_pay16 (part0 x0 x4 x8 x9) (part1 x1 x5 x8 x9) (part2 x2 x6 x8 x9) (part3 x3 x7 x8 x9) (k4_pay15 (F := F)) x11
def first5 (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) : FVec F S32x8x1024 .f32 :=
  k4_pay19 (part0 x0 x4 x8 x9) (part1 x1 x5 x8 x9) (part2 x2 x6 x8 x9) (part3 x3 x7 x8 x9) (k4_pay15 (F := F)) x11 (mrow0 x10) (mrow1 x10)
def sixth (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) : FVec F S32x8x1024 .f32 :=
  k4_pay20 (part0 x0 x4 x8 x9) (part1 x1 x5 x8 x9) (part2 x2 x6 x8 x9) (part3 x3 x7 x8 x9) (k4_pay15 (F := F)) x11 (mrow1 x10)

def ySum (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) : FVec F S32x8x1024 .f32 :=
  k4_pay21 (prod x0 x1 x2 x3 x4 x5 x6 x7 x8 x9 x10 x11) (k4_pay17 (mrow0 x10)) (k4_pay18 (mrow1 x10)) (first5 x0 x1 x2 x3 x4 x5 x6 x7 x8 x9 x10 x11) (sixth x0 x1 x2 x3 x4 x5 x6 x7 x8 x9 x10 x11)

def yStored (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) : FVec F S32x8x1024 .bf16 :=
  k4_pay22 (prod x0 x1 x2 x3 x4 x5 x6 x7 x8 x9 x10 x11) (k4_pay17 (mrow0 x10)) (k4_pay18 (mrow1 x10)) (first5 x0 x1 x2 x3 x4 x5 x6 x7 x8 x9 x10 x11) (sixth x0 x1 x2 x3 x4 x5 x6 x7 x8 x9 x10 x11)

def mStored (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) (acc : Vec F S1x32x2 .f32) : FVec F S1x32x2 .f32 :=
  k4_pay1 (k4_pay24 (prod x0 x1 x2 x3 x4 x5 x6 x7 x8 x9 x10 x11) (k4_pay17 (mrow0 x10)) (k4_pay18 (mrow1 x10)) (first5 x0 x1 x2 x3 x4 x5 x6 x7 x8 x9 x10 x11) (sixth x0 x1 x2 x3 x4 x5 x6 x7 x8 x9 x10 x11) acc)

end Pieces

theorem rows0_apply (x : Vec Ideal S160x1 .f32) (c : Fin 64) :
    rows0 x (ix2 c (0 : Fin 1)) = x (ix2 (⟨c.val, by omega⟩ : Fin 160) (0 : Fin 1)) := by
  unfold rows0
  show x ((Rect.unit (s := S160x1) ![0, 0] S64x1.size inb_S160x1_S64x1_0_0).idx (ix2 c (0 : Fin 1))) = _
  refine congrArg x (funext fun a => Fin.ext ?_)
  match a with
  | ⟨0, _⟩ => show 0 + 1 * c.val = c.val; omega
  | ⟨1, _⟩ => rfl

theorem rows1_apply (x : Vec Ideal S160x1 .f32) (c : Fin 32) :
    rows1 x (ix2 c (0 : Fin 1)) = x (ix2 (⟨64 + c.val, by omega⟩ : Fin 160) (0 : Fin 1)) := by
  unfold rows1
  show x ((Rect.unit (s := S160x1) ![64, 0] S32x1.size inb_S160x1_S32x1_64_0).idx (ix2 c (0 : Fin 1))) = _
  refine congrArg x (funext fun a => Fin.ext ?_)
  match a with
  | ⟨0, _⟩ => show 64 + 1 * c.val = 64 + c.val; omega
  | ⟨1, _⟩ => rfl

theorem rows2_apply (x : Vec Ideal S160x1 .f32) (c : Fin 32) :
    rows2 x (ix2 c (0 : Fin 1)) = x (ix2 (⟨96 + c.val, by omega⟩ : Fin 160) (0 : Fin 1)) := by
  unfold rows2
  show x ((Rect.unit (s := S160x1) ![96, 0] S32x1.size inb_S160x1_S32x1_96_0).idx (ix2 c (0 : Fin 1))) = _
  refine congrArg x (funext fun a => Fin.ext ?_)
  match a with
  | ⟨0, _⟩ => show 96 + 1 * c.val = 96 + c.val; omega
  | ⟨1, _⟩ => rfl

theorem rows3_apply (x : Vec Ideal S160x1 .f32) (c : Fin 32) :
    rows3 x (ix2 c (0 : Fin 1)) = x (ix2 (⟨128 + c.val, by omega⟩ : Fin 160) (0 : Fin 1)) := by
  unfold rows3
  show x ((Rect.unit (s := S160x1) ![128, 0] S32x1.size inb_S160x1_S32x1_128_0).idx (ix2 c (0 : Fin 1))) = _
  refine congrArg x (funext fun a => Fin.ext ?_)
  match a with
  | ⟨0, _⟩ => show 128 + 1 * c.val = 128 + c.val; omega
  | ⟨1, _⟩ => rfl

theorem mrow0_apply (x : Vec Ideal S2x1024 .f32) (q : Fin 1024) :
    mrow0 x (ix2 (0 : Fin 1) q) = x (ix2 (0 : Fin 2) q) := by
  unfold mrow0
  show x ((Rect.unit (s := S2x1024) ![0, 0] S1x1024.size inb_S2x1024_S1x1024_0_0).idx (ix2 (0 : Fin 1) q)) = _
  refine congrArg x (funext fun a => Fin.ext ?_)
  match a with
  | ⟨0, _⟩ => rfl
  | ⟨1, _⟩ => show 0 + 1 * q.val = q.val; omega

theorem mrow1_apply (x : Vec Ideal S2x1024 .f32) (q : Fin 1024) :
    mrow1 x (ix2 (0 : Fin 1) q) = x (ix2 (1 : Fin 2) q) := by
  unfold mrow1
  show x ((Rect.unit (s := S2x1024) ![1, 0] S1x1024.size inb_S2x1024_S1x1024_1_0).idx (ix2 (0 : Fin 1) q)) = _
  refine congrArg x (funext fun a => Fin.ext ?_)
  match a with
  | ⟨0, _⟩ => rfl
  | ⟨1, _⟩ => show 0 + 1 * q.val = q.val; omega

section Point
variable (P0 : Vec Ideal S64x128x1024 .bf16) (P1 P2 P3 : Vec Ideal S32x128x1024 .bf16)
  (Q0 : Vec Ideal S1x64x2 .f32) (Q1 Q2 Q3 : Vec Ideal S1x32x2 .f32) (G B : Vec Ideal S160x1 .f32)
  (M : Vec Ideal S2x1024 .f32) (W : Vec Ideal S288x160 .f32)

def xIn : Act 160 := appendCh (appendCh (appendCh (actCM P0) (actCM P1)) (actCM P2)) (actCM P3)
def s1In : Fin 160 → EReal := appendV (appendV (appendV (mom3 Q0 0) (mom3 Q1 0)) (mom3 Q2 0)) (mom3 Q3 0)
def s2In : Fin 160 → EReal := appendV (appendV (appendV (mom3 Q0 1) (mom3 Q1 1)) (mom3 Q2 1)) (mom3 Q3 1)
def ySpec : Act 32 :=
  convTaps (wTapMajor W) (maskRows M) (bnreluM (col G) (col B) (s1In Q0 Q1 Q2 Q3) (s2In Q0 Q1 Q2 Q3) (xIn P0 P1 P2 P3))

variable (x0 : Vec Ideal S64x8x1024 .bf16) (x1 x2 x3 : Vec Ideal S32x8x1024 .bf16) (img : Fin 8 → Fin 128)
  (h0 : ∀ (ci : Fin 64) (b : Fin 8) (p : Fin 1024), x0 (ix3 ci b p) = P0 (ix3 ci (img b) p))
  (h1 : ∀ (ci : Fin 32) (b : Fin 8) (p : Fin 1024), x1 (ix3 ci b p) = P1 (ix3 ci (img b) p))
  (h2 : ∀ (ci : Fin 32) (b : Fin 8) (p : Fin 1024), x2 (ix3 ci b p) = P2 (ix3 ci (img b) p))
  (h3 : ∀ (ci : Fin 32) (b : Fin 8) (p : Fin 1024), x3 (ix3 ci b p) = P3 (ix3 ci (img b) p))

include h0 h1 h2 h3 in

theorem stack_value (b : Fin 8) (q : Fin 1024) (ci : Fin 160) :
    cat4 (fun c => part0 x0 Q0 G B (ix3 c b q)) (fun c => part1 x1 Q1 G B (ix3 c b q))
        (fun c => part2 x2 Q2 G B (ix3 c b q))
        (fun c => max (part3 x3 Q3 G B (ix3 c b q)) (k4_pay15 (F := Ideal) (ix3 c b q))) ci
      = bnreluM (col G) (col B) (s1In Q0 Q1 Q2 Q3) (s2In Q0 Q1 Q2 Q3) (xIn P0 P1 P2 P3) (img b) ci q := by
  have e0 : (fun c : Fin 64 => part0 x0 Q0 G B (ix3 c b q))
      = fun c => act (P0 (ix3 c (img b) q)) (G (ix2 (⟨c.val, by omega⟩ : Fin 160) (0 : Fin 1)))
          (B (ix2 (⟨c.val, by omega⟩ : Fin 160) (0 : Fin 1))) (Q0 (ix3 (0 : Fin 1) c (0 : Fin 2))) (Q0 (ix3 (0 : Fin 1) c (1 : Fin 2))) :=
    funext fun c => by unfold part0; rw [pay2_apply, h0, rows0_apply, rows0_apply]
  have e1 : (fun c : Fin 32 => part1 x1 Q1 G B (ix3 c b q))
      = fun c => act (P1 (ix3 c (img b) q)) (G (ix2 (⟨64 + c.val, by omega⟩ : Fin 160) (0 : Fin 1)))
          (B (ix2 (⟨64 + c.val, by omega⟩ : Fin 160) (0 : Fin 1))) (Q1 (ix3 (0 : Fin 1) c (0 : Fin 2))) (Q1 (ix3 (0 : Fin 1) c (1 : Fin 2))) :=
    funext fun c => by unfold part1; rw [pay7_apply, h1, rows1_apply, rows1_apply]
  have e2 : (fun c : Fin 32 => part2 x2 Q2 G B (ix3 c b q))
      = fun c => act (P2 (ix3 c (img b) q)) (G (ix2 (⟨96 + c.val, by omega⟩ : Fin 160) (0 : Fin 1)))
          (B (ix2 (⟨96 + c.val, by omega⟩ : Fin 160) (0 : Fin 1))) (Q2 (ix3 (0 : Fin 1) c (0 : Fin 2))) (Q2 (ix3 (0 : Fin 1) c (1 : Fin 2))) :=
    funext fun c => by unfold part2; rw [pay13_apply, h2, rows2_apply, rows2_apply]
  have e3 : (fun c : Fin 32 => max (part3 x3 Q3 G B (ix3 c b q)) (k4_pay15 (F := Ideal) (ix3 c b q)))
      = fun c => act (P3 (ix3 c (img b) q)) (G (ix2 (⟨128 + c.val, by omega⟩ : Fin 160) (0 : Fin 1)))
          (B (ix2 (⟨128 + c.val, by omega⟩ : Fin 160) (0 : Fin 1))) (Q3 (ix3 (0 : Fin 1) c (0 : Fin 2))) (Q3 (ix3 (0 : Fin 1) c (1 : Fin 2))) :=
    funext fun c => by unfold part3; rw [pay14_apply, h3, rows3_apply, rows3_apply]
  rw [e0, e1, e2, e3, cat4_act, act_eq]
  have hX : cat4 (fun c => P0 (ix3 c (img b) q)) (fun c => P1 (ix3 c (img b) q)) (fun c => P2 (ix3 c (img b) q))
      (fun c => P3 (ix3 c (img b) q)) ci = xIn P0 P1 P2 P3 (img b) ci q := (cat4_eq_appendV _ _ _ _ ci).trans rfl
  have hS1 : cat4 (fun c => Q0 (ix3 (0 : Fin 1) c (0 : Fin 2))) (fun c => Q1 (ix3 (0 : Fin 1) c (0 : Fin 2)))
      (fun c => Q2 (ix3 (0 : Fin 1) c (0 : Fin 2))) (fun c => Q3 (ix3 (0 : Fin 1) c (0 : Fin 2))) ci = s1In Q0 Q1 Q2 Q3 ci :=
    (cat4_eq_appendV _ _ _ _ ci).trans rfl
  have hS2 : cat4 (fun c => Q0 (ix3 (0 : Fin 1) c (1 : Fin 2))) (fun c => Q1 (ix3 (0 : Fin 1) c (1 : Fin 2)))
      (fun c => Q2 (ix3 (0 : Fin 1) c (1 : Fin 2))) (fun c => Q3 (ix3 (0 : Fin 1) c (1 : Fin 2))) ci = s2In Q0 Q1 Q2 Q3 ci :=
    (cat4_eq_appendV _ _ _ _ ci).trans rfl
  rw [hX, cat4_rows (fun k => G (ix2 k (0 : Fin 1))) ci, cat4_rows (fun k => B (ix2 k (0 : Fin 1))) ci, hS1, hS2]
  rfl

include h0 h1 h2 h3 in

theorem point_value (o : Fin 32) (b : Fin 8) (p : Fin 1024) :
    ySum x0 x1 x2 x3 Q0 Q1 Q2 Q3 G B M W (ix3 o b p) = ySpec P0 P1 P2 P3 Q0 Q1 Q2 Q3 G B M W (img b) o p := by
  unfold ySum prod first5 sixth
  rw [y_apply]
  have hm0 : (fun q => mrow0 M (ix2 (0 : Fin 1) q)) = fun q => M (ix2 (0 : Fin 2) q) := funext fun q => mrow0_apply M q
  have hm1 : (fun q => mrow1 M (ix2 (0 : Fin 1) q)) = fun q => M (ix2 (1 : Fin 2) q) := funext fun q => mrow1_apply M q
  rw [hm0, hm1]
  unfold ySpec
  refine nine_eq_convTaps W M _ (img b) b _ (fun r q => ?_) o p
  rw [pay16_apply]
  refine Finset.sum_congr rfl fun ci _ => congrArg (W (ix2 r ci) * ·) ?_
  exact stack_value P0 P1 P2 P3 Q0 Q1 Q2 Q3 G B x0 x1 x2 x3 img h0 h1 h2 h3 b q ci

end Point

theorem yStored_apply (x0 : Vec Ideal S64x8x1024 .bf16) (x1 x2 x3 : Vec Ideal S32x8x1024 .bf16) (x4 : Vec Ideal S1x64x2 .f32) (x5 x6 x7 : Vec Ideal S1x32x2 .f32) (x8 x9 : Vec Ideal S160x1 .f32) (x10 : Vec Ideal S2x1024 .f32) (x11 : Vec Ideal S288x160 .f32) (o : Fin 32) (b : Fin 8) (p : Fin 1024) :
    yStored x0 x1 x2 x3 x4 x5 x6 x7 x8 x9 x10 x11 (ix3 o b p) = ySum x0 x1 x2 x3 x4 x5 x6 x7 x8 x9 x10 x11 (ix3 o b p) := rfl

theorem mStored_apply0 (x0 : Vec Ideal S64x8x1024 .bf16) (x1 x2 x3 : Vec Ideal S32x8x1024 .bf16) (x4 : Vec Ideal S1x64x2 .f32) (x5 x6 x7 : Vec Ideal S1x32x2 .f32) (x8 x9 : Vec Ideal S160x1 .f32) (x10 : Vec Ideal S2x1024 .f32) (x11 : Vec Ideal S288x160 .f32) (acc : Vec Ideal S1x32x2 .f32) (o : Fin 32) :
    mStored x0 x1 x2 x3 x4 x5 x6 x7 x8 x9 x10 x11 acc (ix3 (0 : Fin 1) o (0 : Fin 2))
      = acc (ix3 (0 : Fin 1) o (0 : Fin 2)) + ∑ b : Fin 8, ∑ p : Fin 1024, ySum x0 x1 x2 x3 x4 x5 x6 x7 x8 x9 x10 x11 (ix3 o b p) := by
  unfold mStored ySum
  exact pay24_apply0 _ _ _ _ _ acc o

theorem mStored_apply1 (x0 : Vec Ideal S64x8x1024 .bf16) (x1 x2 x3 : Vec Ideal S32x8x1024 .bf16) (x4 : Vec Ideal S1x64x2 .f32) (x5 x6 x7 : Vec Ideal S1x32x2 .f32) (x8 x9 : Vec Ideal S160x1 .f32) (x10 : Vec Ideal S2x1024 .f32) (x11 : Vec Ideal S288x160 .f32) (acc : Vec Ideal S1x32x2 .f32) (o : Fin 32) :
    mStored x0 x1 x2 x3 x4 x5 x6 x7 x8 x9 x10 x11 acc (ix3 (0 : Fin 1) o (1 : Fin 2))
      = acc (ix3 (0 : Fin 1) o (1 : Fin 2))
        + ∑ b : Fin 8, ∑ p : Fin 1024, ySum x0 x1 x2 x3 x4 x5 x6 x7 x8 x9 x10 x11 (ix3 o b p) * ySum x0 x1 x2 x3 x4 x5 x6 x7 x8 x9 x10 x11 (ix3 o b p) := by
  unfold mStored ySum
  exact pay24_apply1 _ _ _ _ _ acc o

theorem zeroTable_apply (j : S1x32x2.Idx) : k4_pay23 (F := Ideal) j = 0 := by
  unfold k4_pay23
  exact zero_word

end Cert.K4

end
-- ==== Proof.K4.lean ====
import proofs.«136216_g2000306190186476_pallasbulk_240_40_alg».proof.Proof.FrameK
import proofs.«136216_g2000306190186476_pallasbulk_240_40_alg».proof.Proof.K4Alg
import Idealize.ShloMosaic.Lib.ValueIdx
import Idealize.ShloMosaic.Lib.Pipeline.Value
import Idealize.ShloMosaic.PureOps.Ideal.Laws
import Idealize.ShloMosaic.Lib.Tactic

set_option maxRecDepth 16384

noncomputable section

namespace Cert.K4

open Cert.KernelIdeal Cert.KernelIdeal.Gen Cert.KernelIdeal.GenP Cert.Spec Cert.Views Idealize.ShloMosaic
  Idealize.ShloMosaic.TcCoe Idealize.ShloMosaic.ValueIdx Idealize.SL.Sem Idealize.ShloMosaic.Tactic
open Idealize.ShloMosaic.Pipeline (Dat Cfg Window)

theorem hz3 : (![0, 0, 0] : Fin 3 → Nat) = fun _ => 0 := funext fun a => by fin_cases a <;> rfl
theorem hz2 : (![0, 0] : Fin 2 → Nat) = fun _ => 0 := funext fun a => by fin_cases a <;> rfl

section Pieces
variable {F : FTy → Type} [FloatOps F]

variable (c : Dev nD) (i : grid4.Coords) (arg1 : Memref sig .tc .vmem S64x8x1024 .bf16) (harg1 : arg1.IsWhole) (arg2 : Memref sig .tc .vmem S32x8x1024 .bf16) (harg2 : arg2.IsWhole) (arg3 : Memref sig .tc .vmem S32x8x1024 .bf16) (harg3 : arg3.IsWhole) (arg4 : Memref sig .tc .vmem S32x8x1024 .bf16) (harg4 : arg4.IsWhole) (arg5 : Memref sig .tc .vmem S1x64x2 .f32) (harg5 : arg5.IsWhole) (arg6 : Memref sig .tc .vmem S1x32x2 .f32) (harg6 : arg6.IsWhole) (arg7 : Memref sig .tc .vmem S1x32x2 .f32) (harg7 : arg7.IsWhole) (arg8 : Memref sig .tc .vmem S1x32x2 .f32) (harg8 : arg8.IsWhole) (arg9 : Memref sig .tc .vmem S160x1 .f32) (harg9 : arg9.IsWhole) (arg10 : Memref sig .tc .vmem S160x1 .f32) (harg10 : arg10.IsWhole) (arg11 : Memref sig .tc .vmem S2x1024 .f32) (harg11 : arg11.IsWhole) (arg12 : Memref sig .tc .vmem S288x160 .f32) (harg12 : arg12.IsWhole) (arg13 : Memref sig .tc .vmem S32x8x1024 .bf16) (harg13 : arg13.IsWhole) (arg14 : Memref sig .tc .vmem S1x32x2 .f32) (harg14 : arg14.IsWhole)

set_option maxHeartbeats 1000000 in
theorem out_A_12 (hc0 : cond4_0 i) (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) :
    out4_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 = yStored x0 x1 x2 x3 x4 x5 x6 x7 x8 x9 x10 x11 := by
  unfold out4_A_12
  rw [View.read_writes_eq_canon _ _ _ fun _ => cover4_A_12 ..]
  unfold kernelRun4_A
  dsimp only
  sl_unfold_words
  rw [View.canon_unit_zero hz3]
  unfold yStored prod first5 sixth part0 part1 part2 part3 rows0 rows1 rows2 rows3 mrow0 mrow1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S64x8x1024) hz3, View.ld_unit_zero (S := S32x8x1024) hz3, View.ld_unit_zero (S := S1x64x2) hz3, View.ld_unit_zero (S := S1x32x2) hz3, View.ld_unit_zero (S := S288x160) hz2]

set_option maxHeartbeats 1000000 in
theorem out_B_12 (hc0 : ¬cond4_0 i) (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) (xo13 : Vec F S1x32x2 .f32) :
    out4_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo13 = yStored x0 x1 x2 x3 x4 x5 x6 x7 x8 x9 x10 x11 := by
  unfold out4_B_12
  rw [View.read_writes_eq_canon _ _ _ fun _ => cover4_B_12 ..]
  unfold kernelRun4_B
  dsimp only
  sl_unfold_words
  rw [View.canon_unit_zero hz3]
  unfold yStored prod first5 sixth part0 part1 part2 part3 rows0 rows1 rows2 rows3 mrow0 mrow1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S64x8x1024) hz3, View.ld_unit_zero (S := S32x8x1024) hz3, View.ld_unit_zero (S := S1x64x2) hz3, View.ld_unit_zero (S := S1x32x2) hz3, View.ld_unit_zero (S := S288x160) hz2]

set_option maxHeartbeats 1000000 in
theorem out_A_13 (hc0 : cond4_0 i) (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) :
    out4_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 = mStored x0 x1 x2 x3 x4 x5 x6 x7 x8 x9 x10 x11 (k4_pay23 (F := F)) := by
  unfold out4_A_13
  rw [View.read_writes_eq_canon _ _ _ fun _ => cover4_A_13 ..]
  unfold kernelRun4_A
  dsimp only
  sl_unfold_words
  rw [View.canon_cons_unit_zero (S := S1x32x2) hz3]
  unfold mStored prod first5 sixth part0 part1 part2 part3 rows0 rows1 rows2 rows3 mrow0 mrow1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S64x8x1024) hz3, View.ld_unit_zero (S := S32x8x1024) hz3, View.ld_unit_zero (S := S1x64x2) hz3, View.ld_unit_zero (S := S1x32x2) hz3, View.ld_unit_zero (S := S288x160) hz2, View.readCov_unit_zero (S := S1x32x2) _ hz3]

set_option maxHeartbeats 1000000 in
theorem out_B_13 (hc0 : ¬cond4_0 i) (x0 : Vec F S64x8x1024 .bf16) (x1 x2 x3 : Vec F S32x8x1024 .bf16) (x4 : Vec F S1x64x2 .f32) (x5 x6 x7 : Vec F S1x32x2 .f32) (x8 x9 : Vec F S160x1 .f32) (x10 : Vec F S2x1024 .f32) (x11 : Vec F S288x160 .f32) (xo13 : Vec F S1x32x2 .f32) :
    out4_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo13 = mStored x0 x1 x2 x3 x4 x5 x6 x7 x8 x9 x10 x11 xo13 := by
  unfold out4_B_13
  rw [View.read_writes_eq_canon _ _ _ fun _ => cover4_B_13 ..]
  unfold kernelRun4_B
  dsimp only
  sl_unfold_words
  rw [View.canon_unit_zero hz3]
  unfold mStored prod first5 sixth part0 part1 part2 part3 rows0 rows1 rows2 rows3 mrow0 mrow1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S64x8x1024) hz3, View.ld_unit_zero (S := S32x8x1024) hz3, View.ld_unit_zero (S := S1x64x2) hz3, View.ld_unit_zero (S := S1x32x2) hz3, View.ld_unit_zero (S := S288x160) hz2, harg14.read_unread]

end Pieces

section Value
variable (V : (c : Dev nD) → (b : Ref sig .tc) → Buf (Elt Ideal) ((c : Thread nD τ).loc b))

abbrev p0 (c : Dev nD) : Vec Ideal S64x128x1024 .bf16 := V c main_v11_0
abbrev p1 (c : Dev nD) : Vec Ideal S32x128x1024 .bf16 := V c main_v16_0
abbrev p2 (c : Dev nD) : Vec Ideal S32x128x1024 .bf16 := V c main_v21_0
abbrev p3 (c : Dev nD) : Vec Ideal S32x128x1024 .bf16 := V c main_v26_0
abbrev q0 (c : Dev nD) : Vec Ideal S1x64x2 .f32 := V c main_v11_1
abbrev q1 (c : Dev nD) : Vec Ideal S1x32x2 .f32 := V c main_v16_1
abbrev q2 (c : Dev nD) : Vec Ideal S1x32x2 .f32 := V c main_v21_1
abbrev q3 (c : Dev nD) : Vec Ideal S1x32x2 .f32 := V c main_v26_1
abbrev gam (c : Dev nD) : Vec Ideal S160x1 .f32 := V c main_v29
abbrev bet (c : Dev nD) : Vec Ideal S160x1 .f32 := V c main_v30
abbrev wmk (c : Dev nD) : Vec Ideal S2x1024 .f32 := V c main_v10
abbrev wts (c : Dev nD) : Vec Ideal S288x160 .f32 := V c main_v28

def Xin (c : Dev nD) : Act 160 :=
  appendCh (appendCh (appendCh (actCM (p0 V c)) (actCM (p1 V c))) (actCM (p2 V c))) (actCM (p3 V c))
def S1in (c : Dev nD) : Fin 160 → EReal :=
  appendV (appendV (appendV (mom3 (q0 V c) 0) (mom3 (q1 V c) 0)) (mom3 (q2 V c) 0)) (mom3 (q3 V c) 0)
def S2in (c : Dev nD) : Fin 160 → EReal :=
  appendV (appendV (appendV (mom3 (q0 V c) 1) (mom3 (q1 V c) 1)) (mom3 (q2 V c) 1)) (mom3 (q3 V c) 1)
def Yspec (c : Dev nD) : Act 32 :=
  convTaps (wTapMajor (wts V c)) (maskRows (wmk V c))
    (bnreluM (col (gam V c)) (col (bet V c)) (S1in V c) (S2in V c) (Xin V c))

abbrev yOut (c : Dev nD) : Vec Ideal S32x128x1024 .bf16 := (dat4 V c).arrAt 12 cfg4.N
abbrev mOut (c : Dev nD) : Vec Ideal S1x32x2 .f32 := (dat4 V c).arrAt 13 cfg4.N

theorem Yspec_eq (c : Dev nD) : Yspec V c = ySpec (p0 V c) (p1 V c) (p2 V c) (p3 V c) (q0 V c) (q1 V c) (q2 V c) (q3 V c) (gam V c) (bet V c) (wmk V c) (wts V c) := rfl

abbrev blk0 (c : Dev nD) (t : Fin cfg4.N) : Vec Ideal S64x8x1024 .bf16 := iblk4 V c 0 t
abbrev blk1 (c : Dev nD) (t : Fin cfg4.N) : Vec Ideal S32x8x1024 .bf16 := iblk4 V c 1 t
abbrev blk2 (c : Dev nD) (t : Fin cfg4.N) : Vec Ideal S32x8x1024 .bf16 := iblk4 V c 2 t
abbrev blk3 (c : Dev nD) (t : Fin cfg4.N) : Vec Ideal S32x8x1024 .bf16 := iblk4 V c 3 t
abbrev blk4 (c : Dev nD) (t : Fin cfg4.N) : Vec Ideal S1x64x2 .f32 := iblk4 V c 4 t
abbrev blk5 (c : Dev nD) (t : Fin cfg4.N) : Vec Ideal S1x32x2 .f32 := iblk4 V c 5 t
abbrev blk6 (c : Dev nD) (t : Fin cfg4.N) : Vec Ideal S1x32x2 .f32 := iblk4 V c 6 t
abbrev blk7 (c : Dev nD) (t : Fin cfg4.N) : Vec Ideal S1x32x2 .f32 := iblk4 V c 7 t
abbrev blk8 (c : Dev nD) (t : Fin cfg4.N) : Vec Ideal S160x1 .f32 := iblk4 V c 8 t
abbrev blk9 (c : Dev nD) (t : Fin cfg4.N) : Vec Ideal S160x1 .f32 := iblk4 V c 9 t
abbrev blk10 (c : Dev nD) (t : Fin cfg4.N) : Vec Ideal S2x1024 .f32 := iblk4 V c 10 t
abbrev blk11 (c : Dev nD) (t : Fin cfg4.N) : Vec Ideal S288x160 .f32 := iblk4 V c 11 t

theorem idx_0 : ∀ t : Fin cfg4.N, win4_0.index t (0 : Fin 3) = 0 ∧ win4_0.index t (1 : Fin 3) = t.val ∧ win4_0.index t (2 : Fin 3) = 0 :=
  (by decide +kernel : ∀ t : Fin grid4.N, _)
theorem idx_1 : ∀ t : Fin cfg4.N, win4_1.index t (0 : Fin 3) = 0 ∧ win4_1.index t (1 : Fin 3) = t.val ∧ win4_1.index t (2 : Fin 3) = 0 :=
  (by decide +kernel : ∀ t : Fin grid4.N, _)
theorem idx_2 : ∀ t : Fin cfg4.N, win4_2.index t (0 : Fin 3) = 0 ∧ win4_2.index t (1 : Fin 3) = t.val ∧ win4_2.index t (2 : Fin 3) = 0 :=
  (by decide +kernel : ∀ t : Fin grid4.N, _)
theorem idx_3 : ∀ t : Fin cfg4.N, win4_3.index t (0 : Fin 3) = 0 ∧ win4_3.index t (1 : Fin 3) = t.val ∧ win4_3.index t (2 : Fin 3) = 0 :=
  (by decide +kernel : ∀ t : Fin grid4.N, _)
theorem idx_12 : ∀ t : Fin cfg4.N, win4_12.index t (0 : Fin 3) = 0 ∧ win4_12.index t (1 : Fin 3) = t.val ∧ win4_12.index t (2 : Fin 3) = 0 :=
  (by decide +kernel : ∀ t : Fin grid4.N, _)
theorem idx_4 : ∀ (t : Fin cfg4.N) a, win4_4.index t a = 0 :=
  (by decide +kernel : ∀ (t : Fin grid4.N) a, _)
theorem idx_5 : ∀ (t : Fin cfg4.N) a, win4_5.index t a = 0 :=
  (by decide +kernel : ∀ (t : Fin grid4.N) a, _)
theorem idx_6 : ∀ (t : Fin cfg4.N) a, win4_6.index t a = 0 :=
  (by decide +kernel : ∀ (t : Fin grid4.N) a, _)
theorem idx_7 : ∀ (t : Fin cfg4.N) a, win4_7.index t a = 0 :=
  (by decide +kernel : ∀ (t : Fin grid4.N) a, _)
theorem idx_8 : ∀ (t : Fin cfg4.N) a, win4_8.index t a = 0 :=
  (by decide +kernel : ∀ (t : Fin grid4.N) a, _)
theorem idx_9 : ∀ (t : Fin cfg4.N) a, win4_9.index t a = 0 :=
  (by decide +kernel : ∀ (t : Fin grid4.N) a, _)
theorem idx_10 : ∀ (t : Fin cfg4.N) a, win4_10.index t a = 0 :=
  (by decide +kernel : ∀ (t : Fin grid4.N) a, _)
theorem idx_11 : ∀ (t : Fin cfg4.N) a, win4_11.index t a = 0 :=
  (by decide +kernel : ∀ (t : Fin grid4.N) a, _)
theorem idx_13 : ∀ t : Fin cfg4.N, win4_13.index t (0 : Fin 3) = 0 ∧ win4_13.index t (1 : Fin 3) = 0 ∧ win4_13.index t (2 : Fin 3) = 0 :=
  (by decide +kernel : ∀ t : Fin grid4.N, _)

def img (t : Fin cfg4.N) (b : Fin 8) : Fin 128 :=
  ⟨t.val * 8 + b.val, by have := t.isLt; have h : cfg4.N = 16 := N_4; omega⟩

theorem blk0_apply (c : Dev nD) (t : Fin cfg4.N) (ci : Fin 64) (b : Fin 8) (p : Fin 1024) :
    blk0 V c t (ix3 ci b p) = p0 V c (ix3 ci (img t b) p) := by
  obtain ⟨e0, e1, e2⟩ := idx_0 t
  show V c main_v11_0 (((cfg4.win 0).blk t).view.emb (ix3 ci b p)) = V c main_v11_0 (ix3 ci (img t b) p)
  refine congrArg (V c main_v11_0) (funext fun a => Fin.ext ?_)
  match a with
  | ⟨0, _⟩ => show win4_0.index t (0 : Fin 3) * 64 + 1 * ci.val = ci.val; omega
  | ⟨1, _⟩ => show win4_0.index t (1 : Fin 3) * 8 + 1 * b.val = t.val * 8 + b.val; omega
  | ⟨2, _⟩ => show win4_0.index t (2 : Fin 3) * 1024 + 1 * p.val = p.val; omega

theorem blk1_apply (c : Dev nD) (t : Fin cfg4.N) (ci : Fin 32) (b : Fin 8) (p : Fin 1024) :
    blk1 V c t (ix3 ci b p) = p1 V c (ix3 ci (img t b) p) := by
  obtain ⟨e0, e1, e2⟩ := idx_1 t
  show V c main_v16_0 (((cfg4.win 1).blk t).view.emb (ix3 ci b p)) = V c main_v16_0 (ix3 ci (img t b) p)
  refine congrArg (V c main_v16_0) (funext fun a => Fin.ext ?_)
  match a with
  | ⟨0, _⟩ => show win4_1.index t (0 : Fin 3) * 32 + 1 * ci.val = ci.val; omega
  | ⟨1, _⟩ => show win4_1.index t (1 : Fin 3) * 8 + 1 * b.val = t.val * 8 + b.val; omega
  | ⟨2, _⟩ => show win4_1.index t (2 : Fin 3) * 1024 + 1 * p.val = p.val; omega

theorem blk2_apply (c : Dev nD) (t : Fin cfg4.N) (ci : Fin 32) (b : Fin 8) (p : Fin 1024) :
    blk2 V c t (ix3 ci b p) = p2 V c (ix3 ci (img t b) p) := by
  obtain ⟨e0, e1, e2⟩ := idx_2 t
  show V c main_v21_0 (((cfg4.win 2).blk t).view.emb (ix3 ci b p)) = V c main_v21_0 (ix3 ci (img t b) p)
  refine congrArg (V c main_v21_0) (funext fun a => Fin.ext ?_)
  match a with
  | ⟨0, _⟩ => show win4_2.index t (0 : Fin 3) * 32 + 1 * ci.val = ci.val; omega
  | ⟨1, _⟩ => show win4_2.index t (1 : Fin 3) * 8 + 1 * b.val = t.val * 8 + b.val; omega
  | ⟨2, _⟩ => show win4_2.index t (2 : Fin 3) * 1024 + 1 * p.val = p.val; omega

theorem blk3_apply (c : Dev nD) (t : Fin cfg4.N) (ci : Fin 32) (b : Fin 8) (p : Fin 1024) :
    blk3 V c t (ix3 ci b p) = p3 V c (ix3 ci (img t b) p) := by
  obtain ⟨e0, e1, e2⟩ := idx_3 t
  show V c main_v26_0 (((cfg4.win 3).blk t).view.emb (ix3 ci b p)) = V c main_v26_0 (ix3 ci (img t b) p)
  refine congrArg (V c main_v26_0) (funext fun a => Fin.ext ?_)
  match a with
  | ⟨0, _⟩ => show win4_3.index t (0 : Fin 3) * 32 + 1 * ci.val = ci.val; omega
  | ⟨1, _⟩ => show win4_3.index t (1 : Fin 3) * 8 + 1 * b.val = t.val * 8 + b.val; omega
  | ⟨2, _⟩ => show win4_3.index t (2 : Fin 3) * 1024 + 1 * p.val = p.val; omega

theorem blk4_eq (c : Dev nD) (t : Fin cfg4.N) : blk4 V c t = q0 V c := by
  funext y
  show V c main_v11_1 (((cfg4.win 4).blk t).view.emb y) = V c main_v11_1 y
  exact congrArg (V c main_v11_1) (funext fun a => Fin.ext (Window.rect_emb_val_of_index_zero win4_4 t a (idx_4 t a) y))

theorem blk5_eq (c : Dev nD) (t : Fin cfg4.N) : blk5 V c t = q1 V c := by
  funext y
  show V c main_v16_1 (((cfg4.win 5).blk t).view.emb y) = V c main_v16_1 y
  exact congrArg (V c main_v16_1) (funext fun a => Fin.ext (Window.rect_emb_val_of_index_zero win4_5 t a (idx_5 t a) y))

theorem blk6_eq (c : Dev nD) (t : Fin cfg4.N) : blk6 V c t = q2 V c := by
  funext y
  show V c main_v21_1 (((cfg4.win 6).blk t).view.emb y) = V c main_v21_1 y
  exact congrArg (V c main_v21_1) (funext fun a => Fin.ext (Window.rect_emb_val_of_index_zero win4_6 t a (idx_6 t a) y))

theorem blk7_eq (c : Dev nD) (t : Fin cfg4.N) : blk7 V c t = q3 V c := by
  funext y
  show V c main_v26_1 (((cfg4.win 7).blk t).view.emb y) = V c main_v26_1 y
  exact congrArg (V c main_v26_1) (funext fun a => Fin.ext (Window.rect_emb_val_of_index_zero win4_7 t a (idx_7 t a) y))

theorem blk8_eq (c : Dev nD) (t : Fin cfg4.N) : blk8 V c t = gam V c := by
  funext y
  show V c main_v29 (((cfg4.win 8).blk t).view.emb y) = V c main_v29 y
  exact congrArg (V c main_v29) (funext fun a => Fin.ext (Window.rect_emb_val_of_index_zero win4_8 t a (idx_8 t a) y))

theorem blk9_eq (c : Dev nD) (t : Fin cfg4.N) : blk9 V c t = bet V c := by
  funext y
  show V c main_v30 (((cfg4.win 9).blk t).view.emb y) = V c main_v30 y
  exact congrArg (V c main_v30) (funext fun a => Fin.ext (Window.rect_emb_val_of_index_zero win4_9 t a (idx_9 t a) y))

theorem blk10_eq (c : Dev nD) (t : Fin cfg4.N) : blk10 V c t = wmk V c := by
  funext y
  show V c main_v10 (((cfg4.win 10).blk t).view.emb y) = V c main_v10 y
  exact congrArg (V c main_v10) (funext fun a => Fin.ext (Window.rect_emb_val_of_index_zero win4_10 t a (idx_10 t a) y))

theorem blk11_eq (c : Dev nD) (t : Fin cfg4.N) : blk11 V c t = wts V c := by
  funext y
  show V c main_v28 (((cfg4.win 11).blk t).view.emb y) = V c main_v28 y
  exact congrArg (V c main_v28) (funext fun a => Fin.ext (Window.rect_emb_val_of_index_zero win4_11 t a (idx_11 t a) y))

theorem ySum_point (c : Dev nD) (t : Fin cfg4.N) (o : Fin 32) (b : Fin 8) (p : Fin 1024) :
    ySum (blk0 V c t) (blk1 V c t) (blk2 V c t) (blk3 V c t) (blk4 V c t) (blk5 V c t) (blk6 V c t) (blk7 V c t) (blk8 V c t) (blk9 V c t) (blk10 V c t) (blk11 V c t) (ix3 o b p) = Yspec V c (img t b) o p := by
  rw [blk4_eq, blk5_eq, blk6_eq, blk7_eq, blk8_eq, blk9_eq, blk10_eq, blk11_eq, Yspec_eq]
  exact point_value (p0 V c) (p1 V c) (p2 V c) (p3 V c) (q0 V c) (q1 V c) (q2 V c) (q3 V c) (gam V c) (bet V c) (wmk V c) (wts V c) (blk0 V c t) (blk1 V c t) (blk2 V c t) (blk3 V c t) (img t)
    (blk0_apply V c t) (blk1_apply V c t) (blk2_apply V c t) (blk3_apply V c t) o b p

theorem outs_fst (c : Dev nD) (t : Fin cfg4.N) :
    (outsAt4 V c t.val t.isLt).1 = yStored (blk0 V c t) (blk1 V c t) (blk2 V c t) (blk3 V c t) (blk4 V c t) (blk5 V c t) (blk6 V c t) (blk7 V c t) (blk8 V c t) (blk9 V c t) (blk10 V c t) (blk11 V c t) := by
  by_cases h0 : t.val % 16 = 0
  · rw [outsAt4_A V c t h0]
    dsimp only
    exact out_A_12 ..
  · rw [outsAt4_B V c t h0]
    dsimp only
    exact out_B_12 ..

theorem outs_snd_zero (c : Dev nD) (h : 0 < cfg4.N) :
    (outsAt4 V c 0 h).2 = mStored (blk0 V c ⟨0, h⟩) (blk1 V c ⟨0, h⟩) (blk2 V c ⟨0, h⟩) (blk3 V c ⟨0, h⟩) (blk4 V c ⟨0, h⟩) (blk5 V c ⟨0, h⟩) (blk6 V c ⟨0, h⟩) (blk7 V c ⟨0, h⟩) (blk8 V c ⟨0, h⟩) (blk9 V c ⟨0, h⟩) (blk10 V c ⟨0, h⟩) (blk11 V c ⟨0, h⟩) (k4_pay23 (F := Ideal)) := by
  rw [outsAt4_A V c ⟨0, h⟩ rfl]
  dsimp only
  exact out_A_13 ..

theorem outs_snd_succ (c : Dev nD) (n : ℕ) (h : n + 1 < cfg4.N) :
    (outsAt4 V c (n + 1) h).2
      = mStored (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) (blk6 V c ⟨n + 1, h⟩) (blk7 V c ⟨n + 1, h⟩) (blk8 V c ⟨n + 1, h⟩) (blk9 V c ⟨n + 1, h⟩) (blk10 V c ⟨n + 1, h⟩) (blk11 V c ⟨n + 1, h⟩) (outsAt4 V c n (Nat.lt_of_succ_lt h)).2 := by
  have hN : cfg4.N = 16 := N_4
  have hB : ¬(⟨n + 1, h⟩ : Fin cfg4.N).val % 16 = 0 := by dsimp only; omega
  rw [outsAt4_B V c ⟨n + 1, h⟩ hB]
  dsimp only
  exact out_B_13 ..

def yArr (c : Dev nD) : Vec Ideal S32x128x1024 .bf16 := fun i => Yspec V c (i 1) (i 0) (i 2)

theorem flushed12_eq (c : Dev nD) (t : Fin cfg4.N) :
    (dat4 V c).flushed 12 t = ((cfg4.win 12).blk t).view.read (Elt Ideal) (yArr V c) := by
  obtain ⟨e0, e1, e2⟩ := idx_12 t
  show (cfg4.win 12).cut (grid4.coords t) ((dat4 V c).after 12 t) = _
  rw [after4_12, outs_fst]
  show (yStored (blk0 V c t) (blk1 V c t) (blk2 V c t) (blk3 V c t) (blk4 V c t) (blk5 V c t) (blk6 V c t) (blk7 V c t) (blk8 V c t) (blk9 V c t) (blk10 V c t) (blk11 V c t) : S32x8x1024.Idx → EReal)
    = fun y => yArr V c (((cfg4.win 12).blk t).view.emb y)
  funext y
  obtain ⟨o, b, p, rfl⟩ : ∃ (o : Fin 32) (b : Fin 8) (p : Fin 1024), y = ix3 o b p := ⟨y 0, y 1, y 2, eq_ix3 y⟩
  rw [yStored_apply, ySum_point]
  have h1 : (((cfg4.win 12).blk t).view.emb (ix3 o b p)) 1 = img t b :=
    Fin.ext (by show win4_12.index t (1 : Fin 3) * 8 + 1 * b.val = t.val * 8 + b.val; omega)
  have h0' : (((cfg4.win 12).blk t).view.emb (ix3 o b p)) 0 = o :=
    Fin.ext (by show win4_12.index t (0 : Fin 3) * 32 + 1 * o.val = o.val; omega)
  have h2 : (((cfg4.win 12).blk t).view.emb (ix3 o b p)) 2 = p :=
    Fin.ext (by show win4_12.index t (2 : Fin 3) * 1024 + 1 * p.val = p.val; omega)
  exact congr (congr (congrArg (Yspec V c) h1.symm) h0'.symm) h2.symm

theorem mem_blk12 (t : Fin cfg4.N) (i : S32x128x1024.Idx) :
    i ∈ ((cfg4.win 12).blk t).view.set ↔ ∀ a : Fin 3, win4_12.index t a * S32x8x1024.size a ≤ (i a).val ∧ (i a).val < win4_12.index t a * S32x8x1024.size a + S32x8x1024.size a := by
  show i ∈ ((View.whole main_v31_0).slice (win4_12.rect t)).set ↔ _
  rw [View.set_slice_whole, Rect.mem_set_unit]
  exact Iff.rfl

theorem arr12 (c : Dev nD) : (dat4 V c).arrAt 12 cfg4.N = yArr V c :=
  (dat4 V c).arrAt_eq_of_cover 12 (yArr V c) (fun t _ => flushed12_eq V c t) fun i => by
    have hN : cfg4.N = 16 := N_4
    have hi0 : (i 0).val < 32 := (i 0).isLt
    have hi1 : (i 1).val < 128 := (i 1).isLt
    have hi2 : (i 2).val < 1024 := (i 2).isLt
    refine ⟨⟨(i 1).val / 8, by omega⟩, flush4_12 _, ?_⟩
    obtain ⟨e0, e1, e2⟩ := idx_12 (⟨(i 1).val / 8, by omega⟩ : Fin cfg4.N)
    rw [mem_blk12]
    intro a
    match a with
    | ⟨0, _⟩ => show win4_12.index _ (0 : Fin 3) * 32 ≤ (i 0).val ∧ (i 0).val < win4_12.index _ (0 : Fin 3) * 32 + 32; omega
    | ⟨1, _⟩ => show win4_12.index _ (1 : Fin 3) * 8 ≤ (i 1).val ∧ (i 1).val < win4_12.index _ (1 : Fin 3) * 8 + 8; dsimp only at e1; omega
    | ⟨2, _⟩ => show win4_12.index _ (2 : Fin 3) * 1024 ≤ (i 2).val ∧ (i 2).val < win4_12.index _ (2 : Fin 3) * 1024 + 1024; omega

theorem arr_y (c : Dev nD) : actCM (yOut V c) = Yspec V c := by
  show actCM ((dat4 V c).arrAt 12 cfg4.N) = _
  rw [arr12]
  rfl

theorem lastLt : 15 < cfg4.N := by rw [show cfg4.N = 16 from N_4]; decide

def mLast (c : Dev nD) : Vec Ideal S1x32x2 .f32 := (outsAt4 V c 15 lastLt).2

theorem flushed13_eq (c : Dev nD) (t : Fin cfg4.N) (hf : (cfg4.win 13).flush t = true) :
    (dat4 V c).flushed 13 t = ((cfg4.win 13).blk t).view.read (Elt Ideal) (mLast V c) := by
  have hN : cfg4.N = 16 := N_4
  have h15 : t.val = 15 := by have := (flush4_13 t).mp hf; have := t.isLt; omega
  obtain rfl : t = ⟨15, lastLt⟩ := Fin.ext h15
  obtain ⟨e0, e1, e2⟩ := idx_13 (⟨15, lastLt⟩ : Fin cfg4.N)
  show (cfg4.win 13).cut (grid4.coords ⟨15, lastLt⟩) ((dat4 V c).after 13 ⟨15, lastLt⟩) = _
  rw [after4_13]
  show (mLast V c : S1x32x2.Idx → EReal) = fun y => mLast V c (((cfg4.win 13).blk ⟨15, lastLt⟩).view.emb y)
  funext y
  refine congrArg (mLast V c) (funext fun a => Fin.ext ?_)
  match a with
  | ⟨0, _⟩ => show (y 0).val = win4_13.index _ (0 : Fin 3) * 1 + 1 * (y 0).val; omega
  | ⟨1, _⟩ => show (y 1).val = win4_13.index _ (1 : Fin 3) * 32 + 1 * (y 1).val; omega
  | ⟨2, _⟩ => show (y 2).val = win4_13.index _ (2 : Fin 3) * 2 + 1 * (y 2).val; omega

theorem mem_blk13 (t : Fin cfg4.N) (i : S1x32x2.Idx) :
    i ∈ ((cfg4.win 13).blk t).view.set ↔ ∀ a : Fin 3, win4_13.index t a * S1x32x2.size a ≤ (i a).val ∧ (i a).val < win4_13.index t a * S1x32x2.size a + S1x32x2.size a := by
  show i ∈ ((View.whole main_v31_1).slice (win4_13.rect t)).set ↔ _
  rw [View.set_slice_whole, Rect.mem_set_unit]
  exact Iff.rfl

theorem arr13 (c : Dev nD) : (dat4 V c).arrAt 13 cfg4.N = mLast V c :=
  (dat4 V c).arrAt_eq_of_cover 13 (mLast V c) (flushed13_eq V c) fun i => by
    have hi0 : (i 0).val < 1 := (i 0).isLt
    have hi1 : (i 1).val < 32 := (i 1).isLt
    have hi2 : (i 2).val < 2 := (i 2).isLt
    refine ⟨⟨15, lastLt⟩, (flush4_13 _).mpr rfl, ?_⟩
    obtain ⟨e0, e1, e2⟩ := idx_13 (⟨15, lastLt⟩ : Fin cfg4.N)
    rw [mem_blk13]
    intro a
    match a with
    | ⟨0, _⟩ => show win4_13.index _ (0 : Fin 3) * 1 ≤ (i 0).val ∧ (i 0).val < win4_13.index _ (0 : Fin 3) * 1 + 1; omega
    | ⟨1, _⟩ => show win4_13.index _ (1 : Fin 3) * 32 ≤ (i 1).val ∧ (i 1).val < win4_13.index _ (1 : Fin 3) * 32 + 32; omega
    | ⟨2, _⟩ => show win4_13.index _ (2 : Fin 3) * 2 ≤ (i 2).val ∧ (i 2).val < win4_13.index _ (2 : Fin 3) * 2 + 2; omega

def accAt (c : Dev nD) (o : Fin 32) (k : Fin 2) (n : ℕ) : EReal :=
  if h : n < cfg4.N then (outsAt4 V c n h).2 (ix3 (0 : Fin 1) o k) else 0

def blockSum (f : Fin 128 → EReal) (j : ℕ) : EReal :=
  if h : j < 16 then ∑ b : Fin 8, f ⟨j * 8 + b.val, by omega⟩ else 0

theorem blockSum_eq (f : Fin 128 → EReal) (j : Fin 16) :
    blockSum f j.val = ∑ b : Fin 8, f ⟨j.val * 8 + b.val, by omega⟩ := dif_pos j.isLt

theorem blockSum_point (f : Fin 128 → EReal) (t : Fin cfg4.N) : blockSum f t.val = ∑ b : Fin 8, f (img t b) := by
  have hN : cfg4.N = 16 := N_4
  have := t.isLt
  exact dif_pos (by omega)

theorem arr_m (c : Dev nD) (o : Fin 32) :
    mom3 (mOut V c) 0 o = sum1 (Yspec V c) o ∧ mom3 (mOut V c) 1 o = sum2 (Yspec V c) o := by
  have hN : cfg4.N = 16 := N_4
  have hout : mOut V c = mLast V c := arr13 V c
  have hpos : 0 < cfg4.N := by omega
  constructor
  · show mOut V c (ix3 (0 : Fin 1) o (0 : Fin 2)) = _
    rw [hout]
    have hlast : mLast V c (ix3 (0 : Fin 1) o (0 : Fin 2)) = accAt V c o 0 15 := by unfold accAt mLast; rw [dif_pos lastLt]
    rw [hlast]
    unfold sum1
    refine blocks_total (fun n => ∑ p : Fin 1024, Yspec V c n o p) (accAt V c o 0)
      (blockSum fun n => ∑ p : Fin 1024, Yspec V c n o p) (blockSum_eq _) ?_ ?_
    · unfold accAt
      rw [dif_pos hpos, outs_snd_zero V c hpos, mStored_apply0, zeroTable_apply]
      refine congrArg₂ (· + ·) rfl ?_
      rw [blockSum_point _ (⟨0, hpos⟩ : Fin cfg4.N)]
      exact Finset.sum_congr rfl fun b _ => Finset.sum_congr rfl fun p _ => ySum_point V c ⟨0, hpos⟩ o b p
    · intro n hn
      have h1 : n + 1 < cfg4.N := by omega
      unfold accAt
      rw [dif_pos h1, dif_pos (Nat.lt_of_succ_lt h1), outs_snd_succ V c n h1, mStored_apply0]
      refine congrArg₂ (· + ·) rfl ?_
      rw [blockSum_point _ (⟨n + 1, h1⟩ : Fin cfg4.N)]
      exact Finset.sum_congr rfl fun b _ => Finset.sum_congr rfl fun p _ => ySum_point V c ⟨n + 1, h1⟩ o b p
  · show mOut V c (ix3 (0 : Fin 1) o (1 : Fin 2)) = _
    rw [hout]
    have hlast : mLast V c (ix3 (0 : Fin 1) o (1 : Fin 2)) = accAt V c o 1 15 := by unfold accAt mLast; rw [dif_pos lastLt]
    rw [hlast]
    unfold sum2
    refine blocks_total (fun n => ∑ p : Fin 1024, Yspec V c n o p * Yspec V c n o p) (accAt V c o 1)
      (blockSum fun n => ∑ p : Fin 1024, Yspec V c n o p * Yspec V c n o p) (blockSum_eq _) ?_ ?_
    · unfold accAt
      rw [dif_pos hpos, outs_snd_zero V c hpos, mStored_apply1, zeroTable_apply]
      refine congrArg₂ (· + ·) rfl ?_
      rw [blockSum_point _ (⟨0, hpos⟩ : Fin cfg4.N)]
      exact Finset.sum_congr rfl fun b _ => Finset.sum_congr rfl fun p _ => by rw [ySum_point V c ⟨0, hpos⟩ o b p]
    · intro n hn
      have h1 : n + 1 < cfg4.N := by omega
      unfold accAt
      rw [dif_pos h1, dif_pos (Nat.lt_of_succ_lt h1), outs_snd_succ V c n h1, mStored_apply1]
      refine congrArg₂ (· + ·) rfl ?_
      rw [blockSum_point _ (⟨n + 1, h1⟩ : Fin cfg4.N)]
      exact Finset.sum_congr rfl fun b _ => Finset.sum_congr rfl fun p _ => by rw [ySum_point V c ⟨n + 1, h1⟩ o b p]

end Value

end Cert.K4

end
-- ==== Proof.KThreadL3.lean ====
import proofs.«136216_g2000306190186476_pallasbulk_240_40_alg».proof.Proof.KThreadL2
import proofs.«136216_g2000306190186476_pallasbulk_240_40_alg».proof.Proof.K4

set_option maxRecDepth 16384

noncomputable section

namespace Cert.KThread

open Cert.KernelIdeal Cert.KernelIdeal.Gen Cert.KernelIdeal.GenP Cert.Spec Cert.Views Cert.Block Cert.Alg Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

theorem Xin_L3 (c : Dev nD) (hR : (args m c).Real) : Cert.K4.Xin (V11 m ρ) c = X3 (args m c) :=
  (in3 m ρ c hR 11 (by decide) (by decide)).1

theorem S1in_L3 (c : Dev nD) (hR : (args m c).Real) : Cert.K4.S1in (V11 m ρ) c = sum1 (X3 (args m c)) :=
  (in3 m ρ c hR 11 (by decide) (by decide)).2.1

theorem S2in_L3 (c : Dev nD) (hR : (args m c).Real) : Cert.K4.S2in (V11 m ρ) c = sum2 (X3 (args m c)) :=
  (in3 m ρ c hR 11 (by decide) (by decide)).2.2

theorem Yspec_L3 (c : Dev nD) (hR : (args m c).Real) : Cert.K4.Yspec (V11 m ρ) c = Y3 (args m c) :=
  layer_of_specs (Cert.KHost.h4_w (W10 m ρ c)) (arg_at m ρ c main_arg12 (by decide) 10 (by decide))
    (Cert.KHost.h4_gam (W10 m ρ c)) (arg_at m ρ c main_arg10 (by decide) 10 (by decide))
    (Cert.KHost.h4_bet (W10 m ρ c)) (arg_at m ρ c main_arg11 (by decide) 10 (by decide))
    (mask_at m ρ c 11 (by decide) (by decide)) ⟨Xin_L3 m ρ c hR, S1in_L3 m ρ c hR, S2in_L3 m ρ c hR⟩
    hR.w3 hR.g3 hR.b3 (isReal_X3 hR)

theorem in4 (c : Dev nD) (hR : (args m c).Real) (n : ℕ) (h : 12 ≤ n) (hn : n ≤ 17) : IsTri (acc4 m ρ c n) (X4 (args m c)) :=
  isTri_app (in3 m ρ c hR n (by omega) hn)
    (tri_of_out ((kept m ρ c main_v31_0 12 (by decide) n h hn).trans (W12_arr m ρ c 12))
      ((kept m ρ c main_v31_1 12 (by decide) n h hn).trans (W12_arr m ρ c 13)) (Cert.K4.arr_y (V11 m ρ) c)
      (Cert.K4.arr_m (V11 m ρ) c) (Yspec_L3 m ρ c hR))

end Cert.KThread

end
-- ==== Proof.K5Body.lean ====
import proofs.«136216_g2000306190186476_pallasbulk_240_40_alg».proof.Proof.Gen.KernelIdeal.Skeleton
import proofs.«136216_g2000306190186476_pallasbulk_240_40_alg».proof.Proof.ConvRows
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

namespace Cert.K5

open Cert.KernelIdeal Cert.KernelIdeal.Gen Idealize.ShloMosaic Idealize.ShloMosaic.ValueIdx

section Layout
variable {C : ℕ}

theorem momcol0 (m : (⟨3, ![1, C, 2]⟩ : Shape).Idx → EReal) (h1 : (⟨3, ![1, C, 2]⟩ : Shape).ShapeCasts ⟨2, ![C, 2]⟩)
    (h2 : (⟨2, ![C, 2]⟩ : Shape).Slices ![0, 0] ⟨2, ![C, 1]⟩) (c : Fin C) :
    extractStridedSlice ⟨2, ![C, 1]⟩ ![0, 0] (shapeCast ⟨2, ![C, 2]⟩ m h1) h2 (ix2 c (0 : Fin 1))
      = m (ix3 (0 : Fin 1) c (0 : Fin 2)) :=
  (slice2_axis1_apply 0 _ h2 c (0 : Fin 1) (0 : Fin 2) rfl).trans (shapeCast_1ab_ab_apply m h1 c (0 : Fin 2))

theorem momcol1 (m : (⟨3, ![1, C, 2]⟩ : Shape).Idx → EReal) (h1 : (⟨3, ![1, C, 2]⟩ : Shape).ShapeCasts ⟨2, ![C, 2]⟩)
    (h2 : (⟨2, ![C, 2]⟩ : Shape).Slices ![0, 1] ⟨2, ![C, 1]⟩) (c : Fin C) :
    extractStridedSlice ⟨2, ![C, 1]⟩ ![0, 1] (shapeCast ⟨2, ![C, 2]⟩ m h1) h2 (ix2 c (0 : Fin 1))
      = m (ix3 (0 : Fin 1) c (1 : Fin 2)) :=
  (slice2_axis1_apply 1 _ h2 c (0 : Fin 1) (1 : Fin 2) rfl).trans (shapeCast_1ab_ab_apply m h1 c (1 : Fin 2))

theorem bcastCol (v : (⟨2, ![C, 1]⟩ : Shape).Idx → EReal) (h1 : (⟨2, ![C, 1]⟩ : Shape).ShapeCasts ⟨3, ![C, 1, 1]⟩)
    (h2 : (⟨3, ![C, 1, 1]⟩ : Shape).Broadcasts ⟨3, ![C, 8, 1024]⟩) (c : Fin C) (b : Fin 8) (p : Fin 1024) :
    broadcastTo ⟨3, ![C, 8, 1024]⟩ (shapeCast ⟨3, ![C, 1, 1]⟩ v h1) h2 (ix3 c b p) = v (ix2 c (0 : Fin 1)) := by
  refine (broadcastTo_apply _ h2 (ix3 c b p) (ix3 c (0 : Fin 1) (0 : Fin 1)) fun a => ?_).trans
    (shapeCast_apply v h1 _ _ ?_)
  · match a with
    | ⟨0, _⟩ =>
      show c.val = if C = 1 then 0 else c.val
      split
      · have := c.isLt; omega
      · rfl
    | ⟨1, _⟩ => rfl
    | ⟨2, _⟩ => rfl
  · rw [Shape.rowMajor_val_two, Shape.rowMajor_val_three]
    show c.val * 1 + 0 = (c.val * 1 + 0) * 1 + 0
    omega

end Layout

theorem maskRow (r : (⟨2, ![1, 1024]⟩ : Shape).Idx → EReal) (h1 : (⟨2, ![1, 1024]⟩ : Shape).ShapeCasts ⟨3, ![1, 1, 1024]⟩)
    (h2 : (⟨3, ![1, 1, 1024]⟩ : Shape).Broadcasts ⟨3, ![32, 8, 1024]⟩) (o : Fin 32) (b : Fin 8) (p : Fin 1024) :
    broadcastTo ⟨3, ![32, 8, 1024]⟩ (shapeCast ⟨3, ![1, 1, 1024]⟩ r h1) h2 (ix3 o b p) = r (ix2 (0 : Fin 1) p) := by
  refine (broadcastTo_apply _ h2 (ix3 o b p) (ix3 (0 : Fin 1) (0 : Fin 1) p) fun a => ?_).trans
    (shapeCast_apply r h1 _ _ ?_)
  · match a with
    | ⟨0, _⟩ => rfl
    | ⟨1, _⟩ => rfl
    | ⟨2, _⟩ => rfl
  · rw [Shape.rowMajor_val_two, Shape.rowMajor_val_three]
    show 0 * 1024 + p.val = (0 * 1 + 0) * 1024 + p.val
    omega

theorem rsqrt_at {s : Shape} {φ : FTy} (a : FVec Ideal s φ) (i : s.Idx) : rsqrt a i = Ideal.rsqrt (a i) := rfl

def invC : EReal := Ideal.ofBits .f32 0x37000000#32
def epsC : EReal := Ideal.ofBits .f32 0x3727C5AC#32
def scl (g s1 s2 : EReal) : EReal := g * Ideal.rsqrt (s2 * invC - s1 * invC * (s1 * invC) + epsC)
def sft (g b s1 s2 : EReal) : EReal := b - s1 * invC * scl g s1 s2
def bnr (x g b s1 s2 : EReal) : EReal := max (x * scl g s1 s2 + sft g b s1 s2) 0

def partA {C : ℕ} (x : (⟨3, ![C, 8, 1024]⟩ : Shape).Idx → EReal) (m : (⟨3, ![1, C, 2]⟩ : Shape).Idx → EReal)
    (g bb : (⟨2, ![C, 1]⟩ : Shape).Idx → EReal) (c : Fin C) (b : Fin 8) (q : Fin 1024) : EReal :=
  bnr (x (ix3 c b q)) (g (ix2 c (0 : Fin 1))) (bb (ix2 c (0 : Fin 1))) (m (ix3 (0 : Fin 1) c (0 : Fin 2))) (m (ix3 (0 : Fin 1) c (1 : Fin 2)))

theorem pay5_apply (m0 : Vec Ideal S1x64x2 .f32) (g0 b0 : Vec Ideal S64x1 .f32) (x0 : Vec Ideal S64x8x1024 .bf16)
    (c : Fin 64) (b : Fin 8) (p : Fin 1024) :
    k5_pay5 (F := Ideal) m0 g0 b0 x0 (ix3 c b p) = partA x0 m0 g0 b0 c b p := by
  unfold k5_pay5
  simp only [maximumf_apply, addf_apply, mulf_apply, subf_apply, extf_apply, broadcast_apply, shapeCast_self, rsqrt_at,
    bcastCol, momcol0, momcol1]
  exact congrArg (max _) Ideal.ofBits_zero_f32

theorem pay10_apply (m1 : Vec Ideal S1x32x2 .f32) (g1 b1 : Vec Ideal S32x1 .f32) (x1 : Vec Ideal S32x8x1024 .bf16)
    (c : Fin 32) (b : Fin 8) (p : Fin 1024) :
    k5_pay10 (F := Ideal) (k5_pay7 m1) (k5_pay8 m1) (k5_pay9 m1) g1 b1 x1 (ix3 c b p) = partA x1 m1 g1 b1 c b p := by
  unfold k5_pay10 k5_pay9 k5_pay8 k5_pay7 k5_pay6
  simp only [maximumf_apply, addf_apply, mulf_apply, subf_apply, extf_apply, broadcast_apply, shapeCast_self, rsqrt_at,
    bcastCol, momcol0, momcol1]
  exact congrArg (max _) Ideal.ofBits_zero_f32

theorem pay16_apply (m2 : Vec Ideal S1x32x2 .f32) (g2 b2 : Vec Ideal S32x1 .f32) (x2 : Vec Ideal S32x8x1024 .bf16)
    (c : Fin 32) (b : Fin 8) (p : Fin 1024) :
    k5_pay16 (F := Ideal) (k5_pay13 m2 g2) (k5_pay14 b2) (k5_pay15 m2 g2) x2 (ix3 c b p) = partA x2 m2 g2 b2 c b p := by
  unfold k5_pay16 k5_pay15 k5_pay14 k5_pay13 k5_pay12 k5_pay11
  simp only [maximumf_apply, addf_apply, mulf_apply, subf_apply, extf_apply, broadcast_apply, shapeCast_self, rsqrt_at,
    bcastCol, momcol0, momcol1]
  exact congrArg (max _) Ideal.ofBits_zero_f32

theorem pay17_apply (m3 : Vec Ideal S1x32x2 .f32) (g3 b3 : Vec Ideal S32x1 .f32) (x3 : Vec Ideal S32x8x1024 .bf16)
    (c : Fin 32) (b : Fin 8) (p : Fin 1024) :
    maximumf (k5_pay17 (F := Ideal) m3 g3 b3 x3) (k5_pay18 (F := Ideal)) (ix3 c b p) = partA x3 m3 g3 b3 c b p := by
  unfold k5_pay17 k5_pay18
  simp only [maximumf_apply, addf_apply, mulf_apply, subf_apply, extf_apply, broadcast_apply, shapeCast_self, rsqrt_at,
    bcastCol, momcol0, momcol1]
  exact congrArg (max _) Ideal.ofBits_zero_f32

def cat5 (a0 : FVec Ideal S64x8x1024 .f32) (a1 a2 a3 a4 : FVec Ideal S32x8x1024 .f32) : FVec Ideal S192x8x1024 .f32 :=
  concatenate S192x8x1024 0 [⟨S64x8x1024, a0⟩, ⟨S32x8x1024, a1⟩, ⟨S32x8x1024, a2⟩, ⟨S32x8x1024, a3⟩, ⟨S32x8x1024, a4⟩]
    concatenates_S64x8x1024_S32x8x1024_S32x8x1024_S32x8x1024_S32x8x1024_S192x8x1024_d0

section Cat
variable (a0 : FVec Ideal S64x8x1024 .f32) (a1 a2 a3 a4 : FVec Ideal S32x8x1024 .f32) (ci : Fin 192) (b : Fin 8) (p : Fin 1024)

theorem cat5_p0 (h : ci.val < 64) : cat5 a0 a1 a2 a3 a4 (ix3 ci b p) = a0 (ix3 (⟨ci.val, h⟩ : Fin 64) b p) :=
  concatenate_apply_piece 0 _ _ (ix3 ci b p) 0 (by show (0 : ℕ) < 5; decide) S64x8x1024 a0 rfl rfl 0 rfl (ix3 (⟨ci.val, h⟩ : Fin 64) b p)
    (fun a ha => match a, ha with
      | ⟨0, _⟩, ha => (ha rfl).elim
      | ⟨1, _⟩, _ => rfl
      | ⟨2, _⟩, _ => rfl)
    (Nat.zero_add _)

theorem cat5_p1 (h1 : 64 ≤ ci.val) (h2 : ci.val < 96) :
    cat5 a0 a1 a2 a3 a4 (ix3 ci b p) = a1 (ix3 (⟨ci.val - 64, by omega⟩ : Fin 32) b p) :=
  concatenate_apply_piece 0 _ _ (ix3 ci b p) 1 (by show (1 : ℕ) < 5; decide) S32x8x1024 a1 rfl rfl 64 rfl (ix3 (⟨ci.val - 64, by omega⟩ : Fin 32) b p)
    (fun a ha => match a, ha with
      | ⟨0, _⟩, ha => (ha rfl).elim
      | ⟨1, _⟩, _ => rfl
      | ⟨2, _⟩, _ => rfl)
    (by show 64 + (ci.val - 64) = ci.val; omega)

theorem cat5_p2 (h1 : 96 ≤ ci.val) (h2 : ci.val < 128) :
    cat5 a0 a1 a2 a3 a4 (ix3 ci b p) = a2 (ix3 (⟨ci.val - 96, by omega⟩ : Fin 32) b p) :=
  concatenate_apply_piece 0 _ _ (ix3 ci b p) 2 (by show (2 : ℕ) < 5; decide) S32x8x1024 a2 rfl rfl 96 rfl (ix3 (⟨ci.val - 96, by omega⟩ : Fin 32) b p)
    (fun a ha => match a, ha with
      | ⟨0, _⟩, ha => (ha rfl).elim
      | ⟨1, _⟩, _ => rfl
      | ⟨2, _⟩, _ => rfl)
    (by show 96 + (ci.val - 96) = ci.val; omega)

theorem cat5_p3 (h1 : 128 ≤ ci.val) (h2 : ci.val < 160) :
    cat5 a0 a1 a2 a3 a4 (ix3 ci b p) = a3 (ix3 (⟨ci.val - 128, by omega⟩ : Fin 32) b p) :=
  concatenate_apply_piece 0 _ _ (ix3 ci b p) 3 (by show (3 : ℕ) < 5; decide) S32x8x1024 a3 rfl rfl 128 rfl (ix3 (⟨ci.val - 128, by omega⟩ : Fin 32) b p)
    (fun a ha => match a, ha with
      | ⟨0, _⟩, ha => (ha rfl).elim
      | ⟨1, _⟩, _ => rfl
      | ⟨2, _⟩, _ => rfl)
    (by show 128 + (ci.val - 128) = ci.val; omega)

theorem cat5_p4 (h1 : 160 ≤ ci.val) :
    cat5 a0 a1 a2 a3 a4 (ix3 ci b p) = a4 (ix3 (⟨ci.val - 160, by omega⟩ : Fin 32) b p) :=
  concatenate_apply_piece 0 _ _ (ix3 ci b p) 4 (by show (4 : ℕ) < 5; decide) S32x8x1024 a4 rfl rfl 160 rfl (ix3 (⟨ci.val - 160, by omega⟩ : Fin 32) b p)
    (fun a ha => match a, ha with
      | ⟨0, _⟩, ha => (ha rfl).elim
      | ⟨1, _⟩, _ => rfl
      | ⟨2, _⟩, _ => rfl)
    (by show 160 + (ci.val - 160) = ci.val; omega)

end Cat

def convZ (a : FVec Ideal S192x8x1024 .f32) (w : Vec Ideal S288x192 .f32) : FVec Ideal S288x8x1024 .f32 :=
  shapeCast S288x8x1024
    (matmul dot_S288x192_S192x8192_S288x8192_1_0_0_1_n_n none (shapeCast S288x192 w shapeCasts_S288x192_S288x192 : FVec Ideal S288x192 .f32)
      (shapeCast S192x8192 a shapeCasts_S192x8x1024_S192x8192 : FVec Ideal S192x8192 .f32) (constant S288x8192 .f32 0x00000000#32))
    shapeCasts_S288x8192_S288x8x1024

theorem pay19_eq (v30 : FVec Ideal S64x8x1024 .f32) (v61 v92 v121 v122 : FVec Ideal S32x8x1024 .f32)
    (m4 : Vec Ideal S1x32x2 .f32) (g4 b4 : Vec Ideal S32x1 .f32) (x4 : Vec Ideal S32x8x1024 .bf16) (w : Vec Ideal S288x192 .f32) :
    k5_pay19 (F := Ideal) v30 v61 v92 v121 v122 m4 g4 b4 x4 w
      = convZ (cat5 v30 v61 v92 (maximumf v121 v122) (maximumf (k5_pay17 (F := Ideal) m4 g4 b4 x4) (k5_pay18 (F := Ideal)))) w := rfl

theorem convZ_apply (a : FVec Ideal S192x8x1024 .f32) (w : Vec Ideal S288x192 .f32) (r : Fin 288) (b : Fin 8) (p : Fin 1024) :
    convZ a w (ix3 r b p) = ∑ ci : Fin 192, w (ix2 r ci) * a (ix3 ci b p) := by
  have hbp : b.val * 1024 + p.val < 8192 := by have := b.isLt; have := p.isLt; omega
  unfold convZ
  refine (shapeCast_apply _ _ (ix3 r b p) (ix2 r (⟨b.val * 1024 + p.val, hbp⟩ : Fin 8192)) ?_).trans ?_
  · rw [Shape.rowMajor_val_two, Shape.rowMajor_val_three]
    show r.val * 8192 + (b.val * 1024 + p.val) = (r.val * 8 + b.val) * 1024 + p.val
    omega
  refine (Cert.ConvRows.mm_apply _ _ r _).trans (Finset.sum_congr rfl fun ci _ => ?_)
  rw [shapeCast_self]
  refine congrArg (w (ix2 r ci) * ·) (shapeCast_apply a _ _ (ix3 ci b p) ?_)
  rw [Shape.rowMajor_val_two, Shape.rowMajor_val_three]
  show (ci.val * 8 + b.val) * 1024 + p.val = ci.val * 8192 + (b.val * 1024 + p.val)
  omega

def tapOff' (kh kw : Fin 3) : ℤ := ((kh.val : ℤ) - 1) * 32 + ((kw.val : ℤ) - 1)

def shiftRd (f : Fin 1024 → EReal) (d : ℤ) (p : Fin 1024) : EReal :=
  if h : 0 ≤ (p.val : ℤ) + d ∧ (p.val : ℤ) + d < 1024 then f ⟨((p.val : ℤ) + d).toNat, by omega⟩ else 0

theorem shiftRd_neg (N0 : ℕ) (f : Fin 1024 → EReal) (p : Fin 1024) :
    (if h : N0 ≤ p.val then f ⟨p.val - N0, by omega⟩ else 0) = shiftRd f (-(N0 : ℤ)) p := by
  unfold shiftRd
  have hp := p.isLt
  by_cases h : N0 ≤ p.val
  · have hc : 0 ≤ (p.val : ℤ) + -(N0 : ℤ) ∧ (p.val : ℤ) + -(N0 : ℤ) < 1024 := by omega
    rw [dif_pos h, dif_pos hc]
    exact congrArg f (Fin.ext (by dsimp only; omega))
  · have hc : ¬(0 ≤ (p.val : ℤ) + -(N0 : ℤ) ∧ (p.val : ℤ) + -(N0 : ℤ) < 1024) := by omega
    rw [dif_neg h, dif_neg hc]

theorem shiftRd_pos (N0 : ℕ) (f : Fin 1024 → EReal) (p : Fin 1024) :
    (if h : p.val + N0 < 1024 then f ⟨p.val + N0, h⟩ else 0) = shiftRd f (N0 : ℤ) p := by
  unfold shiftRd
  by_cases h : p.val + N0 < 1024
  · have hc : 0 ≤ (p.val : ℤ) + (N0 : ℤ) ∧ (p.val : ℤ) + (N0 : ℤ) < 1024 := by omega
    rw [dif_pos h, dif_pos hc]
    exact congrArg f (Fin.ext (by dsimp only; omega))
  · have hc : ¬(0 ≤ (p.val : ℤ) + (N0 : ℤ) ∧ (p.val : ℤ) + (N0 : ℤ) < 1024) := by omega
    rw [dif_neg h, dif_neg hc]

theorem shiftRd_zero (f : Fin 1024 → EReal) (p : Fin 1024) : f p = shiftRd f 0 p := by
  unfold shiftRd
  have hp := p.isLt
  have hc : 0 ≤ (p.val : ℤ) + 0 ∧ (p.val : ℤ) + 0 < 1024 := by omega
  rw [dif_pos hc]
  exact congrArg f (Fin.ext (by dsimp only; omega))

theorem shiftBack (N0 N1 : ℕ) (hN : N0 + N1 = 1024) (z : (⟨3, ![32, 8, 1024]⟩ : Shape).Idx → EReal)
    (h1 : (⟨3, ![32, 8, 1024]⟩ : Shape).Slices ![0, 0, 0] ⟨3, ![32, 8, N1]⟩)
    (hc : Shape.Concatenates [⟨3, ![32, 8, N0]⟩, ⟨3, ![32, 8, N1]⟩] ⟨3, ![32, 8, 1024]⟩ 2)
    (o : Fin 32) (b : Fin 8) (p : Fin 1024) :
    concatenate ⟨3, ![32, 8, 1024]⟩ 2
        [⟨⟨3, ![32, 8, N0]⟩, broadcast ⟨3, ![32, 8, N0]⟩ (Scalar.ofBits (F := Ideal) .f32 0x00000000#32)⟩,
         ⟨⟨3, ![32, 8, N1]⟩, extractStridedSlice ⟨3, ![32, 8, N1]⟩ ![0, 0, 0] z h1⟩] hc (ix3 o b p)
      = shiftRd (fun q => z (ix3 o b q)) (-(N0 : ℤ)) p := by
  have hp := p.isLt
  refine Eq.trans ?_ (shiftRd_neg N0 (fun q => z (ix3 o b q)) p)
  by_cases h : N0 ≤ p.val
  · rw [dif_pos h]
    refine (concatenate_pair_apply_right 2 _ _ hc (ix3 o b p) rfl rfl (ix3 o b (⟨p.val - N0, by omega⟩ : Fin N1)) ?_ ?_).trans ?_
    · intro a ha
      match a, ha with
      | ⟨0, _⟩, _ => rfl
      | ⟨1, _⟩, _ => rfl
      | ⟨2, _⟩, ha => exact (ha rfl).elim
    · show (p.val - N0) + N0 = p.val
      omega
    · exact extractStridedSlice_apply _ z h1 _ (ix3 o b (⟨p.val - N0, by omega⟩ : Fin 1024)) (fun a =>
        match a with
        | ⟨0, _⟩ => (Nat.zero_add _).symm
        | ⟨1, _⟩ => (Nat.zero_add _).symm
        | ⟨2, _⟩ => (Nat.zero_add _).symm)
  · rw [dif_neg h]
    exact (concatenate_pair_apply_left 2 _ _ hc (ix3 o b p) rfl (ix3 o b (⟨p.val, by omega⟩ : Fin N0)) (fun a =>
      match a with
      | ⟨0, _⟩ => rfl
      | ⟨1, _⟩ => rfl
      | ⟨2, _⟩ => rfl)).trans Ideal.ofBits_zero_f32

theorem shiftAhead (N0 N1 : ℕ) (hN : N0 + N1 = 1024) (z : (⟨3, ![32, 8, 1024]⟩ : Shape).Idx → EReal)
    (h1 : (⟨3, ![32, 8, 1024]⟩ : Shape).Slices ![0, 0, N0] ⟨3, ![32, 8, N1]⟩)
    (hc : Shape.Concatenates [⟨3, ![32, 8, N1]⟩, ⟨3, ![32, 8, N0]⟩] ⟨3, ![32, 8, 1024]⟩ 2)
    (o : Fin 32) (b : Fin 8) (p : Fin 1024) :
    concatenate ⟨3, ![32, 8, 1024]⟩ 2
        [⟨⟨3, ![32, 8, N1]⟩, extractStridedSlice ⟨3, ![32, 8, N1]⟩ ![0, 0, N0] z h1⟩,
         ⟨⟨3, ![32, 8, N0]⟩, broadcast ⟨3, ![32, 8, N0]⟩ (Scalar.ofBits (F := Ideal) .f32 0x00000000#32)⟩] hc (ix3 o b p)
      = shiftRd (fun q => z (ix3 o b q)) (N0 : ℤ) p := by
  have hp := p.isLt
  refine Eq.trans ?_ (shiftRd_pos N0 (fun q => z (ix3 o b q)) p)
  by_cases h : p.val + N0 < 1024
  · rw [dif_pos h]
    refine (concatenate_pair_apply_left 2 _ _ hc (ix3 o b p) rfl (ix3 o b (⟨p.val, by omega⟩ : Fin N1)) (fun a =>
      match a with
      | ⟨0, _⟩ => rfl
      | ⟨1, _⟩ => rfl
      | ⟨2, _⟩ => rfl)).trans ?_
    exact extractStridedSlice_apply _ z h1 _ (ix3 o b (⟨p.val + N0, h⟩ : Fin 1024)) (fun a =>
      match a with
      | ⟨0, _⟩ => (Nat.zero_add _).symm
      | ⟨1, _⟩ => (Nat.zero_add _).symm
      | ⟨2, _⟩ => Nat.add_comm _ _)
  · rw [dif_neg h]
    refine (concatenate_pair_apply_right 2 _ _ hc (ix3 o b p) rfl rfl (ix3 o b (⟨p.val - N1, by omega⟩ : Fin N0)) ?_ ?_).trans
      Ideal.ofBits_zero_f32
    · intro a ha
      match a, ha with
      | ⟨0, _⟩, _ => rfl
      | ⟨1, _⟩, _ => rfl
      | ⟨2, _⟩, ha => exact (ha rfl).elim
    · show (p.val - N1) + N1 = p.val
      omega

def wTap (w : Vec Ideal S288x192 .f32) (o : Fin 32) (ci : Fin 192) (kh kw : Fin 3) : EReal :=
  w (ix2 (⟨(kh.val * 3 + kw.val) * 32 + o.val, by omega⟩ : Fin 288) ci)

def tapSum (a : FVec Ideal S192x8x1024 .f32) (w : Vec Ideal S288x192 .f32) (o : Fin 32) (b : Fin 8) (kh kw : Fin 3) :
    Fin 1024 → EReal := fun q => ∑ ci : Fin 192, wTap w o ci kh kw * a (ix3 ci b q)

theorem zrows_apply (a : FVec Ideal S192x8x1024 .f32) (w : Vec Ideal S288x192 .f32) (kh kw : Fin 3)
    (h0 : S288x8x1024.Slices ![(kh.val * 3 + kw.val) * 32, 0, 0] S32x8x1024) (o : Fin 32) (b : Fin 8) (q : Fin 1024) :
    extractStridedSlice S32x8x1024 ![(kh.val * 3 + kw.val) * 32, 0, 0] (convZ a w) h0 (ix3 o b q) = tapSum a w o b kh kw q :=
  (extractStridedSlice_apply _ (convZ a w) h0 _ (ix3 (⟨(kh.val * 3 + kw.val) * 32 + o.val, by omega⟩ : Fin 288) b q) (fun ax =>
    match ax with
    | ⟨0, _⟩ => rfl
    | ⟨1, _⟩ => (Nat.zero_add _).symm
    | ⟨2, _⟩ => (Nat.zero_add _).symm)).trans (convZ_apply a w _ b q)

theorem tapBack (N0 N1 : ℕ) (hN : N0 + N1 = 1024) (kh kw : Fin 3) (hd : tapOff' kh kw = -(N0 : ℤ))
    (a : FVec Ideal S192x8x1024 .f32) (w : Vec Ideal S288x192 .f32)
    (h0 : S288x8x1024.Slices ![(kh.val * 3 + kw.val) * 32, 0, 0] S32x8x1024)
    (h1 : (⟨3, ![32, 8, 1024]⟩ : Shape).Slices ![0, 0, 0] ⟨3, ![32, 8, N1]⟩)
    (hc : Shape.Concatenates [⟨3, ![32, 8, N0]⟩, ⟨3, ![32, 8, N1]⟩] ⟨3, ![32, 8, 1024]⟩ 2)
    (o : Fin 32) (b : Fin 8) (p : Fin 1024) :
    concatenate ⟨3, ![32, 8, 1024]⟩ 2
        [⟨⟨3, ![32, 8, N0]⟩, broadcast ⟨3, ![32, 8, N0]⟩ (Scalar.ofBits (F := Ideal) .f32 0x00000000#32)⟩,
         ⟨⟨3, ![32, 8, N1]⟩, extractStridedSlice ⟨3, ![32, 8, N1]⟩ ![0, 0, 0]
            (extractStridedSlice S32x8x1024 ![(kh.val * 3 + kw.val) * 32, 0, 0] (convZ a w) h0) h1⟩] hc (ix3 o b p)
      = shiftRd (tapSum a w o b kh kw) (tapOff' kh kw) p := by
  rw [hd]
  refine (shiftBack N0 N1 hN _ h1 hc o b p).trans ?_
  exact congrArg (fun f => shiftRd f (-(N0 : ℤ)) p) (funext fun q => zrows_apply a w kh kw h0 o b q)

theorem tapAhead (N0 N1 : ℕ) (hN : N0 + N1 = 1024) (kh kw : Fin 3) (hd : tapOff' kh kw = (N0 : ℤ))
    (a : FVec Ideal S192x8x1024 .f32) (w : Vec Ideal S288x192 .f32)
    (h0 : S288x8x1024.Slices ![(kh.val * 3 + kw.val) * 32, 0, 0] S32x8x1024)
    (h1 : (⟨3, ![32, 8, 1024]⟩ : Shape).Slices ![0, 0, N0] ⟨3, ![32, 8, N1]⟩)
    (hc : Shape.Concatenates [⟨3, ![32, 8, N1]⟩, ⟨3, ![32, 8, N0]⟩] ⟨3, ![32, 8, 1024]⟩ 2)
    (o : Fin 32) (b : Fin 8) (p : Fin 1024) :
    concatenate ⟨3, ![32, 8, 1024]⟩ 2
        [⟨⟨3, ![32, 8, N1]⟩, extractStridedSlice ⟨3, ![32, 8, N1]⟩ ![0, 0, N0]
            (extractStridedSlice S32x8x1024 ![(kh.val * 3 + kw.val) * 32, 0, 0] (convZ a w) h0) h1⟩,
         ⟨⟨3, ![32, 8, N0]⟩, broadcast ⟨3, ![32, 8, N0]⟩ (Scalar.ofBits (F := Ideal) .f32 0x00000000#32)⟩] hc (ix3 o b p)
      = shiftRd (tapSum a w o b kh kw) (tapOff' kh kw) p := by
  rw [hd]
  refine (shiftAhead N0 N1 hN _ h1 hc o b p).trans ?_
  exact congrArg (fun f => shiftRd f (N0 : ℤ) p) (funext fun q => zrows_apply a w kh kw h0 o b q)

theorem tap00 (a : FVec Ideal S192x8x1024 .f32) (w : Vec Ideal S288x192 .f32) (o : Fin 32) (b : Fin 8) (p : Fin 1024) :
    concatenate S32x8x1024 2 [⟨S32x8x33, broadcast S32x8x33 (Scalar.ofBits (F := Ideal) .f32 0x00000000#32)⟩, ⟨S32x8x991, extractStridedSlice S32x8x991 ![0, 0, 0] (extractStridedSlice S32x8x1024 ![0, 0, 0] (convZ a w) slices_S288x8x1024_o0_0_0_S32x8x1024) slices_S32x8x1024_o0_0_0_S32x8x991⟩] concatenates_S32x8x33_S32x8x991_S32x8x1024_d2 (ix3 o b p)
      = shiftRd (tapSum a w o b 0 0) (tapOff' 0 0) p :=
  tapBack 33 991 rfl 0 0 (by decide) a w _ _ _ o b p

theorem tap01 (a : FVec Ideal S192x8x1024 .f32) (w : Vec Ideal S288x192 .f32) (o : Fin 32) (b : Fin 8) (p : Fin 1024) :
    concatenate S32x8x1024 2 [⟨S32x8x32, broadcast S32x8x32 (Scalar.ofBits (F := Ideal) .f32 0x00000000#32)⟩, ⟨S32x8x992, extractStridedSlice S32x8x992 ![0, 0, 0] (extractStridedSlice S32x8x1024 ![32, 0, 0] (convZ a w) slices_S288x8x1024_o32_0_0_S32x8x1024) slices_S32x8x1024_o0_0_0_S32x8x992⟩] concatenates_S32x8x32_S32x8x992_S32x8x1024_d2 (ix3 o b p)
      = shiftRd (tapSum a w o b 0 1) (tapOff' 0 1) p :=
  tapBack 32 992 rfl 0 1 (by decide) a w _ _ _ o b p

theorem tap02 (a : FVec Ideal S192x8x1024 .f32) (w : Vec Ideal S288x192 .f32) (o : Fin 32) (b : Fin 8) (p : Fin 1024) :
    concatenate S32x8x1024 2 [⟨S32x8x31, broadcast S32x8x31 (Scalar.ofBits (F := Ideal) .f32 0x00000000#32)⟩, ⟨S32x8x993, extractStridedSlice S32x8x993 ![0, 0, 0] (extractStridedSlice S32x8x1024 ![64, 0, 0] (convZ a w) slices_S288x8x1024_o64_0_0_S32x8x1024) slices_S32x8x1024_o0_0_0_S32x8x993⟩] concatenates_S32x8x31_S32x8x993_S32x8x1024_d2 (ix3 o b p)
      = shiftRd (tapSum a w o b 0 2) (tapOff' 0 2) p :=
  tapBack 31 993 rfl 0 2 (by decide) a w _ _ _ o b p

theorem tap10 (a : FVec Ideal S192x8x1024 .f32) (w : Vec Ideal S288x192 .f32) (o : Fin 32) (b : Fin 8) (p : Fin 1024) :
    concatenate S32x8x1024 2 [⟨S32x8x1, broadcast S32x8x1 (Scalar.ofBits (F := Ideal) .f32 0x00000000#32)⟩, ⟨S32x8x1023, extractStridedSlice S32x8x1023 ![0, 0, 0] (extractStridedSlice S32x8x1024 ![96, 0, 0] (convZ a w) slices_S288x8x1024_o96_0_0_S32x8x1024) slices_S32x8x1024_o0_0_0_S32x8x1023⟩] concatenates_S32x8x1_S32x8x1023_S32x8x1024_d2 (ix3 o b p)
      = shiftRd (tapSum a w o b 1 0) (tapOff' 1 0) p :=
  tapBack 1 1023 rfl 1 0 (by decide) a w _ _ _ o b p

theorem tap11 (a : FVec Ideal S192x8x1024 .f32) (w : Vec Ideal S288x192 .f32) (o : Fin 32) (b : Fin 8) (p : Fin 1024) :
    extractStridedSlice S32x8x1024 ![128, 0, 0] (convZ a w) slices_S288x8x1024_o128_0_0_S32x8x1024 (ix3 o b p)
      = shiftRd (tapSum a w o b 1 1) (tapOff' 1 1) p := by
  have hd : tapOff' 1 1 = 0 := by decide
  rw [hd]
  exact (zrows_apply a w 1 1 _ o b p).trans (shiftRd_zero _ p)

theorem tap12 (a : FVec Ideal S192x8x1024 .f32) (w : Vec Ideal S288x192 .f32) (o : Fin 32) (b : Fin 8) (p : Fin 1024) :
    concatenate S32x8x1024 2 [⟨S32x8x1023, extractStridedSlice S32x8x1023 ![0, 0, 1] (extractStridedSlice S32x8x1024 ![160, 0, 0] (convZ a w) slices_S288x8x1024_o160_0_0_S32x8x1024) slices_S32x8x1024_o0_0_1_S32x8x1023⟩, ⟨S32x8x1, broadcast S32x8x1 (Scalar.ofBits (F := Ideal) .f32 0x00000000#32)⟩] concatenates_S32x8x1023_S32x8x1_S32x8x1024_d2 (ix3 o b p)
      = shiftRd (tapSum a w o b 1 2) (tapOff' 1 2) p :=
  tapAhead 1 1023 rfl 1 2 (by decide) a w _ _ _ o b p

theorem tap20 (a : FVec Ideal S192x8x1024 .f32) (w : Vec Ideal S288x192 .f32) (o : Fin 32) (b : Fin 8) (p : Fin 1024) :
    concatenate S32x8x1024 2 [⟨S32x8x993, extractStridedSlice S32x8x993 ![0, 0, 31] (extractStridedSlice S32x8x1024 ![192, 0, 0] (convZ a w) slices_S288x8x1024_o192_0_0_S32x8x1024) slices_S32x8x1024_o0_0_31_S32x8x993⟩, ⟨S32x8x31, broadcast S32x8x31 (Scalar.ofBits (F := Ideal) .f32 0x00000000#32)⟩] concatenates_S32x8x993_S32x8x31_S32x8x1024_d2 (ix3 o b p)
      = shiftRd (tapSum a w o b 2 0) (tapOff' 2 0) p :=
  tapAhead 31 993 rfl 2 0 (by decide) a w _ _ _ o b p

theorem tap21 (a : FVec Ideal S192x8x1024 .f32) (w : Vec Ideal S288x192 .f32) (o : Fin 32) (b : Fin 8) (p : Fin 1024) :
    concatenate S32x8x1024 2 [⟨S32x8x992, extractStridedSlice S32x8x992 ![0, 0, 32] (extractStridedSlice S32x8x1024 ![224, 0, 0] (convZ a w) slices_S288x8x1024_o224_0_0_S32x8x1024) slices_S32x8x1024_o0_0_32_S32x8x992⟩, ⟨S32x8x32, broadcast S32x8x32 (Scalar.ofBits (F := Ideal) .f32 0x00000000#32)⟩] concatenates_S32x8x992_S32x8x32_S32x8x1024_d2 (ix3 o b p)
      = shiftRd (tapSum a w o b 2 1) (tapOff' 2 1) p :=
  tapAhead 32 992 rfl 2 1 (by decide) a w _ _ _ o b p

theorem tap22 (a : FVec Ideal S192x8x1024 .f32) (w : Vec Ideal S288x192 .f32) (o : Fin 32) (b : Fin 8) (p : Fin 1024) :
    concatenate S32x8x1024 2 [⟨S32x8x991, extractStridedSlice S32x8x991 ![0, 0, 33] (extractStridedSlice S32x8x1024 ![256, 0, 0] (convZ a w) slices_S288x8x1024_o256_0_0_S32x8x1024) slices_S32x8x1024_o0_0_33_S32x8x991⟩, ⟨S32x8x33, broadcast S32x8x33 (Scalar.ofBits (F := Ideal) .f32 0x00000000#32)⟩] concatenates_S32x8x991_S32x8x33_S32x8x1024_d2 (ix3 o b p)
      = shiftRd (tapSum a w o b 2 2) (tapOff' 2 2) p :=
  tapAhead 33 991 rfl 2 2 (by decide) a w _ _ _ o b p

def tapMask' (r0 r1 : Vec Ideal S1x1024 .f32) (kw : Fin 3) (p : Fin 1024) : EReal :=
  if kw.val = 0 then r0 (ix2 (0 : Fin 1) p) else if kw.val = 2 then r1 (ix2 (0 : Fin 1) p) else 1

theorem tapMask'_0 (r0 r1 : Vec Ideal S1x1024 .f32) (p : Fin 1024) : tapMask' r0 r1 0 p = r0 (ix2 (0 : Fin 1) p) := rfl
theorem tapMask'_1 (r0 r1 : Vec Ideal S1x1024 .f32) (p : Fin 1024) : tapMask' r0 r1 1 p = 1 := rfl
theorem tapMask'_2 (r0 r1 : Vec Ideal S1x1024 .f32) (p : Fin 1024) : tapMask' r0 r1 2 p = r1 (ix2 (0 : Fin 1) p) := rfl

theorem conv_apply (a : FVec Ideal S192x8x1024 .f32) (w : Vec Ideal S288x192 .f32) (r0 r1 : Vec Ideal S1x1024 .f32)
    (o : Fin 32) (b : Fin 8) (p : Fin 1024) :
    k5_pay1 (F := Ideal) (convZ a w) (k5_pay21 r1) (k5_pay22 (convZ a w) (k5_pay20 r0) r1) (k5_pay23 (convZ a w)) (ix3 o b p)
      = ∑ kh : Fin 3, ∑ kw : Fin 3, shiftRd (tapSum a w o b kh kw) (tapOff' kh kw) p * tapMask' r0 r1 kw p := by
  unfold k5_pay1 k5_pay22 k5_pay23 k5_pay21 k5_pay20
  simp only [addf_apply, mulf_apply, shapeCast_self, maskRow, tap00, tap01, tap02, tap10, tap11, tap12, tap20, tap21, tap22,
    Fin.sum_univ_three, tapMask'_0, tapMask'_1, tapMask'_2, mul_one, add_assoc]

theorem sumPix (Y : FVec Ideal S32x8x1024 .f32) (h : S32x8x1024.Reduces [2] S32x8) (hφ : FKind.Formats .f32)
    (hacc : (0x00000000#32 : BitVec 32) = 0x00000000#32) (o : Fin 32) (b : Fin 8) :
    multiReduction .add [2] S32x8 Y 0x00000000#32 h hφ hacc (ix2 o b) = ∑ q : Fin 1024, Y (ix3 o b q) := by
  refine (Ideal.multiReduction_add_single Y 0x00000000#32 h hφ hacc (ix2 o b)).trans ?_
  refine Finset.sum_congr rfl fun q _ => congrArg Y (funext fun a => Fin.ext ?_)
  match a with
  | ⟨0, _⟩ => rfl
  | ⟨1, _⟩ => rfl
  | ⟨2, _⟩ => rfl

theorem sumImg (X : FVec Ideal S32x8 .f32) (h1 : S32x8.ShapeCasts S32x8x1) (h : S32x8x1.Reduces [1] S32x1)
    (hφ : FKind.Formats .f32) (hacc : (0x00000000#32 : BitVec 32) = 0x00000000#32) (o : Fin 32) :
    multiReduction .add [1] S32x1 (shapeCast S32x8x1 X h1 : FVec Ideal S32x8x1 .f32) 0x00000000#32 h hφ hacc (ix2 o (0 : Fin 1))
      = ∑ b : Fin 8, X (ix2 o b) := by
  refine (Ideal.multiReduction_add_single _ 0x00000000#32 h hφ hacc (ix2 o (0 : Fin 1))).trans ?_
  refine Finset.sum_congr rfl fun b _ => ?_
  refine shapeCast_apply X h1 _ (ix2 o b) ?_
  rw [Shape.rowMajor_val_two, Shape.rowMajor_val_three]
  show o.val * 8 + b.val = (o.val * 8 + b.val) * 1 + 0
  omega

theorem pay4_apply (Zv : FVec Ideal S288x8x1024 .f32) (v164 : FVec Ideal S1x1024 .f32) (v210 v214 : FVec Ideal S32x8x1024 .f32)
    (acc : Vec Ideal S1x32x2 .f32) (u : Fin 1) (o : Fin 32) (k : Fin 2) :
    k5_pay4 (F := Ideal) Zv v164 v210 v214 acc (ix3 u o k)
      = acc (ix3 (0 : Fin 1) o k)
        + (if k.val = 0 then ∑ b : Fin 8, ∑ q : Fin 1024, k5_pay1 (F := Ideal) Zv v164 v210 v214 (ix3 o b q)
           else ∑ b : Fin 8, ∑ q : Fin 1024,
             k5_pay1 (F := Ideal) Zv v164 v210 v214 (ix3 o b q) * k5_pay1 (F := Ideal) Zv v164 v210 v214 (ix3 o b q)) := by
  unfold k5_pay4
  refine (shapeCast_ab_1ab_apply _ _ u o k).trans ?_
  refine (addf_apply _ _ _).trans (congrArg₂ (· + ·) (shapeCast_1ab_ab_apply acc _ o k) ?_)
  by_cases hk : k.val = 0
  · rw [if_pos hk]
    obtain rfl : k = 0 := Fin.ext hk
    refine (concatenate_pair_apply_left (t := S32x2) (s₁ := S32x1) (s₂ := S32x1) 1 _ _ _ (ix2 o (0 : Fin 2)) rfl (ix2 o (0 : Fin 1)) (fun a =>
      match a with
      | ⟨0, _⟩ => rfl
      | ⟨1, _⟩ => rfl)).trans ?_
    exact (sumImg _ _ _ _ _ o).trans (Finset.sum_congr rfl fun b _ => sumPix _ _ _ _ o b)
  · rw [if_neg hk]
    obtain rfl : k = 1 := Fin.ext (by have := k.isLt; omega)
    refine (concatenate_pair_apply_right (t := S32x2) (s₁ := S32x1) (s₂ := S32x1) 1 _ _ _ (ix2 o (1 : Fin 2)) rfl rfl (ix2 o (0 : Fin 1)) ?_ rfl).trans ?_
    · intro a ha
      match a, ha with
      | ⟨0, _⟩, _ => rfl
      | ⟨1, _⟩, ha => exact (ha rfl).elim
    · exact (sumImg _ _ _ _ _ o).trans (Finset.sum_congr rfl fun b _ => sumPix _ _ _ _ o b)

theorem pay3_apply (i : S1x32x2.Idx) : k5_pay3 (F := Ideal) i = 0 := Ideal.ofBits_zero_f32

def actB (x0 : Vec Ideal S64x8x1024 .bf16) (x1 x2 x3 x4 : Vec Ideal S32x8x1024 .bf16)
    (m0 : Vec Ideal S1x64x2 .f32) (m1 m2 m3 m4 : Vec Ideal S1x32x2 .f32)
    (g0 b0 : Vec Ideal S64x1 .f32) (g1 b1 g2 b2 g3 b3 g4 b4 : Vec Ideal S32x1 .f32)
    (ci : Fin 192) (b : Fin 8) (q : Fin 1024) : EReal :=
  if h0 : ci.val < 64 then partA x0 m0 g0 b0 ⟨ci.val, h0⟩ b q
  else if h1 : ci.val < 96 then partA x1 m1 g1 b1 ⟨ci.val - 64, by omega⟩ b q
  else if h2 : ci.val < 128 then partA x2 m2 g2 b2 ⟨ci.val - 96, by omega⟩ b q
  else if h3 : ci.val < 160 then partA x3 m3 g3 b3 ⟨ci.val - 128, by omega⟩ b q
  else partA x4 m4 g4 b4 ⟨ci.val - 160, by omega⟩ b q

def bodyZ (x0 : Vec Ideal S64x8x1024 .bf16) (x1 x2 x3 x4 : Vec Ideal S32x8x1024 .bf16)
    (m0 : Vec Ideal S1x64x2 .f32) (m1 m2 m3 m4 : Vec Ideal S1x32x2 .f32)
    (g0 b0 : Vec Ideal S64x1 .f32) (g1 b1 g2 b2 g3 b3 g4 b4 : Vec Ideal S32x1 .f32)
    (w : Vec Ideal S288x192 .f32) : FVec Ideal S288x8x1024 .f32 :=
  k5_pay19 (F := Ideal) (k5_pay5 m0 g0 b0 x0) (k5_pay10 (k5_pay7 m1) (k5_pay8 m1) (k5_pay9 m1) g1 b1 x1)
    (k5_pay16 (k5_pay13 m2 g2) (k5_pay14 b2) (k5_pay15 m2 g2) x2) (k5_pay17 m3 g3 b3 x3) (k5_pay18 (F := Ideal)) m4 g4 b4 x4 w

def bodyY (x0 : Vec Ideal S64x8x1024 .bf16) (x1 x2 x3 x4 : Vec Ideal S32x8x1024 .bf16)
    (m0 : Vec Ideal S1x64x2 .f32) (m1 m2 m3 m4 : Vec Ideal S1x32x2 .f32)
    (g0 b0 : Vec Ideal S64x1 .f32) (g1 b1 g2 b2 g3 b3 g4 b4 : Vec Ideal S32x1 .f32)
    (r0 r1 : Vec Ideal S1x1024 .f32) (w : Vec Ideal S288x192 .f32) : FVec Ideal S32x8x1024 .f32 :=
  k5_pay1 (F := Ideal) (bodyZ x0 x1 x2 x3 x4 m0 m1 m2 m3 m4 g0 b0 g1 b1 g2 b2 g3 b3 g4 b4 w) (k5_pay21 r1)
    (k5_pay22 (bodyZ x0 x1 x2 x3 x4 m0 m1 m2 m3 m4 g0 b0 g1 b1 g2 b2 g3 b3 g4 b4 w) (k5_pay20 r0) r1)
    (k5_pay23 (bodyZ x0 x1 x2 x3 x4 m0 m1 m2 m3 m4 g0 b0 g1 b1 g2 b2 g3 b3 g4 b4 w))

section Body
variable (x0 : Vec Ideal S64x8x1024 .bf16) (x1 x2 x3 x4 : Vec Ideal S32x8x1024 .bf16)
  (m0 : Vec Ideal S1x64x2 .f32) (m1 m2 m3 m4 : Vec Ideal S1x32x2 .f32)
  (g0 b0 : Vec Ideal S64x1 .f32) (g1 b1 g2 b2 g3 b3 g4 b4 : Vec Ideal S32x1 .f32)
  (r0 r1 : Vec Ideal S1x1024 .f32) (w : Vec Ideal S288x192 .f32)

theorem cat5_actB (ci : Fin 192) (b : Fin 8) (q : Fin 1024) :
    cat5 (k5_pay5 (F := Ideal) m0 g0 b0 x0) (k5_pay10 (F := Ideal) (k5_pay7 m1) (k5_pay8 m1) (k5_pay9 m1) g1 b1 x1)
        (k5_pay16 (F := Ideal) (k5_pay13 m2 g2) (k5_pay14 b2) (k5_pay15 m2 g2) x2)
        (maximumf (k5_pay17 (F := Ideal) m3 g3 b3 x3) (k5_pay18 (F := Ideal)))
        (maximumf (k5_pay17 (F := Ideal) m4 g4 b4 x4) (k5_pay18 (F := Ideal))) (ix3 ci b q)
      = actB x0 x1 x2 x3 x4 m0 m1 m2 m3 m4 g0 b0 g1 b1 g2 b2 g3 b3 g4 b4 ci b q := by
  unfold actB
  by_cases h0 : ci.val < 64
  · rw [dif_pos h0]
    exact (cat5_p0 _ _ _ _ _ ci b q h0).trans (pay5_apply m0 g0 b0 x0 _ b q)
  · rw [dif_neg h0]
    by_cases h1 : ci.val < 96
    · rw [dif_pos h1]
      exact (cat5_p1 _ _ _ _ _ ci b q (by omega) h1).trans (pay10_apply m1 g1 b1 x1 _ b q)
    · rw [dif_neg h1]
      by_cases h2 : ci.val < 128
      · rw [dif_pos h2]
        exact (cat5_p2 _ _ _ _ _ ci b q (by omega) h2).trans (pay16_apply m2 g2 b2 x2 _ b q)
      · rw [dif_neg h2]
        by_cases h3 : ci.val < 160
        · rw [dif_pos h3]
          exact (cat5_p3 _ _ _ _ _ ci b q (by omega) h3).trans (pay17_apply m3 g3 b3 x3 _ b q)
        · rw [dif_neg h3]
          exact (cat5_p4 _ _ _ _ _ ci b q (by omega)).trans (pay17_apply m4 g4 b4 x4 _ b q)

def tapAct (o : Fin 32) (b : Fin 8) (kh kw : Fin 3) : Fin 1024 → EReal := fun q =>
  ∑ ci : Fin 192, wTap w o ci kh kw * actB x0 x1 x2 x3 x4 m0 m1 m2 m3 m4 g0 b0 g1 b1 g2 b2 g3 b3 g4 b4 ci b q

theorem bodyY_apply (o : Fin 32) (b : Fin 8) (p : Fin 1024) :
    bodyY x0 x1 x2 x3 x4 m0 m1 m2 m3 m4 g0 b0 g1 b1 g2 b2 g3 b3 g4 b4 r0 r1 w (ix3 o b p)
      = ∑ kh : Fin 3, ∑ kw : Fin 3,
          shiftRd (tapAct x0 x1 x2 x3 x4 m0 m1 m2 m3 m4 g0 b0 g1 b1 g2 b2 g3 b3 g4 b4 w o b kh kw) (tapOff' kh kw) p
            * tapMask' r0 r1 kw p := by
  unfold bodyY bodyZ
  rw [pay19_eq]
  refine (conv_apply _ w r0 r1 o b p).trans ?_
  refine Finset.sum_congr rfl fun kh _ => Finset.sum_congr rfl fun kw _ => ?_
  refine congrArg (fun f => shiftRd f (tapOff' kh kw) p * tapMask' r0 r1 kw p) (funext fun q => ?_)
  exact Finset.sum_congr rfl fun ci _ =>
    congrArg (wTap w o ci kh kw * ·) (cat5_actB x0 x1 x2 x3 x4 m0 m1 m2 m3 m4 g0 b0 g1 b1 g2 b2 g3 b3 g4 b4 ci b q)

end Body

end Cert.K5

end
-- ==== Proof.K5Math.lean ====
import proofs.«136216_g2000306190186476_pallasbulk_240_40_alg».proof.Proof.K5Body
import proofs.«136216_g2000306190186476_pallasbulk_240_40_alg».proof.Proof.Views
import proofs.«136216_g2000306190186476_pallasbulk_240_40_alg».proof.Proof.SpecAlg
import Idealize.ShloMosaic.Lib.ValueIdx
import Mathlib.Algebra.BigOperators.Fin

set_option maxRecDepth 16384

noncomputable section

namespace Cert.K5

open Cert.KernelIdeal Cert.KernelIdeal.Gen Cert.Spec Cert.Views Idealize.ShloMosaic Idealize.ShloMosaic.ValueIdx

theorem bnr_eq (x g b s1 s2 : EReal) : bnr x g b s1 s2 = max (x * scaleOf g s1 s2 + shiftOf g b s1 s2) 0 := rfl

theorem bnr_congr {x x' g g' b b' s1 s1' s2 s2' : EReal} (e1 : x = x') (e2 : g = g') (e3 : b = b') (e4 : s1 = s1')
    (e5 : s2 = s2') : bnr x g b s1 s2 = bnr x' g' b' s1' s2' := by
  subst e1 e2 e3 e4 e5; rfl

theorem bnreluM_bnr {C : ℕ} (g b s1 s2 : Fin C → EReal) (X : Act C) (n : Fin 128) (c : Fin C) (p : Fin 1024) :
    bnreluM g b s1 s2 X n c p = bnr (X n c p) (g c) (b c) (s1 c) (s2 c) := rfl

section AppendV
variable (u0 : Fin 64 → EReal) (u1 u2 u3 u4 : Fin 32 → EReal) (ci : Fin 192)

theorem appV5_0 (h : ci.val < 64) :
    appendV (appendV (appendV (appendV u0 u1) u2) u3) u4 ci = u0 ⟨ci.val, h⟩ := by
  unfold appendV
  dsimp only
  rw [dif_pos (by omega : ci.val < 64 + 32 + 32 + 32), dif_pos (by omega : ci.val < 64 + 32 + 32),
    dif_pos (by omega : ci.val < 64 + 32), dif_pos h]

theorem appV5_1 (h1 : 64 ≤ ci.val) (h2 : ci.val < 96) :
    appendV (appendV (appendV (appendV u0 u1) u2) u3) u4 ci = u1 ⟨ci.val - 64, by omega⟩ := by
  unfold appendV
  dsimp only
  rw [dif_pos (by omega : ci.val < 64 + 32 + 32 + 32), dif_pos (by omega : ci.val < 64 + 32 + 32),
    dif_pos (by omega : ci.val < 64 + 32), dif_neg (by omega : ¬ci.val < 64)]

theorem appV5_2 (h1 : 96 ≤ ci.val) (h2 : ci.val < 128) :
    appendV (appendV (appendV (appendV u0 u1) u2) u3) u4 ci = u2 ⟨ci.val - 96, by omega⟩ := by
  unfold appendV
  dsimp only
  rw [dif_pos (by omega : ci.val < 64 + 32 + 32 + 32), dif_pos (by omega : ci.val < 64 + 32 + 32),
    dif_neg (by omega : ¬ci.val < 64 + 32)]

theorem appV5_3 (h1 : 128 ≤ ci.val) (h2 : ci.val < 160) :
    appendV (appendV (appendV (appendV u0 u1) u2) u3) u4 ci = u3 ⟨ci.val - 128, by omega⟩ := by
  unfold appendV
  dsimp only
  rw [dif_pos (by omega : ci.val < 64 + 32 + 32 + 32), dif_neg (by omega : ¬ci.val < 64 + 32 + 32)]

theorem appV5_4 (h1 : 160 ≤ ci.val) :
    appendV (appendV (appendV (appendV u0 u1) u2) u3) u4 ci = u4 ⟨ci.val - 160, by omega⟩ := by
  unfold appendV
  dsimp only
  rw [dif_neg (by omega : ¬ci.val < 64 + 32 + 32 + 32)]

end AppendV

section Append
variable (X0 : Act 64) (X1 X2 X3 X4 : Act 32) (n : Fin 128) (ci : Fin 192) (q : Fin 1024)

theorem app5_0 (h : ci.val < 64) :
    appendCh (appendCh (appendCh (appendCh X0 X1) X2) X3) X4 n ci q = X0 n ⟨ci.val, h⟩ q :=
  appV5_0 (X0 n · q) (X1 n · q) (X2 n · q) (X3 n · q) (X4 n · q) ci h

theorem app5_1 (h1 : 64 ≤ ci.val) (h2 : ci.val < 96) :
    appendCh (appendCh (appendCh (appendCh X0 X1) X2) X3) X4 n ci q = X1 n ⟨ci.val - 64, by omega⟩ q :=
  appV5_1 (X0 n · q) (X1 n · q) (X2 n · q) (X3 n · q) (X4 n · q) ci h1 h2

theorem app5_2 (h1 : 96 ≤ ci.val) (h2 : ci.val < 128) :
    appendCh (appendCh (appendCh (appendCh X0 X1) X2) X3) X4 n ci q = X2 n ⟨ci.val - 96, by omega⟩ q :=
  appV5_2 (X0 n · q) (X1 n · q) (X2 n · q) (X3 n · q) (X4 n · q) ci h1 h2

theorem app5_3 (h1 : 128 ≤ ci.val) (h2 : ci.val < 160) :
    appendCh (appendCh (appendCh (appendCh X0 X1) X2) X3) X4 n ci q = X3 n ⟨ci.val - 128, by omega⟩ q :=
  appV5_3 (X0 n · q) (X1 n · q) (X2 n · q) (X3 n · q) (X4 n · q) ci h1 h2

theorem app5_4 (h1 : 160 ≤ ci.val) :
    appendCh (appendCh (appendCh (appendCh X0 X1) X2) X3) X4 n ci q = X4 n ⟨ci.val - 160, by omega⟩ q :=
  appV5_4 (X0 n · q) (X1 n · q) (X2 n · q) (X3 n · q) (X4 n · q) ci h1

end Append

def img (t : Fin 16) (b : Fin 8) : Fin 128 := ⟨t.val * 8 + b.val, by omega⟩

section Math
variable (P0 : Vec Ideal S64x128x1024 .bf16) (P1 P2 P3 P4 : Vec Ideal S32x128x1024 .bf16)
  (Q0 : Vec Ideal S1x64x2 .f32) (Q1 Q2 Q3 Q4 : Vec Ideal S1x32x2 .f32)
  (GAM BET : Vec Ideal S192x1 .f32) (WMK : Vec Ideal S2x1024 .f32) (WTS : Vec Ideal S288x192 .f32)

def XinA : Act 192 :=
  appendCh (appendCh (appendCh (appendCh (actCM P0) (actCM P1)) (actCM P2)) (actCM P3)) (actCM P4)
def S1A : Fin 192 → EReal :=
  appendV (appendV (appendV (appendV (mom3 Q0 0) (mom3 Q1 0)) (mom3 Q2 0)) (mom3 Q3 0)) (mom3 Q4 0)
def S2A : Fin 192 → EReal :=
  appendV (appendV (appendV (appendV (mom3 Q0 1) (mom3 Q1 1)) (mom3 Q2 1)) (mom3 Q3 1)) (mom3 Q4 1)
def YspecA : Act 32 :=
  convTaps (wTapMajor WTS) (maskRows WMK)
    (bnreluM (col GAM) (col BET) (S1A Q0 Q1 Q2 Q3 Q4) (S2A Q0 Q1 Q2 Q3 Q4) (XinA P0 P1 P2 P3 P4))

variable (t : Fin 16)
  (x0 : Vec Ideal S64x8x1024 .bf16) (x1 x2 x3 x4 : Vec Ideal S32x8x1024 .bf16)
  (g0 b0 : Vec Ideal S64x1 .f32) (g1 b1 g2 b2 g3 b3 g4 b4 : Vec Ideal S32x1 .f32)
  (r0 r1 : Vec Ideal S1x1024 .f32)
  (hx0 : ∀ (c : Fin 64) (b : Fin 8) (q : Fin 1024), x0 (ix3 c b q) = P0 (ix3 c (img t b) q))
  (hx1 : ∀ (c : Fin 32) (b : Fin 8) (q : Fin 1024), x1 (ix3 c b q) = P1 (ix3 c (img t b) q))
  (hx2 : ∀ (c : Fin 32) (b : Fin 8) (q : Fin 1024), x2 (ix3 c b q) = P2 (ix3 c (img t b) q))
  (hx3 : ∀ (c : Fin 32) (b : Fin 8) (q : Fin 1024), x3 (ix3 c b q) = P3 (ix3 c (img t b) q))
  (hx4 : ∀ (c : Fin 32) (b : Fin 8) (q : Fin 1024), x4 (ix3 c b q) = P4 (ix3 c (img t b) q))
  (hg0 : ∀ c : Fin 64, g0 (ix2 c (0 : Fin 1)) = GAM (ix2 (⟨c.val, by omega⟩ : Fin 192) (0 : Fin 1)))
  (hb0 : ∀ c : Fin 64, b0 (ix2 c (0 : Fin 1)) = BET (ix2 (⟨c.val, by omega⟩ : Fin 192) (0 : Fin 1)))
  (hg1 : ∀ c : Fin 32, g1 (ix2 c (0 : Fin 1)) = GAM (ix2 (⟨64 + c.val, by omega⟩ : Fin 192) (0 : Fin 1)))
  (hb1 : ∀ c : Fin 32, b1 (ix2 c (0 : Fin 1)) = BET (ix2 (⟨64 + c.val, by omega⟩ : Fin 192) (0 : Fin 1)))
  (hg2 : ∀ c : Fin 32, g2 (ix2 c (0 : Fin 1)) = GAM (ix2 (⟨96 + c.val, by omega⟩ : Fin 192) (0 : Fin 1)))
  (hb2 : ∀ c : Fin 32, b2 (ix2 c (0 : Fin 1)) = BET (ix2 (⟨96 + c.val, by omega⟩ : Fin 192) (0 : Fin 1)))
  (hg3 : ∀ c : Fin 32, g3 (ix2 c (0 : Fin 1)) = GAM (ix2 (⟨128 + c.val, by omega⟩ : Fin 192) (0 : Fin 1)))
  (hb3 : ∀ c : Fin 32, b3 (ix2 c (0 : Fin 1)) = BET (ix2 (⟨128 + c.val, by omega⟩ : Fin 192) (0 : Fin 1)))
  (hg4 : ∀ c : Fin 32, g4 (ix2 c (0 : Fin 1)) = GAM (ix2 (⟨160 + c.val, by omega⟩ : Fin 192) (0 : Fin 1)))
  (hb4 : ∀ c : Fin 32, b4 (ix2 c (0 : Fin 1)) = BET (ix2 (⟨160 + c.val, by omega⟩ : Fin 192) (0 : Fin 1)))
  (hr0 : ∀ p : Fin 1024, r0 (ix2 (0 : Fin 1) p) = WMK (ix2 (0 : Fin 2) p))
  (hr1 : ∀ p : Fin 1024, r1 (ix2 (0 : Fin 1) p) = WMK (ix2 (1 : Fin 2) p))

include hx0 hx1 hx2 hx3 hx4 hg0 hb0 hg1 hb1 hg2 hb2 hg3 hb3 hg4 hb4 in
theorem actB_spec (ci : Fin 192) (b : Fin 8) (q : Fin 1024) :
    actB x0 x1 x2 x3 x4 Q0 Q1 Q2 Q3 Q4 g0 b0 g1 b1 g2 b2 g3 b3 g4 b4 ci b q
      = bnreluM (col GAM) (col BET) (S1A Q0 Q1 Q2 Q3 Q4) (S2A Q0 Q1 Q2 Q3 Q4) (XinA P0 P1 P2 P3 P4) (img t b) ci q := by
  rw [bnreluM_bnr]
  unfold actB
  by_cases h0 : ci.val < 64
  · rw [dif_pos h0]
    exact bnr_congr ((hx0 _ b q).trans (app5_0 (X0 := actCM P0) _ _ _ _ (img t b) ci q h0).symm)
      ((hg0 _).trans (congrArg (fun r => GAM (ix2 r (0 : Fin 1))) (Fin.ext rfl)))
      ((hb0 _).trans (congrArg (fun r => BET (ix2 r (0 : Fin 1))) (Fin.ext rfl)))
      (appV5_0 (u0 := mom3 Q0 0) _ _ _ _ ci h0).symm (appV5_0 (u0 := mom3 Q0 1) _ _ _ _ ci h0).symm
  · rw [dif_neg h0]
    by_cases h1 : ci.val < 96
    · rw [dif_pos h1]
      exact bnr_congr ((hx1 _ b q).trans (app5_1 (X1 := actCM P1) _ _ _ _ (img t b) ci q (by omega) h1).symm)
        ((hg1 _).trans (congrArg (fun r => GAM (ix2 r (0 : Fin 1))) (Fin.ext (by show 64 + (ci.val - 64) = ci.val; omega))))
        ((hb1 _).trans (congrArg (fun r => BET (ix2 r (0 : Fin 1))) (Fin.ext (by show 64 + (ci.val - 64) = ci.val; omega))))
        (appV5_1 (u1 := mom3 Q1 0) _ _ _ _ ci (by omega) h1).symm (appV5_1 (u1 := mom3 Q1 1) _ _ _ _ ci (by omega) h1).symm
    · rw [dif_neg h1]
      by_cases h2 : ci.val < 128
      · rw [dif_pos h2]
        exact bnr_congr ((hx2 _ b q).trans (app5_2 (X2 := actCM P2) _ _ _ _ (img t b) ci q (by omega) h2).symm)
          ((hg2 _).trans (congrArg (fun r => GAM (ix2 r (0 : Fin 1))) (Fin.ext (by show 96 + (ci.val - 96) = ci.val; omega))))
          ((hb2 _).trans (congrArg (fun r => BET (ix2 r (0 : Fin 1))) (Fin.ext (by show 96 + (ci.val - 96) = ci.val; omega))))
          (appV5_2 (u2 := mom3 Q2 0) _ _ _ _ ci (by omega) h2).symm (appV5_2 (u2 := mom3 Q2 1) _ _ _ _ ci (by omega) h2).symm
      · rw [dif_neg h2]
        by_cases h3 : ci.val < 160
        · rw [dif_pos h3]
          exact bnr_congr ((hx3 _ b q).trans (app5_3 (X3 := actCM P3) _ _ _ _ (img t b) ci q (by omega) h3).symm)
            ((hg3 _).trans (congrArg (fun r => GAM (ix2 r (0 : Fin 1))) (Fin.ext (by show 128 + (ci.val - 128) = ci.val; omega))))
            ((hb3 _).trans (congrArg (fun r => BET (ix2 r (0 : Fin 1))) (Fin.ext (by show 128 + (ci.val - 128) = ci.val; omega))))
            (appV5_3 (u3 := mom3 Q3 0) _ _ _ _ ci (by omega) h3).symm (appV5_3 (u3 := mom3 Q3 1) _ _ _ _ ci (by omega) h3).symm
        · rw [dif_neg h3]
          exact bnr_congr ((hx4 _ b q).trans (app5_4 (X4 := actCM P4) _ _ _ _ (img t b) ci q (by omega)).symm)
            ((hg4 _).trans (congrArg (fun r => GAM (ix2 r (0 : Fin 1))) (Fin.ext (by show 160 + (ci.val - 160) = ci.val; omega))))
            ((hb4 _).trans (congrArg (fun r => BET (ix2 r (0 : Fin 1))) (Fin.ext (by show 160 + (ci.val - 160) = ci.val; omega))))
            (appV5_4 (u4 := mom3 Q4 0) _ _ _ _ ci (by omega)).symm (appV5_4 (u4 := mom3 Q4 1) _ _ _ _ ci (by omega)).symm

include hx0 hx1 hx2 hx3 hx4 hg0 hb0 hg1 hb1 hg2 hb2 hg3 hb3 hg4 hb4 hr0 hr1 in
theorem bodyY_spec (o : Fin 32) (b : Fin 8) (p : Fin 1024) :
    bodyY x0 x1 x2 x3 x4 Q0 Q1 Q2 Q3 Q4 g0 b0 g1 b1 g2 b2 g3 b3 g4 b4 r0 r1 WTS (ix3 o b p)
      = YspecA P0 P1 P2 P3 P4 Q0 Q1 Q2 Q3 Q4 GAM BET WMK WTS (img t b) o p := by
  rw [bodyY_apply]
  unfold YspecA convTaps
  refine Finset.sum_congr rfl fun kh _ => Finset.sum_congr rfl fun kw _ => congrArg₂ (· * ·) ?_ ?_
  · show shiftRead (tapAct x0 x1 x2 x3 x4 Q0 Q1 Q2 Q3 Q4 g0 b0 g1 b1 g2 b2 g3 b3 g4 b4 WTS o b kh kw) (tapOff kh kw) p = _
    refine congrArg (fun f => shiftRead f (tapOff kh kw) p) (funext fun q => Finset.sum_congr rfl fun ci _ => ?_)
    exact congrArg (wTapMajor WTS o ci kh kw * ·)
      (actB_spec P0 P1 P2 P3 P4 Q0 Q1 Q2 Q3 Q4 GAM BET t x0 x1 x2 x3 x4 g0 b0 g1 b1 g2 b2 g3 b3 g4 b4
        hx0 hx1 hx2 hx3 hx4 hg0 hb0 hg1 hb1 hg2 hb2 hg3 hb3 hg4 hb4 ci b q)
  · unfold tapMask' tapMask maskRows
    rw [hr0, hr1]

end Math

def blkS1 (Y : Act 32) (o : Fin 32) (j : ℕ) : EReal :=
  ∑ b : Fin 8, ∑ q : Fin 1024, if h : j * 8 + b.val < 128 then Y ⟨j * 8 + b.val, h⟩ o q else 0
def blkS2 (Y : Act 32) (o : Fin 32) (j : ℕ) : EReal :=
  ∑ b : Fin 8, ∑ q : Fin 1024, if h : j * 8 + b.val < 128 then Y ⟨j * 8 + b.val, h⟩ o q * Y ⟨j * 8 + b.val, h⟩ o q else 0

theorem blkS1_fin (Y : Act 32) (o : Fin 32) (t : Fin 16) : blkS1 Y o t.val = ∑ b : Fin 8, ∑ q : Fin 1024, Y (img t b) o q :=
  Finset.sum_congr rfl fun b _ => Finset.sum_congr rfl fun q _ => dif_pos (by have := t.isLt; have := b.isLt; omega)

theorem blkS2_fin (Y : Act 32) (o : Fin 32) (t : Fin 16) :
    blkS2 Y o t.val = ∑ b : Fin 8, ∑ q : Fin 1024, Y (img t b) o q * Y (img t b) o q :=
  Finset.sum_congr rfl fun b _ => Finset.sum_congr rfl fun q _ => dif_pos (by have := t.isLt; have := b.isLt; omega)

theorem sum1_blocks (Y : Act 32) (o : Fin 32) : sum1 Y o = ∑ j ∈ Finset.range 16, blkS1 Y o j := by
  unfold sum1
  rw [Cert.SpecAlg.sum_images_blocks (fun n => ∑ p : Fin 1024, Y n o p), ← Cert.SpecAlg.sum_fin_eq_range 16 (blkS1 Y o)]
  exact Finset.sum_congr rfl fun t _ => (blkS1_fin Y o t).symm

theorem sum2_blocks (Y : Act 32) (o : Fin 32) : sum2 Y o = ∑ j ∈ Finset.range 16, blkS2 Y o j := by
  unfold sum2
  rw [Cert.SpecAlg.sum_images_blocks (fun n => ∑ p : Fin 1024, Y n o p * Y n o p), ← Cert.SpecAlg.sum_fin_eq_range 16 (blkS2 Y o)]
  exact Finset.sum_congr rfl fun t _ => (blkS2_fin Y o t).symm

end Cert.K5

namespace Cert.K5

open Cert.KernelIdeal Cert.KernelIdeal.Gen Cert.Spec Cert.Views Idealize.ShloMosaic Idealize.ShloMosaic.ValueIdx

abbrev rows0 (x : Vec Ideal S192x1 .f32) : Vec Ideal S64x1 .f32 :=
  View.ld x (Rect.unit (s := S192x1) ![0, 0] S64x1.size inb_S192x1_S64x1_0_0)
abbrev rows64 (x : Vec Ideal S192x1 .f32) : Vec Ideal S32x1 .f32 :=
  View.ld x (Rect.unit (s := S192x1) ![64, 0] S32x1.size inb_S192x1_S32x1_64_0)
abbrev rows96 (x : Vec Ideal S192x1 .f32) : Vec Ideal S32x1 .f32 :=
  View.ld x (Rect.unit (s := S192x1) ![96, 0] S32x1.size inb_S192x1_S32x1_96_0)
abbrev rows128 (x : Vec Ideal S192x1 .f32) : Vec Ideal S32x1 .f32 :=
  View.ld x (Rect.unit (s := S192x1) ![128, 0] S32x1.size inb_S192x1_S32x1_128_0)
abbrev rows160 (x : Vec Ideal S192x1 .f32) : Vec Ideal S32x1 .f32 :=
  View.ld x (Rect.unit (s := S192x1) ![160, 0] S32x1.size inb_S192x1_S32x1_160_0)
abbrev mrow0 (x : Vec Ideal S2x1024 .f32) : Vec Ideal S1x1024 .f32 :=
  View.ld x (Rect.unit (s := S2x1024) ![0, 0] S1x1024.size inb_S2x1024_S1x1024_0_0)
abbrev mrow1 (x : Vec Ideal S2x1024 .f32) : Vec Ideal S1x1024 .f32 :=
  View.ld x (Rect.unit (s := S2x1024) ![1, 0] S1x1024.size inb_S2x1024_S1x1024_1_0)

theorem rows_apply {C : ℕ} (o : ℕ) (x : Vec Ideal S192x1 .f32) (inb) (c : Fin C) (r : Fin 192) (hr : r.val = o + c.val) :
    View.ld x (Rect.unit (s := S192x1) ![o, 0] (⟨2, ![C, 1]⟩ : Shape).size inb) (ix2 c (0 : Fin 1)) = x (ix2 r (0 : Fin 1)) :=
  Cert.ConvRows.at_congr x fun a => by
    match a with
    | ⟨0, _⟩ => show o + 1 * c.val = r.val; omega
    | ⟨1, _⟩ => rfl

theorem rows0_apply (x : Vec Ideal S192x1 .f32) (c : Fin 64) :
    rows0 x (ix2 c (0 : Fin 1)) = x (ix2 (⟨c.val, by omega⟩ : Fin 192) (0 : Fin 1)) :=
  rows_apply 0 x _ c _ (Nat.zero_add _).symm

theorem rows64_apply (x : Vec Ideal S192x1 .f32) (c : Fin 32) :
    rows64 x (ix2 c (0 : Fin 1)) = x (ix2 (⟨64 + c.val, by omega⟩ : Fin 192) (0 : Fin 1)) :=
  rows_apply 64 x _ c _ rfl

theorem rows96_apply (x : Vec Ideal S192x1 .f32) (c : Fin 32) :
    rows96 x (ix2 c (0 : Fin 1)) = x (ix2 (⟨96 + c.val, by omega⟩ : Fin 192) (0 : Fin 1)) :=
  rows_apply 96 x _ c _ rfl

theorem rows128_apply (x : Vec Ideal S192x1 .f32) (c : Fin 32) :
    rows128 x (ix2 c (0 : Fin 1)) = x (ix2 (⟨128 + c.val, by omega⟩ : Fin 192) (0 : Fin 1)) :=
  rows_apply 128 x _ c _ rfl

theorem rows160_apply (x : Vec Ideal S192x1 .f32) (c : Fin 32) :
    rows160 x (ix2 c (0 : Fin 1)) = x (ix2 (⟨160 + c.val, by omega⟩ : Fin 192) (0 : Fin 1)) :=
  rows_apply 160 x _ c _ rfl

theorem mrow0_apply (x : Vec Ideal S2x1024 .f32) (p : Fin 1024) :
    mrow0 x (ix2 (0 : Fin 1) p) = x (ix2 (0 : Fin 2) p) :=
  Cert.ConvRows.ld_row x 0 _ p 0 rfl

theorem mrow1_apply (x : Vec Ideal S2x1024 .f32) (p : Fin 1024) :
    mrow1 x (ix2 (0 : Fin 1) p) = x (ix2 (1 : Fin 2) p) :=
  Cert.ConvRows.ld_row x 1 _ p 1 rfl

section OnBuffers
variable (x0 : Vec Ideal S64x8x1024 .bf16) (x1 x2 x3 x4 : Vec Ideal S32x8x1024 .bf16)
  (x5 : Vec Ideal S1x64x2 .f32) (x6 x7 x8 x9 : Vec Ideal S1x32x2 .f32)
  (x10 x11 : Vec Ideal S192x1 .f32) (x12 : Vec Ideal S2x1024 .f32) (x13 : Vec Ideal S288x192 .f32)

def bodyZB : FVec Ideal S288x8x1024 .f32 :=
  bodyZ x0 x1 x2 x3 x4 x5 x6 x7 x8 x9 (rows0 x10) (rows0 x11) (rows64 x10) (rows64 x11) (rows96 x10) (rows96 x11)
    (rows128 x10) (rows128 x11) (rows160 x10) (rows160 x11) x13

def bodyB : FVec Ideal S32x8x1024 .f32 :=
  bodyY x0 x1 x2 x3 x4 x5 x6 x7 x8 x9 (rows0 x10) (rows0 x11) (rows64 x10) (rows64 x11) (rows96 x10) (rows96 x11)
    (rows128 x10) (rows128 x11) (rows160 x10) (rows160 x11) (mrow0 x12) (mrow1 x12) x13

def accB (acc : Vec Ideal S1x32x2 .f32) : FVec Ideal S1x32x2 .f32 :=
  k5_pay4 (F := Ideal) (bodyZB x0 x1 x2 x3 x4 x5 x6 x7 x8 x9 x10 x11 x13) (k5_pay21 (mrow1 x12))
    (k5_pay22 (bodyZB x0 x1 x2 x3 x4 x5 x6 x7 x8 x9 x10 x11 x13) (k5_pay20 (mrow0 x12)) (mrow1 x12))
    (k5_pay23 (bodyZB x0 x1 x2 x3 x4 x5 x6 x7 x8 x9 x10 x11 x13)) acc

theorem accB_apply (acc : Vec Ideal S1x32x2 .f32) (o : Fin 32) (k : Fin 2) :
    accB x0 x1 x2 x3 x4 x5 x6 x7 x8 x9 x10 x11 x12 x13 acc (ix3 (0 : Fin 1) o k)
      = acc (ix3 (0 : Fin 1) o k)
        + (if k.val = 0 then ∑ b : Fin 8, ∑ q : Fin 1024, bodyB x0 x1 x2 x3 x4 x5 x6 x7 x8 x9 x10 x11 x12 x13 (ix3 o b q)
           else ∑ b : Fin 8, ∑ q : Fin 1024,
             bodyB x0 x1 x2 x3 x4 x5 x6 x7 x8 x9 x10 x11 x12 x13 (ix3 o b q)
               * bodyB x0 x1 x2 x3 x4 x5 x6 x7 x8 x9 x10 x11 x12 x13 (ix3 o b q)) :=
  pay4_apply _ _ _ _ acc (0 : Fin 1) o k

end OnBuffers

end Cert.K5

end
-- ==== Proof.K5.lean ====
import proofs.«136216_g2000306190186476_pallasbulk_240_40_alg».proof.Proof.FrameK
import proofs.«136216_g2000306190186476_pallasbulk_240_40_alg».proof.Proof.K5Math
import Idealize.ShloMosaic.Lib.ValueIdx
import Idealize.ShloMosaic.Lib.Pipeline.Value
import Idealize.ShloMosaic.PureOps.Ideal.Laws

set_option maxRecDepth 16384

noncomputable section

namespace Cert.K5

open Cert.KernelIdeal Cert.KernelIdeal.Gen Cert.KernelIdeal.GenP Cert.Spec Cert.Views Idealize.ShloMosaic Idealize.ShloMosaic.TcCoe Idealize.ShloMosaic.ValueIdx Idealize.SL.Sem Idealize.ShloMosaic.Tactic
open Idealize.ShloMosaic.Pipeline (Dat Cfg Window)

open Cert.ConvRows (hz2 hz3)

/-- A later point stores the new channels computed from its blocks. -/
theorem outB14 (c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xo15) :
    out5_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xo15
      = truncf .bf16 (bodyB x0 x1 x2 x3 x4 x5 x6 x7 x8 x9 x10 x11 x12 x13) bitsLt_bf16_f32 := by
  unfold out5_B_14
  rw [View.read_writes_eq_canon _ _ _ (fun y => cover5_B_14 (y := y) ..)]
  unfold kernelRun5_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S64x8x1024) hz3, View.ld_unit_zero (S := S32x8x1024) hz3, View.ld_unit_zero (S := S1x64x2) hz3, View.ld_unit_zero (S := S1x32x2) hz3, View.ld_unit_zero (S := S288x192) hz2] <;> rfl

theorem outA14 (c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13) :
    out5_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13
      = truncf .bf16 (bodyB x0 x1 x2 x3 x4 x5 x6 x7 x8 x9 x10 x11 x12 x13) bitsLt_bf16_f32 := by
  unfold out5_A_14
  rw [View.read_writes_eq_canon _ _ _ (fun y => cover5_A_14 (y := y) ..)]
  unfold kernelRun5_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S64x8x1024) hz3, View.ld_unit_zero (S := S32x8x1024) hz3, View.ld_unit_zero (S := S1x64x2) hz3, View.ld_unit_zero (S := S1x32x2) hz3, View.ld_unit_zero (S := S288x192) hz2] <;> rfl

/-- A later point adds its blocks' two moments onto the table it found. -/
theorem outB15 (c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xo15) :
    out5_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xo15
      = accB x0 x1 x2 x3 x4 x5 x6 x7 x8 x9 x10 x11 x12 x13 xo15 := by
  unfold out5_B_15
  rw [View.read_writes_eq_canon _ _ _ (fun y => cover5_B_15 (y := y) ..)]
  unfold kernelRun5_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S64x8x1024) hz3, View.ld_unit_zero (S := S32x8x1024) hz3, View.ld_unit_zero (S := S1x64x2) hz3, View.ld_unit_zero (S := S1x32x2) hz3, View.ld_unit_zero (S := S288x192) hz2] <;> rfl

/-- The first point adds them onto zeros. -/
theorem outA15 (c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13) :
    out5_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13
      = accB x0 x1 x2 x3 x4 x5 x6 x7 x8 x9 x10 x11 x12 x13 (k5_pay3 (F := Ideal)) := by
  unfold out5_A_15
  rw [View.read_writes_eq_canon _ _ _ (fun y => cover5_A_15 (y := y) ..)]
  unfold kernelRun5_A
  dsimp only
  sl_unfold_words
  rw [View.canon_cons_unit_zero (S := S1x32x2) hz3, View.readCov_unit_zero (S := S1x32x2) _ hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S64x8x1024) hz3, View.ld_unit_zero (S := S32x8x1024) hz3, View.ld_unit_zero (S := S1x64x2) hz3, View.ld_unit_zero (S := S1x32x2) hz3, View.ld_unit_zero (S := S288x192) hz2] <;> rfl

variable (V : (c : Dev nD) → (b : Ref sig .tc) → Buf (Elt Ideal) ((c : Thread nD τ).loc b))

abbrev p0 (c : Dev nD) : Vec Ideal S64x128x1024 .bf16 := V c main_v11_0
abbrev p1 (c : Dev nD) : Vec Ideal S32x128x1024 .bf16 := V c main_v16_0
abbrev p2 (c : Dev nD) : Vec Ideal S32x128x1024 .bf16 := V c main_v21_0
abbrev p3 (c : Dev nD) : Vec Ideal S32x128x1024 .bf16 := V c main_v26_0
abbrev p4 (c : Dev nD) : Vec Ideal S32x128x1024 .bf16 := V c main_v31_0
abbrev q0 (c : Dev nD) : Vec Ideal S1x64x2 .f32 := V c main_v11_1
abbrev q1 (c : Dev nD) : Vec Ideal S1x32x2 .f32 := V c main_v16_1
abbrev q2 (c : Dev nD) : Vec Ideal S1x32x2 .f32 := V c main_v21_1
abbrev q3 (c : Dev nD) : Vec Ideal S1x32x2 .f32 := V c main_v26_1
abbrev q4 (c : Dev nD) : Vec Ideal S1x32x2 .f32 := V c main_v31_1
abbrev gam (c : Dev nD) : Vec Ideal S192x1 .f32 := V c main_v34
abbrev bet (c : Dev nD) : Vec Ideal S192x1 .f32 := V c main_v35
abbrev wmk (c : Dev nD) : Vec Ideal S2x1024 .f32 := V c main_v10
abbrev wts (c : Dev nD) : Vec Ideal S288x192 .f32 := V c main_v33

def Xin (c : Dev nD) : Act 192 :=
  appendCh (appendCh (appendCh (appendCh (actCM (p0 V c)) (actCM (p1 V c))) (actCM (p2 V c))) (actCM (p3 V c))) (actCM (p4 V c))
def S1in (c : Dev nD) : Fin 192 → EReal :=
  appendV (appendV (appendV (appendV (mom3 (q0 V c) 0) (mom3 (q1 V c) 0)) (mom3 (q2 V c) 0)) (mom3 (q3 V c) 0)) (mom3 (q4 V c) 0)
def S2in (c : Dev nD) : Fin 192 → EReal :=
  appendV (appendV (appendV (appendV (mom3 (q0 V c) 1) (mom3 (q1 V c) 1)) (mom3 (q2 V c) 1)) (mom3 (q3 V c) 1)) (mom3 (q4 V c) 1)
def Yspec (c : Dev nD) : Act 32 :=
  convTaps (wTapMajor (wts V c)) (maskRows (wmk V c))
    (bnreluM (col (gam V c)) (col (bet V c)) (S1in V c) (S2in V c) (Xin V c))

abbrev yOut (c : Dev nD) : Vec Ideal S32x128x1024 .bf16 := (dat5 V c).arrAt 14 cfg5.N
abbrev mOut (c : Dev nD) : Vec Ideal S1x32x2 .f32 := (dat5 V c).arrAt 15 cfg5.N

theorem Yspec_eq (c : Dev nD) :
    Yspec V c = YspecA (p0 V c) (p1 V c) (p2 V c) (p3 V c) (p4 V c) (q0 V c) (q1 V c) (q2 V c) (q3 V c) (q4 V c)
      (gam V c) (bet V c) (wmk V c) (wts V c) := rfl

abbrev xb0 (c : Dev nD) (t : Fin cfg5.N) : Vec Ideal S64x8x1024 .bf16 := iblk5 V c 0 t
abbrev xb1 (c : Dev nD) (t : Fin cfg5.N) : Vec Ideal S32x8x1024 .bf16 := iblk5 V c 1 t
abbrev xb2 (c : Dev nD) (t : Fin cfg5.N) : Vec Ideal S32x8x1024 .bf16 := iblk5 V c 2 t
abbrev xb3 (c : Dev nD) (t : Fin cfg5.N) : Vec Ideal S32x8x1024 .bf16 := iblk5 V c 3 t
abbrev xb4 (c : Dev nD) (t : Fin cfg5.N) : Vec Ideal S32x8x1024 .bf16 := iblk5 V c 4 t
abbrev mb0 (c : Dev nD) (t : Fin cfg5.N) : Vec Ideal S1x64x2 .f32 := iblk5 V c 5 t
abbrev mb1 (c : Dev nD) (t : Fin cfg5.N) : Vec Ideal S1x32x2 .f32 := iblk5 V c 6 t
abbrev mb2 (c : Dev nD) (t : Fin cfg5.N) : Vec Ideal S1x32x2 .f32 := iblk5 V c 7 t
abbrev mb3 (c : Dev nD) (t : Fin cfg5.N) : Vec Ideal S1x32x2 .f32 := iblk5 V c 8 t
abbrev mb4 (c : Dev nD) (t : Fin cfg5.N) : Vec Ideal S1x32x2 .f32 := iblk5 V c 9 t
abbrev gb (c : Dev nD) (t : Fin cfg5.N) : Vec Ideal S192x1 .f32 := iblk5 V c 10 t
abbrev bb (c : Dev nD) (t : Fin cfg5.N) : Vec Ideal S192x1 .f32 := iblk5 V c 11 t
abbrev kb (c : Dev nD) (t : Fin cfg5.N) : Vec Ideal S2x1024 .f32 := iblk5 V c 12 t
abbrev wb (c : Dev nD) (t : Fin cfg5.N) : Vec Ideal S288x192 .f32 := iblk5 V c 13 t

theorem idxAct : ∀ t : Fin cfg5.N,
    (win5_0.index t (0 : Fin 3) = 0 ∧ win5_0.index t (1 : Fin 3) = t.val ∧ win5_0.index t (2 : Fin 3) = 0)
    ∧ (win5_1.index t (0 : Fin 3) = 0 ∧ win5_1.index t (1 : Fin 3) = t.val ∧ win5_1.index t (2 : Fin 3) = 0)
    ∧ (win5_2.index t (0 : Fin 3) = 0 ∧ win5_2.index t (1 : Fin 3) = t.val ∧ win5_2.index t (2 : Fin 3) = 0)
    ∧ (win5_3.index t (0 : Fin 3) = 0 ∧ win5_3.index t (1 : Fin 3) = t.val ∧ win5_3.index t (2 : Fin 3) = 0)
    ∧ (win5_4.index t (0 : Fin 3) = 0 ∧ win5_4.index t (1 : Fin 3) = t.val ∧ win5_4.index t (2 : Fin 3) = 0)
    ∧ (win5_14.index t (0 : Fin 3) = 0 ∧ win5_14.index t (1 : Fin 3) = t.val ∧ win5_14.index t (2 : Fin 3) = 0) :=
  (by decide +kernel : ∀ t : Fin grid5.N, _)

theorem idxMom : ∀ (t : Fin cfg5.N) (a : Fin 3), win5_5.index t a = 0 ∧ win5_6.index t a = 0 ∧ win5_7.index t a = 0
    ∧ win5_8.index t a = 0 ∧ win5_9.index t a = 0 ∧ win5_15.index t a = 0 :=
  (by decide +kernel : ∀ (t : Fin grid5.N) (a : Fin 3), _)

theorem idxPar : ∀ (t : Fin cfg5.N) (a : Fin 2), win5_10.index t a = 0 ∧ win5_11.index t a = 0 ∧ win5_12.index t a = 0
    ∧ win5_13.index t a = 0 :=
  (by decide +kernel : ∀ (t : Fin grid5.N) (a : Fin 2), _)

/-- Point t's block of an activation array holds its images 8 t … 8 t + 7. -/
theorem xb0_apply (c : Dev nD) (t : Fin cfg5.N) (ch : Fin 64) (b : Fin 8) (q : Fin 1024) (n : Fin 128)
    (hn : n.val = t.val * 8 + b.val) : xb0 V c t (ix3 ch b q) = p0 V c (ix3 ch n q) := by
  obtain ⟨⟨e0, e1, e2⟩, -⟩ := idxAct t
  unfold xb0 iblk5
  rw [View.read_apply]
  show V c main_v11_0 _ = V c main_v11_0 _
  congr 1
  funext a; apply Fin.ext
  match a with
  | ⟨0, _⟩ => show win5_0.index t 0 * 64 + 1 * ch.val = ch.val; rw [e0]; omega
  | ⟨1, _⟩ => show win5_0.index t 1 * 8 + 1 * b.val = n.val; rw [e1, hn]; omega
  | ⟨2, _⟩ => show win5_0.index t 2 * 1024 + 1 * q.val = q.val; rw [e2]; omega

theorem xb1_apply (c : Dev nD) (t : Fin cfg5.N) (ch : Fin 32) (b : Fin 8) (q : Fin 1024) (n : Fin 128)
    (hn : n.val = t.val * 8 + b.val) : xb1 V c t (ix3 ch b q) = p1 V c (ix3 ch n q) := by
  obtain ⟨-, ⟨e0, e1, e2⟩, -⟩ := idxAct t
  unfold xb1 iblk5
  rw [View.read_apply]
  show V c main_v16_0 _ = V c main_v16_0 _
  congr 1
  funext a; apply Fin.ext
  match a with
  | ⟨0, _⟩ => show win5_1.index t 0 * 32 + 1 * ch.val = ch.val; rw [e0]; omega
  | ⟨1, _⟩ => show win5_1.index t 1 * 8 + 1 * b.val = n.val; rw [e1, hn]; omega
  | ⟨2, _⟩ => show win5_1.index t 2 * 1024 + 1 * q.val = q.val; rw [e2]; omega

theorem xb2_apply (c : Dev nD) (t : Fin cfg5.N) (ch : Fin 32) (b : Fin 8) (q : Fin 1024) (n : Fin 128)
    (hn : n.val = t.val * 8 + b.val) : xb2 V c t (ix3 ch b q) = p2 V c (ix3 ch n q) := by
  obtain ⟨-, -, ⟨e0, e1, e2⟩, -⟩ := idxAct t
  unfold xb2 iblk5
  rw [View.read_apply]
  show V c main_v21_0 _ = V c main_v21_0 _
  congr 1
  funext a; apply Fin.ext
  match a with
  | ⟨0, _⟩ => show win5_2.index t 0 * 32 + 1 * ch.val = ch.val; rw [e0]; omega
  | ⟨1, _⟩ => show win5_2.index t 1 * 8 + 1 * b.val = n.val; rw [e1, hn]; omega
  | ⟨2, _⟩ => show win5_2.index t 2 * 1024 + 1 * q.val = q.val; rw [e2]; omega

theorem xb3_apply (c : Dev nD) (t : Fin cfg5.N) (ch : Fin 32) (b : Fin 8) (q : Fin 1024) (n : Fin 128)
    (hn : n.val = t.val * 8 + b.val) : xb3 V c t (ix3 ch b q) = p3 V c (ix3 ch n q) := by
  obtain ⟨-, -, -, ⟨e0, e1, e2⟩, -⟩ := idxAct t
  unfold xb3 iblk5
  rw [View.read_apply]
  show V c main_v26_0 _ = V c main_v26_0 _
  congr 1
  funext a; apply Fin.ext
  match a with
  | ⟨0, _⟩ => show win5_3.index t 0 * 32 + 1 * ch.val = ch.val; rw [e0]; omega
  | ⟨1, _⟩ => show win5_3.index t 1 * 8 + 1 * b.val = n.val; rw [e1, hn]; omega
  | ⟨2, _⟩ => show win5_3.index t 2 * 1024 + 1 * q.val = q.val; rw [e2]; omega

theorem xb4_apply (c : Dev nD) (t : Fin cfg5.N) (ch : Fin 32) (b : Fin 8) (q : Fin 1024) (n : Fin 128)
    (hn : n.val = t.val * 8 + b.val) : xb4 V c t (ix3 ch b q) = p4 V c (ix3 ch n q) := by
  obtain ⟨-, -, -, -, ⟨e0, e1, e2⟩, -⟩ := idxAct t
  unfold xb4 iblk5
  rw [View.read_apply]
  show V c main_v31_0 _ = V c main_v31_0 _
  congr 1
  funext a; apply Fin.ext
  match a with
  | ⟨0, _⟩ => show win5_4.index t 0 * 32 + 1 * ch.val = ch.val; rw [e0]; omega
  | ⟨1, _⟩ => show win5_4.index t 1 * 8 + 1 * b.val = n.val; rw [e1, hn]; omega
  | ⟨2, _⟩ => show win5_4.index t 2 * 1024 + 1 * q.val = q.val; rw [e2]; omega

/-- A block at block index zero that is as large as its array reads the array. -/
theorem mb0_eq (c : Dev nD) (t : Fin cfg5.N) : mb0 V c t = q0 V c := by
  funext j
  unfold mb0 iblk5
  rw [View.read_apply]
  exact congrArg (V c main_v11_1) (funext fun a => Fin.ext (win5_5.rect_emb_val_of_index_zero t a (idxMom t a).1 j))

theorem mb1_eq (c : Dev nD) (t : Fin cfg5.N) : mb1 V c t = q1 V c := by
  funext j
  unfold mb1 iblk5
  rw [View.read_apply]
  exact congrArg (V c main_v16_1) (funext fun a => Fin.ext (win5_6.rect_emb_val_of_index_zero t a (idxMom t a).2.1 j))

theorem mb2_eq (c : Dev nD) (t : Fin cfg5.N) : mb2 V c t = q2 V c := by
  funext j
  unfold mb2 iblk5
  rw [View.read_apply]
  exact congrArg (V c main_v21_1) (funext fun a => Fin.ext (win5_7.rect_emb_val_of_index_zero t a (idxMom t a).2.2.1 j))

theorem mb3_eq (c : Dev nD) (t : Fin cfg5.N) : mb3 V c t = q3 V c := by
  funext j
  unfold mb3 iblk5
  rw [View.read_apply]
  exact congrArg (V c main_v26_1) (funext fun a => Fin.ext (win5_8.rect_emb_val_of_index_zero t a (idxMom t a).2.2.2.1 j))

theorem mb4_eq (c : Dev nD) (t : Fin cfg5.N) : mb4 V c t = q4 V c := by
  funext j
  unfold mb4 iblk5
  rw [View.read_apply]
  exact congrArg (V c main_v31_1) (funext fun a => Fin.ext (win5_9.rect_emb_val_of_index_zero t a (idxMom t a).2.2.2.2.1 j))

theorem gb_eq (c : Dev nD) (t : Fin cfg5.N) : gb V c t = gam V c := by
  funext j
  unfold gb iblk5
  rw [View.read_apply]
  exact congrArg (V c main_v34) (funext fun a => Fin.ext (win5_10.rect_emb_val_of_index_zero t a (idxPar t a).1 j))

theorem bb_eq (c : Dev nD) (t : Fin cfg5.N) : bb V c t = bet V c := by
  funext j
  unfold bb iblk5
  rw [View.read_apply]
  exact congrArg (V c main_v35) (funext fun a => Fin.ext (win5_11.rect_emb_val_of_index_zero t a (idxPar t a).2.1 j))

theorem kb_eq (c : Dev nD) (t : Fin cfg5.N) : kb V c t = wmk V c := by
  funext j
  unfold kb iblk5
  rw [View.read_apply]
  exact congrArg (V c main_v10) (funext fun a => Fin.ext (win5_12.rect_emb_val_of_index_zero t a (idxPar t a).2.2.1 j))

theorem wb_eq (c : Dev nD) (t : Fin cfg5.N) : wb V c t = wts V c := by
  funext j
  unfold wb iblk5
  rw [View.read_apply]
  exact congrArg (V c main_v33) (funext fun a => Fin.ext (win5_13.rect_emb_val_of_index_zero t a (idxPar t a).2.2.2 j))

def tn (t : Fin cfg5.N) : Fin 16 := ⟨t.val, lt_of_lt_of_eq t.isLt N_5⟩

def Yb (c : Dev nD) (t : Fin cfg5.N) : FVec Ideal S32x8x1024 .f32 := bodyB (xb0 V c t) (xb1 V c t) (xb2 V c t) (xb3 V c t) (xb4 V c t) (mb0 V c t) (mb1 V c t) (mb2 V c t) (mb3 V c t) (mb4 V c t) (gb V c t) (bb V c t) (kb V c t) (wb V c t)

/-- What a point computes is the specification's layer output on the point's images. -/
theorem Yb_apply (c : Dev nD) (t : Fin cfg5.N) (o : Fin 32) (b : Fin 8) (p : Fin 1024) :
    Yb V c t (ix3 o b p) = Yspec V c (img (tn t) b) o p := by
  unfold Yb bodyB
  rw [Yspec_eq, mb0_eq, mb1_eq, mb2_eq, mb3_eq, mb4_eq, wb_eq]
  exact bodyY_spec (p0 V c) (p1 V c) (p2 V c) (p3 V c) (p4 V c) (q0 V c) (q1 V c) (q2 V c) (q3 V c) (q4 V c)
    (gam V c) (bet V c) (wmk V c) (wts V c) (tn t) (xb0 V c t) (xb1 V c t) (xb2 V c t) (xb3 V c t) (xb4 V c t)
    (rows0 (gb V c t)) (rows0 (bb V c t)) (rows64 (gb V c t)) (rows64 (bb V c t)) (rows96 (gb V c t)) (rows96 (bb V c t))
    (rows128 (gb V c t)) (rows128 (bb V c t)) (rows160 (gb V c t)) (rows160 (bb V c t)) (mrow0 (kb V c t)) (mrow1 (kb V c t))
    (fun ch b q => xb0_apply V c t ch b q (img (tn t) b) rfl)
    (fun ch b q => xb1_apply V c t ch b q (img (tn t) b) rfl)
    (fun ch b q => xb2_apply V c t ch b q (img (tn t) b) rfl)
    (fun ch b q => xb3_apply V c t ch b q (img (tn t) b) rfl)
    (fun ch b q => xb4_apply V c t ch b q (img (tn t) b) rfl)
    (fun ch => (rows0_apply (gb V c t) ch).trans (congrFun (gb_eq V c t) _))
    (fun ch => (rows0_apply (bb V c t) ch).trans (congrFun (bb_eq V c t) _))
    (fun ch => (rows64_apply (gb V c t) ch).trans (congrFun (gb_eq V c t) _))
    (fun ch => (rows64_apply (bb V c t) ch).trans (congrFun (bb_eq V c t) _))
    (fun ch => (rows96_apply (gb V c t) ch).trans (congrFun (gb_eq V c t) _))
    (fun ch => (rows96_apply (bb V c t) ch).trans (congrFun (bb_eq V c t) _))
    (fun ch => (rows128_apply (gb V c t) ch).trans (congrFun (gb_eq V c t) _))
    (fun ch => (rows128_apply (bb V c t) ch).trans (congrFun (bb_eq V c t) _))
    (fun ch => (rows160_apply (gb V c t) ch).trans (congrFun (gb_eq V c t) _))
    (fun ch => (rows160_apply (bb V c t) ch).trans (congrFun (bb_eq V c t) _))
    (fun p => (mrow0_apply (kb V c t) p).trans (congrFun (kb_eq V c t) _))
    (fun p => (mrow1_apply (kb V c t) p).trans (congrFun (kb_eq V c t) _))
    o b p

theorem Yb_sum1 (c : Dev nD) (t : Fin cfg5.N) (o : Fin 32) :
    (∑ b : Fin 8, ∑ q : Fin 1024, Yb V c t (ix3 o b q)) = blkS1 (Yspec V c) o t.val :=
  (Finset.sum_congr rfl fun b _ => Finset.sum_congr rfl fun q _ => Yb_apply V c t o b q).trans
    (blkS1_fin (Yspec V c) o (tn t)).symm

theorem Yb_sum2 (c : Dev nD) (t : Fin cfg5.N) (o : Fin 32) :
    (∑ b : Fin 8, ∑ q : Fin 1024, Yb V c t (ix3 o b q) * Yb V c t (ix3 o b q)) = blkS2 (Yspec V c) o t.val :=
  (Finset.sum_congr rfl fun b _ => Finset.sum_congr rfl fun q _ => by rw [Yb_apply]).trans
    (blkS2_fin (Yspec V c) o (tn t)).symm

theorem out14_eq (c : Dev nD) (t : Fin cfg5.N) :
    (outsAt5 V c t.val t.isLt).1 = truncf .bf16 (Yb V c t) bitsLt_bf16_f32 := by
  by_cases h0 : t.val % 16 = 0
  · rw [outsAt5_A V c t h0]
    dsimp only
    exact outA14 ..
  · rw [outsAt5_B V c t h0]
    dsimp only
    exact outB14 ..

/-- After point n the table holds the moments' shares of blocks 0 … n. -/
theorem acc_inv (c : Dev nD) (o : Fin 32) : ∀ (n : ℕ) (hn : n < cfg5.N),
    (outsAt5 V c n hn).2 (ix3 (0 : Fin 1) o (0 : Fin 2)) = ∑ j ∈ Finset.range (n + 1), blkS1 (Yspec V c) o j
    ∧ (outsAt5 V c n hn).2 (ix3 (0 : Fin 1) o (1 : Fin 2)) = ∑ j ∈ Finset.range (n + 1), blkS2 (Yspec V c) o j
  | 0, hn => by
    have e := outsAt5_A V c ⟨0, hn⟩ rfl
    dsimp only at e
    rw [e]
    dsimp only
    rw [outA15 ..]
    rw [accB_apply, accB_apply, if_pos (show (0 : Fin 2).val = 0 from rfl), if_neg (show ¬(1 : Fin 2).val = 0 by decide),
      pay3_apply, pay3_apply, Finset.sum_range_succ (blkS1 (Yspec V c) o) 0, Finset.sum_range_succ (blkS2 (Yspec V c) o) 0,
      Finset.sum_range_zero, Finset.sum_range_zero]
    simp only [zero_add]
    exact ⟨Yb_sum1 V c ⟨0, hn⟩ o, Yb_sum2 V c ⟨0, hn⟩ o⟩
  | n + 1, hn => by
    have hN : cfg5.N = 16 := N_5
    have hB : ¬(n + 1) % 16 = 0 := by omega
    have e : outsAt5 V c (n + 1) hn = _ := dif_neg hB
    rw [e]
    dsimp only
    rw [outB15 ..]
    rw [accB_apply, accB_apply, if_pos (show (0 : Fin 2).val = 0 from rfl), if_neg (show ¬(1 : Fin 2).val = 0 by decide),
      (acc_inv c o n (Nat.lt_of_succ_lt hn)).1, (acc_inv c o n (Nat.lt_of_succ_lt hn)).2,
      Finset.sum_range_succ (blkS1 (Yspec V c) o) (n + 1), Finset.sum_range_succ (blkS2 (Yspec V c) o) (n + 1)]
    exact ⟨congrArg (_ + ·) (Yb_sum1 V c ⟨n + 1, hn⟩ o), congrArg (_ + ·) (Yb_sum2 V c ⟨n + 1, hn⟩ o)⟩

def G14 (c : Dev nD) : Vec Ideal S32x128x1024 .bf16 := fun i => Yspec V c (i 1) (i 0) (i 2)

def G15 (c : Dev nD) : Vec Ideal S1x32x2 .f32 := fun i =>
  if (i 2).val = 0 then sum1 (Yspec V c) (i 1) else sum2 (Yspec V c) (i 1)

/-- Point t's block of the new channels is its block of the specification's tensor. -/
theorem flushed14 (c : Dev nD) (t : Fin cfg5.N) :
    (dat5 V c).flushed 14 t = ((cfg5.win 14).blk t).view.read (Elt Ideal) (G14 V c) := by
  obtain ⟨-, -, -, -, -, ⟨e0, e1, e2⟩⟩ := idxAct t
  show (cfg5.win 14).cut (grid5.coords t) ((dat5 V c).after 14 t) = _
  rw [after5_14, out14_eq]
  refine funext fun (y : S32x8x1024.Idx) => ?_
  obtain ⟨o, b, q, rfl⟩ : ∃ (o : Fin 32) (b : Fin 8) (q : Fin 1024), y = ix3 o b q := ⟨y 0, y 1, y 2, eq_ix3 y⟩
  have he : (((cfg5.win 14).blk t).view.emb (ix3 o b q) : S32x128x1024.Idx) = ix3 o (img (tn t) b) q := by
    funext a; apply Fin.ext
    match a with
    | ⟨0, _⟩ => show win5_14.index t 0 * 32 + 1 * o.val = o.val; rw [e0]; omega
    | ⟨1, _⟩ => show win5_14.index t 1 * 8 + 1 * b.val = t.val * 8 + b.val; rw [e1]; omega
    | ⟨2, _⟩ => show win5_14.index t 2 * 1024 + 1 * q.val = q.val; rw [e2]; omega
  show Yb V c t (ix3 o b q) = G14 V c (((cfg5.win 14).blk t).view.emb (ix3 o b q))
  rw [he]
  exact Yb_apply V c t o b q

theorem mem_blk14 (t : Fin cfg5.N) (i : S32x128x1024.Idx) :
    i ∈ ((cfg5.win 14).blk t).view.set ↔ ∀ a : Fin 3, win5_14.index t a * S32x8x1024.size a ≤ (i a).val
      ∧ (i a).val < win5_14.index t a * S32x8x1024.size a + S32x8x1024.size a := by
  show i ∈ ((View.whole main_v36_0).slice (win5_14.rect t)).set ↔ _
  rw [View.set_slice_whole, Rect.mem_set_unit]
  exact Iff.rfl

/-- Image n lies in the block of point n / 8. -/
theorem cover14 (i : S32x128x1024.Idx) :
    ∃ t : Fin cfg5.N, (cfg5.win 14).flush t = true ∧ i ∈ ((cfg5.win 14).blk t).view.set := by
  have h1 : (i 1).val < 128 := (i 1).isLt
  have h0 : (i 0).val < 32 := (i 0).isLt
  have h2 : (i 2).val < 1024 := (i 2).isLt
  have hN : cfg5.N = 16 := N_5
  refine ⟨⟨(i 1).val / 8, by rw [hN]; omega⟩, flush5_14 _, ?_⟩
  rw [mem_blk14]
  obtain ⟨-, -, -, -, -, ⟨e0, e1, e2⟩⟩ := idxAct ⟨(i 1).val / 8, by rw [hN]; omega⟩
  intro a
  match a with
  | ⟨0, _⟩ => show win5_14.index _ 0 * 32 ≤ (i 0).val ∧ (i 0).val < win5_14.index _ 0 * 32 + 32; rw [e0]; omega
  | ⟨1, _⟩ => show win5_14.index _ 1 * 8 ≤ (i 1).val ∧ (i 1).val < win5_14.index _ 1 * 8 + 8; rw [e1]; dsimp only; omega
  | ⟨2, _⟩ => show win5_14.index _ 2 * 1024 ≤ (i 2).val ∧ (i 2).val < win5_14.index _ 2 * 1024 + 1024; rw [e2]; omega

theorem final14 (c : Dev nD) : yOut V c = G14 V c :=
  (dat5 V c).arrAt_eq_of_cover 14 (G14 V c) (fun t _ => flushed14 V c t) cover14

/-- The output array, read channel-major, is the specification's layer output. -/
theorem arr_y (c : Dev nD) : actCM (yOut V c) = Yspec V c :=
  (congrArg actCM (final14 V c)).trans rfl

theorem flushed15 (c : Dev nD) (t : Fin cfg5.N) (hf : (cfg5.win 15).flush t = true) :
    (dat5 V c).flushed 15 t = ((cfg5.win 15).blk t).view.read (Elt Ideal) (G15 V c) := by
  have hN : cfg5.N = 16 := N_5
  have h15 : t.val = 15 := by have := (flush5_15 t).mp hf; have := t.isLt; omega
  obtain ⟨n, hn⟩ := t
  dsimp only at h15
  subst h15
  show (cfg5.win 15).cut (grid5.coords ⟨15, hn⟩) ((dat5 V c).after 15 ⟨15, hn⟩) = _
  rw [after5_15]
  refine funext fun (y : S1x32x2.Idx) => ?_
  obtain ⟨u, o, k, rfl⟩ : ∃ (u : Fin 1) (o : Fin 32) (k : Fin 2), y = ix3 u o k := ⟨y 0, y 1, y 2, eq_ix3 y⟩
  obtain rfl : u = 0 := Fin.ext (by omega)
  have he : (((cfg5.win 15).blk ⟨15, hn⟩).view.emb (ix3 (0 : Fin 1) o k) : S1x32x2.Idx) = ix3 (0 : Fin 1) o k :=
    funext fun a => Fin.ext (win5_15.rect_emb_val_of_index_zero ⟨15, hn⟩ a (idxMom ⟨15, hn⟩ a).2.2.2.2.2 _)
  show (outsAt5 V c 15 hn).2 (ix3 (0 : Fin 1) o k)
    = G15 V c (((cfg5.win 15).blk ⟨15, hn⟩).view.emb (ix3 (0 : Fin 1) o k))
  rw [he]
  have hinv := acc_inv V c o 15 hn
  by_cases hk : k.val = 0
  · obtain rfl : k = 0 := Fin.ext hk
    show _ = sum1 (Yspec V c) o
    rw [hinv.1, sum1_blocks]
  · obtain rfl : k = 1 := Fin.ext (by have := k.isLt; omega)
    show _ = sum2 (Yspec V c) o
    rw [hinv.2, sum2_blocks]

theorem mem_blk15 (t : Fin cfg5.N) (i : S1x32x2.Idx) :
    i ∈ ((cfg5.win 15).blk t).view.set ↔ ∀ a : Fin 3, win5_15.index t a * S1x32x2.size a ≤ (i a).val
      ∧ (i a).val < win5_15.index t a * S1x32x2.size a + S1x32x2.size a := by
  show i ∈ ((View.whole main_v36_1).slice (win5_15.rect t)).set ↔ _
  rw [View.set_slice_whole, Rect.mem_set_unit]
  exact Iff.rfl

theorem cover15 (i : S1x32x2.Idx) :
    ∃ t : Fin cfg5.N, (cfg5.win 15).flush t = true ∧ i ∈ ((cfg5.win 15).blk t).view.set := by
  have h0 : (i 0).val < 1 := (i 0).isLt
  have h1 : (i 1).val < 32 := (i 1).isLt
  have h2 : (i 2).val < 2 := (i 2).isLt
  have hN : cfg5.N = 16 := N_5
  refine ⟨⟨15, by rw [hN]; decide⟩, (flush5_15 _).mpr rfl, ?_⟩
  rw [mem_blk15]
  have e := fun a => (idxMom ⟨15, by rw [hN]; decide⟩ a).2.2.2.2.2
  intro a
  match a with
  | ⟨0, _⟩ => show win5_15.index _ 0 * 1 ≤ (i 0).val ∧ (i 0).val < win5_15.index _ 0 * 1 + 1; rw [e 0]; omega
  | ⟨1, _⟩ => show win5_15.index _ 1 * 32 ≤ (i 1).val ∧ (i 1).val < win5_15.index _ 1 * 32 + 32; rw [e 1]; omega
  | ⟨2, _⟩ => show win5_15.index _ 2 * 2 ≤ (i 2).val ∧ (i 2).val < win5_15.index _ 2 * 2 + 2; rw [e 2]; omega

theorem final15 (c : Dev nD) : mOut V c = G15 V c :=
  (dat5 V c).arrAt_eq_of_cover 15 (G15 V c) (flushed15 V c) cover15

/-- The table's two columns are the first and second moments of the new channels. -/
theorem arr_m (c : Dev nD) (o : Fin 32) :
    mom3 (mOut V c) 0 o = sum1 (Yspec V c) o ∧ mom3 (mOut V c) 1 o = sum2 (Yspec V c) o := by
  rw [final15]
  exact ⟨rfl, rfl⟩

end Cert.K5

end
-- ==== Proof.KThreadL4.lean ====
import proofs.«136216_g2000306190186476_pallasbulk_240_40_alg».proof.Proof.KThreadL3
import proofs.«136216_g2000306190186476_pallasbulk_240_40_alg».proof.Proof.K5

set_option maxRecDepth 16384

noncomputable section

namespace Cert.KThread

open Cert.KernelIdeal Cert.KernelIdeal.Gen Cert.KernelIdeal.GenP Cert.Spec Cert.Views Cert.Block Cert.Alg Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

theorem Xin_L4 (c : Dev nD) (hR : (args m c).Real) : Cert.K5.Xin (V13 m ρ) c = X4 (args m c) :=
  (in4 m ρ c hR 13 (by decide) (by decide)).1

theorem S1in_L4 (c : Dev nD) (hR : (args m c).Real) : Cert.K5.S1in (V13 m ρ) c = sum1 (X4 (args m c)) :=
  (in4 m ρ c hR 13 (by decide) (by decide)).2.1

theorem S2in_L4 (c : Dev nD) (hR : (args m c).Real) : Cert.K5.S2in (V13 m ρ) c = sum2 (X4 (args m c)) :=
  (in4 m ρ c hR 13 (by decide) (by decide)).2.2

theorem Yspec_L4 (c : Dev nD) (hR : (args m c).Real) : Cert.K5.Yspec (V13 m ρ) c = Y4 (args m c) :=
  layer_of_specs (Cert.KHost.h5_w (W12 m ρ c)) (arg_at m ρ c main_arg15 (by decide) 12 (by decide))
    (Cert.KHost.h5_gam (W12 m ρ c)) (arg_at m ρ c main_arg13 (by decide) 12 (by decide))
    (Cert.KHost.h5_bet (W12 m ρ c)) (arg_at m ρ c main_arg14 (by decide) 12 (by decide))
    (mask_at m ρ c 13 (by decide) (by decide)) ⟨Xin_L4 m ρ c hR, S1in_L4 m ρ c hR, S2in_L4 m ρ c hR⟩
    hR.w4 hR.g4 hR.b4 (isReal_X4 hR)

theorem in5 (c : Dev nD) (hR : (args m c).Real) (n : ℕ) (h : 14 ≤ n) (hn : n ≤ 17) : IsTri (acc5 m ρ c n) (X5 (args m c)) :=
  isTri_app (in4 m ρ c hR n (by omega) hn)
    (tri_of_out ((kept m ρ c main_v36_0 14 (by decide) n h hn).trans (W14_arr m ρ c 14))
      ((kept m ρ c main_v36_1 14 (by decide) n h hn).trans (W14_arr m ρ c 15)) (Cert.K5.arr_y (V13 m ρ) c)
      (Cert.K5.arr_m (V13 m ρ) c) (Yspec_L4 m ρ c hR))

end Cert.KThread

end
-- ==== Proof.K6Body.lean ====
import proofs.«136216_g2000306190186476_pallasbulk_240_40_alg».proof.Proof.Gen.KernelIdeal.Skeleton
import proofs.«136216_g2000306190186476_pallasbulk_240_40_alg».proof.Proof.ConvRows
import proofs.«136216_g2000306190186476_pallasbulk_240_40_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.K6

open Cert.KernelIdeal Cert.KernelIdeal.Gen Cert.Spec Idealize.ShloMosaic Idealize.ShloMosaic.ValueIdx Idealize.SL.Sem

theorem chanCol_apply {C : ℕ} (v : FVec Ideal ⟨2, ![C, 1]⟩ .f32) (h1 : (⟨2, ![C, 1]⟩ : Shape).ShapeCasts ⟨3, ![C, 1, 1]⟩)
    (h2 : (⟨3, ![C, 1, 1]⟩ : Shape).Broadcasts ⟨3, ![C, 8, 1024]⟩) (c : Fin C) (b : Fin 8) (q : Fin 1024) :
    broadcastTo ⟨3, ![C, 8, 1024]⟩ (shapeCast ⟨3, ![C, 1, 1]⟩ v h1) h2 (ix3 c b q) = v (ix2 c (0 : Fin 1)) := by
  refine (broadcastTo_apply _ h2 (ix3 c b q) (ix3 c (0 : Fin 1) (0 : Fin 1)) (fun ax => ?_)).trans ?_
  · match ax with
    | ⟨0, _⟩ =>
      show c.val = if C = 1 then 0 else c.val
      split
      · have := c.isLt; omega
      · rfl
    | ⟨1, _⟩ => rfl
    | ⟨2, _⟩ => rfl
  · refine shapeCast_apply v h1 _ _ ?_
    rw [Shape.rowMajor_val_two, Shape.rowMajor_val_three]
    show c.val * 1 + 0 = (c.val * 1 + 0) * 1 + 0
    omega

theorem momCol_apply {C : ℕ} (k : ℕ) (hk : k < 2) (v : Vec Ideal ⟨3, ![1, C, 2]⟩ .f32)
    (h1 : (⟨3, ![1, C, 2]⟩ : Shape).ShapeCasts ⟨2, ![C, 2]⟩) (h2 : (⟨2, ![C, 2]⟩ : Shape).Slices ![0, k] ⟨2, ![C, 1]⟩)
    (c : Fin C) :
    extractStridedSlice ⟨2, ![C, 1]⟩ ![0, k] (shapeCast ⟨2, ![C, 2]⟩ v h1) h2 (ix2 c (0 : Fin 1))
      = v (ix3 (0 : Fin 1) c (⟨k, hk⟩ : Fin 2)) :=
  (slice2_axis1_apply k _ h2 c (0 : Fin 1) (⟨k, hk⟩ : Fin 2) rfl).trans (shapeCast_1ab_ab_apply v h1 c ⟨k, hk⟩)

theorem maskRow_apply (v : FVec Ideal S1x1024 .f32) (h1 : S1x1024.ShapeCasts S1x1x1024)
    (h2 : S1x1x1024.Broadcasts S32x8x1024) (o : Fin 32) (b : Fin 8) (p : Fin 1024) :
    broadcastTo S32x8x1024 (shapeCast S1x1x1024 v h1) h2 (ix3 o b p) = v (ix2 (0 : Fin 1) p) := by
  refine (broadcastTo_apply _ h2 (ix3 o b p) (ix3 (0 : Fin 1) (0 : Fin 1) p) (fun ax => ?_)).trans ?_
  · match ax with
    | ⟨0, _⟩ => rfl
    | ⟨1, _⟩ => rfl
    | ⟨2, _⟩ => rfl
  · exact shapeCast_ab_1ab_apply v h1 (0 : Fin 1) (0 : Fin 1) p

theorem toImageMajor_apply {C : ℕ} (x : FVec Ideal ⟨3, ![C, 8, 1024]⟩ .f32)
    (h : (⟨3, ![C, 8, 1024]⟩ : Shape).Transposes [1, 0, 2] ⟨3, ![8, C, 1024]⟩) (b : Fin 8) (r : Fin C) (p : Fin 1024) :
    transpose ⟨3, ![8, C, 1024]⟩ [1, 0, 2] x h (ix3 b r p) = x (ix3 r b p) :=
  transpose_apply _ x h _ _ fun a => match a with | ⟨0, _⟩ => rfl | ⟨1, _⟩ => rfl | ⟨2, _⟩ => rfl

theorem rsqrt_apply {s : Shape} {φ : FTy} (a : FVec Ideal s φ) (i : s.Idx) : rsqrt a i = Ideal.rsqrt (a i) := rfl

theorem old0_apply (v : Vec Ideal S64x8x1024 .bf16) (b : Fin 8) (r : Fin 64) (p : Fin 1024) :
    k6_pay31 (F := Ideal) (k6_pay30 v) (ix3 b r p) = v (ix3 r b p) := by
  unfold k6_pay31 k6_pay30
  try dsimp only
  refine (toImageMajor_apply _ _ b r p).trans ?_
  rw [extf_apply, shapeCast_self]

theorem old1_apply (v : Vec Ideal S32x8x1024 .bf16) (b : Fin 8) (r : Fin 32) (p : Fin 1024) :
    k6_pay32 (F := Ideal) v (ix3 b r p) = v (ix3 r b p) := by
  unfold k6_pay32
  try dsimp only
  refine (toImageMajor_apply _ _ b r p).trans ?_
  rw [extf_apply, shapeCast_self]

theorem old2_apply (v : Vec Ideal S32x8x1024 .bf16) (b : Fin 8) (r : Fin 32) (p : Fin 1024) :
    k6_pay33 (F := Ideal) v (ix3 b r p) = v (ix3 r b p) :=
  old1_apply v b r p

theorem old3_apply (v : Vec Ideal S32x8x1024 .bf16) (b : Fin 8) (r : Fin 32) (p : Fin 1024) :
    k6_pay34 (F := Ideal) v (ix3 b r p) = v (ix3 r b p) :=
  old1_apply v b r p

theorem old4_apply (v : Vec Ideal S32x8x1024 .bf16) (b : Fin 8) (r : Fin 32) (p : Fin 1024) :
    k6_pay35 (F := Ideal) v (ix3 b r p) = v (ix3 r b p) :=
  old1_apply v b r p

theorem old5_apply (v : Vec Ideal S32x8x1024 .bf16) (b : Fin 8) (r : Fin 32) (p : Fin 1024) :
    k6_pay1 (F := Ideal) (k6_pay36 v) (ix3 b r p) = v (ix3 r b p) :=
  old1_apply v b r p

def nrelu (x g bt m1 m2 : EReal) : EReal := max (x * scaleOf g m1 m2 + shiftOf g bt m1 m2) 0

def nreluM (x g bt mean m2c meansq : EReal) : EReal :=
  max (x * (g * Ideal.rsqrt (m2c - meansq + eps)) + (bt - mean * (g * Ideal.rsqrt (m2c - meansq + eps)))) 0

theorem nrelu_eq (x g bt m1 m2 : EReal) :
    nrelu x g bt m1 m2 = nreluM x g bt (m1 * invCount) (m2 * invCount) (m1 * invCount * (m1 * invCount)) := rfl

theorem affRelu_apply {C : ℕ} (X : FVec Ideal ⟨3, ![C, 8, 1024]⟩ .f32) (SC SH : FVec Ideal ⟨2, ![C, 1]⟩ .f32)
    (h1 : (⟨2, ![C, 1]⟩ : Shape).ShapeCasts ⟨3, ![C, 1, 1]⟩) (h2 : (⟨3, ![C, 1, 1]⟩ : Shape).Broadcasts ⟨3, ![C, 8, 1024]⟩)
    (c : Fin C) (b : Fin 8) (q : Fin 1024) :
    maximumf (addf (mulf X (broadcastTo ⟨3, ![C, 8, 1024]⟩ (shapeCast ⟨3, ![C, 1, 1]⟩ SC h1) h2))
        (broadcastTo ⟨3, ![C, 8, 1024]⟩ (shapeCast ⟨3, ![C, 1, 1]⟩ SH h1) h2))
      (broadcast ⟨3, ![C, 8, 1024]⟩ (Scalar.ofBits (F := Ideal) .f32 0x00000000#32)) (ix3 c b q)
      = max (X (ix3 c b q) * SC (ix2 c (0 : Fin 1)) + SH (ix2 c (0 : Fin 1))) 0 := by
  show max (X (ix3 c b q) * broadcastTo ⟨3, ![C, 8, 1024]⟩ (shapeCast ⟨3, ![C, 1, 1]⟩ SC h1) h2 (ix3 c b q)
      + broadcastTo ⟨3, ![C, 8, 1024]⟩ (shapeCast ⟨3, ![C, 1, 1]⟩ SH h1) h2 (ix3 c b q)) (Ideal.ofBits .f32 0x00000000#32) = _
  rw [chanCol_apply, chanCol_apply, Ideal.ofBits_zero_f32]

theorem part0_apply (v0 : Vec Ideal S1x64x2 .f32) (v10 v16 : Vec Ideal S64x1 .f32) (v20 : Vec Ideal S64x8x1024 .bf16)
    (r : Fin 64) (b : Fin 8) (q : Fin 1024) :
    k6_pay3 (F := Ideal) v0 v10 v16 v20 (ix3 r b q)
      = nrelu (v20 (ix3 r b q)) (v10 (ix2 r (0 : Fin 1))) (v16 (ix2 r (0 : Fin 1)))
          (v0 (ix3 (0 : Fin 1) r (0 : Fin 2))) (v0 (ix3 (0 : Fin 1) r (1 : Fin 2))) := by
  unfold k6_pay3
  try dsimp only
  refine (affRelu_apply _ _ _ _ _ r b q).trans ?_
  simp only [mulf_apply, subf_apply, addf_apply, broadcast_apply, rsqrt_apply, extf_apply, shapeCast_self,
    momCol_apply 0 (by decide), momCol_apply 1 (by decide)]
  rfl

theorem part1_apply (v31 : Vec Ideal S1x32x2 .f32) (v41 v47 : Vec Ideal S32x1 .f32) (v51 : Vec Ideal S32x8x1024 .bf16)
    (r : Fin 32) (b : Fin 8) (q : Fin 1024) :
    k6_pay8 (F := Ideal) (k6_pay5 v31) (k6_pay6 v31) (k6_pay7 v31) v41 v47 v51 (ix3 r b q)
      = nrelu (v51 (ix3 r b q)) (v41 (ix2 r (0 : Fin 1))) (v47 (ix2 r (0 : Fin 1)))
          (v31 (ix3 (0 : Fin 1) r (0 : Fin 2))) (v31 (ix3 (0 : Fin 1) r (1 : Fin 2))) := by
  unfold k6_pay8 k6_pay7 k6_pay6 k6_pay5 k6_pay4
  try dsimp only
  refine (affRelu_apply _ _ _ _ _ r b q).trans ?_
  simp only [mulf_apply, subf_apply, addf_apply, broadcast_apply, rsqrt_apply, extf_apply, shapeCast_self,
    momCol_apply 0 (by decide), momCol_apply 1 (by decide)]
  rfl

theorem part2_apply (v62 : Vec Ideal S1x32x2 .f32) (v72 v78 : Vec Ideal S32x1 .f32) (v82 : Vec Ideal S32x8x1024 .bf16)
    (r : Fin 32) (b : Fin 8) (q : Fin 1024) :
    k6_pay14 (F := Ideal) (k6_pay11 v62 v72) (k6_pay12 v78) (k6_pay13 v62 v72) v82 (ix3 r b q)
      = nrelu (v82 (ix3 r b q)) (v72 (ix2 r (0 : Fin 1))) (v78 (ix2 r (0 : Fin 1)))
          (v62 (ix3 (0 : Fin 1) r (0 : Fin 2))) (v62 (ix3 (0 : Fin 1) r (1 : Fin 2))) := by
  unfold k6_pay14 k6_pay13 k6_pay12 k6_pay11 k6_pay10 k6_pay9
  try dsimp only
  refine (affRelu_apply _ _ _ _ _ r b q).trans ?_
  simp only [mulf_apply, subf_apply, addf_apply, broadcast_apply, rsqrt_apply, extf_apply, shapeCast_self,
    momCol_apply 0 (by decide), momCol_apply 1 (by decide)]
  rfl

theorem part3_apply (v93 : Vec Ideal S1x32x2 .f32) (v103 v109 : Vec Ideal S32x1 .f32) (v113 : Vec Ideal S32x8x1024 .bf16)
    (r : Fin 32) (b : Fin 8) (q : Fin 1024) :
    k6_pay17 (F := Ideal) (k6_pay15 v93 v103 v109 v113) (k6_pay16 (F := Ideal)) (ix3 r b q)
      = nrelu (v113 (ix3 r b q)) (v103 (ix2 r (0 : Fin 1))) (v109 (ix2 r (0 : Fin 1)))
          (v93 (ix3 (0 : Fin 1) r (0 : Fin 2))) (v93 (ix3 (0 : Fin 1) r (1 : Fin 2))) :=
  part2_apply v93 v103 v109 v113 r b q

theorem part4_apply (v124 : Vec Ideal S1x32x2 .f32) (v134 v140 : Vec Ideal S32x1 .f32) (v144 : Vec Ideal S32x8x1024 .bf16)
    (r : Fin 32) (b : Fin 8) (q : Fin 1024) :
    k6_pay18 (F := Ideal) v124 v134 v140 v144 (ix3 r b q)
      = nrelu (v144 (ix3 r b q)) (v134 (ix2 r (0 : Fin 1))) (v140 (ix2 r (0 : Fin 1)))
          (v124 (ix3 (0 : Fin 1) r (0 : Fin 2))) (v124 (ix3 (0 : Fin 1) r (1 : Fin 2))) :=
  part2_apply v124 v134 v140 v144 r b q

theorem mean5_apply (v155 : Vec Ideal S1x32x2 .f32) (r : Fin 32) :
    k6_pay20 (F := Ideal) v155 (ix2 r (0 : Fin 1)) = v155 (ix3 (0 : Fin 1) r (0 : Fin 2)) * invCount := by
  unfold k6_pay20 k6_pay19
  try dsimp only
  simp only [mulf_apply, broadcast_apply, momCol_apply 0 (by decide)]
  rfl
theorem m2c5_apply (v155 : Vec Ideal S1x32x2 .f32) (r : Fin 32) :
    k6_pay21 (F := Ideal) v155 (ix2 r (0 : Fin 1)) = v155 (ix3 (0 : Fin 1) r (1 : Fin 2)) * invCount := by
  unfold k6_pay21 k6_pay19
  try dsimp only
  simp only [mulf_apply, broadcast_apply, momCol_apply 1 (by decide)]
  rfl
theorem msq5_apply (v155 : Vec Ideal S1x32x2 .f32) (r : Fin 32) :
    k6_pay22 (F := Ideal) v155 (ix2 r (0 : Fin 1))
      = v155 (ix3 (0 : Fin 1) r (0 : Fin 2)) * invCount * (v155 (ix3 (0 : Fin 1) r (0 : Fin 2)) * invCount) := by
  unfold k6_pay22 k6_pay20 k6_pay19
  try dsimp only
  simp only [mulf_apply, broadcast_apply, momCol_apply 0 (by decide)]
  rfl

theorem prod_apply (Wt : FVec Ideal S288x224 .f32) (Am : FVec Ideal S224x8192 .f32) (row : Fin 288) (col : Fin 8192) :
    matmul (F := Ideal) dot_S288x224_S224x8192_S288x8192_1_0_0_1_n_n none Wt Am (constant (F := Ideal) S288x8192 .f32 0x00000000#32) (ix2 row col)
      = ∑ k : Fin 224, Wt (ix2 row k) * Am (ix2 k col) :=
  Cert.ConvRows.mm_apply Wt Am row col

theorem cat6_apply (u0 : FVec Ideal S64x8x1024 .f32) (u1 u2 u3 u4 u5 : FVec Ideal S32x8x1024 .f32)
    (hc : Shape.Concatenates [S64x8x1024, S32x8x1024, S32x8x1024, S32x8x1024, S32x8x1024, S32x8x1024] S224x8x1024 0)
    (k : Fin 224) (b : Fin 8) (q : Fin 1024) :
    concatenate S224x8x1024 0 [⟨S64x8x1024, u0⟩, ⟨S32x8x1024, u1⟩, ⟨S32x8x1024, u2⟩, ⟨S32x8x1024, u3⟩, ⟨S32x8x1024, u4⟩, ⟨S32x8x1024, u5⟩] hc (ix3 k b q)
      = if c0 : k.val < 64 then u0 (ix3 (⟨k.val, c0⟩ : Fin 64) b q)
        else if c1 : k.val < 96 then u1 (ix3 (⟨k.val - 64, by have := k.isLt; omega⟩ : Fin 32) b q)
        else if c2 : k.val < 128 then u2 (ix3 (⟨k.val - 96, by have := k.isLt; omega⟩ : Fin 32) b q)
        else if c3 : k.val < 160 then u3 (ix3 (⟨k.val - 128, by have := k.isLt; omega⟩ : Fin 32) b q)
        else if c4 : k.val < 192 then u4 (ix3 (⟨k.val - 160, by have := k.isLt; omega⟩ : Fin 32) b q)
        else u5 (ix3 (⟨k.val - 192, by have := k.isLt; omega⟩ : Fin 32) b q) := by
  by_cases c0 : k.val < 64
  · rw [dif_pos c0]
    refine (concatenate_apply_piece (t := S224x8x1024) (0 : Fin 3) [⟨S64x8x1024, u0⟩, ⟨S32x8x1024, u1⟩, ⟨S32x8x1024, u2⟩, ⟨S32x8x1024, u3⟩, ⟨S32x8x1024, u4⟩, ⟨S32x8x1024, u5⟩] hc (ix3 k b q) 0 (by show (0 : ℕ) < 6; omega) S64x8x1024 u0 rfl rfl 0 rfl
      (ix3 (⟨k.val, c0⟩ : Fin 64) b q) (fun a ha => ?_) ?_)
    · match a with
      | ⟨0, _⟩ => exact absurd rfl ha
      | ⟨1, _⟩ => rfl
      | ⟨2, _⟩ => rfl
    · show 0 + k.val = k.val
      omega
  rw [dif_neg c0]
  by_cases c1 : k.val < 96
  · rw [dif_pos c1]
    refine (concatenate_apply_piece (t := S224x8x1024) (0 : Fin 3) [⟨S64x8x1024, u0⟩, ⟨S32x8x1024, u1⟩, ⟨S32x8x1024, u2⟩, ⟨S32x8x1024, u3⟩, ⟨S32x8x1024, u4⟩, ⟨S32x8x1024, u5⟩] hc (ix3 k b q) 1 (by show (1 : ℕ) < 6; omega) S32x8x1024 u1 rfl rfl 64 rfl
      (ix3 (⟨k.val - 64, by have := k.isLt; omega⟩ : Fin 32) b q) (fun a ha => ?_) ?_)
    · match a with
      | ⟨0, _⟩ => exact absurd rfl ha
      | ⟨1, _⟩ => rfl
      | ⟨2, _⟩ => rfl
    · show 64 + (k.val - 64) = k.val
      omega
  rw [dif_neg c1]
  by_cases c2 : k.val < 128
  · rw [dif_pos c2]
    refine (concatenate_apply_piece (t := S224x8x1024) (0 : Fin 3) [⟨S64x8x1024, u0⟩, ⟨S32x8x1024, u1⟩, ⟨S32x8x1024, u2⟩, ⟨S32x8x1024, u3⟩, ⟨S32x8x1024, u4⟩, ⟨S32x8x1024, u5⟩] hc (ix3 k b q) 2 (by show (2 : ℕ) < 6; omega) S32x8x1024 u2 rfl rfl 96 rfl
      (ix3 (⟨k.val - 96, by have := k.isLt; omega⟩ : Fin 32) b q) (fun a ha => ?_) ?_)
    · match a with
      | ⟨0, _⟩ => exact absurd rfl ha
      | ⟨1, _⟩ => rfl
      | ⟨2, _⟩ => rfl
    · show 96 + (k.val - 96) = k.val
      omega
  rw [dif_neg c2]
  by_cases c3 : k.val < 160
  · rw [dif_pos c3]
    refine (concatenate_apply_piece (t := S224x8x1024) (0 : Fin 3) [⟨S64x8x1024, u0⟩, ⟨S32x8x1024, u1⟩, ⟨S32x8x1024, u2⟩, ⟨S32x8x1024, u3⟩, ⟨S32x8x1024, u4⟩, ⟨S32x8x1024, u5⟩] hc (ix3 k b q) 3 (by show (3 : ℕ) < 6; omega) S32x8x1024 u3 rfl rfl 128 rfl
      (ix3 (⟨k.val - 128, by have := k.isLt; omega⟩ : Fin 32) b q) (fun a ha => ?_) ?_)
    · match a with
      | ⟨0, _⟩ => exact absurd rfl ha
      | ⟨1, _⟩ => rfl
      | ⟨2, _⟩ => rfl
    · show 128 + (k.val - 128) = k.val
      omega
  rw [dif_neg c3]
  by_cases c4 : k.val < 192
  · rw [dif_pos c4]
    refine (concatenate_apply_piece (t := S224x8x1024) (0 : Fin 3) [⟨S64x8x1024, u0⟩, ⟨S32x8x1024, u1⟩, ⟨S32x8x1024, u2⟩, ⟨S32x8x1024, u3⟩, ⟨S32x8x1024, u4⟩, ⟨S32x8x1024, u5⟩] hc (ix3 k b q) 4 (by show (4 : ℕ) < 6; omega) S32x8x1024 u4 rfl rfl 160 rfl
      (ix3 (⟨k.val - 160, by have := k.isLt; omega⟩ : Fin 32) b q) (fun a ha => ?_) ?_)
    · match a with
      | ⟨0, _⟩ => exact absurd rfl ha
      | ⟨1, _⟩ => rfl
      | ⟨2, _⟩ => rfl
    · show 160 + (k.val - 160) = k.val
      omega
  rw [dif_neg c4]
  refine (concatenate_apply_piece (t := S224x8x1024) (0 : Fin 3) [⟨S64x8x1024, u0⟩, ⟨S32x8x1024, u1⟩, ⟨S32x8x1024, u2⟩, ⟨S32x8x1024, u3⟩, ⟨S32x8x1024, u4⟩, ⟨S32x8x1024, u5⟩] hc (ix3 k b q) 5 (by show (5 : ℕ) < 6; omega) S32x8x1024 u5 rfl rfl 192 rfl
    (ix3 (⟨k.val - 192, by have := k.isLt; omega⟩ : Fin 32) b q) (fun a ha => ?_) ?_)
  · match a with
    | ⟨0, _⟩ => exact absurd rfl ha
    | ⟨1, _⟩ => rfl
    | ⟨2, _⟩ => rfl
  · show 192 + (k.val - 192) = k.val
    omega

theorem pay23_apply (v30 : FVec Ideal S64x8x1024 .f32) (v61 v92 v123 v154 : FVec Ideal S32x8x1024 .f32)
    (v159 v162 v163 : FVec Ideal S32x1 .f32) (v165 v171 : Vec Ideal S32x1 .f32) (v175 : Vec Ideal S32x8x1024 .bf16)
    (v187 : Vec Ideal S288x224 .f32) (A : Fin 224 → EReal) (row : Fin 288) (b : Fin 8) (q : Fin 1024)
    (h0 : ∀ r : Fin 64, v30 (ix3 r b q) = A ⟨0 + r.val, by have := r.isLt; omega⟩)
    (h1 : ∀ r : Fin 32, v61 (ix3 r b q) = A ⟨64 + r.val, by have := r.isLt; omega⟩)
    (h2 : ∀ r : Fin 32, v92 (ix3 r b q) = A ⟨96 + r.val, by have := r.isLt; omega⟩)
    (h3 : ∀ r : Fin 32, v123 (ix3 r b q) = A ⟨128 + r.val, by have := r.isLt; omega⟩)
    (h4 : ∀ r : Fin 32, v154 (ix3 r b q) = A ⟨160 + r.val, by have := r.isLt; omega⟩)
    (h5 : ∀ r : Fin 32, nreluM (v175 (ix3 r b q)) (v165 (ix2 r (0 : Fin 1))) (v171 (ix2 r (0 : Fin 1)))
        (v159 (ix2 r (0 : Fin 1))) (v162 (ix2 r (0 : Fin 1))) (v163 (ix2 r (0 : Fin 1)))
        = A ⟨192 + r.val, by have := r.isLt; omega⟩) :
    k6_pay23 (F := Ideal) v30 v61 v92 v123 v154 v159 v162 v163 v165 v171 v175 v187 (ix3 row b q)
      = ∑ k : Fin 224, v187 (ix2 row k) * A k := by
  unfold k6_pay23
  try dsimp only
  refine (shapeCast_apply _ _ (ix3 row b q) (ix2 row (⟨b.val * 1024 + q.val, by have := b.isLt; have := q.isLt; omega⟩ : Fin 8192)) ?_).trans ?_
  · rw [Shape.rowMajor_val_two, Shape.rowMajor_val_three]
    show row.val * 8192 + (b.val * 1024 + q.val) = (row.val * 8 + b.val) * 1024 + q.val
    omega
  refine (prod_apply _ _ row _).trans ?_
  refine Finset.sum_congr rfl fun k _ => ?_
  rw [shapeCast_self]
  refine congrArg (v187 (ix2 row k) * ·) ?_
  refine (shapeCast_apply _ _ (ix2 k (⟨b.val * 1024 + q.val, by have := b.isLt; have := q.isLt; omega⟩ : Fin 8192)) (ix3 k b q) ?_).trans ?_
  · rw [Shape.rowMajor_val_two, Shape.rowMajor_val_three]
    show (k.val * 8 + b.val) * 1024 + q.val = k.val * 8192 + (b.val * 1024 + q.val)
    omega
  refine (cat6_apply _ _ _ _ _ _ _ k b q).trans ?_
  by_cases c0 : k.val < 64
  · rw [dif_pos c0]
    exact (h0 ⟨k.val, c0⟩).trans (congrArg A (Fin.ext (Nat.zero_add _)))
  rw [dif_neg c0]
  by_cases c1 : k.val < 96
  · rw [dif_pos c1]
    exact (h1 ⟨k.val - 64, by omega⟩).trans (congrArg A (Fin.ext (by show 64 + (k.val - 64) = k.val; omega)))
  rw [dif_neg c1]
  by_cases c2 : k.val < 128
  · rw [dif_pos c2]
    exact (h2 ⟨k.val - 96, by omega⟩).trans (congrArg A (Fin.ext (by show 96 + (k.val - 96) = k.val; omega)))
  rw [dif_neg c2]
  by_cases c3 : k.val < 160
  · rw [dif_pos c3]
    exact (h3 ⟨k.val - 128, by omega⟩).trans (congrArg A (Fin.ext (by show 128 + (k.val - 128) = k.val; omega)))
  rw [dif_neg c3]
  by_cases c4 : k.val < 192
  · rw [dif_pos c4]
    exact (h4 ⟨k.val - 160, by omega⟩).trans (congrArg A (Fin.ext (by show 160 + (k.val - 160) = k.val; omega)))
  rw [dif_neg c4]
  have hk : k.val - 192 < 32 := by have := k.isLt; omega
  refine (affRelu_apply _ _ _ _ _ (⟨k.val - 192, hk⟩ : Fin 32) b q).trans ?_
  refine Eq.trans ?_ ((h5 ⟨k.val - 192, hk⟩).trans (congrArg A (Fin.ext (by show 192 + (k.val - 192) = k.val; omega))))
  simp only [mulf_apply, subf_apply, addf_apply, broadcast_apply, rsqrt_apply, extf_apply, shapeCast_self]
  rfl

theorem shiftRead_neg (f : Fin 1024 → EReal) (n : ℕ) (p : Fin 1024) :
    shiftRead f (-(n : ℤ)) p = if h : n ≤ p.val then f ⟨p.val - n, by have := p.isLt; omega⟩ else 0 := by
  unfold shiftRead
  by_cases h : n ≤ p.val
  · have hc : 0 ≤ (p.val : ℤ) + -(n : ℤ) ∧ (p.val : ℤ) + -(n : ℤ) < 1024 := by have := p.isLt; omega
    rw [dif_pos hc, dif_pos h]
    exact congrArg f (Fin.ext (by show ((p.val : ℤ) + -(n : ℤ)).toNat = p.val - n; omega))
  · have hc : ¬(0 ≤ (p.val : ℤ) + -(n : ℤ) ∧ (p.val : ℤ) + -(n : ℤ) < 1024) := by omega
    rw [dif_neg hc, dif_neg h]

theorem shiftRead_pos (f : Fin 1024 → EReal) (n : ℕ) (p : Fin 1024) :
    shiftRead f (n : ℤ) p = if h : p.val + n < 1024 then f ⟨p.val + n, h⟩ else 0 := by
  unfold shiftRead
  by_cases h : p.val + n < 1024
  · have hc : 0 ≤ (p.val : ℤ) + (n : ℤ) ∧ (p.val : ℤ) + (n : ℤ) < 1024 := by omega
    rw [dif_pos hc, dif_pos h]
    exact congrArg f (Fin.ext (by show ((p.val : ℤ) + (n : ℤ)).toNat = p.val + n; omega))
  · have hc : ¬(0 ≤ (p.val : ℤ) + (n : ℤ) ∧ (p.val : ℤ) + (n : ℤ) < 1024) := by omega
    rw [dif_neg hc, dif_neg h]

theorem slab_apply (r0 : ℕ) (hr : r0 + 32 ≤ 288) (Z : FVec Ideal S288x8x1024 .f32)
    (hs : S288x8x1024.Slices ![r0, 0, 0] S32x8x1024) (o : Fin 32) (b : Fin 8) (q : Fin 1024) :
    extractStridedSlice S32x8x1024 ![r0, 0, 0] Z hs (ix3 o b q) = Z (ix3 (⟨r0 + o.val, by have := o.isLt; omega⟩ : Fin 288) b q) :=
  extractStridedSlice_apply _ _ _ _ _ (fun ax => by
    match ax with
    | ⟨0, _⟩ => rfl
    | ⟨1, _⟩ => exact (Nat.zero_add _).symm
    | ⟨2, _⟩ => exact (Nat.zero_add _).symm)

theorem shiftDown_apply {n m : ℕ} (hnm : n + m = 1024) (X : FVec Ideal S32x8x1024 .f32)
    (hs : S32x8x1024.Slices ![0, 0, 0] ⟨3, ![32, 8, m]⟩)
    (hc : Shape.Concatenates [⟨3, ![32, 8, n]⟩, ⟨3, ![32, 8, m]⟩] S32x8x1024 2)
    (o : Fin 32) (b : Fin 8) (p : Fin 1024) :
    concatenate S32x8x1024 2 [⟨⟨3, ![32, 8, n]⟩, broadcast ⟨3, ![32, 8, n]⟩ (Scalar.ofBits (F := Ideal) .f32 0x00000000#32)⟩,
        ⟨⟨3, ![32, 8, m]⟩, extractStridedSlice ⟨3, ![32, 8, m]⟩ ![0, 0, 0] X hs⟩] hc (ix3 o b p)
      = shiftRead (fun q => X (ix3 o b q)) (-(n : ℤ)) p := by
  rw [shiftRead_neg]
  by_cases h : n ≤ p.val
  · rw [dif_pos h]
    refine (concatenate_pair_apply_right (t := S32x8x1024) (2 : Fin 3) _ _ hc (ix3 o b p) rfl rfl
      (ix3 o b (⟨p.val - n, by have := p.isLt; omega⟩ : Fin m)) (fun b' hb => ?_) ?_).trans ?_
    · match b' with
      | ⟨0, _⟩ => rfl
      | ⟨1, _⟩ => rfl
      | ⟨2, _⟩ => exact absurd rfl hb
    · show p.val - n + n = p.val
      omega
    · exact extractStridedSlice_apply _ _ _ _ _ (fun ax => by
        match ax with
        | ⟨0, _⟩ => exact (Nat.zero_add _).symm
        | ⟨1, _⟩ => exact (Nat.zero_add _).symm
        | ⟨2, _⟩ => exact (Nat.zero_add _).symm)
  · rw [dif_neg h]
    refine (concatenate_pair_apply_left (t := S32x8x1024) (2 : Fin 3) _ _ hc (ix3 o b p) rfl
      (ix3 o b (⟨p.val, by omega⟩ : Fin n)) (fun b' => by
        match b' with
        | ⟨0, _⟩ => rfl
        | ⟨1, _⟩ => rfl
        | ⟨2, _⟩ => rfl)).trans ?_
    exact Ideal.ofBits_zero_f32

theorem shiftUp_apply {n m : ℕ} (hnm : n + m = 1024) (X : FVec Ideal S32x8x1024 .f32)
    (hs : S32x8x1024.Slices ![0, 0, n] ⟨3, ![32, 8, m]⟩)
    (hc : Shape.Concatenates [⟨3, ![32, 8, m]⟩, ⟨3, ![32, 8, n]⟩] S32x8x1024 2)
    (o : Fin 32) (b : Fin 8) (p : Fin 1024) :
    concatenate S32x8x1024 2 [⟨⟨3, ![32, 8, m]⟩, extractStridedSlice ⟨3, ![32, 8, m]⟩ ![0, 0, n] X hs⟩,
        ⟨⟨3, ![32, 8, n]⟩, broadcast ⟨3, ![32, 8, n]⟩ (Scalar.ofBits (F := Ideal) .f32 0x00000000#32)⟩] hc (ix3 o b p)
      = shiftRead (fun q => X (ix3 o b q)) (n : ℤ) p := by
  rw [shiftRead_pos]
  by_cases h : p.val + n < 1024
  · rw [dif_pos h]
    refine (concatenate_pair_apply_left (t := S32x8x1024) (2 : Fin 3) _ _ hc (ix3 o b p) rfl
      (ix3 o b (⟨p.val, by omega⟩ : Fin m)) (fun b' => by
        match b' with
        | ⟨0, _⟩ => rfl
        | ⟨1, _⟩ => rfl
        | ⟨2, _⟩ => rfl)).trans ?_
    exact extractStridedSlice_apply _ _ _ _ _ (fun ax => by
      match ax with
      | ⟨0, _⟩ => exact (Nat.zero_add _).symm
      | ⟨1, _⟩ => exact (Nat.zero_add _).symm
      | ⟨2, _⟩ => exact Nat.add_comm _ _)
  · rw [dif_neg h]
    refine (concatenate_pair_apply_right (t := S32x8x1024) (2 : Fin 3) _ _ hc (ix3 o b p) rfl rfl
      (ix3 o b (⟨p.val - m, by have := p.isLt; omega⟩ : Fin n)) (fun b' hb => by
        match b' with
        | ⟨0, _⟩ => rfl
        | ⟨1, _⟩ => rfl
        | ⟨2, _⟩ => exact absurd rfl hb) (by
        show p.val - m + m = p.val
        omega)).trans ?_
    exact Ideal.ofBits_zero_f32

theorem taps_apply (v30 : FVec Ideal S64x8x1024 .f32) (v61 v92 v123 v154 : FVec Ideal S32x8x1024 .f32)
    (v159 v162 v163 : FVec Ideal S32x1 .f32) (v165 v171 : Vec Ideal S32x1 .f32) (v175 : Vec Ideal S32x8x1024 .bf16)
    (v187 : Vec Ideal S288x224 .f32) (v192 v194 : Vec Ideal S1x1024 .f32) (Z : FVec Ideal S288x8x1024 .f32)
    (hZ : k6_pay23 (F := Ideal) v30 v61 v92 v123 v154 v159 v162 v163 v165 v171 v175 v187 = Z) (o : Fin 32) (b : Fin 8) (p : Fin 1024) :
    k6_pay29 (F := Ideal) Z (k6_pay24 v192) (k6_pay25 v194) (k6_pay26 v30 v61 v92 v123 v154 v159 v162 v163 v165 v171 v175 v187 v192) (k6_pay27 (F := Ideal))
        (k6_pay28 v30 v61 v92 v123 v154 v159 v162 v163 v165 v171 v175 v187) (ix3 o b p)
      = shiftRead (fun q => Z (ix3 (⟨0 + o.val, by have := o.isLt; omega⟩ : Fin 288) b q)) (-((33 : ℕ) : ℤ)) p * v192 (ix2 (0 : Fin 1) p)
        + shiftRead (fun q => Z (ix3 (⟨32 + o.val, by have := o.isLt; omega⟩ : Fin 288) b q)) (-((32 : ℕ) : ℤ)) p
        + shiftRead (fun q => Z (ix3 (⟨64 + o.val, by have := o.isLt; omega⟩ : Fin 288) b q)) (-((31 : ℕ) : ℤ)) p * v194 (ix2 (0 : Fin 1) p)
        + shiftRead (fun q => Z (ix3 (⟨96 + o.val, by have := o.isLt; omega⟩ : Fin 288) b q)) (-((1 : ℕ) : ℤ)) p * v192 (ix2 (0 : Fin 1) p)
        + Z (ix3 (⟨128 + o.val, by have := o.isLt; omega⟩ : Fin 288) b p)
        + shiftRead (fun q => Z (ix3 (⟨160 + o.val, by have := o.isLt; omega⟩ : Fin 288) b q)) ((1 : ℕ) : ℤ) p * v194 (ix2 (0 : Fin 1) p)
        + shiftRead (fun q => Z (ix3 (⟨192 + o.val, by have := o.isLt; omega⟩ : Fin 288) b q)) ((31 : ℕ) : ℤ) p * v192 (ix2 (0 : Fin 1) p)
        + shiftRead (fun q => Z (ix3 (⟨224 + o.val, by have := o.isLt; omega⟩ : Fin 288) b q)) ((32 : ℕ) : ℤ) p
        + shiftRead (fun q => Z (ix3 (⟨256 + o.val, by have := o.isLt; omega⟩ : Fin 288) b q)) ((33 : ℕ) : ℤ) p * v194 (ix2 (0 : Fin 1) p) := by
  unfold k6_pay29 k6_pay28 k6_pay27 k6_pay26 k6_pay25 k6_pay24
  try dsimp only
  rw [hZ]
  simp only [addf_apply, mulf_apply, shapeCast_self, maskRow_apply,
    shiftDown_apply (n := 33) (m := 991) rfl, shiftDown_apply (n := 32) (m := 992) rfl,
    shiftDown_apply (n := 31) (m := 993) rfl, shiftDown_apply (n := 1) (m := 1023) rfl,
    shiftUp_apply (n := 1) (m := 1023) rfl, shiftUp_apply (n := 31) (m := 993) rfl,
    shiftUp_apply (n := 32) (m := 992) rfl, shiftUp_apply (n := 33) (m := 991) rfl,
    slab_apply 0 (by decide), slab_apply 32 (by decide), slab_apply 64 (by decide), slab_apply 96 (by decide),
    slab_apply 128 (by decide), slab_apply 160 (by decide), slab_apply 192 (by decide), slab_apply 224 (by decide),
    slab_apply 256 (by decide)]

structure PartOK {C : ℕ} (off : ℕ) (hoff : off + C ≤ 224) (x : Vec Ideal ⟨3, ![C, 8, 1024]⟩ .bf16)
    (m : Vec Ideal ⟨3, ![1, C, 2]⟩ .f32) (gv bv : Vec Ideal ⟨2, ![C, 1]⟩ .f32) (b : Fin 8)
    (Xn : Fin 224 → Fin 1024 → EReal) (g bt s1 s2 : Fin 224 → EReal) : Prop where
  hx : ∀ (r : Fin C) (q : Fin 1024), x (ix3 r b q) = Xn ⟨off + r.val, by have := r.isLt; omega⟩ q
  hg : ∀ r : Fin C, gv (ix2 r (0 : Fin 1)) = g ⟨off + r.val, by have := r.isLt; omega⟩
  hb : ∀ r : Fin C, bv (ix2 r (0 : Fin 1)) = bt ⟨off + r.val, by have := r.isLt; omega⟩
  h1 : ∀ r : Fin C, m (ix3 (0 : Fin 1) r (0 : Fin 2)) = s1 ⟨off + r.val, by have := r.isLt; omega⟩
  h2 : ∀ r : Fin C, m (ix3 (0 : Fin 1) r (1 : Fin 2)) = s2 ⟨off + r.val, by have := r.isLt; omega⟩

theorem PartOK.nrelu_eq {C : ℕ} {off : ℕ} {hoff : off + C ≤ 224} {x : Vec Ideal ⟨3, ![C, 8, 1024]⟩ .bf16}
    {m : Vec Ideal ⟨3, ![1, C, 2]⟩ .f32} {gv bv : Vec Ideal ⟨2, ![C, 1]⟩ .f32} {b : Fin 8}
    {Xn : Fin 224 → Fin 1024 → EReal} {g bt s1 s2 : Fin 224 → EReal} (P : PartOK off hoff x m gv bv b Xn g bt s1 s2)
    (r : Fin C) (q : Fin 1024) :
    nrelu (x (ix3 r b q)) (gv (ix2 r (0 : Fin 1))) (bv (ix2 r (0 : Fin 1))) (m (ix3 (0 : Fin 1) r (0 : Fin 2)))
        (m (ix3 (0 : Fin 1) r (1 : Fin 2)))
      = (fun ci : Fin 224 => nrelu (Xn ci q) (g ci) (bt ci) (s1 ci) (s2 ci)) ⟨off + r.val, by have := r.isLt; omega⟩ := by
  rw [P.hx, P.hg, P.hb, P.h1, P.h2]

def newPay (v0 : Vec Ideal S1x64x2 .f32) (v10 v16 : Vec Ideal S64x1 .f32) (v20 : Vec Ideal S64x8x1024 .bf16)
    (v31 : Vec Ideal S1x32x2 .f32) (v41 v47 : Vec Ideal S32x1 .f32) (v51 : Vec Ideal S32x8x1024 .bf16)
    (v62 : Vec Ideal S1x32x2 .f32) (v72 v78 : Vec Ideal S32x1 .f32) (v82 : Vec Ideal S32x8x1024 .bf16)
    (v93 : Vec Ideal S1x32x2 .f32) (v103 v109 : Vec Ideal S32x1 .f32) (v113 : Vec Ideal S32x8x1024 .bf16)
    (v124 : Vec Ideal S1x32x2 .f32) (v134 v140 : Vec Ideal S32x1 .f32) (v144 : Vec Ideal S32x8x1024 .bf16)
    (v155 : Vec Ideal S1x32x2 .f32) (v165 v171 : Vec Ideal S32x1 .f32) (v175 : Vec Ideal S32x8x1024 .bf16)
    (v187 : Vec Ideal S288x224 .f32) (v192 v194 : Vec Ideal S1x1024 .f32) : FVec Ideal S8x32x1024 .f32 :=
  k6_pay2 (F := Ideal) (k6_pay29 (k6_pay23 (k6_pay3 v0 v10 v16 v20) (k6_pay8 (k6_pay5 v31) (k6_pay6 v31) (k6_pay7 v31) v41 v47 v51) (k6_pay14 (k6_pay11 v62 v72) (k6_pay12 v78) (k6_pay13 v62 v72) v82) (k6_pay17 (k6_pay15 v93 v103 v109 v113) (k6_pay16 (F := Ideal))) (k6_pay18 v124 v134 v140 v144) (k6_pay20 v155) (k6_pay21 v155) (k6_pay22 v155) v165 v171 v175 v187) (k6_pay24 v192) (k6_pay25 v194)
    (k6_pay26 (k6_pay3 v0 v10 v16 v20) (k6_pay8 (k6_pay5 v31) (k6_pay6 v31) (k6_pay7 v31) v41 v47 v51) (k6_pay14 (k6_pay11 v62 v72) (k6_pay12 v78) (k6_pay13 v62 v72) v82) (k6_pay17 (k6_pay15 v93 v103 v109 v113) (k6_pay16 (F := Ideal))) (k6_pay18 v124 v134 v140 v144) (k6_pay20 v155) (k6_pay21 v155) (k6_pay22 v155) v165 v171 v175 v187 v192) (k6_pay27 (F := Ideal)) (k6_pay28 (k6_pay3 v0 v10 v16 v20) (k6_pay8 (k6_pay5 v31) (k6_pay6 v31) (k6_pay7 v31) v41 v47 v51) (k6_pay14 (k6_pay11 v62 v72) (k6_pay12 v78) (k6_pay13 v62 v72) v82) (k6_pay17 (k6_pay15 v93 v103 v109 v113) (k6_pay16 (F := Ideal))) (k6_pay18 v124 v134 v140 v144) (k6_pay20 v155) (k6_pay21 v155) (k6_pay22 v155) v165 v171 v175 v187))

theorem tapOff_00 : tapOff 0 0 = -((33 : ℕ) : ℤ) := by decide
theorem tapOff_01 : tapOff 0 1 = -((32 : ℕ) : ℤ) := by decide
theorem tapOff_02 : tapOff 0 2 = -((31 : ℕ) : ℤ) := by decide
theorem tapOff_10 : tapOff 1 0 = -((1 : ℕ) : ℤ) := by decide
theorem tapOff_11 : tapOff 1 1 = ((0 : ℕ) : ℤ) := by decide
theorem tapOff_12 : tapOff 1 2 = ((1 : ℕ) : ℤ) := by decide
theorem tapOff_20 : tapOff 2 0 = ((31 : ℕ) : ℤ) := by decide
theorem tapOff_21 : tapOff 2 1 = ((32 : ℕ) : ℤ) := by decide
theorem tapOff_22 : tapOff 2 2 = ((33 : ℕ) : ℤ) := by decide
theorem tapMask_0 (M : Fin 2 → Fin 1024 → EReal) (p : Fin 1024) : tapMask M 0 p = M 0 p := if_pos rfl
theorem tapMask_1 (M : Fin 2 → Fin 1024 → EReal) (p : Fin 1024) : tapMask M 1 p = 1 := by
  unfold tapMask; rw [if_neg (by decide), if_neg (by decide)]
theorem tapMask_2 (M : Fin 2 → Fin 1024 → EReal) (p : Fin 1024) : tapMask M 2 p = M 1 p := by
  unfold tapMask; rw [if_neg (by decide), if_pos (by decide)]
theorem shiftRead_zero (f : Fin 1024 → EReal) (p : Fin 1024) : shiftRead f ((0 : ℕ) : ℤ) p = f p := by
  rw [shiftRead_pos, dif_pos (by have := p.isLt; omega)]
  rfl
theorem sum9 (F : Fin 3 → Fin 3 → EReal) :
    ∑ kh : Fin 3, ∑ kw : Fin 3, F kh kw = F 0 0 + F 0 1 + F 0 2 + F 1 0 + F 1 1 + F 1 2 + F 2 0 + F 2 1 + F 2 2 := by
  simp only [Fin.sum_univ_three, add_assoc]

theorem newCh_apply (v0 : Vec Ideal S1x64x2 .f32) (v10 v16 : Vec Ideal S64x1 .f32) (v20 : Vec Ideal S64x8x1024 .bf16)
    (v31 : Vec Ideal S1x32x2 .f32) (v41 v47 : Vec Ideal S32x1 .f32) (v51 : Vec Ideal S32x8x1024 .bf16)
    (v62 : Vec Ideal S1x32x2 .f32) (v72 v78 : Vec Ideal S32x1 .f32) (v82 : Vec Ideal S32x8x1024 .bf16)
    (v93 : Vec Ideal S1x32x2 .f32) (v103 v109 : Vec Ideal S32x1 .f32) (v113 : Vec Ideal S32x8x1024 .bf16)
    (v124 : Vec Ideal S1x32x2 .f32) (v134 v140 : Vec Ideal S32x1 .f32) (v144 : Vec Ideal S32x8x1024 .bf16)
    (v155 : Vec Ideal S1x32x2 .f32) (v165 v171 : Vec Ideal S32x1 .f32) (v175 : Vec Ideal S32x8x1024 .bf16)
    (v187 : Vec Ideal S288x224 .f32) (v192 v194 : Vec Ideal S1x1024 .f32)
    (Xn : Fin 224 → Fin 1024 → EReal) (g bt s1 s2 : Fin 224 → EReal) (W : Fin 32 → Fin 224 → Fin 3 → Fin 3 → EReal)
    (Mf : Fin 2 → Fin 1024 → EReal) (b : Fin 8)
    (P0 : PartOK 0 (by decide) v20 v0 v10 v16 b Xn g bt s1 s2) (P1 : PartOK 64 (by decide) v51 v31 v41 v47 b Xn g bt s1 s2)
    (P2 : PartOK 96 (by decide) v82 v62 v72 v78 b Xn g bt s1 s2) (P3 : PartOK 128 (by decide) v113 v93 v103 v109 b Xn g bt s1 s2)
    (P4 : PartOK 160 (by decide) v144 v124 v134 v140 b Xn g bt s1 s2) (P5 : PartOK 192 (by decide) v175 v155 v165 v171 b Xn g bt s1 s2)
    (hW : ∀ (o : Fin 32) (ci : Fin 224) (kh kw : Fin 3),
      v187 (ix2 (⟨(kh.val * 3 + kw.val) * 32 + o.val, by have := kh.isLt; have := kw.isLt; have := o.isLt; omega⟩ : Fin 288) ci) = W o ci kh kw)
    (hM0 : ∀ p : Fin 1024, v192 (ix2 (0 : Fin 1) p) = Mf 0 p) (hM1 : ∀ p : Fin 1024, v194 (ix2 (0 : Fin 1) p) = Mf 1 p)
    (o : Fin 32) (p : Fin 1024) :
    newPay v0 v10 v16 v20 v31 v41 v47 v51 v62 v72 v78 v82 v93 v103 v109 v113 v124 v134 v140 v144 v155 v165 v171 v175 v187 v192 v194 (ix3 b o p)
      = ∑ kh : Fin 3, ∑ kw : Fin 3,
          shiftRead (fun q => ∑ ci : Fin 224, W o ci kh kw * nrelu (Xn ci q) (g ci) (bt ci) (s1 ci) (s2 ci)) (tapOff kh kw) p
            * tapMask Mf kw p := by
  unfold newPay k6_pay2
  try dsimp only
  refine (toImageMajor_apply _ _ b o p).trans ?_
  refine (taps_apply _ _ _ _ _ _ _ _ _ _ _ _ v192 v194 _ rfl o b p).trans ?_
  have hZr : ∀ (row : Fin 288) (q : Fin 1024),
      k6_pay23 (F := Ideal) (k6_pay3 v0 v10 v16 v20) (k6_pay8 (k6_pay5 v31) (k6_pay6 v31) (k6_pay7 v31) v41 v47 v51) (k6_pay14 (k6_pay11 v62 v72) (k6_pay12 v78) (k6_pay13 v62 v72) v82) (k6_pay17 (k6_pay15 v93 v103 v109 v113) (k6_pay16 (F := Ideal))) (k6_pay18 v124 v134 v140 v144) (k6_pay20 v155) (k6_pay21 v155) (k6_pay22 v155) v165 v171 v175 v187 (ix3 row b q)
        = ∑ ci : Fin 224, v187 (ix2 row ci) * nrelu (Xn ci q) (g ci) (bt ci) (s1 ci) (s2 ci) := fun row q =>
    pay23_apply _ _ _ _ _ _ _ _ _ _ _ _ (fun ci : Fin 224 => nrelu (Xn ci q) (g ci) (bt ci) (s1 ci) (s2 ci)) row b q
      (fun r => (part0_apply v0 v10 v16 v20 r b q).trans (P0.nrelu_eq r q))
      (fun r => (part1_apply v31 v41 v47 v51 r b q).trans (P1.nrelu_eq r q))
      (fun r => (part2_apply v62 v72 v78 v82 r b q).trans (P2.nrelu_eq r q))
      (fun r => (part3_apply v93 v103 v109 v113 r b q).trans (P3.nrelu_eq r q))
      (fun r => (part4_apply v124 v134 v140 v144 r b q).trans (P4.nrelu_eq r q))
      (fun r => by
        rw [mean5_apply, m2c5_apply, msq5_apply, ← nrelu_eq]
        exact P5.nrelu_eq r q)
  simp only [hZr, hM0, hM1]
  simp only [sum9, tapOff_00, tapOff_01, tapOff_02, tapOff_10, tapOff_11, tapOff_12, tapOff_20, tapOff_21, tapOff_22,
    tapMask_0, tapMask_1, tapMask_2, mul_one, shiftRead_zero]
  have w00 : ∀ ci : Fin 224, v187 (ix2 (⟨0 + o.val, by have := o.isLt; omega⟩ : Fin 288) ci) = W o ci 0 0 :=
    fun ci => hW o ci 0 0
  have w01 : ∀ ci : Fin 224, v187 (ix2 (⟨32 + o.val, by have := o.isLt; omega⟩ : Fin 288) ci) = W o ci 0 1 :=
    fun ci => hW o ci 0 1
  have w02 : ∀ ci : Fin 224, v187 (ix2 (⟨64 + o.val, by have := o.isLt; omega⟩ : Fin 288) ci) = W o ci 0 2 :=
    fun ci => hW o ci 0 2
  have w10 : ∀ ci : Fin 224, v187 (ix2 (⟨96 + o.val, by have := o.isLt; omega⟩ : Fin 288) ci) = W o ci 1 0 :=
    fun ci => hW o ci 1 0
  have w11 : ∀ ci : Fin 224, v187 (ix2 (⟨128 + o.val, by have := o.isLt; omega⟩ : Fin 288) ci) = W o ci 1 1 :=
    fun ci => hW o ci 1 1
  have w12 : ∀ ci : Fin 224, v187 (ix2 (⟨160 + o.val, by have := o.isLt; omega⟩ : Fin 288) ci) = W o ci 1 2 :=
    fun ci => hW o ci 1 2
  have w20 : ∀ ci : Fin 224, v187 (ix2 (⟨192 + o.val, by have := o.isLt; omega⟩ : Fin 288) ci) = W o ci 2 0 :=
    fun ci => hW o ci 2 0
  have w21 : ∀ ci : Fin 224, v187 (ix2 (⟨224 + o.val, by have := o.isLt; omega⟩ : Fin 288) ci) = W o ci 2 1 :=
    fun ci => hW o ci 2 1
  have w22 : ∀ ci : Fin 224, v187 (ix2 (⟨256 + o.val, by have := o.isLt; omega⟩ : Fin 288) ci) = W o ci 2 2 :=
    fun ci => hW o ci 2 2
  simp only [w00, w01, w02, w10, w11, w12, w20, w21, w22]

theorem ldCol_apply (x : Vec Ideal S224x1 .f32) (off C : ℕ) (inb : ∀ a, (![off, 0] : Fin 2 → ℕ) a + (⟨2, ![C, 1]⟩ : Shape).size a ≤ S224x1.size a)
    (r : Fin C) (h : off + r.val < 224) :
    View.ld x (Rect.unit (s := S224x1) ![off, 0] (⟨2, ![C, 1]⟩ : Shape).size inb) (ix2 r (0 : Fin 1))
      = x (ix2 (⟨off + r.val, h⟩ : Fin 224) (0 : Fin 1)) :=
  congrArg x (funext fun a => Fin.ext (by
    match a with
    | ⟨0, _⟩ => show off + 1 * r.val = off + r.val; omega
    | ⟨1, _⟩ => show 0 + 1 * 0 = 0; rfl))

theorem ldMask_apply (x : Vec Ideal S2x1024 .f32) (k : ℕ) (hk : k < 2)
    (inb : ∀ a, (![k, 0] : Fin 2 → ℕ) a + S1x1024.size a ≤ S2x1024.size a) (p : Fin 1024) :
    View.ld x (Rect.unit (s := S2x1024) ![k, 0] S1x1024.size inb) (ix2 (0 : Fin 1) p) = x (ix2 (⟨k, hk⟩ : Fin 2) p) :=
  congrArg x (funext fun a => Fin.ext (by
    match a with
    | ⟨0, _⟩ => show k + 1 * 0 = k; omega
    | ⟨1, _⟩ => show 0 + 1 * p.val = p.val; omega))

theorem appendV_lo {C : ℕ} (u : Fin C → EReal) (v : Fin 32 → EReal) (k : ℕ) (hk : k < C) (h : k < C + 32) :
    appendV u v ⟨k, h⟩ = u ⟨k, hk⟩ := dif_pos hk
theorem appendV_hi {C : ℕ} (u : Fin C → EReal) (v : Fin 32 → EReal) (r : Fin 32) (h : C + r.val < C + 32) :
    appendV u v ⟨C + r.val, h⟩ = v r := by
  unfold appendV
  rw [dif_neg (show ¬C + r.val < C by omega)]
  exact congrArg v (Fin.ext (by show C + r.val - C = r.val; omega))
theorem appendCh_lo {C : ℕ} (X : Act C) (Y : Act 32) (n : Fin 128) (k : ℕ) (hk : k < C) (h : k < C + 32) (p : Fin 1024) :
    appendCh X Y n ⟨k, h⟩ p = X n ⟨k, hk⟩ p := dif_pos hk
theorem appendCh_hi {C : ℕ} (X : Act C) (Y : Act 32) (n : Fin 128) (r : Fin 32) (h : C + r.val < C + 32) (p : Fin 1024) :
    appendCh X Y n ⟨C + r.val, h⟩ p = Y n r p := by
  unfold appendCh
  rw [dif_neg (show ¬C + r.val < C by omega)]
  exact congrArg (fun i => Y n i p) (Fin.ext (by show C + r.val - C = r.val; omega))

theorem cat6V_at (m0 : Fin 64 → EReal) (m1 m2 m3 m4 m5 : Fin 32 → EReal) :
    (∀ (r : Fin 64) (h : 0 + r.val < 224), (appendV (appendV (appendV (appendV (appendV m0 m1) m2) m3) m4) m5 : Fin 224 → EReal) ⟨0 + r.val, h⟩ = m0 r)
    ∧ (∀ (r : Fin 32) (h : 64 + r.val < 224), (appendV (appendV (appendV (appendV (appendV m0 m1) m2) m3) m4) m5 : Fin 224 → EReal) ⟨64 + r.val, h⟩ = m1 r)
    ∧ (∀ (r : Fin 32) (h : 96 + r.val < 224), (appendV (appendV (appendV (appendV (appendV m0 m1) m2) m3) m4) m5 : Fin 224 → EReal) ⟨96 + r.val, h⟩ = m2 r)
    ∧ (∀ (r : Fin 32) (h : 128 + r.val < 224), (appendV (appendV (appendV (appendV (appendV m0 m1) m2) m3) m4) m5 : Fin 224 → EReal) ⟨128 + r.val, h⟩ = m3 r)
    ∧ (∀ (r : Fin 32) (h : 160 + r.val < 224), (appendV (appendV (appendV (appendV (appendV m0 m1) m2) m3) m4) m5 : Fin 224 → EReal) ⟨160 + r.val, h⟩ = m4 r)
    ∧ (∀ (r : Fin 32) (h : 192 + r.val < 224), (appendV (appendV (appendV (appendV (appendV m0 m1) m2) m3) m4) m5 : Fin 224 → EReal) ⟨192 + r.val, h⟩ = m5 r) := by
  refine ⟨fun r h => ?_, fun r h => ?_, fun r h => ?_, fun r h => ?_, fun r h => ?_, fun r h => ?_⟩
  · have := r.isLt
    rw [appendV_lo _ _ _ (by omega), appendV_lo _ _ _ (by omega), appendV_lo _ _ _ (by omega), appendV_lo _ _ _ (by omega),
      appendV_lo _ _ _ (by omega)]
    exact congrArg m0 (Fin.ext (Nat.zero_add _))
  · rw [appendV_lo _ _ _ (by omega), appendV_lo _ _ _ (by omega), appendV_lo _ _ _ (by omega), appendV_lo _ _ _ (by omega)]
    exact appendV_hi m0 m1 r _
  · rw [appendV_lo _ _ _ (by omega), appendV_lo _ _ _ (by omega), appendV_lo _ _ _ (by omega)]
    exact appendV_hi (appendV m0 m1) m2 r _
  · rw [appendV_lo _ _ _ (by omega), appendV_lo _ _ _ (by omega)]
    exact appendV_hi (appendV (appendV m0 m1) m2) m3 r _
  · rw [appendV_lo _ _ _ (by omega)]
    exact appendV_hi (appendV (appendV (appendV m0 m1) m2) m3) m4 r _
  · exact appendV_hi (appendV (appendV (appendV (appendV m0 m1) m2) m3) m4) m5 r _

theorem cat6Ch_at (X0 : Act 64) (X1 X2 X3 X4 X5 : Act 32) (n : Fin 128) (p : Fin 1024) :
    (∀ (r : Fin 64) (h : 0 + r.val < 224), (appendCh (appendCh (appendCh (appendCh (appendCh X0 X1) X2) X3) X4) X5 : Act 224) n ⟨0 + r.val, h⟩ p = X0 n r p)
    ∧ (∀ (r : Fin 32) (h : 64 + r.val < 224), (appendCh (appendCh (appendCh (appendCh (appendCh X0 X1) X2) X3) X4) X5 : Act 224) n ⟨64 + r.val, h⟩ p = X1 n r p)
    ∧ (∀ (r : Fin 32) (h : 96 + r.val < 224), (appendCh (appendCh (appendCh (appendCh (appendCh X0 X1) X2) X3) X4) X5 : Act 224) n ⟨96 + r.val, h⟩ p = X2 n r p)
    ∧ (∀ (r : Fin 32) (h : 128 + r.val < 224), (appendCh (appendCh (appendCh (appendCh (appendCh X0 X1) X2) X3) X4) X5 : Act 224) n ⟨128 + r.val, h⟩ p = X3 n r p)
    ∧ (∀ (r : Fin 32) (h : 160 + r.val < 224), (appendCh (appendCh (appendCh (appendCh (appendCh X0 X1) X2) X3) X4) X5 : Act 224) n ⟨160 + r.val, h⟩ p = X4 n r p)
    ∧ (∀ (r : Fin 32) (h : 192 + r.val < 224), (appendCh (appendCh (appendCh (appendCh (appendCh X0 X1) X2) X3) X4) X5 : Act 224) n ⟨192 + r.val, h⟩ p = X5 n r p) := by
  refine ⟨fun r h => ?_, fun r h => ?_, fun r h => ?_, fun r h => ?_, fun r h => ?_, fun r h => ?_⟩
  · have := r.isLt
    rw [appendCh_lo _ _ _ _ (by omega), appendCh_lo _ _ _ _ (by omega), appendCh_lo _ _ _ _ (by omega), appendCh_lo _ _ _ _ (by omega),
      appendCh_lo _ _ _ _ (by omega)]
    exact congrArg (fun i => X0 n i p) (Fin.ext (Nat.zero_add _))
  · rw [appendCh_lo _ _ _ _ (by omega), appendCh_lo _ _ _ _ (by omega), appendCh_lo _ _ _ _ (by omega), appendCh_lo _ _ _ _ (by omega)]
    exact appendCh_hi X0 X1 n r _ p
  · rw [appendCh_lo _ _ _ _ (by omega), appendCh_lo _ _ _ _ (by omega), appendCh_lo _ _ _ _ (by omega)]
    exact appendCh_hi (appendCh X0 X1) X2 n r _ p
  · rw [appendCh_lo _ _ _ _ (by omega), appendCh_lo _ _ _ _ (by omega)]
    exact appendCh_hi (appendCh (appendCh X0 X1) X2) X3 n r _ p
  · rw [appendCh_lo _ _ _ _ (by omega)]
    exact appendCh_hi (appendCh (appendCh (appendCh X0 X1) X2) X3) X4 n r _ p
  · exact appendCh_hi (appendCh (appendCh (appendCh (appendCh X0 X1) X2) X3) X4) X5 n r _ p

end Cert.K6

end
-- ==== Proof.K6Read.lean ====
import proofs.«136216_g2000306190186476_pallasbulk_240_40_alg».proof.Proof.Gen.KernelIdeal.Launch
import proofs.«136216_g2000306190186476_pallasbulk_240_40_alg».proof.Proof.Gen.KernelIdeal.Points
import proofs.«136216_g2000306190186476_pallasbulk_240_40_alg».proof.Proof.Views
import Idealize.ShloMosaic.Lib.ValueIdx
import Idealize.ShloMosaic.Lib.Pipeline.Value

set_option maxRecDepth 16384

noncomputable section

namespace Cert.K6

open Cert.KernelIdeal Cert.KernelIdeal.Gen Cert.Spec Cert.Views
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

abbrev p0 (c : Dev nD) : Vec Ideal S64x128x1024 .bf16 := V c main_v11_0
abbrev p1 (c : Dev nD) : Vec Ideal S32x128x1024 .bf16 := V c main_v16_0
abbrev p2 (c : Dev nD) : Vec Ideal S32x128x1024 .bf16 := V c main_v21_0
abbrev p3 (c : Dev nD) : Vec Ideal S32x128x1024 .bf16 := V c main_v26_0
abbrev p4 (c : Dev nD) : Vec Ideal S32x128x1024 .bf16 := V c main_v31_0
abbrev p5 (c : Dev nD) : Vec Ideal S32x128x1024 .bf16 := V c main_v36_0
abbrev q0 (c : Dev nD) : Vec Ideal S1x64x2 .f32 := V c main_v11_1
abbrev q1 (c : Dev nD) : Vec Ideal S1x32x2 .f32 := V c main_v16_1
abbrev q2 (c : Dev nD) : Vec Ideal S1x32x2 .f32 := V c main_v21_1
abbrev q3 (c : Dev nD) : Vec Ideal S1x32x2 .f32 := V c main_v26_1
abbrev q4 (c : Dev nD) : Vec Ideal S1x32x2 .f32 := V c main_v31_1
abbrev q5 (c : Dev nD) : Vec Ideal S1x32x2 .f32 := V c main_v36_1
abbrev gam (c : Dev nD) : Vec Ideal S224x1 .f32 := V c main_v39
abbrev bet (c : Dev nD) : Vec Ideal S224x1 .f32 := V c main_v40
abbrev wmk (c : Dev nD) : Vec Ideal S2x1024 .f32 := V c main_v10
abbrev wts (c : Dev nD) : Vec Ideal S288x224 .f32 := V c main_v38
def Xin (c : Dev nD) : Act 224 := appendCh (appendCh (appendCh (appendCh (appendCh (actCM (p0 V c)) (actCM (p1 V c))) (actCM (p2 V c))) (actCM (p3 V c))) (actCM (p4 V c))) (actCM (p5 V c))
def S1in (c : Dev nD) : Fin 224 → EReal := appendV (appendV (appendV (appendV (appendV (mom3 (q0 V c) 0) (mom3 (q1 V c) 0)) (mom3 (q2 V c) 0)) (mom3 (q3 V c) 0)) (mom3 (q4 V c) 0)) (mom3 (q5 V c) 0)
def S2in (c : Dev nD) : Fin 224 → EReal := appendV (appendV (appendV (appendV (appendV (mom3 (q0 V c) 1) (mom3 (q1 V c) 1)) (mom3 (q2 V c) 1)) (mom3 (q3 V c) 1)) (mom3 (q4 V c) 1)) (mom3 (q5 V c) 1)
def Yspec (c : Dev nD) : Act 32 := convTaps (wTapMajor (wts V c)) (maskRows (wmk V c)) (bnreluM (col (gam V c)) (col (bet V c)) (S1in V c) (S2in V c) (Xin V c))

def imgOf (t : Fin cfg6.N) (b : Fin 8) : Fin 128 :=
  ⟨8 * t.val + b.val, by have := t.isLt; have hN : cfg6.N = 16 := N_6; have := b.isLt; omega⟩

theorem idx_facts : ∀ t : Fin cfg6.N,
    (win6_0.index t 0 = 0 ∧ win6_0.index t 1 = t.val ∧ win6_0.index t 2 = 0)
    ∧ (win6_1.index t 0 = 0 ∧ win6_1.index t 1 = t.val ∧ win6_1.index t 2 = 0)
    ∧ (win6_2.index t 0 = 0 ∧ win6_2.index t 1 = t.val ∧ win6_2.index t 2 = 0)
    ∧ (win6_3.index t 0 = 0 ∧ win6_3.index t 1 = t.val ∧ win6_3.index t 2 = 0)
    ∧ (win6_4.index t 0 = 0 ∧ win6_4.index t 1 = t.val ∧ win6_4.index t 2 = 0)
    ∧ (win6_5.index t 0 = 0 ∧ win6_5.index t 1 = t.val ∧ win6_5.index t 2 = 0)
    ∧ (win6_6.index t 0 = 0 ∧ win6_6.index t 1 = 0 ∧ win6_6.index t 2 = 0)
    ∧ (win6_7.index t 0 = 0 ∧ win6_7.index t 1 = 0 ∧ win6_7.index t 2 = 0)
    ∧ (win6_8.index t 0 = 0 ∧ win6_8.index t 1 = 0 ∧ win6_8.index t 2 = 0)
    ∧ (win6_9.index t 0 = 0 ∧ win6_9.index t 1 = 0 ∧ win6_9.index t 2 = 0)
    ∧ (win6_10.index t 0 = 0 ∧ win6_10.index t 1 = 0 ∧ win6_10.index t 2 = 0)
    ∧ (win6_11.index t 0 = 0 ∧ win6_11.index t 1 = 0 ∧ win6_11.index t 2 = 0)
    ∧ (win6_12.index t 0 = 0 ∧ win6_12.index t 1 = 0)
    ∧ (win6_13.index t 0 = 0 ∧ win6_13.index t 1 = 0)
    ∧ (win6_14.index t 0 = 0 ∧ win6_14.index t 1 = 0)
    ∧ (win6_15.index t 0 = 0 ∧ win6_15.index t 1 = 0)
    ∧ (win6_16.index t 0 = t.val ∧ win6_16.index t 1 = 0 ∧ win6_16.index t 2 = 0) :=
  (by decide +kernel : ∀ t : Fin grid6.N, _)

abbrev blk0 (c : Dev nD) (t : Fin cfg6.N) : Vec Ideal S64x8x1024 .bf16 :=
  ((cfg6.win 0).blk t).view.read (Elt Ideal) (V c (Pipeline.arrRef spec6 0))
abbrev blk1 (c : Dev nD) (t : Fin cfg6.N) : Vec Ideal S32x8x1024 .bf16 :=
  ((cfg6.win 1).blk t).view.read (Elt Ideal) (V c (Pipeline.arrRef spec6 1))
abbrev blk2 (c : Dev nD) (t : Fin cfg6.N) : Vec Ideal S32x8x1024 .bf16 :=
  ((cfg6.win 2).blk t).view.read (Elt Ideal) (V c (Pipeline.arrRef spec6 2))
abbrev blk3 (c : Dev nD) (t : Fin cfg6.N) : Vec Ideal S32x8x1024 .bf16 :=
  ((cfg6.win 3).blk t).view.read (Elt Ideal) (V c (Pipeline.arrRef spec6 3))
abbrev blk4 (c : Dev nD) (t : Fin cfg6.N) : Vec Ideal S32x8x1024 .bf16 :=
  ((cfg6.win 4).blk t).view.read (Elt Ideal) (V c (Pipeline.arrRef spec6 4))
abbrev blk5 (c : Dev nD) (t : Fin cfg6.N) : Vec Ideal S32x8x1024 .bf16 :=
  ((cfg6.win 5).blk t).view.read (Elt Ideal) (V c (Pipeline.arrRef spec6 5))
abbrev blk6 (c : Dev nD) (t : Fin cfg6.N) : Vec Ideal S1x64x2 .f32 :=
  ((cfg6.win 6).blk t).view.read (Elt Ideal) (V c (Pipeline.arrRef spec6 6))
abbrev blk7 (c : Dev nD) (t : Fin cfg6.N) : Vec Ideal S1x32x2 .f32 :=
  ((cfg6.win 7).blk t).view.read (Elt Ideal) (V c (Pipeline.arrRef spec6 7))
abbrev blk8 (c : Dev nD) (t : Fin cfg6.N) : Vec Ideal S1x32x2 .f32 :=
  ((cfg6.win 8).blk t).view.read (Elt Ideal) (V c (Pipeline.arrRef spec6 8))
abbrev blk9 (c : Dev nD) (t : Fin cfg6.N) : Vec Ideal S1x32x2 .f32 :=
  ((cfg6.win 9).blk t).view.read (Elt Ideal) (V c (Pipeline.arrRef spec6 9))
abbrev blk10 (c : Dev nD) (t : Fin cfg6.N) : Vec Ideal S1x32x2 .f32 :=
  ((cfg6.win 10).blk t).view.read (Elt Ideal) (V c (Pipeline.arrRef spec6 10))
abbrev blk11 (c : Dev nD) (t : Fin cfg6.N) : Vec Ideal S1x32x2 .f32 :=
  ((cfg6.win 11).blk t).view.read (Elt Ideal) (V c (Pipeline.arrRef spec6 11))
abbrev blk12 (c : Dev nD) (t : Fin cfg6.N) : Vec Ideal S224x1 .f32 :=
  ((cfg6.win 12).blk t).view.read (Elt Ideal) (V c (Pipeline.arrRef spec6 12))
abbrev blk13 (c : Dev nD) (t : Fin cfg6.N) : Vec Ideal S224x1 .f32 :=
  ((cfg6.win 13).blk t).view.read (Elt Ideal) (V c (Pipeline.arrRef spec6 13))
abbrev blk14 (c : Dev nD) (t : Fin cfg6.N) : Vec Ideal S2x1024 .f32 :=
  ((cfg6.win 14).blk t).view.read (Elt Ideal) (V c (Pipeline.arrRef spec6 14))
abbrev blk15 (c : Dev nD) (t : Fin cfg6.N) : Vec Ideal S288x224 .f32 :=
  ((cfg6.win 15).blk t).view.read (Elt Ideal) (V c (Pipeline.arrRef spec6 15))

theorem all3 {P : Fin 3 → Prop} (h : P 0 ∧ P 1 ∧ P 2) : ∀ a, P a
  | ⟨0, _⟩ => h.1 | ⟨1, _⟩ => h.2.1 | ⟨2, _⟩ => h.2.2
theorem all2 {P : Fin 2 → Prop} (h : P 0 ∧ P 1) : ∀ a, P a
  | ⟨0, _⟩ => h.1 | ⟨1, _⟩ => h.2

/-- A block at offset zero on every axis reads its array where the array is. -/
theorem emb_whole {s : Shape} (e j : s.Idx) {ix sz : Fin s.rank → ℕ} (he : ∀ a, (e a).val = ix a * sz a + 1 * (j a).val)
    (h0 : ∀ a, ix a = 0) : e = j :=
  funext fun a => Fin.ext (by rw [he a, h0 a]; omega)

/-- A block of eight images at offset `t` on the image axis reads image `8 t + b`. -/
theorem emb_img {C : ℕ} (e : (⟨3, ![C, 128, 1024]⟩ : Shape).Idx) (t : Fin cfg6.N) (r : Fin C) (b : Fin 8) (q : Fin 1024)
    {ix : Fin 3 → ℕ} (h0 : (e 0).val = ix 0 * C + 1 * r.val) (h1 : (e 1).val = ix 1 * 8 + 1 * b.val)
    (h2 : (e 2).val = ix 2 * 1024 + 1 * q.val) (hi : ix 0 = 0 ∧ ix 1 = t.val ∧ ix 2 = 0) : e = ix3 r (imgOf t b) q :=
  funext fun a => Fin.ext (match a with
    | ⟨0, _⟩ => by show (e 0).val = r.val; rw [h0, hi.1]; omega
    | ⟨1, _⟩ => by show (e 1).val = 8 * t.val + b.val; rw [h1, hi.2.1]; omega
    | ⟨2, _⟩ => by show (e 2).val = q.val; rw [h2, hi.2.2]; omega)

theorem rd0 (c : Dev nD) (t : Fin cfg6.N) (r : Fin 64) (b : Fin 8) (q : Fin 1024) :
    blk0 V c t (ix3 r b q) = p0 V c (ix3 r (imgOf t b) q) :=
  congrArg (V c main_v11_0) (emb_img _ t r b q (ix := win6_0.index t) rfl rfl rfl (idx_facts t).1)

theorem rd1 (c : Dev nD) (t : Fin cfg6.N) (r : Fin 32) (b : Fin 8) (q : Fin 1024) :
    blk1 V c t (ix3 r b q) = p1 V c (ix3 r (imgOf t b) q) :=
  congrArg (V c main_v16_0) (emb_img _ t r b q (ix := win6_1.index t) rfl rfl rfl (idx_facts t).2.1)

theorem rd2 (c : Dev nD) (t : Fin cfg6.N) (r : Fin 32) (b : Fin 8) (q : Fin 1024) :
    blk2 V c t (ix3 r b q) = p2 V c (ix3 r (imgOf t b) q) :=
  congrArg (V c main_v21_0) (emb_img _ t r b q (ix := win6_2.index t) rfl rfl rfl (idx_facts t).2.2.1)

theorem rd3 (c : Dev nD) (t : Fin cfg6.N) (r : Fin 32) (b : Fin 8) (q : Fin 1024) :
    blk3 V c t (ix3 r b q) = p3 V c (ix3 r (imgOf t b) q) :=
  congrArg (V c main_v26_0) (emb_img _ t r b q (ix := win6_3.index t) rfl rfl rfl (idx_facts t).2.2.2.1)

theorem rd4 (c : Dev nD) (t : Fin cfg6.N) (r : Fin 32) (b : Fin 8) (q : Fin 1024) :
    blk4 V c t (ix3 r b q) = p4 V c (ix3 r (imgOf t b) q) :=
  congrArg (V c main_v31_0) (emb_img _ t r b q (ix := win6_4.index t) rfl rfl rfl (idx_facts t).2.2.2.2.1)

theorem rd5 (c : Dev nD) (t : Fin cfg6.N) (r : Fin 32) (b : Fin 8) (q : Fin 1024) :
    blk5 V c t (ix3 r b q) = p5 V c (ix3 r (imgOf t b) q) :=
  congrArg (V c main_v36_0) (emb_img _ t r b q (ix := win6_5.index t) rfl rfl rfl (idx_facts t).2.2.2.2.2.1)

theorem rd6 (c : Dev nD) (t : Fin cfg6.N) : blk6 V c t = q0 V c :=
  funext fun j => congrArg (V c main_v11_1) (emb_whole (((cfg6.win 6).blk t).view.emb j) j (ix := win6_6.index t)
    (sz := S1x64x2.size) (fun _ => rfl) (all3 (P := fun a => win6_6.index t a = 0) (idx_facts t).2.2.2.2.2.2.1))

theorem rd7 (c : Dev nD) (t : Fin cfg6.N) : blk7 V c t = q1 V c :=
  funext fun j => congrArg (V c main_v16_1) (emb_whole (((cfg6.win 7).blk t).view.emb j) j (ix := win6_7.index t)
    (sz := S1x32x2.size) (fun _ => rfl) (all3 (P := fun a => win6_7.index t a = 0) (idx_facts t).2.2.2.2.2.2.2.1))

theorem rd8 (c : Dev nD) (t : Fin cfg6.N) : blk8 V c t = q2 V c :=
  funext fun j => congrArg (V c main_v21_1) (emb_whole (((cfg6.win 8).blk t).view.emb j) j (ix := win6_8.index t)
    (sz := S1x32x2.size) (fun _ => rfl) (all3 (P := fun a => win6_8.index t a = 0) (idx_facts t).2.2.2.2.2.2.2.2.1))

theorem rd9 (c : Dev nD) (t : Fin cfg6.N) : blk9 V c t = q3 V c :=
  funext fun j => congrArg (V c main_v26_1) (emb_whole (((cfg6.win 9).blk t).view.emb j) j (ix := win6_9.index t)
    (sz := S1x32x2.size) (fun _ => rfl) (all3 (P := fun a => win6_9.index t a = 0) (idx_facts t).2.2.2.2.2.2.2.2.2.1))

theorem rd10 (c : Dev nD) (t : Fin cfg6.N) : blk10 V c t = q4 V c :=
  funext fun j => congrArg (V c main_v31_1) (emb_whole (((cfg6.win 10).blk t).view.emb j) j (ix := win6_10.index t)
    (sz := S1x32x2.size) (fun _ => rfl) (all3 (P := fun a => win6_10.index t a = 0) (idx_facts t).2.2.2.2.2.2.2.2.2.2.1))

theorem rd11 (c : Dev nD) (t : Fin cfg6.N) : blk11 V c t = q5 V c :=
  funext fun j => congrArg (V c main_v36_1) (emb_whole (((cfg6.win 11).blk t).view.emb j) j (ix := win6_11.index t)
    (sz := S1x32x2.size) (fun _ => rfl) (all3 (P := fun a => win6_11.index t a = 0) (idx_facts t).2.2.2.2.2.2.2.2.2.2.2.1))

theorem rd12 (c : Dev nD) (t : Fin cfg6.N) : blk12 V c t = gam V c :=
  funext fun j => congrArg (V c main_v39) (emb_whole (((cfg6.win 12).blk t).view.emb j) j (ix := win6_12.index t)
    (sz := S224x1.size) (fun _ => rfl) (all2 (P := fun a => win6_12.index t a = 0) (idx_facts t).2.2.2.2.2.2.2.2.2.2.2.2.1))

theorem rd13 (c : Dev nD) (t : Fin cfg6.N) : blk13 V c t = bet V c :=
  funext fun j => congrArg (V c main_v40) (emb_whole (((cfg6.win 13).blk t).view.emb j) j (ix := win6_13.index t)
    (sz := S224x1.size) (fun _ => rfl) (all2 (P := fun a => win6_13.index t a = 0) (idx_facts t).2.2.2.2.2.2.2.2.2.2.2.2.2.1))

theorem rd14 (c : Dev nD) (t : Fin cfg6.N) : blk14 V c t = wmk V c :=
  funext fun j => congrArg (V c main_v10) (emb_whole (((cfg6.win 14).blk t).view.emb j) j (ix := win6_14.index t)
    (sz := S2x1024.size) (fun _ => rfl) (all2 (P := fun a => win6_14.index t a = 0) (idx_facts t).2.2.2.2.2.2.2.2.2.2.2.2.2.2.1))

theorem rd15 (c : Dev nD) (t : Fin cfg6.N) : blk15 V c t = wts V c :=
  funext fun j => congrArg (V c main_v38) (emb_whole (((cfg6.win 15).blk t).view.emb j) j (ix := win6_15.index t)
    (sz := S288x224.size) (fun _ => rfl) (all2 (P := fun a => win6_15.index t a = 0) (idx_facts t).2.2.2.2.2.2.2.2.2.2.2.2.2.2.2.1))

theorem mem_blk (t : Fin cfg6.N) (i : S128x256x1024.Idx) :
    i ∈ ((cfg6.win 16).blk t).view.set ↔ ∀ a : Fin 3, win6_16.index t a * S8x256x1024.size a ≤ (i a).val
      ∧ (i a).val < win6_16.index t a * S8x256x1024.size a + S8x256x1024.size a := by
  show i ∈ ((View.whole main_v41).slice (win6_16.rect t)).set ↔ _
  rw [View.set_slice_whole, Rect.mem_set_unit]
  exact Iff.rfl

theorem cover (i : S128x256x1024.Idx) :
    ∃ t : Fin cfg6.N, (cfg6.win 16).flush t = true ∧ i ∈ ((cfg6.win 16).blk t).view.set := by
  have hN : cfg6.N = 16 := N_6
  have h0 : (i 0).val < 128 := (i 0).isLt
  have h1 : (i 1).val < 256 := (i 1).isLt
  have h2 : (i 2).val < 1024 := (i 2).isLt
  refine ⟨⟨(i 0).val / 8, by omega⟩, flush6_16 _, ?_⟩
  rw [mem_blk]
  have hi := (idx_facts ⟨(i 0).val / 8, by omega⟩).2.2.2.2.2.2.2.2.2.2.2.2.2.2.2.2
  intro a
  match a with
  | ⟨0, _⟩ =>
    show win6_16.index _ 0 * 8 ≤ (i 0).val ∧ (i 0).val < win6_16.index _ 0 * 8 + 8
    rw [hi.1]
    show (i 0).val / 8 * 8 ≤ (i 0).val ∧ (i 0).val < (i 0).val / 8 * 8 + 8
    omega
  | ⟨1, _⟩ =>
    show win6_16.index _ 1 * 256 ≤ (i 1).val ∧ (i 1).val < win6_16.index _ 1 * 256 + 256
    rw [hi.2.1]
    omega
  | ⟨2, _⟩ =>
    show win6_16.index _ 2 * 1024 ≤ (i 2).val ∧ (i 2).val < win6_16.index _ 2 * 1024 + 1024
    rw [hi.2.2]
    omega

end Cert.K6

end
-- ==== Proof.K6Glue.lean ====
import proofs.«136216_g2000306190186476_pallasbulk_240_40_alg».proof.Proof.K6Body
import proofs.«136216_g2000306190186476_pallasbulk_240_40_alg».proof.Proof.K6Read

set_option maxRecDepth 16384

noncomputable section

namespace Cert.K6

open Cert.KernelIdeal Cert.KernelIdeal.Gen Cert.Spec Cert.Views
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

def newBlk (x0 : Vec Ideal S64x8x1024 .bf16) (x1 : Vec Ideal S32x8x1024 .bf16) (x2 : Vec Ideal S32x8x1024 .bf16) (x3 : Vec Ideal S32x8x1024 .bf16) (x4 : Vec Ideal S32x8x1024 .bf16) (x5 : Vec Ideal S32x8x1024 .bf16) (x6 : Vec Ideal S1x64x2 .f32) (x7 : Vec Ideal S1x32x2 .f32) (x8 : Vec Ideal S1x32x2 .f32) (x9 : Vec Ideal S1x32x2 .f32) (x10 : Vec Ideal S1x32x2 .f32) (x11 : Vec Ideal S1x32x2 .f32) (x12 : Vec Ideal S224x1 .f32) (x13 : Vec Ideal S224x1 .f32) (x14 : Vec Ideal S2x1024 .f32) (x15 : Vec Ideal S288x224 .f32) : FVec Ideal S8x32x1024 .f32 :=
  newPay x6 (View.ld x12 (Rect.unit (s := S224x1) ![0, 0] S64x1.size inb_S224x1_S64x1_0_0)) (View.ld x13 (Rect.unit (s := S224x1) ![0, 0] S64x1.size inb_S224x1_S64x1_0_0)) x0
    x7 (View.ld x12 (Rect.unit (s := S224x1) ![64, 0] S32x1.size inb_S224x1_S32x1_64_0)) (View.ld x13 (Rect.unit (s := S224x1) ![64, 0] S32x1.size inb_S224x1_S32x1_64_0)) x1
    x8 (View.ld x12 (Rect.unit (s := S224x1) ![96, 0] S32x1.size inb_S224x1_S32x1_96_0)) (View.ld x13 (Rect.unit (s := S224x1) ![96, 0] S32x1.size inb_S224x1_S32x1_96_0)) x2
    x9 (View.ld x12 (Rect.unit (s := S224x1) ![128, 0] S32x1.size inb_S224x1_S32x1_128_0)) (View.ld x13 (Rect.unit (s := S224x1) ![128, 0] S32x1.size inb_S224x1_S32x1_128_0)) x3
    x10 (View.ld x12 (Rect.unit (s := S224x1) ![160, 0] S32x1.size inb_S224x1_S32x1_160_0)) (View.ld x13 (Rect.unit (s := S224x1) ![160, 0] S32x1.size inb_S224x1_S32x1_160_0)) x4
    x11 (View.ld x12 (Rect.unit (s := S224x1) ![192, 0] S32x1.size inb_S224x1_S32x1_192_0)) (View.ld x13 (Rect.unit (s := S224x1) ![192, 0] S32x1.size inb_S224x1_S32x1_192_0)) x5
    x15 (View.ld x14 (Rect.unit (s := S2x1024) ![0, 0] S1x1024.size inb_S2x1024_S1x1024_0_0))
    (View.ld x14 (Rect.unit (s := S2x1024) ![1, 0] S1x1024.size inb_S2x1024_S1x1024_1_0))

def Gblk (c : Dev nD) (t : Fin cfg6.N) : S8x256x1024.Idx → EReal :=
  fun y => appendCh (Xin V c) (Yspec V c) (imgOf t (y 0)) (y 1) (y 2)

def Xin_at (c : Dev nD) (n : Fin 128) (p : Fin 1024) :=
  cat6Ch_at (actCM (p0 V c)) (actCM (p1 V c)) (actCM (p2 V c)) (actCM (p3 V c)) (actCM (p4 V c)) (actCM (p5 V c)) n p
def Sin_at (c : Dev nD) (k : Fin 2) :=
  cat6V_at (mom3 (q0 V c) k) (mom3 (q1 V c) k) (mom3 (q2 V c) k) (mom3 (q3 V c) k) (mom3 (q4 V c) k) (mom3 (q5 V c) k)

theorem part0_ok (c : Dev nD) (t : Fin cfg6.N) (b : Fin 8) :
    PartOK 0 (by decide) (blk0 V c t) (blk6 V c t) (View.ld (blk12 V c t) (Rect.unit (s := S224x1) ![0, 0] S64x1.size inb_S224x1_S64x1_0_0))
      (View.ld (blk13 V c t) (Rect.unit (s := S224x1) ![0, 0] S64x1.size inb_S224x1_S64x1_0_0)) b (Xin V c (imgOf t b)) (col (gam V c)) (col (bet V c)) (S1in V c) (S2in V c) where
  hx := fun r q => (rd0 V c t r b q).trans
    ((Xin_at V c (imgOf t b) q).1 r _).symm
  hg := fun r => (ldCol_apply (blk12 V c t) 0 64 _ r _).trans (congrFun (rd12 V c t) _)
  hb := fun r => (ldCol_apply (blk13 V c t) 0 64 _ r _).trans (congrFun (rd13 V c t) _)
  h1 := fun r => (congrFun (rd6 V c t) _).trans
    ((Sin_at V c 0).1 r _).symm
  h2 := fun r => (congrFun (rd6 V c t) _).trans
    ((Sin_at V c 1).1 r _).symm

theorem part1_ok (c : Dev nD) (t : Fin cfg6.N) (b : Fin 8) :
    PartOK 64 (by decide) (blk1 V c t) (blk7 V c t) (View.ld (blk12 V c t) (Rect.unit (s := S224x1) ![64, 0] S32x1.size inb_S224x1_S32x1_64_0))
      (View.ld (blk13 V c t) (Rect.unit (s := S224x1) ![64, 0] S32x1.size inb_S224x1_S32x1_64_0)) b (Xin V c (imgOf t b)) (col (gam V c)) (col (bet V c)) (S1in V c) (S2in V c) where
  hx := fun r q => (rd1 V c t r b q).trans
    ((Xin_at V c (imgOf t b) q).2.1 r _).symm
  hg := fun r => (ldCol_apply (blk12 V c t) 64 32 _ r _).trans (congrFun (rd12 V c t) _)
  hb := fun r => (ldCol_apply (blk13 V c t) 64 32 _ r _).trans (congrFun (rd13 V c t) _)
  h1 := fun r => (congrFun (rd7 V c t) _).trans
    ((Sin_at V c 0).2.1 r _).symm
  h2 := fun r => (congrFun (rd7 V c t) _).trans
    ((Sin_at V c 1).2.1 r _).symm

theorem part2_ok (c : Dev nD) (t : Fin cfg6.N) (b : Fin 8) :
    PartOK 96 (by decide) (blk2 V c t) (blk8 V c t) (View.ld (blk12 V c t) (Rect.unit (s := S224x1) ![96, 0] S32x1.size inb_S224x1_S32x1_96_0))
      (View.ld (blk13 V c t) (Rect.unit (s := S224x1) ![96, 0] S32x1.size inb_S224x1_S32x1_96_0)) b (Xin V c (imgOf t b)) (col (gam V c)) (col (bet V c)) (S1in V c) (S2in V c) where
  hx := fun r q => (rd2 V c t r b q).trans
    ((Xin_at V c (imgOf t b) q).2.2.1 r _).symm
  hg := fun r => (ldCol_apply (blk12 V c t) 96 32 _ r _).trans (congrFun (rd12 V c t) _)
  hb := fun r => (ldCol_apply (blk13 V c t) 96 32 _ r _).trans (congrFun (rd13 V c t) _)
  h1 := fun r => (congrFun (rd8 V c t) _).trans
    ((Sin_at V c 0).2.2.1 r _).symm
  h2 := fun r => (congrFun (rd8 V c t) _).trans
    ((Sin_at V c 1).2.2.1 r _).symm

theorem part3_ok (c : Dev nD) (t : Fin cfg6.N) (b : Fin 8) :
    PartOK 128 (by decide) (blk3 V c t) (blk9 V c t) (View.ld (blk12 V c t) (Rect.unit (s := S224x1) ![128, 0] S32x1.size inb_S224x1_S32x1_128_0))
      (View.ld (blk13 V c t) (Rect.unit (s := S224x1) ![128, 0] S32x1.size inb_S224x1_S32x1_128_0)) b (Xin V c (imgOf t b)) (col (gam V c)) (col (bet V c)) (S1in V c) (S2in V c) where
  hx := fun r q => (rd3 V c t r b q).trans
    ((Xin_at V c (imgOf t b) q).2.2.2.1 r _).symm
  hg := fun r => (ldCol_apply (blk12 V c t) 128 32 _ r _).trans (congrFun (rd12 V c t) _)
  hb := fun r => (ldCol_apply (blk13 V c t) 128 32 _ r _).trans (congrFun (rd13 V c t) _)
  h1 := fun r => (congrFun (rd9 V c t) _).trans
    ((Sin_at V c 0).2.2.2.1 r _).symm
  h2 := fun r => (congrFun (rd9 V c t) _).trans
    ((Sin_at V c 1).2.2.2.1 r _).symm

theorem part4_ok (c : Dev nD) (t : Fin cfg6.N) (b : Fin 8) :
    PartOK 160 (by decide) (blk4 V c t) (blk10 V c t) (View.ld (blk12 V c t) (Rect.unit (s := S224x1) ![160, 0] S32x1.size inb_S224x1_S32x1_160_0))
      (View.ld (blk13 V c t) (Rect.unit (s := S224x1) ![160, 0] S32x1.size inb_S224x1_S32x1_160_0)) b (Xin V c (imgOf t b)) (col (gam V c)) (col (bet V c)) (S1in V c) (S2in V c) where
  hx := fun r q => (rd4 V c t r b q).trans
    ((Xin_at V c (imgOf t b) q).2.2.2.2.1 r _).symm
  hg := fun r => (ldCol_apply (blk12 V c t) 160 32 _ r _).trans (congrFun (rd12 V c t) _)
  hb := fun r => (ldCol_apply (blk13 V c t) 160 32 _ r _).trans (congrFun (rd13 V c t) _)
  h1 := fun r => (congrFun (rd10 V c t) _).trans
    ((Sin_at V c 0).2.2.2.2.1 r _).symm
  h2 := fun r => (congrFun (rd10 V c t) _).trans
    ((Sin_at V c 1).2.2.2.2.1 r _).symm

theorem part5_ok (c : Dev nD) (t : Fin cfg6.N) (b : Fin 8) :
    PartOK 192 (by decide) (blk5 V c t) (blk11 V c t) (View.ld (blk12 V c t) (Rect.unit (s := S224x1) ![192, 0] S32x1.size inb_S224x1_S32x1_192_0))
      (View.ld (blk13 V c t) (Rect.unit (s := S224x1) ![192, 0] S32x1.size inb_S224x1_S32x1_192_0)) b (Xin V c (imgOf t b)) (col (gam V c)) (col (bet V c)) (S1in V c) (S2in V c) where
  hx := fun r q => (rd5 V c t r b q).trans
    ((Xin_at V c (imgOf t b) q).2.2.2.2.2 r _).symm
  hg := fun r => (ldCol_apply (blk12 V c t) 192 32 _ r _).trans (congrFun (rd12 V c t) _)
  hb := fun r => (ldCol_apply (blk13 V c t) 192 32 _ r _).trans (congrFun (rd13 V c t) _)
  h1 := fun r => (congrFun (rd11 V c t) _).trans
    ((Sin_at V c 0).2.2.2.2.2 r _).symm
  h2 := fun r => (congrFun (rd11 V c t) _).trans
    ((Sin_at V c 1).2.2.2.2.2 r _).symm

theorem new_eq (c : Dev nD) (t : Fin cfg6.N) (b : Fin 8) (o : Fin 32) (p : Fin 1024) :
    newBlk (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (ix3 b o p)
      = Gblk V c t (ix3 b (⟨224 + o.val, by have := o.isLt; omega⟩ : Fin 256) p) := by
  unfold newBlk
  refine (newCh_apply _ _ _ _ _ _ _ _ _ _ _ _ _ _ _ _ _ _ _ _ _ _ _ _ _ _ _
    (Xin V c (imgOf t b)) (col (gam V c)) (col (bet V c)) (S1in V c) (S2in V c) (wTapMajor (wts V c)) (maskRows (wmk V c)) b
    (part0_ok V c t b) (part1_ok V c t b) (part2_ok V c t b) (part3_ok V c t b) (part4_ok V c t b) (part5_ok V c t b)
    (fun o ci kh kw => congrFun (rd15 V c t) _)
    (fun p => (ldMask_apply (blk14 V c t) 0 (by decide) _ p).trans (congrFun (rd14 V c t) _))
    (fun p => (ldMask_apply (blk14 V c t) 1 (by decide) _ p).trans (congrFun (rd14 V c t) _)) o p).trans ?_
  exact (appendCh_hi (Xin V c) (Yspec V c) (imgOf t b) o (by have := o.isLt; omega) p).symm

/-- A loaded group's block holds its own channels of the appended tensor. -/
theorem old_eq_of {C off : ℕ} {hoff : off + C ≤ 224} {x : Vec Ideal ⟨3, ![C, 8, 1024]⟩ .bf16}
    {m : Vec Ideal ⟨3, ![1, C, 2]⟩ .f32} {gv bv : Vec Ideal ⟨2, ![C, 1]⟩ .f32} {g bt s1 s2 : Fin 224 → EReal}
    (c : Dev nD) (t : Fin cfg6.N) (b : Fin 8) (P : PartOK off hoff x m gv bv b (Xin V c (imgOf t b)) g bt s1 s2)
    (r : Fin C) (p : Fin 1024) :
    x (ix3 r b p) = Gblk V c t (ix3 b (⟨off + r.val, by have := r.isLt; omega⟩ : Fin 256) p) :=
  (P.hx r p).trans
    (appendCh_lo (Xin V c) (Yspec V c) (imgOf t b) (off + r.val) (by have := r.isLt; omega) (by have := r.isLt; omega) p).symm

abbrev stores7 (x0 : Vec Ideal S64x8x1024 .bf16) (x1 : Vec Ideal S32x8x1024 .bf16) (x2 : Vec Ideal S32x8x1024 .bf16) (x3 : Vec Ideal S32x8x1024 .bf16) (x4 : Vec Ideal S32x8x1024 .bf16) (x5 : Vec Ideal S32x8x1024 .bf16) (x6 : Vec Ideal S1x64x2 .f32) (x7 : Vec Ideal S1x32x2 .f32) (x8 : Vec Ideal S1x32x2 .f32) (x9 : Vec Ideal S1x32x2 .f32) (x10 : Vec Ideal S1x32x2 .f32) (x11 : Vec Ideal S1x32x2 .f32) (x12 : Vec Ideal S224x1 .f32) (x13 : Vec Ideal S224x1 .f32) (x14 : Vec Ideal S2x1024 .f32) (x15 : Vec Ideal S288x224 .f32) : List (View.Piece (Elt Ideal) S8x256x1024 .f32) :=
  [⟨(Rect.unit (s := S8x256x1024) ![0, 224, 0] S8x32x1024.size inb_S8x256x1024_S8x32x1024_0_224_0), newBlk x0 x1 x2 x3 x4 x5 x6 x7 x8 x9 x10 x11 x12 x13 x14 x15⟩,
      ⟨(Rect.unit (s := S8x256x1024) ![0, 192, 0] S8x32x1024.size inb_S8x256x1024_S8x32x1024_0_192_0), k6_pay1 (F := Ideal) (k6_pay36 x5)⟩,
      ⟨(Rect.unit (s := S8x256x1024) ![0, 160, 0] S8x32x1024.size inb_S8x256x1024_S8x32x1024_0_160_0), k6_pay35 (F := Ideal) x4⟩,
      ⟨(Rect.unit (s := S8x256x1024) ![0, 128, 0] S8x32x1024.size inb_S8x256x1024_S8x32x1024_0_128_0), k6_pay34 (F := Ideal) x3⟩,
      ⟨(Rect.unit (s := S8x256x1024) ![0, 96, 0] S8x32x1024.size inb_S8x256x1024_S8x32x1024_0_96_0), k6_pay33 (F := Ideal) x2⟩,
      ⟨(Rect.unit (s := S8x256x1024) ![0, 64, 0] S8x32x1024.size inb_S8x256x1024_S8x32x1024_0_64_0), k6_pay32 (F := Ideal) x1⟩,
      ⟨(Rect.unit (s := S8x256x1024) ![0, 0, 0] S8x64x1024.size inb_S8x256x1024_S8x64x1024_0_0_0), k6_pay31 (F := Ideal) (k6_pay30 x0)⟩]

/-- A piece's index, moved to the piece's channel offset, is its place in the block. -/
theorem at_off {C : ℕ} (G : S8x256x1024.Idx → EReal) (off : ℕ) (inb) (b : Fin 8) (r : Fin C) (p : Fin 1024) (h : off + r.val < 256) :
    G (ix3 b (⟨off + r.val, h⟩ : Fin 256) p)
      = G ((Rect.unit (s := S8x256x1024) ![0, off, 0] (⟨3, ![8, C, 1024]⟩ : Shape).size inb).emb (ix3 b r p)) :=
  congrArg G (funext fun a => Fin.ext (by
    match a with
    | ⟨0, _⟩ => show b.val = 0 + 1 * b.val; omega
    | ⟨1, _⟩ => show off + r.val = off + 1 * r.val; omega
    | ⟨2, _⟩ => show p.val = 0 + 1 * p.val; omega))

/-- Seven pieces that each agree with G on their rectangle give G wherever they cover. -/
theorem canon7_apply (x0 : Vec Ideal S64x8x1024 .bf16) (x1 : Vec Ideal S32x8x1024 .bf16) (x2 : Vec Ideal S32x8x1024 .bf16) (x3 : Vec Ideal S32x8x1024 .bf16) (x4 : Vec Ideal S32x8x1024 .bf16) (x5 : Vec Ideal S32x8x1024 .bf16) (x6 : Vec Ideal S1x64x2 .f32) (x7 : Vec Ideal S1x32x2 .f32) (x8 : Vec Ideal S1x32x2 .f32) (x9 : Vec Ideal S1x32x2 .f32) (x10 : Vec Ideal S1x32x2 .f32) (x11 : Vec Ideal S1x32x2 .f32) (x12 : Vec Ideal S224x1 .f32) (x13 : Vec Ideal S224x1 .f32) (x14 : Vec Ideal S2x1024 .f32) (x15 : Vec Ideal S288x224 .f32) (G : S8x256x1024.Idx → EReal)
    (h0 : ∀ (b : Fin 8) (r : Fin 64) (p : Fin 1024), x0 (ix3 r b p) = G (ix3 b (⟨0 + r.val, by have := r.isLt; omega⟩ : Fin 256) p))
    (h1 : ∀ (b : Fin 8) (r : Fin 32) (p : Fin 1024), x1 (ix3 r b p) = G (ix3 b (⟨64 + r.val, by have := r.isLt; omega⟩ : Fin 256) p))
    (h2 : ∀ (b : Fin 8) (r : Fin 32) (p : Fin 1024), x2 (ix3 r b p) = G (ix3 b (⟨96 + r.val, by have := r.isLt; omega⟩ : Fin 256) p))
    (h3 : ∀ (b : Fin 8) (r : Fin 32) (p : Fin 1024), x3 (ix3 r b p) = G (ix3 b (⟨128 + r.val, by have := r.isLt; omega⟩ : Fin 256) p))
    (h4 : ∀ (b : Fin 8) (r : Fin 32) (p : Fin 1024), x4 (ix3 r b p) = G (ix3 b (⟨160 + r.val, by have := r.isLt; omega⟩ : Fin 256) p))
    (h5 : ∀ (b : Fin 8) (r : Fin 32) (p : Fin 1024), x5 (ix3 r b p) = G (ix3 b (⟨192 + r.val, by have := r.isLt; omega⟩ : Fin 256) p))
    (h6 : ∀ (b : Fin 8) (o : Fin 32) (p : Fin 1024),
      newBlk x0 x1 x2 x3 x4 x5 x6 x7 x8 x9 x10 x11 x12 x13 x14 x15 (ix3 b o p) = G (ix3 b (⟨224 + o.val, by have := o.isLt; omega⟩ : Fin 256) p))
    (y : S8x256x1024.Idx) (hcov : ∃ pc ∈ stores7 x0 x1 x2 x3 x4 x5 x6 x7 x8 x9 x10 x11 x12 x13 x14 x15, y ∈ pc.1.set) :
    View.canon (stores7 x0 x1 x2 x3 x4 x5 x6 x7 x8 x9 x10 x11 x12 x13 x14 x15) y = G y := by
  refine View.canon_apply_of_pieces G _ (fun pc hpc x => ?_) y hcov
  simp only [List.mem_cons, List.mem_nil_iff, or_false] at hpc
  rcases hpc with rfl | rfl | rfl | rfl | rfl | rfl | rfl
  · obtain ⟨b, o, p, rfl⟩ : ∃ (b : Fin 8) (o : Fin 32) (p : Fin 1024), x = ix3 b o p := ⟨x 0, x 1, x 2, eq_ix3 x⟩
    exact (h6 b o p).trans (at_off G 224 (by decide) b o p _)
  · obtain ⟨b, r, p, rfl⟩ : ∃ (b : Fin 8) (r : Fin 32) (p : Fin 1024), x = ix3 b r p := ⟨x 0, x 1, x 2, eq_ix3 x⟩
    exact (old5_apply x5 b r p).trans ((h5 b r p).trans (at_off G 192 (by decide) b r p _))
  · obtain ⟨b, r, p, rfl⟩ : ∃ (b : Fin 8) (r : Fin 32) (p : Fin 1024), x = ix3 b r p := ⟨x 0, x 1, x 2, eq_ix3 x⟩
    exact (old4_apply x4 b r p).trans ((h4 b r p).trans (at_off G 160 (by decide) b r p _))
  · obtain ⟨b, r, p, rfl⟩ : ∃ (b : Fin 8) (r : Fin 32) (p : Fin 1024), x = ix3 b r p := ⟨x 0, x 1, x 2, eq_ix3 x⟩
    exact (old3_apply x3 b r p).trans ((h3 b r p).trans (at_off G 128 (by decide) b r p _))
  · obtain ⟨b, r, p, rfl⟩ : ∃ (b : Fin 8) (r : Fin 32) (p : Fin 1024), x = ix3 b r p := ⟨x 0, x 1, x 2, eq_ix3 x⟩
    exact (old2_apply x2 b r p).trans ((h2 b r p).trans (at_off G 96 (by decide) b r p _))
  · obtain ⟨b, r, p, rfl⟩ : ∃ (b : Fin 8) (r : Fin 32) (p : Fin 1024), x = ix3 b r p := ⟨x 0, x 1, x 2, eq_ix3 x⟩
    exact (old1_apply x1 b r p).trans ((h1 b r p).trans (at_off G 64 (by decide) b r p _))
  · obtain ⟨b, r, p, rfl⟩ : ∃ (b : Fin 8) (r : Fin 64) (p : Fin 1024), x = ix3 b r p := ⟨x 0, x 1, x 2, eq_ix3 x⟩
    exact (old0_apply x0 b r p).trans ((h0 b r p).trans (at_off G 0 (by decide) b r p _))

end Cert.K6

end
-- ==== Proof.K6.lean ====
import proofs.«136216_g2000306190186476_pallasbulk_240_40_alg».proof.Proof.FrameK
import proofs.«136216_g2000306190186476_pallasbulk_240_40_alg».proof.Proof.K6Glue

set_option maxRecDepth 16384

noncomputable section

namespace Cert.K6

open Cert.KernelIdeal Cert.KernelIdeal.Gen Cert.KernelIdeal.GenP Cert.Spec Cert.Views
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

abbrev bufOut (c : Dev nD) : Vec Ideal S128x256x1024 .f32 := (dat6 V c).arrAt 16 cfg6.N

theorem hz3 : (![0, 0, 0] : Fin 3 → ℕ) = fun _ => 0 := funext fun a => by fin_cases a <;> rfl
theorem hz2 : (![0, 0] : Fin 2 → ℕ) = fun _ => 0 := funext fun a => by fin_cases a <;> rfl

/-- What the body stores, as seven pieces. -/
theorem run_pieces (c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15) :
    (kernelRun6_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15).1 = stores7 x0 x1 x2 x3 x4 x5 x6 x7 x8 x9 x10 x11 x12 x13 x14 x15 := by
  unfold kernelRun6_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S64x8x1024) hz3, View.ld_unit_zero (S := S32x8x1024) hz3, View.ld_unit_zero (S := S1x64x2) hz3,
    View.ld_unit_zero (S := S1x32x2) hz3, View.ld_unit_zero (S := S288x224) hz2]
  rfl

/-- If every stored piece agrees with G on its channels, the stored block is G. -/
theorem out_eq (c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
    (x0 : Vec Ideal S64x8x1024 .bf16) (x1 : Vec Ideal S32x8x1024 .bf16) (x2 : Vec Ideal S32x8x1024 .bf16) (x3 : Vec Ideal S32x8x1024 .bf16) (x4 : Vec Ideal S32x8x1024 .bf16) (x5 : Vec Ideal S32x8x1024 .bf16) (x6 : Vec Ideal S1x64x2 .f32) (x7 : Vec Ideal S1x32x2 .f32) (x8 : Vec Ideal S1x32x2 .f32) (x9 : Vec Ideal S1x32x2 .f32) (x10 : Vec Ideal S1x32x2 .f32) (x11 : Vec Ideal S1x32x2 .f32) (x12 : Vec Ideal S224x1 .f32) (x13 : Vec Ideal S224x1 .f32) (x14 : Vec Ideal S2x1024 .f32) (x15 : Vec Ideal S288x224 .f32) (G : S8x256x1024.Idx → EReal)
    (h0 : ∀ (b : Fin 8) (r : Fin 64) (p : Fin 1024), x0 (ix3 r b p) = G (ix3 b (⟨0 + r.val, by have := r.isLt; omega⟩ : Fin 256) p))
    (h1 : ∀ (b : Fin 8) (r : Fin 32) (p : Fin 1024), x1 (ix3 r b p) = G (ix3 b (⟨64 + r.val, by have := r.isLt; omega⟩ : Fin 256) p))
    (h2 : ∀ (b : Fin 8) (r : Fin 32) (p : Fin 1024), x2 (ix3 r b p) = G (ix3 b (⟨96 + r.val, by have := r.isLt; omega⟩ : Fin 256) p))
    (h3 : ∀ (b : Fin 8) (r : Fin 32) (p : Fin 1024), x3 (ix3 r b p) = G (ix3 b (⟨128 + r.val, by have := r.isLt; omega⟩ : Fin 256) p))
    (h4 : ∀ (b : Fin 8) (r : Fin 32) (p : Fin 1024), x4 (ix3 r b p) = G (ix3 b (⟨160 + r.val, by have := r.isLt; omega⟩ : Fin 256) p))
    (h5 : ∀ (b : Fin 8) (r : Fin 32) (p : Fin 1024), x5 (ix3 r b p) = G (ix3 b (⟨192 + r.val, by have := r.isLt; omega⟩ : Fin 256) p))
    (h6 : ∀ (b : Fin 8) (o : Fin 32) (p : Fin 1024),
      newBlk x0 x1 x2 x3 x4 x5 x6 x7 x8 x9 x10 x11 x12 x13 x14 x15 (ix3 b o p) = G (ix3 b (⟨224 + o.val, by have := o.isLt; omega⟩ : Fin 256) p)) :
    out6_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 = G := by
  unfold out6_A_16
  rw [View.read_writes_eq_canon _ _ _ (fun y => cover6_A_16 (y := y) ..),
    run_pieces]
  funext y
  refine canon7_apply x0 x1 x2 x3 x4 x5 x6 x7 x8 x9 x10 x11 x12 x13 x14 x15 G h0 h1 h2 h3 h4 h5 h6 y ?_
  have hc := cover6_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 y
  rw [run_pieces] at hc
  exact hc

theorem outsAt_eq (c : Dev nD) (t : Fin cfg6.N) : outsAt6 V c t = Gblk V c t := by
  unfold outsAt6
  exact out_eq _ _ _ _ _ _ _ _ _ _ _ _ _ _ _ _ _ _ _ _ _ _ _ _ _ _ _ _ _ _ _ _ _ _ _ _
    (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (Gblk V c t)
    (fun b r p => old_eq_of V c t b (part0_ok V c t b) r p) (fun b r p => old_eq_of V c t b (part1_ok V c t b) r p) (fun b r p => old_eq_of V c t b (part2_ok V c t b) r p)
    (fun b r p => old_eq_of V c t b (part3_ok V c t b) r p) (fun b r p => old_eq_of V c t b (part4_ok V c t b) r p) (fun b r p => old_eq_of V c t b (part5_ok V c t b) r p)
    (fun b o p => new_eq V c t b o p)

def Gfull (c : Dev nD) : Vec Ideal S128x256x1024 .f32 :=
  fun i => appendCh (Xin V c) (Yspec V c) (i 0) (i 1) (i 2)

/-- Point t's block is images 8 t … 8 t + 7 of the appended tensor. -/
theorem flushed_eq (c : Dev nD) (t : Fin cfg6.N) :
    (dat6 V c).flushed 16 t = ((cfg6.win 16).blk t).view.read (Elt Ideal) (Gfull V c) := by
  show (cfg6.win 16).cut (grid6.coords t) ((dat6 V c).after 16 t) = _
  rw [after6_16, outsAt_eq]
  have hi := (idx_facts t).2.2.2.2.2.2.2.2.2.2.2.2.2.2.2.2
  funext j
  show appendCh (Xin V c) (Yspec V c) (imgOf t (j 0)) (j 1) (j 2)
    = appendCh (Xin V c) (Yspec V c) (((cfg6.win 16).blk t).view.emb j 0) (((cfg6.win 16).blk t).view.emb j 1)
        (((cfg6.win 16).blk t).view.emb j 2)
  have e0 : imgOf t (j 0) = ((cfg6.win 16).blk t).view.emb j 0 :=
    Fin.ext (by show 8 * t.val + (j 0).val = win6_16.index t 0 * 8 + 1 * (j 0).val; rw [hi.1]; omega)
  have e1 : (j 1 : Fin 256) = ((cfg6.win 16).blk t).view.emb j 1 :=
    Fin.ext (by show (j 1).val = win6_16.index t 1 * 256 + 1 * (j 1).val; rw [hi.2.1]; omega)
  have e2 : (j 2 : Fin 1024) = ((cfg6.win 16).blk t).view.emb j 2 :=
    Fin.ext (by show (j 2).val = win6_16.index t 2 * 1024 + 1 * (j 2).val; rw [hi.2.2]; omega)
  exact congr (congr (congrArg (appendCh (Xin V c) (Yspec V c)) e0) e1) e2

theorem final (c : Dev nD) : (dat6 V c).arrAt 16 cfg6.N = Gfull V c :=
  (dat6 V c).arrAt_eq_of_cover 16 (Gfull V c) (fun t _ => flushed_eq V c t) cover

/-- The result array is the input channels with the layer's new channels appended. -/
theorem arr_out (c : Dev nD) : actNM (bufOut V c) = appendCh (Xin V c) (Yspec V c) := by
  funext n ch p
  exact congrFun (final V c) (ix3 n ch p)

end Cert.K6

end
-- ==== Proof.KThread.lean ====
import proofs.«136216_g2000306190186476_pallasbulk_240_40_alg».proof.Proof.KThreadL4
import proofs.«136216_g2000306190186476_pallasbulk_240_40_alg».proof.Proof.K6

set_option maxRecDepth 16384

noncomputable section

namespace Cert.KThread

open Cert.KernelIdeal Cert.KernelIdeal.Gen Cert.KernelIdeal.GenP Cert.Spec Cert.Views Cert.Block Cert.Alg Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

theorem Xin_L5 (c : Dev nD) (hR : (args m c).Real) : Cert.K6.Xin (V15 m ρ) c = X5 (args m c) :=
  (in5 m ρ c hR 15 (by decide) (by decide)).1

theorem S1in_L5 (c : Dev nD) (hR : (args m c).Real) : Cert.K6.S1in (V15 m ρ) c = sum1 (X5 (args m c)) :=
  (in5 m ρ c hR 15 (by decide) (by decide)).2.1

theorem S2in_L5 (c : Dev nD) (hR : (args m c).Real) : Cert.K6.S2in (V15 m ρ) c = sum2 (X5 (args m c)) :=
  (in5 m ρ c hR 15 (by decide) (by decide)).2.2

theorem Yspec_L5 (c : Dev nD) (hR : (args m c).Real) : Cert.K6.Yspec (V15 m ρ) c = Y5 (args m c) :=
  layer_of_specs (Cert.KHost.h6_w (W14 m ρ c)) (arg_at m ρ c main_arg18 (by decide) 14 (by decide))
    (Cert.KHost.h6_gam (W14 m ρ c)) (arg_at m ρ c main_arg16 (by decide) 14 (by decide))
    (Cert.KHost.h6_bet (W14 m ρ c)) (arg_at m ρ c main_arg17 (by decide) 14 (by decide))
    (mask_at m ρ c 15 (by decide) (by decide)) ⟨Xin_L5 m ρ c hR, S1in_L5 m ρ c hR, S2in_L5 m ρ c hR⟩
    hR.w5 hR.g5 hR.b5 (isReal_X5 hR)

theorem out_X6 (c : Dev nD) (hR : (args m c).Real) :
    actNM (W16 m ρ c (Proc.devRef .tc main_v41) : Vec Ideal S128x256x1024 .f32) = X6 (args m c) := by
  have e : (W16 m ρ c (Proc.devRef .tc main_v41) : Vec Ideal S128x256x1024 .f32) = Cert.K6.bufOut (V15 m ρ) c :=
    W16_arr m ρ c 16
  rw [e, Cert.K6.arr_out (V15 m ρ) c]
  exact congrArg₂ appendCh (Xin_L5 m ρ c hR) (Yspec_L5 m ρ c hR)

/-- The closing host operation lays each image's pixels out as 32 rows of 32. -/
theorem result_eq (c : Dev nD) (hR : (args m c).Real) :
    (W17 m ρ c (Proc.devRef .tc main_v42) : Vec Ideal S128x256x32x32 .f32) = Cert.Block.result (args m c) := by
  funext i
  refine (congrArg (W17 m ρ c (Proc.devRef .tc main_v42) : Vec Ideal S128x256x32x32 .f32) (ValueIdx.eq_ix4 i)).trans ?_
  refine (Cert.KHost.h7_out (W16 m ρ c) (i 0) (i 1) (i 2) (i 3)).trans ?_
  exact congrFun (congrFun (congrFun (out_X6 m ρ c hR) (i 0)) (i 1)) _

end Cert.KThread

end
-- ==== Proof.ChanMoments.lean ====
import proofs.«136216_g2000306190186476_pallasbulk_240_40_alg».proof.Proof.Views
import Idealize.ShloMosaic.Lib.ValueIdx
import Idealize.ShloMosaic.Lib.ValueLayout
import Idealize.ShloMosaic.Lib.Pipeline.Value
import Idealize.ShloMosaic.PureOps.Ideal.Laws

noncomputable section

namespace Cert.ChanMoments

open Cert.Spec Cert.Views Idealize.ShloMosaic Idealize.ShloMosaic.TcCoe Idealize.ShloMosaic.ValueIdx Idealize.SL.Sem

abbrev S1 (a : ℕ) : Shape := ⟨1, ![a]⟩
abbrev S2 (a b : ℕ) : Shape := ⟨2, ![a, b]⟩
abbrev S3 (a b c : ℕ) : Shape := ⟨3, ![a, b, c]⟩

theorem hz2 : (![0, 0] : Fin 2 → Nat) = fun _ => 0 := funext fun a => by fin_cases a <;> rfl

/-- An index below the extent lies in the block at block index 0 of that extent. -/
theorem mem_block_zero {k s x v n : ℕ} (hk : k = 0) (hx : x = n) (hv : v < n) : k * s ≤ v ∧ v < k * s + x := by
  subst hk hx
  omega

variable {C : ℕ}

/-- Channels 0 … C - 1 of a [1, 256, 1024] block. -/
abbrev rowsOf {F : FTy → Type} (x : Vec F (S3 1 256 1024) .f32)
    (h : ∀ a, (![0, 0, 0] : Fin 3 → Nat) a + (S3 1 C 1024).size a ≤ (S3 1 256 1024).size a) : Vec F (S3 1 C 1024) .f32 :=
  View.ld x (Rect.unit (s := S3 1 256 1024) ![0, 0, 0] (S3 1 C 1024).size h)

/-- The rectangle starts at the origin, so coordinates are kept. -/
theorem rowsOf_apply {F : FTy → Type} (hC : C ≤ 256) (x : Vec F (S3 1 256 1024) .f32) (h) (ch : Fin C) (p : Fin 1024) :
    rowsOf x h (ix3 (0 : Fin 1) ch p) = x (ix3 (0 : Fin 1) (⟨ch.val, by omega⟩ : Fin 256) p) := by
  show x _ = x _
  refine congrArg x (funext fun a => Fin.ext ?_)
  match a with
  | ⟨0, _⟩ => rfl
  | ⟨1, _⟩ => show 0 + 1 * ch.val = ch.val; omega
  | ⟨2, _⟩ => show 0 + 1 * p.val = p.val; omega

/-- A sum along the second axis kept as a column is a finite sum over that axis. -/
theorem rowsum_apply (v : FVec Ideal (S2 C 1024) .f32) (h : (S2 C 1024).Reduces [1] (S1 C)) (hφ : FKind.Formats .f32)
    (hacc : (0x00000000#32 : BitVec 32) = FKind.add.neutral .f32 hφ) (hc : (S1 C).ShapeCasts (S2 C 1)) (ch : Fin C) :
    shapeCast (S2 C 1) (multiReduction .add [1] (S1 C) v 0x00000000#32 h hφ hacc) hc (ix2 ch (0 : Fin 1))
      = ∑ p : Fin 1024, v (ix2 ch p) := by
  refine (shapeCast_apply _ hc (ix2 ch (0 : Fin 1)) (ix1 ch) ?_).trans ?_
  · rw [Shape.rowMajor_val_one, Shape.rowMajor_val_two]
    show ch.val = ch.val * 1 + 0
    omega
  · refine (Ideal.multiReduction_add_single v _ h hφ hacc (ix1 ch)).trans ?_
    exact Finset.sum_congr rfl fun p _ => congrArg v (funext fun a => match a with | ⟨0, _⟩ => rfl | ⟨1, _⟩ => rfl)

/-- Two columns side by side: column m of the table is the m-th column. -/
theorem cat_col (x : Fin 2 → (S2 C 1).Idx → EReal) (h : Shape.Concatenates [S2 C 1, S2 C 1] (S2 C 2) 1) (ch : Fin C) (m : Fin 2) :
    concatenate (S2 C 2) 1 [⟨S2 C 1, x 0⟩, ⟨S2 C 1, x 1⟩] h (ix2 ch m) = x m (ix2 ch (0 : Fin 1)) :=
  match m with
  | ⟨0, _⟩ => concatenate_pair_apply_left (1 : Fin (S2 C 2).rank) (x 0) (x 1) h (ix2 ch (0 : Fin 2)) rfl (ix2 ch (0 : Fin 1))
      (fun b => match b with | ⟨0, _⟩ => rfl | ⟨1, _⟩ => rfl)
  | ⟨1, _⟩ => concatenate_pair_apply_right (1 : Fin (S2 C 2).rank) (x 0) (x 1) h (ix2 ch (1 : Fin 2)) rfl rfl (ix2 ch (0 : Fin 1))
      (fun b => match b with | ⟨0, _⟩ => fun _ => rfl | ⟨1, _⟩ => fun hne => absurd rfl hne) rfl

/-- The summand of moment m: the entry, or its square. -/
def pw (m : Fin 2) (y : EReal) : EReal := match m with | ⟨0, _⟩ => y | ⟨1, _⟩ => y * y

/-- What a point stores at (ch, m): the accumulator's entry plus the m-th moment of the block's row ch. -/
theorem pay2_apply (v0 : Vec Ideal (S3 1 C 1024) .f32) (v11 : Vec Ideal (S2 C 2) .f32) (h1 : (S3 1 C 1024).ShapeCasts (S2 C 1024))
    (h2 : (S2 C 1024).Reduces [1] (S1 C)) (hφ : FKind.Formats .f32) (hacc : (0x00000000#32 : BitVec 32) = FKind.add.neutral .f32 hφ)
    (h3 : (S1 C).ShapeCasts (S2 C 1)) (h4 : Shape.Concatenates [S2 C 1, S2 C 1] (S2 C 2) 1) (h5 : (S2 C 2).ShapeCasts (S2 C 2))
    (ch : Fin C) (m : Fin 2) :
    addf (F := Ideal) (shapeCast (S2 C 2) v11 h5) (concatenate (S2 C 2) 1
      [⟨S2 C 1, shapeCast (S2 C 1) (multiReduction .add [1] (S1 C) (shapeCast (S2 C 1024) v0 h1) 0x00000000#32 h2 hφ hacc) h3⟩,
       ⟨S2 C 1, shapeCast (S2 C 1) (multiReduction .add [1] (S1 C)
          (mulf (F := Ideal) (shapeCast (S2 C 1024) v0 h1) (shapeCast (S2 C 1024) v0 h1)) 0x00000000#32 h2 hφ hacc) h3⟩] h4) (ix2 ch m)
      = v11 (ix2 ch m) + ∑ p : Fin 1024, pw m (v0 (ix3 (0 : Fin 1) ch p)) := by
  refine (addf_apply _ _ _).trans (congrArg₂ (· + ·) (congrFun (shapeCast_self v11 _) _) ?_)
  refine (cat_col (fun k => match k with | ⟨0, _⟩ => _ | ⟨1, _⟩ => _) h4 ch m).trans ?_
  match m with
  | ⟨0, _⟩ => exact (rowsum_apply _ _ _ _ _ ch).trans (Finset.sum_congr rfl fun p _ => shapeCast_1ab_ab_apply v0 _ ch p)
  | ⟨1, _⟩ => exact (rowsum_apply _ _ _ _ _ ch).trans (Finset.sum_congr rfl fun p _ => (mulf_apply _ _ _).trans
      (congrArg₂ (· * ·) (shapeCast_1ab_ab_apply v0 _ ch p) (shapeCast_1ab_ab_apply v0 _ ch p)))

/-- Image s's m-th moment of channel ch (zero past the last image, so that partial sums are sums over a range). -/
def img (hC : C ≤ 256) (x : Vec Ideal (S3 128 256 1024) .f32) (m : Fin 2) (s : ℕ) (ch : Fin C) : EReal :=
  if h : s < 128 then ∑ p : Fin 1024, pw m (x (ix3 (⟨s, h⟩ : Fin 128) (⟨ch.val, lt_of_lt_of_le ch.isLt hC⟩ : Fin 256) p)) else 0

section Run
variable {N : ℕ} (hN : N = 128) (hC : C ≤ 256) (x : Vec Ideal (S3 128 256 1024) .f32)
  (blk : Fin N → Vec Ideal (S3 1 256 1024) .f32)
  (inb : ∀ a, (![0, 0, 0] : Fin 3 → Nat) a + (S3 1 C 1024).size a ≤ (S3 1 256 1024).size a)
  (hblk : ∀ (t : Fin N) (ht : t.val < 128) (ch : Fin 256) (p : Fin 1024),
    blk t (ix3 (0 : Fin 1) ch p) = x (ix3 (⟨t.val, ht⟩ : Fin 128) ch p))
  (o : (n : ℕ) → n < N → Vec Ideal (S2 C 2) .f32) (z : Vec Ideal (S2 C 2) .f32) (hz : ∀ j, z j = 0)
  (f : Vec Ideal (S3 1 C 1024) .f32 → Vec Ideal (S2 C 2) .f32 → Vec Ideal (S2 C 2) .f32)
  (hf : ∀ v a (ch : Fin C) (m : Fin 2), f v a (ix2 ch m) = a (ix2 ch m) + ∑ p : Fin 1024, pw m (v (ix3 (0 : Fin 1) ch p)))
  (hA : ∀ t : Fin N, t.val % 128 = 0 → o t.val t.isLt = f (rowsOf (blk t) inb) z)
  (hB : ∀ t : Fin N, ¬t.val % 128 = 0 →
    o t.val t.isLt = f (rowsOf (blk t) inb) (o (t.val - 1) (Nat.lt_of_le_of_lt (Nat.sub_le _ _) t.isLt)))

include hN hblk in
theorem rows_sum (t : Fin N) (ch : Fin C) (m : Fin 2) :
    ∑ p : Fin 1024, pw m (rowsOf (blk t) inb (ix3 (0 : Fin 1) ch p)) = img hC x m t.val ch := by
  have ht : t.val < 128 := lt_of_lt_of_eq t.isLt hN
  unfold img
  rw [dif_pos ht]
  exact Finset.sum_congr rfl fun p _ => congrArg (pw m) ((rowsOf_apply hC (blk t) inb ch p).trans (hblk t ht _ p))

include hN hblk hz hf hA hB in
/-- After point n the accumulator holds the moments summed over images 0 … n (sums of extended reals regroup freely). -/
theorem outs_eq : ∀ (n : ℕ) (h : n < N) (ch : Fin C) (m : Fin 2),
    o n h (ix2 ch m) = ∑ s ∈ Finset.range (n + 1), img hC x m s ch
  | 0, h, ch, m => by
    refine (congrFun (hA ⟨0, h⟩ rfl) _).trans ((hf _ _ ch m).trans ?_)
    rw [hz, zero_add, Finset.sum_range_one]
    exact rows_sum hN hC x blk inb hblk ⟨0, h⟩ ch m
  | n + 1, h, ch, m => by
    refine (congrFun (hB ⟨n + 1, h⟩ (by dsimp only; omega)) _).trans ((hf _ _ ch m).trans ?_)
    rw [Finset.sum_range_succ]
    exact congrArg₂ (· + ·) (outs_eq n (Nat.lt_of_succ_lt h) ch m) (rows_sum hN hC x blk inb hblk ⟨n + 1, h⟩ ch m)

include hN hblk hz hf hA hB in
/-- A table equal to the accumulator after the last point holds the two channel moments of the buffer's first C channels. -/
theorem moments (out : Vec Ideal (S2 C 2) .f32) (hout : ∀ h, out = o 127 h) (ch : Fin C) :
    mom2 out 0 ch = sum1 (takeCh C hC (actNM x)) ch ∧ mom2 out 1 ch = sum2 (takeCh C hC (actNM x)) ch := by
  have key : ∀ m : Fin 2, out (ix2 ch m) = ∑ n : Fin 128, ∑ p : Fin 1024, pw m (x (ix3 n (⟨ch.val, by omega⟩ : Fin 256) p)) := fun m => by
    rw [hout (by omega)]
    refine (outs_eq hN hC x blk inb hblk o z hz f hf hA hB 127 _ ch m).trans ?_
    show ∑ s ∈ Finset.range 128, img hC x m s ch = _
    rw [← Fin.sum_univ_eq_sum_range (fun s => img hC x m s ch) 128]
    exact Finset.sum_congr rfl fun n _ => dif_pos n.isLt
  exact ⟨key 0, key 1⟩

end Run

end Cert.ChanMoments

end
-- ==== Proof.RS0.lean ====
import proofs.«136216_g2000306190186476_pallasbulk_240_40_alg».proof.Proof.Gen.ReferenceIdeal.Frame
import proofs.«136216_g2000306190186476_pallasbulk_240_40_alg».proof.Proof.ChanMoments

set_option maxRecDepth 16384

noncomputable section

namespace Cert.RS0

open Cert.ReferenceIdeal Cert.ReferenceIdeal.Gen Cert.Spec Cert.Views Cert.ChanMoments Idealize.ShloMosaic Idealize.ShloMosaic.TcCoe Idealize.ShloMosaic.ValueIdx Idealize.SL.Sem
open Idealize.ShloMosaic.Pipeline (Dat Cfg Window)

section Pieces
variable {F : FTy → Type} [FloatOps F]

/-- A later point adds its moments onto what the accumulator held. -/
theorem out_B (c i a1 h1 a2 h2 hc) (x : Vec F S1x256x1024 .f32) (xo) :
    out0_B_1 c i a1 h1 a2 h2 hc x xo = k0_pay2 (rowsOf x inb_S1x256x1024_S1x64x1024_0_0_0) xo := by
  unfold out0_B_1
  rw [View.read_writes_eq_canon _ _ _ (cover0_B_1 c i a1 h1 a2 h2 hc x xo)]
  unfold kernelRun0_B
  dsimp only
  sl_unfold_words
  rw [View.canon_unit_zero hz2]
  simp only [View.readAt_eq_ld, h1.read_unread, h2.read_unread, View.ld_unit_zero (S := S64x2) hz2]

/-- The first point adds its moments onto zeros. -/
theorem out_A (c i a1 h1 a2 h2 hc) (x : Vec F S1x256x1024 .f32) :
    out0_A_1 c i a1 h1 a2 h2 hc x = k0_pay2 (rowsOf x inb_S1x256x1024_S1x64x1024_0_0_0) (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S64x2) hz2, View.readCov_unit_zero (S := S64x2) _ hz2]
  simp only [View.readAt_eq_ld, h1.read_unread, View.ld_unit_zero (S := S64x2) hz2]

end Pieces

variable (V : (c : Dev nD) → (b : Ref sig .tc) → Buf (Elt Ideal) ((c : Thread nD τ).loc b))

abbrev xbuf (c : Dev nD) : Vec Ideal S128x256x1024 .f32 := V c main_call0_v2
abbrev momOut (c : Dev nD) : Vec Ideal S64x2 .f32 := (dat0 V c).arrAt 1 cfg0.N
abbrev xblk (c : Dev nD) (t : Fin cfg0.N) : Vec Ideal S1x256x1024 .f32 := iblk0 V c 0 t

theorem idx_in : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Point t's block is image t of the buffer. -/
theorem xblk_apply (c : Dev nD) (t : Fin cfg0.N) (ht : t.val < 128) (ch : Fin 256) (p : Fin 1024) :
    xblk V c t (ix3 (0 : Fin 1) ch p) = xbuf V c (ix3 (⟨t.val, ht⟩ : Fin 128) ch p) := by
  obtain ⟨i0, i1, i2⟩ := idx_in t
  unfold xblk iblk0
  rw [View.read_apply]
  show V c main_call0_v2 _ = V c main_call0_v2 _
  congr 1
  funext a
  apply Fin.ext
  match a with
  | ⟨0, _⟩ => show win0_0.index t 0 * 1 + 1 * 0 = t.val; rw [i0]; omega
  | ⟨1, _⟩ => show win0_0.index t 1 * 256 + 1 * ch.val = ch.val; rw [i1]; omega
  | ⟨2, _⟩ => show win0_0.index t 2 * 1024 + 1 * p.val = p.val; rw [i2]; omega

abbrev tLast : Fin cfg0.N := ⟨127, by rw [show cfg0.N = 128 from N_0]; decide⟩

theorem idx_out : ∀ t : Fin cfg0.N, ∀ a, win0_1.index t a = 0 :=
  (by decide +kernel : ∀ t : Fin grid0.N, ∀ a, win0_1.index t a = 0)

theorem flushed_eq (c : Dev nD) (t : Fin cfg0.N) (hf : (cfg0.win 1).flush t = true) :
    (dat0 V c).flushed 1 t = ((cfg0.win 1).blk t).view.read (Elt Ideal) (outsAt0 V c tLast.val tLast.isLt) := by
  have hN : cfg0.N = 128 := N_0
  have h3 : t.val = 127 := by have := (flush0_1 t).mp hf; have := t.isLt; omega
  obtain rfl : t = tLast := Fin.ext h3
  show (cfg0.win 1).cut (grid0.coords tLast) ((dat0 V c).after 1 tLast) = _
  rw [after0_1]
  have hz' : (fun a => win0_1.index tLast a * main_call0_v13.ty.shape.size a) = fun _ => 0 :=
    funext fun a => by rw [idx_out tLast a, Nat.zero_mul]
  exact (Memref.read_access_unit_zero (Elt Ideal) main_call0_v13 hz' (fun a => by rw [congrFun hz' a]; simp) _).symm

theorem final (c : Dev nD) : momOut V c = outsAt0 V c tLast.val tLast.isLt :=
  (dat0 V c).arrAt_eq_of_cover 1 (outsAt0 V c tLast.val tLast.isLt) (flushed_eq V c) fun i =>
    ⟨tLast, (flush0_1 tLast).mpr rfl, by
      show i ∈ ((View.whole main_call0_v13).slice (win0_1.rect tLast)).set
      rw [View.set_slice_whole, Rect.mem_set_unit]
      intro a
      match a with
      | ⟨0, _⟩ => exact mem_block_zero (idx_out tLast 0) rfl (i 0).isLt
      | ⟨1, _⟩ => exact mem_block_zero (idx_out tLast 1) rfl (i 1).isLt⟩

/-- The table's two columns are the two channel moments of the buffer's first 64 channels. -/
theorem arr_mom (c : Dev nD) (ch : Fin 64) :
    mom2 (momOut V c) 0 ch = sum1 (takeCh 64 (by norm_num) (actNM (xbuf V c))) ch
  ∧ mom2 (momOut V c) 1 ch = sum2 (takeCh 64 (by norm_num) (actNM (xbuf V c))) ch :=
  moments N_0 (by norm_num) (xbuf V c) (xblk V c) inb_S1x256x1024_S1x64x1024_0_0_0 (xblk_apply V c) (outsAt0 V c)
    (k0_pay1 (F := Ideal)) (fun _ => by unfold k0_pay1; exact Ideal.ofBits_zero_f32)
    (k0_pay2 (F := Ideal)) (fun v a ch m => by unfold k0_pay2; exact pay2_apply v a _ _ _ _ _ _ _ ch m)
    (fun t h0 => (outsAt0_A V c t h0).trans (out_A (F := Ideal) c _ _ _ _ _ _ _))
    (fun t h0 => (outsAt0_B V c t h0).trans (out_B (F := Ideal) c _ _ _ _ _ _ _ _))
    (momOut V c) (fun _ => final V c) ch

end Cert.RS0

end
-- ==== Proof.RC1.lean ====
import proofs.«136216_g2000306190186476_pallasbulk_240_40_alg».proof.Proof.Gen.ReferenceIdeal.Frame
import proofs.«136216_g2000306190186476_pallasbulk_240_40_alg».proof.Proof.Views
import proofs.«136216_g2000306190186476_pallasbulk_240_40_alg».proof.Proof.ConvRows

set_option maxRecDepth 16384

noncomputable section

namespace Cert.RC1

open Cert.ReferenceIdeal Cert.ReferenceIdeal.Gen Cert.Spec Cert.Views Cert.ConvRows Idealize.ShloMosaic
  Idealize.ShloMosaic.TcCoe Idealize.ShloMosaic.ValueIdx Idealize.SL.Sem

variable (V : (c : Dev nD) → (b : Ref sig .tc) → Buf (Elt Ideal) ((c : Thread nD τ).loc b))

theorem ev : Ev 64 := ⟨by decide, by decide, by decide, by decide, by decide⟩

abbrev xbuf (c : Dev nD) : Vec Ideal S128x256x1024 .f32 := V c main_call0_v2
abbrev scl (c : Dev nD) : Vec Ideal S64x1 .f32 := V c main_call0_v32
abbrev shf (c : Dev nD) : Vec Ideal S64x1 .f32 := V c main_call0_v33
abbrev wmk (c : Dev nD) : Vec Ideal S2x1024 .f32 := V c main_call0_v12
abbrev wts (c : Dev nD) : Vec Ideal S32x576 .f32 := V c main_call0_v31
abbrev yOut (c : Dev nD) : Vec Ideal S128x32x1024 .f32 := (dat1 V c).arrAt 5 cfg1.N

theorem idx_facts : ∀ t : Fin cfg1.N,
    (win1_0.index t (0 : Fin 3) = t.val ∧ win1_0.index t (1 : Fin 3) = 0 ∧ win1_0.index t (2 : Fin 3) = 0)
    ∧ (∀ a, win1_1.index t a = 0) ∧ (∀ a, win1_2.index t a = 0) ∧ (∀ a, win1_3.index t a = 0) ∧ (∀ a, win1_4.index t a = 0)
    ∧ (win1_5.index t (0 : Fin 3) = t.val ∧ win1_5.index t (1 : Fin 3) = 0 ∧ win1_5.index t (2 : Fin 3) = 0) :=
  (by decide +kernel : ∀ t : Fin grid1.N, _)

theorem xblk_apply (c : Dev nD) (t : Fin cfg1.N) (n : Fin 128) (hn : n.val = t.val) (ch : Fin 256) (q : Fin 1024) :
    iblk1 V c 0 t (ix3 (0 : Fin 1) ch q) = xbuf V c (ix3 n ch q) := by
  obtain ⟨⟨e0, e1, e2⟩, -⟩ := idx_facts t
  refine at_congr (V c main_call0_v2) fun a => ?_
  match a with
  | ⟨0, _⟩ => show win1_0.index t (0 : Fin 3) * 1 + 1 * 0 = n.val; omega
  | ⟨1, _⟩ => show win1_0.index t (1 : Fin 3) * 256 + 1 * ch.val = ch.val; omega
  | ⟨2, _⟩ => show win1_0.index t (2 : Fin 3) * 1024 + 1 * q.val = q.val; omega

theorem sblk_eq (c : Dev nD) (t : Fin cfg1.N) : iblk1 V c 1 t = scl V c :=
  funext fun y => at_congr (V c main_call0_v32) fun a => win1_1.rect_emb_val_of_index_zero t a ((idx_facts t).2.1 a) y

theorem hblk_eq (c : Dev nD) (t : Fin cfg1.N) : iblk1 V c 2 t = shf V c :=
  funext fun y => at_congr (V c main_call0_v33) fun a => win1_2.rect_emb_val_of_index_zero t a ((idx_facts t).2.2.1 a) y

theorem mblk_eq (c : Dev nD) (t : Fin cfg1.N) : iblk1 V c 3 t = wmk V c :=
  funext fun y => at_congr (V c main_call0_v12) fun a => win1_3.rect_emb_val_of_index_zero t a ((idx_facts t).2.2.2.1 a) y

theorem wblk_eq (c : Dev nD) (t : Fin cfg1.N) : iblk1 V c 4 t = wts V c :=
  funext fun y => at_congr (V c main_call0_v31) fun a => win1_4.rect_emb_val_of_index_zero t a ((idx_facts t).2.2.2.2.1 a) y

/-- Where point t's block of the output lies in the array. -/
theorem emb5 (t : Fin cfg1.N) (u : Fin 1) (o : Fin 32) (p : Fin 1024) :
    ((cfg1.win 5).blk t).view.emb (ix3 u o p)
      = (ix3 (⟨t.val, lt_of_lt_of_eq t.isLt N_1⟩ : Fin 128) o p : S128x32x1024.Idx) := by
  obtain ⟨-, -, -, -, -, ⟨e0, e1, e2⟩⟩ := idx_facts t
  funext a
  apply Fin.ext
  match a with
  | ⟨0, _⟩ => show win1_5.index t (0 : Fin 3) * 1 + 1 * u.val = t.val; omega
  | ⟨1, _⟩ => show win1_5.index t (1 : Fin 3) * 32 + 1 * o.val = o.val; omega
  | ⟨2, _⟩ => show win1_5.index t (2 : Fin 3) * 1024 + 1 * p.val = p.val; omega

/-- The output the region leaves, as a function of the arrays it found. -/
def yArr (c : Dev nD) : Vec Ideal S128x32x1024 .f32 := fun i =>
  convCols (wChanMinor (C := 64) (wts V c)) (maskRows (wmk V c))
    (affineRelu (col (scl V c)) (col (shf V c)) (takeCh 64 (by norm_num) (actNM (xbuf V c)))) (i 0) (i 1) (i 2)

/-- What point t contributes to the output is image t's slab of that array. -/
theorem flushed_eq (c : Dev nD) (t : Fin cfg1.N) :
    (dat1 V c).flushed 5 t = ((cfg1.win 5).blk t).view.read (Elt Ideal) (yArr V c) := by
  have ht : t.val < 128 := lt_of_lt_of_eq t.isLt N_1
  show (cfg1.win 5).cut (grid1.coords t) ((dat1 V c).after 5 t) = _
  rw [after1_5]
  unfold out1_5
  rw [View.canon_unit_zero hz3]
  funext y
  obtain ⟨u, o, p, rfl⟩ : ∃ (u : Fin 1) (o : Fin 32) (p : Fin 1024), y = ix3 u o p := ⟨y 0, y 1, y 2, eq_ix3 y⟩
  rw [View.read_apply, emb5]
  refine pay_apply ev _ _ _ _ _ _
    (affineRelu (col (scl V c)) (col (shf V c)) (takeCh 64 (by norm_num) (actNM (xbuf V c))) ⟨t.val, ht⟩)
    (maskRows (wmk V c)) (wChanMinor (C := 64) (wts V c)) (fun ci q => ?_) (fun p' => ?_) (fun p' => ?_)
    (fun o' ci kh kw => ?_) u o p
  · rw [ld_chan (iblk1 V c 0 t) _ ci q ⟨ci.val, by omega⟩ rfl, xblk_apply V c t ⟨t.val, ht⟩ rfl,
      View.ld_unit_zero (S := S64x1) hz2, View.ld_unit_zero (S := S64x1) hz2, sblk_eq, hblk_eq]
    rfl
  · rw [ld_row _ 0 _ p' 0 rfl, mblk_eq]
    rfl
  · rw [ld_row _ 1 _ p' 1 rfl, mblk_eq]
    rfl
  · rw [View.ld_unit_zero (S := S32x576) hz2, wblk_eq]
    rfl

/-- Every index of the output lies in a point's block: image n's slab in point n's. -/
theorem cover (i : S128x32x1024.Idx) :
    ∃ t : Fin cfg1.N, (cfg1.win 5).flush t = true ∧ i ∈ ((cfg1.win 5).blk t).view.set := by
  obtain ⟨n, o, p, rfl⟩ : ∃ (n : Fin 128) (o : Fin 32) (p : Fin 1024), i = ix3 n o p := ⟨i 0, i 1, i 2, eq_ix3 i⟩
  have h := ((cfg1.win 5).blk ⟨n.val, lt_of_lt_of_eq n.isLt N_1.symm⟩).view.emb_mem_set (ix3 (0 : Fin 1) o p)
  rw [emb5] at h
  exact ⟨_, flush1_5 _, h⟩

/-- The output, read image-major, is the convolution of the rectified first 64 channels of the buffer. -/
theorem arr_y (c : Dev nD) :
    actNM (yOut V c) = convCols (wChanMinor (C := 64) (wts V c)) (maskRows (wmk V c))
      (affineRelu (col (scl V c)) (col (shf V c)) (takeCh 64 (by norm_num) (actNM (xbuf V c)))) := by
  rw [show yOut V c = yArr V c from (dat1 V c).arrAt_eq_of_cover 5 (yArr V c) (fun t _ => flushed_eq V c t) cover]
  rfl

end Cert.RC1

end
-- ==== Proof.RThreadCarry.lean ====
import proofs.«136216_g2000306190186476_pallasbulk_240_40_alg».proof.Proof.Gen.ReferenceIdeal.Frame

namespace Cert.RThread

open Idealize.ShloMosaic

/-- A host stretch keeps a buffer that is none of its operations' results: each inequality of references is decided. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

end Cert.RThread
-- ==== Proof.RHost.lean ====
import proofs.«136216_g2000306190186476_pallasbulk_240_40_alg».proof.Proof.Gen.ReferenceIdeal.Launch
import proofs.«136216_g2000306190186476_pallasbulk_240_40_alg».proof.Proof.Views
import proofs.«136216_g2000306190186476_pallasbulk_240_40_alg».proof.Proof.SpecAlg
import proofs.«136216_g2000306190186476_pallasbulk_240_40_alg».proof.Proof.Block
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Tactic.Ring

set_option maxRecDepth 16384
noncomputable section

namespace Cert.RHost
open Cert.ReferenceIdeal Cert.ReferenceIdeal.Gen Cert.Spec Cert.Views
open Idealize.ShloMosaic Idealize.ShloMosaic.TcCoe Idealize.ShloMosaic.ValueIdx Idealize.SL.Sem

section Casts
variable {Val : EltTy → Type} {T : BufTy}

theorem ofBuf_toBuf (x : StableHlo.TRef sig T) (v : T.Contents Val) : x.ofBuf (x.toBuf v) = v := by
  simp [StableHlo.TRef.ofBuf, StableHlo.TRef.toBuf]

theorem ofBuf_eq (x : StableHlo.TRef sig T) (v : x.ref.ty.Contents Val) (v' : T.Contents Val) (h : HEq v v') :
    x.ofBuf v = v' :=
  eq_of_heq ((cast_heq _ _).trans h)

theorem toBuf_eq (x : StableHlo.TRef sig T) (v : T.Contents Val) (v' : x.ref.ty.Contents Val) (h : HEq v v') :
    x.toBuf v = v' :=
  eq_of_heq ((cast_heq _ _).trans h)

end Casts

section Fold
variable {α ι κ : Type} [DecidableEq κ]

theorem foldl_set_miss (g : ι → Option κ) (v : ι → α) (st : (κ → α) → ι → (κ → α))
    (hs : ∀ r n i, g n = some i → st r n = fun i' => if i' = i then v n else r i')
    (hn : ∀ r n, g n = none → st r n = r) (i' : κ) :
    ∀ (L : List ι) (r : κ → α), (∀ n ∈ L, g n ≠ some i') → L.foldl st r i' = r i' := by
  intro L
  induction L with
  | nil => intro r _; rfl
  | cons n L ih =>
    intro r h
    rw [List.foldl_cons, ih (st r n) (fun m hm => h m (List.mem_cons_of_mem _ hm))]
    have hn' := h n (List.mem_cons_self ..)
    cases hg : g n with
    | none => rw [hn r n hg]
    | some i =>
      rw [hs r n i hg]
      have hne : i' ≠ i := fun e => hn' (by rw [hg, e])
      show (if i' = i then v n else r i') = r i'
      rw [if_neg hne]

theorem foldl_set_hit (g : ι → Option κ) (v : ι → α) (st : (κ → α) → ι → (κ → α))
    (hs : ∀ r n i, g n = some i → st r n = fun i' => if i' = i then v n else r i')
    (hn : ∀ r n, g n = none → st r n = r) (i' : κ) (n₀ : ι) (h₀ : g n₀ = some i')
    (huniq : ∀ m, g m = some i' → m = n₀) :
    ∀ (L : List ι) (r : κ → α), n₀ ∈ L → L.foldl st r i' = v n₀ := by
  intro L
  induction L with
  | nil => intro r h; exact absurd h (by simp)
  | cons n L ih =>
    intro r h
    rw [List.foldl_cons]
    by_cases hL : n₀ ∈ L
    · exact ih _ hL
    · have hn0 : n₀ = n := by
        rcases List.mem_cons.mp h with h | h
        · exact h
        · exact absurd h hL
      subst hn0
      rw [foldl_set_miss g v st hs hn i' L _ (fun m hm hgm => hL (huniq m hgm ▸ hm)), hs r n₀ i' h₀]
      show (if i' = i' then v n₀ else r i') = v n₀
      rw [if_pos rfl]

end Fold

section Scatter
variable {α : Type} {s si u : Shape} {w : Nat}

theorem scatter_set_miss (d : ScatterDims s si u) (x : s.Idx → α) (idx : IVec si w) (upd : u.Idx → α) (i' : s.Idx)
    (h : ∀ j, d.resultIdx? j idx ≠ some i') : Host.scatter d (fun _ b => b) x idx upd i' = x i' := by
  unfold Host.scatter
  refine foldl_set_miss (fun n : Fin u.numel => d.resultIdx? (u.rowMajor.symm n) idx) (fun n => upd (u.rowMajor.symm n)) _
    (fun r n i hg => ?_) (fun r n hg => ?_) i' (List.finRange u.numel) x (fun n _ => h _)
  · have hg' : d.resultIdx? (u.rowMajor.symm n) idx = some i := hg
    simp only [hg']
  · have hg' : d.resultIdx? (u.rowMajor.symm n) idx = none := hg
    simp only [hg']

theorem scatter_set_hit (d : ScatterDims s si u) (x : s.Idx → α) (idx : IVec si w) (upd : u.Idx → α) (i' : s.Idx)
    (j₀ : u.Idx) (h₀ : d.resultIdx? j₀ idx = some i') (huniq : ∀ j, d.resultIdx? j idx = some i' → j = j₀) :
    Host.scatter d (fun _ b => b) x idx upd i' = upd j₀ := by
  unfold Host.scatter
  refine (foldl_set_hit (fun n : Fin u.numel => d.resultIdx? (u.rowMajor.symm n) idx) (fun n => upd (u.rowMajor.symm n)) _
    (fun r n i hg => ?_) (fun r n hg => ?_) i' (u.rowMajor j₀) ?_ (fun m hm => ?_) (List.finRange u.numel) x
    (List.mem_finRange _)).trans ?_
  · have hg' : d.resultIdx? (u.rowMajor.symm n) idx = some i := hg
    simp only [hg']
  · have hg' : d.resultIdx? (u.rowMajor.symm n) idx = none := hg
    simp only [hg']
  · show d.resultIdx? (u.rowMajor.symm (u.rowMajor j₀)) idx = some i'
    rw [Equiv.symm_apply_apply]; exact h₀
  · have e := huniq _ hm
    rw [← e, Equiv.apply_symm_apply]
  · show upd (u.rowMajor.symm (u.rowMajor j₀)) = upd j₀
    rw [Equiv.symm_apply_apply]

end Scatter

theorem forall_fin3 {P : Fin 3 → Prop} (h0 : P 0) (h1 : P 1) (h2 : P 2) : ∀ a, P a := by
  intro a
  match a with
  | ⟨0, _⟩ => exact h0
  | ⟨1, _⟩ => exact h1
  | ⟨2, _⟩ => exact h2

abbrev sd : ScatterDims S128x256x1024 S1 S128x32x1024 := scatter_S128x256x1024_S1_S128x32x1024_012_n_1_0

theorem sd_start0 (j : S128x32x1024.Idx) (idx : IVec S1 32) : sd.start j idx (0 : Fin 3) = 0 := by
  have h : (0 : Fin 3) ∉ sd.scatterDimsToOperandDims := by decide
  unfold ScatterDims.start
  rw [dif_neg h]
theorem sd_start2 (j : S128x32x1024.Idx) (idx : IVec S1 32) : sd.start j idx (2 : Fin 3) = 0 := by
  have h : (2 : Fin 3) ∉ sd.scatterDimsToOperandDims := by decide
  unfold ScatterDims.start
  rw [dif_neg h]
theorem sd_start1 (j : S128x32x1024.Idx) (idx : IVec S1 32) (off : ℕ) (hidx : ∀ k, (idx k).toInt = (off : ℤ)) :
    sd.start j idx (1 : Fin 3) = (off : ℤ) := by
  have h : (1 : Fin 3) ∈ sd.scatterDimsToOperandDims := by decide
  unfold ScatterDims.start
  rw [dif_pos h]
  exact hidx _
theorem sd_window0 (j : S128x32x1024.Idx) : sd.window j (0 : Fin 3) = (j 0).val := by
  have h : (0 : Fin 3) ∈ sd.sKept := by decide
  unfold ScatterDims.window
  rw [dif_pos h]; rfl
theorem sd_window1 (j : S128x32x1024.Idx) : sd.window j (1 : Fin 3) = (j 1).val := by
  have h : (1 : Fin 3) ∈ sd.sKept := by decide
  unfold ScatterDims.window
  rw [dif_pos h]; rfl
theorem sd_window2 (j : S128x32x1024.Idx) : sd.window j (2 : Fin 3) = (j 2).val := by
  have h : (2 : Fin 3) ∈ sd.sKept := by decide
  unfold ScatterDims.window
  rw [dif_pos h]; rfl

theorem sd_resultIdx (idx : IVec S1 32) (off : ℕ) (hoff : off + 32 ≤ 256) (hidx : ∀ k, (idx k).toInt = (off : ℤ))
    (j : S128x32x1024.Idx) :
    sd.resultIdx? j idx
      = some (ix3 (n0 := 128) (n1 := 256) (n2 := 1024) (j 0) (⟨off + (j 1).val, by have h1 : (j 1).val < 32 := (j 1).isLt; omega⟩ : Fin 256) (j 2)) := by
  have h0 : (j 0).val < 128 := (j 0).isLt
  have h1 : (j 1).val < 32 := (j 1).isLt
  have h2 : (j 2).val < 1024 := (j 2).isLt
  have hall : ∀ a, 0 ≤ sd.start j idx a + sd.window j a ∧ sd.start j idx a + sd.window j a < S128x256x1024.size a := by
    refine forall_fin3 ?_ ?_ ?_
    · rw [sd_start0, sd_window0]; show (0 : ℤ) ≤ 0 + ((j 0).val : ℤ) ∧ (0 : ℤ) + ((j 0).val : ℤ) < ((128 : ℕ) : ℤ); omega
    · rw [sd_start1 j idx off hidx, sd_window1]
      show (0 : ℤ) ≤ (off : ℤ) + ((j 1).val : ℤ) ∧ (off : ℤ) + ((j 1).val : ℤ) < ((256 : ℕ) : ℤ); omega
    · rw [sd_start2, sd_window2]; show (0 : ℤ) ≤ 0 + ((j 2).val : ℤ) ∧ (0 : ℤ) + ((j 2).val : ℤ) < ((1024 : ℕ) : ℤ); omega
  unfold ScatterDims.resultIdx?
  rw [dif_pos hall]
  refine congrArg some (funext fun a => ?_)
  revert a
  refine forall_fin3 (Fin.ext ?_) (Fin.ext ?_) (Fin.ext ?_)
  · show (sd.start j idx (0 : Fin 3) + (sd.window j (0 : Fin 3) : ℤ)).toNat = (j 0).val
    rw [sd_start0, sd_window0]; omega
  · show (sd.start j idx (1 : Fin 3) + (sd.window j (1 : Fin 3) : ℤ)).toNat = off + (j 1).val
    rw [sd_start1 j idx off hidx, sd_window1]; omega
  · show (sd.start j idx (2 : Fin 3) + (sd.window j (2 : Fin 3) : ℤ)).toNat = (j 2).val
    rw [sd_start2, sd_window2]; omega

theorem scatter_setCh32 (x : S128x256x1024.Idx → EReal) (idx : IVec S1 32) (upd : S128x32x1024.Idx → EReal) (off : ℕ)
    (hoff : off + 32 ≤ 256) (hidx : ∀ k, (idx k).toInt = (off : ℤ)) :
    actNM (C := 256) (Host.scatter sd (fun _ b => b) x idx upd) = setCh32 (actNM (C := 256) x) off (actNM (C := 32) upd) := by
  funext n c p
  show Host.scatter sd (fun _ b => b) x idx upd (ix3 n c p) = setCh32 (actNM (C := 256) x) off (actNM (C := 32) upd) n c p
  unfold setCh32
  by_cases h : off ≤ c.val ∧ c.val < off + 32
  · rw [dif_pos h]
    have hc : c.val - off < 32 := by omega
    refine scatter_set_hit sd x idx upd (ix3 n c p) (ix3 n ⟨c.val - off, hc⟩ p) ?_ (fun j hj => ?_)
    · rw [sd_resultIdx idx off hoff hidx]
      refine congrArg some ?_
      show ix3 n (⟨off + (c.val - off), _⟩ : Fin 256) p = ix3 n c p
      congr 1
      exact Fin.ext (by show off + (c.val - off) = c.val; omega)
    · rw [sd_resultIdx idx off hoff hidx] at hj
      have e := Option.some.inj hj
      have e0 : (j 0) = n := congrFun e 0
      have e1 : off + (j 1).val = c.val := congrArg Fin.val (congrFun e 1)
      have e2 : (j 2) = p := congrFun e 2
      refine funext (forall_fin3 ?_ ?_ ?_)
      · exact e0
      · exact Fin.ext (by show (j 1).val = c.val - off; omega)
      · exact e2
  · rw [dif_neg h]
    refine scatter_set_miss sd x idx upd (ix3 n c p) (fun j hj => ?_)
    rw [sd_resultIdx idx off hoff hidx] at hj
    have e := Option.some.inj hj
    have e1 : off + (j 1).val = c.val := congrArg Fin.val (congrFun e 1)
    have h1 : (j 1).val < 32 := (j 1).isLt
    omega

section Stats
variable {C : ℕ}
  (hs0 : (⟨2, ![C, 2]⟩ : Shape).Slices ![0, 0] ⟨2, ![C, 1]⟩)
  (hs1 : (⟨2, ![C, 2]⟩ : Shape).Slices ![0, 1] ⟨2, ![C, 1]⟩)
  (hc : (⟨2, ![C, 1]⟩ : Shape).ShapeCasts ⟨1, ![C]⟩)
  (hb : (⟨0, ![]⟩ : Shape).BroadcastsInDim ⟨1, ![C]⟩ ![])
  (hc' : (⟨1, ![C]⟩ : Shape).ShapeCasts ⟨2, ![C, 1]⟩)

theorem column_apply (mom : FVec Ideal ⟨2, ![C, 2]⟩ .f32) (k : ℕ) (hk : k < 2)
    (hs : (⟨2, ![C, 2]⟩ : Shape).Slices ![0, k] ⟨2, ![C, 1]⟩) (ch : Fin C) :
    shapeCast ⟨1, ![C]⟩ (extractStridedSlice ⟨2, ![C, 1]⟩ ![0, k] mom hs) hc (ix1 ch) = mom (ix2 ch ⟨k, hk⟩) := by
  refine (shapeCast_apply _ hc (ix1 ch) (ix2 ch 0) ?_).trans ?_
  · rw [Shape.rowMajor_val_two, Shape.rowMajor_val_one]
    show ch.val * 1 + 0 = ch.val
    omega
  · refine extractStridedSlice_apply _ mom hs (ix2 ch 0) (ix2 ch ⟨k, hk⟩) (fun a => ?_)
    match a with
    | ⟨0, _⟩ => show ch.val = 0 + ch.val; omega
    | ⟨1, _⟩ => show k = k + 0; omega

def countV : FVec Ideal ⟨1, ![C]⟩ .f32 := broadcastInDim ⟨1, ![C]⟩ ![] hb (constant (F := Ideal) ⟨0, ![]⟩ .f32 0x48000000#32)

def epsV : FVec Ideal ⟨1, ![C]⟩ .f32 := broadcastInDim ⟨1, ![C]⟩ ![] hb (constant (F := Ideal) ⟨0, ![]⟩ .f32 0x3727C5AC#32)

def meanV (mom : FVec Ideal ⟨2, ![C, 2]⟩ .f32) : FVec Ideal ⟨1, ![C]⟩ .f32 :=
  Host.divf (shapeCast ⟨1, ![C]⟩ (extractStridedSlice ⟨2, ![C, 1]⟩ ![0, 0] mom hs0) hc) (countV hb)

def msqV (mom : FVec Ideal ⟨2, ![C, 2]⟩ .f32) : FVec Ideal ⟨1, ![C]⟩ .f32 :=
  Host.divf (shapeCast ⟨1, ![C]⟩ (extractStridedSlice ⟨2, ![C, 1]⟩ ![0, 1] mom hs1) hc) (countV hb)

def scaleV (mom : FVec Ideal ⟨2, ![C, 2]⟩ .f32) (g : FVec Ideal ⟨1, ![C]⟩ .f32) : FVec Ideal ⟨1, ![C]⟩ .f32 :=
  mulf g (Host.rsqrt (addf (subf (msqV hs1 hc hb mom) (mulf (meanV hs0 hc hb mom) (meanV hs0 hc hb mom))) (epsV hb)))

def shiftV (mom : FVec Ideal ⟨2, ![C, 2]⟩ .f32) (g b : FVec Ideal ⟨1, ![C]⟩ .f32) : FVec Ideal ⟨1, ![C]⟩ .f32 :=
  subf b (mulf (meanV hs0 hc hb mom) (scaleV hs0 hs1 hc hb mom g))

theorem meanV_apply (mom : FVec Ideal ⟨2, ![C, 2]⟩ .f32) (ch : Fin C) :
    meanV hs0 hc hb mom (ix1 ch) = meanOf (mom (ix2 ch 0)) := by
  show Ideal.div (shapeCast ⟨1, ![C]⟩ (extractStridedSlice ⟨2, ![C, 1]⟩ ![0, 0] mom hs0) hc (ix1 ch)) count = _
  rw [column_apply hc mom 0 (by omega) hs0 ch]
  exact Cert.SpecAlg.div_count _

theorem msqV_apply (mom : FVec Ideal ⟨2, ![C, 2]⟩ .f32) (ch : Fin C) :
    msqV hs1 hc hb mom (ix1 ch) = mom (ix2 ch 1) * invCount := by
  show Ideal.div (shapeCast ⟨1, ![C]⟩ (extractStridedSlice ⟨2, ![C, 1]⟩ ![0, 1] mom hs1) hc (ix1 ch)) count = _
  rw [column_apply hc mom 1 (by omega) hs1 ch]
  exact Cert.SpecAlg.div_count _

theorem scaleV_apply (mom : FVec Ideal ⟨2, ![C, 2]⟩ .f32) (g : FVec Ideal ⟨1, ![C]⟩ .f32) (ch : Fin C) :
    scaleV hs0 hs1 hc hb mom g (ix1 ch) = scaleOf (g (ix1 ch)) (mom (ix2 ch 0)) (mom (ix2 ch 1)) := by
  show g (ix1 ch) * Ideal.rsqrt (msqV hs1 hc hb mom (ix1 ch) - meanV hs0 hc hb mom (ix1 ch) * meanV hs0 hc hb mom (ix1 ch) + eps) = _
  rw [msqV_apply, meanV_apply]
  rfl

theorem shiftV_apply (mom : FVec Ideal ⟨2, ![C, 2]⟩ .f32) (g b : FVec Ideal ⟨1, ![C]⟩ .f32) (ch : Fin C) :
    shiftV hs0 hs1 hc hb mom g b (ix1 ch)
      = shiftOf (g (ix1 ch)) (b (ix1 ch)) (mom (ix2 ch 0)) (mom (ix2 ch 1)) := by
  show b (ix1 ch) - meanV hs0 hc hb mom (ix1 ch) * scaleV hs0 hs1 hc hb mom g (ix1 ch) = _
  rw [meanV_apply, scaleV_apply]
  rfl

theorem col_shapeCast (v : FVec Ideal ⟨1, ![C]⟩ .f32) (ch : Fin C) :
    col (C := C) (shapeCast ⟨2, ![C, 1]⟩ v hc') ch = v (ix1 ch) := by
  show shapeCast ⟨2, ![C, 1]⟩ v hc' (ix2 ch 0) = v (ix1 ch)
  refine shapeCast_apply v hc' (ix2 ch 0) (ix1 ch) ?_
  rw [Shape.rowMajor_val_two, Shape.rowMajor_val_one]
  show ch.val = ch.val * 1 + 0
  omega

end Stats

theorem wChanMinor_repack (C : ℕ) (v : FVec Ideal ⟨4, ![32, C, 3, 3]⟩ .f32)
    (ht : (⟨4, ![32, C, 3, 3]⟩ : Shape).Transposes [0, 2, 3, 1] ⟨4, ![32, 3, 3, C]⟩)
    (hr : (⟨4, ![32, 3, 3, C]⟩ : Shape).ShapeCasts ⟨2, ![32, 9 * C]⟩) :
    wChanMinor (C := C) (shapeCast ⟨2, ![32, 9 * C]⟩ (transpose ⟨4, ![32, 3, 3, C]⟩ [0, 2, 3, 1] v ht) hr) = wOIHW v := by
  funext o ci kh kw
  show shapeCast ⟨2, ![32, 9 * C]⟩ (transpose ⟨4, ![32, 3, 3, C]⟩ [0, 2, 3, 1] v ht) hr
      (ix2 o ⟨(kh.val * 3 + kw.val) * C + ci.val, _⟩) = v (ix4 o ci kh kw)
  refine (shapeCast_apply _ hr _ (ix4 o kh kw ci) ?_).trans ?_
  · rw [Shape.rowMajor_val_four, Shape.rowMajor_val_two]
    show ((o.val * 3 + kh.val) * 3 + kw.val) * C + ci.val = o.val * (9 * C) + ((kh.val * 3 + kw.val) * C + ci.val)
    ring
  · refine transpose_apply _ v ht (ix4 o kh kw ci) (ix4 o ci kh kw) (fun b => ?_)
    match b with
    | ⟨0, _⟩ => rfl
    | ⟨1, _⟩ => rfl
    | ⟨2, _⟩ => rfl
    | ⟨3, _⟩ => rfl

section First
variable (W : Valuation τ sig (Elt Ideal))

abbrev img : Vec Ideal S128x64x32x32 .f32 := W (Proc.devRef .tc main_arg0)

theorem h0_xbufTerm : (StableHlo.after hostOps0 W (Proc.devRef .tc main_call0_v2) : Vec Ideal S128x256x1024 .f32)
    = concatenate S128x256x1024 1
        [⟨S128x64x1024, shapeCast S128x64x1024 (img W) shapeCasts_S128x64x32x32_S128x64x1024⟩,
         ⟨S128x192x1024, broadcastInDim S128x192x1024 ![] bcast_S_S128x192x1024 (constant (F := Ideal) S_ .f32 0x00000000#32)⟩]
        concatenates_S128x64x1024_S128x192x1024_S128x256x1024_d1 := by
  show StableHlo.after hostOps0 W (Proc.devRef .tc main_call0_v2) = _
  after_results <;> rfl

theorem h0_xbuf :
    actNM (C := 256) (StableHlo.after hostOps0 W (Proc.devRef .tc main_call0_v2) : Vec Ideal S128x256x1024 .f32)
      = padCh (C := 64) (fun n ch p => img W (ix4 n ch (⟨p.val / 32, by have := p.isLt; omega⟩ : Fin 32)
          (⟨p.val % 32, by omega⟩ : Fin 32))) := by
  rw [h0_xbufTerm]
  funext n c p
  show concatenate S128x256x1024 1
      [⟨S128x64x1024, shapeCast S128x64x1024 (img W) shapeCasts_S128x64x32x32_S128x64x1024⟩,
       ⟨S128x192x1024, broadcastInDim S128x192x1024 ![] bcast_S_S128x192x1024 (constant (F := Ideal) S_ .f32 0x00000000#32)⟩]
      concatenates_S128x64x1024_S128x192x1024_S128x256x1024_d1 (ix3 n c p) = _
  unfold padCh
  by_cases h : c.val < 64
  · rw [dif_pos h]
    refine (concatenate_pair_apply_left (t := S128x256x1024) (s₁ := S128x64x1024) (s₂ := S128x192x1024) (1 : Fin 3) _ _ concatenates_S128x64x1024_S128x192x1024_S128x256x1024_d1 (ix3 n c p) rfl
      (ix3 n (⟨c.val, h⟩ : Fin 64) p) (fun b => ?_)).trans ?_
    · match b with
      | ⟨0, _⟩ => rfl
      | ⟨1, _⟩ => rfl
      | ⟨2, _⟩ => rfl
    · refine shapeCast_apply (img W) shapeCasts_S128x64x32x32_S128x64x1024 (ix3 n (⟨c.val, h⟩ : Fin 64) p)
        (ix4 n (⟨c.val, h⟩ : Fin 64) (⟨p.val / 32, by have := p.isLt; omega⟩ : Fin 32) (⟨p.val % 32, by omega⟩ : Fin 32)) ?_
      rw [Shape.rowMajor_val_four, Shape.rowMajor_val_three]
      show ((n.val * 64 + c.val) * 32 + p.val / 32) * 32 + p.val % 32 = (n.val * 64 + c.val) * 1024 + p.val
      omega
  · rw [dif_neg h]
    have hc : c.val - 64 < 192 := by have := c.isLt; omega
    refine (concatenate_pair_apply_right (t := S128x256x1024) (s₁ := S128x64x1024) (s₂ := S128x192x1024) (1 : Fin 3) _ _ concatenates_S128x64x1024_S128x192x1024_S128x256x1024_d1 (ix3 n c p) rfl rfl
      (ix3 n (⟨c.val - 64, hc⟩ : Fin 192) p) (fun b hb => ?_) ?_).trans ?_
    · match b with
      | ⟨0, _⟩ => rfl
      | ⟨1, _⟩ => exact absurd rfl hb
      | ⟨2, _⟩ => rfl
    · show c.val - 64 + 64 = c.val
      omega
    · exact Ideal.ofBits_zero_f32

end First

def divWord : BitVec 32 := Scalar.select (IntOp.cmpi .eq 32#32 0#32) 1#32 32#32

def colWord (k : ℕ) : BitVec 32 :=
  Scalar.select
    (IntOp.andi
      (IntOp.cmpi .ne (IntOp.cmpi .slt (IntOp.remsi .host (BitVec.ofNat 32 k) divWord) 0#32) (IntOp.cmpi .slt divWord 0#32))
      (IntOp.cmpi .ne (IntOp.remsi .host (BitVec.ofNat 32 k) divWord) 0#32))
    (IntOp.addi (IntOp.remsi .host (BitVec.ofNat 32 k) divWord) divWord)
    (IntOp.remsi .host (BitVec.ofNat 32 k) divWord)

theorem colWord_bits : ∀ k : Fin 1024,
    (IntOp.cmpi .sge (colWord k.val) 1#32).toNat = (if 1 ≤ k.val % 32 then 1 else 0)
    ∧ (IntOp.cmpi .sle (colWord k.val) 30#32).toNat = (if k.val % 32 ≤ 30 then 1 else 0) := by
  decide +kernel

abbrev rowL : IVec S1024 1 := fun i => IntOp.cmpi .sge (colWord (i 0).val) 1#32

abbrev rowR : IVec S1024 1 := fun i => IntOp.cmpi .sle (colWord (i 0).val) 30#32

def maskBits : IVec S2x1024 1 :=
  concatenate S2x1024 0
    [⟨S1x1024, broadcastInDim S1x1024 ![1] bcast_S1024_S1x1024_1 rowL⟩,
     ⟨S1x1024, broadcastInDim S1x1024 ![1] bcast_S1024_S1x1024_1 rowR⟩]
    concatenates_S1x1024_S1x1024_S2x1024_d0

theorem row_bcast_apply (v : IVec S1024 1) (p : Fin 1024) :
    broadcastInDim S1x1024 ![1] bcast_S1024_S1x1024_1 v (ix2 (0 : Fin 1) p) = v (ix1 p) := by
  refine broadcastInDim_apply _ bcast_S1024_S1x1024_1 v (ix2 (0 : Fin 1) p) (ix1 p) (fun a => ?_)
  match a with
  | ⟨0, _⟩ => rfl

theorem maskBits_row0 (p : Fin 1024) : maskBits (ix2 (0 : Fin 2) p) = rowL (ix1 p) := by
  unfold maskBits
  refine (concatenate_pair_apply_left (t := S2x1024) (s₁ := S1x1024) (s₂ := S1x1024) (0 : Fin 2) _ _
    concatenates_S1x1024_S1x1024_S2x1024_d0 (ix2 (0 : Fin 2) p) rfl (ix2 (0 : Fin 1) p) (fun b => ?_)).trans (row_bcast_apply rowL p)
  match b with
  | ⟨0, _⟩ => rfl
  | ⟨1, _⟩ => rfl

theorem maskBits_row1 (p : Fin 1024) : maskBits (ix2 (1 : Fin 2) p) = rowR (ix1 p) := by
  unfold maskBits
  refine (concatenate_pair_apply_right (t := S2x1024) (s₁ := S1x1024) (s₂ := S1x1024) (0 : Fin 2) _ _
    concatenates_S1x1024_S1x1024_S2x1024_d0 (ix2 (1 : Fin 2) p) rfl rfl (ix2 (0 : Fin 1) p) (fun b hb => ?_) ?_).trans
    (row_bcast_apply rowR p)
  · match b with
    | ⟨0, _⟩ => exact absurd rfl hb
    | ⟨1, _⟩ => rfl
  · rfl

section Mask
variable (W : Valuation τ sig (Elt Ideal))

theorem h0_maskTerm : (StableHlo.after hostOps0 W (Proc.devRef .tc main_call0_v12) : Vec Ideal S2x1024 .f32)
    = uitofp (F := Ideal) .f32 maskBits := by
  show StableHlo.after hostOps0 W (Proc.devRef .tc main_call0_v12) = _
  after_results_simp
  simp only [ofBuf_toBuf]
  rfl

theorem h0_mask : maskRows (StableHlo.after hostOps0 W (Proc.devRef .tc main_call0_v12) : Vec Ideal S2x1024 .f32)
    = Cert.Block.mask := by
  rw [h0_maskTerm]
  funext r p
  unfold Cert.Block.mask
  by_cases hr : r.val = 0
  · rw [if_pos hr]
    have e : r = (0 : Fin 2) := Fin.ext hr
    subst e
    show (((maskBits (ix2 (0 : Fin 2) p)).toNat : ℝ) : EReal) = _
    rw [maskBits_row0]
    show (((IntOp.cmpi .sge (colWord p.val) 1#32).toNat : ℝ) : EReal) = _
    rw [(colWord_bits p).1]
    split <;> simp
  · rw [if_neg hr]
    have e : r = (1 : Fin 2) := Fin.ext (by have := r.isLt; show r.val = 1; omega)
    subst e
    show (((maskBits (ix2 (1 : Fin 2) p)).toNat : ℝ) : EReal) = _
    rw [maskBits_row1]
    show (((IntOp.cmpi .sle (colWord p.val) 30#32).toNat : ℝ) : EReal) = _
    rw [(colWord_bits p).2]
    split <;> simp

end Mask

section Stats0
variable (W : Valuation τ sig (Elt Ideal))

abbrev momL0 : Vec Ideal S64x2 .f32 := W (Proc.devRef .tc main_call0_v13)

abbrev gamL0 : Vec Ideal S64 .f32 := W (Proc.devRef .tc main_arg1)
abbrev betL0 : Vec Ideal S64 .f32 := W (Proc.devRef .tc main_arg2)

abbrev wgtL0 : Vec Ideal S32x64x3x3 .f32 := W (Proc.devRef .tc main_arg3)

theorem h1_scaleTerm : (StableHlo.after hostOps1 W (Proc.devRef .tc main_call0_v32) : Vec Ideal S64x1 .f32)
    = shapeCast S64x1 (scaleV (C := 64) slices_S64x2_S64x1_0_0 slices_S64x2_S64x1_0_1 shapeCasts_S64x1_S64 bcast_S_S64
        (momL0 W) (gamL0 W)) shapeCasts_S64_S64x1 := by
  show StableHlo.after hostOps1 W (Proc.devRef .tc main_call0_v32) = _
  after_results_simp
  simp only [ofBuf_toBuf]
  rfl

theorem h1_shiftTerm : (StableHlo.after hostOps1 W (Proc.devRef .tc main_call0_v33) : Vec Ideal S64x1 .f32)
    = shapeCast S64x1 (shiftV (C := 64) slices_S64x2_S64x1_0_0 slices_S64x2_S64x1_0_1 shapeCasts_S64x1_S64 bcast_S_S64
        (momL0 W) (gamL0 W) (betL0 W)) shapeCasts_S64_S64x1 := by
  show StableHlo.after hostOps1 W (Proc.devRef .tc main_call0_v33) = _
  after_results_simp
  simp only [ofBuf_toBuf]
  rfl

theorem h1_wTerm : (StableHlo.after hostOps1 W (Proc.devRef .tc main_call0_v31) : Vec Ideal S32x576 .f32)
    = shapeCast S32x576 (transpose S32x3x3x64 [0, 2, 3, 1] (wgtL0 W) transposes_S32x64x3x3_S32x3x3x64_0_2_3_1)
        shapeCasts_S32x3x3x64_S32x576 := by
  show StableHlo.after hostOps1 W (Proc.devRef .tc main_call0_v31) = _
  after_results <;> rfl

end Stats0

section Scatter0
variable (W : Valuation τ sig (Elt Ideal))

theorem h2_scatterTerm : (StableHlo.after hostOps2 W (Proc.devRef .tc main_call0_v36) : Vec Ideal S128x256x1024 .f32)
    = Host.scatter sd (fun _ b => b) (W (Proc.devRef .tc main_call0_v2) : Vec Ideal S128x256x1024 .f32)
        (broadcastInDim S1 ![] bcast_S_S1 (constantI S_ 32 64#32))
        (W (Proc.devRef .tc main_call0_v34) : Vec Ideal S128x32x1024 .f32) := by
  show StableHlo.after hostOps2 W (Proc.devRef .tc main_call0_v36) = _
  after_results
  simp only [ofBuf_toBuf]
  refine toBuf_eq _ _ _ (heq_of_eq ?_)
  exact congrArg₂ (fun a c => Host.scatter sd (fun _ b => b) a (broadcastInDim S1 ![] bcast_S_S1 (constantI S_ 32 64#32)) c)
    (ofBuf_eq _ _ _ HEq.rfl) (ofBuf_eq _ _ _ HEq.rfl)

end Scatter0

section Last
variable (W : Valuation τ sig (Elt Ideal))

theorem h12_outTerm : (StableHlo.after hostOps12 W (Proc.devRef .tc main_v0) : Vec Ideal S128x256x32x32 .f32)
    = shapeCast S128x256x32x32
        (StableHlo.after hostOps12 W (Proc.devRef .tc main_call0_v156) : Vec Ideal S128x256x1024 .f32)
        shapeCasts_S128x256x1024_S128x256x32x32 := by
  show StableHlo.after hostOps12 W (Proc.devRef .tc main_v0) = _
  after_results <;> rfl

theorem h12_out (n : Fin 128) (ch : Fin 256) (y x : Fin 32) :
    (StableHlo.after hostOps12 W (Proc.devRef .tc main_v0) : Vec Ideal S128x256x32x32 .f32) (ix4 n ch y x)
      = (StableHlo.after hostOps12 W (Proc.devRef .tc main_call0_v156) : Vec Ideal S128x256x1024 .f32)
          (ix3 n ch (⟨y.val * 32 + x.val, by omega⟩ : Fin 1024)) := by
  rw [h12_outTerm]
  refine shapeCast_apply _ shapeCasts_S128x256x1024_S128x256x32x32 (ix4 n ch y x) (ix3 n ch (⟨y.val * 32 + x.val, by omega⟩ : Fin 1024)) ?_
  rw [Shape.rowMajor_val_four, Shape.rowMajor_val_three]
  show (n.val * 256 + ch.val) * 1024 + (y.val * 32 + x.val) = ((n.val * 256 + ch.val) * 32 + y.val) * 32 + x.val
  omega

end Last

end Cert.RHost
end
-- ==== Proof.RThreadBase.lean ====
import proofs.«136216_g2000306190186476_pallasbulk_240_40_alg».proof.Proof.Gen.ReferenceIdeal.Frame
import proofs.«136216_g2000306190186476_pallasbulk_240_40_alg».proof.Proof.Block
import proofs.«136216_g2000306190186476_pallasbulk_240_40_alg».proof.Proof.SpecAlg
import proofs.«136216_g2000306190186476_pallasbulk_240_40_alg».proof.Proof.RHost

set_option maxRecDepth 16384

noncomputable section

namespace Cert.RThread

open Cert.ReferenceIdeal Cert.ReferenceIdeal.Gen Cert.Spec Cert.Views Cert.Block Cert.SpecAlg
open Cert.RHost Idealize.ShloMosaic Idealize.ShloMosaic.TcCoe Idealize.ShloMosaic.ValueIdx Idealize.SL.Sem

variable (m : (ℓ : Loc nD τ sig) → Buf (Elt Ideal) ℓ) (ρ : Dev nD → PrngReg)

def args (c : Dev nD) : Args where
  x  := (m ((c : Thread nD τ).loc main_arg0) : Vec Ideal S128x64x32x32 .f32)
  g0 := (m ((c : Thread nD τ).loc main_arg1) : Vec Ideal S64 .f32)
  b0 := (m ((c : Thread nD τ).loc main_arg2) : Vec Ideal S64 .f32)
  w0 := (m ((c : Thread nD τ).loc main_arg3) : Vec Ideal S32x64x3x3 .f32)
  g1 := (m ((c : Thread nD τ).loc main_arg4) : Vec Ideal S96 .f32)
  b1 := (m ((c : Thread nD τ).loc main_arg5) : Vec Ideal S96 .f32)
  w1 := (m ((c : Thread nD τ).loc main_arg6) : Vec Ideal S32x96x3x3 .f32)
  g2 := (m ((c : Thread nD τ).loc main_arg7) : Vec Ideal S128 .f32)
  b2 := (m ((c : Thread nD τ).loc main_arg8) : Vec Ideal S128 .f32)
  w2 := (m ((c : Thread nD τ).loc main_arg9) : Vec Ideal S32x128x3x3 .f32)
  g3 := (m ((c : Thread nD τ).loc main_arg10) : Vec Ideal S160 .f32)
  b3 := (m ((c : Thread nD τ).loc main_arg11) : Vec Ideal S160 .f32)
  w3 := (m ((c : Thread nD τ).loc main_arg12) : Vec Ideal S32x160x3x3 .f32)
  g4 := (m ((c : Thread nD τ).loc main_arg13) : Vec Ideal S192 .f32)
  b4 := (m ((c : Thread nD τ).loc main_arg14) : Vec Ideal S192 .f32)
  w4 := (m ((c : Thread nD τ).loc main_arg15) : Vec Ideal S32x192x3x3 .f32)
  g5 := (m ((c : Thread nD τ).loc main_arg16) : Vec Ideal S224 .f32)
  b5 := (m ((c : Thread nD τ).loc main_arg17) : Vec Ideal S224 .f32)
  w5 := (m ((c : Thread nD τ).loc main_arg18) : Vec Ideal S32x224x3x3 .f32)

/-- Below `C` both sides are `X`, on the next 32 channels both are `Y`, above both are zero. -/
theorem setCh32_padCh {C : ℕ} (hC : C + 32 ≤ 256) (X : Act C) (Y : Act 32) :
    setCh32 (padCh X) C Y = padCh (appendCh X Y) := by
  funext n c p
  by_cases h : c.val < C
  · have h' : ¬ (C ≤ c.val ∧ c.val < C + 32) := by omega
    have h2 : c.val < C + 32 := by omega
    simp only [setCh32, padCh, appendCh, dif_pos h, dif_neg h', dif_pos h2]
  · by_cases h2 : c.val < C + 32
    · have h' : C ≤ c.val ∧ c.val < C + 32 := ⟨by omega, h2⟩
      simp only [setCh32, padCh, appendCh, dif_pos h', dif_neg h, dif_pos h2]
    · have h' : ¬ (C ≤ c.val ∧ c.val < C + 32) := by omega
      simp only [setCh32, padCh, dif_neg h', dif_neg h, dif_neg h2]

theorem padCh_full (X : Act 256) : padCh X = X := by
  funext n c p
  show (if h : c.val < 256 then X n ⟨c.val, h⟩ p else 0) = X n c p
  rw [dif_pos c.isLt]

/-- What holds between two layers: the activation buffer is the `C`-channel tensor `X`, zero above, and the mask table is the block's. -/
def Entry {C : ℕ} (B : (⟨3, ![128, 256, 1024]⟩ : Shape).Idx → EReal) (K : (⟨2, ![2, 1024]⟩ : Shape).Idx → EReal)
    (X : Act C) : Prop :=
  actNM B = padCh X ∧ maskRows K = mask

/-- One layer: moments of the buffer's first `C` channels, folded with the parameters into a rectified affine map, convolved, written over the next 32 channels; a buffer a step only reads comes with the equation carrying it over. -/
theorem layer_step {C : ℕ} (hC : C + 32 ≤ 256) {X : Act C}
    {hs0 : (⟨2, ![C, 2]⟩ : Shape).Slices ![0, 0] ⟨2, ![C, 1]⟩} {hs1 : (⟨2, ![C, 2]⟩ : Shape).Slices ![0, 1] ⟨2, ![C, 1]⟩}
    {hc : (⟨2, ![C, 1]⟩ : Shape).ShapeCasts ⟨1, ![C]⟩} {hb : (⟨0, ![]⟩ : Shape).BroadcastsInDim ⟨1, ![C]⟩ ![]}
    {hc' : (⟨1, ![C]⟩ : Shape).ShapeCasts ⟨2, ![C, 1]⟩}
    {ht : (⟨4, ![32, C, 3, 3]⟩ : Shape).Transposes [0, 2, 3, 1] ⟨4, ![32, 3, 3, C]⟩}
    {hr : (⟨4, ![32, 3, 3, C]⟩ : Shape).ShapeCasts ⟨2, ![32, 9 * C]⟩}
    {G G' Bt Bt' : FVec Ideal ⟨1, ![C]⟩ .f32} {Wg Wg' : FVec Ideal ⟨4, ![32, C, 3, 3]⟩ .f32}
    {B1 B3 B4 B5 : FVec Ideal S128x256x1024 .f32} {K1 K3 K5 : FVec Ideal S2x1024 .f32}
    {mo mo' : FVec Ideal ⟨2, ![C, 2]⟩ .f32} {sc sh : FVec Ideal ⟨2, ![C, 1]⟩ .f32}
    {wt : FVec Ideal ⟨2, ![32, 9 * C]⟩ .f32} {y y' : FVec Ideal S128x32x1024 .f32} {idx : IVec S1 32}
    (h : Entry B1 K1 X) (eG : G' = G) (eBt : Bt' = Bt) (eW : Wg' = Wg)
    (hm : ∀ ch, mom2 mo 0 ch = sum1 (takeCh C (by omega) (actNM B1)) ch
      ∧ mom2 mo 1 ch = sum2 (takeCh C (by omega) (actNM B1)) ch)
    (em : mo' = mo)
    (esc : sc = shapeCast ⟨2, ![C, 1]⟩ (scaleV hs0 hs1 hc hb mo' G') hc')
    (esh : sh = shapeCast ⟨2, ![C, 1]⟩ (shiftV hs0 hs1 hc hb mo' G' Bt') hc')
    (ewt : wt = shapeCast ⟨2, ![32, 9 * C]⟩ (transpose ⟨4, ![32, 3, 3, C]⟩ [0, 2, 3, 1] Wg' ht) hr)
    (eB3 : B3 = B1) (eK3 : K3 = K1)
    (hy : actNM y = convCols (wChanMinor wt) (maskRows K3)
      (affineRelu (col sc) (col sh) (takeCh C (by omega) (actNM B3))))
    (ey : y' = y) (eB4 : B4 = B3) (eB5 : B5 = Host.scatter sd (fun _ b => b) B4 idx y')
    (hidx : ∀ k, (idx k).toInt = (C : ℤ)) (eK5 : K5 = K3) :
    Entry B5 K5 (appendCh X (layerOut (vec G) (vec Bt) (wOIHW Wg) mask X)) := by
  have hsc : ∀ ch, col sc ch = scaleOf (vec G' ch) (mom2 mo' 0 ch) (mom2 mo' 1 ch) := fun ch => by
    rw [esc, col_shapeCast]; exact scaleV_apply _ _ _ _ _ _ ch
  have hsh : ∀ ch, col sh ch = shiftOf (vec G' ch) (vec Bt' ch) (mom2 mo' 0 ch) (mom2 mo' 1 ch) := fun ch => by
    rw [esh, col_shapeCast]; exact shiftV_apply _ _ _ _ _ _ _ ch
  have hw : wChanMinor wt = wOIHW Wg' := by rw [ewt]; exact wChanMinor_repack C _ _ _
  have hB5 : actNM B5 = setCh32 (actNM B4) C (actNM y') := by rw [eB5]; exact scatter_setCh32 _ _ _ C hC hidx
  subst eG eBt eW em eB3 eK3 ey eB4 eK5
  obtain ⟨hB, hK⟩ := h
  refine ⟨?_, hK⟩
  rw [hB, takeCh_padCh] at hm hy
  have hsc' : col sc = fun ch => scaleOf (vec G' ch) (sum1 X ch) (sum2 X ch) :=
    funext fun ch => by rw [hsc, (hm ch).1, (hm ch).2]
  have hsh' : col sh = fun ch => shiftOf (vec G' ch) (vec Bt' ch) (sum1 X ch) (sum2 X ch) :=
    funext fun ch => by rw [hsh, (hm ch).1, (hm ch).2]
  rw [hsc', hsh', hw, hK] at hy
  rw [hB5, hB, hy, setCh32_padCh hC]
  rfl

/-- After the opening host operations the buffer holds the flattened input and the mask table is computed. -/
theorem entry0 (c : Dev nD) : Entry (W1 m ρ c main_call0_v2) (W1 m ρ c main_call0_v12) (X0 (args m c)) :=
  ⟨Cert.RHost.h0_xbuf (W0 m ρ c), Cert.RHost.h0_mask (W0 m ρ c)⟩

end Cert.RThread

end
-- ==== Proof.RThreadArgs.lean ====
import proofs.«136216_g2000306190186476_pallasbulk_240_40_alg».proof.Proof.Gen.ReferenceIdeal.Frame
import Idealize.ShloMosaic.PureOps.Ideal

set_option maxRecDepth 16384

noncomputable section

namespace Cert.RThread

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The program's nineteen arguments are its first nineteen buffers. -/
abbrev Arg (b : Ref sig .tc) : Prop := b.space = .hbm ∧ b.idx.val < 19

/-- A host stretch each of whose operations writes one buffer that is no argument keeps every argument. -/
theorem after_arg {ops : List (HloOp τ sig (Elt Ideal))} (V : Valuation τ sig (Elt Ideal)) {b : Ref sig .tc} (hb : Arg b)
    (h : ops.Forall fun op => ∃ y : Ref sig .tc, op.writes = {Proc.devRef .tc y} ∧ ¬ Arg y) :
    StableHlo.after ops V (Proc.devRef .tc b) = V (Proc.devRef .tc b) :=
  StableHlo.after_of_forall_not_mem ops V fun op hop hm => by
    obtain ⟨y, hy, hn⟩ := List.forall_iff_forall_mem.mp h op hop
    rw [hy, Finset.mem_singleton] at hm
    exact hn (Proc.devRef_injective _ hm ▸ hb)

variable (c : Dev nD) {b : Ref sig .tc} (hb : Arg b)
include hb

/-! No step of the run up to the last convolution writes an argument: each boundary's fact is the one before and one step. -/

theorem W1_arg : W1 m ρ c (Proc.devRef .tc b) = m ((c : Thread nD τ).loc b) :=
  (after_arg _ hb (by
    simp only [hostOps0, List.Forall]
    repeat' apply And.intro
    all_goals exact ⟨_, rfl, by decide⟩))

theorem W2_arg : W2 m ρ c (Proc.devRef .tc b) = m ((c : Thread nD τ).loc b) :=
  (W2_of_ne m ρ c b fun w e => (show ∀ w, ¬ Arg (Pipeline.arrRef spec0 w) by decide) w (e ▸ hb)).trans (W1_arg m ρ c hb)

theorem W3_arg : W3 m ρ c (Proc.devRef .tc b) = m ((c : Thread nD τ).loc b) :=
  (after_arg _ hb (by
    simp only [hostOps1, List.Forall]
    repeat' apply And.intro
    all_goals exact ⟨_, rfl, by decide⟩)).trans (W2_arg m ρ c hb)

theorem W4_arg : W4 m ρ c (Proc.devRef .tc b) = m ((c : Thread nD τ).loc b) :=
  (W4_of_ne m ρ c b fun w e => (show ∀ w, ¬ Arg (Pipeline.arrRef spec1 w) by decide) w (e ▸ hb)).trans (W3_arg m ρ c hb)

theorem W5_arg : W5 m ρ c (Proc.devRef .tc b) = m ((c : Thread nD τ).loc b) :=
  (after_arg _ hb (by
    simp only [hostOps2, List.Forall]
    repeat' apply And.intro
    all_goals exact ⟨_, rfl, by decide⟩)).trans (W4_arg m ρ c hb)

theorem W6_arg : W6 m ρ c (Proc.devRef .tc b) = m ((c : Thread nD τ).loc b) :=
  (W6_of_ne m ρ c b fun w e => (show ∀ w, ¬ Arg (Pipeline.arrRef spec2 w) by decide) w (e ▸ hb)).trans (W5_arg m ρ c hb)

theorem W7_arg : W7 m ρ c (Proc.devRef .tc b) = m ((c : Thread nD τ).loc b) :=
  (after_arg _ hb (by
    simp only [hostOps3, List.Forall]
    repeat' apply And.intro
    all_goals exact ⟨_, rfl, by decide⟩)).trans (W6_arg m ρ c hb)

theorem W8_arg : W8 m ρ c (Proc.devRef .tc b) = m ((c : Thread nD τ).loc b) :=
  (W8_of_ne m ρ c b fun w e => (show ∀ w, ¬ Arg (Pipeline.arrRef spec3 w) by decide) w (e ▸ hb)).trans (W7_arg m ρ c hb)

theorem W9_arg : W9 m ρ c (Proc.devRef .tc b) = m ((c : Thread nD τ).loc b) :=
  (after_arg _ hb (by
    simp only [hostOps4, List.Forall]
    repeat' apply And.intro
    all_goals exact ⟨_, rfl, by decide⟩)).trans (W8_arg m ρ c hb)

theorem W10_arg : W10 m ρ c (Proc.devRef .tc b) = m ((c : Thread nD τ).loc b) :=
  (W10_of_ne m ρ c b fun w e => (show ∀ w, ¬ Arg (Pipeline.arrRef spec4 w) by decide) w (e ▸ hb)).trans (W9_arg m ρ c hb)

theorem W11_arg : W11 m ρ c (Proc.devRef .tc b) = m ((c : Thread nD τ).loc b) :=
  (after_arg _ hb (by
    simp only [hostOps5, List.Forall]
    repeat' apply And.intro
    all_goals exact ⟨_, rfl, by decide⟩)).trans (W10_arg m ρ c hb)

theorem W12_arg : W12 m ρ c (Proc.devRef .tc b) = m ((c : Thread nD τ).loc b) :=
  (W12_of_ne m ρ c b fun w e => (show ∀ w, ¬ Arg (Pipeline.arrRef spec5 w) by decide) w (e ▸ hb)).trans (W11_arg m ρ c hb)

theorem W13_arg : W13 m ρ c (Proc.devRef .tc b) = m ((c : Thread nD τ).loc b) :=
  (after_arg _ hb (by
    simp only [hostOps6, List.Forall]
    repeat' apply And.intro
    all_goals exact ⟨_, rfl, by decide⟩)).trans (W12_arg m ρ c hb)

theorem W14_arg : W14 m ρ c (Proc.devRef .tc b) = m ((c : Thread nD τ).loc b) :=
  (W14_of_ne m ρ c b fun w e => (show ∀ w, ¬ Arg (Pipeline.arrRef spec6 w) by decide) w (e ▸ hb)).trans (W13_arg m ρ c hb)

theorem W15_arg : W15 m ρ c (Proc.devRef .tc b) = m ((c : Thread nD τ).loc b) :=
  (after_arg _ hb (by
    simp only [hostOps7, List.Forall]
    repeat' apply And.intro
    all_goals exact ⟨_, rfl, by decide⟩)).trans (W14_arg m ρ c hb)

theorem W16_arg : W16 m ρ c (Proc.devRef .tc b) = m ((c : Thread nD τ).loc b) :=
  (W16_of_ne m ρ c b fun w e => (show ∀ w, ¬ Arg (Pipeline.arrRef spec7 w) by decide) w (e ▸ hb)).trans (W15_arg m ρ c hb)

theorem W17_arg : W17 m ρ c (Proc.devRef .tc b) = m ((c : Thread nD τ).loc b) :=
  (after_arg _ hb (by
    simp only [hostOps8, List.Forall]
    repeat' apply And.intro
    all_goals exact ⟨_, rfl, by decide⟩)).trans (W16_arg m ρ c hb)

theorem W18_arg : W18 m ρ c (Proc.devRef .tc b) = m ((c : Thread nD τ).loc b) :=
  (W18_of_ne m ρ c b fun w e => (show ∀ w, ¬ Arg (Pipeline.arrRef spec8 w) by decide) w (e ▸ hb)).trans (W17_arg m ρ c hb)

theorem W19_arg : W19 m ρ c (Proc.devRef .tc b) = m ((c : Thread nD τ).loc b) :=
  (after_arg _ hb (by
    simp only [hostOps9, List.Forall]
    repeat' apply And.intro
    all_goals exact ⟨_, rfl, by decide⟩)).trans (W18_arg m ρ c hb)

theorem W20_arg : W20 m ρ c (Proc.devRef .tc b) = m ((c : Thread nD τ).loc b) :=
  (W20_of_ne m ρ c b fun w e => (show ∀ w, ¬ Arg (Pipeline.arrRef spec9 w) by decide) w (e ▸ hb)).trans (W19_arg m ρ c hb)

theorem W21_arg : W21 m ρ c (Proc.devRef .tc b) = m ((c : Thread nD τ).loc b) :=
  (after_arg _ hb (by
    simp only [hostOps10, List.Forall]
    repeat' apply And.intro
    all_goals exact ⟨_, rfl, by decide⟩)).trans (W20_arg m ρ c hb)

theorem W22_arg : W22 m ρ c (Proc.devRef .tc b) = m ((c : Thread nD τ).loc b) :=
  (W22_of_ne m ρ c b fun w e => (show ∀ w, ¬ Arg (Pipeline.arrRef spec10 w) by decide) w (e ▸ hb)).trans (W21_arg m ρ c hb)

end Cert.RThread

end
-- ==== Proof.RThread0.lean ====
import proofs.«136216_g2000306190186476_pallasbulk_240_40_alg».proof.Proof.RS0
import proofs.«136216_g2000306190186476_pallasbulk_240_40_alg».proof.Proof.RC1
import proofs.«136216_g2000306190186476_pallasbulk_240_40_alg».proof.Proof.RThreadCarry
import proofs.«136216_g2000306190186476_pallasbulk_240_40_alg».proof.Proof.RThreadBase
import proofs.«136216_g2000306190186476_pallasbulk_240_40_alg».proof.Proof.RThreadArgs

set_option maxRecDepth 16384

noncomputable section

namespace Cert.RThread

open Cert.ReferenceIdeal Cert.ReferenceIdeal.Gen Cert.Spec Cert.Views Cert.Block Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 0 is `layer_step` at its buffers; a buffer a step does not write is the same before and after it. -/
theorem layer0 (c : Dev nD) (h : Entry (W1 m ρ c main_call0_v2) (W1 m ρ c main_call0_v12) (X0 (args m c))) :
    Entry (W5 m ρ c main_call0_v36) (W5 m ρ c main_call0_v12) (X1 (args m c)) := by
  have b2 : W2 m ρ c main_call0_v2 = W1 m ρ c main_call0_v2 := (W2_arr m ρ c 0).trans ((Pipeline.Dat.arrAt_in (dat0 (V1 m ρ) c) 0 rfl cfg0.N).trans (A_eq0 (V1 m ρ) c 0))
  have b3 : W3 m ρ c main_call0_v2 = W2 m ρ c main_call0_v2 := by host_keeps hostOps1
  have k3 : W3 m ρ c main_call0_v12 = W2 m ρ c main_call0_v12 := by host_keeps hostOps1
  have k5 : W5 m ρ c main_call0_v12 = W4 m ρ c main_call0_v12 := by host_keeps hostOps2
  exact layer_step (C := 64) (by norm_num) h (W2_arg m ρ c (b := main_arg1) (by decide))
    (W2_arg m ρ c (b := main_arg2) (by decide)) (W2_arg m ρ c (b := main_arg3) (by decide))
    (Cert.RS0.arr_mom (V1 m ρ) c) (W2_arr m ρ c 1) (Cert.RHost.h1_scaleTerm (W2 m ρ c))
    (Cert.RHost.h1_shiftTerm (W2 m ρ c)) (Cert.RHost.h1_wTerm (W2 m ρ c)) (b3.trans b2)
    (k3.trans (W2_of_ne m ρ c main_call0_v12 (by decide))) (Cert.RC1.arr_y (V3 m ρ) c) (W4_arr m ρ c 5)
    ((W4_arr m ρ c 0).trans ((Pipeline.Dat.arrAt_in (dat1 (V3 m ρ) c) 0 rfl cfg1.N).trans (A_eq1 (V3 m ρ) c 0)))
    (Cert.RHost.h2_scatterTerm (W4 m ρ c)) (fun _ => rfl)
    (k5.trans ((W4_arr m ρ c 3).trans ((Pipeline.Dat.arrAt_in (dat1 (V3 m ρ) c) 3 rfl cfg1.N).trans (A_eq1 (V3 m ρ) c 3))))

end Cert.RThread

end
-- ==== Proof.RS2.lean ====
import proofs.«136216_g2000306190186476_pallasbulk_240_40_alg».proof.Proof.Gen.ReferenceIdeal.Frame
import proofs.«136216_g2000306190186476_pallasbulk_240_40_alg».proof.Proof.ChanMoments

set_option maxRecDepth 16384

noncomputable section

namespace Cert.RS2

open Cert.ReferenceIdeal Cert.ReferenceIdeal.Gen Cert.Spec Cert.Views Cert.ChanMoments Idealize.ShloMosaic Idealize.ShloMosaic.TcCoe Idealize.ShloMosaic.ValueIdx Idealize.SL.Sem
open Idealize.ShloMosaic.Pipeline (Dat Cfg Window)

section Pieces
variable {F : FTy → Type} [FloatOps F]

/-- A later point adds its moments onto what the accumulator held. -/
theorem out_B (c i a1 h1 a2 h2 hc) (x : Vec F S1x256x1024 .f32) (xo) :
    out2_B_1 c i a1 h1 a2 h2 hc x xo = k2_pay2 (rowsOf x inb_S1x256x1024_S1x96x1024_0_0_0) xo := by
  unfold out2_B_1
  rw [View.read_writes_eq_canon _ _ _ (cover2_B_1 c i a1 h1 a2 h2 hc x xo)]
  unfold kernelRun2_B
  dsimp only
  sl_unfold_words
  rw [View.canon_unit_zero hz2]
  simp only [View.readAt_eq_ld, h1.read_unread, h2.read_unread, View.ld_unit_zero (S := S96x2) hz2]

/-- The first point adds its moments onto zeros. -/
theorem out_A (c i a1 h1 a2 h2 hc) (x : Vec F S1x256x1024 .f32) :
    out2_A_1 c i a1 h1 a2 h2 hc x = k2_pay2 (rowsOf x inb_S1x256x1024_S1x96x1024_0_0_0) (k2_pay1 (F := F)) := by
  unfold out2_A_1
  rw [View.read_writes_eq_canon _ _ _ (cover2_A_1 c i a1 h1 a2 h2 hc x)]
  unfold kernelRun2_A
  dsimp only
  sl_unfold_words
  rw [View.canon_cons_unit_zero (S := S96x2) hz2, View.readCov_unit_zero (S := S96x2) _ hz2]
  simp only [View.readAt_eq_ld, h1.read_unread, View.ld_unit_zero (S := S96x2) hz2]

end Pieces

variable (V : (c : Dev nD) → (b : Ref sig .tc) → Buf (Elt Ideal) ((c : Thread nD τ).loc b))

abbrev xbuf (c : Dev nD) : Vec Ideal S128x256x1024 .f32 := V c main_call0_v36
abbrev momOut (c : Dev nD) : Vec Ideal S96x2 .f32 := (dat2 V c).arrAt 1 cfg2.N
abbrev xblk (c : Dev nD) (t : Fin cfg2.N) : Vec Ideal S1x256x1024 .f32 := iblk2 V c 0 t

theorem idx_in : ∀ t : Fin cfg2.N, win2_0.index t 0 = t.val ∧ win2_0.index t 1 = 0 ∧ win2_0.index t 2 = 0 :=
  (by decide +kernel : ∀ t : Fin grid2.N, win2_0.index t 0 = t.val ∧ win2_0.index t 1 = 0 ∧ win2_0.index t 2 = 0)

/-- Point t's block is image t of the buffer. -/
theorem xblk_apply (c : Dev nD) (t : Fin cfg2.N) (ht : t.val < 128) (ch : Fin 256) (p : Fin 1024) :
    xblk V c t (ix3 (0 : Fin 1) ch p) = xbuf V c (ix3 (⟨t.val, ht⟩ : Fin 128) ch p) := by
  obtain ⟨i0, i1, i2⟩ := idx_in t
  unfold xblk iblk2
  rw [View.read_apply]
  show V c main_call0_v36 _ = V c main_call0_v36 _
  congr 1
  funext a
  apply Fin.ext
  match a with
  | ⟨0, _⟩ => show win2_0.index t 0 * 1 + 1 * 0 = t.val; rw [i0]; omega
  | ⟨1, _⟩ => show win2_0.index t 1 * 256 + 1 * ch.val = ch.val; rw [i1]; omega
  | ⟨2, _⟩ => show win2_0.index t 2 * 1024 + 1 * p.val = p.val; rw [i2]; omega

abbrev tLast : Fin cfg2.N := ⟨127, by rw [show cfg2.N = 128 from N_2]; decide⟩

theorem idx_out : ∀ t : Fin cfg2.N, ∀ a, win2_1.index t a = 0 :=
  (by decide +kernel : ∀ t : Fin grid2.N, ∀ a, win2_1.index t a = 0)

theorem flushed_eq (c : Dev nD) (t : Fin cfg2.N) (hf : (cfg2.win 1).flush t = true) :
    (dat2 V c).flushed 1 t = ((cfg2.win 1).blk t).view.read (Elt Ideal) (outsAt2 V c tLast.val tLast.isLt) := by
  have hN : cfg2.N = 128 := N_2
  have h3 : t.val = 127 := by have := (flush2_1 t).mp hf; have := t.isLt; omega
  obtain rfl : t = tLast := Fin.ext h3
  show (cfg2.win 1).cut (grid2.coords tLast) ((dat2 V c).after 1 tLast) = _
  rw [after2_1]
  have hz' : (fun a => win2_1.index tLast a * main_call0_v37.ty.shape.size a) = fun _ => 0 :=
    funext fun a => by rw [idx_out tLast a, Nat.zero_mul]
  exact (Memref.read_access_unit_zero (Elt Ideal) main_call0_v37 hz' (fun a => by rw [congrFun hz' a]; simp) _).symm

theorem final (c : Dev nD) : momOut V c = outsAt2 V c tLast.val tLast.isLt :=
  (dat2 V c).arrAt_eq_of_cover 1 (outsAt2 V c tLast.val tLast.isLt) (flushed_eq V c) fun i =>
    ⟨tLast, (flush2_1 tLast).mpr rfl, by
      show i ∈ ((View.whole main_call0_v37).slice (win2_1.rect tLast)).set
      rw [View.set_slice_whole, Rect.mem_set_unit]
      intro a
      match a with
      | ⟨0, _⟩ => exact mem_block_zero (idx_out tLast 0) rfl (i 0).isLt
      | ⟨1, _⟩ => exact mem_block_zero (idx_out tLast 1) rfl (i 1).isLt⟩

/-- The table's two columns are the two channel moments of the buffer's first 96 channels. -/
theorem arr_mom (c : Dev nD) (ch : Fin 96) :
    mom2 (momOut V c) 0 ch = sum1 (takeCh 96 (by norm_num) (actNM (xbuf V c))) ch
  ∧ mom2 (momOut V c) 1 ch = sum2 (takeCh 96 (by norm_num) (actNM (xbuf V c))) ch :=
  moments N_2 (by norm_num) (xbuf V c) (xblk V c) inb_S1x256x1024_S1x96x1024_0_0_0 (xblk_apply V c) (outsAt2 V c)
    (k2_pay1 (F := Ideal)) (fun _ => by unfold k2_pay1; exact Ideal.ofBits_zero_f32)
    (k2_pay2 (F := Ideal)) (fun v a ch m => by unfold k2_pay2; exact pay2_apply v a _ _ _ _ _ _ _ ch m)
    (fun t h0 => (outsAt2_A V c t h0).trans (out_A (F := Ideal) c _ _ _ _ _ _ _))
    (fun t h0 => (outsAt2_B V c t h0).trans (out_B (F := Ideal) c _ _ _ _ _ _ _ _))
    (momOut V c) (fun _ => final V c) ch

end Cert.RS2

end
-- ==== Proof.RC3.lean ====
import proofs.«136216_g2000306190186476_pallasbulk_240_40_alg».proof.Proof.Gen.ReferenceIdeal.Frame
import proofs.«136216_g2000306190186476_pallasbulk_240_40_alg».proof.Proof.Views
import proofs.«136216_g2000306190186476_pallasbulk_240_40_alg».proof.Proof.ConvRows

set_option maxRecDepth 16384

noncomputable section

namespace Cert.RC3

open Cert.ReferenceIdeal Cert.ReferenceIdeal.Gen Cert.Spec Cert.Views Cert.ConvRows Idealize.ShloMosaic
  Idealize.ShloMosaic.TcCoe Idealize.ShloMosaic.ValueIdx Idealize.SL.Sem

variable (V : (c : Dev nD) → (b : Ref sig .tc) → Buf (Elt Ideal) ((c : Thread nD τ).loc b))

theorem ev : Ev 96 := ⟨by decide, by decide, by decide, by decide, by decide⟩

abbrev xbuf (c : Dev nD) : Vec Ideal S128x256x1024 .f32 := V c main_call0_v36
abbrev scl (c : Dev nD) : Vec Ideal S96x1 .f32 := V c main_call0_v56
abbrev shf (c : Dev nD) : Vec Ideal S96x1 .f32 := V c main_call0_v57
abbrev wmk (c : Dev nD) : Vec Ideal S2x1024 .f32 := V c main_call0_v12
abbrev wts (c : Dev nD) : Vec Ideal S32x864 .f32 := V c main_call0_v55
abbrev yOut (c : Dev nD) : Vec Ideal S128x32x1024 .f32 := (dat3 V c).arrAt 5 cfg3.N

theorem idx_facts : ∀ t : Fin cfg3.N,
    (win3_0.index t (0 : Fin 3) = t.val ∧ win3_0.index t (1 : Fin 3) = 0 ∧ win3_0.index t (2 : Fin 3) = 0)
    ∧ (∀ a, win3_1.index t a = 0) ∧ (∀ a, win3_2.index t a = 0) ∧ (∀ a, win3_3.index t a = 0) ∧ (∀ a, win3_4.index t a = 0)
    ∧ (win3_5.index t (0 : Fin 3) = t.val ∧ win3_5.index t (1 : Fin 3) = 0 ∧ win3_5.index t (2 : Fin 3) = 0) :=
  (by decide +kernel : ∀ t : Fin grid3.N, _)

theorem xblk_apply (c : Dev nD) (t : Fin cfg3.N) (n : Fin 128) (hn : n.val = t.val) (ch : Fin 256) (q : Fin 1024) :
    iblk3 V c 0 t (ix3 (0 : Fin 1) ch q) = xbuf V c (ix3 n ch q) := by
  obtain ⟨⟨e0, e1, e2⟩, -⟩ := idx_facts t
  refine at_congr (V c main_call0_v36) fun a => ?_
  match a with
  | ⟨0, _⟩ => show win3_0.index t (0 : Fin 3) * 1 + 1 * 0 = n.val; omega
  | ⟨1, _⟩ => show win3_0.index t (1 : Fin 3) * 256 + 1 * ch.val = ch.val; omega
  | ⟨2, _⟩ => show win3_0.index t (2 : Fin 3) * 1024 + 1 * q.val = q.val; omega

theorem sblk_eq (c : Dev nD) (t : Fin cfg3.N) : iblk3 V c 1 t = scl V c :=
  funext fun y => at_congr (V c main_call0_v56) fun a => win3_1.rect_emb_val_of_index_zero t a ((idx_facts t).2.1 a) y

theorem hblk_eq (c : Dev nD) (t : Fin cfg3.N) : iblk3 V c 2 t = shf V c :=
  funext fun y => at_congr (V c main_call0_v57) fun a => win3_2.rect_emb_val_of_index_zero t a ((idx_facts t).2.2.1 a) y

theorem mblk_eq (c : Dev nD) (t : Fin cfg3.N) : iblk3 V c 3 t = wmk V c :=
  funext fun y => at_congr (V c main_call0_v12) fun a => win3_3.rect_emb_val_of_index_zero t a ((idx_facts t).2.2.2.1 a) y

theorem wblk_eq (c : Dev nD) (t : Fin cfg3.N) : iblk3 V c 4 t = wts V c :=
  funext fun y => at_congr (V c main_call0_v55) fun a => win3_4.rect_emb_val_of_index_zero t a ((idx_facts t).2.2.2.2.1 a) y

/-- Where point t's block of the output lies in the array. -/
theorem emb5 (t : Fin cfg3.N) (u : Fin 1) (o : Fin 32) (p : Fin 1024) :
    ((cfg3.win 5).blk t).view.emb (ix3 u o p)
      = (ix3 (⟨t.val, lt_of_lt_of_eq t.isLt N_3⟩ : Fin 128) o p : S128x32x1024.Idx) := by
  obtain ⟨-, -, -, -, -, ⟨e0, e1, e2⟩⟩ := idx_facts t
  funext a
  apply Fin.ext
  match a with
  | ⟨0, _⟩ => show win3_5.index t (0 : Fin 3) * 1 + 1 * u.val = t.val; omega
  | ⟨1, _⟩ => show win3_5.index t (1 : Fin 3) * 32 + 1 * o.val = o.val; omega
  | ⟨2, _⟩ => show win3_5.index t (2 : Fin 3) * 1024 + 1 * p.val = p.val; omega

/-- The output the region leaves, as a function of the arrays it found. -/
def yArr (c : Dev nD) : Vec Ideal S128x32x1024 .f32 := fun i =>
  convCols (wChanMinor (C := 96) (wts V c)) (maskRows (wmk V c))
    (affineRelu (col (scl V c)) (col (shf V c)) (takeCh 96 (by norm_num) (actNM (xbuf V c)))) (i 0) (i 1) (i 2)

/-- What point t contributes to the output is image t's slab of that array. -/
theorem flushed_eq (c : Dev nD) (t : Fin cfg3.N) :
    (dat3 V c).flushed 5 t = ((cfg3.win 5).blk t).view.read (Elt Ideal) (yArr V c) := by
  have ht : t.val < 128 := lt_of_lt_of_eq t.isLt N_3
  show (cfg3.win 5).cut (grid3.coords t) ((dat3 V c).after 5 t) = _
  rw [after3_5]
  unfold out3_5
  rw [View.canon_unit_zero hz3]
  funext y
  obtain ⟨u, o, p, rfl⟩ : ∃ (u : Fin 1) (o : Fin 32) (p : Fin 1024), y = ix3 u o p := ⟨y 0, y 1, y 2, eq_ix3 y⟩
  rw [View.read_apply, emb5]
  refine pay_apply ev _ _ _ _ _ _
    (affineRelu (col (scl V c)) (col (shf V c)) (takeCh 96 (by norm_num) (actNM (xbuf V c))) ⟨t.val, ht⟩)
    (maskRows (wmk V c)) (wChanMinor (C := 96) (wts V c)) (fun ci q => ?_) (fun p' => ?_) (fun p' => ?_)
    (fun o' ci kh kw => ?_) u o p
  · rw [ld_chan (iblk3 V c 0 t) _ ci q ⟨ci.val, by omega⟩ rfl, xblk_apply V c t ⟨t.val, ht⟩ rfl,
      View.ld_unit_zero (S := S96x1) hz2, View.ld_unit_zero (S := S96x1) hz2, sblk_eq, hblk_eq]
    rfl
  · rw [ld_row _ 0 _ p' 0 rfl, mblk_eq]
    rfl
  · rw [ld_row _ 1 _ p' 1 rfl, mblk_eq]
    rfl
  · rw [View.ld_unit_zero (S := S32x864) hz2, wblk_eq]
    rfl

/-- Every index of the output lies in a point's block: image n's slab in point n's. -/
theorem cover (i : S128x32x1024.Idx) :
    ∃ t : Fin cfg3.N, (cfg3.win 5).flush t = true ∧ i ∈ ((cfg3.win 5).blk t).view.set := by
  obtain ⟨n, o, p, rfl⟩ : ∃ (n : Fin 128) (o : Fin 32) (p : Fin 1024), i = ix3 n o p := ⟨i 0, i 1, i 2, eq_ix3 i⟩
  have h := ((cfg3.win 5).blk ⟨n.val, lt_of_lt_of_eq n.isLt N_3.symm⟩).view.emb_mem_set (ix3 (0 : Fin 1) o p)
  rw [emb5] at h
  exact ⟨_, flush3_5 _, h⟩

/-- The output, read image-major, is the convolution of the rectified first 96 channels of the buffer. -/
theorem arr_y (c : Dev nD) :
    actNM (yOut V c) = convCols (wChanMinor (C := 96) (wts V c)) (maskRows (wmk V c))
      (affineRelu (col (scl V c)) (col (shf V c)) (takeCh 96 (by norm_num) (actNM (xbuf V c)))) := by
  rw [show yOut V c = yArr V c from (dat3 V c).arrAt_eq_of_cover 5 (yArr V c) (fun t _ => flushed_eq V c t) cover]
  rfl

end Cert.RC3

end
-- ==== Proof.RHost1.lean ====
import proofs.«136216_g2000306190186476_pallasbulk_240_40_alg».proof.Proof.RHost

set_option maxRecDepth 16384
noncomputable section

namespace Cert.RHost
open Cert.ReferenceIdeal Cert.ReferenceIdeal.Gen Cert.Spec Cert.Views
open Idealize.ShloMosaic Idealize.ShloMosaic.TcCoe Idealize.ShloMosaic.ValueIdx Idealize.SL.Sem

section Stats1
variable (W : Valuation τ sig (Elt Ideal))

abbrev momL1 : Vec Ideal S96x2 .f32 := W (Proc.devRef .tc main_call0_v37)

abbrev gamL1 : Vec Ideal S96 .f32 := W (Proc.devRef .tc main_arg4)
abbrev betL1 : Vec Ideal S96 .f32 := W (Proc.devRef .tc main_arg5)

abbrev wgtL1 : Vec Ideal S32x96x3x3 .f32 := W (Proc.devRef .tc main_arg6)

theorem h3_scaleTerm : (StableHlo.after hostOps3 W (Proc.devRef .tc main_call0_v56) : Vec Ideal S96x1 .f32)
    = shapeCast S96x1 (scaleV (C := 96) slices_S96x2_S96x1_0_0 slices_S96x2_S96x1_0_1 shapeCasts_S96x1_S96 bcast_S_S96
        (momL1 W) (gamL1 W)) shapeCasts_S96_S96x1 := by
  show StableHlo.after hostOps3 W (Proc.devRef .tc main_call0_v56) = _
  after_results_simp
  simp only [ofBuf_toBuf]
  rfl

theorem h3_shiftTerm : (StableHlo.after hostOps3 W (Proc.devRef .tc main_call0_v57) : Vec Ideal S96x1 .f32)
    = shapeCast S96x1 (shiftV (C := 96) slices_S96x2_S96x1_0_0 slices_S96x2_S96x1_0_1 shapeCasts_S96x1_S96 bcast_S_S96
        (momL1 W) (gamL1 W) (betL1 W)) shapeCasts_S96_S96x1 := by
  show StableHlo.after hostOps3 W (Proc.devRef .tc main_call0_v57) = _
  after_results_simp
  simp only [ofBuf_toBuf]
  rfl

theorem h3_wTerm : (StableHlo.after hostOps3 W (Proc.devRef .tc main_call0_v55) : Vec Ideal S32x864 .f32)
    = shapeCast S32x864 (transpose S32x3x3x96 [0, 2, 3, 1] (wgtL1 W) transposes_S32x96x3x3_S32x3x3x96_0_2_3_1)
        shapeCasts_S32x3x3x96_S32x864 := by
  show StableHlo.after hostOps3 W (Proc.devRef .tc main_call0_v55) = _
  after_results <;> rfl

end Stats1

section Scatter1
variable (W : Valuation τ sig (Elt Ideal))

theorem h4_scatterTerm : (StableHlo.after hostOps4 W (Proc.devRef .tc main_call0_v60) : Vec Ideal S128x256x1024 .f32)
    = Host.scatter sd (fun _ b => b) (W (Proc.devRef .tc main_call0_v36) : Vec Ideal S128x256x1024 .f32)
        (broadcastInDim S1 ![] bcast_S_S1 (constantI S_ 32 96#32))
        (W (Proc.devRef .tc main_call0_v58) : Vec Ideal S128x32x1024 .f32) := by
  show StableHlo.after hostOps4 W (Proc.devRef .tc main_call0_v60) = _
  after_results
  simp only [ofBuf_toBuf]
  refine toBuf_eq _ _ _ (heq_of_eq ?_)
  exact congrArg₂ (fun a c => Host.scatter sd (fun _ b => b) a (broadcastInDim S1 ![] bcast_S_S1 (constantI S_ 32 96#32)) c)
    (ofBuf_eq _ _ _ HEq.rfl) (ofBuf_eq _ _ _ HEq.rfl)

end Scatter1

end Cert.RHost
end
-- ==== Proof.RThread1.lean ====
import proofs.«136216_g2000306190186476_pallasbulk_240_40_alg».proof.Proof.RS2
import proofs.«136216_g2000306190186476_pallasbulk_240_40_alg».proof.Proof.RC3
import proofs.«136216_g2000306190186476_pallasbulk_240_40_alg».proof.Proof.RHost1
import proofs.«136216_g2000306190186476_pallasbulk_240_40_alg».proof.Proof.RThreadCarry
import proofs.«136216_g2000306190186476_pallasbulk_240_40_alg».proof.Proof.RThreadBase
import proofs.«136216_g2000306190186476_pallasbulk_240_40_alg».proof.Proof.RThreadArgs

set_option maxRecDepth 16384

noncomputable section

namespace Cert.RThread

open Cert.ReferenceIdeal Cert.ReferenceIdeal.Gen Cert.Spec Cert.Views Cert.Block Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 1 is `layer_step` at its buffers; a buffer a step does not write is the same before and after it. -/
theorem layer1 (c : Dev nD) (h : Entry (W5 m ρ c main_call0_v36) (W5 m ρ c main_call0_v12) (X1 (args m c))) :
    Entry (W9 m ρ c main_call0_v60) (W9 m ρ c main_call0_v12) (X2 (args m c)) := by
  have b2 : W6 m ρ c main_call0_v36 = W5 m ρ c main_call0_v36 := (W6_arr m ρ c 0).trans ((Pipeline.Dat.arrAt_in (dat2 (V5 m ρ) c) 0 rfl cfg2.N).trans (A_eq2 (V5 m ρ) c 0))
  have b3 : W7 m ρ c main_call0_v36 = W6 m ρ c main_call0_v36 := by host_keeps hostOps3
  have k3 : W7 m ρ c main_call0_v12 = W6 m ρ c main_call0_v12 := by host_keeps hostOps3
  have k5 : W9 m ρ c main_call0_v12 = W8 m ρ c main_call0_v12 := by host_keeps hostOps4
  exact layer_step (C := 96) (by norm_num) h (W6_arg m ρ c (b := main_arg4) (by decide))
    (W6_arg m ρ c (b := main_arg5) (by decide)) (W6_arg m ρ c (b := main_arg6) (by decide))
    (Cert.RS2.arr_mom (V5 m ρ) c) (W6_arr m ρ c 1) (Cert.RHost.h3_scaleTerm (W6 m ρ c))
    (Cert.RHost.h3_shiftTerm (W6 m ρ c)) (Cert.RHost.h3_wTerm (W6 m ρ c)) (b3.trans b2)
    (k3.trans (W6_of_ne m ρ c main_call0_v12 (by decide))) (Cert.RC3.arr_y (V7 m ρ) c) (W8_arr m ρ c 5)
    ((W8_arr m ρ c 0).trans ((Pipeline.Dat.arrAt_in (dat3 (V7 m ρ) c) 0 rfl cfg3.N).trans (A_eq3 (V7 m ρ) c 0)))
    (Cert.RHost.h4_scatterTerm (W8 m ρ c)) (fun _ => rfl)
    (k5.trans ((W8_arr m ρ c 3).trans ((Pipeline.Dat.arrAt_in (dat3 (V7 m ρ) c) 3 rfl cfg3.N).trans (A_eq3 (V7 m ρ) c 3))))

end Cert.RThread

end
-- ==== Proof.RS4.lean ====
import proofs.«136216_g2000306190186476_pallasbulk_240_40_alg».proof.Proof.Gen.ReferenceIdeal.Frame
import proofs.«136216_g2000306190186476_pallasbulk_240_40_alg».proof.Proof.ChanMoments

set_option maxRecDepth 16384

noncomputable section

namespace Cert.RS4

open Cert.ReferenceIdeal Cert.ReferenceIdeal.Gen Cert.Spec Cert.Views Cert.ChanMoments Idealize.ShloMosaic Idealize.ShloMosaic.TcCoe Idealize.ShloMosaic.ValueIdx Idealize.SL.Sem
open Idealize.ShloMosaic.Pipeline (Dat Cfg Window)

section Pieces
variable {F : FTy → Type} [FloatOps F]

/-- A later point adds its moments onto what the accumulator held. -/
theorem out_B (c i a1 h1 a2 h2 hc) (x : Vec F S1x256x1024 .f32) (xo) :
    out4_B_1 c i a1 h1 a2 h2 hc x xo = k4_pay2 (rowsOf x inb_S1x256x1024_S1x128x1024_0_0_0) xo := by
  unfold out4_B_1
  rw [View.read_writes_eq_canon _ _ _ (cover4_B_1 c i a1 h1 a2 h2 hc x xo)]
  unfold kernelRun4_B
  dsimp only
  sl_unfold_words
  rw [View.canon_unit_zero hz2]
  simp only [View.readAt_eq_ld, h1.read_unread, h2.read_unread, View.ld_unit_zero (S := S128x2) hz2]

/-- The first point adds its moments onto zeros. -/
theorem out_A (c i a1 h1 a2 h2 hc) (x : Vec F S1x256x1024 .f32) :
    out4_A_1 c i a1 h1 a2 h2 hc x = k4_pay2 (rowsOf x inb_S1x256x1024_S1x128x1024_0_0_0) (k4_pay1 (F := F)) := by
  unfold out4_A_1
  rw [View.read_writes_eq_canon _ _ _ (cover4_A_1 c i a1 h1 a2 h2 hc x)]
  unfold kernelRun4_A
  dsimp only
  sl_unfold_words
  rw [View.canon_cons_unit_zero (S := S128x2) hz2, View.readCov_unit_zero (S := S128x2) _ hz2]
  simp only [View.readAt_eq_ld, h1.read_unread, View.ld_unit_zero (S := S128x2) hz2]

end Pieces

variable (V : (c : Dev nD) → (b : Ref sig .tc) → Buf (Elt Ideal) ((c : Thread nD τ).loc b))

abbrev xbuf (c : Dev nD) : Vec Ideal S128x256x1024 .f32 := V c main_call0_v60
abbrev momOut (c : Dev nD) : Vec Ideal S128x2 .f32 := (dat4 V c).arrAt 1 cfg4.N
abbrev xblk (c : Dev nD) (t : Fin cfg4.N) : Vec Ideal S1x256x1024 .f32 := iblk4 V c 0 t

theorem idx_in : ∀ t : Fin cfg4.N, win4_0.index t 0 = t.val ∧ win4_0.index t 1 = 0 ∧ win4_0.index t 2 = 0 :=
  (by decide +kernel : ∀ t : Fin grid4.N, win4_0.index t 0 = t.val ∧ win4_0.index t 1 = 0 ∧ win4_0.index t 2 = 0)

/-- Point t's block is image t of the buffer. -/
theorem xblk_apply (c : Dev nD) (t : Fin cfg4.N) (ht : t.val < 128) (ch : Fin 256) (p : Fin 1024) :
    xblk V c t (ix3 (0 : Fin 1) ch p) = xbuf V c (ix3 (⟨t.val, ht⟩ : Fin 128) ch p) := by
  obtain ⟨i0, i1, i2⟩ := idx_in t
  unfold xblk iblk4
  rw [View.read_apply]
  show V c main_call0_v60 _ = V c main_call0_v60 _
  congr 1
  funext a
  apply Fin.ext
  match a with
  | ⟨0, _⟩ => show win4_0.index t 0 * 1 + 1 * 0 = t.val; rw [i0]; omega
  | ⟨1, _⟩ => show win4_0.index t 1 * 256 + 1 * ch.val = ch.val; rw [i1]; omega
  | ⟨2, _⟩ => show win4_0.index t 2 * 1024 + 1 * p.val = p.val; rw [i2]; omega

abbrev tLast : Fin cfg4.N := ⟨127, by rw [show cfg4.N = 128 from N_4]; decide⟩

theorem idx_out : ∀ t : Fin cfg4.N, ∀ a, win4_1.index t a = 0 :=
  (by decide +kernel : ∀ t : Fin grid4.N, ∀ a, win4_1.index t a = 0)

theorem flushed_eq (c : Dev nD) (t : Fin cfg4.N) (hf : (cfg4.win 1).flush t = true) :
    (dat4 V c).flushed 1 t = ((cfg4.win 1).blk t).view.read (Elt Ideal) (outsAt4 V c tLast.val tLast.isLt) := by
  have hN : cfg4.N = 128 := N_4
  have h3 : t.val = 127 := by have := (flush4_1 t).mp hf; have := t.isLt; omega
  obtain rfl : t = tLast := Fin.ext h3
  show (cfg4.win 1).cut (grid4.coords tLast) ((dat4 V c).after 1 tLast) = _
  rw [after4_1]
  have hz' : (fun a => win4_1.index tLast a * main_call0_v61.ty.shape.size a) = fun _ => 0 :=
    funext fun a => by rw [idx_out tLast a, Nat.zero_mul]
  exact (Memref.read_access_unit_zero (Elt Ideal) main_call0_v61 hz' (fun a => by rw [congrFun hz' a]; simp) _).symm

theorem final (c : Dev nD) : momOut V c = outsAt4 V c tLast.val tLast.isLt :=
  (dat4 V c).arrAt_eq_of_cover 1 (outsAt4 V c tLast.val tLast.isLt) (flushed_eq V c) fun i =>
    ⟨tLast, (flush4_1 tLast).mpr rfl, by
      show i ∈ ((View.whole main_call0_v61).slice (win4_1.rect tLast)).set
      rw [View.set_slice_whole, Rect.mem_set_unit]
      intro a
      match a with
      | ⟨0, _⟩ => exact mem_block_zero (idx_out tLast 0) rfl (i 0).isLt
      | ⟨1, _⟩ => exact mem_block_zero (idx_out tLast 1) rfl (i 1).isLt⟩

/-- The table's two columns are the two channel moments of the buffer's first 128 channels. -/
theorem arr_mom (c : Dev nD) (ch : Fin 128) :
    mom2 (momOut V c) 0 ch = sum1 (takeCh 128 (by norm_num) (actNM (xbuf V c))) ch
  ∧ mom2 (momOut V c) 1 ch = sum2 (takeCh 128 (by norm_num) (actNM (xbuf V c))) ch :=
  moments N_4 (by norm_num) (xbuf V c) (xblk V c) inb_S1x256x1024_S1x128x1024_0_0_0 (xblk_apply V c) (outsAt4 V c)
    (k4_pay1 (F := Ideal)) (fun _ => by unfold k4_pay1; exact Ideal.ofBits_zero_f32)
    (k4_pay2 (F := Ideal)) (fun v a ch m => by unfold k4_pay2; exact pay2_apply v a _ _ _ _ _ _ _ ch m)
    (fun t h0 => (outsAt4_A V c t h0).trans (out_A (F := Ideal) c _ _ _ _ _ _ _))
    (fun t h0 => (outsAt4_B V c t h0).trans (out_B (F := Ideal) c _ _ _ _ _ _ _ _))
    (momOut V c) (fun _ => final V c) ch

end Cert.RS4

end
-- ==== Proof.RC5.lean ====
import proofs.«136216_g2000306190186476_pallasbulk_240_40_alg».proof.Proof.Gen.ReferenceIdeal.Frame
import proofs.«136216_g2000306190186476_pallasbulk_240_40_alg».proof.Proof.Views
import proofs.«136216_g2000306190186476_pallasbulk_240_40_alg».proof.Proof.ConvRows

set_option maxRecDepth 16384

noncomputable section

namespace Cert.RC5

open Cert.ReferenceIdeal Cert.ReferenceIdeal.Gen Cert.Spec Cert.Views Cert.ConvRows Idealize.ShloMosaic
  Idealize.ShloMosaic.TcCoe Idealize.ShloMosaic.ValueIdx Idealize.SL.Sem

variable (V : (c : Dev nD) → (b : Ref sig .tc) → Buf (Elt Ideal) ((c : Thread nD τ).loc b))

theorem ev : Ev 128 := ⟨by decide, by decide, by decide, by decide, by decide⟩

abbrev xbuf (c : Dev nD) : Vec Ideal S128x256x1024 .f32 := V c main_call0_v60
abbrev scl (c : Dev nD) : Vec Ideal S128x1 .f32 := V c main_call0_v80
abbrev shf (c : Dev nD) : Vec Ideal S128x1 .f32 := V c main_call0_v81
abbrev wmk (c : Dev nD) : Vec Ideal S2x1024 .f32 := V c main_call0_v12
abbrev wts (c : Dev nD) : Vec Ideal S32x1152 .f32 := V c main_call0_v79
abbrev yOut (c : Dev nD) : Vec Ideal S128x32x1024 .f32 := (dat5 V c).arrAt 5 cfg5.N

theorem idx_facts : ∀ t : Fin cfg5.N,
    (win5_0.index t (0 : Fin 3) = t.val ∧ win5_0.index t (1 : Fin 3) = 0 ∧ win5_0.index t (2 : Fin 3) = 0)
    ∧ (∀ a, win5_1.index t a = 0) ∧ (∀ a, win5_2.index t a = 0) ∧ (∀ a, win5_3.index t a = 0) ∧ (∀ a, win5_4.index t a = 0)
    ∧ (win5_5.index t (0 : Fin 3) = t.val ∧ win5_5.index t (1 : Fin 3) = 0 ∧ win5_5.index t (2 : Fin 3) = 0) :=
  (by decide +kernel : ∀ t : Fin grid5.N, _)

theorem xblk_apply (c : Dev nD) (t : Fin cfg5.N) (n : Fin 128) (hn : n.val = t.val) (ch : Fin 256) (q : Fin 1024) :
    iblk5 V c 0 t (ix3 (0 : Fin 1) ch q) = xbuf V c (ix3 n ch q) := by
  obtain ⟨⟨e0, e1, e2⟩, -⟩ := idx_facts t
  refine at_congr (V c main_call0_v60) fun a => ?_
  match a with
  | ⟨0, _⟩ => show win5_0.index t (0 : Fin 3) * 1 + 1 * 0 = n.val; omega
  | ⟨1, _⟩ => show win5_0.index t (1 : Fin 3) * 256 + 1 * ch.val = ch.val; omega
  | ⟨2, _⟩ => show win5_0.index t (2 : Fin 3) * 1024 + 1 * q.val = q.val; omega

theorem sblk_eq (c : Dev nD) (t : Fin cfg5.N) : iblk5 V c 1 t = scl V c :=
  funext fun y => at_congr (V c main_call0_v80) fun a => win5_1.rect_emb_val_of_index_zero t a ((idx_facts t).2.1 a) y

theorem hblk_eq (c : Dev nD) (t : Fin cfg5.N) : iblk5 V c 2 t = shf V c :=
  funext fun y => at_congr (V c main_call0_v81) fun a => win5_2.rect_emb_val_of_index_zero t a ((idx_facts t).2.2.1 a) y

theorem mblk_eq (c : Dev nD) (t : Fin cfg5.N) : iblk5 V c 3 t = wmk V c :=
  funext fun y => at_congr (V c main_call0_v12) fun a => win5_3.rect_emb_val_of_index_zero t a ((idx_facts t).2.2.2.1 a) y

theorem wblk_eq (c : Dev nD) (t : Fin cfg5.N) : iblk5 V c 4 t = wts V c :=
  funext fun y => at_congr (V c main_call0_v79) fun a => win5_4.rect_emb_val_of_index_zero t a ((idx_facts t).2.2.2.2.1 a) y

/-- Where point t's block of the output lies in the array. -/
theorem emb5 (t : Fin cfg5.N) (u : Fin 1) (o : Fin 32) (p : Fin 1024) :
    ((cfg5.win 5).blk t).view.emb (ix3 u o p)
      = (ix3 (⟨t.val, lt_of_lt_of_eq t.isLt N_5⟩ : Fin 128) o p : S128x32x1024.Idx) := by
  obtain ⟨-, -, -, -, -, ⟨e0, e1, e2⟩⟩ := idx_facts t
  funext a
  apply Fin.ext
  match a with
  | ⟨0, _⟩ => show win5_5.index t (0 : Fin 3) * 1 + 1 * u.val = t.val; omega
  | ⟨1, _⟩ => show win5_5.index t (1 : Fin 3) * 32 + 1 * o.val = o.val; omega
  | ⟨2, _⟩ => show win5_5.index t (2 : Fin 3) * 1024 + 1 * p.val = p.val; omega

/-- The output the region leaves, as a function of the arrays it found. -/
def yArr (c : Dev nD) : Vec Ideal S128x32x1024 .f32 := fun i =>
  convCols (wChanMinor (C := 128) (wts V c)) (maskRows (wmk V c))
    (affineRelu (col (scl V c)) (col (shf V c)) (takeCh 128 (by norm_num) (actNM (xbuf V c)))) (i 0) (i 1) (i 2)

/-- What point t contributes to the output is image t's slab of that array. -/
theorem flushed_eq (c : Dev nD) (t : Fin cfg5.N) :
    (dat5 V c).flushed 5 t = ((cfg5.win 5).blk t).view.read (Elt Ideal) (yArr V c) := by
  have ht : t.val < 128 := lt_of_lt_of_eq t.isLt N_5
  show (cfg5.win 5).cut (grid5.coords t) ((dat5 V c).after 5 t) = _
  rw [after5_5]
  unfold out5_5
  rw [View.canon_unit_zero hz3]
  funext y
  obtain ⟨u, o, p, rfl⟩ : ∃ (u : Fin 1) (o : Fin 32) (p : Fin 1024), y = ix3 u o p := ⟨y 0, y 1, y 2, eq_ix3 y⟩
  rw [View.read_apply, emb5]
  refine pay_apply ev _ _ _ _ _ _
    (affineRelu (col (scl V c)) (col (shf V c)) (takeCh 128 (by norm_num) (actNM (xbuf V c))) ⟨t.val, ht⟩)
    (maskRows (wmk V c)) (wChanMinor (C := 128) (wts V c)) (fun ci q => ?_) (fun p' => ?_) (fun p' => ?_)
    (fun o' ci kh kw => ?_) u o p
  · rw [ld_chan (iblk5 V c 0 t) _ ci q ⟨ci.val, by omega⟩ rfl, xblk_apply V c t ⟨t.val, ht⟩ rfl,
      View.ld_unit_zero (S := S128x1) hz2, View.ld_unit_zero (S := S128x1) hz2, sblk_eq, hblk_eq]
    rfl
  · rw [ld_row _ 0 _ p' 0 rfl, mblk_eq]
    rfl
  · rw [ld_row _ 1 _ p' 1 rfl, mblk_eq]
    rfl
  · rw [View.ld_unit_zero (S := S32x1152) hz2, wblk_eq]
    rfl

/-- Every index of the output lies in a point's block: image n's slab in point n's. -/
theorem cover (i : S128x32x1024.Idx) :
    ∃ t : Fin cfg5.N, (cfg5.win 5).flush t = true ∧ i ∈ ((cfg5.win 5).blk t).view.set := by
  obtain ⟨n, o, p, rfl⟩ : ∃ (n : Fin 128) (o : Fin 32) (p : Fin 1024), i = ix3 n o p := ⟨i 0, i 1, i 2, eq_ix3 i⟩
  have h := ((cfg5.win 5).blk ⟨n.val, lt_of_lt_of_eq n.isLt N_5.symm⟩).view.emb_mem_set (ix3 (0 : Fin 1) o p)
  rw [emb5] at h
  exact ⟨_, flush5_5 _, h⟩

/-- The output, read image-major, is the convolution of the rectified first 128 channels of the buffer. -/
theorem arr_y (c : Dev nD) :
    actNM (yOut V c) = convCols (wChanMinor (C := 128) (wts V c)) (maskRows (wmk V c))
      (affineRelu (col (scl V c)) (col (shf V c)) (takeCh 128 (by norm_num) (actNM (xbuf V c)))) := by
  rw [show yOut V c = yArr V c from (dat5 V c).arrAt_eq_of_cover 5 (yArr V c) (fun t _ => flushed_eq V c t) cover]
  rfl

end Cert.RC5

end
-- ==== Proof.RHost2.lean ====
import proofs.«136216_g2000306190186476_pallasbulk_240_40_alg».proof.Proof.RHost

set_option maxRecDepth 16384
noncomputable section

namespace Cert.RHost
open Cert.ReferenceIdeal Cert.ReferenceIdeal.Gen Cert.Spec Cert.Views
open Idealize.ShloMosaic Idealize.ShloMosaic.TcCoe Idealize.ShloMosaic.ValueIdx Idealize.SL.Sem

section Stats2
variable (W : Valuation τ sig (Elt Ideal))

abbrev momL2 : Vec Ideal S128x2 .f32 := W (Proc.devRef .tc main_call0_v61)

abbrev gamL2 : Vec Ideal S128 .f32 := W (Proc.devRef .tc main_arg7)
abbrev betL2 : Vec Ideal S128 .f32 := W (Proc.devRef .tc main_arg8)

abbrev wgtL2 : Vec Ideal S32x128x3x3 .f32 := W (Proc.devRef .tc main_arg9)

theorem h5_scaleTerm : (StableHlo.after hostOps5 W (Proc.devRef .tc main_call0_v80) : Vec Ideal S128x1 .f32)
    = shapeCast S128x1 (scaleV (C := 128) slices_S128x2_S128x1_0_0 slices_S128x2_S128x1_0_1 shapeCasts_S128x1_S128 bcast_S_S128
        (momL2 W) (gamL2 W)) shapeCasts_S128_S128x1 := by
  show StableHlo.after hostOps5 W (Proc.devRef .tc main_call0_v80) = _
  after_results_simp
  simp only [ofBuf_toBuf]
  rfl

theorem h5_shiftTerm : (StableHlo.after hostOps5 W (Proc.devRef .tc main_call0_v81) : Vec Ideal S128x1 .f32)
    = shapeCast S128x1 (shiftV (C := 128) slices_S128x2_S128x1_0_0 slices_S128x2_S128x1_0_1 shapeCasts_S128x1_S128 bcast_S_S128
        (momL2 W) (gamL2 W) (betL2 W)) shapeCasts_S128_S128x1 := by
  show StableHlo.after hostOps5 W (Proc.devRef .tc main_call0_v81) = _
  after_results_simp
  simp only [ofBuf_toBuf]
  rfl

theorem h5_wTerm : (StableHlo.after hostOps5 W (Proc.devRef .tc main_call0_v79) : Vec Ideal S32x1152 .f32)
    = shapeCast S32x1152 (transpose S32x3x3x128 [0, 2, 3, 1] (wgtL2 W) transposes_S32x128x3x3_S32x3x3x128_0_2_3_1)
        shapeCasts_S32x3x3x128_S32x1152 := by
  show StableHlo.after hostOps5 W (Proc.devRef .tc main_call0_v79) = _
  after_results <;> rfl

end Stats2

section Scatter2
variable (W : Valuation τ sig (Elt Ideal))

theorem h6_scatterTerm : (StableHlo.after hostOps6 W (Proc.devRef .tc main_call0_v84) : Vec Ideal S128x256x1024 .f32)
    = Host.scatter sd (fun _ b => b) (W (Proc.devRef .tc main_call0_v60) : Vec Ideal S128x256x1024 .f32)
        (broadcastInDim S1 ![] bcast_S_S1 (constantI S_ 32 128#32))
        (W (Proc.devRef .tc main_call0_v82) : Vec Ideal S128x32x1024 .f32) := by
  show StableHlo.after hostOps6 W (Proc.devRef .tc main_call0_v84) = _
  after_results
  simp only [ofBuf_toBuf]
  refine toBuf_eq _ _ _ (heq_of_eq ?_)
  exact congrArg₂ (fun a c => Host.scatter sd (fun _ b => b) a (broadcastInDim S1 ![] bcast_S_S1 (constantI S_ 32 128#32)) c)
    (ofBuf_eq _ _ _ HEq.rfl) (ofBuf_eq _ _ _ HEq.rfl)

end Scatter2

end Cert.RHost
end
-- ==== Proof.RThread2.lean ====
import proofs.«136216_g2000306190186476_pallasbulk_240_40_alg».proof.Proof.RS4
import proofs.«136216_g2000306190186476_pallasbulk_240_40_alg».proof.Proof.RC5
import proofs.«136216_g2000306190186476_pallasbulk_240_40_alg».proof.Proof.RHost2
import proofs.«136216_g2000306190186476_pallasbulk_240_40_alg».proof.Proof.RThreadCarry
import proofs.«136216_g2000306190186476_pallasbulk_240_40_alg».proof.Proof.RThreadBase
import proofs.«136216_g2000306190186476_pallasbulk_240_40_alg».proof.Proof.RThreadArgs

set_option maxRecDepth 16384

noncomputable section

namespace Cert.RThread

open Cert.ReferenceIdeal Cert.ReferenceIdeal.Gen Cert.Spec Cert.Views Cert.Block Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 2 is `layer_step` at its buffers; a buffer a step does not write is the same before and after it. -/
theorem layer2 (c : Dev nD) (h : Entry (W9 m ρ c main_call0_v60) (W9 m ρ c main_call0_v12) (X2 (args m c))) :
    Entry (W13 m ρ c main_call0_v84) (W13 m ρ c main_call0_v12) (X3 (args m c)) := by
  have b2 : W10 m ρ c main_call0_v60 = W9 m ρ c main_call0_v60 := (W10_arr m ρ c 0).trans ((Pipeline.Dat.arrAt_in (dat4 (V9 m ρ) c) 0 rfl cfg4.N).trans (A_eq4 (V9 m ρ) c 0))
  have b3 : W11 m ρ c main_call0_v60 = W10 m ρ c main_call0_v60 := by host_keeps hostOps5
  have k3 : W11 m ρ c main_call0_v12 = W10 m ρ c main_call0_v12 := by host_keeps hostOps5
  have k5 : W13 m ρ c main_call0_v12 = W12 m ρ c main_call0_v12 := by host_keeps hostOps6
  exact layer_step (C := 128) (by norm_num) h (W10_arg m ρ c (b := main_arg7) (by decide))
    (W10_arg m ρ c (b := main_arg8) (by decide)) (W10_arg m ρ c (b := main_arg9) (by decide))
    (Cert.RS4.arr_mom (V9 m ρ) c) (W10_arr m ρ c 1) (Cert.RHost.h5_scaleTerm (W10 m ρ c))
    (Cert.RHost.h5_shiftTerm (W10 m ρ c)) (Cert.RHost.h5_wTerm (W10 m ρ c)) (b3.trans b2)
    (k3.trans (W10_of_ne m ρ c main_call0_v12 (by decide))) (Cert.RC5.arr_y (V11 m ρ) c) (W12_arr m ρ c 5)
    ((W12_arr m ρ c 0).trans ((Pipeline.Dat.arrAt_in (dat5 (V11 m ρ) c) 0 rfl cfg5.N).trans (A_eq5 (V11 m ρ) c 0)))
    (Cert.RHost.h6_scatterTerm (W12 m ρ c)) (fun _ => rfl)
    (k5.trans ((W12_arr m ρ c 3).trans ((Pipeline.Dat.arrAt_in (dat5 (V11 m ρ) c) 3 rfl cfg5.N).trans (A_eq5 (V11 m ρ) c 3))))

end Cert.RThread

end
-- ==== Proof.RS6.lean ====
import proofs.«136216_g2000306190186476_pallasbulk_240_40_alg».proof.Proof.Gen.ReferenceIdeal.Frame
import proofs.«136216_g2000306190186476_pallasbulk_240_40_alg».proof.Proof.ChanMoments

set_option maxRecDepth 16384

noncomputable section

namespace Cert.RS6

open Cert.ReferenceIdeal Cert.ReferenceIdeal.Gen Cert.Spec Cert.Views Cert.ChanMoments Idealize.ShloMosaic Idealize.ShloMosaic.TcCoe Idealize.ShloMosaic.ValueIdx Idealize.SL.Sem
open Idealize.ShloMosaic.Pipeline (Dat Cfg Window)

section Pieces
variable {F : FTy → Type} [FloatOps F]

/-- A later point adds its moments onto what the accumulator held. -/
theorem out_B (c i a1 h1 a2 h2 hc) (x : Vec F S1x256x1024 .f32) (xo) :
    out6_B_1 c i a1 h1 a2 h2 hc x xo = k6_pay2 (rowsOf x inb_S1x256x1024_S1x160x1024_0_0_0) xo := by
  unfold out6_B_1
  rw [View.read_writes_eq_canon _ _ _ (cover6_B_1 c i a1 h1 a2 h2 hc x xo)]
  unfold kernelRun6_B
  dsimp only
  sl_unfold_words
  rw [View.canon_unit_zero hz2]
  simp only [View.readAt_eq_ld, h1.read_unread, h2.read_unread, View.ld_unit_zero (S := S160x2) hz2]

/-- The first point adds its moments onto zeros. -/
theorem out_A (c i a1 h1 a2 h2 hc) (x : Vec F S1x256x1024 .f32) :
    out6_A_1 c i a1 h1 a2 h2 hc x = k6_pay2 (rowsOf x inb_S1x256x1024_S1x160x1024_0_0_0) (k6_pay1 (F := F)) := by
  unfold out6_A_1
  rw [View.read_writes_eq_canon _ _ _ (cover6_A_1 c i a1 h1 a2 h2 hc x)]
  unfold kernelRun6_A
  dsimp only
  sl_unfold_words
  rw [View.canon_cons_unit_zero (S := S160x2) hz2, View.readCov_unit_zero (S := S160x2) _ hz2]
  simp only [View.readAt_eq_ld, h1.read_unread, View.ld_unit_zero (S := S160x2) hz2]

end Pieces

variable (V : (c : Dev nD) → (b : Ref sig .tc) → Buf (Elt Ideal) ((c : Thread nD τ).loc b))

abbrev xbuf (c : Dev nD) : Vec Ideal S128x256x1024 .f32 := V c main_call0_v84
abbrev momOut (c : Dev nD) : Vec Ideal S160x2 .f32 := (dat6 V c).arrAt 1 cfg6.N
abbrev xblk (c : Dev nD) (t : Fin cfg6.N) : Vec Ideal S1x256x1024 .f32 := iblk6 V c 0 t

theorem idx_in : ∀ t : Fin cfg6.N, win6_0.index t 0 = t.val ∧ win6_0.index t 1 = 0 ∧ win6_0.index t 2 = 0 :=
  (by decide +kernel : ∀ t : Fin grid6.N, win6_0.index t 0 = t.val ∧ win6_0.index t 1 = 0 ∧ win6_0.index t 2 = 0)

/-- Point t's block is image t of the buffer. -/
theorem xblk_apply (c : Dev nD) (t : Fin cfg6.N) (ht : t.val < 128) (ch : Fin 256) (p : Fin 1024) :
    xblk V c t (ix3 (0 : Fin 1) ch p) = xbuf V c (ix3 (⟨t.val, ht⟩ : Fin 128) ch p) := by
  obtain ⟨i0, i1, i2⟩ := idx_in t
  unfold xblk iblk6
  rw [View.read_apply]
  show V c main_call0_v84 _ = V c main_call0_v84 _
  congr 1
  funext a
  apply Fin.ext
  match a with
  | ⟨0, _⟩ => show win6_0.index t 0 * 1 + 1 * 0 = t.val; rw [i0]; omega
  | ⟨1, _⟩ => show win6_0.index t 1 * 256 + 1 * ch.val = ch.val; rw [i1]; omega
  | ⟨2, _⟩ => show win6_0.index t 2 * 1024 + 1 * p.val = p.val; rw [i2]; omega

abbrev tLast : Fin cfg6.N := ⟨127, by rw [show cfg6.N = 128 from N_6]; decide⟩

theorem idx_out : ∀ t : Fin cfg6.N, ∀ a, win6_1.index t a = 0 :=
  (by decide +kernel : ∀ t : Fin grid6.N, ∀ a, win6_1.index t a = 0)

theorem flushed_eq (c : Dev nD) (t : Fin cfg6.N) (hf : (cfg6.win 1).flush t = true) :
    (dat6 V c).flushed 1 t = ((cfg6.win 1).blk t).view.read (Elt Ideal) (outsAt6 V c tLast.val tLast.isLt) := by
  have hN : cfg6.N = 128 := N_6
  have h3 : t.val = 127 := by have := (flush6_1 t).mp hf; have := t.isLt; omega
  obtain rfl : t = tLast := Fin.ext h3
  show (cfg6.win 1).cut (grid6.coords tLast) ((dat6 V c).after 1 tLast) = _
  rw [after6_1]
  have hz' : (fun a => win6_1.index tLast a * main_call0_v85.ty.shape.size a) = fun _ => 0 :=
    funext fun a => by rw [idx_out tLast a, Nat.zero_mul]
  exact (Memref.read_access_unit_zero (Elt Ideal) main_call0_v85 hz' (fun a => by rw [congrFun hz' a]; simp) _).symm

theorem final (c : Dev nD) : momOut V c = outsAt6 V c tLast.val tLast.isLt :=
  (dat6 V c).arrAt_eq_of_cover 1 (outsAt6 V c tLast.val tLast.isLt) (flushed_eq V c) fun i =>
    ⟨tLast, (flush6_1 tLast).mpr rfl, by
      show i ∈ ((View.whole main_call0_v85).slice (win6_1.rect tLast)).set
      rw [View.set_slice_whole, Rect.mem_set_unit]
      intro a
      match a with
      | ⟨0, _⟩ => exact mem_block_zero (idx_out tLast 0) rfl (i 0).isLt
      | ⟨1, _⟩ => exact mem_block_zero (idx_out tLast 1) rfl (i 1).isLt⟩

/-- The table's two columns are the two channel moments of the buffer's first 160 channels. -/
theorem arr_mom (c : Dev nD) (ch : Fin 160) :
    mom2 (momOut V c) 0 ch = sum1 (takeCh 160 (by norm_num) (actNM (xbuf V c))) ch
  ∧ mom2 (momOut V c) 1 ch = sum2 (takeCh 160 (by norm_num) (actNM (xbuf V c))) ch :=
  moments N_6 (by norm_num) (xbuf V c) (xblk V c) inb_S1x256x1024_S1x160x1024_0_0_0 (xblk_apply V c) (outsAt6 V c)
    (k6_pay1 (F := Ideal)) (fun _ => by unfold k6_pay1; exact Ideal.ofBits_zero_f32)
    (k6_pay2 (F := Ideal)) (fun v a ch m => by unfold k6_pay2; exact pay2_apply v a _ _ _ _ _ _ _ ch m)
    (fun t h0 => (outsAt6_A V c t h0).trans (out_A (F := Ideal) c _ _ _ _ _ _ _))
    (fun t h0 => (outsAt6_B V c t h0).trans (out_B (F := Ideal) c _ _ _ _ _ _ _ _))
    (momOut V c) (fun _ => final V c) ch

end Cert.RS6

end
-- ==== Proof.RC7.lean ====
import proofs.«136216_g2000306190186476_pallasbulk_240_40_alg».proof.Proof.Gen.ReferenceIdeal.Frame
import proofs.«136216_g2000306190186476_pallasbulk_240_40_alg».proof.Proof.Views
import proofs.«136216_g2000306190186476_pallasbulk_240_40_alg».proof.Proof.ConvRows

set_option maxRecDepth 16384

noncomputable section

namespace Cert.RC7

open Cert.ReferenceIdeal Cert.ReferenceIdeal.Gen Cert.Spec Cert.Views Cert.ConvRows Idealize.ShloMosaic
  Idealize.ShloMosaic.TcCoe Idealize.ShloMosaic.ValueIdx Idealize.SL.Sem

variable (V : (c : Dev nD) → (b : Ref sig .tc) → Buf (Elt Ideal) ((c : Thread nD τ).loc b))

theorem ev : Ev 160 := ⟨by decide, by decide, by decide, by decide, by decide⟩

abbrev xbuf (c : Dev nD) : Vec Ideal S128x256x1024 .f32 := V c main_call0_v84
abbrev scl (c : Dev nD) : Vec Ideal S160x1 .f32 := V c main_call0_v104
abbrev shf (c : Dev nD) : Vec Ideal S160x1 .f32 := V c main_call0_v105
abbrev wmk (c : Dev nD) : Vec Ideal S2x1024 .f32 := V c main_call0_v12
abbrev wts (c : Dev nD) : Vec Ideal S32x1440 .f32 := V c main_call0_v103
abbrev yOut (c : Dev nD) : Vec Ideal S128x32x1024 .f32 := (dat7 V c).arrAt 5 cfg7.N

theorem idx_facts : ∀ t : Fin cfg7.N,
    (win7_0.index t (0 : Fin 3) = t.val ∧ win7_0.index t (1 : Fin 3) = 0 ∧ win7_0.index t (2 : Fin 3) = 0)
    ∧ (∀ a, win7_1.index t a = 0) ∧ (∀ a, win7_2.index t a = 0) ∧ (∀ a, win7_3.index t a = 0) ∧ (∀ a, win7_4.index t a = 0)
    ∧ (win7_5.index t (0 : Fin 3) = t.val ∧ win7_5.index t (1 : Fin 3) = 0 ∧ win7_5.index t (2 : Fin 3) = 0) :=
  (by decide +kernel : ∀ t : Fin grid7.N, _)

theorem xblk_apply (c : Dev nD) (t : Fin cfg7.N) (n : Fin 128) (hn : n.val = t.val) (ch : Fin 256) (q : Fin 1024) :
    iblk7 V c 0 t (ix3 (0 : Fin 1) ch q) = xbuf V c (ix3 n ch q) := by
  obtain ⟨⟨e0, e1, e2⟩, -⟩ := idx_facts t
  refine at_congr (V c main_call0_v84) fun a => ?_
  match a with
  | ⟨0, _⟩ => show win7_0.index t (0 : Fin 3) * 1 + 1 * 0 = n.val; omega
  | ⟨1, _⟩ => show win7_0.index t (1 : Fin 3) * 256 + 1 * ch.val = ch.val; omega
  | ⟨2, _⟩ => show win7_0.index t (2 : Fin 3) * 1024 + 1 * q.val = q.val; omega

theorem sblk_eq (c : Dev nD) (t : Fin cfg7.N) : iblk7 V c 1 t = scl V c :=
  funext fun y => at_congr (V c main_call0_v104) fun a => win7_1.rect_emb_val_of_index_zero t a ((idx_facts t).2.1 a) y

theorem hblk_eq (c : Dev nD) (t : Fin cfg7.N) : iblk7 V c 2 t = shf V c :=
  funext fun y => at_congr (V c main_call0_v105) fun a => win7_2.rect_emb_val_of_index_zero t a ((idx_facts t).2.2.1 a) y

theorem mblk_eq (c : Dev nD) (t : Fin cfg7.N) : iblk7 V c 3 t = wmk V c :=
  funext fun y => at_congr (V c main_call0_v12) fun a => win7_3.rect_emb_val_of_index_zero t a ((idx_facts t).2.2.2.1 a) y

theorem wblk_eq (c : Dev nD) (t : Fin cfg7.N) : iblk7 V c 4 t = wts V c :=
  funext fun y => at_congr (V c main_call0_v103) fun a => win7_4.rect_emb_val_of_index_zero t a ((idx_facts t).2.2.2.2.1 a) y

/-- Where point t's block of the output lies in the array. -/
theorem emb5 (t : Fin cfg7.N) (u : Fin 1) (o : Fin 32) (p : Fin 1024) :
    ((cfg7.win 5).blk t).view.emb (ix3 u o p)
      = (ix3 (⟨t.val, lt_of_lt_of_eq t.isLt N_7⟩ : Fin 128) o p : S128x32x1024.Idx) := by
  obtain ⟨-, -, -, -, -, ⟨e0, e1, e2⟩⟩ := idx_facts t
  funext a
  apply Fin.ext
  match a with
  | ⟨0, _⟩ => show win7_5.index t (0 : Fin 3) * 1 + 1 * u.val = t.val; omega
  | ⟨1, _⟩ => show win7_5.index t (1 : Fin 3) * 32 + 1 * o.val = o.val; omega
  | ⟨2, _⟩ => show win7_5.index t (2 : Fin 3) * 1024 + 1 * p.val = p.val; omega

/-- The output the region leaves, as a function of the arrays it found. -/
def yArr (c : Dev nD) : Vec Ideal S128x32x1024 .f32 := fun i =>
  convCols (wChanMinor (C := 160) (wts V c)) (maskRows (wmk V c))
    (affineRelu (col (scl V c)) (col (shf V c)) (takeCh 160 (by norm_num) (actNM (xbuf V c)))) (i 0) (i 1) (i 2)

/-- What point t contributes to the output is image t's slab of that array. -/
theorem flushed_eq (c : Dev nD) (t : Fin cfg7.N) :
    (dat7 V c).flushed 5 t = ((cfg7.win 5).blk t).view.read (Elt Ideal) (yArr V c) := by
  have ht : t.val < 128 := lt_of_lt_of_eq t.isLt N_7
  show (cfg7.win 5).cut (grid7.coords t) ((dat7 V c).after 5 t) = _
  rw [after7_5]
  unfold out7_5
  rw [View.canon_unit_zero hz3]
  funext y
  obtain ⟨u, o, p, rfl⟩ : ∃ (u : Fin 1) (o : Fin 32) (p : Fin 1024), y = ix3 u o p := ⟨y 0, y 1, y 2, eq_ix3 y⟩
  rw [View.read_apply, emb5]
  refine pay_apply ev _ _ _ _ _ _
    (affineRelu (col (scl V c)) (col (shf V c)) (takeCh 160 (by norm_num) (actNM (xbuf V c))) ⟨t.val, ht⟩)
    (maskRows (wmk V c)) (wChanMinor (C := 160) (wts V c)) (fun ci q => ?_) (fun p' => ?_) (fun p' => ?_)
    (fun o' ci kh kw => ?_) u o p
  · rw [ld_chan (iblk7 V c 0 t) _ ci q ⟨ci.val, by omega⟩ rfl, xblk_apply V c t ⟨t.val, ht⟩ rfl,
      View.ld_unit_zero (S := S160x1) hz2, View.ld_unit_zero (S := S160x1) hz2, sblk_eq, hblk_eq]
    rfl
  · rw [ld_row _ 0 _ p' 0 rfl, mblk_eq]
    rfl
  · rw [ld_row _ 1 _ p' 1 rfl, mblk_eq]
    rfl
  · rw [View.ld_unit_zero (S := S32x1440) hz2, wblk_eq]
    rfl

/-- Every index of the output lies in a point's block: image n's slab in point n's. -/
theorem cover (i : S128x32x1024.Idx) :
    ∃ t : Fin cfg7.N, (cfg7.win 5).flush t = true ∧ i ∈ ((cfg7.win 5).blk t).view.set := by
  obtain ⟨n, o, p, rfl⟩ : ∃ (n : Fin 128) (o : Fin 32) (p : Fin 1024), i = ix3 n o p := ⟨i 0, i 1, i 2, eq_ix3 i⟩
  have h := ((cfg7.win 5).blk ⟨n.val, lt_of_lt_of_eq n.isLt N_7.symm⟩).view.emb_mem_set (ix3 (0 : Fin 1) o p)
  rw [emb5] at h
  exact ⟨_, flush7_5 _, h⟩

/-- The output, read image-major, is the convolution of the rectified first 160 channels of the buffer. -/
theorem arr_y (c : Dev nD) :
    actNM (yOut V c) = convCols (wChanMinor (C := 160) (wts V c)) (maskRows (wmk V c))
      (affineRelu (col (scl V c)) (col (shf V c)) (takeCh 160 (by norm_num) (actNM (xbuf V c)))) := by
  rw [show yOut V c = yArr V c from (dat7 V c).arrAt_eq_of_cover 5 (yArr V c) (fun t _ => flushed_eq V c t) cover]
  rfl

end Cert.RC7

end
-- ==== Proof.RHost3.lean ====
import proofs.«136216_g2000306190186476_pallasbulk_240_40_alg».proof.Proof.RHost

set_option maxRecDepth 16384
noncomputable section

namespace Cert.RHost
open Cert.ReferenceIdeal Cert.ReferenceIdeal.Gen Cert.Spec Cert.Views
open Idealize.ShloMosaic Idealize.ShloMosaic.TcCoe Idealize.ShloMosaic.ValueIdx Idealize.SL.Sem

section Stats3
variable (W : Valuation τ sig (Elt Ideal))

abbrev momL3 : Vec Ideal S160x2 .f32 := W (Proc.devRef .tc main_call0_v85)

abbrev gamL3 : Vec Ideal S160 .f32 := W (Proc.devRef .tc main_arg10)
abbrev betL3 : Vec Ideal S160 .f32 := W (Proc.devRef .tc main_arg11)

abbrev wgtL3 : Vec Ideal S32x160x3x3 .f32 := W (Proc.devRef .tc main_arg12)

theorem h7_scaleTerm : (StableHlo.after hostOps7 W (Proc.devRef .tc main_call0_v104) : Vec Ideal S160x1 .f32)
    = shapeCast S160x1 (scaleV (C := 160) slices_S160x2_S160x1_0_0 slices_S160x2_S160x1_0_1 shapeCasts_S160x1_S160 bcast_S_S160
        (momL3 W) (gamL3 W)) shapeCasts_S160_S160x1 := by
  show StableHlo.after hostOps7 W (Proc.devRef .tc main_call0_v104) = _
  after_results_simp
  simp only [ofBuf_toBuf]
  rfl

theorem h7_shiftTerm : (StableHlo.after hostOps7 W (Proc.devRef .tc main_call0_v105) : Vec Ideal S160x1 .f32)
    = shapeCast S160x1 (shiftV (C := 160) slices_S160x2_S160x1_0_0 slices_S160x2_S160x1_0_1 shapeCasts_S160x1_S160 bcast_S_S160
        (momL3 W) (gamL3 W) (betL3 W)) shapeCasts_S160_S160x1 := by
  show StableHlo.after hostOps7 W (Proc.devRef .tc main_call0_v105) = _
  after_results_simp
  simp only [ofBuf_toBuf]
  rfl

theorem h7_wTerm : (StableHlo.after hostOps7 W (Proc.devRef .tc main_call0_v103) : Vec Ideal S32x1440 .f32)
    = shapeCast S32x1440 (transpose S32x3x3x160 [0, 2, 3, 1] (wgtL3 W) transposes_S32x160x3x3_S32x3x3x160_0_2_3_1)
        shapeCasts_S32x3x3x160_S32x1440 := by
  show StableHlo.after hostOps7 W (Proc.devRef .tc main_call0_v103) = _
  after_results <;> rfl

end Stats3

section Scatter3
variable (W : Valuation τ sig (Elt Ideal))

theorem h8_scatterTerm : (StableHlo.after hostOps8 W (Proc.devRef .tc main_call0_v108) : Vec Ideal S128x256x1024 .f32)
    = Host.scatter sd (fun _ b => b) (W (Proc.devRef .tc main_call0_v84) : Vec Ideal S128x256x1024 .f32)
        (broadcastInDim S1 ![] bcast_S_S1 (constantI S_ 32 160#32))
        (W (Proc.devRef .tc main_call0_v106) : Vec Ideal S128x32x1024 .f32) := by
  show StableHlo.after hostOps8 W (Proc.devRef .tc main_call0_v108) = _
  after_results
  simp only [ofBuf_toBuf]
  refine toBuf_eq _ _ _ (heq_of_eq ?_)
  exact congrArg₂ (fun a c => Host.scatter sd (fun _ b => b) a (broadcastInDim S1 ![] bcast_S_S1 (constantI S_ 32 160#32)) c)
    (ofBuf_eq _ _ _ HEq.rfl) (ofBuf_eq _ _ _ HEq.rfl)

end Scatter3

end Cert.RHost
end
-- ==== Proof.RThread3.lean ====
import proofs.«136216_g2000306190186476_pallasbulk_240_40_alg».proof.Proof.RS6
import proofs.«136216_g2000306190186476_pallasbulk_240_40_alg».proof.Proof.RC7
import proofs.«136216_g2000306190186476_pallasbulk_240_40_alg».proof.Proof.RHost3
import proofs.«136216_g2000306190186476_pallasbulk_240_40_alg».proof.Proof.RThreadCarry
import proofs.«136216_g2000306190186476_pallasbulk_240_40_alg».proof.Proof.RThreadBase
import proofs.«136216_g2000306190186476_pallasbulk_240_40_alg».proof.Proof.RThreadArgs

set_option maxRecDepth 16384

noncomputable section

namespace Cert.RThread

open Cert.ReferenceIdeal Cert.ReferenceIdeal.Gen Cert.Spec Cert.Views Cert.Block Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 3 is `layer_step` at its buffers; a buffer a step does not write is the same before and after it. -/
theorem layer3 (c : Dev nD) (h : Entry (W13 m ρ c main_call0_v84) (W13 m ρ c main_call0_v12) (X3 (args m c))) :
    Entry (W17 m ρ c main_call0_v108) (W17 m ρ c main_call0_v12) (X4 (args m c)) := by
  have b2 : W14 m ρ c main_call0_v84 = W13 m ρ c main_call0_v84 := (W14_arr m ρ c 0).trans ((Pipeline.Dat.arrAt_in (dat6 (V13 m ρ) c) 0 rfl cfg6.N).trans (A_eq6 (V13 m ρ) c 0))
  have b3 : W15 m ρ c main_call0_v84 = W14 m ρ c main_call0_v84 := by host_keeps hostOps7
  have k3 : W15 m ρ c main_call0_v12 = W14 m ρ c main_call0_v12 := by host_keeps hostOps7
  have k5 : W17 m ρ c main_call0_v12 = W16 m ρ c main_call0_v12 := by host_keeps hostOps8
  exact layer_step (C := 160) (by norm_num) h (W14_arg m ρ c (b := main_arg10) (by decide))
    (W14_arg m ρ c (b := main_arg11) (by decide)) (W14_arg m ρ c (b := main_arg12) (by decide))
    (Cert.RS6.arr_mom (V13 m ρ) c) (W14_arr m ρ c 1) (Cert.RHost.h7_scaleTerm (W14 m ρ c))
    (Cert.RHost.h7_shiftTerm (W14 m ρ c)) (Cert.RHost.h7_wTerm (W14 m ρ c)) (b3.trans b2)
    (k3.trans (W14_of_ne m ρ c main_call0_v12 (by decide))) (Cert.RC7.arr_y (V15 m ρ) c) (W16_arr m ρ c 5)
    ((W16_arr m ρ c 0).trans ((Pipeline.Dat.arrAt_in (dat7 (V15 m ρ) c) 0 rfl cfg7.N).trans (A_eq7 (V15 m ρ) c 0)))
    (Cert.RHost.h8_scatterTerm (W16 m ρ c)) (fun _ => rfl)
    (k5.trans ((W16_arr m ρ c 3).trans ((Pipeline.Dat.arrAt_in (dat7 (V15 m ρ) c) 3 rfl cfg7.N).trans (A_eq7 (V15 m ρ) c 3))))

end Cert.RThread

end
-- ==== Proof.RS8.lean ====
import proofs.«136216_g2000306190186476_pallasbulk_240_40_alg».proof.Proof.Gen.ReferenceIdeal.Frame
import proofs.«136216_g2000306190186476_pallasbulk_240_40_alg».proof.Proof.ChanMoments

set_option maxRecDepth 16384

noncomputable section

namespace Cert.RS8

open Cert.ReferenceIdeal Cert.ReferenceIdeal.Gen Cert.Spec Cert.Views Cert.ChanMoments Idealize.ShloMosaic Idealize.ShloMosaic.TcCoe Idealize.ShloMosaic.ValueIdx Idealize.SL.Sem
open Idealize.ShloMosaic.Pipeline (Dat Cfg Window)

section Pieces
variable {F : FTy → Type} [FloatOps F]

/-- A later point adds its moments onto what the accumulator held. -/
theorem out_B (c i a1 h1 a2 h2 hc) (x : Vec F S1x256x1024 .f32) (xo) :
    out8_B_1 c i a1 h1 a2 h2 hc x xo = k8_pay2 (rowsOf x inb_S1x256x1024_S1x192x1024_0_0_0) xo := by
  unfold out8_B_1
  rw [View.read_writes_eq_canon _ _ _ (cover8_B_1 c i a1 h1 a2 h2 hc x xo)]
  unfold kernelRun8_B
  dsimp only
  sl_unfold_words
  rw [View.canon_unit_zero hz2]
  simp only [View.readAt_eq_ld, h1.read_unread, h2.read_unread, View.ld_unit_zero (S := S192x2) hz2]

/-- The first point adds its moments onto zeros. -/
theorem out_A (c i a1 h1 a2 h2 hc) (x : Vec F S1x256x1024 .f32) :
    out8_A_1 c i a1 h1 a2 h2 hc x = k8_pay2 (rowsOf x inb_S1x256x1024_S1x192x1024_0_0_0) (k8_pay1 (F := F)) := by
  unfold out8_A_1
  rw [View.read_writes_eq_canon _ _ _ (cover8_A_1 c i a1 h1 a2 h2 hc x)]
  unfold kernelRun8_A
  dsimp only
  sl_unfold_words
  rw [View.canon_cons_unit_zero (S := S192x2) hz2, View.readCov_unit_zero (S := S192x2) _ hz2]
  simp only [View.readAt_eq_ld, h1.read_unread, View.ld_unit_zero (S := S192x2) hz2]

end Pieces

variable (V : (c : Dev nD) → (b : Ref sig .tc) → Buf (Elt Ideal) ((c : Thread nD τ).loc b))

abbrev xbuf (c : Dev nD) : Vec Ideal S128x256x1024 .f32 := V c main_call0_v108
abbrev momOut (c : Dev nD) : Vec Ideal S192x2 .f32 := (dat8 V c).arrAt 1 cfg8.N
abbrev xblk (c : Dev nD) (t : Fin cfg8.N) : Vec Ideal S1x256x1024 .f32 := iblk8 V c 0 t

theorem idx_in : ∀ t : Fin cfg8.N, win8_0.index t 0 = t.val ∧ win8_0.index t 1 = 0 ∧ win8_0.index t 2 = 0 :=
  (by decide +kernel : ∀ t : Fin grid8.N, win8_0.index t 0 = t.val ∧ win8_0.index t 1 = 0 ∧ win8_0.index t 2 = 0)

/-- Point t's block is image t of the buffer. -/
theorem xblk_apply (c : Dev nD) (t : Fin cfg8.N) (ht : t.val < 128) (ch : Fin 256) (p : Fin 1024) :
    xblk V c t (ix3 (0 : Fin 1) ch p) = xbuf V c (ix3 (⟨t.val, ht⟩ : Fin 128) ch p) := by
  obtain ⟨i0, i1, i2⟩ := idx_in t
  unfold xblk iblk8
  rw [View.read_apply]
  show V c main_call0_v108 _ = V c main_call0_v108 _
  congr 1
  funext a
  apply Fin.ext
  match a with
  | ⟨0, _⟩ => show win8_0.index t 0 * 1 + 1 * 0 = t.val; rw [i0]; omega
  | ⟨1, _⟩ => show win8_0.index t 1 * 256 + 1 * ch.val = ch.val; rw [i1]; omega
  | ⟨2, _⟩ => show win8_0.index t 2 * 1024 + 1 * p.val = p.val; rw [i2]; omega

abbrev tLast : Fin cfg8.N := ⟨127, by rw [show cfg8.N = 128 from N_8]; decide⟩

theorem idx_out : ∀ t : Fin cfg8.N, ∀ a, win8_1.index t a = 0 :=
  (by decide +kernel : ∀ t : Fin grid8.N, ∀ a, win8_1.index t a = 0)

theorem flushed_eq (c : Dev nD) (t : Fin cfg8.N) (hf : (cfg8.win 1).flush t = true) :
    (dat8 V c).flushed 1 t = ((cfg8.win 1).blk t).view.read (Elt Ideal) (outsAt8 V c tLast.val tLast.isLt) := by
  have hN : cfg8.N = 128 := N_8
  have h3 : t.val = 127 := by have := (flush8_1 t).mp hf; have := t.isLt; omega
  obtain rfl : t = tLast := Fin.ext h3
  show (cfg8.win 1).cut (grid8.coords tLast) ((dat8 V c).after 1 tLast) = _
  rw [after8_1]
  have hz' : (fun a => win8_1.index tLast a * main_call0_v109.ty.shape.size a) = fun _ => 0 :=
    funext fun a => by rw [idx_out tLast a, Nat.zero_mul]
  exact (Memref.read_access_unit_zero (Elt Ideal) main_call0_v109 hz' (fun a => by rw [congrFun hz' a]; simp) _).symm

theorem final (c : Dev nD) : momOut V c = outsAt8 V c tLast.val tLast.isLt :=
  (dat8 V c).arrAt_eq_of_cover 1 (outsAt8 V c tLast.val tLast.isLt) (flushed_eq V c) fun i =>
    ⟨tLast, (flush8_1 tLast).mpr rfl, by
      show i ∈ ((View.whole main_call0_v109).slice (win8_1.rect tLast)).set
      rw [View.set_slice_whole, Rect.mem_set_unit]
      intro a
      match a with
      | ⟨0, _⟩ => exact mem_block_zero (idx_out tLast 0) rfl (i 0).isLt
      | ⟨1, _⟩ => exact mem_block_zero (idx_out tLast 1) rfl (i 1).isLt⟩

/-- The table's two columns are the two channel moments of the buffer's first 192 channels. -/
theorem arr_mom (c : Dev nD) (ch : Fin 192) :
    mom2 (momOut V c) 0 ch = sum1 (takeCh 192 (by norm_num) (actNM (xbuf V c))) ch
  ∧ mom2 (momOut V c) 1 ch = sum2 (takeCh 192 (by norm_num) (actNM (xbuf V c))) ch :=
  moments N_8 (by norm_num) (xbuf V c) (xblk V c) inb_S1x256x1024_S1x192x1024_0_0_0 (xblk_apply V c) (outsAt8 V c)
    (k8_pay1 (F := Ideal)) (fun _ => by unfold k8_pay1; exact Ideal.ofBits_zero_f32)
    (k8_pay2 (F := Ideal)) (fun v a ch m => by unfold k8_pay2; exact pay2_apply v a _ _ _ _ _ _ _ ch m)
    (fun t h0 => (outsAt8_A V c t h0).trans (out_A (F := Ideal) c _ _ _ _ _ _ _))
    (fun t h0 => (outsAt8_B V c t h0).trans (out_B (F := Ideal) c _ _ _ _ _ _ _ _))
    (momOut V c) (fun _ => final V c) ch

end Cert.RS8

end
-- ==== Proof.RC9.lean ====
import proofs.«136216_g2000306190186476_pallasbulk_240_40_alg».proof.Proof.Gen.ReferenceIdeal.Frame
import proofs.«136216_g2000306190186476_pallasbulk_240_40_alg».proof.Proof.Views
import proofs.«136216_g2000306190186476_pallasbulk_240_40_alg».proof.Proof.ConvRows

set_option maxRecDepth 16384

noncomputable section

namespace Cert.RC9

open Cert.ReferenceIdeal Cert.ReferenceIdeal.Gen Cert.Spec Cert.Views Cert.ConvRows Idealize.ShloMosaic
  Idealize.ShloMosaic.TcCoe Idealize.ShloMosaic.ValueIdx Idealize.SL.Sem

variable (V : (c : Dev nD) → (b : Ref sig .tc) → Buf (Elt Ideal) ((c : Thread nD τ).loc b))

theorem ev : Ev 192 := ⟨by decide, by decide, by decide, by decide, by decide⟩

abbrev xbuf (c : Dev nD) : Vec Ideal S128x256x1024 .f32 := V c main_call0_v108
abbrev scl (c : Dev nD) : Vec Ideal S192x1 .f32 := V c main_call0_v128
abbrev shf (c : Dev nD) : Vec Ideal S192x1 .f32 := V c main_call0_v129
abbrev wmk (c : Dev nD) : Vec Ideal S2x1024 .f32 := V c main_call0_v12
abbrev wts (c : Dev nD) : Vec Ideal S32x1728 .f32 := V c main_call0_v127
abbrev yOut (c : Dev nD) : Vec Ideal S128x32x1024 .f32 := (dat9 V c).arrAt 5 cfg9.N

theorem idx_facts : ∀ t : Fin cfg9.N,
    (win9_0.index t (0 : Fin 3) = t.val ∧ win9_0.index t (1 : Fin 3) = 0 ∧ win9_0.index t (2 : Fin 3) = 0)
    ∧ (∀ a, win9_1.index t a = 0) ∧ (∀ a, win9_2.index t a = 0) ∧ (∀ a, win9_3.index t a = 0) ∧ (∀ a, win9_4.index t a = 0)
    ∧ (win9_5.index t (0 : Fin 3) = t.val ∧ win9_5.index t (1 : Fin 3) = 0 ∧ win9_5.index t (2 : Fin 3) = 0) :=
  (by decide +kernel : ∀ t : Fin grid9.N, _)

theorem xblk_apply (c : Dev nD) (t : Fin cfg9.N) (n : Fin 128) (hn : n.val = t.val) (ch : Fin 256) (q : Fin 1024) :
    iblk9 V c 0 t (ix3 (0 : Fin 1) ch q) = xbuf V c (ix3 n ch q) := by
  obtain ⟨⟨e0, e1, e2⟩, -⟩ := idx_facts t
  refine at_congr (V c main_call0_v108) fun a => ?_
  match a with
  | ⟨0, _⟩ => show win9_0.index t (0 : Fin 3) * 1 + 1 * 0 = n.val; omega
  | ⟨1, _⟩ => show win9_0.index t (1 : Fin 3) * 256 + 1 * ch.val = ch.val; omega
  | ⟨2, _⟩ => show win9_0.index t (2 : Fin 3) * 1024 + 1 * q.val = q.val; omega

theorem sblk_eq (c : Dev nD) (t : Fin cfg9.N) : iblk9 V c 1 t = scl V c :=
  funext fun y => at_congr (V c main_call0_v128) fun a => win9_1.rect_emb_val_of_index_zero t a ((idx_facts t).2.1 a) y

theorem hblk_eq (c : Dev nD) (t : Fin cfg9.N) : iblk9 V c 2 t = shf V c :=
  funext fun y => at_congr (V c main_call0_v129) fun a => win9_2.rect_emb_val_of_index_zero t a ((idx_facts t).2.2.1 a) y

theorem mblk_eq (c : Dev nD) (t : Fin cfg9.N) : iblk9 V c 3 t = wmk V c :=
  funext fun y => at_congr (V c main_call0_v12) fun a => win9_3.rect_emb_val_of_index_zero t a ((idx_facts t).2.2.2.1 a) y

theorem wblk_eq (c : Dev nD) (t : Fin cfg9.N) : iblk9 V c 4 t = wts V c :=
  funext fun y => at_congr (V c main_call0_v127) fun a => win9_4.rect_emb_val_of_index_zero t a ((idx_facts t).2.2.2.2.1 a) y

/-- Where point t's block of the output lies in the array. -/
theorem emb5 (t : Fin cfg9.N) (u : Fin 1) (o : Fin 32) (p : Fin 1024) :
    ((cfg9.win 5).blk t).view.emb (ix3 u o p)
      = (ix3 (⟨t.val, lt_of_lt_of_eq t.isLt N_9⟩ : Fin 128) o p : S128x32x1024.Idx) := by
  obtain ⟨-, -, -, -, -, ⟨e0, e1, e2⟩⟩ := idx_facts t
  funext a
  apply Fin.ext
  match a with
  | ⟨0, _⟩ => show win9_5.index t (0 : Fin 3) * 1 + 1 * u.val = t.val; omega
  | ⟨1, _⟩ => show win9_5.index t (1 : Fin 3) * 32 + 1 * o.val = o.val; omega
  | ⟨2, _⟩ => show win9_5.index t (2 : Fin 3) * 1024 + 1 * p.val = p.val; omega

/-- The output the region leaves, as a function of the arrays it found. -/
def yArr (c : Dev nD) : Vec Ideal S128x32x1024 .f32 := fun i =>
  convCols (wChanMinor (C := 192) (wts V c)) (maskRows (wmk V c))
    (affineRelu (col (scl V c)) (col (shf V c)) (takeCh 192 (by norm_num) (actNM (xbuf V c)))) (i 0) (i 1) (i 2)

/-- What point t contributes to the output is image t's slab of that array. -/
theorem flushed_eq (c : Dev nD) (t : Fin cfg9.N) :
    (dat9 V c).flushed 5 t = ((cfg9.win 5).blk t).view.read (Elt Ideal) (yArr V c) := by
  have ht : t.val < 128 := lt_of_lt_of_eq t.isLt N_9
  show (cfg9.win 5).cut (grid9.coords t) ((dat9 V c).after 5 t) = _
  rw [after9_5]
  unfold out9_5
  rw [View.canon_unit_zero hz3]
  funext y
  obtain ⟨u, o, p, rfl⟩ : ∃ (u : Fin 1) (o : Fin 32) (p : Fin 1024), y = ix3 u o p := ⟨y 0, y 1, y 2, eq_ix3 y⟩
  rw [View.read_apply, emb5]
  refine pay_apply ev _ _ _ _ _ _
    (affineRelu (col (scl V c)) (col (shf V c)) (takeCh 192 (by norm_num) (actNM (xbuf V c))) ⟨t.val, ht⟩)
    (maskRows (wmk V c)) (wChanMinor (C := 192) (wts V c)) (fun ci q => ?_) (fun p' => ?_) (fun p' => ?_)
    (fun o' ci kh kw => ?_) u o p
  · rw [ld_chan (iblk9 V c 0 t) _ ci q ⟨ci.val, by omega⟩ rfl, xblk_apply V c t ⟨t.val, ht⟩ rfl,
      View.ld_unit_zero (S := S192x1) hz2, View.ld_unit_zero (S := S192x1) hz2, sblk_eq, hblk_eq]
    rfl
  · rw [ld_row _ 0 _ p' 0 rfl, mblk_eq]
    rfl
  · rw [ld_row _ 1 _ p' 1 rfl, mblk_eq]
    rfl
  · rw [View.ld_unit_zero (S := S32x1728) hz2, wblk_eq]
    rfl

/-- Every index of the output lies in a point's block: image n's slab in point n's. -/
theorem cover (i : S128x32x1024.Idx) :
    ∃ t : Fin cfg9.N, (cfg9.win 5).flush t = true ∧ i ∈ ((cfg9.win 5).blk t).view.set := by
  obtain ⟨n, o, p, rfl⟩ : ∃ (n : Fin 128) (o : Fin 32) (p : Fin 1024), i = ix3 n o p := ⟨i 0, i 1, i 2, eq_ix3 i⟩
  have h := ((cfg9.win 5).blk ⟨n.val, lt_of_lt_of_eq n.isLt N_9.symm⟩).view.emb_mem_set (ix3 (0 : Fin 1) o p)
  rw [emb5] at h
  exact ⟨_, flush9_5 _, h⟩

/-- The output, read image-major, is the convolution of the rectified first 192 channels of the buffer. -/
theorem arr_y (c : Dev nD) :
    actNM (yOut V c) = convCols (wChanMinor (C := 192) (wts V c)) (maskRows (wmk V c))
      (affineRelu (col (scl V c)) (col (shf V c)) (takeCh 192 (by norm_num) (actNM (xbuf V c)))) := by
  rw [show yOut V c = yArr V c from (dat9 V c).arrAt_eq_of_cover 5 (yArr V c) (fun t _ => flushed_eq V c t) cover]
  rfl

end Cert.RC9

end
-- ==== Proof.RHost4.lean ====
import proofs.«136216_g2000306190186476_pallasbulk_240_40_alg».proof.Proof.RHost

set_option maxRecDepth 16384
noncomputable section

namespace Cert.RHost
open Cert.ReferenceIdeal Cert.ReferenceIdeal.Gen Cert.Spec Cert.Views
open Idealize.ShloMosaic Idealize.ShloMosaic.TcCoe Idealize.ShloMosaic.ValueIdx Idealize.SL.Sem

section Stats4
variable (W : Valuation τ sig (Elt Ideal))

abbrev momL4 : Vec Ideal S192x2 .f32 := W (Proc.devRef .tc main_call0_v109)

abbrev gamL4 : Vec Ideal S192 .f32 := W (Proc.devRef .tc main_arg13)
abbrev betL4 : Vec Ideal S192 .f32 := W (Proc.devRef .tc main_arg14)

abbrev wgtL4 : Vec Ideal S32x192x3x3 .f32 := W (Proc.devRef .tc main_arg15)

theorem h9_scaleTerm : (StableHlo.after hostOps9 W (Proc.devRef .tc main_call0_v128) : Vec Ideal S192x1 .f32)
    = shapeCast S192x1 (scaleV (C := 192) slices_S192x2_S192x1_0_0 slices_S192x2_S192x1_0_1 shapeCasts_S192x1_S192 bcast_S_S192
        (momL4 W) (gamL4 W)) shapeCasts_S192_S192x1 := by
  show StableHlo.after hostOps9 W (Proc.devRef .tc main_call0_v128) = _
  after_results_simp
  simp only [ofBuf_toBuf]
  rfl

theorem h9_shiftTerm : (StableHlo.after hostOps9 W (Proc.devRef .tc main_call0_v129) : Vec Ideal S192x1 .f32)
    = shapeCast S192x1 (shiftV (C := 192) slices_S192x2_S192x1_0_0 slices_S192x2_S192x1_0_1 shapeCasts_S192x1_S192 bcast_S_S192
        (momL4 W) (gamL4 W) (betL4 W)) shapeCasts_S192_S192x1 := by
  show StableHlo.after hostOps9 W (Proc.devRef .tc main_call0_v129) = _
  after_results_simp
  simp only [ofBuf_toBuf]
  rfl

theorem h9_wTerm : (StableHlo.after hostOps9 W (Proc.devRef .tc main_call0_v127) : Vec Ideal S32x1728 .f32)
    = shapeCast S32x1728 (transpose S32x3x3x192 [0, 2, 3, 1] (wgtL4 W) transposes_S32x192x3x3_S32x3x3x192_0_2_3_1)
        shapeCasts_S32x3x3x192_S32x1728 := by
  show StableHlo.after hostOps9 W (Proc.devRef .tc main_call0_v127) = _
  after_results <;> rfl

end Stats4

section Scatter4
variable (W : Valuation τ sig (Elt Ideal))

theorem h10_scatterTerm : (StableHlo.after hostOps10 W (Proc.devRef .tc main_call0_v132) : Vec Ideal S128x256x1024 .f32)
    = Host.scatter sd (fun _ b => b) (W (Proc.devRef .tc main_call0_v108) : Vec Ideal S128x256x1024 .f32)
        (broadcastInDim S1 ![] bcast_S_S1 (constantI S_ 32 192#32))
        (W (Proc.devRef .tc main_call0_v130) : Vec Ideal S128x32x1024 .f32) := by
  show StableHlo.after hostOps10 W (Proc.devRef .tc main_call0_v132) = _
  after_results
  simp only [ofBuf_toBuf]
  refine toBuf_eq _ _ _ (heq_of_eq ?_)
  exact congrArg₂ (fun a c => Host.scatter sd (fun _ b => b) a (broadcastInDim S1 ![] bcast_S_S1 (constantI S_ 32 192#32)) c)
    (ofBuf_eq _ _ _ HEq.rfl) (ofBuf_eq _ _ _ HEq.rfl)

end Scatter4

end Cert.RHost
end
-- ==== Proof.RThread4.lean ====
import proofs.«136216_g2000306190186476_pallasbulk_240_40_alg».proof.Proof.RS8
import proofs.«136216_g2000306190186476_pallasbulk_240_40_alg».proof.Proof.RC9
import proofs.«136216_g2000306190186476_pallasbulk_240_40_alg».proof.Proof.RHost4
import proofs.«136216_g2000306190186476_pallasbulk_240_40_alg».proof.Proof.RThreadCarry
import proofs.«136216_g2000306190186476_pallasbulk_240_40_alg».proof.Proof.RThreadBase
import proofs.«136216_g2000306190186476_pallasbulk_240_40_alg».proof.Proof.RThreadArgs

set_option maxRecDepth 16384

noncomputable section

namespace Cert.RThread

open Cert.ReferenceIdeal Cert.ReferenceIdeal.Gen Cert.Spec Cert.Views Cert.Block Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 4 is `layer_step` at its buffers; a buffer a step does not write is the same before and after it. -/
theorem layer4 (c : Dev nD) (h : Entry (W17 m ρ c main_call0_v108) (W17 m ρ c main_call0_v12) (X4 (args m c))) :
    Entry (W21 m ρ c main_call0_v132) (W21 m ρ c main_call0_v12) (X5 (args m c)) := by
  have b2 : W18 m ρ c main_call0_v108 = W17 m ρ c main_call0_v108 := (W18_arr m ρ c 0).trans ((Pipeline.Dat.arrAt_in (dat8 (V17 m ρ) c) 0 rfl cfg8.N).trans (A_eq8 (V17 m ρ) c 0))
  have b3 : W19 m ρ c main_call0_v108 = W18 m ρ c main_call0_v108 := by host_keeps hostOps9
  have k3 : W19 m ρ c main_call0_v12 = W18 m ρ c main_call0_v12 := by host_keeps hostOps9
  have k5 : W21 m ρ c main_call0_v12 = W20 m ρ c main_call0_v12 := by host_keeps hostOps10
  exact layer_step (C := 192) (by norm_num) h (W18_arg m ρ c (b := main_arg13) (by decide))
    (W18_arg m ρ c (b := main_arg14) (by decide)) (W18_arg m ρ c (b := main_arg15) (by decide))
    (Cert.RS8.arr_mom (V17 m ρ) c) (W18_arr m ρ c 1) (Cert.RHost.h9_scaleTerm (W18 m ρ c))
    (Cert.RHost.h9_shiftTerm (W18 m ρ c)) (Cert.RHost.h9_wTerm (W18 m ρ c)) (b3.trans b2)
    (k3.trans (W18_of_ne m ρ c main_call0_v12 (by decide))) (Cert.RC9.arr_y (V19 m ρ) c) (W20_arr m ρ c 5)
    ((W20_arr m ρ c 0).trans ((Pipeline.Dat.arrAt_in (dat9 (V19 m ρ) c) 0 rfl cfg9.N).trans (A_eq9 (V19 m ρ) c 0)))
    (Cert.RHost.h10_scatterTerm (W20 m ρ c)) (fun _ => rfl)
    (k5.trans ((W20_arr m ρ c 3).trans ((Pipeline.Dat.arrAt_in (dat9 (V19 m ρ) c) 3 rfl cfg9.N).trans (A_eq9 (V19 m ρ) c 3))))

end Cert.RThread

end
-- ==== Proof.RS10.lean ====
import proofs.«136216_g2000306190186476_pallasbulk_240_40_alg».proof.Proof.Gen.ReferenceIdeal.Frame
import proofs.«136216_g2000306190186476_pallasbulk_240_40_alg».proof.Proof.ChanMoments

set_option maxRecDepth 16384

noncomputable section

namespace Cert.RS10

open Cert.ReferenceIdeal Cert.ReferenceIdeal.Gen Cert.Spec Cert.Views Cert.ChanMoments Idealize.ShloMosaic Idealize.ShloMosaic.TcCoe Idealize.ShloMosaic.ValueIdx Idealize.SL.Sem
open Idealize.ShloMosaic.Pipeline (Dat Cfg Window)

section Pieces
variable {F : FTy → Type} [FloatOps F]

/-- A later point adds its moments onto what the accumulator held. -/
theorem out_B (c i a1 h1 a2 h2 hc) (x : Vec F S1x256x1024 .f32) (xo) :
    out10_B_1 c i a1 h1 a2 h2 hc x xo = k10_pay2 (rowsOf x inb_S1x256x1024_S1x224x1024_0_0_0) xo := by
  unfold out10_B_1
  rw [View.read_writes_eq_canon _ _ _ (cover10_B_1 c i a1 h1 a2 h2 hc x xo)]
  unfold kernelRun10_B
  dsimp only
  sl_unfold_words
  rw [View.canon_unit_zero hz2]
  simp only [View.readAt_eq_ld, h1.read_unread, h2.read_unread, View.ld_unit_zero (S := S224x2) hz2]

/-- The first point adds its moments onto zeros. -/
theorem out_A (c i a1 h1 a2 h2 hc) (x : Vec F S1x256x1024 .f32) :
    out10_A_1 c i a1 h1 a2 h2 hc x = k10_pay2 (rowsOf x inb_S1x256x1024_S1x224x1024_0_0_0) (k10_pay1 (F := F)) := by
  unfold out10_A_1
  rw [View.read_writes_eq_canon _ _ _ (cover10_A_1 c i a1 h1 a2 h2 hc x)]
  unfold kernelRun10_A
  dsimp only
  sl_unfold_words
  rw [View.canon_cons_unit_zero (S := S224x2) hz2, View.readCov_unit_zero (S := S224x2) _ hz2]
  simp only [View.readAt_eq_ld, h1.read_unread, View.ld_unit_zero (S := S224x2) hz2]

end Pieces

variable (V : (c : Dev nD) → (b : Ref sig .tc) → Buf (Elt Ideal) ((c : Thread nD τ).loc b))

abbrev xbuf (c : Dev nD) : Vec Ideal S128x256x1024 .f32 := V c main_call0_v132
abbrev momOut (c : Dev nD) : Vec Ideal S224x2 .f32 := (dat10 V c).arrAt 1 cfg10.N
abbrev xblk (c : Dev nD) (t : Fin cfg10.N) : Vec Ideal S1x256x1024 .f32 := iblk10 V c 0 t

theorem idx_in : ∀ t : Fin cfg10.N, win10_0.index t 0 = t.val ∧ win10_0.index t 1 = 0 ∧ win10_0.index t 2 = 0 :=
  (by decide +kernel : ∀ t : Fin grid10.N, win10_0.index t 0 = t.val ∧ win10_0.index t 1 = 0 ∧ win10_0.index t 2 = 0)

/-- Point t's block is image t of the buffer. -/
theorem xblk_apply (c : Dev nD) (t : Fin cfg10.N) (ht : t.val < 128) (ch : Fin 256) (p : Fin 1024) :
    xblk V c t (ix3 (0 : Fin 1) ch p) = xbuf V c (ix3 (⟨t.val, ht⟩ : Fin 128) ch p) := by
  obtain ⟨i0, i1, i2⟩ := idx_in t
  unfold xblk iblk10
  rw [View.read_apply]
  show V c main_call0_v132 _ = V c main_call0_v132 _
  congr 1
  funext a
  apply Fin.ext
  match a with
  | ⟨0, _⟩ => show win10_0.index t 0 * 1 + 1 * 0 = t.val; rw [i0]; omega
  | ⟨1, _⟩ => show win10_0.index t 1 * 256 + 1 * ch.val = ch.val; rw [i1]; omega
  | ⟨2, _⟩ => show win10_0.index t 2 * 1024 + 1 * p.val = p.val; rw [i2]; omega

abbrev tLast : Fin cfg10.N := ⟨127, by rw [show cfg10.N = 128 from N_10]; decide⟩

theorem idx_out : ∀ t : Fin cfg10.N, ∀ a, win10_1.index t a = 0 :=
  (by decide +kernel : ∀ t : Fin grid10.N, ∀ a, win10_1.index t a = 0)

theorem flushed_eq (c : Dev nD) (t : Fin cfg10.N) (hf : (cfg10.win 1).flush t = true) :
    (dat10 V c).flushed 1 t = ((cfg10.win 1).blk t).view.read (Elt Ideal) (outsAt10 V c tLast.val tLast.isLt) := by
  have hN : cfg10.N = 128 := N_10
  have h3 : t.val = 127 := by have := (flush10_1 t).mp hf; have := t.isLt; omega
  obtain rfl : t = tLast := Fin.ext h3
  show (cfg10.win 1).cut (grid10.coords tLast) ((dat10 V c).after 1 tLast) = _
  rw [after10_1]
  have hz' : (fun a => win10_1.index tLast a * main_call0_v133.ty.shape.size a) = fun _ => 0 :=
    funext fun a => by rw [idx_out tLast a, Nat.zero_mul]
  exact (Memref.read_access_unit_zero (Elt Ideal) main_call0_v133 hz' (fun a => by rw [congrFun hz' a]; simp) _).symm

theorem final (c : Dev nD) : momOut V c = outsAt10 V c tLast.val tLast.isLt :=
  (dat10 V c).arrAt_eq_of_cover 1 (outsAt10 V c tLast.val tLast.isLt) (flushed_eq V c) fun i =>
    ⟨tLast, (flush10_1 tLast).mpr rfl, by
      show i ∈ ((View.whole main_call0_v133).slice (win10_1.rect tLast)).set
      rw [View.set_slice_whole, Rect.mem_set_unit]
      intro a
      match a with
      | ⟨0, _⟩ => exact mem_block_zero (idx_out tLast 0) rfl (i 0).isLt
      | ⟨1, _⟩ => exact mem_block_zero (idx_out tLast 1) rfl (i 1).isLt⟩

/-- The table's two columns are the two channel moments of the buffer's first 224 channels. -/
theorem arr_mom (c : Dev nD) (ch : Fin 224) :
    mom2 (momOut V c) 0 ch = sum1 (takeCh 224 (by norm_num) (actNM (xbuf V c))) ch
  ∧ mom2 (momOut V c) 1 ch = sum2 (takeCh 224 (by norm_num) (actNM (xbuf V c))) ch :=
  moments N_10 (by norm_num) (xbuf V c) (xblk V c) inb_S1x256x1024_S1x224x1024_0_0_0 (xblk_apply V c) (outsAt10 V c)
    (k10_pay1 (F := Ideal)) (fun _ => by unfold k10_pay1; exact Ideal.ofBits_zero_f32)
    (k10_pay2 (F := Ideal)) (fun v a ch m => by unfold k10_pay2; exact pay2_apply v a _ _ _ _ _ _ _ ch m)
    (fun t h0 => (outsAt10_A V c t h0).trans (out_A (F := Ideal) c _ _ _ _ _ _ _))
    (fun t h0 => (outsAt10_B V c t h0).trans (out_B (F := Ideal) c _ _ _ _ _ _ _ _))
    (momOut V c) (fun _ => final V c) ch

end Cert.RS10

end
-- ==== Proof.RC11.lean ====
import proofs.«136216_g2000306190186476_pallasbulk_240_40_alg».proof.Proof.Gen.ReferenceIdeal.Frame
import proofs.«136216_g2000306190186476_pallasbulk_240_40_alg».proof.Proof.Views
import proofs.«136216_g2000306190186476_pallasbulk_240_40_alg».proof.Proof.ConvRows

set_option maxRecDepth 16384

noncomputable section

namespace Cert.RC11

open Cert.ReferenceIdeal Cert.ReferenceIdeal.Gen Cert.Spec Cert.Views Cert.ConvRows Idealize.ShloMosaic
  Idealize.ShloMosaic.TcCoe Idealize.ShloMosaic.ValueIdx Idealize.SL.Sem

variable (V : (c : Dev nD) → (b : Ref sig .tc) → Buf (Elt Ideal) ((c : Thread nD τ).loc b))

theorem ev : Ev 224 := ⟨by decide, by decide, by decide, by decide, by decide⟩

abbrev xbuf (c : Dev nD) : Vec Ideal S128x256x1024 .f32 := V c main_call0_v132
abbrev scl (c : Dev nD) : Vec Ideal S224x1 .f32 := V c main_call0_v152
abbrev shf (c : Dev nD) : Vec Ideal S224x1 .f32 := V c main_call0_v153
abbrev wmk (c : Dev nD) : Vec Ideal S2x1024 .f32 := V c main_call0_v12
abbrev wts (c : Dev nD) : Vec Ideal S32x2016 .f32 := V c main_call0_v151
abbrev yOut (c : Dev nD) : Vec Ideal S128x32x1024 .f32 := (dat11 V c).arrAt 5 cfg11.N

theorem idx_facts : ∀ t : Fin cfg11.N,
    (win11_0.index t (0 : Fin 3) = t.val ∧ win11_0.index t (1 : Fin 3) = 0 ∧ win11_0.index t (2 : Fin 3) = 0)
    ∧ (∀ a, win11_1.index t a = 0) ∧ (∀ a, win11_2.index t a = 0) ∧ (∀ a, win11_3.index t a = 0) ∧ (∀ a, win11_4.index t a = 0)
    ∧ (win11_5.index t (0 : Fin 3) = t.val ∧ win11_5.index t (1 : Fin 3) = 0 ∧ win11_5.index t (2 : Fin 3) = 0) :=
  (by decide +kernel : ∀ t : Fin grid11.N, _)

theorem xblk_apply (c : Dev nD) (t : Fin cfg11.N) (n : Fin 128) (hn : n.val = t.val) (ch : Fin 256) (q : Fin 1024) :
    iblk11 V c 0 t (ix3 (0 : Fin 1) ch q) = xbuf V c (ix3 n ch q) := by
  obtain ⟨⟨e0, e1, e2⟩, -⟩ := idx_facts t
  refine at_congr (V c main_call0_v132) fun a => ?_
  match a with
  | ⟨0, _⟩ => show win11_0.index t (0 : Fin 3) * 1 + 1 * 0 = n.val; omega
  | ⟨1, _⟩ => show win11_0.index t (1 : Fin 3) * 256 + 1 * ch.val = ch.val; omega
  | ⟨2, _⟩ => show win11_0.index t (2 : Fin 3) * 1024 + 1 * q.val = q.val; omega

theorem sblk_eq (c : Dev nD) (t : Fin cfg11.N) : iblk11 V c 1 t = scl V c :=
  funext fun y => at_congr (V c main_call0_v152) fun a => win11_1.rect_emb_val_of_index_zero t a ((idx_facts t).2.1 a) y

theorem hblk_eq (c : Dev nD) (t : Fin cfg11.N) : iblk11 V c 2 t = shf V c :=
  funext fun y => at_congr (V c main_call0_v153) fun a => win11_2.rect_emb_val_of_index_zero t a ((idx_facts t).2.2.1 a) y

theorem mblk_eq (c : Dev nD) (t : Fin cfg11.N) : iblk11 V c 3 t = wmk V c :=
  funext fun y => at_congr (V c main_call0_v12) fun a => win11_3.rect_emb_val_of_index_zero t a ((idx_facts t).2.2.2.1 a) y

theorem wblk_eq (c : Dev nD) (t : Fin cfg11.N) : iblk11 V c 4 t = wts V c :=
  funext fun y => at_congr (V c main_call0_v151) fun a => win11_4.rect_emb_val_of_index_zero t a ((idx_facts t).2.2.2.2.1 a) y

/-- Where point t's block of the output lies in the array. -/
theorem emb5 (t : Fin cfg11.N) (u : Fin 1) (o : Fin 32) (p : Fin 1024) :
    ((cfg11.win 5).blk t).view.emb (ix3 u o p)
      = (ix3 (⟨t.val, lt_of_lt_of_eq t.isLt N_11⟩ : Fin 128) o p : S128x32x1024.Idx) := by
  obtain ⟨-, -, -, -, -, ⟨e0, e1, e2⟩⟩ := idx_facts t
  funext a
  apply Fin.ext
  match a with
  | ⟨0, _⟩ => show win11_5.index t (0 : Fin 3) * 1 + 1 * u.val = t.val; omega
  | ⟨1, _⟩ => show win11_5.index t (1 : Fin 3) * 32 + 1 * o.val = o.val; omega
  | ⟨2, _⟩ => show win11_5.index t (2 : Fin 3) * 1024 + 1 * p.val = p.val; omega

/-- The output the region leaves, as a function of the arrays it found. -/
def yArr (c : Dev nD) : Vec Ideal S128x32x1024 .f32 := fun i =>
  convCols (wChanMinor (C := 224) (wts V c)) (maskRows (wmk V c))
    (affineRelu (col (scl V c)) (col (shf V c)) (takeCh 224 (by norm_num) (actNM (xbuf V c)))) (i 0) (i 1) (i 2)

/-- What point t contributes to the output is image t's slab of that array. -/
theorem flushed_eq (c : Dev nD) (t : Fin cfg11.N) :
    (dat11 V c).flushed 5 t = ((cfg11.win 5).blk t).view.read (Elt Ideal) (yArr V c) := by
  have ht : t.val < 128 := lt_of_lt_of_eq t.isLt N_11
  show (cfg11.win 5).cut (grid11.coords t) ((dat11 V c).after 5 t) = _
  rw [after11_5]
  unfold out11_5
  rw [View.canon_unit_zero hz3]
  funext y
  obtain ⟨u, o, p, rfl⟩ : ∃ (u : Fin 1) (o : Fin 32) (p : Fin 1024), y = ix3 u o p := ⟨y 0, y 1, y 2, eq_ix3 y⟩
  rw [View.read_apply, emb5]
  refine pay_apply ev _ _ _ _ _ _
    (affineRelu (col (scl V c)) (col (shf V c)) (takeCh 224 (by norm_num) (actNM (xbuf V c))) ⟨t.val, ht⟩)
    (maskRows (wmk V c)) (wChanMinor (C := 224) (wts V c)) (fun ci q => ?_) (fun p' => ?_) (fun p' => ?_)
    (fun o' ci kh kw => ?_) u o p
  · rw [ld_chan (iblk11 V c 0 t) _ ci q ⟨ci.val, by omega⟩ rfl, xblk_apply V c t ⟨t.val, ht⟩ rfl,
      View.ld_unit_zero (S := S224x1) hz2, View.ld_unit_zero (S := S224x1) hz2, sblk_eq, hblk_eq]
    rfl
  · rw [ld_row _ 0 _ p' 0 rfl, mblk_eq]
    rfl
  · rw [ld_row _ 1 _ p' 1 rfl, mblk_eq]
    rfl
  · rw [View.ld_unit_zero (S := S32x2016) hz2, wblk_eq]
    rfl

/-- Every index of the output lies in a point's block: image n's slab in point n's. -/
theorem cover (i : S128x32x1024.Idx) :
    ∃ t : Fin cfg11.N, (cfg11.win 5).flush t = true ∧ i ∈ ((cfg11.win 5).blk t).view.set := by
  obtain ⟨n, o, p, rfl⟩ : ∃ (n : Fin 128) (o : Fin 32) (p : Fin 1024), i = ix3 n o p := ⟨i 0, i 1, i 2, eq_ix3 i⟩
  have h := ((cfg11.win 5).blk ⟨n.val, lt_of_lt_of_eq n.isLt N_11.symm⟩).view.emb_mem_set (ix3 (0 : Fin 1) o p)
  rw [emb5] at h
  exact ⟨_, flush11_5 _, h⟩

/-- The output, read image-major, is the convolution of the rectified first 224 channels of the buffer. -/
theorem arr_y (c : Dev nD) :
    actNM (yOut V c) = convCols (wChanMinor (C := 224) (wts V c)) (maskRows (wmk V c))
      (affineRelu (col (scl V c)) (col (shf V c)) (takeCh 224 (by norm_num) (actNM (xbuf V c)))) := by
  rw [show yOut V c = yArr V c from (dat11 V c).arrAt_eq_of_cover 5 (yArr V c) (fun t _ => flushed_eq V c t) cover]
  rfl

end Cert.RC11

end
-- ==== Proof.RHost5.lean ====
import proofs.«136216_g2000306190186476_pallasbulk_240_40_alg».proof.Proof.RHost

set_option maxRecDepth 16384
noncomputable section

namespace Cert.RHost
open Cert.ReferenceIdeal Cert.ReferenceIdeal.Gen Cert.Spec Cert.Views
open Idealize.ShloMosaic Idealize.ShloMosaic.TcCoe Idealize.ShloMosaic.ValueIdx Idealize.SL.Sem

section Stats5
variable (W : Valuation τ sig (Elt Ideal))

abbrev momL5 : Vec Ideal S224x2 .f32 := W (Proc.devRef .tc main_call0_v133)

abbrev gamL5 : Vec Ideal S224 .f32 := W (Proc.devRef .tc main_arg16)
abbrev betL5 : Vec Ideal S224 .f32 := W (Proc.devRef .tc main_arg17)

abbrev wgtL5 : Vec Ideal S32x224x3x3 .f32 := W (Proc.devRef .tc main_arg18)

theorem h11_scaleTerm : (StableHlo.after hostOps11 W (Proc.devRef .tc main_call0_v152) : Vec Ideal S224x1 .f32)
    = shapeCast S224x1 (scaleV (C := 224) slices_S224x2_S224x1_0_0 slices_S224x2_S224x1_0_1 shapeCasts_S224x1_S224 bcast_S_S224
        (momL5 W) (gamL5 W)) shapeCasts_S224_S224x1 := by
  show StableHlo.after hostOps11 W (Proc.devRef .tc main_call0_v152) = _
  after_results_simp
  simp only [ofBuf_toBuf]
  rfl

theorem h11_shiftTerm : (StableHlo.after hostOps11 W (Proc.devRef .tc main_call0_v153) : Vec Ideal S224x1 .f32)
    = shapeCast S224x1 (shiftV (C := 224) slices_S224x2_S224x1_0_0 slices_S224x2_S224x1_0_1 shapeCasts_S224x1_S224 bcast_S_S224
        (momL5 W) (gamL5 W) (betL5 W)) shapeCasts_S224_S224x1 := by
  show StableHlo.after hostOps11 W (Proc.devRef .tc main_call0_v153) = _
  after_results_simp
  simp only [ofBuf_toBuf]
  rfl

theorem h11_wTerm : (StableHlo.after hostOps11 W (Proc.devRef .tc main_call0_v151) : Vec Ideal S32x2016 .f32)
    = shapeCast S32x2016 (transpose S32x3x3x224 [0, 2, 3, 1] (wgtL5 W) transposes_S32x224x3x3_S32x3x3x224_0_2_3_1)
        shapeCasts_S32x3x3x224_S32x2016 := by
  show StableHlo.after hostOps11 W (Proc.devRef .tc main_call0_v151) = _
  after_results <;> rfl

end Stats5

section Scatter5
variable (W : Valuation τ sig (Elt Ideal))

theorem h12_scatterTerm : (StableHlo.after hostOps12 W (Proc.devRef .tc main_call0_v156) : Vec Ideal S128x256x1024 .f32)
    = Host.scatter sd (fun _ b => b) (W (Proc.devRef .tc main_call0_v132) : Vec Ideal S128x256x1024 .f32)
        (broadcastInDim S1 ![] bcast_S_S1 (constantI S_ 32 224#32))
        (W (Proc.devRef .tc main_call0_v154) : Vec Ideal S128x32x1024 .f32) := by
  show StableHlo.after hostOps12 W (Proc.devRef .tc main_call0_v156) = _
  after_results
  simp only [ofBuf_toBuf]
  refine toBuf_eq _ _ _ (heq_of_eq ?_)
  exact congrArg₂ (fun a c => Host.scatter sd (fun _ b => b) a (broadcastInDim S1 ![] bcast_S_S1 (constantI S_ 32 224#32)) c)
    (ofBuf_eq _ _ _ HEq.rfl) (ofBuf_eq _ _ _ HEq.rfl)

end Scatter5

end Cert.RHost
end
-- ==== Proof.RThread5.lean ====
import proofs.«136216_g2000306190186476_pallasbulk_240_40_alg».proof.Proof.RS10
import proofs.«136216_g2000306190186476_pallasbulk_240_40_alg».proof.Proof.RC11
import proofs.«136216_g2000306190186476_pallasbulk_240_40_alg».proof.Proof.RHost5
import proofs.«136216_g2000306190186476_pallasbulk_240_40_alg».proof.Proof.RThreadCarry
import proofs.«136216_g2000306190186476_pallasbulk_240_40_alg».proof.Proof.RThreadBase
import proofs.«136216_g2000306190186476_pallasbulk_240_40_alg».proof.Proof.RThreadArgs

set_option maxRecDepth 16384

noncomputable section

namespace Cert.RThread

open Cert.ReferenceIdeal Cert.ReferenceIdeal.Gen Cert.Spec Cert.Views Cert.Block Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 5 is `layer_step` at its buffers; a buffer a step does not write is the same before and after it. -/
theorem layer5 (c : Dev nD) (h : Entry (W21 m ρ c main_call0_v132) (W21 m ρ c main_call0_v12) (X5 (args m c))) :
    Entry (W25 m ρ c main_call0_v156) (W25 m ρ c main_call0_v12) (X6 (args m c)) := by
  have b2 : W22 m ρ c main_call0_v132 = W21 m ρ c main_call0_v132 := (W22_arr m ρ c 0).trans ((Pipeline.Dat.arrAt_in (dat10 (V21 m ρ) c) 0 rfl cfg10.N).trans (A_eq10 (V21 m ρ) c 0))
  have b3 : W23 m ρ c main_call0_v132 = W22 m ρ c main_call0_v132 := by host_keeps hostOps11
  have k3 : W23 m ρ c main_call0_v12 = W22 m ρ c main_call0_v12 := by host_keeps hostOps11
  have k5 : W25 m ρ c main_call0_v12 = W24 m ρ c main_call0_v12 := by host_keeps hostOps12
  exact layer_step (C := 224) (by norm_num) h (W22_arg m ρ c (b := main_arg16) (by decide))
    (W22_arg m ρ c (b := main_arg17) (by decide)) (W22_arg m ρ c (b := main_arg18) (by decide))
    (Cert.RS10.arr_mom (V21 m ρ) c) (W22_arr m ρ c 1) (Cert.RHost.h11_scaleTerm (W22 m ρ c))
    (Cert.RHost.h11_shiftTerm (W22 m ρ c)) (Cert.RHost.h11_wTerm (W22 m ρ c)) (b3.trans b2)
    (k3.trans (W22_of_ne m ρ c main_call0_v12 (by decide))) (Cert.RC11.arr_y (V23 m ρ) c) (W24_arr m ρ c 5)
    ((W24_arr m ρ c 0).trans ((Pipeline.Dat.arrAt_in (dat11 (V23 m ρ) c) 0 rfl cfg11.N).trans (A_eq11 (V23 m ρ) c 0)))
    (Cert.RHost.h12_scatterTerm (W24 m ρ c)) (fun _ => rfl)
    (k5.trans ((W24_arr m ρ c 3).trans ((Pipeline.Dat.arrAt_in (dat11 (V23 m ρ) c) 3 rfl cfg11.N).trans (A_eq11 (V23 m ρ) c 3))))

end Cert.RThread

end
-- ==== Proof.RThread.lean ====
import proofs.«136216_g2000306190186476_pallasbulk_240_40_alg».proof.Proof.RThread0
import proofs.«136216_g2000306190186476_pallasbulk_240_40_alg».proof.Proof.RThread1
import proofs.«136216_g2000306190186476_pallasbulk_240_40_alg».proof.Proof.RThread2
import proofs.«136216_g2000306190186476_pallasbulk_240_40_alg».proof.Proof.RThread3
import proofs.«136216_g2000306190186476_pallasbulk_240_40_alg».proof.Proof.RThread4
import proofs.«136216_g2000306190186476_pallasbulk_240_40_alg».proof.Proof.RThread5

set_option maxRecDepth 16384

noncomputable section

namespace Cert.RThread

open Cert.ReferenceIdeal Cert.ReferenceIdeal.Gen Cert.Spec Cert.Views Cert.Block Cert.SpecAlg
open Idealize.ShloMosaic Idealize.ShloMosaic.TcCoe Idealize.ShloMosaic.ValueIdx Idealize.SL.Sem

variable (m : (ℓ : Loc nD τ sig) → Buf (Elt Ideal) ℓ) (ρ : Dev nD → PrngReg)

/-- The six layers chained leave `X6`, which fills the buffer; the last host operation unflattens each image's pixels. -/
theorem result_eq (c : Dev nD) :
    (W25 m ρ c (Proc.devRef .tc main_v0) : Vec Ideal S128x256x32x32 .f32) = Cert.Block.result (args m c) := by
  have hx := (layer5 m ρ c (layer4 m ρ c (layer3 m ρ c (layer2 m ρ c (layer1 m ρ c (layer0 m ρ c (entry0 m ρ c))))))).1
  rw [padCh_full] at hx
  refine funext fun (i : (⟨4, ![128, 256, 32, 32]⟩ : Shape).Idx) => ?_
  rw [ValueIdx.eq_ix4 i]
  have h2 : (i 2).val < 32 := (i 2).isLt
  have h3 : (i 3).val < 32 := (i 3).isLt
  exact (Cert.RHost.h12_out (W24 m ρ c) (i 0) (i 1) (i 2) (i 3)).trans
    (congrFun (congrFun (congrFun hx (i 0)) (i 1)) ⟨(i 2).val * 32 + (i 3).val, by omega⟩)

end Cert.RThread

end
-- ==== Proof.Final.lean ====
import proofs.«136216_g2000306190186476_pallasbulk_240_40_alg».proof.Defs
import proofs.«136216_g2000306190186476_pallasbulk_240_40_alg».proof.Proof.Gen.Kernel
import proofs.«136216_g2000306190186476_pallasbulk_240_40_alg».proof.Proof.Gen.KernelIdeal
import proofs.«136216_g2000306190186476_pallasbulk_240_40_alg».proof.Proof.Gen.ReferenceIdeal
import proofs.«136216_g2000306190186476_pallasbulk_240_40_alg».proof.Proof.Gen.Pre_finite_inputs
import proofs.«136216_g2000306190186476_pallasbulk_240_40_alg».proof.Proof.Gen.ReferenceIdeal.Frame
import proofs.«136216_g2000306190186476_pallasbulk_240_40_alg».proof.Proof.FrameB
import proofs.«136216_g2000306190186476_pallasbulk_240_40_alg».proof.Proof.FrameK
import proofs.«136216_g2000306190186476_pallasbulk_240_40_alg».proof.Proof.RunK
import proofs.«136216_g2000306190186476_pallasbulk_240_40_alg».proof.Proof.RunR
import proofs.«136216_g2000306190186476_pallasbulk_240_40_alg».proof.Proof.PreReal
import proofs.«136216_g2000306190186476_pallasbulk_240_40_alg».proof.Proof.BlockReal
import proofs.«136216_g2000306190186476_pallasbulk_240_40_alg».proof.Proof.KThread
import proofs.«136216_g2000306190186476_pallasbulk_240_40_alg».proof.Proof.RThread

set_option maxRecDepth 16384

noncomputable section

namespace Cert.Proof.Claims

open Idealize.ShloMosaic Idealize.ShloMosaic.TcCoe Idealize.SL.Sem Cert.Alg

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ => Cert.ReferenceIdeal.Gen.frame m ρ
theorem preserves : Cert.preserves_Kernel_KernelIdeal := trivial

theorem args_real (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KThread.args m c).Real := by
  obtain ⟨h0, h1, h2, h3, h4, h5, h6, h7, h8, h9, h10, h11, h12, h13, h14, h15, h16, h17, h18⟩ :=
    Cert.PreReal.isReal_of_pre _ _ _ _ _ _ _ _ _ _ _ _ _ _ _ _ _ _ _ (hpre c)
  exact ⟨h0, h1, h2, h3, h4, h5, h6, h7, h8, h9, h10, h11, h12, h13, h14, h15, h16, h17, h18⟩

theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.RThread.args m' c = Cert.KThread.args m c := by
  unfold Cert.RThread.args Cert.KThread.args
  congr 1

theorem algebraic : Cert.algebraic_KernelIdeal_ReferenceIdeal := by
  intro m g m' g' hpre hagree
  refine ⟨fun c => Cert.Block.result (Cert.KThread.args m c), ?_, ?_⟩
  · refine (θ_run (Cert.KernelIdeal.defs (F := Ideal)) _ _).mono (fun r h c => ⟨(h c).1.trans ?_, (h c).2⟩)
      (Cert.KernelIdeal.RunV.run (F := Ideal) m g)
    exact Cert.KThread.result_eq m g c (args_real m hpre c)
  · refine (θ_run (Cert.ReferenceIdeal.defs (F := Ideal)) _ _).mono (fun r h c => ⟨(h c).1.trans ?_, (h c).2⟩)
      (Cert.ReferenceIdeal.RunV.run (F := Ideal) m' g')
    refine (Cert.RThread.result_eq m' g' c).trans (congrArg Cert.Block.result ?_)
    obtain ⟨e0, e1, e2, e3, e4, e5, e6, e7, e8, e9, e10, e11, e12, e13, e14, e15, e16, e17, e18⟩ := hagree c
    exact args_agree m m' c e0 e1 e2 e3 e4 e5 e6 e7 e8 e9 e10 e11 e12 e13 e14 e15 e16 e17 e18

end Cert.Proof.Claims

end
-- ==== Proof.lean ====
import proofs.«136216_g2000306190186476_pallasbulk_240_40_alg».proof.Defs
import proofs.«136216_g2000306190186476_pallasbulk_240_40_alg».proof.Proof.Gen.Kernel
import proofs.«136216_g2000306190186476_pallasbulk_240_40_alg».proof.Proof.Gen.KernelIdeal
import proofs.«136216_g2000306190186476_pallasbulk_240_40_alg».proof.Proof.Gen.ReferenceIdeal
import proofs.«136216_g2000306190186476_pallasbulk_240_40_alg».proof.Proof.Gen.Pre_finite_inputs
import proofs.«136216_g2000306190186476_pallasbulk_240_40_alg».proof.Proof.Final
import Idealize.ShloMosaic.Adequacy
import Idealize.ShloMosaic.Init

noncomputable section

namespace Cert.Proof

open Idealize.ShloMosaic Idealize.SL.Sem

/-- Both programs compute the dense block of their argument arrays, and the idealization rewrote nothing. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
